-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x16384 : Shape := ⟨3, ![4, 64, 16384]⟩
abbrev S4x16384x32 : Shape := ⟨3, ![4, 16384, 32]⟩
abbrev S64x64 : Shape := ⟨2, ![64, 64]⟩
abbrev S64 : Shape := ⟨1, ![64]⟩
abbrev S_ : Shape := ⟨0, ![]⟩

class Facts : Prop where
  bcast_S_S4x64x16384 : S_.BroadcastsInDim S4x64x16384 (![] : Fin 0 → Fin S4x64x16384.rank)
  reducesTo_S4x64x16384_S_d0_1_2 : S4x64x16384.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S4x16384x32 : S_.BroadcastsInDim S4x16384x32 (![] : Fin 0 → Fin S4x16384x32.rank)
  reducesTo_S4x16384x32_S_d0_1_2 : S4x16384x32.ReducesTo [0, 1, 2] S_

variable [Facts]

def fn_part1 {F : FTy → Type} [FloatOps F] (main_arg1 : IVec S4x16384x32 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_c_6 : IVec S_ 32 := constantI S_ 32 0#32
  let main_v19 : IVec S4x16384x32 32 := broadcastInDim S4x16384x32 ![] bcast_S_S4x16384x32 main_c_6
  let main_v20 : IVec S4x16384x32 1 := cmpi .sge main_arg1 main_v19
  let main_c_7 : IVec S_ 32 := constantI S_ 32 16384#32
  let main_v21 : IVec S4x16384x32 32 := broadcastInDim S4x16384x32 ![] bcast_S_S4x16384x32 main_c_7
  let main_v22 : IVec S4x16384x32 1 := cmpi .slt main_arg1 main_v21
  let main_v23 : IVec S4x16384x32 1 := andi main_v20 main_v22
  let main_c_8 : IVec S_ 1 := constantI S_ 1 1#1
  let main_v24 : IVec S_ 1 := (fun x v => Host.reduce IntOp.andi x v reducesTo_S4x16384x32_S_d0_1_2 h_S_) main_v23 main_c_8
  let main_v25 : IVec S_ 1 := andi main_v18 main_v24
  main_v25

def fn {F : FTy → Type} [FloatOps F] (main_arg0 : FVec F S4x64x16384 .f32) (main_arg1 : IVec S4x16384x32 32) (main_arg2 : FVec F S64x64 .f32) (main_arg3 : FVec F S64 .f32) (main_arg4 : FVec F S64 .f32) : IVec S_ 1 :=
  let main_v0 : FVec F S4x64x16384 .f32 := Host.absf main_arg0
  let main_cst : FVec F S_ .f32 := constant S_ .f32 0x7F800000#32
  let main_v1 : FVec F S4x64x16384 .f32 := broadcastInDim S4x64x16384 ![] bcast_S_S4x64x16384 main_cst
  let main_v2 : IVec S4x64x16384 1 := cmpf .olt main_v0 main_v1
  let main_c : IVec S_ 1 := constantI S_ 1 1#1
  let main_v3 : IVec S_ 1 := (fun x v => Host.reduce IntOp.andi x v reducesTo_S4x64x16384_S_d0_1_2 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_v13 main_v16
-- ==== Kernel.lean ====
abbrev S4x64x16384 : Shape := ⟨3, ![4, 64, 16384]⟩
abbrev S4x16384x32 : Shape := ⟨3, ![4, 16384, 32]⟩
abbrev S64x64 : Shape := ⟨2, ![64, 64]⟩
abbrev S64 : Shape := ⟨1, ![64]⟩
abbrev S_ : Shape := ⟨0, ![]⟩
abbrev S128x64 : Shape := ⟨2, ![128, 64]⟩
abbrev S4x16384x128 : Shape := ⟨3, ![4, 16384, 128]⟩
abbrev S1x64x2048 : Shape := ⟨3, ![1, 64, 2048]⟩
abbrev S1x2048x128 : Shape := ⟨3, ![1, 2048, 128]⟩
abbrev S64x2048 : Shape := ⟨2, ![64, 2048]⟩
abbrev S2048x128 : Shape := ⟨2, ![2048, 128]⟩
abbrev S1x8x32 : Shape := ⟨3, ![1, 8, 32]⟩
abbrev S1x8x128 : Shape := ⟨3, ![1, 8, 128]⟩
abbrev S32x1x128 : Shape := ⟨3, ![32, 1, 128]⟩
abbrev S32 : Shape := ⟨1, ![32]⟩
abbrev S1x1x1 : Shape := ⟨3, ![1, 1, 1]⟩
abbrev S1 : Shape := ⟨1, ![1]⟩
abbrev S1x1x128 : Shape := ⟨3, ![1, 1, 128]⟩
abbrev S1x128 : Shape := ⟨2, ![1, 128]⟩
abbrev S1x16384x128 : Shape := ⟨3, ![1, 16384, 128]⟩
abbrev S16384x128 : Shape := ⟨2, ![16384, 128]⟩
abbrev S8x128 : Shape := ⟨2, ![8, 128]⟩
abbrev S4x16384x64 : Shape := ⟨3, ![4, 16384, 64]⟩
abbrev S1x1x64 : Shape := ⟨3, ![1, 1, 64]⟩
abbrev S1x64 : Shape := ⟨2, ![1, 64]⟩
abbrev S1x2048x64 : Shape := ⟨3, ![1, 2048, 64]⟩
abbrev S2048x64 : Shape := ⟨2, ![2048, 64]⟩

abbrev nBuf : Space → Nat
  | .hbm => 44
  | .vmem => 16
  | .smem => 2
  | _ => 0

abbrev bufTy : (tb : Table) → Fin (tcTables nBuf tb) → BufTy
  | .hbm, ⟨0, _⟩ => ⟨S4x64x16384, .f32⟩
  | .hbm, ⟨1, _⟩ => ⟨S4x16384x32, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S_, .i32⟩
  | .hbm, ⟨6, _⟩ => ⟨S_, .f32⟩
  | .hbm, ⟨7, _⟩ => ⟨S128x64, .f32⟩
  | .hbm, ⟨8, _⟩ => ⟨S4x16384x128, .f32⟩
  | .hbm, ⟨9, _⟩ => ⟨S4x16384x128, .f32⟩
  | .hbm, ⟨10, _⟩ => ⟨S4x16384x64, .f32⟩
  | .hbm, ⟨11, _⟩ => ⟨S_, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .i32⟩
  | .hbm, ⟨17, _⟩ => ⟨S_, .f32⟩
  | .hbm, ⟨18, _⟩ => ⟨S64, .f32⟩
  | .hbm, ⟨19, _⟩ => ⟨S1x1x64, .f32⟩
  | .hbm, ⟨20, _⟩ => ⟨S_, .f32⟩
  | .hbm, ⟨21, _⟩ => ⟨S1x1x64, .f32⟩
  | .hbm, ⟨22, _⟩ => ⟨S1x1x64, .f32⟩
  | .hbm, ⟨23, _⟩ => ⟨S4x16384x64, .f32⟩
  | .hbm, ⟨24, _⟩ => ⟨S4x16384x64, .f32⟩
  | .hbm, ⟨25, _⟩ => ⟨S4x16384x64, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S64, .f32⟩
  | .hbm, ⟨33, _⟩ => ⟨S_, .f32⟩
  | .hbm, ⟨34, _⟩ => ⟨S_, .i1⟩
  | .hbm, ⟨35, _⟩ => ⟨S_, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S1x64, .f32⟩
  | .hbm, ⟨40, _⟩ => ⟨S1x64, .f32⟩
  | .hbm, ⟨41, _⟩ => ⟨S1x64, .f32⟩
  | .hbm, ⟨42, _⟩ => ⟨S1x64, .f32⟩
  | .hbm, ⟨43, _⟩ => ⟨S4x64x16384, .f32⟩
  | .local _ .vmem, ⟨0, _⟩ => ⟨S1x64x2048, .f32⟩
  | .local _ .vmem, ⟨1, _⟩ => ⟨S1x64x2048, .f32⟩
  | .local _ .vmem, ⟨2, _⟩ => ⟨S128x64, .f32⟩
  | .local _ .vmem, ⟨3, _⟩ => ⟨S1x2048x128, .f32⟩
  | .local _ .vmem, ⟨4, _⟩ => ⟨S1x2048x128, .f32⟩
  | .local _ .vmem, ⟨5, _⟩ => ⟨S1x8x128, .f32⟩
  | .local _ .vmem, ⟨6, _⟩ => ⟨S1x8x128, .f32⟩
  | .local _ .vmem, ⟨7, _⟩ => ⟨S32x1x128, .f32⟩
  | .local _ .vmem, ⟨8, _⟩ => ⟨S1x2048x64, .f32⟩
  | .local _ .vmem, ⟨9, _⟩ => ⟨S1x2048x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64x2048, .f32⟩
  | .local _ .vmem, ⟨15, _⟩ => ⟨S1x64x2048, .f32⟩
  | .local _ .smem, ⟨0, _⟩ => ⟨S1x8x32, .i32⟩
  | .local _ .smem, ⟨1, _⟩ => ⟨S1x8x32, .i32⟩
  | _, _ => ⟨S4x64x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_call1_cst : Ref sig .tc := ⟨.hbm, 17, rfl⟩
abbrev main_call1_v0 : Ref sig .tc := ⟨.hbm, 18, rfl⟩
abbrev main_call1_v1 : Ref sig .tc := ⟨.hbm, 19, rfl⟩
abbrev main_call1_cst_0 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_v6 : Ref sig .tc := ⟨.hbm, 25, rfl⟩
abbrev main_call1_v7 : Ref sig .tc := ⟨.hbm, 26, rfl⟩
abbrev main_call1_cst_1 : Ref sig .tc := ⟨.hbm, 27, rfl⟩
abbrev main_call1_v8 : Ref sig .tc := ⟨.hbm, 28, rfl⟩
abbrev main_call1_cst_2 : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_call1_cst_3 : Ref sig .tc := ⟨.hbm, 33, rfl⟩
abbrev main_call1_v12 : Ref sig .tc := ⟨.hbm, 34, rfl⟩
abbrev main_call1_cst_4 : Ref sig .tc := ⟨.hbm, 35, rfl⟩
abbrev main_call1_call0_v0 : Ref sig .tc := ⟨.hbm, 36, rfl⟩
abbrev main_call1_call0_v1 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_scratch0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg3_0 : Ref sig .tc := ⟨.vmem, 12, rfl⟩
abbrev cc2_stg4_0 : Ref sig .tc := ⟨.vmem, 13, rfl⟩
abbrev cc2_stg5_0 : Ref sig .tc := ⟨.vmem, 14, rfl⟩
abbrev cc2_stg5_1 : Ref sig .tc := ⟨.vmem, 15, rfl⟩
abbrev cc1_stg0_0 : Ref sig .tc := ⟨.smem, 0, rfl⟩
abbrev cc1_stg0_1 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc2_sem0_0 : DmaSem sig := 41
abbrev cc2_sem0_1 : DmaSem sig := 42
abbrev cc2_sem1_0 : DmaSem sig := 43
abbrev cc2_sem2_0 : DmaSem sig := 44
abbrev cc2_sem3_0 : DmaSem sig := 45
abbrev cc2_sem4_0 : DmaSem sig := 46
abbrev cc2_sem5_0 : DmaSem sig := 47
abbrev cc2_sem5_1 : DmaSem sig := 48

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 2048], ![false, false]⟩

def k1_off1 (i : grid1.Coords) : Fin 3 → Nat :=
  let arg0 : BitVec 32 := BitVec.ofNat 32 (i 0).val
  let c0_i32_5 : BitVec 32 := 0#32
  let c0_i32_6 : BitVec 32 := 0#32
  ![arg0.toNat, 0, 0]
def k1_off2 (v0 : BitVec 32) : Fin 2 → Nat :=
  let c0_i32_7 : BitVec 32 := 0#32
  ![v0.toNat, 0]

def k1_chk1 (v0 : BitVec 32) : Prop :=
  (∀ a, (k1_off2 v0) a + S1x128.size a ≤ S16384x128.size a)
instance k1_chk1.dec : ∀ (v0 : BitVec 32), Decidable (k1_chk1 v0) := fun v0 => decidable_of_iff' _ (Iff.of_eq (k1_chk1.eq_1 v0))
theorem k1_off2_inb : ∀ (v0 : BitVec 32) (k1_hw1 : k1_chk1 v0), ∀ a, (k1_off2 v0) a + S1x128.size a ≤ S16384x128.size a := fun v0 k1_hw1 => k1_hw1

def k1_off3 (i : grid1.Coords) : Fin 3 → Nat :=
  let arg0 : BitVec 32 := BitVec.ofNat 32 (i 0).val
  let c0_i32_13 : BitVec 32 := 0#32
  let c0_i32_14 : BitVec 32 := 0#32
  ![arg0.toNat, 0, 0]
def k1_off4 (v8 : BitVec 32) : Fin 2 → Nat :=
  let c0_i32_15 : BitVec 32 := 0#32
  ![v8.toNat, 0]

def k1_chk2 (v8 : BitVec 32) : Prop :=
  (∀ a, (k1_off4 v8) a + S1x128.size a ≤ S16384x128.size a)
instance k1_chk2.dec : ∀ (v8 : BitVec 32), Decidable (k1_chk2 v8) := fun v8 => decidable_of_iff' _ (Iff.of_eq (k1_chk2.eq_1 v8))
theorem k1_off4_inb : ∀ (v8 : BitVec 32) (k1_hw2 : k1_chk2 v8), ∀ a, (k1_off4 v8) a + S1x128.size a ≤ S16384x128.size a := fun v8 k1_hw2 => k1_hw2

def k1_off5 (i : grid1.Coords) : Fin 3 → Nat :=
  let arg0 : BitVec 32 := BitVec.ofNat 32 (i 0).val
  let c0_i32_21 : BitVec 32 := 0#32
  let c0_i32_22 : BitVec 32 := 0#32
  ![arg0.toNat, 0, 0]
def k1_off6 (v16 : BitVec 32) : Fin 2 → Nat :=
  let c0_i32_23 : BitVec 32 := 0#32
  ![v16.toNat, 0]

def k1_chk3 (v16 : BitVec 32) : Prop :=
  (∀ a, (k1_off6 v16) a + S1x128.size a ≤ S16384x128.size a)
instance k1_chk3.dec : ∀ (v16 : BitVec 32), Decidable (k1_chk3 v16) := fun v16 => decidable_of_iff' _ (Iff.of_eq (k1_chk3.eq_1 v16))
theorem k1_off6_inb : ∀ (v16 : BitVec 32) (k1_hw3 : k1_chk3 v16), ∀ a, (k1_off6 v16) a + S1x128.size a ≤ S16384x128.size a := fun v16 k1_hw3 => k1_hw3

def k1_off7 (i : grid1.Coords) : Fin 3 → Nat :=
  let arg0 : BitVec 32 := BitVec.ofNat 32 (i 0).val
  let c0_i32_29 : BitVec 32 := 0#32
  let c0_i32_30 : BitVec 32 := 0#32
  ![arg0.toNat, 0, 0]
def k1_off8 (v24 : BitVec 32) : Fin 2 → Nat :=
  let c0_i32_31 : BitVec 32 := 0#32
  ![v24.toNat, 0]

def k1_chk4 (v24 : BitVec 32) : Prop :=
  (∀ a, (k1_off8 v24) a + S1x128.size a ≤ S16384x128.size a)
instance k1_chk4.dec : ∀ (v24 : BitVec 32), Decidable (k1_chk4 v24) := fun v24 => decidable_of_iff' _ (Iff.of_eq (k1_chk4.eq_1 v24))
theorem k1_off8_inb : ∀ (v24 : BitVec 32) (k1_hw4 : k1_chk4 v24), ∀ a, (k1_off8 v24) a + S1x128.size a ≤ S16384x128.size a := fun v24 k1_hw4 => k1_hw4

def k1_off9 (i : grid1.Coords) : Fin 3 → Nat :=
  let arg0 : BitVec 32 := BitVec.ofNat 32 (i 0).val
  let c0_i32_37 : BitVec 32 := 0#32
  let c0_i32_38 : BitVec 32 := 0#32
  ![arg0.toNat, 0, 0]
def k1_off10 (v32 : BitVec 32) : Fin 2 → Nat :=
  let c0_i32_39 : BitVec 32 := 0#32
  ![v32.toNat, 0]

def k1_chk5 (v32 : BitVec 32) : Prop :=
  (∀ a, (k1_off10 v32) a + S1x128.size a ≤ S16384x128.size a)
instance k1_chk5.dec : ∀ (v32 : BitVec 32), Decidable (k1_chk5 v32) := fun v32 => decidable_of_iff' _ (Iff.of_eq (k1_chk5.eq_1 v32))
theorem k1_off10_inb : ∀ (v32 : BitVec 32) (k1_hw5 : k1_chk5 v32), ∀ a, (k1_off10 v32) a + S1x128.size a ≤ S16384x128.size a := fun v32 k1_hw5 => k1_hw5

def k1_off11 (i : grid1.Coords) : Fin 3 → Nat :=
  let arg0 : BitVec 32 := BitVec.ofNat 32 (i 0).val
  let c0_i32_45 : BitVec 32 := 0#32
  let c0_i32_46 : BitVec 32 := 0#32
  ![arg0.toNat, 0, 0]
def k1_off12 (v40 : BitVec 32) : Fin 2 → Nat :=
  let c0_i32_47 : BitVec 32 := 0#32
  ![v40.toNat, 0]

def k1_chk6 (v40 : BitVec 32) : Prop :=
  (∀ a, (k1_off12 v40) a + S1x128.size a ≤ S16384x128.size a)
instance k1_chk6.dec : ∀ (v40 : BitVec 32), Decidable (k1_chk6 v40) := fun v40 => decidable_of_iff' _ (Iff.of_eq (k1_chk6.eq_1 v40))
theorem k1_off12_inb : ∀ (v40 : BitVec 32) (k1_hw6 : k1_chk6 v40), ∀ a, (k1_off12 v40) a + S1x128.size a ≤ S16384x128.size a := fun v40 k1_hw6 => k1_hw6

def k1_off13 (i : grid1.Coords) : Fin 3 → Nat :=
  let arg0 : BitVec 32 := BitVec.ofNat 32 (i 0).val
  let c0_i32_53 : BitVec 32 := 0#32
  let c0_i32_54 : BitVec 32 := 0#32
  ![arg0.toNat, 0, 0]
def k1_off14 (v48 : BitVec 32) : Fin 2 → Nat :=
  let c0_i32_55 : BitVec 32 := 0#32
  ![v48.toNat, 0]

def k1_chk7 (v48 : BitVec 32) : Prop :=
  (∀ a, (k1_off14 v48) a + S1x128.size a ≤ S16384x128.size a)
instance k1_chk7.dec : ∀ (v48 : BitVec 32), Decidable (k1_chk7 v48) := fun v48 => decidable_of_iff' _ (Iff.of_eq (k1_chk7.eq_1 v48))
theorem k1_off14_inb : ∀ (v48 : BitVec 32) (k1_hw7 : k1_chk7 v48), ∀ a, (k1_off14 v48) a + S1x128.size a ≤ S16384x128.size a := fun v48 k1_hw7 => k1_hw7

def k1_off15 (i : grid1.Coords) : Fin 3 → Nat :=
  let arg0 : BitVec 32 := BitVec.ofNat 32 (i 0).val
  let c0_i32_61 : BitVec 32 := 0#32
  let c0_i32_62 : BitVec 32 := 0#32
  ![arg0.toNat, 0, 0]
def k1_off16 (v56 : BitVec 32) : Fin 2 → Nat :=
  let c0_i32_63 : BitVec 32 := 0#32
  ![v56.toNat, 0]

def k1_chk8 (v56 : BitVec 32) : Prop :=
  (∀ a, (k1_off16 v56) a + S1x128.size a ≤ S16384x128.size a)
instance k1_chk8.dec : ∀ (v56 : BitVec 32), Decidable (k1_chk8 v56) := fun v56 => decidable_of_iff' _ (Iff.of_eq (k1_chk8.eq_1 v56))
theorem k1_off16_inb : ∀ (v56 : BitVec 32) (k1_hw8 : k1_chk8 v56), ∀ a, (k1_off16 v56) a + S1x128.size a ≤ S16384x128.size a := fun v56 k1_hw8 => k1_hw8

def k1_off17 (i : grid1.Coords) : Fin 3 → Nat :=
  let arg0 : BitVec 32 := BitVec.ofNat 32 (i 0).val
  let c0_i32_69 : BitVec 32 := 0#32
  let c0_i32_70 : BitVec 32 := 0#32
  ![arg0.toNat, 0, 0]
def k1_off18 (v64 : BitVec 32) : Fin 2 → Nat :=
  let c0_i32_71 : BitVec 32 := 0#32
  ![v64.toNat, 0]

def k1_chk9 (v64 : BitVec 32) : Prop :=
  (∀ a, (k1_off18 v64) a + S1x128.size a ≤ S16384x128.size a)
instance k1_chk9.dec : ∀ (v64 : BitVec 32), Decidable (k1_chk9 v64) := fun v64 => decidable_of_iff' _ (Iff.of_eq (k1_chk9.eq_1 v64))
theorem k1_off18_inb : ∀ (v64 : BitVec 32) (k1_hw9 : k1_chk9 v64), ∀ a, (k1_off18 v64) a + S1x128.size a ≤ S16384x128.size a := fun v64 k1_hw9 => k1_hw9

def k1_off19 (i : grid1.Coords) : Fin 3 → Nat :=
  let arg0 : BitVec 32 := BitVec.ofNat 32 (i 0).val
  let c0_i32_77 : BitVec 32 := 0#32
  let c0_i32_78 : BitVec 32 := 0#32
  ![arg0.toNat, 0, 0]
def k1_off20 (v72 : BitVec 32) : Fin 2 → Nat :=
  let c0_i32_79 : BitVec 32 := 0#32
  ![v72.toNat, 0]

def k1_chk10 (v72 : BitVec 32) : Prop :=
  (∀ a, (k1_off20 v72) a + S1x128.size a ≤ S16384x128.size a)
instance k1_chk10.dec : ∀ (v72 : BitVec 32), Decidable (k1_chk10 v72) := fun v72 => decidable_of_iff' _ (Iff.of_eq (k1_chk10.eq_1 v72))
theorem k1_off20_inb : ∀ (v72 : BitVec 32) (k1_hw10 : k1_chk10 v72), ∀ a, (k1_off20 v72) a + S1x128.size a ≤ S16384x128.size a := fun v72 k1_hw10 => k1_hw10

def k1_off21 (i : grid1.Coords) : Fin 3 → Nat :=
  let arg0 : BitVec 32 := BitVec.ofNat 32 (i 0).val
  let c0_i32_85 : BitVec 32 := 0#32
  let c0_i32_86 : BitVec 32 := 0#32
  ![arg0.toNat, 0, 0]
def k1_off22 (v80 : BitVec 32) : Fin 2 → Nat :=
  let c0_i32_87 : BitVec 32 := 0#32
  ![v80.toNat, 0]

def k1_chk11 (v80 : BitVec 32) : Prop :=
  (∀ a, (k1_off22 v80) a + S1x128.size a ≤ S16384x128.size a)
instance k1_chk11.dec : ∀ (v80 : BitVec 32), Decidable (k1_chk11 v80) := fun v80 => decidable_of_iff' _ (Iff.of_eq (k1_chk11.eq_1 v80))
theorem k1_off22_inb : ∀ (v80 : BitVec 32) (k1_hw11 : k1_chk11 v80), ∀ a, (k1_off22 v80) a + S1x128.size a ≤ S16384x128.size a := fun v80 k1_hw11 => k1_hw11

def k1_off23 (i : grid1.Coords) : Fin 3 → Nat :=
  let arg0 : BitVec 32 := BitVec.ofNat 32 (i 0).val
  let c0_i32_93 : BitVec 32 := 0#32
  let c0_i32_94 : BitVec 32 := 0#32
  ![arg0.toNat, 0, 0]
def k1_off24 (v88 : BitVec 32) : Fin 2 → Nat :=
  let c0_i32_95 : BitVec 32 := 0#32
  ![v88.toNat, 0]

def k1_chk12 (v88 : BitVec 32) : Prop :=
  (∀ a, (k1_off24 v88) a + S1x128.size a ≤ S16384x128.size a)
instance k1_chk12.dec : ∀ (v88 : BitVec 32), Decidable (k1_chk12 v88) := fun v88 => decidable_of_iff' _ (Iff.of_eq (k1_chk12.eq_1 v88))
theorem k1_off24_inb : ∀ (v88 : BitVec 32) (k1_hw12 : k1_chk12 v88), ∀ a, (k1_off24 v88) a + S1x128.size a ≤ S16384x128.size a := fun v88 k1_hw12 => k1_hw12

def k1_off25 (i : grid1.Coords) : Fin 3 → Nat :=
  let arg0 : BitVec 32 := BitVec.ofNat 32 (i 0).val
  let c0_i32_101 : BitVec 32 := 0#32
  let c0_i32_102 : BitVec 32 := 0#32
  ![arg0.toNat, 0, 0]
def k1_off26 (v96 : BitVec 32) : Fin 2 → Nat :=
  let c0_i32_103 : BitVec 32 := 0#32
  ![v96.toNat, 0]

def k1_chk13 (v96 : BitVec 32) : Prop :=
  (∀ a, (k1_off26 v96) a + S1x128.size a ≤ S16384x128.size a)
instance k1_chk13.dec : ∀ (v96 : BitVec 32), Decidable (k1_chk13 v96) := fun v96 => decidable_of_iff' _ (Iff.of_eq (k1_chk13.eq_1 v96))
theorem k1_off26_inb : ∀ (v96 : BitVec 32) (k1_hw13 : k1_chk13 v96), ∀ a, (k1_off26 v96) a + S1x128.size a ≤ S16384x128.size a := fun v96 k1_hw13 => k1_hw13

def k1_off27 (i : grid1.Coords) : Fin 3 → Nat :=
  let arg0 : BitVec 32 := BitVec.ofNat 32 (i 0).val
  let c0_i32_109 : BitVec 32 := 0#32
  let c0_i32_110 : BitVec 32 := 0#32
  ![arg0.toNat, 0, 0]
def k1_off28 (v104 : BitVec 32) : Fin 2 → Nat :=
  let c0_i32_111 : BitVec 32 := 0#32
  ![v104.toNat, 0]

def k1_chk14 (v104 : BitVec 32) : Prop :=
  (∀ a, (k1_off28 v104) a + S1x128.size a ≤ S16384x128.size a)
instance k1_chk14.dec : ∀ (v104 : BitVec 32), Decidable (k1_chk14 v104) := fun v104 => decidable_of_iff' _ (Iff.of_eq (k1_chk14.eq_1 v104))
theorem k1_off28_inb : ∀ (v104 : BitVec 32) (k1_hw14 : k1_chk14 v104), ∀ a, (k1_off28 v104) a + S1x128.size a ≤ S16384x128.size a := fun v104 k1_hw14 => k1_hw14

def k1_off29 (i : grid1.Coords) : Fin 3 → Nat :=
  let arg0 : BitVec 32 := BitVec.ofNat 32 (i 0).val
  let c0_i32_117 : BitVec 32 := 0#32
  let c0_i32_118 : BitVec 32 := 0#32
  ![arg0.toNat, 0, 0]
def k1_off30 (v112 : BitVec 32) : Fin 2 → Nat :=
  let c0_i32_119 : BitVec 32 := 0#32
  ![v112.toNat, 0]

def k1_chk15 (v112 : BitVec 32) : Prop :=
  (∀ a, (k1_off30 v112) a + S1x128.size a ≤ S16384x128.size a)
instance k1_chk15.dec : ∀ (v112 : BitVec 32), Decidable (k1_chk15 v112) := fun v112 => decidable_of_iff' _ (Iff.of_eq (k1_chk15.eq_1 v112))
theorem k1_off30_inb : ∀ (v112 : BitVec 32) (k1_hw15 : k1_chk15 v112), ∀ a, (k1_off30 v112) a + S1x128.size a ≤ S16384x128.size a := fun v112 k1_hw15 => k1_hw15

def k1_off31 (i : grid1.Coords) : Fin 3 → Nat :=
  let arg0 : BitVec 32 := BitVec.ofNat 32 (i 0).val
  let c0_i32_125 : BitVec 32 := 0#32
  let c0_i32_126 : BitVec 32 := 0#32
  ![arg0.toNat, 0, 0]
def k1_off32 (v120 : BitVec 32) : Fin 2 → Nat :=
  let c0_i32_127 : BitVec 32 := 0#32
  ![v120.toNat, 0]

def k1_chk16 (v120 : BitVec 32) : Prop :=
  (∀ a, (k1_off32 v120) a + S1x128.size a ≤ S16384x128.size a)
instance k1_chk16.dec : ∀ (v120 : BitVec 32), Decidable (k1_chk16 v120) := fun v120 => decidable_of_iff' _ (Iff.of_eq (k1_chk16.eq_1 v120))
theorem k1_off32_inb : ∀ (v120 : BitVec 32) (k1_hw16 : k1_chk16 v120), ∀ a, (k1_off32 v120) a + S1x128.size a ≤ S16384x128.size a := fun v120 k1_hw16 => k1_hw16

def k1_off33 (i : grid1.Coords) : Fin 3 → Nat :=
  let arg0 : BitVec 32 := BitVec.ofNat 32 (i 0).val
  let c0_i32_133 : BitVec 32 := 0#32
  let c0_i32_134 : BitVec 32 := 0#32
  ![arg0.toNat, 0, 0]
def k1_off34 (v128 : BitVec 32) : Fin 2 → Nat :=
  let c0_i32_135 : BitVec 32 := 0#32
  ![v128.toNat, 0]

def k1_chk17 (v128 : BitVec 32) : Prop :=
  (∀ a, (k1_off34 v128) a + S1x128.size a ≤ S16384x128.size a)
instance k1_chk17.dec : ∀ (v128 : BitVec 32), Decidable (k1_chk17 v128) := fun v128 => decidable_of_iff' _ (Iff.of_eq (k1_chk17.eq_1 v128))
theorem k1_off34_inb : ∀ (v128 : BitVec 32) (k1_hw17 : k1_chk17 v128), ∀ a, (k1_off34 v128) a + S1x128.size a ≤ S16384x128.size a := fun v128 k1_hw17 => k1_hw17

def k1_off35 (i : grid1.Coords) : Fin 3 → Nat :=
  let arg0 : BitVec 32 := BitVec.ofNat 32 (i 0).val
  let c0_i32_141 : BitVec 32 := 0#32
  let c0_i32_142 : BitVec 32 := 0#32
  ![arg0.toNat, 0, 0]
def k1_off36 (v136 : BitVec 32) : Fin 2 → Nat :=
  let c0_i32_143 : BitVec 32 := 0#32
  ![v136.toNat, 0]

def k1_chk18 (v136 : BitVec 32) : Prop :=
  (∀ a, (k1_off36 v136) a + S1x128.size a ≤ S16384x128.size a)
instance k1_chk18.dec : ∀ (v136 : BitVec 32), Decidable (k1_chk18 v136) := fun v136 => decidable_of_iff' _ (Iff.of_eq (k1_chk18.eq_1 v136))
theorem k1_off36_inb : ∀ (v136 : BitVec 32) (k1_hw18 : k1_chk18 v136), ∀ a, (k1_off36 v136) a + S1x128.size a ≤ S16384x128.size a := fun v136 k1_hw18 => k1_hw18

def k1_off37 (i : grid1.Coords) : Fin 3 → Nat :=
  let arg0 : BitVec 32 := BitVec.ofNat 32 (i 0).val
  let c0_i32_149 : BitVec 32 := 0#32
  let c0_i32_150 : BitVec 32 := 0#32
  ![arg0.toNat, 0, 0]
def k1_off38 (v144 : BitVec 32) : Fin 2 → Nat :=
  let c0_i32_151 : BitVec 32 := 0#32
  ![v144.toNat, 0]

def k1_chk19 (v144 : BitVec 32) : Prop :=
  (∀ a, (k1_off38 v144) a + S1x128.size a ≤ S16384x128.size a)
instance k1_chk19.dec : ∀ (v144 : BitVec 32), Decidable (k1_chk19 v144) := fun v144 => decidable_of_iff' _ (Iff.of_eq (k1_chk19.eq_1 v144))
theorem k1_off38_inb : ∀ (v144 : BitVec 32) (k1_hw19 : k1_chk19 v144), ∀ a, (k1_off38 v144) a + S1x128.size a ≤ S16384x128.size a := fun v144 k1_hw19 => k1_hw19

def k1_off39 (i : grid1.Coords) : Fin 3 → Nat :=
  let arg0 : BitVec 32 := BitVec.ofNat 32 (i 0).val
  let c0_i32_157 : BitVec 32 := 0#32
  let c0_i32_158 : BitVec 32 := 0#32
  ![arg0.toNat, 0, 0]
def k1_off40 (v152 : BitVec 32) : Fin 2 → Nat :=
  let c0_i32_159 : BitVec 32 := 0#32
  ![v152.toNat, 0]

def k1_chk20 (v152 : BitVec 32) : Prop :=
  (∀ a, (k1_off40 v152) a + S1x128.size a ≤ S16384x128.size a)
instance k1_chk20.dec : ∀ (v152 : BitVec 32), Decidable (k1_chk20 v152) := fun v152 => decidable_of_iff' _ (Iff.of_eq (k1_chk20.eq_1 v152))
theorem k1_off40_inb : ∀ (v152 : BitVec 32) (k1_hw20 : k1_chk20 v152), ∀ a, (k1_off40 v152) a + S1x128.size a ≤ S16384x128.size a := fun v152 k1_hw20 => k1_hw20

def k1_off41 (i : grid1.Coords) : Fin 3 → Nat :=
  let arg0 : BitVec 32 := BitVec.ofNat 32 (i 0).val
  let c0_i32_165 : BitVec 32 := 0#32
  let c0_i32_166 : BitVec 32 := 0#32
  ![arg0.toNat, 0, 0]
def k1_off42 (v160 : BitVec 32) : Fin 2 → Nat :=
  let c0_i32_167 : BitVec 32 := 0#32
  ![v160.toNat, 0]

def k1_chk21 (v160 : BitVec 32) : Prop :=
  (∀ a, (k1_off42 v160) a + S1x128.size a ≤ S16384x128.size a)
instance k1_chk21.dec : ∀ (v160 : BitVec 32), Decidable (k1_chk21 v160) := fun v160 => decidable_of_iff' _ (Iff.of_eq (k1_chk21.eq_1 v160))
theorem k1_off42_inb : ∀ (v160 : BitVec 32) (k1_hw21 : k1_chk21 v160), ∀ a, (k1_off42 v160) a + S1x128.size a ≤ S16384x128.size a := fun v160 k1_hw21 => k1_hw21

def k1_off43 (i : grid1.Coords) : Fin 3 → Nat :=
  let arg0 : BitVec 32 := BitVec.ofNat 32 (i 0).val
  let c0_i32_173 : BitVec 32 := 0#32
  let c0_i32_174 : BitVec 32 := 0#32
  ![arg0.toNat, 0, 0]
def k1_off44 (v168 : BitVec 32) : Fin 2 → Nat :=
  let c0_i32_175 : BitVec 32 := 0#32
  ![v168.toNat, 0]

def k1_chk22 (v168 : BitVec 32) : Prop :=
  (∀ a, (k1_off44 v168) a + S1x128.size a ≤ S16384x128.size a)
instance k1_chk22.dec : ∀ (v168 : BitVec 32), Decidable (k1_chk22 v168) := fun v168 => decidable_of_iff' _ (Iff.of_eq (k1_chk22.eq_1 v168))
theorem k1_off44_inb : ∀ (v168 : BitVec 32) (k1_hw22 : k1_chk22 v168), ∀ a, (k1_off44 v168) a + S1x128.size a ≤ S16384x128.size a := fun v168 k1_hw22 => k1_hw22

def k1_off45 (i : grid1.Coords) : Fin 3 → Nat :=
  let arg0 : BitVec 32 := BitVec.ofNat 32 (i 0).val
  let c0_i32_181 : BitVec 32 := 0#32
  let c0_i32_182 : BitVec 32 := 0#32
  ![arg0.toNat, 0, 0]
def k1_off46 (v176 : BitVec 32) : Fin 2 → Nat :=
  let c0_i32_183 : BitVec 32 := 0#32
  ![v176.toNat, 0]

def k1_chk23 (v176 : BitVec 32) : Prop :=
  (∀ a, (k1_off46 v176) a + S1x128.size a ≤ S16384x128.size a)
instance k1_chk23.dec : ∀ (v176 : BitVec 32), Decidable (k1_chk23 v176) := fun v176 => decidable_of_iff' _ (Iff.of_eq (k1_chk23.eq_1 v176))
theorem k1_off46_inb : ∀ (v176 : BitVec 32) (k1_hw23 : k1_chk23 v176), ∀ a, (k1_off46 v176) a + S1x128.size a ≤ S16384x128.size a := fun v176 k1_hw23 => k1_hw23

def k1_off47 (i : grid1.Coords) : Fin 3 → Nat :=
  let arg0 : BitVec 32 := BitVec.ofNat 32 (i 0).val
  let c0_i32_189 : BitVec 32 := 0#32
  let c0_i32_190 : BitVec 32 := 0#32
  ![arg0.toNat, 0, 0]
def k1_off48 (v184 : BitVec 32) : Fin 2 → Nat :=
  let c0_i32_191 : BitVec 32 := 0#32
  ![v184.toNat, 0]

def k1_chk24 (v184 : BitVec 32) : Prop :=
  (∀ a, (k1_off48 v184) a + S1x128.size a ≤ S16384x128.size a)
instance k1_chk24.dec : ∀ (v184 : BitVec 32), Decidable (k1_chk24 v184) := fun v184 => decidable_of_iff' _ (Iff.of_eq (k1_chk24.eq_1 v184))
theorem k1_off48_inb : ∀ (v184 : BitVec 32) (k1_hw24 : k1_chk24 v184), ∀ a, (k1_off48 v184) a + S1x128.size a ≤ S16384x128.size a := fun v184 k1_hw24 => k1_hw24

def k1_off49 (i : grid1.Coords) : Fin 3 → Nat :=
  let arg0 : BitVec 32 := BitVec.ofNat 32 (i 0).val
  let c0_i32_197 : BitVec 32 := 0#32
  let c0_i32_198 : BitVec 32 := 0#32
  ![arg0.toNat, 0, 0]
def k1_off50 (v192 : BitVec 32) : Fin 2 → Nat :=
  let c0_i32_199 : BitVec 32 := 0#32
  ![v192.toNat, 0]

def k1_chk25 (v192 : BitVec 32) : Prop :=
  (∀ a, (k1_off50 v192) a + S1x128.size a ≤ S16384x128.size a)
instance k1_chk25.dec : ∀ (v192 : BitVec 32), Decidable (k1_chk25 v192) := fun v192 => decidable_of_iff' _ (Iff.of_eq (k1_chk25.eq_1 v192))
theorem k1_off50_inb : ∀ (v192 : BitVec 32) (k1_hw25 : k1_chk25 v192), ∀ a, (k1_off50 v192) a + S1x128.size a ≤ S16384x128.size a := fun v192 k1_hw25 => k1_hw25

def k1_off51 (i : grid1.Coords) : Fin 3 → Nat :=
  let arg0 : BitVec 32 := BitVec.ofNat 32 (i 0).val
  let c0_i32_205 : BitVec 32 := 0#32
  let c0_i32_206 : BitVec 32 := 0#32
  ![arg0.toNat, 0, 0]
def k1_off52 (v200 : BitVec 32) : Fin 2 → Nat :=
  let c0_i32_207 : BitVec 32 := 0#32
  ![v200.toNat, 0]

def k1_chk26 (v200 : BitVec 32) : Prop :=
  (∀ a, (k1_off52 v200) a + S1x128.size a ≤ S16384x128.size a)
instance k1_chk26.dec : ∀ (v200 : BitVec 32), Decidable (k1_chk26 v200) := fun v200 => decidable_of_iff' _ (Iff.of_eq (k1_chk26.eq_1 v200))
theorem k1_off52_inb : ∀ (v200 : BitVec 32) (k1_hw26 : k1_chk26 v200), ∀ a, (k1_off52 v200) a + S1x128.size a ≤ S16384x128.size a := fun v200 k1_hw26 => k1_hw26

def k1_off53 (i : grid1.Coords) : Fin 3 → Nat :=
  let arg0 : BitVec 32 := BitVec.ofNat 32 (i 0).val
  let c0_i32_213 : BitVec 32 := 0#32
  let c0_i32_214 : BitVec 32 := 0#32
  ![arg0.toNat, 0, 0]
def k1_off54 (v208 : BitVec 32) : Fin 2 → Nat :=
  let c0_i32_215 : BitVec 32 := 0#32
  ![v208.toNat, 0]

def k1_chk27 (v208 : BitVec 32) : Prop :=
  (∀ a, (k1_off54 v208) a + S1x128.size a ≤ S16384x128.size a)
instance k1_chk27.dec : ∀ (v208 : BitVec 32), Decidable (k1_chk27 v208) := fun v208 => decidable_of_iff' _ (Iff.of_eq (k1_chk27.eq_1 v208))
theorem k1_off54_inb : ∀ (v208 : BitVec 32) (k1_hw27 : k1_chk27 v208), ∀ a, (k1_off54 v208) a + S1x128.size a ≤ S16384x128.size a := fun v208 k1_hw27 => k1_hw27

def k1_off55 (i : grid1.Coords) : Fin 3 → Nat :=
  let arg0 : BitVec 32 := BitVec.ofNat 32 (i 0).val
  let c0_i32_221 : BitVec 32 := 0#32
  let c0_i32_222 : BitVec 32 := 0#32
  ![arg0.toNat, 0, 0]
def k1_off56 (v216 : BitVec 32) : Fin 2 → Nat :=
  let c0_i32_223 : BitVec 32 := 0#32
  ![v216.toNat, 0]

def k1_chk28 (v216 : BitVec 32) : Prop :=
  (∀ a, (k1_off56 v216) a + S1x128.size a ≤ S16384x128.size a)
instance k1_chk28.dec : ∀ (v216 : BitVec 32), Decidable (k1_chk28 v216) := fun v216 => decidable_of_iff' _ (Iff.of_eq (k1_chk28.eq_1 v216))
theorem k1_off56_inb : ∀ (v216 : BitVec 32) (k1_hw28 : k1_chk28 v216), ∀ a, (k1_off56 v216) a + S1x128.size a ≤ S16384x128.size a := fun v216 k1_hw28 => k1_hw28

def k1_off57 (i : grid1.Coords) : Fin 3 → Nat :=
  let arg0 : BitVec 32 := BitVec.ofNat 32 (i 0).val
  let c0_i32_229 : BitVec 32 := 0#32
  let c0_i32_230 : BitVec 32 := 0#32
  ![arg0.toNat, 0, 0]
def k1_off58 (v224 : BitVec 32) : Fin 2 → Nat :=
  let c0_i32_231 : BitVec 32 := 0#32
  ![v224.toNat, 0]

def k1_chk29 (v224 : BitVec 32) : Prop :=
  (∀ a, (k1_off58 v224) a + S1x128.size a ≤ S16384x128.size a)
instance k1_chk29.dec : ∀ (v224 : BitVec 32), Decidable (k1_chk29 v224) := fun v224 => decidable_of_iff' _ (Iff.of_eq (k1_chk29.eq_1 v224))
theorem k1_off58_inb : ∀ (v224 : BitVec 32) (k1_hw29 : k1_chk29 v224), ∀ a, (k1_off58 v224) a + S1x128.size a ≤ S16384x128.size a := fun v224 k1_hw29 => k1_hw29

def k1_off59 (i : grid1.Coords) : Fin 3 → Nat :=
  let arg0 : BitVec 32 := BitVec.ofNat 32 (i 0).val
  let c0_i32_237 : BitVec 32 := 0#32
  let c0_i32_238 : BitVec 32 := 0#32
  ![arg0.toNat, 0, 0]
def k1_off60 (v232 : BitVec 32) : Fin 2 → Nat :=
  let c0_i32_239 : BitVec 32 := 0#32
  ![v232.toNat, 0]

def k1_chk30 (v232 : BitVec 32) : Prop :=
  (∀ a, (k1_off60 v232) a + S1x128.size a ≤ S16384x128.size a)
instance k1_chk30.dec : ∀ (v232 : BitVec 32), Decidable (k1_chk30 v232) := fun v232 => decidable_of_iff' _ (Iff.of_eq (k1_chk30.eq_1 v232))
theorem k1_off60_inb : ∀ (v232 : BitVec 32) (k1_hw30 : k1_chk30 v232), ∀ a, (k1_off60 v232) a + S1x128.size a ≤ S16384x128.size a := fun v232 k1_hw30 => k1_hw30

def k1_off61 (i : grid1.Coords) : Fin 3 → Nat :=
  let arg0 : BitVec 32 := BitVec.ofNat 32 (i 0).val
  let c0_i32_245 : BitVec 32 := 0#32
  let c0_i32_246 : BitVec 32 := 0#32
  ![arg0.toNat, 0, 0]
def k1_off62 (v240 : BitVec 32) : Fin 2 → Nat :=
  let c0_i32_247 : BitVec 32 := 0#32
  ![v240.toNat, 0]

def k1_chk31 (v240 : BitVec 32) : Prop :=
  (∀ a, (k1_off62 v240) a + S1x128.size a ≤ S16384x128.size a)
instance k1_chk31.dec : ∀ (v240 : BitVec 32), Decidable (k1_chk31 v240) := fun v240 => decidable_of_iff' _ (Iff.of_eq (k1_chk31.eq_1 v240))
theorem k1_off62_inb : ∀ (v240 : BitVec 32) (k1_hw31 : k1_chk31 v240), ∀ a, (k1_off62 v240) a + S1x128.size a ≤ S16384x128.size a := fun v240 k1_hw31 => k1_hw31

def k1_off63 (i : grid1.Coords) : Fin 3 → Nat :=
  let arg0 : BitVec 32 := BitVec.ofNat 32 (i 0).val
  let c0_i32_253 : BitVec 32 := 0#32
  let c0_i32_254 : BitVec 32 := 0#32
  ![arg0.toNat, 0, 0]
def k1_off64 (v248 : BitVec 32) : Fin 2 → Nat :=
  let c0_i32_255 : BitVec 32 := 0#32
  ![v248.toNat, 0]

def k1_chk32 (v248 : BitVec 32) : Prop :=
  (∀ a, (k1_off64 v248) a + S1x128.size a ≤ S16384x128.size a)
instance k1_chk32.dec : ∀ (v248 : BitVec 32), Decidable (k1_chk32 v248) := fun v248 => decidable_of_iff' _ (Iff.of_eq (k1_chk32.eq_1 v248))
theorem k1_off64_inb : ∀ (v248 : BitVec 32) (k1_hw32 : k1_chk32 v248), ∀ a, (k1_off64 v248) a + S1x128.size a ≤ S16384x128.size a := fun v248 k1_hw32 => k1_hw32

def k1_off65 (i : grid1.Coords) : Fin 3 → Nat :=
  let arg0 : BitVec 32 := BitVec.ofNat 32 (i 0).val
  let c0_i32_260 : BitVec 32 := 0#32
  let c0_i32_261 : BitVec 32 := 0#32
  ![arg0.toNat, 0, 0]
def k1_off66 (v484 : BitVec 32) : Fin 2 → Nat :=
  let c0_i32_525 : BitVec 32 := 0#32
  ![v484.toNat, 0]

def k1_chk33 (v484 : BitVec 32) : Prop :=
  (∀ a, (k1_off66 v484) a + S1x128.size a ≤ S16384x128.size a)
instance k1_chk33.dec : ∀ (v484 : BitVec 32), Decidable (k1_chk33 v484) := fun v484 => decidable_of_iff' _ (Iff.of_eq (k1_chk33.eq_1 v484))
theorem k1_off66_inb : ∀ (v484 : BitVec 32) (k1_hw33 : k1_chk33 v484), ∀ a, (k1_off66 v484) a + S1x128.size a ≤ S16384x128.size a := fun v484 k1_hw33 => k1_hw33

def k1_off67 (i : grid1.Coords) : Fin 3 → Nat :=
  let arg0 : BitVec 32 := BitVec.ofNat 32 (i 0).val
  let c0_i32_533 : BitVec 32 := 0#32
  let c0_i32_534 : BitVec 32 := 0#32
  ![arg0.toNat, 0, 0]
def k1_off68 (v492 : BitVec 32) : Fin 2 → Nat :=
  let c0_i32_535 : BitVec 32 := 0#32
  ![v492.toNat, 0]

def k1_chk34 (v492 : BitVec 32) : Prop :=
  (∀ a, (k1_off68 v492) a + S1x128.size a ≤ S16384x128.size a)
instance k1_chk34.dec : ∀ (v492 : BitVec 32), Decidable (k1_chk34 v492) := fun v492 => decidable_of_iff' _ (Iff.of_eq (k1_chk34.eq_1 v492))
theorem k1_off68_inb : ∀ (v492 : BitVec 32) (k1_hw34 : k1_chk34 v492), ∀ a, (k1_off68 v492) a + S1x128.size a ≤ S16384x128.size a := fun v492 k1_hw34 => k1_hw34

def k1_off69 (i : grid1.Coords) : Fin 3 → Nat :=
  let arg0 : BitVec 32 := BitVec.ofNat 32 (i 0).val
  let c0_i32_543 : BitVec 32 := 0#32
  let c0_i32_544 : BitVec 32 := 0#32
  ![arg0.toNat, 0, 0]
def k1_off70 (v500 : BitVec 32) : Fin 2 → Nat :=
  let c0_i32_545 : BitVec 32 := 0#32
  ![v500.toNat, 0]

def k1_chk35 (v500 : BitVec 32) : Prop :=
  (∀ a, (k1_off70 v500) a + S1x128.size a ≤ S16384x128.size a)
instance k1_chk35.dec : ∀ (v500 : BitVec 32), Decidable (k1_chk35 v500) := fun v500 => decidable_of_iff' _ (Iff.of_eq (k1_chk35.eq_1 v500))
theorem k1_off70_inb : ∀ (v500 : BitVec 32) (k1_hw35 : k1_chk35 v500), ∀ a, (k1_off70 v500) a + S1x128.size a ≤ S16384x128.size a := fun v500 k1_hw35 => k1_hw35

def k1_off71 (i : grid1.Coords) : Fin 3 → Nat :=
  let arg0 : BitVec 32 := BitVec.ofNat 32 (i 0).val
  let c0_i32_553 : BitVec 32 := 0#32
  let c0_i32_554 : BitVec 32 := 0#32
  ![arg0.toNat, 0, 0]
def k1_off72 (v508 : BitVec 32) : Fin 2 → Nat :=
  let c0_i32_555 : BitVec 32 := 0#32
  ![v508.toNat, 0]

def k1_chk36 (v508 : BitVec 32) : Prop :=
  (∀ a, (k1_off72 v508) a + S1x128.size a ≤ S16384x128.size a)
instance k1_chk36.dec : ∀ (v508 : BitVec 32), Decidable (k1_chk36 v508) := fun v508 => decidable_of_iff' _ (Iff.of_eq (k1_chk36.eq_1 v508))
theorem k1_off72_inb : ∀ (v508 : BitVec 32) (k1_hw36 : k1_chk36 v508), ∀ a, (k1_off72 v508) a + S1x128.size a ≤ S16384x128.size a := fun v508 k1_hw36 => k1_hw36

def k1_off73 (i : grid1.Coords) : Fin 3 → Nat :=
  let arg0 : BitVec 32 := BitVec.ofNat 32 (i 0).val
  let c0_i32_563 : BitVec 32 := 0#32
  let c0_i32_564 : BitVec 32 := 0#32
  ![arg0.toNat, 0, 0]
def k1_off74 (v516 : BitVec 32) : Fin 2 → Nat :=
  let c0_i32_565 : BitVec 32 := 0#32
  ![v516.toNat, 0]

def k1_chk37 (v516 : BitVec 32) : Prop :=
  (∀ a, (k1_off74 v516) a + S1x128.size a ≤ S16384x128.size a)
instance k1_chk37.dec : ∀ (v516 : BitVec 32), Decidable (k1_chk37 v516) := fun v516 => decidable_of_iff' _ (Iff.of_eq (k1_chk37.eq_1 v516))
theorem k1_off74_inb : ∀ (v516 : BitVec 32) (k1_hw37 : k1_chk37 v516), ∀ a, (k1_off74 v516) a + S1x128.size a ≤ S16384x128.size a := fun v516 k1_hw37 => k1_hw37

def k1_off75 (i : grid1.Coords) : Fin 3 → Nat :=
  let arg0 : BitVec 32 := BitVec.ofNat 32 (i 0).val
  let c0_i32_573 : BitVec 32 := 0#32
  let c0_i32_574 : BitVec 32 := 0#32
  ![arg0.toNat, 0, 0]
def k1_off76 (v524 : BitVec 32) : Fin 2 → Nat :=
  let c0_i32_575 : BitVec 32 := 0#32
  ![v524.toNat, 0]

def k1_chk38 (v524 : BitVec 32) : Prop :=
  (∀ a, (k1_off76 v524) a + S1x128.size a ≤ S16384x128.size a)
instance k1_chk38.dec : ∀ (v524 : BitVec 32), Decidable (k1_chk38 v524) := fun v524 => decidable_of_iff' _ (Iff.of_eq (k1_chk38.eq_1 v524))
theorem k1_off76_inb : ∀ (v524 : BitVec 32) (k1_hw38 : k1_chk38 v524), ∀ a, (k1_off76 v524) a + S1x128.size a ≤ S16384x128.size a := fun v524 k1_hw38 => k1_hw38

def k1_off77 (i : grid1.Coords) : Fin 3 → Nat :=
  let arg0 : BitVec 32 := BitVec.ofNat 32 (i 0).val
  let c0_i32_583 : BitVec 32 := 0#32
  let c0_i32_584 : BitVec 32 := 0#32
  ![arg0.toNat, 0, 0]
def k1_off78 (v532 : BitVec 32) : Fin 2 → Nat :=
  let c0_i32_585 : BitVec 32 := 0#32
  ![v532.toNat, 0]

def k1_chk39 (v532 : BitVec 32) : Prop :=
  (∀ a, (k1_off78 v532) a + S1x128.size a ≤ S16384x128.size a)
instance k1_chk39.dec : ∀ (v532 : BitVec 32), Decidable (k1_chk39 v532) := fun v532 => decidable_of_iff' _ (Iff.of_eq (k1_chk39.eq_1 v532))
theorem k1_off78_inb : ∀ (v532 : BitVec 32) (k1_hw39 : k1_chk39 v532), ∀ a, (k1_off78 v532) a + S1x128.size a ≤ S16384x128.size a := fun v532 k1_hw39 => k1_hw39

def k1_off79 (i : grid1.Coords) : Fin 3 → Nat :=
  let arg0 : BitVec 32 := BitVec.ofNat 32 (i 0).val
  let c0_i32_593 : BitVec 32 := 0#32
  let c0_i32_594 : BitVec 32 := 0#32
  ![arg0.toNat, 0, 0]
def k1_off80 (v540 : BitVec 32) : Fin 2 → Nat :=
  let c0_i32_595 : BitVec 32 := 0#32
  ![v540.toNat, 0]

def k1_chk40 (v540 : BitVec 32) : Prop :=
  (∀ a, (k1_off80 v540) a + S1x128.size a ≤ S16384x128.size a)
instance k1_chk40.dec : ∀ (v540 : BitVec 32), Decidable (k1_chk40 v540) := fun v540 => decidable_of_iff' _ (Iff.of_eq (k1_chk40.eq_1 v540))
theorem k1_off80_inb : ∀ (v540 : BitVec 32) (k1_hw40 : k1_chk40 v540), ∀ a, (k1_off80 v540) a + S1x128.size a ≤ S16384x128.size a := fun v540 k1_hw40 => k1_hw40

def k1_off81 (i : grid1.Coords) : Fin 3 → Nat :=
  let arg0 : BitVec 32 := BitVec.ofNat 32 (i 0).val
  let c0_i32_603 : BitVec 32 := 0#32
  let c0_i32_604 : BitVec 32 := 0#32
  ![arg0.toNat, 0, 0]
def k1_off82 (v548 : BitVec 32) : Fin 2 → Nat :=
  let c0_i32_605 : BitVec 32 := 0#32
  ![v548.toNat, 0]

def k1_chk41 (v548 : BitVec 32) : Prop :=
  (∀ a, (k1_off82 v548) a + S1x128.size a ≤ S16384x128.size a)
instance k1_chk41.dec : ∀ (v548 : BitVec 32), Decidable (k1_chk41 v548) := fun v548 => decidable_of_iff' _ (Iff.of_eq (k1_chk41.eq_1 v548))
theorem k1_off82_inb : ∀ (v548 : BitVec 32) (k1_hw41 : k1_chk41 v548), ∀ a, (k1_off82 v548) a + S1x128.size a ≤ S16384x128.size a := fun v548 k1_hw41 => k1_hw41

def k1_off83 (i : grid1.Coords) : Fin 3 → Nat :=
  let arg0 : BitVec 32 := BitVec.ofNat 32 (i 0).val
  let c0_i32_613 : BitVec 32 := 0#32
  let c0_i32_614 : BitVec 32 := 0#32
  ![arg0.toNat, 0, 0]
def k1_off84 (v556 : BitVec 32) : Fin 2 → Nat :=
  let c0_i32_615 : BitVec 32 := 0#32
  ![v556.toNat, 0]

def k1_chk42 (v556 : BitVec 32) : Prop :=
  (∀ a, (k1_off84 v556) a + S1x128.size a ≤ S16384x128.size a)
instance k1_chk42.dec : ∀ (v556 : BitVec 32), Decidable (k1_chk42 v556) := fun v556 => decidable_of_iff' _ (Iff.of_eq (k1_chk42.eq_1 v556))
theorem k1_off84_inb : ∀ (v556 : BitVec 32) (k1_hw42 : k1_chk42 v556), ∀ a, (k1_off84 v556) a + S1x128.size a ≤ S16384x128.size a := fun v556 k1_hw42 => k1_hw42

def k1_off85 (i : grid1.Coords) : Fin 3 → Nat :=
  let arg0 : BitVec 32 := BitVec.ofNat 32 (i 0).val
  let c0_i32_623 : BitVec 32 := 0#32
  let c0_i32_624 : BitVec 32 := 0#32
  ![arg0.toNat, 0, 0]
def k1_off86 (v564 : BitVec 32) : Fin 2 → Nat :=
  let c0_i32_625 : BitVec 32 := 0#32
  ![v564.toNat, 0]

def k1_chk43 (v564 : BitVec 32) : Prop :=
  (∀ a, (k1_off86 v564) a + S1x128.size a ≤ S16384x128.size a)
instance k1_chk43.dec : ∀ (v564 : BitVec 32), Decidable (k1_chk43 v564) := fun v564 => decidable_of_iff' _ (Iff.of_eq (k1_chk43.eq_1 v564))
theorem k1_off86_inb : ∀ (v564 : BitVec 32) (k1_hw43 : k1_chk43 v564), ∀ a, (k1_off86 v564) a + S1x128.size a ≤ S16384x128.size a := fun v564 k1_hw43 => k1_hw43

def k1_off87 (i : grid1.Coords) : Fin 3 → Nat :=
  let arg0 : BitVec 32 := BitVec.ofNat 32 (i 0).val
  let c0_i32_633 : BitVec 32 := 0#32
  let c0_i32_634 : BitVec 32 := 0#32
  ![arg0.toNat, 0, 0]
def k1_off88 (v572 : BitVec 32) : Fin 2 → Nat :=
  let c0_i32_635 : BitVec 32 := 0#32
  ![v572.toNat, 0]

def k1_chk44 (v572 : BitVec 32) : Prop :=
  (∀ a, (k1_off88 v572) a + S1x128.size a ≤ S16384x128.size a)
instance k1_chk44.dec : ∀ (v572 : BitVec 32), Decidable (k1_chk44 v572) := fun v572 => decidable_of_iff' _ (Iff.of_eq (k1_chk44.eq_1 v572))
theorem k1_off88_inb : ∀ (v572 : BitVec 32) (k1_hw44 : k1_chk44 v572), ∀ a, (k1_off88 v572) a + S1x128.size a ≤ S16384x128.size a := fun v572 k1_hw44 => k1_hw44

def k1_off89 (i : grid1.Coords) : Fin 3 → Nat :=
  let arg0 : BitVec 32 := BitVec.ofNat 32 (i 0).val
  let c0_i32_643 : BitVec 32 := 0#32
  let c0_i32_644 : BitVec 32 := 0#32
  ![arg0.toNat, 0, 0]
def k1_off90 (v580 : BitVec 32) : Fin 2 → Nat :=
  let c0_i32_645 : BitVec 32 := 0#32
  ![v580.toNat, 0]

def k1_chk45 (v580 : BitVec 32) : Prop :=
  (∀ a, (k1_off90 v580) a + S1x128.size a ≤ S16384x128.size a)
instance k1_chk45.dec : ∀ (v580 : BitVec 32), Decidable (k1_chk45 v580) := fun v580 => decidable_of_iff' _ (Iff.of_eq (k1_chk45.eq_1 v580))
theorem k1_off90_inb : ∀ (v580 : BitVec 32) (k1_hw45 : k1_chk45 v580), ∀ a, (k1_off90 v580) a + S1x128.size a ≤ S16384x128.size a := fun v580 k1_hw45 => k1_hw45

def k1_off91 (i : grid1.Coords) : Fin 3 → Nat :=
  let arg0 : BitVec 32 := BitVec.ofNat 32 (i 0).val
  let c0_i32_653 : BitVec 32 := 0#32
  let c0_i32_654 : BitVec 32 := 0#32
  ![arg0.toNat, 0, 0]
def k1_off92 (v588 : BitVec 32) : Fin 2 → Nat :=
  let c0_i32_655 : BitVec 32 := 0#32
  ![v588.toNat, 0]

def k1_chk46 (v588 : BitVec 32) : Prop :=
  (∀ a, (k1_off92 v588) a + S1x128.size a ≤ S16384x128.size a)
instance k1_chk46.dec : ∀ (v588 : BitVec 32), Decidable (k1_chk46 v588) := fun v588 => decidable_of_iff' _ (Iff.of_eq (k1_chk46.eq_1 v588))
theorem k1_off92_inb : ∀ (v588 : BitVec 32) (k1_hw46 : k1_chk46 v588), ∀ a, (k1_off92 v588) a + S1x128.size a ≤ S16384x128.size a := fun v588 k1_hw46 => k1_hw46

def k1_off93 (i : grid1.Coords) : Fin 3 → Nat :=
  let arg0 : BitVec 32 := BitVec.ofNat 32 (i 0).val
  let c0_i32_663 : BitVec 32 := 0#32
  let c0_i32_664 : BitVec 32 := 0#32
  ![arg0.toNat, 0, 0]
def k1_off94 (v596 : BitVec 32) : Fin 2 → Nat :=
  let c0_i32_665 : BitVec 32 := 0#32
  ![v596.toNat, 0]

def k1_chk47 (v596 : BitVec 32) : Prop :=
  (∀ a, (k1_off94 v596) a + S1x128.size a ≤ S16384x128.size a)
instance k1_chk47.dec : ∀ (v596 : BitVec 32), Decidable (k1_chk47 v596) := fun v596 => decidable_of_iff' _ (Iff.of_eq (k1_chk47.eq_1 v596))
theorem k1_off94_inb : ∀ (v596 : BitVec 32) (k1_hw47 : k1_chk47 v596), ∀ a, (k1_off94 v596) a + S1x128.size a ≤ S16384x128.size a := fun v596 k1_hw47 => k1_hw47

def k1_off95 (i : grid1.Coords) : Fin 3 → Nat :=
  let arg0 : BitVec 32 := BitVec.ofNat 32 (i 0).val
  let c0_i32_673 : BitVec 32 := 0#32
  let c0_i32_674 : BitVec 32 := 0#32
  ![arg0.toNat, 0, 0]
def k1_off96 (v604 : BitVec 32) : Fin 2 → Nat :=
  let c0_i32_675 : BitVec 32 := 0#32
  ![v604.toNat, 0]

def k1_chk48 (v604 : BitVec 32) : Prop :=
  (∀ a, (k1_off96 v604) a + S1x128.size a ≤ S16384x128.size a)
instance k1_chk48.dec : ∀ (v604 : BitVec 32), Decidable (k1_chk48 v604) := fun v604 => decidable_of_iff' _ (Iff.of_eq (k1_chk48.eq_1 v604))
theorem k1_off96_inb : ∀ (v604 : BitVec 32) (k1_hw48 : k1_chk48 v604), ∀ a, (k1_off96 v604) a + S1x128.size a ≤ S16384x128.size a := fun v604 k1_hw48 => k1_hw48

def k1_off97 (i : grid1.Coords) : Fin 3 → Nat :=
  let arg0 : BitVec 32 := BitVec.ofNat 32 (i 0).val
  let c0_i32_683 : BitVec 32 := 0#32
  let c0_i32_684 : BitVec 32 := 0#32
  ![arg0.toNat, 0, 0]
def k1_off98 (v612 : BitVec 32) : Fin 2 → Nat :=
  let c0_i32_685 : BitVec 32 := 0#32
  ![v612.toNat, 0]

def k1_chk49 (v612 : BitVec 32) : Prop :=
  (∀ a, (k1_off98 v612) a + S1x128.size a ≤ S16384x128.size a)
instance k1_chk49.dec : ∀ (v612 : BitVec 32), Decidable (k1_chk49 v612) := fun v612 => decidable_of_iff' _ (Iff.of_eq (k1_chk49.eq_1 v612))
theorem k1_off98_inb : ∀ (v612 : BitVec 32) (k1_hw49 : k1_chk49 v612), ∀ a, (k1_off98 v612) a + S1x128.size a ≤ S16384x128.size a := fun v612 k1_hw49 => k1_hw49

def k1_off99 (i : grid1.Coords) : Fin 3 → Nat :=
  let arg0 : BitVec 32 := BitVec.ofNat 32 (i 0).val
  let c0_i32_693 : BitVec 32 := 0#32
  let c0_i32_694 : BitVec 32 := 0#32
  ![arg0.toNat, 0, 0]
def k1_off100 (v620 : BitVec 32) : Fin 2 → Nat :=
  let c0_i32_695 : BitVec 32 := 0#32
  ![v620.toNat, 0]

def k1_chk50 (v620 : BitVec 32) : Prop :=
  (∀ a, (k1_off100 v620) a + S1x128.size a ≤ S16384x128.size a)
instance k1_chk50.dec : ∀ (v620 : BitVec 32), Decidable (k1_chk50 v620) := fun v620 => decidable_of_iff' _ (Iff.of_eq (k1_chk50.eq_1 v620))
theorem k1_off100_inb : ∀ (v620 : BitVec 32) (k1_hw50 : k1_chk50 v620), ∀ a, (k1_off100 v620) a + S1x128.size a ≤ S16384x128.size a := fun v620 k1_hw50 => k1_hw50

def k1_off101 (i : grid1.Coords) : Fin 3 → Nat :=
  let arg0 : BitVec 32 := BitVec.ofNat 32 (i 0).val
  let c0_i32_703 : BitVec 32 := 0#32
  let c0_i32_704 : BitVec 32 := 0#32
  ![arg0.toNat, 0, 0]
def k1_off102 (v628 : BitVec 32) : Fin 2 → Nat :=
  let c0_i32_705 : BitVec 32 := 0#32
  ![v628.toNat, 0]

def k1_chk51 (v628 : BitVec 32) : Prop :=
  (∀ a, (k1_off102 v628) a + S1x128.size a ≤ S16384x128.size a)
instance k1_chk51.dec : ∀ (v628 : BitVec 32), Decidable (k1_chk51 v628) := fun v628 => decidable_of_iff' _ (Iff.of_eq (k1_chk51.eq_1 v628))
theorem k1_off102_inb : ∀ (v628 : BitVec 32) (k1_hw51 : k1_chk51 v628), ∀ a, (k1_off102 v628) a + S1x128.size a ≤ S16384x128.size a := fun v628 k1_hw51 => k1_hw51

def k1_off103 (i : grid1.Coords) : Fin 3 → Nat :=
  let arg0 : BitVec 32 := BitVec.ofNat 32 (i 0).val
  let c0_i32_713 : BitVec 32 := 0#32
  let c0_i32_714 : BitVec 32 := 0#32
  ![arg0.toNat, 0, 0]
def k1_off104 (v636 : BitVec 32) : Fin 2 → Nat :=
  let c0_i32_715 : BitVec 32 := 0#32
  ![v636.toNat, 0]

def k1_chk52 (v636 : BitVec 32) : Prop :=
  (∀ a, (k1_off104 v636) a + S1x128.size a ≤ S16384x128.size a)
instance k1_chk52.dec : ∀ (v636 : BitVec 32), Decidable (k1_chk52 v636) := fun v636 => decidable_of_iff' _ (Iff.of_eq (k1_chk52.eq_1 v636))
theorem k1_off104_inb : ∀ (v636 : BitVec 32) (k1_hw52 : k1_chk52 v636), ∀ a, (k1_off104 v636) a + S1x128.size a ≤ S16384x128.size a := fun v636 k1_hw52 => k1_hw52

def k1_off105 (i : grid1.Coords) : Fin 3 → Nat :=
  let arg0 : BitVec 32 := BitVec.ofNat 32 (i 0).val
  let c0_i32_723 : BitVec 32 := 0#32
  let c0_i32_724 : BitVec 32 := 0#32
  ![arg0.toNat, 0, 0]
def k1_off106 (v644 : BitVec 32) : Fin 2 → Nat :=
  let c0_i32_725 : BitVec 32 := 0#32
  ![v644.toNat, 0]

def k1_chk53 (v644 : BitVec 32) : Prop :=
  (∀ a, (k1_off106 v644) a + S1x128.size a ≤ S16384x128.size a)
instance k1_chk53.dec : ∀ (v644 : BitVec 32), Decidable (k1_chk53 v644) := fun v644 => decidable_of_iff' _ (Iff.of_eq (k1_chk53.eq_1 v644))
theorem k1_off106_inb : ∀ (v644 : BitVec 32) (k1_hw53 : k1_chk53 v644), ∀ a, (k1_off106 v644) a + S1x128.size a ≤ S16384x128.size a := fun v644 k1_hw53 => k1_hw53

def k1_off107 (i : grid1.Coords) : Fin 3 → Nat :=
  let arg0 : BitVec 32 := BitVec.ofNat 32 (i 0).val
  let c0_i32_733 : BitVec 32 := 0#32
  let c0_i32_734 : BitVec 32 := 0#32
  ![arg0.toNat, 0, 0]
def k1_off108 (v652 : BitVec 32) : Fin 2 → Nat :=
  let c0_i32_735 : BitVec 32 := 0#32
  ![v652.toNat, 0]

def k1_chk54 (v652 : BitVec 32) : Prop :=
  (∀ a, (k1_off108 v652) a + S1x128.size a ≤ S16384x128.size a)
instance k1_chk54.dec : ∀ (v652 : BitVec 32), Decidable (k1_chk54 v652) := fun v652 => decidable_of_iff' _ (Iff.of_eq (k1_chk54.eq_1 v652))
theorem k1_off108_inb : ∀ (v652 : BitVec 32) (k1_hw54 : k1_chk54 v652), ∀ a, (k1_off108 v652) a + S1x128.size a ≤ S16384x128.size a := fun v652 k1_hw54 => k1_hw54

def k1_off109 (i : grid1.Coords) : Fin 3 → Nat :=
  let arg0 : BitVec 32 := BitVec.ofNat 32 (i 0).val
  let c0_i32_743 : BitVec 32 := 0#32
  let c0_i32_744 : BitVec 32 := 0#32
  ![arg0.toNat, 0, 0]
def k1_off110 (v660 : BitVec 32) : Fin 2 → Nat :=
  let c0_i32_745 : BitVec 32 := 0#32
  ![v660.toNat, 0]

def k1_chk55 (v660 : BitVec 32) : Prop :=
  (∀ a, (k1_off110 v660) a + S1x128.size a ≤ S16384x128.size a)
instance k1_chk55.dec : ∀ (v660 : BitVec 32), Decidable (k1_chk55 v660) := fun v660 => decidable_of_iff' _ (Iff.of_eq (k1_chk55.eq_1 v660))
theorem k1_off110_inb : ∀ (v660 : BitVec 32) (k1_hw55 : k1_chk55 v660), ∀ a, (k1_off110 v660) a + S1x128.size a ≤ S16384x128.size a := fun v660 k1_hw55 => k1_hw55

def k1_off111 (i : grid1.Coords) : Fin 3 → Nat :=
  let arg0 : BitVec 32 := BitVec.ofNat 32 (i 0).val
  let c0_i32_753 : BitVec 32 := 0#32
  let c0_i32_754 : BitVec 32 := 0#32
  ![arg0.toNat, 0, 0]
def k1_off112 (v668 : BitVec 32) : Fin 2 → Nat :=
  let c0_i32_755 : BitVec 32 := 0#32
  ![v668.toNat, 0]

def k1_chk56 (v668 : BitVec 32) : Prop :=
  (∀ a, (k1_off112 v668) a + S1x128.size a ≤ S16384x128.size a)
instance k1_chk56.dec : ∀ (v668 : BitVec 32), Decidable (k1_chk56 v668) := fun v668 => decidable_of_iff' _ (Iff.of_eq (k1_chk56.eq_1 v668))
theorem k1_off112_inb : ∀ (v668 : BitVec 32) (k1_hw56 : k1_chk56 v668), ∀ a, (k1_off112 v668) a + S1x128.size a ≤ S16384x128.size a := fun v668 k1_hw56 => k1_hw56

def k1_off113 (i : grid1.Coords) : Fin 3 → Nat :=
  let arg0 : BitVec 32 := BitVec.ofNat 32 (i 0).val
  let c0_i32_763 : BitVec 32 := 0#32
  let c0_i32_764 : BitVec 32 := 0#32
  ![arg0.toNat, 0, 0]
def k1_off114 (v676 : BitVec 32) : Fin 2 → Nat :=
  let c0_i32_765 : BitVec 32 := 0#32
  ![v676.toNat, 0]

def k1_chk57 (v676 : BitVec 32) : Prop :=
  (∀ a, (k1_off114 v676) a + S1x128.size a ≤ S16384x128.size a)
instance k1_chk57.dec : ∀ (v676 : BitVec 32), Decidable (k1_chk57 v676) := fun v676 => decidable_of_iff' _ (Iff.of_eq (k1_chk57.eq_1 v676))
theorem k1_off114_inb : ∀ (v676 : BitVec 32) (k1_hw57 : k1_chk57 v676), ∀ a, (k1_off114 v676) a + S1x128.size a ≤ S16384x128.size a := fun v676 k1_hw57 => k1_hw57

def k1_off115 (i : grid1.Coords) : Fin 3 → Nat :=
  let arg0 : BitVec 32 := BitVec.ofNat 32 (i 0).val
  let c0_i32_773 : BitVec 32 := 0#32
  let c0_i32_774 : BitVec 32 := 0#32
  ![arg0.toNat, 0, 0]
def k1_off116 (v684 : BitVec 32) : Fin 2 → Nat :=
  let c0_i32_775 : BitVec 32 := 0#32
  ![v684.toNat, 0]

def k1_chk58 (v684 : BitVec 32) : Prop :=
  (∀ a, (k1_off116 v684) a + S1x128.size a ≤ S16384x128.size a)
instance k1_chk58.dec : ∀ (v684 : BitVec 32), Decidable (k1_chk58 v684) := fun v684 => decidable_of_iff' _ (Iff.of_eq (k1_chk58.eq_1 v684))
theorem k1_off116_inb : ∀ (v684 : BitVec 32) (k1_hw58 : k1_chk58 v684), ∀ a, (k1_off116 v684) a + S1x128.size a ≤ S16384x128.size a := fun v684 k1_hw58 => k1_hw58

def k1_off117 (i : grid1.Coords) : Fin 3 → Nat :=
  let arg0 : BitVec 32 := BitVec.ofNat 32 (i 0).val
  let c0_i32_783 : BitVec 32 := 0#32
  let c0_i32_784 : BitVec 32 := 0#32
  ![arg0.toNat, 0, 0]
def k1_off118 (v692 : BitVec 32) : Fin 2 → Nat :=
  let c0_i32_785 : BitVec 32 := 0#32
  ![v692.toNat, 0]

def k1_chk59 (v692 : BitVec 32) : Prop :=
  (∀ a, (k1_off118 v692) a + S1x128.size a ≤ S16384x128.size a)
instance k1_chk59.dec : ∀ (v692 : BitVec 32), Decidable (k1_chk59 v692) := fun v692 => decidable_of_iff' _ (Iff.of_eq (k1_chk59.eq_1 v692))
theorem k1_off118_inb : ∀ (v692 : BitVec 32) (k1_hw59 : k1_chk59 v692), ∀ a, (k1_off118 v692) a + S1x128.size a ≤ S16384x128.size a := fun v692 k1_hw59 => k1_hw59

def k1_off119 (i : grid1.Coords) : Fin 3 → Nat :=
  let arg0 : BitVec 32 := BitVec.ofNat 32 (i 0).val
  let c0_i32_793 : BitVec 32 := 0#32
  let c0_i32_794 : BitVec 32 := 0#32
  ![arg0.toNat, 0, 0]
def k1_off120 (v700 : BitVec 32) : Fin 2 → Nat :=
  let c0_i32_795 : BitVec 32 := 0#32
  ![v700.toNat, 0]

def k1_chk60 (v700 : BitVec 32) : Prop :=
  (∀ a, (k1_off120 v700) a + S1x128.size a ≤ S16384x128.size a)
instance k1_chk60.dec : ∀ (v700 : BitVec 32), Decidable (k1_chk60 v700) := fun v700 => decidable_of_iff' _ (Iff.of_eq (k1_chk60.eq_1 v700))
theorem k1_off120_inb : ∀ (v700 : BitVec 32) (k1_hw60 : k1_chk60 v700), ∀ a, (k1_off120 v700) a + S1x128.size a ≤ S16384x128.size a := fun v700 k1_hw60 => k1_hw60

def k1_off121 (i : grid1.Coords) : Fin 3 → Nat :=
  let arg0 : BitVec 32 := BitVec.ofNat 32 (i 0).val
  let c0_i32_803 : BitVec 32 := 0#32
  let c0_i32_804 : BitVec 32 := 0#32
  ![arg0.toNat, 0, 0]
def k1_off122 (v708 : BitVec 32) : Fin 2 → Nat :=
  let c0_i32_805 : BitVec 32 := 0#32
  ![v708.toNat, 0]

def k1_chk61 (v708 : BitVec 32) : Prop :=
  (∀ a, (k1_off122 v708) a + S1x128.size a ≤ S16384x128.size a)
instance k1_chk61.dec : ∀ (v708 : BitVec 32), Decidable (k1_chk61 v708) := fun v708 => decidable_of_iff' _ (Iff.of_eq (k1_chk61.eq_1 v708))
theorem k1_off122_inb : ∀ (v708 : BitVec 32) (k1_hw61 : k1_chk61 v708), ∀ a, (k1_off122 v708) a + S1x128.size a ≤ S16384x128.size a := fun v708 k1_hw61 => k1_hw61

def k1_off123 (i : grid1.Coords) : Fin 3 → Nat :=
  let arg0 : BitVec 32 := BitVec.ofNat 32 (i 0).val
  let c0_i32_813 : BitVec 32 := 0#32
  let c0_i32_814 : BitVec 32 := 0#32
  ![arg0.toNat, 0, 0]
def k1_off124 (v716 : BitVec 32) : Fin 2 → Nat :=
  let c0_i32_815 : BitVec 32 := 0#32
  ![v716.toNat, 0]

def k1_chk62 (v716 : BitVec 32) : Prop :=
  (∀ a, (k1_off124 v716) a + S1x128.size a ≤ S16384x128.size a)
instance k1_chk62.dec : ∀ (v716 : BitVec 32), Decidable (k1_chk62 v716) := fun v716 => decidable_of_iff' _ (Iff.of_eq (k1_chk62.eq_1 v716))
theorem k1_off124_inb : ∀ (v716 : BitVec 32) (k1_hw62 : k1_chk62 v716), ∀ a, (k1_off124 v716) a + S1x128.size a ≤ S16384x128.size a := fun v716 k1_hw62 => k1_hw62

def k1_off125 (i : grid1.Coords) : Fin 3 → Nat :=
  let arg0 : BitVec 32 := BitVec.ofNat 32 (i 0).val
  let c0_i32_823 : BitVec 32 := 0#32
  let c0_i32_824 : BitVec 32 := 0#32
  ![arg0.toNat, 0, 0]
def k1_off126 (v724 : BitVec 32) : Fin 2 → Nat :=
  let c0_i32_825 : BitVec 32 := 0#32
  ![v724.toNat, 0]

def k1_chk63 (v724 : BitVec 32) : Prop :=
  (∀ a, (k1_off126 v724) a + S1x128.size a ≤ S16384x128.size a)
instance k1_chk63.dec : ∀ (v724 : BitVec 32), Decidable (k1_chk63 v724) := fun v724 => decidable_of_iff' _ (Iff.of_eq (k1_chk63.eq_1 v724))
theorem k1_off126_inb : ∀ (v724 : BitVec 32) (k1_hw63 : k1_chk63 v724), ∀ a, (k1_off126 v724) a + S1x128.size a ≤ S16384x128.size a := fun v724 k1_hw63 => k1_hw63

def k1_off127 (i : grid1.Coords) : Fin 3 → Nat :=
  let arg0 : BitVec 32 := BitVec.ofNat 32 (i 0).val
  let c0_i32_833 : BitVec 32 := 0#32
  let c0_i32_834 : BitVec 32 := 0#32
  ![arg0.toNat, 0, 0]
def k1_off128 (v732 : BitVec 32) : Fin 2 → Nat :=
  let c0_i32_835 : BitVec 32 := 0#32
  ![v732.toNat, 0]

def k1_chk64 (v732 : BitVec 32) : Prop :=
  (∀ a, (k1_off128 v732) a + S1x128.size a ≤ S16384x128.size a)
instance k1_chk64.dec : ∀ (v732 : BitVec 32), Decidable (k1_chk64 v732) := fun v732 => decidable_of_iff' _ (Iff.of_eq (k1_chk64.eq_1 v732))
theorem k1_off128_inb : ∀ (v732 : BitVec 32) (k1_hw64 : k1_chk64 v732), ∀ a, (k1_off128 v732) a + S1x128.size a ≤ S16384x128.size a := fun v732 k1_hw64 => k1_hw64

def k1_off129 (i : grid1.Coords) : Fin 3 → Nat :=
  let arg0 : BitVec 32 := BitVec.ofNat 32 (i 0).val
  let c0_i32_840 : BitVec 32 := 0#32
  let c0_i32_841 : BitVec 32 := 0#32
  ![arg0.toNat, 0, 0]
def k1_off130 (v968 : BitVec 32) : Fin 2 → Nat :=
  let c0_i32_1106 : BitVec 32 := 0#32
  ![v968.toNat, 0]

def k1_chk65 (v968 : BitVec 32) : Prop :=
  (∀ a, (k1_off130 v968) a + S1x128.size a ≤ S16384x128.size a)
instance k1_chk65.dec : ∀ (v968 : BitVec 32), Decidable (k1_chk65 v968) := fun v968 => decidable_of_iff' _ (Iff.of_eq (k1_chk65.eq_1 v968))
theorem k1_off130_inb : ∀ (v968 : BitVec 32) (k1_hw65 : k1_chk65 v968), ∀ a, (k1_off130 v968) a + S1x128.size a ≤ S16384x128.size a := fun v968 k1_hw65 => k1_hw65

def k1_off131 (i : grid1.Coords) : Fin 3 → Nat :=
  let arg0 : BitVec 32 := BitVec.ofNat 32 (i 0).val
  let c0_i32_1114 : BitVec 32 := 0#32
  let c0_i32_1115 : BitVec 32 := 0#32
  ![arg0.toNat, 0, 0]
def k1_off132 (v976 : BitVec 32) : Fin 2 → Nat :=
  let c0_i32_1116 : BitVec 32 := 0#32
  ![v976.toNat, 0]

def k1_chk66 (v976 : BitVec 32) : Prop :=
  (∀ a, (k1_off132 v976) a + S1x128.size a ≤ S16384x128.size a)
instance k1_chk66.dec : ∀ (v976 : BitVec 32), Decidable (k1_chk66 v976) := fun v976 => decidable_of_iff' _ (Iff.of_eq (k1_chk66.eq_1 v976))
theorem k1_off132_inb : ∀ (v976 : BitVec 32) (k1_hw66 : k1_chk66 v976), ∀ a, (k1_off132 v976) a + S1x128.size a ≤ S16384x128.size a := fun v976 k1_hw66 => k1_hw66

def k1_off133 (i : grid1.Coords) : Fin 3 → Nat :=
  let arg0 : BitVec 32 := BitVec.ofNat 32 (i 0).val
  let c0_i32_1124 : BitVec 32 := 0#32
  let c0_i32_1125 : BitVec 32 := 0#32
  ![arg0.toNat, 0, 0]
def k1_off134 (v984 : BitVec 32) : Fin 2 → Nat :=
  let c0_i32_1126 : BitVec 32 := 0#32
  ![v984.toNat, 0]

def k1_chk67 (v984 : BitVec 32) : Prop :=
  (∀ a, (k1_off134 v984) a + S1x128.size a ≤ S16384x128.size a)
instance k1_chk67.dec : ∀ (v984 : BitVec 32), Decidable (k1_chk67 v984) := fun v984 => decidable_of_iff' _ (Iff.of_eq (k1_chk67.eq_1 v984))
theorem k1_off134_inb : ∀ (v984 : BitVec 32) (k1_hw67 : k1_chk67 v984), ∀ a, (k1_off134 v984) a + S1x128.size a ≤ S16384x128.size a := fun v984 k1_hw67 => k1_hw67

def k1_off135 (i : grid1.Coords) : Fin 3 → Nat :=
  let arg0 : BitVec 32 := BitVec.ofNat 32 (i 0).val
  let c0_i32_1134 : BitVec 32 := 0#32
  let c0_i32_1135 : BitVec 32 := 0#32
  ![arg0.toNat, 0, 0]
def k1_off136 (v992 : BitVec 32) : Fin 2 → Nat :=
  let c0_i32_1136 : BitVec 32 := 0#32
  ![v992.toNat, 0]

def k1_chk68 (v992 : BitVec 32) : Prop :=
  (∀ a, (k1_off136 v992) a + S1x128.size a ≤ S16384x128.size a)
instance k1_chk68.dec : ∀ (v992 : BitVec 32), Decidable (k1_chk68 v992) := fun v992 => decidable_of_iff' _ (Iff.of_eq (k1_chk68.eq_1 v992))
theorem k1_off136_inb : ∀ (v992 : BitVec 32) (k1_hw68 : k1_chk68 v992), ∀ a, (k1_off136 v992) a + S1x128.size a ≤ S16384x128.size a := fun v992 k1_hw68 => k1_hw68

def k1_off137 (i : grid1.Coords) : Fin 3 → Nat :=
  let arg0 : BitVec 32 := BitVec.ofNat 32 (i 0).val
  let c0_i32_1144 : BitVec 32 := 0#32
  let c0_i32_1145 : BitVec 32 := 0#32
  ![arg0.toNat, 0, 0]
def k1_off138 (v1000 : BitVec 32) : Fin 2 → Nat :=
  let c0_i32_1146 : BitVec 32 := 0#32
  ![v1000.toNat, 0]

def k1_chk69 (v1000 : BitVec 32) : Prop :=
  (∀ a, (k1_off138 v1000) a + S1x128.size a ≤ S16384x128.size a)
instance k1_chk69.dec : ∀ (v1000 : BitVec 32), Decidable (k1_chk69 v1000) := fun v1000 => decidable_of_iff' _ (Iff.of_eq (k1_chk69.eq_1 v1000))
theorem k1_off138_inb : ∀ (v1000 : BitVec 32) (k1_hw69 : k1_chk69 v1000), ∀ a, (k1_off138 v1000) a + S1x128.size a ≤ S16384x128.size a := fun v1000 k1_hw69 => k1_hw69

def k1_off139 (i : grid1.Coords) : Fin 3 → Nat :=
  let arg0 : BitVec 32 := BitVec.ofNat 32 (i 0).val
  let c0_i32_1154 : BitVec 32 := 0#32
  let c0_i32_1155 : BitVec 32 := 0#32
  ![arg0.toNat, 0, 0]
def k1_off140 (v1008 : BitVec 32) : Fin 2 → Nat :=
  let c0_i32_1156 : BitVec 32 := 0#32
  ![v1008.toNat, 0]

def k1_chk70 (v1008 : BitVec 32) : Prop :=
  (∀ a, (k1_off140 v1008) a + S1x128.size a ≤ S16384x128.size a)
instance k1_chk70.dec : ∀ (v1008 : BitVec 32), Decidable (k1_chk70 v1008) := fun v1008 => decidable_of_iff' _ (Iff.of_eq (k1_chk70.eq_1 v1008))
theorem k1_off140_inb : ∀ (v1008 : BitVec 32) (k1_hw70 : k1_chk70 v1008), ∀ a, (k1_off140 v1008) a + S1x128.size a ≤ S16384x128.size a := fun v1008 k1_hw70 => k1_hw70

def k1_off141 (i : grid1.Coords) : Fin 3 → Nat :=
  let arg0 : BitVec 32 := BitVec.ofNat 32 (i 0).val
  let c0_i32_1164 : BitVec 32 := 0#32
  let c0_i32_1165 : BitVec 32 := 0#32
  ![arg0.toNat, 0, 0]
def k1_off142 (v1016 : BitVec 32) : Fin 2 → Nat :=
  let c0_i32_1166 : BitVec 32 := 0#32
  ![v1016.toNat, 0]

def k1_chk71 (v1016 : BitVec 32) : Prop :=
  (∀ a, (k1_off142 v1016) a + S1x128.size a ≤ S16384x128.size a)
instance k1_chk71.dec : ∀ (v1016 : BitVec 32), Decidable (k1_chk71 v1016) := fun v1016 => decidable_of_iff' _ (Iff.of_eq (k1_chk71.eq_1 v1016))
theorem k1_off142_inb : ∀ (v1016 : BitVec 32) (k1_hw71 : k1_chk71 v1016), ∀ a, (k1_off142 v1016) a + S1x128.size a ≤ S16384x128.size a := fun v1016 k1_hw71 => k1_hw71

def k1_off143 (i : grid1.Coords) : Fin 3 → Nat :=
  let arg0 : BitVec 32 := BitVec.ofNat 32 (i 0).val
  let c0_i32_1174 : BitVec 32 := 0#32
  let c0_i32_1175 : BitVec 32 := 0#32
  ![arg0.toNat, 0, 0]
def k1_off144 (v1024 : BitVec 32) : Fin 2 → Nat :=
  let c0_i32_1176 : BitVec 32 := 0#32
  ![v1024.toNat, 0]

def k1_chk72 (v1024 : BitVec 32) : Prop :=
  (∀ a, (k1_off144 v1024) a + S1x128.size a ≤ S16384x128.size a)
instance k1_chk72.dec : ∀ (v1024 : BitVec 32), Decidable (k1_chk72 v1024) := fun v1024 => decidable_of_iff' _ (Iff.of_eq (k1_chk72.eq_1 v1024))
theorem k1_off144_inb : ∀ (v1024 : BitVec 32) (k1_hw72 : k1_chk72 v1024), ∀ a, (k1_off144 v1024) a + S1x128.size a ≤ S16384x128.size a := fun v1024 k1_hw72 => k1_hw72

def k1_off145 (i : grid1.Coords) : Fin 3 → Nat :=
  let arg0 : BitVec 32 := BitVec.ofNat 32 (i 0).val
  let c0_i32_1184 : BitVec 32 := 0#32
  let c0_i32_1185 : BitVec 32 := 0#32
  ![arg0.toNat, 0, 0]
def k1_off146 (v1032 : BitVec 32) : Fin 2 → Nat :=
  let c0_i32_1186 : BitVec 32 := 0#32
  ![v1032.toNat, 0]

def k1_chk73 (v1032 : BitVec 32) : Prop :=
  (∀ a, (k1_off146 v1032) a + S1x128.size a ≤ S16384x128.size a)
instance k1_chk73.dec : ∀ (v1032 : BitVec 32), Decidable (k1_chk73 v1032) := fun v1032 => decidable_of_iff' _ (Iff.of_eq (k1_chk73.eq_1 v1032))
theorem k1_off146_inb : ∀ (v1032 : BitVec 32) (k1_hw73 : k1_chk73 v1032), ∀ a, (k1_off146 v1032) a + S1x128.size a ≤ S16384x128.size a := fun v1032 k1_hw73 => k1_hw73

def k1_off147 (i : grid1.Coords) : Fin 3 → Nat :=
  let arg0 : BitVec 32 := BitVec.ofNat 32 (i 0).val
  let c0_i32_1194 : BitVec 32 := 0#32
  let c0_i32_1195 : BitVec 32 := 0#32
  ![arg0.toNat, 0, 0]
def k1_off148 (v1040 : BitVec 32) : Fin 2 → Nat :=
  let c0_i32_1196 : BitVec 32 := 0#32
  ![v1040.toNat, 0]

def k1_chk74 (v1040 : BitVec 32) : Prop :=
  (∀ a, (k1_off148 v1040) a + S1x128.size a ≤ S16384x128.size a)
instance k1_chk74.dec : ∀ (v1040 : BitVec 32), Decidable (k1_chk74 v1040) := fun v1040 => decidable_of_iff' _ (Iff.of_eq (k1_chk74.eq_1 v1040))
theorem k1_off148_inb : ∀ (v1040 : BitVec 32) (k1_hw74 : k1_chk74 v1040), ∀ a, (k1_off148 v1040) a + S1x128.size a ≤ S16384x128.size a := fun v1040 k1_hw74 => k1_hw74

def k1_off149 (i : grid1.Coords) : Fin 3 → Nat :=
  let arg0 : BitVec 32 := BitVec.ofNat 32 (i 0).val
  let c0_i32_1204 : BitVec 32 := 0#32
  let c0_i32_1205 : BitVec 32 := 0#32
  ![arg0.toNat, 0, 0]
def k1_off150 (v1048 : BitVec 32) : Fin 2 → Nat :=
  let c0_i32_1206 : BitVec 32 := 0#32
  ![v1048.toNat, 0]

def k1_chk75 (v1048 : BitVec 32) : Prop :=
  (∀ a, (k1_off150 v1048) a + S1x128.size a ≤ S16384x128.size a)
instance k1_chk75.dec : ∀ (v1048 : BitVec 32), Decidable (k1_chk75 v1048) := fun v1048 => decidable_of_iff' _ (Iff.of_eq (k1_chk75.eq_1 v1048))
theorem k1_off150_inb : ∀ (v1048 : BitVec 32) (k1_hw75 : k1_chk75 v1048), ∀ a, (k1_off150 v1048) a + S1x128.size a ≤ S16384x128.size a := fun v1048 k1_hw75 => k1_hw75

def k1_off151 (i : grid1.Coords) : Fin 3 → Nat :=
  let arg0 : BitVec 32 := BitVec.ofNat 32 (i 0).val
  let c0_i32_1214 : BitVec 32 := 0#32
  let c0_i32_1215 : BitVec 32 := 0#32
  ![arg0.toNat, 0, 0]
def k1_off152 (v1056 : BitVec 32) : Fin 2 → Nat :=
  let c0_i32_1216 : BitVec 32 := 0#32
  ![v1056.toNat, 0]

def k1_chk76 (v1056 : BitVec 32) : Prop :=
  (∀ a, (k1_off152 v1056) a + S1x128.size a ≤ S16384x128.size a)
instance k1_chk76.dec : ∀ (v1056 : BitVec 32), Decidable (k1_chk76 v1056) := fun v1056 => decidable_of_iff' _ (Iff.of_eq (k1_chk76.eq_1 v1056))
theorem k1_off152_inb : ∀ (v1056 : BitVec 32) (k1_hw76 : k1_chk76 v1056), ∀ a, (k1_off152 v1056) a + S1x128.size a ≤ S16384x128.size a := fun v1056 k1_hw76 => k1_hw76

def k1_off153 (i : grid1.Coords) : Fin 3 → Nat :=
  let arg0 : BitVec 32 := BitVec.ofNat 32 (i 0).val
  let c0_i32_1224 : BitVec 32 := 0#32
  let c0_i32_1225 : BitVec 32 := 0#32
  ![arg0.toNat, 0, 0]
def k1_off154 (v1064 : BitVec 32) : Fin 2 → Nat :=
  let c0_i32_1226 : BitVec 32 := 0#32
  ![v1064.toNat, 0]

def k1_chk77 (v1064 : BitVec 32) : Prop :=
  (∀ a, (k1_off154 v1064) a + S1x128.size a ≤ S16384x128.size a)
instance k1_chk77.dec : ∀ (v1064 : BitVec 32), Decidable (k1_chk77 v1064) := fun v1064 => decidable_of_iff' _ (Iff.of_eq (k1_chk77.eq_1 v1064))
theorem k1_off154_inb : ∀ (v1064 : BitVec 32) (k1_hw77 : k1_chk77 v1064), ∀ a, (k1_off154 v1064) a + S1x128.size a ≤ S16384x128.size a := fun v1064 k1_hw77 => k1_hw77

def k1_off155 (i : grid1.Coords) : Fin 3 → Nat :=
  let arg0 : BitVec 32 := BitVec.ofNat 32 (i 0).val
  let c0_i32_1234 : BitVec 32 := 0#32
  let c0_i32_1235 : BitVec 32 := 0#32
  ![arg0.toNat, 0, 0]
def k1_off156 (v1072 : BitVec 32) : Fin 2 → Nat :=
  let c0_i32_1236 : BitVec 32 := 0#32
  ![v1072.toNat, 0]

def k1_chk78 (v1072 : BitVec 32) : Prop :=
  (∀ a, (k1_off156 v1072) a + S1x128.size a ≤ S16384x128.size a)
instance k1_chk78.dec : ∀ (v1072 : BitVec 32), Decidable (k1_chk78 v1072) := fun v1072 => decidable_of_iff' _ (Iff.of_eq (k1_chk78.eq_1 v1072))
theorem k1_off156_inb : ∀ (v1072 : BitVec 32) (k1_hw78 : k1_chk78 v1072), ∀ a, (k1_off156 v1072) a + S1x128.size a ≤ S16384x128.size a := fun v1072 k1_hw78 => k1_hw78

def k1_off157 (i : grid1.Coords) : Fin 3 → Nat :=
  let arg0 : BitVec 32 := BitVec.ofNat 32 (i 0).val
  let c0_i32_1244 : BitVec 32 := 0#32
  let c0_i32_1245 : BitVec 32 := 0#32
  ![arg0.toNat, 0, 0]
def k1_off158 (v1080 : BitVec 32) : Fin 2 → Nat :=
  let c0_i32_1246 : BitVec 32 := 0#32
  ![v1080.toNat, 0]

def k1_chk79 (v1080 : BitVec 32) : Prop :=
  (∀ a, (k1_off158 v1080) a + S1x128.size a ≤ S16384x128.size a)
instance k1_chk79.dec : ∀ (v1080 : BitVec 32), Decidable (k1_chk79 v1080) := fun v1080 => decidable_of_iff' _ (Iff.of_eq (k1_chk79.eq_1 v1080))
theorem k1_off158_inb : ∀ (v1080 : BitVec 32) (k1_hw79 : k1_chk79 v1080), ∀ a, (k1_off158 v1080) a + S1x128.size a ≤ S16384x128.size a := fun v1080 k1_hw79 => k1_hw79

def k1_off159 (i : grid1.Coords) : Fin 3 → Nat :=
  let arg0 : BitVec 32 := BitVec.ofNat 32 (i 0).val
  let c0_i32_1254 : BitVec 32 := 0#32
  let c0_i32_1255 : BitVec 32 := 0#32
  ![arg0.toNat, 0, 0]
def k1_off160 (v1088 : BitVec 32) : Fin 2 → Nat :=
  let c0_i32_1256 : BitVec 32 := 0#32
  ![v1088.toNat, 0]

def k1_chk80 (v1088 : BitVec 32) : Prop :=
  (∀ a, (k1_off160 v1088) a + S1x128.size a ≤ S16384x128.size a)
instance k1_chk80.dec : ∀ (v1088 : BitVec 32), Decidable (k1_chk80 v1088) := fun v1088 => decidable_of_iff' _ (Iff.of_eq (k1_chk80.eq_1 v1088))
theorem k1_off160_inb : ∀ (v1088 : BitVec 32) (k1_hw80 : k1_chk80 v1088), ∀ a, (k1_off160 v1088) a + S1x128.size a ≤ S16384x128.size a := fun v1088 k1_hw80 => k1_hw80

def k1_off161 (i : grid1.Coords) : Fin 3 → Nat :=
  let arg0 : BitVec 32 := BitVec.ofNat 32 (i 0).val
  let c0_i32_1264 : BitVec 32 := 0#32
  let c0_i32_1265 : BitVec 32 := 0#32
  ![arg0.toNat, 0, 0]
def k1_off162 (v1096 : BitVec 32) : Fin 2 → Nat :=
  let c0_i32_1266 : BitVec 32 := 0#32
  ![v1096.toNat, 0]

def k1_chk81 (v1096 : BitVec 32) : Prop :=
  (∀ a, (k1_off162 v1096) a + S1x128.size a ≤ S16384x128.size a)
instance k1_chk81.dec : ∀ (v1096 : BitVec 32), Decidable (k1_chk81 v1096) := fun v1096 => decidable_of_iff' _ (Iff.of_eq (k1_chk81.eq_1 v1096))
theorem k1_off162_inb : ∀ (v1096 : BitVec 32) (k1_hw81 : k1_chk81 v1096), ∀ a, (k1_off162 v1096) a + S1x128.size a ≤ S16384x128.size a := fun v1096 k1_hw81 => k1_hw81

def k1_off163 (i : grid1.Coords) : Fin 3 → Nat :=
  let arg0 : BitVec 32 := BitVec.ofNat 32 (i 0).val
  let c0_i32_1274 : BitVec 32 := 0#32
  let c0_i32_1275 : BitVec 32 := 0#32
  ![arg0.toNat, 0, 0]
def k1_off164 (v1104 : BitVec 32) : Fin 2 → Nat :=
  let c0_i32_1276 : BitVec 32 := 0#32
  ![v1104.toNat, 0]

def k1_chk82 (v1104 : BitVec 32) : Prop :=
  (∀ a, (k1_off164 v1104) a + S1x128.size a ≤ S16384x128.size a)
instance k1_chk82.dec : ∀ (v1104 : BitVec 32), Decidable (k1_chk82 v1104) := fun v1104 => decidable_of_iff' _ (Iff.of_eq (k1_chk82.eq_1 v1104))
theorem k1_off164_inb : ∀ (v1104 : BitVec 32) (k1_hw82 : k1_chk82 v1104), ∀ a, (k1_off164 v1104) a + S1x128.size a ≤ S16384x128.size a := fun v1104 k1_hw82 => k1_hw82

def k1_off165 (i : grid1.Coords) : Fin 3 → Nat :=
  let arg0 : BitVec 32 := BitVec.ofNat 32 (i 0).val
  let c0_i32_1284 : BitVec 32 := 0#32
  let c0_i32_1285 : BitVec 32 := 0#32
  ![arg0.toNat, 0, 0]
def k1_off166 (v1112 : BitVec 32) : Fin 2 → Nat :=
  let c0_i32_1286 : BitVec 32 := 0#32
  ![v1112.toNat, 0]

def k1_chk83 (v1112 : BitVec 32) : Prop :=
  (∀ a, (k1_off166 v1112) a + S1x128.size a ≤ S16384x128.size a)
instance k1_chk83.dec : ∀ (v1112 : BitVec 32), Decidable (k1_chk83 v1112) := fun v1112 => decidable_of_iff' _ (Iff.of_eq (k1_chk83.eq_1 v1112))
theorem k1_off166_inb : ∀ (v1112 : BitVec 32) (k1_hw83 : k1_chk83 v1112), ∀ a, (k1_off166 v1112) a + S1x128.size a ≤ S16384x128.size a := fun v1112 k1_hw83 => k1_hw83

def k1_off167 (i : grid1.Coords) : Fin 3 → Nat :=
  let arg0 : BitVec 32 := BitVec.ofNat 32 (i 0).val
  let c0_i32_1294 : BitVec 32 := 0#32
  let c0_i32_1295 : BitVec 32 := 0#32
  ![arg0.toNat, 0, 0]
def k1_off168 (v1120 : BitVec 32) : Fin 2 → Nat :=
  let c0_i32_1296 : BitVec 32 := 0#32
  ![v1120.toNat, 0]

def k1_chk84 (v1120 : BitVec 32) : Prop :=
  (∀ a, (k1_off168 v1120) a + S1x128.size a ≤ S16384x128.size a)
instance k1_chk84.dec : ∀ (v1120 : BitVec 32), Decidable (k1_chk84 v1120) := fun v1120 => decidable_of_iff' _ (Iff.of_eq (k1_chk84.eq_1 v1120))
theorem k1_off168_inb : ∀ (v1120 : BitVec 32) (k1_hw84 : k1_chk84 v1120), ∀ a, (k1_off168 v1120) a + S1x128.size a ≤ S16384x128.size a := fun v1120 k1_hw84 => k1_hw84

def k1_off169 (i : grid1.Coords) : Fin 3 → Nat :=
  let arg0 : BitVec 32 := BitVec.ofNat 32 (i 0).val
  let c0_i32_1304 : BitVec 32 := 0#32
  let c0_i32_1305 : BitVec 32 := 0#32
  ![arg0.toNat, 0, 0]
def k1_off170 (v1128 : BitVec 32) : Fin 2 → Nat :=
  let c0_i32_1306 : BitVec 32 := 0#32
  ![v1128.toNat, 0]

def k1_chk85 (v1128 : BitVec 32) : Prop :=
  (∀ a, (k1_off170 v1128) a + S1x128.size a ≤ S16384x128.size a)
instance k1_chk85.dec : ∀ (v1128 : BitVec 32), Decidable (k1_chk85 v1128) := fun v1128 => decidable_of_iff' _ (Iff.of_eq (k1_chk85.eq_1 v1128))
theorem k1_off170_inb : ∀ (v1128 : BitVec 32) (k1_hw85 : k1_chk85 v1128), ∀ a, (k1_off170 v1128) a + S1x128.size a ≤ S16384x128.size a := fun v1128 k1_hw85 => k1_hw85

def k1_off171 (i : grid1.Coords) : Fin 3 → Nat :=
  let arg0 : BitVec 32 := BitVec.ofNat 32 (i 0).val
  let c0_i32_1314 : BitVec 32 := 0#32
  let c0_i32_1315 : BitVec 32 := 0#32
  ![arg0.toNat, 0, 0]
def k1_off172 (v1136 : BitVec 32) : Fin 2 → Nat :=
  let c0_i32_1316 : BitVec 32 := 0#32
  ![v1136.toNat, 0]

def k1_chk86 (v1136 : BitVec 32) : Prop :=
  (∀ a, (k1_off172 v1136) a + S1x128.size a ≤ S16384x128.size a)
instance k1_chk86.dec : ∀ (v1136 : BitVec 32), Decidable (k1_chk86 v1136) := fun v1136 => decidable_of_iff' _ (Iff.of_eq (k1_chk86.eq_1 v1136))
theorem k1_off172_inb : ∀ (v1136 : BitVec 32) (k1_hw86 : k1_chk86 v1136), ∀ a, (k1_off172 v1136) a + S1x128.size a ≤ S16384x128.size a := fun v1136 k1_hw86 => k1_hw86

def k1_off173 (i : grid1.Coords) : Fin 3 → Nat :=
  let arg0 : BitVec 32 := BitVec.ofNat 32 (i 0).val
  let c0_i32_1324 : BitVec 32 := 0#32
  let c0_i32_1325 : BitVec 32 := 0#32
  ![arg0.toNat, 0, 0]
def k1_off174 (v1144 : BitVec 32) : Fin 2 → Nat :=
  let c0_i32_1326 : BitVec 32 := 0#32
  ![v1144.toNat, 0]

def k1_chk87 (v1144 : BitVec 32) : Prop :=
  (∀ a, (k1_off174 v1144) a + S1x128.size a ≤ S16384x128.size a)
instance k1_chk87.dec : ∀ (v1144 : BitVec 32), Decidable (k1_chk87 v1144) := fun v1144 => decidable_of_iff' _ (Iff.of_eq (k1_chk87.eq_1 v1144))
theorem k1_off174_inb : ∀ (v1144 : BitVec 32) (k1_hw87 : k1_chk87 v1144), ∀ a, (k1_off174 v1144) a + S1x128.size a ≤ S16384x128.size a := fun v1144 k1_hw87 => k1_hw87

def k1_off175 (i : grid1.Coords) : Fin 3 → Nat :=
  let arg0 : BitVec 32 := BitVec.ofNat 32 (i 0).val
  let c0_i32_1334 : BitVec 32 := 0#32
  let c0_i32_1335 : BitVec 32 := 0#32
  ![arg0.toNat, 0, 0]
def k1_off176 (v1152 : BitVec 32) : Fin 2 → Nat :=
  let c0_i32_1336 : BitVec 32 := 0#32
  ![v1152.toNat, 0]

def k1_chk88 (v1152 : BitVec 32) : Prop :=
  (∀ a, (k1_off176 v1152) a + S1x128.size a ≤ S16384x128.size a)
instance k1_chk88.dec : ∀ (v1152 : BitVec 32), Decidable (k1_chk88 v1152) := fun v1152 => decidable_of_iff' _ (Iff.of_eq (k1_chk88.eq_1 v1152))
theorem k1_off176_inb : ∀ (v1152 : BitVec 32) (k1_hw88 : k1_chk88 v1152), ∀ a, (k1_off176 v1152) a + S1x128.size a ≤ S16384x128.size a := fun v1152 k1_hw88 => k1_hw88

def k1_off177 (i : grid1.Coords) : Fin 3 → Nat :=
  let arg0 : BitVec 32 := BitVec.ofNat 32 (i 0).val
  let c0_i32_1344 : BitVec 32 := 0#32
  let c0_i32_1345 : BitVec 32 := 0#32
  ![arg0.toNat, 0, 0]
def k1_off178 (v1160 : BitVec 32) : Fin 2 → Nat :=
  let c0_i32_1346 : BitVec 32 := 0#32
  ![v1160.toNat, 0]

def k1_chk89 (v1160 : BitVec 32) : Prop :=
  (∀ a, (k1_off178 v1160) a + S1x128.size a ≤ S16384x128.size a)
instance k1_chk89.dec : ∀ (v1160 : BitVec 32), Decidable (k1_chk89 v1160) := fun v1160 => decidable_of_iff' _ (Iff.of_eq (k1_chk89.eq_1 v1160))
theorem k1_off178_inb : ∀ (v1160 : BitVec 32) (k1_hw89 : k1_chk89 v1160), ∀ a, (k1_off178 v1160) a + S1x128.size a ≤ S16384x128.size a := fun v1160 k1_hw89 => k1_hw89

def k1_off179 (i : grid1.Coords) : Fin 3 → Nat :=
  let arg0 : BitVec 32 := BitVec.ofNat 32 (i 0).val
  let c0_i32_1354 : BitVec 32 := 0#32
  let c0_i32_1355 : BitVec 32 := 0#32
  ![arg0.toNat, 0, 0]
def k1_off180 (v1168 : BitVec 32) : Fin 2 → Nat :=
  let c0_i32_1356 : BitVec 32 := 0#32
  ![v1168.toNat, 0]

def k1_chk90 (v1168 : BitVec 32) : Prop :=
  (∀ a, (k1_off180 v1168) a + S1x128.size a ≤ S16384x128.size a)
instance k1_chk90.dec : ∀ (v1168 : BitVec 32), Decidable (k1_chk90 v1168) := fun v1168 => decidable_of_iff' _ (Iff.of_eq (k1_chk90.eq_1 v1168))
theorem k1_off180_inb : ∀ (v1168 : BitVec 32) (k1_hw90 : k1_chk90 v1168), ∀ a, (k1_off180 v1168) a + S1x128.size a ≤ S16384x128.size a := fun v1168 k1_hw90 => k1_hw90

def k1_off181 (i : grid1.Coords) : Fin 3 → Nat :=
  let arg0 : BitVec 32 := BitVec.ofNat 32 (i 0).val
  let c0_i32_1364 : BitVec 32 := 0#32
  let c0_i32_1365 : BitVec 32 := 0#32
  ![arg0.toNat, 0, 0]
def k1_off182 (v1176 : BitVec 32) : Fin 2 → Nat :=
  let c0_i32_1366 : BitVec 32 := 0#32
  ![v1176.toNat, 0]

def k1_chk91 (v1176 : BitVec 32) : Prop :=
  (∀ a, (k1_off182 v1176) a + S1x128.size a ≤ S16384x128.size a)
instance k1_chk91.dec : ∀ (v1176 : BitVec 32), Decidable (k1_chk91 v1176) := fun v1176 => decidable_of_iff' _ (Iff.of_eq (k1_chk91.eq_1 v1176))
theorem k1_off182_inb : ∀ (v1176 : BitVec 32) (k1_hw91 : k1_chk91 v1176), ∀ a, (k1_off182 v1176) a + S1x128.size a ≤ S16384x128.size a := fun v1176 k1_hw91 => k1_hw91

def k1_off183 (i : grid1.Coords) : Fin 3 → Nat :=
  let arg0 : BitVec 32 := BitVec.ofNat 32 (i 0).val
  let c0_i32_1374 : BitVec 32 := 0#32
  let c0_i32_1375 : BitVec 32 := 0#32
  ![arg0.toNat, 0, 0]
def k1_off184 (v1184 : BitVec 32) : Fin 2 → Nat :=
  let c0_i32_1376 : BitVec 32 := 0#32
  ![v1184.toNat, 0]

def k1_chk92 (v1184 : BitVec 32) : Prop :=
  (∀ a, (k1_off184 v1184) a + S1x128.size a ≤ S16384x128.size a)
instance k1_chk92.dec : ∀ (v1184 : BitVec 32), Decidable (k1_chk92 v1184) := fun v1184 => decidable_of_iff' _ (Iff.of_eq (k1_chk92.eq_1 v1184))
theorem k1_off184_inb : ∀ (v1184 : BitVec 32) (k1_hw92 : k1_chk92 v1184), ∀ a, (k1_off184 v1184) a + S1x128.size a ≤ S16384x128.size a := fun v1184 k1_hw92 => k1_hw92

def k1_off185 (i : grid1.Coords) : Fin 3 → Nat :=
  let arg0 : BitVec 32 := BitVec.ofNat 32 (i 0).val
  let c0_i32_1384 : BitVec 32 := 0#32
  let c0_i32_1385 : BitVec 32 := 0#32
  ![arg0.toNat, 0, 0]
def k1_off186 (v1192 : BitVec 32) : Fin 2 → Nat :=
  let c0_i32_1386 : BitVec 32 := 0#32
  ![v1192.toNat, 0]

def k1_chk93 (v1192 : BitVec 32) : Prop :=
  (∀ a, (k1_off186 v1192) a + S1x128.size a ≤ S16384x128.size a)
instance k1_chk93.dec : ∀ (v1192 : BitVec 32), Decidable (k1_chk93 v1192) := fun v1192 => decidable_of_iff' _ (Iff.of_eq (k1_chk93.eq_1 v1192))
theorem k1_off186_inb : ∀ (v1192 : BitVec 32) (k1_hw93 : k1_chk93 v1192), ∀ a, (k1_off186 v1192) a + S1x128.size a ≤ S16384x128.size a := fun v1192 k1_hw93 => k1_hw93

def k1_off187 (i : grid1.Coords) : Fin 3 → Nat :=
  let arg0 : BitVec 32 := BitVec.ofNat 32 (i 0).val
  let c0_i32_1394 : BitVec 32 := 0#32
  let c0_i32_1395 : BitVec 32 := 0#32
  ![arg0.toNat, 0, 0]
def k1_off188 (v1200 : BitVec 32) : Fin 2 → Nat :=
  let c0_i32_1396 : BitVec 32 := 0#32
  ![v1200.toNat, 0]

def k1_chk94 (v1200 : BitVec 32) : Prop :=
  (∀ a, (k1_off188 v1200) a + S1x128.size a ≤ S16384x128.size a)
instance k1_chk94.dec : ∀ (v1200 : BitVec 32), Decidable (k1_chk94 v1200) := fun v1200 => decidable_of_iff' _ (Iff.of_eq (k1_chk94.eq_1 v1200))
theorem k1_off188_inb : ∀ (v1200 : BitVec 32) (k1_hw94 : k1_chk94 v1200), ∀ a, (k1_off188 v1200) a + S1x128.size a ≤ S16384x128.size a := fun v1200 k1_hw94 => k1_hw94

def k1_off189 (i : grid1.Coords) : Fin 3 → Nat :=
  let arg0 : BitVec 32 := BitVec.ofNat 32 (i 0).val
  let c0_i32_1404 : BitVec 32 := 0#32
  let c0_i32_1405 : BitVec 32 := 0#32
  ![arg0.toNat, 0, 0]
def k1_off190 (v1208 : BitVec 32) : Fin 2 → Nat :=
  let c0_i32_1406 : BitVec 32 := 0#32
  ![v1208.toNat, 0]

def k1_chk95 (v1208 : BitVec 32) : Prop :=
  (∀ a, (k1_off190 v1208) a + S1x128.size a ≤ S16384x128.size a)
instance k1_chk95.dec : ∀ (v1208 : BitVec 32), Decidable (k1_chk95 v1208) := fun v1208 => decidable_of_iff' _ (Iff.of_eq (k1_chk95.eq_1 v1208))
theorem k1_off190_inb : ∀ (v1208 : BitVec 32) (k1_hw95 : k1_chk95 v1208), ∀ a, (k1_off190 v1208) a + S1x128.size a ≤ S16384x128.size a := fun v1208 k1_hw95 => k1_hw95

def k1_off191 (i : grid1.Coords) : Fin 3 → Nat :=
  let arg0 : BitVec 32 := BitVec.ofNat 32 (i 0).val
  let c0_i32_1414 : BitVec 32 := 0#32
  let c0_i32_1415 : BitVec 32 := 0#32
  ![arg0.toNat, 0, 0]
def k1_off192 (v1216 : BitVec 32) : Fin 2 → Nat :=
  let c0_i32_1416 : BitVec 32 := 0#32
  ![v1216.toNat, 0]

def k1_chk96 (v1216 : BitVec 32) : Prop :=
  (∀ a, (k1_off192 v1216) a + S1x128.size a ≤ S16384x128.size a)
instance k1_chk96.dec : ∀ (v1216 : BitVec 32), Decidable (k1_chk96 v1216) := fun v1216 => decidable_of_iff' _ (Iff.of_eq (k1_chk96.eq_1 v1216))
theorem k1_off192_inb : ∀ (v1216 : BitVec 32) (k1_hw96 : k1_chk96 v1216), ∀ a, (k1_off192 v1216) a + S1x128.size a ≤ S16384x128.size a := fun v1216 k1_hw96 => k1_hw96

def k1_off193 (i : grid1.Coords) : Fin 3 → Nat :=
  let arg0 : BitVec 32 := BitVec.ofNat 32 (i 0).val
  let c0_i32_1421 : BitVec 32 := 0#32
  let c0_i32_1422 : BitVec 32 := 0#32
  ![arg0.toNat, 0, 0]
def k1_off194 (v1452 : BitVec 32) : Fin 2 → Nat :=
  let c0_i32_1687 : BitVec 32 := 0#32
  ![v1452.toNat, 0]

def k1_chk97 (v1452 : BitVec 32) : Prop :=
  (∀ a, (k1_off194 v1452) a + S1x128.size a ≤ S16384x128.size a)
instance k1_chk97.dec : ∀ (v1452 : BitVec 32), Decidable (k1_chk97 v1452) := fun v1452 => decidable_of_iff' _ (Iff.of_eq (k1_chk97.eq_1 v1452))
theorem k1_off194_inb : ∀ (v1452 : BitVec 32) (k1_hw97 : k1_chk97 v1452), ∀ a, (k1_off194 v1452) a + S1x128.size a ≤ S16384x128.size a := fun v1452 k1_hw97 => k1_hw97

def k1_off195 (i : grid1.Coords) : Fin 3 → Nat :=
  let arg0 : BitVec 32 := BitVec.ofNat 32 (i 0).val
  let c0_i32_1695 : BitVec 32 := 0#32
  let c0_i32_1696 : BitVec 32 := 0#32
  ![arg0.toNat, 0, 0]
def k1_off196 (v1460 : BitVec 32) : Fin 2 → Nat :=
  let c0_i32_1697 : BitVec 32 := 0#32
  ![v1460.toNat, 0]

def k1_chk98 (v1460 : BitVec 32) : Prop :=
  (∀ a, (k1_off196 v1460) a + S1x128.size a ≤ S16384x128.size a)
instance k1_chk98.dec : ∀ (v1460 : BitVec 32), Decidable (k1_chk98 v1460) := fun v1460 => decidable_of_iff' _ (Iff.of_eq (k1_chk98.eq_1 v1460))
theorem k1_off196_inb : ∀ (v1460 : BitVec 32) (k1_hw98 : k1_chk98 v1460), ∀ a, (k1_off196 v1460) a + S1x128.size a ≤ S16384x128.size a := fun v1460 k1_hw98 => k1_hw98

def k1_off197 (i : grid1.Coords) : Fin 3 → Nat :=
  let arg0 : BitVec 32 := BitVec.ofNat 32 (i 0).val
  let c0_i32_1705 : BitVec 32 := 0#32
  let c0_i32_1706 : BitVec 32 := 0#32
  ![arg0.toNat, 0, 0]
def k1_off198 (v1468 : BitVec 32) : Fin 2 → Nat :=
  let c0_i32_1707 : BitVec 32 := 0#32
  ![v1468.toNat, 0]

def k1_chk99 (v1468 : BitVec 32) : Prop :=
  (∀ a, (k1_off198 v1468) a + S1x128.size a ≤ S16384x128.size a)
instance k1_chk99.dec : ∀ (v1468 : BitVec 32), Decidable (k1_chk99 v1468) := fun v1468 => decidable_of_iff' _ (Iff.of_eq (k1_chk99.eq_1 v1468))
theorem k1_off198_inb : ∀ (v1468 : BitVec 32) (k1_hw99 : k1_chk99 v1468), ∀ a, (k1_off198 v1468) a + S1x128.size a ≤ S16384x128.size a := fun v1468 k1_hw99 => k1_hw99

def k1_off199 (i : grid1.Coords) : Fin 3 → Nat :=
  let arg0 : BitVec 32 := BitVec.ofNat 32 (i 0).val
  let c0_i32_1715 : BitVec 32 := 0#32
  let c0_i32_1716 : BitVec 32 := 0#32
  ![arg0.toNat, 0, 0]
def k1_off200 (v1476 : BitVec 32) : Fin 2 → Nat :=
  let c0_i32_1717 : BitVec 32 := 0#32
  ![v1476.toNat, 0]

def k1_chk100 (v1476 : BitVec 32) : Prop :=
  (∀ a, (k1_off200 v1476) a + S1x128.size a ≤ S16384x128.size a)
instance k1_chk100.dec : ∀ (v1476 : BitVec 32), Decidable (k1_chk100 v1476) := fun v1476 => decidable_of_iff' _ (Iff.of_eq (k1_chk100.eq_1 v1476))
theorem k1_off200_inb : ∀ (v1476 : BitVec 32) (k1_hw100 : k1_chk100 v1476), ∀ a, (k1_off200 v1476) a + S1x128.size a ≤ S16384x128.size a := fun v1476 k1_hw100 => k1_hw100

def k1_off201 (i : grid1.Coords) : Fin 3 → Nat :=
  let arg0 : BitVec 32 := BitVec.ofNat 32 (i 0).val
  let c0_i32_1725 : BitVec 32 := 0#32
  let c0_i32_1726 : BitVec 32 := 0#32
  ![arg0.toNat, 0, 0]
def k1_off202 (v1484 : BitVec 32) : Fin 2 → Nat :=
  let c0_i32_1727 : BitVec 32 := 0#32
  ![v1484.toNat, 0]

def k1_chk101 (v1484 : BitVec 32) : Prop :=
  (∀ a, (k1_off202 v1484) a + S1x128.size a ≤ S16384x128.size a)
instance k1_chk101.dec : ∀ (v1484 : BitVec 32), Decidable (k1_chk101 v1484) := fun v1484 => decidable_of_iff' _ (Iff.of_eq (k1_chk101.eq_1 v1484))
theorem k1_off202_inb : ∀ (v1484 : BitVec 32) (k1_hw101 : k1_chk101 v1484), ∀ a, (k1_off202 v1484) a + S1x128.size a ≤ S16384x128.size a := fun v1484 k1_hw101 => k1_hw101

def k1_off203 (i : grid1.Coords) : Fin 3 → Nat :=
  let arg0 : BitVec 32 := BitVec.ofNat 32 (i 0).val
  let c0_i32_1735 : BitVec 32 := 0#32
  let c0_i32_1736 : BitVec 32 := 0#32
  ![arg0.toNat, 0, 0]
def k1_off204 (v1492 : BitVec 32) : Fin 2 → Nat :=
  let c0_i32_1737 : BitVec 32 := 0#32
  ![v1492.toNat, 0]

def k1_chk102 (v1492 : BitVec 32) : Prop :=
  (∀ a, (k1_off204 v1492) a + S1x128.size a ≤ S16384x128.size a)
instance k1_chk102.dec : ∀ (v1492 : BitVec 32), Decidable (k1_chk102 v1492) := fun v1492 => decidable_of_iff' _ (Iff.of_eq (k1_chk102.eq_1 v1492))
theorem k1_off204_inb : ∀ (v1492 : BitVec 32) (k1_hw102 : k1_chk102 v1492), ∀ a, (k1_off204 v1492) a + S1x128.size a ≤ S16384x128.size a := fun v1492 k1_hw102 => k1_hw102

def k1_off205 (i : grid1.Coords) : Fin 3 → Nat :=
  let arg0 : BitVec 32 := BitVec.ofNat 32 (i 0).val
  let c0_i32_1745 : BitVec 32 := 0#32
  let c0_i32_1746 : BitVec 32 := 0#32
  ![arg0.toNat, 0, 0]
def k1_off206 (v1500 : BitVec 32) : Fin 2 → Nat :=
  let c0_i32_1747 : BitVec 32 := 0#32
  ![v1500.toNat, 0]

def k1_chk103 (v1500 : BitVec 32) : Prop :=
  (∀ a, (k1_off206 v1500) a + S1x128.size a ≤ S16384x128.size a)
instance k1_chk103.dec : ∀ (v1500 : BitVec 32), Decidable (k1_chk103 v1500) := fun v1500 => decidable_of_iff' _ (Iff.of_eq (k1_chk103.eq_1 v1500))
theorem k1_off206_inb : ∀ (v1500 : BitVec 32) (k1_hw103 : k1_chk103 v1500), ∀ a, (k1_off206 v1500) a + S1x128.size a ≤ S16384x128.size a := fun v1500 k1_hw103 => k1_hw103

def k1_off207 (i : grid1.Coords) : Fin 3 → Nat :=
  let arg0 : BitVec 32 := BitVec.ofNat 32 (i 0).val
  let c0_i32_1755 : BitVec 32 := 0#32
  let c0_i32_1756 : BitVec 32 := 0#32
  ![arg0.toNat, 0, 0]
def k1_off208 (v1508 : BitVec 32) : Fin 2 → Nat :=
  let c0_i32_1757 : BitVec 32 := 0#32
  ![v1508.toNat, 0]

def k1_chk104 (v1508 : BitVec 32) : Prop :=
  (∀ a, (k1_off208 v1508) a + S1x128.size a ≤ S16384x128.size a)
instance k1_chk104.dec : ∀ (v1508 : BitVec 32), Decidable (k1_chk104 v1508) := fun v1508 => decidable_of_iff' _ (Iff.of_eq (k1_chk104.eq_1 v1508))
theorem k1_off208_inb : ∀ (v1508 : BitVec 32) (k1_hw104 : k1_chk104 v1508), ∀ a, (k1_off208 v1508) a + S1x128.size a ≤ S16384x128.size a := fun v1508 k1_hw104 => k1_hw104

def k1_off209 (i : grid1.Coords) : Fin 3 → Nat :=
  let arg0 : BitVec 32 := BitVec.ofNat 32 (i 0).val
  let c0_i32_1765 : BitVec 32 := 0#32
  let c0_i32_1766 : BitVec 32 := 0#32
  ![arg0.toNat, 0, 0]
def k1_off210 (v1516 : BitVec 32) : Fin 2 → Nat :=
  let c0_i32_1767 : BitVec 32 := 0#32
  ![v1516.toNat, 0]

def k1_chk105 (v1516 : BitVec 32) : Prop :=
  (∀ a, (k1_off210 v1516) a + S1x128.size a ≤ S16384x128.size a)
instance k1_chk105.dec : ∀ (v1516 : BitVec 32), Decidable (k1_chk105 v1516) := fun v1516 => decidable_of_iff' _ (Iff.of_eq (k1_chk105.eq_1 v1516))
theorem k1_off210_inb : ∀ (v1516 : BitVec 32) (k1_hw105 : k1_chk105 v1516), ∀ a, (k1_off210 v1516) a + S1x128.size a ≤ S16384x128.size a := fun v1516 k1_hw105 => k1_hw105

def k1_off211 (i : grid1.Coords) : Fin 3 → Nat :=
  let arg0 : BitVec 32 := BitVec.ofNat 32 (i 0).val
  let c0_i32_1775 : BitVec 32 := 0#32
  let c0_i32_1776 : BitVec 32 := 0#32
  ![arg0.toNat, 0, 0]
def k1_off212 (v1524 : BitVec 32) : Fin 2 → Nat :=
  let c0_i32_1777 : BitVec 32 := 0#32
  ![v1524.toNat, 0]

def k1_chk106 (v1524 : BitVec 32) : Prop :=
  (∀ a, (k1_off212 v1524) a + S1x128.size a ≤ S16384x128.size a)
instance k1_chk106.dec : ∀ (v1524 : BitVec 32), Decidable (k1_chk106 v1524) := fun v1524 => decidable_of_iff' _ (Iff.of_eq (k1_chk106.eq_1 v1524))
theorem k1_off212_inb : ∀ (v1524 : BitVec 32) (k1_hw106 : k1_chk106 v1524), ∀ a, (k1_off212 v1524) a + S1x128.size a ≤ S16384x128.size a := fun v1524 k1_hw106 => k1_hw106

def k1_off213 (i : grid1.Coords) : Fin 3 → Nat :=
  let arg0 : BitVec 32 := BitVec.ofNat 32 (i 0).val
  let c0_i32_1785 : BitVec 32 := 0#32
  let c0_i32_1786 : BitVec 32 := 0#32
  ![arg0.toNat, 0, 0]
def k1_off214 (v1532 : BitVec 32) : Fin 2 → Nat :=
  let c0_i32_1787 : BitVec 32 := 0#32
  ![v1532.toNat, 0]

def k1_chk107 (v1532 : BitVec 32) : Prop :=
  (∀ a, (k1_off214 v1532) a + S1x128.size a ≤ S16384x128.size a)
instance k1_chk107.dec : ∀ (v1532 : BitVec 32), Decidable (k1_chk107 v1532) := fun v1532 => decidable_of_iff' _ (Iff.of_eq (k1_chk107.eq_1 v1532))
theorem k1_off214_inb : ∀ (v1532 : BitVec 32) (k1_hw107 : k1_chk107 v1532), ∀ a, (k1_off214 v1532) a + S1x128.size a ≤ S16384x128.size a := fun v1532 k1_hw107 => k1_hw107

def k1_off215 (i : grid1.Coords) : Fin 3 → Nat :=
  let arg0 : BitVec 32 := BitVec.ofNat 32 (i 0).val
  let c0_i32_1795 : BitVec 32 := 0#32
  let c0_i32_1796 : BitVec 32 := 0#32
  ![arg0.toNat, 0, 0]
def k1_off216 (v1540 : BitVec 32) : Fin 2 → Nat :=
  let c0_i32_1797 : BitVec 32 := 0#32
  ![v1540.toNat, 0]

def k1_chk108 (v1540 : BitVec 32) : Prop :=
  (∀ a, (k1_off216 v1540) a + S1x128.size a ≤ S16384x128.size a)
instance k1_chk108.dec : ∀ (v1540 : BitVec 32), Decidable (k1_chk108 v1540) := fun v1540 => decidable_of_iff' _ (Iff.of_eq (k1_chk108.eq_1 v1540))
theorem k1_off216_inb : ∀ (v1540 : BitVec 32) (k1_hw108 : k1_chk108 v1540), ∀ a, (k1_off216 v1540) a + S1x128.size a ≤ S16384x128.size a := fun v1540 k1_hw108 => k1_hw108

def k1_off217 (i : grid1.Coords) : Fin 3 → Nat :=
  let arg0 : BitVec 32 := BitVec.ofNat 32 (i 0).val
  let c0_i32_1805 : BitVec 32 := 0#32
  let c0_i32_1806 : BitVec 32 := 0#32
  ![arg0.toNat, 0, 0]
def k1_off218 (v1548 : BitVec 32) : Fin 2 → Nat :=
  let c0_i32_1807 : BitVec 32 := 0#32
  ![v1548.toNat, 0]

def k1_chk109 (v1548 : BitVec 32) : Prop :=
  (∀ a, (k1_off218 v1548) a + S1x128.size a ≤ S16384x128.size a)
instance k1_chk109.dec : ∀ (v1548 : BitVec 32), Decidable (k1_chk109 v1548) := fun v1548 => decidable_of_iff' _ (Iff.of_eq (k1_chk109.eq_1 v1548))
theorem k1_off218_inb : ∀ (v1548 : BitVec 32) (k1_hw109 : k1_chk109 v1548), ∀ a, (k1_off218 v1548) a + S1x128.size a ≤ S16384x128.size a := fun v1548 k1_hw109 => k1_hw109

def k1_off219 (i : grid1.Coords) : Fin 3 → Nat :=
  let arg0 : BitVec 32 := BitVec.ofNat 32 (i 0).val
  let c0_i32_1815 : BitVec 32 := 0#32
  let c0_i32_1816 : BitVec 32 := 0#32
  ![arg0.toNat, 0, 0]
def k1_off220 (v1556 : BitVec 32) : Fin 2 → Nat :=
  let c0_i32_1817 : BitVec 32 := 0#32
  ![v1556.toNat, 0]

def k1_chk110 (v1556 : BitVec 32) : Prop :=
  (∀ a, (k1_off220 v1556) a + S1x128.size a ≤ S16384x128.size a)
instance k1_chk110.dec : ∀ (v1556 : BitVec 32), Decidable (k1_chk110 v1556) := fun v1556 => decidable_of_iff' _ (Iff.of_eq (k1_chk110.eq_1 v1556))
theorem k1_off220_inb : ∀ (v1556 : BitVec 32) (k1_hw110 : k1_chk110 v1556), ∀ a, (k1_off220 v1556) a + S1x128.size a ≤ S16384x128.size a := fun v1556 k1_hw110 => k1_hw110

def k1_off221 (i : grid1.Coords) : Fin 3 → Nat :=
  let arg0 : BitVec 32 := BitVec.ofNat 32 (i 0).val
  let c0_i32_1825 : BitVec 32 := 0#32
  let c0_i32_1826 : BitVec 32 := 0#32
  ![arg0.toNat, 0, 0]
def k1_off222 (v1564 : BitVec 32) : Fin 2 → Nat :=
  let c0_i32_1827 : BitVec 32 := 0#32
  ![v1564.toNat, 0]

def k1_chk111 (v1564 : BitVec 32) : Prop :=
  (∀ a, (k1_off222 v1564) a + S1x128.size a ≤ S16384x128.size a)
instance k1_chk111.dec : ∀ (v1564 : BitVec 32), Decidable (k1_chk111 v1564) := fun v1564 => decidable_of_iff' _ (Iff.of_eq (k1_chk111.eq_1 v1564))
theorem k1_off222_inb : ∀ (v1564 : BitVec 32) (k1_hw111 : k1_chk111 v1564), ∀ a, (k1_off222 v1564) a + S1x128.size a ≤ S16384x128.size a := fun v1564 k1_hw111 => k1_hw111

def k1_off223 (i : grid1.Coords) : Fin 3 → Nat :=
  let arg0 : BitVec 32 := BitVec.ofNat 32 (i 0).val
  let c0_i32_1835 : BitVec 32 := 0#32
  let c0_i32_1836 : BitVec 32 := 0#32
  ![arg0.toNat, 0, 0]
def k1_off224 (v1572 : BitVec 32) : Fin 2 → Nat :=
  let c0_i32_1837 : BitVec 32 := 0#32
  ![v1572.toNat, 0]

def k1_chk112 (v1572 : BitVec 32) : Prop :=
  (∀ a, (k1_off224 v1572) a + S1x128.size a ≤ S16384x128.size a)
instance k1_chk112.dec : ∀ (v1572 : BitVec 32), Decidable (k1_chk112 v1572) := fun v1572 => decidable_of_iff' _ (Iff.of_eq (k1_chk112.eq_1 v1572))
theorem k1_off224_inb : ∀ (v1572 : BitVec 32) (k1_hw112 : k1_chk112 v1572), ∀ a, (k1_off224 v1572) a + S1x128.size a ≤ S16384x128.size a := fun v1572 k1_hw112 => k1_hw112

def k1_off225 (i : grid1.Coords) : Fin 3 → Nat :=
  let arg0 : BitVec 32 := BitVec.ofNat 32 (i 0).val
  let c0_i32_1845 : BitVec 32 := 0#32
  let c0_i32_1846 : BitVec 32 := 0#32
  ![arg0.toNat, 0, 0]
def k1_off226 (v1580 : BitVec 32) : Fin 2 → Nat :=
  let c0_i32_1847 : BitVec 32 := 0#32
  ![v1580.toNat, 0]

def k1_chk113 (v1580 : BitVec 32) : Prop :=
  (∀ a, (k1_off226 v1580) a + S1x128.size a ≤ S16384x128.size a)
instance k1_chk113.dec : ∀ (v1580 : BitVec 32), Decidable (k1_chk113 v1580) := fun v1580 => decidable_of_iff' _ (Iff.of_eq (k1_chk113.eq_1 v1580))
theorem k1_off226_inb : ∀ (v1580 : BitVec 32) (k1_hw113 : k1_chk113 v1580), ∀ a, (k1_off226 v1580) a + S1x128.size a ≤ S16384x128.size a := fun v1580 k1_hw113 => k1_hw113

def k1_off227 (i : grid1.Coords) : Fin 3 → Nat :=
  let arg0 : BitVec 32 := BitVec.ofNat 32 (i 0).val
  let c0_i32_1855 : BitVec 32 := 0#32
  let c0_i32_1856 : BitVec 32 := 0#32
  ![arg0.toNat, 0, 0]
def k1_off228 (v1588 : BitVec 32) : Fin 2 → Nat :=
  let c0_i32_1857 : BitVec 32 := 0#32
  ![v1588.toNat, 0]

def k1_chk114 (v1588 : BitVec 32) : Prop :=
  (∀ a, (k1_off228 v1588) a + S1x128.size a ≤ S16384x128.size a)
instance k1_chk114.dec : ∀ (v1588 : BitVec 32), Decidable (k1_chk114 v1588) := fun v1588 => decidable_of_iff' _ (Iff.of_eq (k1_chk114.eq_1 v1588))
theorem k1_off228_inb : ∀ (v1588 : BitVec 32) (k1_hw114 : k1_chk114 v1588), ∀ a, (k1_off228 v1588) a + S1x128.size a ≤ S16384x128.size a := fun v1588 k1_hw114 => k1_hw114

def k1_off229 (i : grid1.Coords) : Fin 3 → Nat :=
  let arg0 : BitVec 32 := BitVec.ofNat 32 (i 0).val
  let c0_i32_1865 : BitVec 32 := 0#32
  let c0_i32_1866 : BitVec 32 := 0#32
  ![arg0.toNat, 0, 0]
def k1_off230 (v1596 : BitVec 32) : Fin 2 → Nat :=
  let c0_i32_1867 : BitVec 32 := 0#32
  ![v1596.toNat, 0]

def k1_chk115 (v1596 : BitVec 32) : Prop :=
  (∀ a, (k1_off230 v1596) a + S1x128.size a ≤ S16384x128.size a)
instance k1_chk115.dec : ∀ (v1596 : BitVec 32), Decidable (k1_chk115 v1596) := fun v1596 => decidable_of_iff' _ (Iff.of_eq (k1_chk115.eq_1 v1596))
theorem k1_off230_inb : ∀ (v1596 : BitVec 32) (k1_hw115 : k1_chk115 v1596), ∀ a, (k1_off230 v1596) a + S1x128.size a ≤ S16384x128.size a := fun v1596 k1_hw115 => k1_hw115

def k1_off231 (i : grid1.Coords) : Fin 3 → Nat :=
  let arg0 : BitVec 32 := BitVec.ofNat 32 (i 0).val
  let c0_i32_1875 : BitVec 32 := 0#32
  let c0_i32_1876 : BitVec 32 := 0#32
  ![arg0.toNat, 0, 0]
def k1_off232 (v1604 : BitVec 32) : Fin 2 → Nat :=
  let c0_i32_1877 : BitVec 32 := 0#32
  ![v1604.toNat, 0]

def k1_chk116 (v1604 : BitVec 32) : Prop :=
  (∀ a, (k1_off232 v1604) a + S1x128.size a ≤ S16384x128.size a)
instance k1_chk116.dec : ∀ (v1604 : BitVec 32), Decidable (k1_chk116 v1604) := fun v1604 => decidable_of_iff' _ (Iff.of_eq (k1_chk116.eq_1 v1604))
theorem k1_off232_inb : ∀ (v1604 : BitVec 32) (k1_hw116 : k1_chk116 v1604), ∀ a, (k1_off232 v1604) a + S1x128.size a ≤ S16384x128.size a := fun v1604 k1_hw116 => k1_hw116

def k1_off233 (i : grid1.Coords) : Fin 3 → Nat :=
  let arg0 : BitVec 32 := BitVec.ofNat 32 (i 0).val
  let c0_i32_1885 : BitVec 32 := 0#32
  let c0_i32_1886 : BitVec 32 := 0#32
  ![arg0.toNat, 0, 0]
def k1_off234 (v1612 : BitVec 32) : Fin 2 → Nat :=
  let c0_i32_1887 : BitVec 32 := 0#32
  ![v1612.toNat, 0]

def k1_chk117 (v1612 : BitVec 32) : Prop :=
  (∀ a, (k1_off234 v1612) a + S1x128.size a ≤ S16384x128.size a)
instance k1_chk117.dec : ∀ (v1612 : BitVec 32), Decidable (k1_chk117 v1612) := fun v1612 => decidable_of_iff' _ (Iff.of_eq (k1_chk117.eq_1 v1612))
theorem k1_off234_inb : ∀ (v1612 : BitVec 32) (k1_hw117 : k1_chk117 v1612), ∀ a, (k1_off234 v1612) a + S1x128.size a ≤ S16384x128.size a := fun v1612 k1_hw117 => k1_hw117

def k1_off235 (i : grid1.Coords) : Fin 3 → Nat :=
  let arg0 : BitVec 32 := BitVec.ofNat 32 (i 0).val
  let c0_i32_1895 : BitVec 32 := 0#32
  let c0_i32_1896 : BitVec 32 := 0#32
  ![arg0.toNat, 0, 0]
def k1_off236 (v1620 : BitVec 32) : Fin 2 → Nat :=
  let c0_i32_1897 : BitVec 32 := 0#32
  ![v1620.toNat, 0]

def k1_chk118 (v1620 : BitVec 32) : Prop :=
  (∀ a, (k1_off236 v1620) a + S1x128.size a ≤ S16384x128.size a)
instance k1_chk118.dec : ∀ (v1620 : BitVec 32), Decidable (k1_chk118 v1620) := fun v1620 => decidable_of_iff' _ (Iff.of_eq (k1_chk118.eq_1 v1620))
theorem k1_off236_inb : ∀ (v1620 : BitVec 32) (k1_hw118 : k1_chk118 v1620), ∀ a, (k1_off236 v1620) a + S1x128.size a ≤ S16384x128.size a := fun v1620 k1_hw118 => k1_hw118

def k1_off237 (i : grid1.Coords) : Fin 3 → Nat :=
  let arg0 : BitVec 32 := BitVec.ofNat 32 (i 0).val
  let c0_i32_1905 : BitVec 32 := 0#32
  let c0_i32_1906 : BitVec 32 := 0#32
  ![arg0.toNat, 0, 0]
def k1_off238 (v1628 : BitVec 32) : Fin 2 → Nat :=
  let c0_i32_1907 : BitVec 32 := 0#32
  ![v1628.toNat, 0]

def k1_chk119 (v1628 : BitVec 32) : Prop :=
  (∀ a, (k1_off238 v1628) a + S1x128.size a ≤ S16384x128.size a)
instance k1_chk119.dec : ∀ (v1628 : BitVec 32), Decidable (k1_chk119 v1628) := fun v1628 => decidable_of_iff' _ (Iff.of_eq (k1_chk119.eq_1 v1628))
theorem k1_off238_inb : ∀ (v1628 : BitVec 32) (k1_hw119 : k1_chk119 v1628), ∀ a, (k1_off238 v1628) a + S1x128.size a ≤ S16384x128.size a := fun v1628 k1_hw119 => k1_hw119

def k1_off239 (i : grid1.Coords) : Fin 3 → Nat :=
  let arg0 : BitVec 32 := BitVec.ofNat 32 (i 0).val
  let c0_i32_1915 : BitVec 32 := 0#32
  let c0_i32_1916 : BitVec 32 := 0#32
  ![arg0.toNat, 0, 0]
def k1_off240 (v1636 : BitVec 32) : Fin 2 → Nat :=
  let c0_i32_1917 : BitVec 32 := 0#32
  ![v1636.toNat, 0]

def k1_chk120 (v1636 : BitVec 32) : Prop :=
  (∀ a, (k1_off240 v1636) a + S1x128.size a ≤ S16384x128.size a)
instance k1_chk120.dec : ∀ (v1636 : BitVec 32), Decidable (k1_chk120 v1636) := fun v1636 => decidable_of_iff' _ (Iff.of_eq (k1_chk120.eq_1 v1636))
theorem k1_off240_inb : ∀ (v1636 : BitVec 32) (k1_hw120 : k1_chk120 v1636), ∀ a, (k1_off240 v1636) a + S1x128.size a ≤ S16384x128.size a := fun v1636 k1_hw120 => k1_hw120

def k1_off241 (i : grid1.Coords) : Fin 3 → Nat :=
  let arg0 : BitVec 32 := BitVec.ofNat 32 (i 0).val
  let c0_i32_1925 : BitVec 32 := 0#32
  let c0_i32_1926 : BitVec 32 := 0#32
  ![arg0.toNat, 0, 0]
def k1_off242 (v1644 : BitVec 32) : Fin 2 → Nat :=
  let c0_i32_1927 : BitVec 32 := 0#32
  ![v1644.toNat, 0]

def k1_chk121 (v1644 : BitVec 32) : Prop :=
  (∀ a, (k1_off242 v1644) a + S1x128.size a ≤ S16384x128.size a)
instance k1_chk121.dec : ∀ (v1644 : BitVec 32), Decidable (k1_chk121 v1644) := fun v1644 => decidable_of_iff' _ (Iff.of_eq (k1_chk121.eq_1 v1644))
theorem k1_off242_inb : ∀ (v1644 : BitVec 32) (k1_hw121 : k1_chk121 v1644), ∀ a, (k1_off242 v1644) a + S1x128.size a ≤ S16384x128.size a := fun v1644 k1_hw121 => k1_hw121

def k1_off243 (i : grid1.Coords) : Fin 3 → Nat :=
  let arg0 : BitVec 32 := BitVec.ofNat 32 (i 0).val
  let c0_i32_1935 : BitVec 32 := 0#32
  let c0_i32_1936 : BitVec 32 := 0#32
  ![arg0.toNat, 0, 0]
def k1_off244 (v1652 : BitVec 32) : Fin 2 → Nat :=
  let c0_i32_1937 : BitVec 32 := 0#32
  ![v1652.toNat, 0]

def k1_chk122 (v1652 : BitVec 32) : Prop :=
  (∀ a, (k1_off244 v1652) a + S1x128.size a ≤ S16384x128.size a)
instance k1_chk122.dec : ∀ (v1652 : BitVec 32), Decidable (k1_chk122 v1652) := fun v1652 => decidable_of_iff' _ (Iff.of_eq (k1_chk122.eq_1 v1652))
theorem k1_off244_inb : ∀ (v1652 : BitVec 32) (k1_hw122 : k1_chk122 v1652), ∀ a, (k1_off244 v1652) a + S1x128.size a ≤ S16384x128.size a := fun v1652 k1_hw122 => k1_hw122

def k1_off245 (i : grid1.Coords) : Fin 3 → Nat :=
  let arg0 : BitVec 32 := BitVec.ofNat 32 (i 0).val
  let c0_i32_1945 : BitVec 32 := 0#32
  let c0_i32_1946 : BitVec 32 := 0#32
  ![arg0.toNat, 0, 0]
def k1_off246 (v1660 : BitVec 32) : Fin 2 → Nat :=
  let c0_i32_1947 : BitVec 32 := 0#32
  ![v1660.toNat, 0]

def k1_chk123 (v1660 : BitVec 32) : Prop :=
  (∀ a, (k1_off246 v1660) a + S1x128.size a ≤ S16384x128.size a)
instance k1_chk123.dec : ∀ (v1660 : BitVec 32), Decidable (k1_chk123 v1660) := fun v1660 => decidable_of_iff' _ (Iff.of_eq (k1_chk123.eq_1 v1660))
theorem k1_off246_inb : ∀ (v1660 : BitVec 32) (k1_hw123 : k1_chk123 v1660), ∀ a, (k1_off246 v1660) a + S1x128.size a ≤ S16384x128.size a := fun v1660 k1_hw123 => k1_hw123

def k1_off247 (i : grid1.Coords) : Fin 3 → Nat :=
  let arg0 : BitVec 32 := BitVec.ofNat 32 (i 0).val
  let c0_i32_1955 : BitVec 32 := 0#32
  let c0_i32_1956 : BitVec 32 := 0#32
  ![arg0.toNat, 0, 0]
def k1_off248 (v1668 : BitVec 32) : Fin 2 → Nat :=
  let c0_i32_1957 : BitVec 32 := 0#32
  ![v1668.toNat, 0]

def k1_chk124 (v1668 : BitVec 32) : Prop :=
  (∀ a, (k1_off248 v1668) a + S1x128.size a ≤ S16384x128.size a)
instance k1_chk124.dec : ∀ (v1668 : BitVec 32), Decidable (k1_chk124 v1668) := fun v1668 => decidable_of_iff' _ (Iff.of_eq (k1_chk124.eq_1 v1668))
theorem k1_off248_inb : ∀ (v1668 : BitVec 32) (k1_hw124 : k1_chk124 v1668), ∀ a, (k1_off248 v1668) a + S1x128.size a ≤ S16384x128.size a := fun v1668 k1_hw124 => k1_hw124

def k1_off249 (i : grid1.Coords) : Fin 3 → Nat :=
  let arg0 : BitVec 32 := BitVec.ofNat 32 (i 0).val
  let c0_i32_1965 : BitVec 32 := 0#32
  let c0_i32_1966 : BitVec 32 := 0#32
  ![arg0.toNat, 0, 0]
def k1_off250 (v1676 : BitVec 32) : Fin 2 → Nat :=
  let c0_i32_1967 : BitVec 32 := 0#32
  ![v1676.toNat, 0]

def k1_chk125 (v1676 : BitVec 32) : Prop :=
  (∀ a, (k1_off250 v1676) a + S1x128.size a ≤ S16384x128.size a)
instance k1_chk125.dec : ∀ (v1676 : BitVec 32), Decidable (k1_chk125 v1676) := fun v1676 => decidable_of_iff' _ (Iff.of_eq (k1_chk125.eq_1 v1676))
theorem k1_off250_inb : ∀ (v1676 : BitVec 32) (k1_hw125 : k1_chk125 v1676), ∀ a, (k1_off250 v1676) a + S1x128.size a ≤ S16384x128.size a := fun v1676 k1_hw125 => k1_hw125

def k1_off251 (i : grid1.Coords) : Fin 3 → Nat :=
  let arg0 : BitVec 32 := BitVec.ofNat 32 (i 0).val
  let c0_i32_1975 : BitVec 32 := 0#32
  let c0_i32_1976 : BitVec 32 := 0#32
  ![arg0.toNat, 0, 0]
def k1_off252 (v1684 : BitVec 32) : Fin 2 → Nat :=
  let c0_i32_1977 : BitVec 32 := 0#32
  ![v1684.toNat, 0]

def k1_chk126 (v1684 : BitVec 32) : Prop :=
  (∀ a, (k1_off252 v1684) a + S1x128.size a ≤ S16384x128.size a)
instance k1_chk126.dec : ∀ (v1684 : BitVec 32), Decidable (k1_chk126 v1684) := fun v1684 => decidable_of_iff' _ (Iff.of_eq (k1_chk126.eq_1 v1684))
theorem k1_off252_inb : ∀ (v1684 : BitVec 32) (k1_hw126 : k1_chk126 v1684), ∀ a, (k1_off252 v1684) a + S1x128.size a ≤ S16384x128.size a := fun v1684 k1_hw126 => k1_hw126

def k1_off253 (i : grid1.Coords) : Fin 3 → Nat :=
  let arg0 : BitVec 32 := BitVec.ofNat 32 (i 0).val
  let c0_i32_1985 : BitVec 32 := 0#32
  let c0_i32_1986 : BitVec 32 := 0#32
  ![arg0.toNat, 0, 0]
def k1_off254 (v1692 : BitVec 32) : Fin 2 → Nat :=
  let c0_i32_1987 : BitVec 32 := 0#32
  ![v1692.toNat, 0]

def k1_chk127 (v1692 : BitVec 32) : Prop :=
  (∀ a, (k1_off254 v1692) a + S1x128.size a ≤ S16384x128.size a)
instance k1_chk127.dec : ∀ (v1692 : BitVec 32), Decidable (k1_chk127 v1692) := fun v1692 => decidable_of_iff' _ (Iff.of_eq (k1_chk127.eq_1 v1692))
theorem k1_off254_inb : ∀ (v1692 : BitVec 32) (k1_hw127 : k1_chk127 v1692), ∀ a, (k1_off254 v1692) a + S1x128.size a ≤ S16384x128.size a := fun v1692 k1_hw127 => k1_hw127

def k1_off255 (i : grid1.Coords) : Fin 3 → Nat :=
  let arg0 : BitVec 32 := BitVec.ofNat 32 (i 0).val
  let c0_i32_1995 : BitVec 32 := 0#32
  let c0_i32_1996 : BitVec 32 := 0#32
  ![arg0.toNat, 0, 0]
def k1_off256 (v1700 : BitVec 32) : Fin 2 → Nat :=
  let c0_i32_1997 : BitVec 32 := 0#32
  ![v1700.toNat, 0]

def k1_chk128 (v1700 : BitVec 32) : Prop :=
  (∀ a, (k1_off256 v1700) a + S1x128.size a ≤ S16384x128.size a)
instance k1_chk128.dec : ∀ (v1700 : BitVec 32), Decidable (k1_chk128 v1700) := fun v1700 => decidable_of_iff' _ (Iff.of_eq (k1_chk128.eq_1 v1700))
theorem k1_off256_inb : ∀ (v1700 : BitVec 32) (k1_hw128 : k1_chk128 v1700), ∀ a, (k1_off256 v1700) a + S1x128.size a ≤ S16384x128.size a := fun v1700 k1_hw128 => k1_hw128

def k1_off257 (i : grid1.Coords) : Fin 3 → Nat :=
  let arg0 : BitVec 32 := BitVec.ofNat 32 (i 0).val
  let c0_i32_2002 : BitVec 32 := 0#32
  let c0_i32_2003 : BitVec 32 := 0#32
  ![arg0.toNat, 0, 0]
def k1_off258 (v1936 : BitVec 32) : Fin 2 → Nat :=
  let c0_i32_2268 : BitVec 32 := 0#32
  ![v1936.toNat, 0]

def k1_chk129 (v1936 : BitVec 32) : Prop :=
  (∀ a, (k1_off258 v1936) a + S1x128.size a ≤ S16384x128.size a)
instance k1_chk129.dec : ∀ (v1936 : BitVec 32), Decidable (k1_chk129 v1936) := fun v1936 => decidable_of_iff' _ (Iff.of_eq (k1_chk129.eq_1 v1936))
theorem k1_off258_inb : ∀ (v1936 : BitVec 32) (k1_hw129 : k1_chk129 v1936), ∀ a, (k1_off258 v1936) a + S1x128.size a ≤ S16384x128.size a := fun v1936 k1_hw129 => k1_hw129

def k1_off259 (i : grid1.Coords) : Fin 3 → Nat :=
  let arg0 : BitVec 32 := BitVec.ofNat 32 (i 0).val
  let c0_i32_2276 : BitVec 32 := 0#32
  let c0_i32_2277 : BitVec 32 := 0#32
  ![arg0.toNat, 0, 0]
def k1_off260 (v1944 : BitVec 32) : Fin 2 → Nat :=
  let c0_i32_2278 : BitVec 32 := 0#32
  ![v1944.toNat, 0]

def k1_chk130 (v1944 : BitVec 32) : Prop :=
  (∀ a, (k1_off260 v1944) a + S1x128.size a ≤ S16384x128.size a)
instance k1_chk130.dec : ∀ (v1944 : BitVec 32), Decidable (k1_chk130 v1944) := fun v1944 => decidable_of_iff' _ (Iff.of_eq (k1_chk130.eq_1 v1944))
theorem k1_off260_inb : ∀ (v1944 : BitVec 32) (k1_hw130 : k1_chk130 v1944), ∀ a, (k1_off260 v1944) a + S1x128.size a ≤ S16384x128.size a := fun v1944 k1_hw130 => k1_hw130

def k1_off261 (i : grid1.Coords) : Fin 3 → Nat :=
  let arg0 : BitVec 32 := BitVec.ofNat 32 (i 0).val
  let c0_i32_2286 : BitVec 32 := 0#32
  let c0_i32_2287 : BitVec 32 := 0#32
  ![arg0.toNat, 0, 0]
def k1_off262 (v1952 : BitVec 32) : Fin 2 → Nat :=
  let c0_i32_2288 : BitVec 32 := 0#32
  ![v1952.toNat, 0]

def k1_chk131 (v1952 : BitVec 32) : Prop :=
  (∀ a, (k1_off262 v1952) a + S1x128.size a ≤ S16384x128.size a)
instance k1_chk131.dec : ∀ (v1952 : BitVec 32), Decidable (k1_chk131 v1952) := fun v1952 => decidable_of_iff' _ (Iff.of_eq (k1_chk131.eq_1 v1952))
theorem k1_off262_inb : ∀ (v1952 : BitVec 32) (k1_hw131 : k1_chk131 v1952), ∀ a, (k1_off262 v1952) a + S1x128.size a ≤ S16384x128.size a := fun v1952 k1_hw131 => k1_hw131

def k1_off263 (i : grid1.Coords) : Fin 3 → Nat :=
  let arg0 : BitVec 32 := BitVec.ofNat 32 (i 0).val
  let c0_i32_2296 : BitVec 32 := 0#32
  let c0_i32_2297 : BitVec 32 := 0#32
  ![arg0.toNat, 0, 0]
def k1_off264 (v1960 : BitVec 32) : Fin 2 → Nat :=
  let c0_i32_2298 : BitVec 32 := 0#32
  ![v1960.toNat, 0]

def k1_chk132 (v1960 : BitVec 32) : Prop :=
  (∀ a, (k1_off264 v1960) a + S1x128.size a ≤ S16384x128.size a)
instance k1_chk132.dec : ∀ (v1960 : BitVec 32), Decidable (k1_chk132 v1960) := fun v1960 => decidable_of_iff' _ (Iff.of_eq (k1_chk132.eq_1 v1960))
theorem k1_off264_inb : ∀ (v1960 : BitVec 32) (k1_hw132 : k1_chk132 v1960), ∀ a, (k1_off264 v1960) a + S1x128.size a ≤ S16384x128.size a := fun v1960 k1_hw132 => k1_hw132

def k1_off265 (i : grid1.Coords) : Fin 3 → Nat :=
  let arg0 : BitVec 32 := BitVec.ofNat 32 (i 0).val
  let c0_i32_2306 : BitVec 32 := 0#32
  let c0_i32_2307 : BitVec 32 := 0#32
  ![arg0.toNat, 0, 0]
def k1_off266 (v1968 : BitVec 32) : Fin 2 → Nat :=
  let c0_i32_2308 : BitVec 32 := 0#32
  ![v1968.toNat, 0]

def k1_chk133 (v1968 : BitVec 32) : Prop :=
  (∀ a, (k1_off266 v1968) a + S1x128.size a ≤ S16384x128.size a)
instance k1_chk133.dec : ∀ (v1968 : BitVec 32), Decidable (k1_chk133 v1968) := fun v1968 => decidable_of_iff' _ (Iff.of_eq (k1_chk133.eq_1 v1968))
theorem k1_off266_inb : ∀ (v1968 : BitVec 32) (k1_hw133 : k1_chk133 v1968), ∀ a, (k1_off266 v1968) a + S1x128.size a ≤ S16384x128.size a := fun v1968 k1_hw133 => k1_hw133

def k1_off267 (i : grid1.Coords) : Fin 3 → Nat :=
  let arg0 : BitVec 32 := BitVec.ofNat 32 (i 0).val
  let c0_i32_2316 : BitVec 32 := 0#32
  let c0_i32_2317 : BitVec 32 := 0#32
  ![arg0.toNat, 0, 0]
def k1_off268 (v1976 : BitVec 32) : Fin 2 → Nat :=
  let c0_i32_2318 : BitVec 32 := 0#32
  ![v1976.toNat, 0]

def k1_chk134 (v1976 : BitVec 32) : Prop :=
  (∀ a, (k1_off268 v1976) a + S1x128.size a ≤ S16384x128.size a)
instance k1_chk134.dec : ∀ (v1976 : BitVec 32), Decidable (k1_chk134 v1976) := fun v1976 => decidable_of_iff' _ (Iff.of_eq (k1_chk134.eq_1 v1976))
theorem k1_off268_inb : ∀ (v1976 : BitVec 32) (k1_hw134 : k1_chk134 v1976), ∀ a, (k1_off268 v1976) a + S1x128.size a ≤ S16384x128.size a := fun v1976 k1_hw134 => k1_hw134

def k1_off269 (i : grid1.Coords) : Fin 3 → Nat :=
  let arg0 : BitVec 32 := BitVec.ofNat 32 (i 0).val
  let c0_i32_2326 : BitVec 32 := 0#32
  let c0_i32_2327 : BitVec 32 := 0#32
  ![arg0.toNat, 0, 0]
def k1_off270 (v1984 : BitVec 32) : Fin 2 → Nat :=
  let c0_i32_2328 : BitVec 32 := 0#32
  ![v1984.toNat, 0]

def k1_chk135 (v1984 : BitVec 32) : Prop :=
  (∀ a, (k1_off270 v1984) a + S1x128.size a ≤ S16384x128.size a)
instance k1_chk135.dec : ∀ (v1984 : BitVec 32), Decidable (k1_chk135 v1984) := fun v1984 => decidable_of_iff' _ (Iff.of_eq (k1_chk135.eq_1 v1984))
theorem k1_off270_inb : ∀ (v1984 : BitVec 32) (k1_hw135 : k1_chk135 v1984), ∀ a, (k1_off270 v1984) a + S1x128.size a ≤ S16384x128.size a := fun v1984 k1_hw135 => k1_hw135

def k1_off271 (i : grid1.Coords) : Fin 3 → Nat :=
  let arg0 : BitVec 32 := BitVec.ofNat 32 (i 0).val
  let c0_i32_2336 : BitVec 32 := 0#32
  let c0_i32_2337 : BitVec 32 := 0#32
  ![arg0.toNat, 0, 0]
def k1_off272 (v1992 : BitVec 32) : Fin 2 → Nat :=
  let c0_i32_2338 : BitVec 32 := 0#32
  ![v1992.toNat, 0]

def k1_chk136 (v1992 : BitVec 32) : Prop :=
  (∀ a, (k1_off272 v1992) a + S1x128.size a ≤ S16384x128.size a)
instance k1_chk136.dec : ∀ (v1992 : BitVec 32), Decidable (k1_chk136 v1992) := fun v1992 => decidable_of_iff' _ (Iff.of_eq (k1_chk136.eq_1 v1992))
theorem k1_off272_inb : ∀ (v1992 : BitVec 32) (k1_hw136 : k1_chk136 v1992), ∀ a, (k1_off272 v1992) a + S1x128.size a ≤ S16384x128.size a := fun v1992 k1_hw136 => k1_hw136

def k1_off273 (i : grid1.Coords) : Fin 3 → Nat :=
  let arg0 : BitVec 32 := BitVec.ofNat 32 (i 0).val
  let c0_i32_2346 : BitVec 32 := 0#32
  let c0_i32_2347 : BitVec 32 := 0#32
  ![arg0.toNat, 0, 0]
def k1_off274 (v2000 : BitVec 32) : Fin 2 → Nat :=
  let c0_i32_2348 : BitVec 32 := 0#32
  ![v2000.toNat, 0]

def k1_chk137 (v2000 : BitVec 32) : Prop :=
  (∀ a, (k1_off274 v2000) a + S1x128.size a ≤ S16384x128.size a)
instance k1_chk137.dec : ∀ (v2000 : BitVec 32), Decidable (k1_chk137 v2000) := fun v2000 => decidable_of_iff' _ (Iff.of_eq (k1_chk137.eq_1 v2000))
theorem k1_off274_inb : ∀ (v2000 : BitVec 32) (k1_hw137 : k1_chk137 v2000), ∀ a, (k1_off274 v2000) a + S1x128.size a ≤ S16384x128.size a := fun v2000 k1_hw137 => k1_hw137

def k1_off275 (i : grid1.Coords) : Fin 3 → Nat :=
  let arg0 : BitVec 32 := BitVec.ofNat 32 (i 0).val
  let c0_i32_2356 : BitVec 32 := 0#32
  let c0_i32_2357 : BitVec 32 := 0#32
  ![arg0.toNat, 0, 0]
def k1_off276 (v2008 : BitVec 32) : Fin 2 → Nat :=
  let c0_i32_2358 : BitVec 32 := 0#32
  ![v2008.toNat, 0]

def k1_chk138 (v2008 : BitVec 32) : Prop :=
  (∀ a, (k1_off276 v2008) a + S1x128.size a ≤ S16384x128.size a)
instance k1_chk138.dec : ∀ (v2008 : BitVec 32), Decidable (k1_chk138 v2008) := fun v2008 => decidable_of_iff' _ (Iff.of_eq (k1_chk138.eq_1 v2008))
theorem k1_off276_inb : ∀ (v2008 : BitVec 32) (k1_hw138 : k1_chk138 v2008), ∀ a, (k1_off276 v2008) a + S1x128.size a ≤ S16384x128.size a := fun v2008 k1_hw138 => k1_hw138

def k1_off277 (i : grid1.Coords) : Fin 3 → Nat :=
  let arg0 : BitVec 32 := BitVec.ofNat 32 (i 0).val
  let c0_i32_2366 : BitVec 32 := 0#32
  let c0_i32_2367 : BitVec 32 := 0#32
  ![arg0.toNat, 0, 0]
def k1_off278 (v2016 : BitVec 32) : Fin 2 → Nat :=
  let c0_i32_2368 : BitVec 32 := 0#32
  ![v2016.toNat, 0]

def k1_chk139 (v2016 : BitVec 32) : Prop :=
  (∀ a, (k1_off278 v2016) a + S1x128.size a ≤ S16384x128.size a)
instance k1_chk139.dec : ∀ (v2016 : BitVec 32), Decidable (k1_chk139 v2016) := fun v2016 => decidable_of_iff' _ (Iff.of_eq (k1_chk139.eq_1 v2016))
theorem k1_off278_inb : ∀ (v2016 : BitVec 32) (k1_hw139 : k1_chk139 v2016), ∀ a, (k1_off278 v2016) a + S1x128.size a ≤ S16384x128.size a := fun v2016 k1_hw139 => k1_hw139

def k1_off279 (i : grid1.Coords) : Fin 3 → Nat :=
  let arg0 : BitVec 32 := BitVec.ofNat 32 (i 0).val
  let c0_i32_2376 : BitVec 32 := 0#32
  let c0_i32_2377 : BitVec 32 := 0#32
  ![arg0.toNat, 0, 0]
def k1_off280 (v2024 : BitVec 32) : Fin 2 → Nat :=
  let c0_i32_2378 : BitVec 32 := 0#32
  ![v2024.toNat, 0]

def k1_chk140 (v2024 : BitVec 32) : Prop :=
  (∀ a, (k1_off280 v2024) a + S1x128.size a ≤ S16384x128.size a)
instance k1_chk140.dec : ∀ (v2024 : BitVec 32), Decidable (k1_chk140 v2024) := fun v2024 => decidable_of_iff' _ (Iff.of_eq (k1_chk140.eq_1 v2024))
theorem k1_off280_inb : ∀ (v2024 : BitVec 32) (k1_hw140 : k1_chk140 v2024), ∀ a, (k1_off280 v2024) a + S1x128.size a ≤ S16384x128.size a := fun v2024 k1_hw140 => k1_hw140

def k1_off281 (i : grid1.Coords) : Fin 3 → Nat :=
  let arg0 : BitVec 32 := BitVec.ofNat 32 (i 0).val
  let c0_i32_2386 : BitVec 32 := 0#32
  let c0_i32_2387 : BitVec 32 := 0#32
  ![arg0.toNat, 0, 0]
def k1_off282 (v2032 : BitVec 32) : Fin 2 → Nat :=
  let c0_i32_2388 : BitVec 32 := 0#32
  ![v2032.toNat, 0]

def k1_chk141 (v2032 : BitVec 32) : Prop :=
  (∀ a, (k1_off282 v2032) a + S1x128.size a ≤ S16384x128.size a)
instance k1_chk141.dec : ∀ (v2032 : BitVec 32), Decidable (k1_chk141 v2032) := fun v2032 => decidable_of_iff' _ (Iff.of_eq (k1_chk141.eq_1 v2032))
theorem k1_off282_inb : ∀ (v2032 : BitVec 32) (k1_hw141 : k1_chk141 v2032), ∀ a, (k1_off282 v2032) a + S1x128.size a ≤ S16384x128.size a := fun v2032 k1_hw141 => k1_hw141

def k1_off283 (i : grid1.Coords) : Fin 3 → Nat :=
  let arg0 : BitVec 32 := BitVec.ofNat 32 (i 0).val
  let c0_i32_2396 : BitVec 32 := 0#32
  let c0_i32_2397 : BitVec 32 := 0#32
  ![arg0.toNat, 0, 0]
def k1_off284 (v2040 : BitVec 32) : Fin 2 → Nat :=
  let c0_i32_2398 : BitVec 32 := 0#32
  ![v2040.toNat, 0]

def k1_chk142 (v2040 : BitVec 32) : Prop :=
  (∀ a, (k1_off284 v2040) a + S1x128.size a ≤ S16384x128.size a)
instance k1_chk142.dec : ∀ (v2040 : BitVec 32), Decidable (k1_chk142 v2040) := fun v2040 => decidable_of_iff' _ (Iff.of_eq (k1_chk142.eq_1 v2040))
theorem k1_off284_inb : ∀ (v2040 : BitVec 32) (k1_hw142 : k1_chk142 v2040), ∀ a, (k1_off284 v2040) a + S1x128.size a ≤ S16384x128.size a := fun v2040 k1_hw142 => k1_hw142

def k1_off285 (i : grid1.Coords) : Fin 3 → Nat :=
  let arg0 : BitVec 32 := BitVec.ofNat 32 (i 0).val
  let c0_i32_2406 : BitVec 32 := 0#32
  let c0_i32_2407 : BitVec 32 := 0#32
  ![arg0.toNat, 0, 0]
def k1_off286 (v2048 : BitVec 32) : Fin 2 → Nat :=
  let c0_i32_2408 : BitVec 32 := 0#32
  ![v2048.toNat, 0]

def k1_chk143 (v2048 : BitVec 32) : Prop :=
  (∀ a, (k1_off286 v2048) a + S1x128.size a ≤ S16384x128.size a)
instance k1_chk143.dec : ∀ (v2048 : BitVec 32), Decidable (k1_chk143 v2048) := fun v2048 => decidable_of_iff' _ (Iff.of_eq (k1_chk143.eq_1 v2048))
theorem k1_off286_inb : ∀ (v2048 : BitVec 32) (k1_hw143 : k1_chk143 v2048), ∀ a, (k1_off286 v2048) a + S1x128.size a ≤ S16384x128.size a := fun v2048 k1_hw143 => k1_hw143

def k1_off287 (i : grid1.Coords) : Fin 3 → Nat :=
  let arg0 : BitVec 32 := BitVec.ofNat 32 (i 0).val
  let c0_i32_2416 : BitVec 32 := 0#32
  let c0_i32_2417 : BitVec 32 := 0#32
  ![arg0.toNat, 0, 0]
def k1_off288 (v2056 : BitVec 32) : Fin 2 → Nat :=
  let c0_i32_2418 : BitVec 32 := 0#32
  ![v2056.toNat, 0]

def k1_chk144 (v2056 : BitVec 32) : Prop :=
  (∀ a, (k1_off288 v2056) a + S1x128.size a ≤ S16384x128.size a)
instance k1_chk144.dec : ∀ (v2056 : BitVec 32), Decidable (k1_chk144 v2056) := fun v2056 => decidable_of_iff' _ (Iff.of_eq (k1_chk144.eq_1 v2056))
theorem k1_off288_inb : ∀ (v2056 : BitVec 32) (k1_hw144 : k1_chk144 v2056), ∀ a, (k1_off288 v2056) a + S1x128.size a ≤ S16384x128.size a := fun v2056 k1_hw144 => k1_hw144

def k1_off289 (i : grid1.Coords) : Fin 3 → Nat :=
  let arg0 : BitVec 32 := BitVec.ofNat 32 (i 0).val
  let c0_i32_2426 : BitVec 32 := 0#32
  let c0_i32_2427 : BitVec 32 := 0#32
  ![arg0.toNat, 0, 0]
def k1_off290 (v2064 : BitVec 32) : Fin 2 → Nat :=
  let c0_i32_2428 : BitVec 32 := 0#32
  ![v2064.toNat, 0]

def k1_chk145 (v2064 : BitVec 32) : Prop :=
  (∀ a, (k1_off290 v2064) a + S1x128.size a ≤ S16384x128.size a)
instance k1_chk145.dec : ∀ (v2064 : BitVec 32), Decidable (k1_chk145 v2064) := fun v2064 => decidable_of_iff' _ (Iff.of_eq (k1_chk145.eq_1 v2064))
theorem k1_off290_inb : ∀ (v2064 : BitVec 32) (k1_hw145 : k1_chk145 v2064), ∀ a, (k1_off290 v2064) a + S1x128.size a ≤ S16384x128.size a := fun v2064 k1_hw145 => k1_hw145

def k1_off291 (i : grid1.Coords) : Fin 3 → Nat :=
  let arg0 : BitVec 32 := BitVec.ofNat 32 (i 0).val
  let c0_i32_2436 : BitVec 32 := 0#32
  let c0_i32_2437 : BitVec 32 := 0#32
  ![arg0.toNat, 0, 0]
def k1_off292 (v2072 : BitVec 32) : Fin 2 → Nat :=
  let c0_i32_2438 : BitVec 32 := 0#32
  ![v2072.toNat, 0]

def k1_chk146 (v2072 : BitVec 32) : Prop :=
  (∀ a, (k1_off292 v2072) a + S1x128.size a ≤ S16384x128.size a)
instance k1_chk146.dec : ∀ (v2072 : BitVec 32), Decidable (k1_chk146 v2072) := fun v2072 => decidable_of_iff' _ (Iff.of_eq (k1_chk146.eq_1 v2072))
theorem k1_off292_inb : ∀ (v2072 : BitVec 32) (k1_hw146 : k1_chk146 v2072), ∀ a, (k1_off292 v2072) a + S1x128.size a ≤ S16384x128.size a := fun v2072 k1_hw146 => k1_hw146

def k1_off293 (i : grid1.Coords) : Fin 3 → Nat :=
  let arg0 : BitVec 32 := BitVec.ofNat 32 (i 0).val
  let c0_i32_2446 : BitVec 32 := 0#32
  let c0_i32_2447 : BitVec 32 := 0#32
  ![arg0.toNat, 0, 0]
def k1_off294 (v2080 : BitVec 32) : Fin 2 → Nat :=
  let c0_i32_2448 : BitVec 32 := 0#32
  ![v2080.toNat, 0]

def k1_chk147 (v2080 : BitVec 32) : Prop :=
  (∀ a, (k1_off294 v2080) a + S1x128.size a ≤ S16384x128.size a)
instance k1_chk147.dec : ∀ (v2080 : BitVec 32), Decidable (k1_chk147 v2080) := fun v2080 => decidable_of_iff' _ (Iff.of_eq (k1_chk147.eq_1 v2080))
theorem k1_off294_inb : ∀ (v2080 : BitVec 32) (k1_hw147 : k1_chk147 v2080), ∀ a, (k1_off294 v2080) a + S1x128.size a ≤ S16384x128.size a := fun v2080 k1_hw147 => k1_hw147

def k1_off295 (i : grid1.Coords) : Fin 3 → Nat :=
  let arg0 : BitVec 32 := BitVec.ofNat 32 (i 0).val
  let c0_i32_2456 : BitVec 32 := 0#32
  let c0_i32_2457 : BitVec 32 := 0#32
  ![arg0.toNat, 0, 0]
def k1_off296 (v2088 : BitVec 32) : Fin 2 → Nat :=
  let c0_i32_2458 : BitVec 32 := 0#32
  ![v2088.toNat, 0]

def k1_chk148 (v2088 : BitVec 32) : Prop :=
  (∀ a, (k1_off296 v2088) a + S1x128.size a ≤ S16384x128.size a)
instance k1_chk148.dec : ∀ (v2088 : BitVec 32), Decidable (k1_chk148 v2088) := fun v2088 => decidable_of_iff' _ (Iff.of_eq (k1_chk148.eq_1 v2088))
theorem k1_off296_inb : ∀ (v2088 : BitVec 32) (k1_hw148 : k1_chk148 v2088), ∀ a, (k1_off296 v2088) a + S1x128.size a ≤ S16384x128.size a := fun v2088 k1_hw148 => k1_hw148

def k1_off297 (i : grid1.Coords) : Fin 3 → Nat :=
  let arg0 : BitVec 32 := BitVec.ofNat 32 (i 0).val
  let c0_i32_2466 : BitVec 32 := 0#32
  let c0_i32_2467 : BitVec 32 := 0#32
  ![arg0.toNat, 0, 0]
def k1_off298 (v2096 : BitVec 32) : Fin 2 → Nat :=
  let c0_i32_2468 : BitVec 32 := 0#32
  ![v2096.toNat, 0]

def k1_chk149 (v2096 : BitVec 32) : Prop :=
  (∀ a, (k1_off298 v2096) a + S1x128.size a ≤ S16384x128.size a)
instance k1_chk149.dec : ∀ (v2096 : BitVec 32), Decidable (k1_chk149 v2096) := fun v2096 => decidable_of_iff' _ (Iff.of_eq (k1_chk149.eq_1 v2096))
theorem k1_off298_inb : ∀ (v2096 : BitVec 32) (k1_hw149 : k1_chk149 v2096), ∀ a, (k1_off298 v2096) a + S1x128.size a ≤ S16384x128.size a := fun v2096 k1_hw149 => k1_hw149

def k1_off299 (i : grid1.Coords) : Fin 3 → Nat :=
  let arg0 : BitVec 32 := BitVec.ofNat 32 (i 0).val
  let c0_i32_2476 : BitVec 32 := 0#32
  let c0_i32_2477 : BitVec 32 := 0#32
  ![arg0.toNat, 0, 0]
def k1_off300 (v2104 : BitVec 32) : Fin 2 → Nat :=
  let c0_i32_2478 : BitVec 32 := 0#32
  ![v2104.toNat, 0]

def k1_chk150 (v2104 : BitVec 32) : Prop :=
  (∀ a, (k1_off300 v2104) a + S1x128.size a ≤ S16384x128.size a)
instance k1_chk150.dec : ∀ (v2104 : BitVec 32), Decidable (k1_chk150 v2104) := fun v2104 => decidable_of_iff' _ (Iff.of_eq (k1_chk150.eq_1 v2104))
theorem k1_off300_inb : ∀ (v2104 : BitVec 32) (k1_hw150 : k1_chk150 v2104), ∀ a, (k1_off300 v2104) a + S1x128.size a ≤ S16384x128.size a := fun v2104 k1_hw150 => k1_hw150

def k1_off301 (i : grid1.Coords) : Fin 3 → Nat :=
  let arg0 : BitVec 32 := BitVec.ofNat 32 (i 0).val
  let c0_i32_2486 : BitVec 32 := 0#32
  let c0_i32_2487 : BitVec 32 := 0#32
  ![arg0.toNat, 0, 0]
def k1_off302 (v2112 : BitVec 32) : Fin 2 → Nat :=
  let c0_i32_2488 : BitVec 32 := 0#32
  ![v2112.toNat, 0]

def k1_chk151 (v2112 : BitVec 32) : Prop :=
  (∀ a, (k1_off302 v2112) a + S1x128.size a ≤ S16384x128.size a)
instance k1_chk151.dec : ∀ (v2112 : BitVec 32), Decidable (k1_chk151 v2112) := fun v2112 => decidable_of_iff' _ (Iff.of_eq (k1_chk151.eq_1 v2112))
theorem k1_off302_inb : ∀ (v2112 : BitVec 32) (k1_hw151 : k1_chk151 v2112), ∀ a, (k1_off302 v2112) a + S1x128.size a ≤ S16384x128.size a := fun v2112 k1_hw151 => k1_hw151

def k1_off303 (i : grid1.Coords) : Fin 3 → Nat :=
  let arg0 : BitVec 32 := BitVec.ofNat 32 (i 0).val
  let c0_i32_2496 : BitVec 32 := 0#32
  let c0_i32_2497 : BitVec 32 := 0#32
  ![arg0.toNat, 0, 0]
def k1_off304 (v2120 : BitVec 32) : Fin 2 → Nat :=
  let c0_i32_2498 : BitVec 32 := 0#32
  ![v2120.toNat, 0]

def k1_chk152 (v2120 : BitVec 32) : Prop :=
  (∀ a, (k1_off304 v2120) a + S1x128.size a ≤ S16384x128.size a)
instance k1_chk152.dec : ∀ (v2120 : BitVec 32), Decidable (k1_chk152 v2120) := fun v2120 => decidable_of_iff' _ (Iff.of_eq (k1_chk152.eq_1 v2120))
theorem k1_off304_inb : ∀ (v2120 : BitVec 32) (k1_hw152 : k1_chk152 v2120), ∀ a, (k1_off304 v2120) a + S1x128.size a ≤ S16384x128.size a := fun v2120 k1_hw152 => k1_hw152

def k1_off305 (i : grid1.Coords) : Fin 3 → Nat :=
  let arg0 : BitVec 32 := BitVec.ofNat 32 (i 0).val
  let c0_i32_2506 : BitVec 32 := 0#32
  let c0_i32_2507 : BitVec 32 := 0#32
  ![arg0.toNat, 0, 0]
def k1_off306 (v2128 : BitVec 32) : Fin 2 → Nat :=
  let c0_i32_2508 : BitVec 32 := 0#32
  ![v2128.toNat, 0]

def k1_chk153 (v2128 : BitVec 32) : Prop :=
  (∀ a, (k1_off306 v2128) a + S1x128.size a ≤ S16384x128.size a)
instance k1_chk153.dec : ∀ (v2128 : BitVec 32), Decidable (k1_chk153 v2128) := fun v2128 => decidable_of_iff' _ (Iff.of_eq (k1_chk153.eq_1 v2128))
theorem k1_off306_inb : ∀ (v2128 : BitVec 32) (k1_hw153 : k1_chk153 v2128), ∀ a, (k1_off306 v2128) a + S1x128.size a ≤ S16384x128.size a := fun v2128 k1_hw153 => k1_hw153

def k1_off307 (i : grid1.Coords) : Fin 3 → Nat :=
  let arg0 : BitVec 32 := BitVec.ofNat 32 (i 0).val
  let c0_i32_2516 : BitVec 32 := 0#32
  let c0_i32_2517 : BitVec 32 := 0#32
  ![arg0.toNat, 0, 0]
def k1_off308 (v2136 : BitVec 32) : Fin 2 → Nat :=
  let c0_i32_2518 : BitVec 32 := 0#32
  ![v2136.toNat, 0]

def k1_chk154 (v2136 : BitVec 32) : Prop :=
  (∀ a, (k1_off308 v2136) a + S1x128.size a ≤ S16384x128.size a)
instance k1_chk154.dec : ∀ (v2136 : BitVec 32), Decidable (k1_chk154 v2136) := fun v2136 => decidable_of_iff' _ (Iff.of_eq (k1_chk154.eq_1 v2136))
theorem k1_off308_inb : ∀ (v2136 : BitVec 32) (k1_hw154 : k1_chk154 v2136), ∀ a, (k1_off308 v2136) a + S1x128.size a ≤ S16384x128.size a := fun v2136 k1_hw154 => k1_hw154

def k1_off309 (i : grid1.Coords) : Fin 3 → Nat :=
  let arg0 : BitVec 32 := BitVec.ofNat 32 (i 0).val
  let c0_i32_2526 : BitVec 32 := 0#32
  let c0_i32_2527 : BitVec 32 := 0#32
  ![arg0.toNat, 0, 0]
def k1_off310 (v2144 : BitVec 32) : Fin 2 → Nat :=
  let c0_i32_2528 : BitVec 32 := 0#32
  ![v2144.toNat, 0]

def k1_chk155 (v2144 : BitVec 32) : Prop :=
  (∀ a, (k1_off310 v2144) a + S1x128.size a ≤ S16384x128.size a)
instance k1_chk155.dec : ∀ (v2144 : BitVec 32), Decidable (k1_chk155 v2144) := fun v2144 => decidable_of_iff' _ (Iff.of_eq (k1_chk155.eq_1 v2144))
theorem k1_off310_inb : ∀ (v2144 : BitVec 32) (k1_hw155 : k1_chk155 v2144), ∀ a, (k1_off310 v2144) a + S1x128.size a ≤ S16384x128.size a := fun v2144 k1_hw155 => k1_hw155

def k1_off311 (i : grid1.Coords) : Fin 3 → Nat :=
  let arg0 : BitVec 32 := BitVec.ofNat 32 (i 0).val
  let c0_i32_2536 : BitVec 32 := 0#32
  let c0_i32_2537 : BitVec 32 := 0#32
  ![arg0.toNat, 0, 0]
def k1_off312 (v2152 : BitVec 32) : Fin 2 → Nat :=
  let c0_i32_2538 : BitVec 32 := 0#32
  ![v2152.toNat, 0]

def k1_chk156 (v2152 : BitVec 32) : Prop :=
  (∀ a, (k1_off312 v2152) a + S1x128.size a ≤ S16384x128.size a)
instance k1_chk156.dec : ∀ (v2152 : BitVec 32), Decidable (k1_chk156 v2152) := fun v2152 => decidable_of_iff' _ (Iff.of_eq (k1_chk156.eq_1 v2152))
theorem k1_off312_inb : ∀ (v2152 : BitVec 32) (k1_hw156 : k1_chk156 v2152), ∀ a, (k1_off312 v2152) a + S1x128.size a ≤ S16384x128.size a := fun v2152 k1_hw156 => k1_hw156

def k1_off313 (i : grid1.Coords) : Fin 3 → Nat :=
  let arg0 : BitVec 32 := BitVec.ofNat 32 (i 0).val
  let c0_i32_2546 : BitVec 32 := 0#32
  let c0_i32_2547 : BitVec 32 := 0#32
  ![arg0.toNat, 0, 0]
def k1_off314 (v2160 : BitVec 32) : Fin 2 → Nat :=
  let c0_i32_2548 : BitVec 32 := 0#32
  ![v2160.toNat, 0]

def k1_chk157 (v2160 : BitVec 32) : Prop :=
  (∀ a, (k1_off314 v2160) a + S1x128.size a ≤ S16384x128.size a)
instance k1_chk157.dec : ∀ (v2160 : BitVec 32), Decidable (k1_chk157 v2160) := fun v2160 => decidable_of_iff' _ (Iff.of_eq (k1_chk157.eq_1 v2160))
theorem k1_off314_inb : ∀ (v2160 : BitVec 32) (k1_hw157 : k1_chk157 v2160), ∀ a, (k1_off314 v2160) a + S1x128.size a ≤ S16384x128.size a := fun v2160 k1_hw157 => k1_hw157

def k1_off315 (i : grid1.Coords) : Fin 3 → Nat :=
  let arg0 : BitVec 32 := BitVec.ofNat 32 (i 0).val
  let c0_i32_2556 : BitVec 32 := 0#32
  let c0_i32_2557 : BitVec 32 := 0#32
  ![arg0.toNat, 0, 0]
def k1_off316 (v2168 : BitVec 32) : Fin 2 → Nat :=
  let c0_i32_2558 : BitVec 32 := 0#32
  ![v2168.toNat, 0]

def k1_chk158 (v2168 : BitVec 32) : Prop :=
  (∀ a, (k1_off316 v2168) a + S1x128.size a ≤ S16384x128.size a)
instance k1_chk158.dec : ∀ (v2168 : BitVec 32), Decidable (k1_chk158 v2168) := fun v2168 => decidable_of_iff' _ (Iff.of_eq (k1_chk158.eq_1 v2168))
theorem k1_off316_inb : ∀ (v2168 : BitVec 32) (k1_hw158 : k1_chk158 v2168), ∀ a, (k1_off316 v2168) a + S1x128.size a ≤ S16384x128.size a := fun v2168 k1_hw158 => k1_hw158

def k1_off317 (i : grid1.Coords) : Fin 3 → Nat :=
  let arg0 : BitVec 32 := BitVec.ofNat 32 (i 0).val
  let c0_i32_2566 : BitVec 32 := 0#32
  let c0_i32_2567 : BitVec 32 := 0#32
  ![arg0.toNat, 0, 0]
def k1_off318 (v2176 : BitVec 32) : Fin 2 → Nat :=
  let c0_i32_2568 : BitVec 32 := 0#32
  ![v2176.toNat, 0]

def k1_chk159 (v2176 : BitVec 32) : Prop :=
  (∀ a, (k1_off318 v2176) a + S1x128.size a ≤ S16384x128.size a)
instance k1_chk159.dec : ∀ (v2176 : BitVec 32), Decidable (k1_chk159 v2176) := fun v2176 => decidable_of_iff' _ (Iff.of_eq (k1_chk159.eq_1 v2176))
theorem k1_off318_inb : ∀ (v2176 : BitVec 32) (k1_hw159 : k1_chk159 v2176), ∀ a, (k1_off318 v2176) a + S1x128.size a ≤ S16384x128.size a := fun v2176 k1_hw159 => k1_hw159

def k1_off319 (i : grid1.Coords) : Fin 3 → Nat :=
  let arg0 : BitVec 32 := BitVec.ofNat 32 (i 0).val
  let c0_i32_2576 : BitVec 32 := 0#32
  let c0_i32_2577 : BitVec 32 := 0#32
  ![arg0.toNat, 0, 0]
def k1_off320 (v2184 : BitVec 32) : Fin 2 → Nat :=
  let c0_i32_2578 : BitVec 32 := 0#32
  ![v2184.toNat, 0]

def k1_chk160 (v2184 : BitVec 32) : Prop :=
  (∀ a, (k1_off320 v2184) a + S1x128.size a ≤ S16384x128.size a)
instance k1_chk160.dec : ∀ (v2184 : BitVec 32), Decidable (k1_chk160 v2184) := fun v2184 => decidable_of_iff' _ (Iff.of_eq (k1_chk160.eq_1 v2184))
theorem k1_off320_inb : ∀ (v2184 : BitVec 32) (k1_hw160 : k1_chk160 v2184), ∀ a, (k1_off320 v2184) a + S1x128.size a ≤ S16384x128.size a := fun v2184 k1_hw160 => k1_hw160

def k1_off321 (i : grid1.Coords) : Fin 3 → Nat :=
  let arg0 : BitVec 32 := BitVec.ofNat 32 (i 0).val
  let c0_i32_2583 : BitVec 32 := 0#32
  let c0_i32_2584 : BitVec 32 := 0#32
  ![arg0.toNat, 0, 0]
def k1_off322 (v2420 : BitVec 32) : Fin 2 → Nat :=
  let c0_i32_2849 : BitVec 32 := 0#32
  ![v2420.toNat, 0]

def k1_chk161 (v2420 : BitVec 32) : Prop :=
  (∀ a, (k1_off322 v2420) a + S1x128.size a ≤ S16384x128.size a)
instance k1_chk161.dec : ∀ (v2420 : BitVec 32), Decidable (k1_chk161 v2420) := fun v2420 => decidable_of_iff' _ (Iff.of_eq (k1_chk161.eq_1 v2420))
theorem k1_off322_inb : ∀ (v2420 : BitVec 32) (k1_hw161 : k1_chk161 v2420), ∀ a, (k1_off322 v2420) a + S1x128.size a ≤ S16384x128.size a := fun v2420 k1_hw161 => k1_hw161

def k1_off323 (i : grid1.Coords) : Fin 3 → Nat :=
  let arg0 : BitVec 32 := BitVec.ofNat 32 (i 0).val
  let c0_i32_2857 : BitVec 32 := 0#32
  let c0_i32_2858 : BitVec 32 := 0#32
  ![arg0.toNat, 0, 0]
def k1_off324 (v2428 : BitVec 32) : Fin 2 → Nat :=
  let c0_i32_2859 : BitVec 32 := 0#32
  ![v2428.toNat, 0]

def k1_chk162 (v2428 : BitVec 32) : Prop :=
  (∀ a, (k1_off324 v2428) a + S1x128.size a ≤ S16384x128.size a)
instance k1_chk162.dec : ∀ (v2428 : BitVec 32), Decidable (k1_chk162 v2428) := fun v2428 => decidable_of_iff' _ (Iff.of_eq (k1_chk162.eq_1 v2428))
theorem k1_off324_inb : ∀ (v2428 : BitVec 32) (k1_hw162 : k1_chk162 v2428), ∀ a, (k1_off324 v2428) a + S1x128.size a ≤ S16384x128.size a := fun v2428 k1_hw162 => k1_hw162

def k1_off325 (i : grid1.Coords) : Fin 3 → Nat :=
  let arg0 : BitVec 32 := BitVec.ofNat 32 (i 0).val
  let c0_i32_2867 : BitVec 32 := 0#32
  let c0_i32_2868 : BitVec 32 := 0#32
  ![arg0.toNat, 0, 0]
def k1_off326 (v2436 : BitVec 32) : Fin 2 → Nat :=
  let c0_i32_2869 : BitVec 32 := 0#32
  ![v2436.toNat, 0]

def k1_chk163 (v2436 : BitVec 32) : Prop :=
  (∀ a, (k1_off326 v2436) a + S1x128.size a ≤ S16384x128.size a)
instance k1_chk163.dec : ∀ (v2436 : BitVec 32), Decidable (k1_chk163 v2436) := fun v2436 => decidable_of_iff' _ (Iff.of_eq (k1_chk163.eq_1 v2436))
theorem k1_off326_inb : ∀ (v2436 : BitVec 32) (k1_hw163 : k1_chk163 v2436), ∀ a, (k1_off326 v2436) a + S1x128.size a ≤ S16384x128.size a := fun v2436 k1_hw163 => k1_hw163

def k1_off327 (i : grid1.Coords) : Fin 3 → Nat :=
  let arg0 : BitVec 32 := BitVec.ofNat 32 (i 0).val
  let c0_i32_2877 : BitVec 32 := 0#32
  let c0_i32_2878 : BitVec 32 := 0#32
  ![arg0.toNat, 0, 0]
def k1_off328 (v2444 : BitVec 32) : Fin 2 → Nat :=
  let c0_i32_2879 : BitVec 32 := 0#32
  ![v2444.toNat, 0]

def k1_chk164 (v2444 : BitVec 32) : Prop :=
  (∀ a, (k1_off328 v2444) a + S1x128.size a ≤ S16384x128.size a)
instance k1_chk164.dec : ∀ (v2444 : BitVec 32), Decidable (k1_chk164 v2444) := fun v2444 => decidable_of_iff' _ (Iff.of_eq (k1_chk164.eq_1 v2444))
theorem k1_off328_inb : ∀ (v2444 : BitVec 32) (k1_hw164 : k1_chk164 v2444), ∀ a, (k1_off328 v2444) a + S1x128.size a ≤ S16384x128.size a := fun v2444 k1_hw164 => k1_hw164

def k1_off329 (i : grid1.Coords) : Fin 3 → Nat :=
  let arg0 : BitVec 32 := BitVec.ofNat 32 (i 0).val
  let c0_i32_2887 : BitVec 32 := 0#32
  let c0_i32_2888 : BitVec 32 := 0#32
  ![arg0.toNat, 0, 0]
def k1_off330 (v2452 : BitVec 32) : Fin 2 → Nat :=
  let c0_i32_2889 : BitVec 32 := 0#32
  ![v2452.toNat, 0]

def k1_chk165 (v2452 : BitVec 32) : Prop :=
  (∀ a, (k1_off330 v2452) a + S1x128.size a ≤ S16384x128.size a)
instance k1_chk165.dec : ∀ (v2452 : BitVec 32), Decidable (k1_chk165 v2452) := fun v2452 => decidable_of_iff' _ (Iff.of_eq (k1_chk165.eq_1 v2452))
theorem k1_off330_inb : ∀ (v2452 : BitVec 32) (k1_hw165 : k1_chk165 v2452), ∀ a, (k1_off330 v2452) a + S1x128.size a ≤ S16384x128.size a := fun v2452 k1_hw165 => k1_hw165

def k1_off331 (i : grid1.Coords) : Fin 3 → Nat :=
  let arg0 : BitVec 32 := BitVec.ofNat 32 (i 0).val
  let c0_i32_2897 : BitVec 32 := 0#32
  let c0_i32_2898 : BitVec 32 := 0#32
  ![arg0.toNat, 0, 0]
def k1_off332 (v2460 : BitVec 32) : Fin 2 → Nat :=
  let c0_i32_2899 : BitVec 32 := 0#32
  ![v2460.toNat, 0]

def k1_chk166 (v2460 : BitVec 32) : Prop :=
  (∀ a, (k1_off332 v2460) a + S1x128.size a ≤ S16384x128.size a)
instance k1_chk166.dec : ∀ (v2460 : BitVec 32), Decidable (k1_chk166 v2460) := fun v2460 => decidable_of_iff' _ (Iff.of_eq (k1_chk166.eq_1 v2460))
theorem k1_off332_inb : ∀ (v2460 : BitVec 32) (k1_hw166 : k1_chk166 v2460), ∀ a, (k1_off332 v2460) a + S1x128.size a ≤ S16384x128.size a := fun v2460 k1_hw166 => k1_hw166

def k1_off333 (i : grid1.Coords) : Fin 3 → Nat :=
  let arg0 : BitVec 32 := BitVec.ofNat 32 (i 0).val
  let c0_i32_2907 : BitVec 32 := 0#32
  let c0_i32_2908 : BitVec 32 := 0#32
  ![arg0.toNat, 0, 0]
def k1_off334 (v2468 : BitVec 32) : Fin 2 → Nat :=
  let c0_i32_2909 : BitVec 32 := 0#32
  ![v2468.toNat, 0]

def k1_chk167 (v2468 : BitVec 32) : Prop :=
  (∀ a, (k1_off334 v2468) a + S1x128.size a ≤ S16384x128.size a)
instance k1_chk167.dec : ∀ (v2468 : BitVec 32), Decidable (k1_chk167 v2468) := fun v2468 => decidable_of_iff' _ (Iff.of_eq (k1_chk167.eq_1 v2468))
theorem k1_off334_inb : ∀ (v2468 : BitVec 32) (k1_hw167 : k1_chk167 v2468), ∀ a, (k1_off334 v2468) a + S1x128.size a ≤ S16384x128.size a := fun v2468 k1_hw167 => k1_hw167

def k1_off335 (i : grid1.Coords) : Fin 3 → Nat :=
  let arg0 : BitVec 32 := BitVec.ofNat 32 (i 0).val
  let c0_i32_2917 : BitVec 32 := 0#32
  let c0_i32_2918 : BitVec 32 := 0#32
  ![arg0.toNat, 0, 0]
def k1_off336 (v2476 : BitVec 32) : Fin 2 → Nat :=
  let c0_i32_2919 : BitVec 32 := 0#32
  ![v2476.toNat, 0]

def k1_chk168 (v2476 : BitVec 32) : Prop :=
  (∀ a, (k1_off336 v2476) a + S1x128.size a ≤ S16384x128.size a)
instance k1_chk168.dec : ∀ (v2476 : BitVec 32), Decidable (k1_chk168 v2476) := fun v2476 => decidable_of_iff' _ (Iff.of_eq (k1_chk168.eq_1 v2476))
theorem k1_off336_inb : ∀ (v2476 : BitVec 32) (k1_hw168 : k1_chk168 v2476), ∀ a, (k1_off336 v2476) a + S1x128.size a ≤ S16384x128.size a := fun v2476 k1_hw168 => k1_hw168

def k1_off337 (i : grid1.Coords) : Fin 3 → Nat :=
  let arg0 : BitVec 32 := BitVec.ofNat 32 (i 0).val
  let c0_i32_2927 : BitVec 32 := 0#32
  let c0_i32_2928 : BitVec 32 := 0#32
  ![arg0.toNat, 0, 0]
def k1_off338 (v2484 : BitVec 32) : Fin 2 → Nat :=
  let c0_i32_2929 : BitVec 32 := 0#32
  ![v2484.toNat, 0]

def k1_chk169 (v2484 : BitVec 32) : Prop :=
  (∀ a, (k1_off338 v2484) a + S1x128.size a ≤ S16384x128.size a)
instance k1_chk169.dec : ∀ (v2484 : BitVec 32), Decidable (k1_chk169 v2484) := fun v2484 => decidable_of_iff' _ (Iff.of_eq (k1_chk169.eq_1 v2484))
theorem k1_off338_inb : ∀ (v2484 : BitVec 32) (k1_hw169 : k1_chk169 v2484), ∀ a, (k1_off338 v2484) a + S1x128.size a ≤ S16384x128.size a := fun v2484 k1_hw169 => k1_hw169

def k1_off339 (i : grid1.Coords) : Fin 3 → Nat :=
  let arg0 : BitVec 32 := BitVec.ofNat 32 (i 0).val
  let c0_i32_2937 : BitVec 32 := 0#32
  let c0_i32_2938 : BitVec 32 := 0#32
  ![arg0.toNat, 0, 0]
def k1_off340 (v2492 : BitVec 32) : Fin 2 → Nat :=
  let c0_i32_2939 : BitVec 32 := 0#32
  ![v2492.toNat, 0]

def k1_chk170 (v2492 : BitVec 32) : Prop :=
  (∀ a, (k1_off340 v2492) a + S1x128.size a ≤ S16384x128.size a)
instance k1_chk170.dec : ∀ (v2492 : BitVec 32), Decidable (k1_chk170 v2492) := fun v2492 => decidable_of_iff' _ (Iff.of_eq (k1_chk170.eq_1 v2492))
theorem k1_off340_inb : ∀ (v2492 : BitVec 32) (k1_hw170 : k1_chk170 v2492), ∀ a, (k1_off340 v2492) a + S1x128.size a ≤ S16384x128.size a := fun v2492 k1_hw170 => k1_hw170

def k1_off341 (i : grid1.Coords) : Fin 3 → Nat :=
  let arg0 : BitVec 32 := BitVec.ofNat 32 (i 0).val
  let c0_i32_2947 : BitVec 32 := 0#32
  let c0_i32_2948 : BitVec 32 := 0#32
  ![arg0.toNat, 0, 0]
def k1_off342 (v2500 : BitVec 32) : Fin 2 → Nat :=
  let c0_i32_2949 : BitVec 32 := 0#32
  ![v2500.toNat, 0]

def k1_chk171 (v2500 : BitVec 32) : Prop :=
  (∀ a, (k1_off342 v2500) a + S1x128.size a ≤ S16384x128.size a)
instance k1_chk171.dec : ∀ (v2500 : BitVec 32), Decidable (k1_chk171 v2500) := fun v2500 => decidable_of_iff' _ (Iff.of_eq (k1_chk171.eq_1 v2500))
theorem k1_off342_inb : ∀ (v2500 : BitVec 32) (k1_hw171 : k1_chk171 v2500), ∀ a, (k1_off342 v2500) a + S1x128.size a ≤ S16384x128.size a := fun v2500 k1_hw171 => k1_hw171

def k1_off343 (i : grid1.Coords) : Fin 3 → Nat :=
  let arg0 : BitVec 32 := BitVec.ofNat 32 (i 0).val
  let c0_i32_2957 : BitVec 32 := 0#32
  let c0_i32_2958 : BitVec 32 := 0#32
  ![arg0.toNat, 0, 0]
def k1_off344 (v2508 : BitVec 32) : Fin 2 → Nat :=
  let c0_i32_2959 : BitVec 32 := 0#32
  ![v2508.toNat, 0]

def k1_chk172 (v2508 : BitVec 32) : Prop :=
  (∀ a, (k1_off344 v2508) a + S1x128.size a ≤ S16384x128.size a)
instance k1_chk172.dec : ∀ (v2508 : BitVec 32), Decidable (k1_chk172 v2508) := fun v2508 => decidable_of_iff' _ (Iff.of_eq (k1_chk172.eq_1 v2508))
theorem k1_off344_inb : ∀ (v2508 : BitVec 32) (k1_hw172 : k1_chk172 v2508), ∀ a, (k1_off344 v2508) a + S1x128.size a ≤ S16384x128.size a := fun v2508 k1_hw172 => k1_hw172

def k1_off345 (i : grid1.Coords) : Fin 3 → Nat :=
  let arg0 : BitVec 32 := BitVec.ofNat 32 (i 0).val
  let c0_i32_2967 : BitVec 32 := 0#32
  let c0_i32_2968 : BitVec 32 := 0#32
  ![arg0.toNat, 0, 0]
def k1_off346 (v2516 : BitVec 32) : Fin 2 → Nat :=
  let c0_i32_2969 : BitVec 32 := 0#32
  ![v2516.toNat, 0]

def k1_chk173 (v2516 : BitVec 32) : Prop :=
  (∀ a, (k1_off346 v2516) a + S1x128.size a ≤ S16384x128.size a)
instance k1_chk173.dec : ∀ (v2516 : BitVec 32), Decidable (k1_chk173 v2516) := fun v2516 => decidable_of_iff' _ (Iff.of_eq (k1_chk173.eq_1 v2516))
theorem k1_off346_inb : ∀ (v2516 : BitVec 32) (k1_hw173 : k1_chk173 v2516), ∀ a, (k1_off346 v2516) a + S1x128.size a ≤ S16384x128.size a := fun v2516 k1_hw173 => k1_hw173

def k1_off347 (i : grid1.Coords) : Fin 3 → Nat :=
  let arg0 : BitVec 32 := BitVec.ofNat 32 (i 0).val
  let c0_i32_2977 : BitVec 32 := 0#32
  let c0_i32_2978 : BitVec 32 := 0#32
  ![arg0.toNat, 0, 0]
def k1_off348 (v2524 : BitVec 32) : Fin 2 → Nat :=
  let c0_i32_2979 : BitVec 32 := 0#32
  ![v2524.toNat, 0]

def k1_chk174 (v2524 : BitVec 32) : Prop :=
  (∀ a, (k1_off348 v2524) a + S1x128.size a ≤ S16384x128.size a)
instance k1_chk174.dec : ∀ (v2524 : BitVec 32), Decidable (k1_chk174 v2524) := fun v2524 => decidable_of_iff' _ (Iff.of_eq (k1_chk174.eq_1 v2524))
theorem k1_off348_inb : ∀ (v2524 : BitVec 32) (k1_hw174 : k1_chk174 v2524), ∀ a, (k1_off348 v2524) a + S1x128.size a ≤ S16384x128.size a := fun v2524 k1_hw174 => k1_hw174

def k1_off349 (i : grid1.Coords) : Fin 3 → Nat :=
  let arg0 : BitVec 32 := BitVec.ofNat 32 (i 0).val
  let c0_i32_2987 : BitVec 32 := 0#32
  let c0_i32_2988 : BitVec 32 := 0#32
  ![arg0.toNat, 0, 0]
def k1_off350 (v2532 : BitVec 32) : Fin 2 → Nat :=
  let c0_i32_2989 : BitVec 32 := 0#32
  ![v2532.toNat, 0]

def k1_chk175 (v2532 : BitVec 32) : Prop :=
  (∀ a, (k1_off350 v2532) a + S1x128.size a ≤ S16384x128.size a)
instance k1_chk175.dec : ∀ (v2532 : BitVec 32), Decidable (k1_chk175 v2532) := fun v2532 => decidable_of_iff' _ (Iff.of_eq (k1_chk175.eq_1 v2532))
theorem k1_off350_inb : ∀ (v2532 : BitVec 32) (k1_hw175 : k1_chk175 v2532), ∀ a, (k1_off350 v2532) a + S1x128.size a ≤ S16384x128.size a := fun v2532 k1_hw175 => k1_hw175

def k1_off351 (i : grid1.Coords) : Fin 3 → Nat :=
  let arg0 : BitVec 32 := BitVec.ofNat 32 (i 0).val
  let c0_i32_2997 : BitVec 32 := 0#32
  let c0_i32_2998 : BitVec 32 := 0#32
  ![arg0.toNat, 0, 0]
def k1_off352 (v2540 : BitVec 32) : Fin 2 → Nat :=
  let c0_i32_2999 : BitVec 32 := 0#32
  ![v2540.toNat, 0]

def k1_chk176 (v2540 : BitVec 32) : Prop :=
  (∀ a, (k1_off352 v2540) a + S1x128.size a ≤ S16384x128.size a)
instance k1_chk176.dec : ∀ (v2540 : BitVec 32), Decidable (k1_chk176 v2540) := fun v2540 => decidable_of_iff' _ (Iff.of_eq (k1_chk176.eq_1 v2540))
theorem k1_off352_inb : ∀ (v2540 : BitVec 32) (k1_hw176 : k1_chk176 v2540), ∀ a, (k1_off352 v2540) a + S1x128.size a ≤ S16384x128.size a := fun v2540 k1_hw176 => k1_hw176

def k1_off353 (i : grid1.Coords) : Fin 3 → Nat :=
  let arg0 : BitVec 32 := BitVec.ofNat 32 (i 0).val
  let c0_i32_3007 : BitVec 32 := 0#32
  let c0_i32_3008 : BitVec 32 := 0#32
  ![arg0.toNat, 0, 0]
def k1_off354 (v2548 : BitVec 32) : Fin 2 → Nat :=
  let c0_i32_3009 : BitVec 32 := 0#32
  ![v2548.toNat, 0]

def k1_chk177 (v2548 : BitVec 32) : Prop :=
  (∀ a, (k1_off354 v2548) a + S1x128.size a ≤ S16384x128.size a)
instance k1_chk177.dec : ∀ (v2548 : BitVec 32), Decidable (k1_chk177 v2548) := fun v2548 => decidable_of_iff' _ (Iff.of_eq (k1_chk177.eq_1 v2548))
theorem k1_off354_inb : ∀ (v2548 : BitVec 32) (k1_hw177 : k1_chk177 v2548), ∀ a, (k1_off354 v2548) a + S1x128.size a ≤ S16384x128.size a := fun v2548 k1_hw177 => k1_hw177

def k1_off355 (i : grid1.Coords) : Fin 3 → Nat :=
  let arg0 : BitVec 32 := BitVec.ofNat 32 (i 0).val
  let c0_i32_3017 : BitVec 32 := 0#32
  let c0_i32_3018 : BitVec 32 := 0#32
  ![arg0.toNat, 0, 0]
def k1_off356 (v2556 : BitVec 32) : Fin 2 → Nat :=
  let c0_i32_3019 : BitVec 32 := 0#32
  ![v2556.toNat, 0]

def k1_chk178 (v2556 : BitVec 32) : Prop :=
  (∀ a, (k1_off356 v2556) a + S1x128.size a ≤ S16384x128.size a)
instance k1_chk178.dec : ∀ (v2556 : BitVec 32), Decidable (k1_chk178 v2556) := fun v2556 => decidable_of_iff' _ (Iff.of_eq (k1_chk178.eq_1 v2556))
theorem k1_off356_inb : ∀ (v2556 : BitVec 32) (k1_hw178 : k1_chk178 v2556), ∀ a, (k1_off356 v2556) a + S1x128.size a ≤ S16384x128.size a := fun v2556 k1_hw178 => k1_hw178

def k1_off357 (i : grid1.Coords) : Fin 3 → Nat :=
  let arg0 : BitVec 32 := BitVec.ofNat 32 (i 0).val
  let c0_i32_3027 : BitVec 32 := 0#32
  let c0_i32_3028 : BitVec 32 := 0#32
  ![arg0.toNat, 0, 0]
def k1_off358 (v2564 : BitVec 32) : Fin 2 → Nat :=
  let c0_i32_3029 : BitVec 32 := 0#32
  ![v2564.toNat, 0]

def k1_chk179 (v2564 : BitVec 32) : Prop :=
  (∀ a, (k1_off358 v2564) a + S1x128.size a ≤ S16384x128.size a)
instance k1_chk179.dec : ∀ (v2564 : BitVec 32), Decidable (k1_chk179 v2564) := fun v2564 => decidable_of_iff' _ (Iff.of_eq (k1_chk179.eq_1 v2564))
theorem k1_off358_inb : ∀ (v2564 : BitVec 32) (k1_hw179 : k1_chk179 v2564), ∀ a, (k1_off358 v2564) a + S1x128.size a ≤ S16384x128.size a := fun v2564 k1_hw179 => k1_hw179

def k1_off359 (i : grid1.Coords) : Fin 3 → Nat :=
  let arg0 : BitVec 32 := BitVec.ofNat 32 (i 0).val
  let c0_i32_3037 : BitVec 32 := 0#32
  let c0_i32_3038 : BitVec 32 := 0#32
  ![arg0.toNat, 0, 0]
def k1_off360 (v2572 : BitVec 32) : Fin 2 → Nat :=
  let c0_i32_3039 : BitVec 32 := 0#32
  ![v2572.toNat, 0]

def k1_chk180 (v2572 : BitVec 32) : Prop :=
  (∀ a, (k1_off360 v2572) a + S1x128.size a ≤ S16384x128.size a)
instance k1_chk180.dec : ∀ (v2572 : BitVec 32), Decidable (k1_chk180 v2572) := fun v2572 => decidable_of_iff' _ (Iff.of_eq (k1_chk180.eq_1 v2572))
theorem k1_off360_inb : ∀ (v2572 : BitVec 32) (k1_hw180 : k1_chk180 v2572), ∀ a, (k1_off360 v2572) a + S1x128.size a ≤ S16384x128.size a := fun v2572 k1_hw180 => k1_hw180

def k1_off361 (i : grid1.Coords) : Fin 3 → Nat :=
  let arg0 : BitVec 32 := BitVec.ofNat 32 (i 0).val
  let c0_i32_3047 : BitVec 32 := 0#32
  let c0_i32_3048 : BitVec 32 := 0#32
  ![arg0.toNat, 0, 0]
def k1_off362 (v2580 : BitVec 32) : Fin 2 → Nat :=
  let c0_i32_3049 : BitVec 32 := 0#32
  ![v2580.toNat, 0]

def k1_chk181 (v2580 : BitVec 32) : Prop :=
  (∀ a, (k1_off362 v2580) a + S1x128.size a ≤ S16384x128.size a)
instance k1_chk181.dec : ∀ (v2580 : BitVec 32), Decidable (k1_chk181 v2580) := fun v2580 => decidable_of_iff' _ (Iff.of_eq (k1_chk181.eq_1 v2580))
theorem k1_off362_inb : ∀ (v2580 : BitVec 32) (k1_hw181 : k1_chk181 v2580), ∀ a, (k1_off362 v2580) a + S1x128.size a ≤ S16384x128.size a := fun v2580 k1_hw181 => k1_hw181

def k1_off363 (i : grid1.Coords) : Fin 3 → Nat :=
  let arg0 : BitVec 32 := BitVec.ofNat 32 (i 0).val
  let c0_i32_3057 : BitVec 32 := 0#32
  let c0_i32_3058 : BitVec 32 := 0#32
  ![arg0.toNat, 0, 0]
def k1_off364 (v2588 : BitVec 32) : Fin 2 → Nat :=
  let c0_i32_3059 : BitVec 32 := 0#32
  ![v2588.toNat, 0]

def k1_chk182 (v2588 : BitVec 32) : Prop :=
  (∀ a, (k1_off364 v2588) a + S1x128.size a ≤ S16384x128.size a)
instance k1_chk182.dec : ∀ (v2588 : BitVec 32), Decidable (k1_chk182 v2588) := fun v2588 => decidable_of_iff' _ (Iff.of_eq (k1_chk182.eq_1 v2588))
theorem k1_off364_inb : ∀ (v2588 : BitVec 32) (k1_hw182 : k1_chk182 v2588), ∀ a, (k1_off364 v2588) a + S1x128.size a ≤ S16384x128.size a := fun v2588 k1_hw182 => k1_hw182

def k1_off365 (i : grid1.Coords) : Fin 3 → Nat :=
  let arg0 : BitVec 32 := BitVec.ofNat 32 (i 0).val
  let c0_i32_3067 : BitVec 32 := 0#32
  let c0_i32_3068 : BitVec 32 := 0#32
  ![arg0.toNat, 0, 0]
def k1_off366 (v2596 : BitVec 32) : Fin 2 → Nat :=
  let c0_i32_3069 : BitVec 32 := 0#32
  ![v2596.toNat, 0]

def k1_chk183 (v2596 : BitVec 32) : Prop :=
  (∀ a, (k1_off366 v2596) a + S1x128.size a ≤ S16384x128.size a)
instance k1_chk183.dec : ∀ (v2596 : BitVec 32), Decidable (k1_chk183 v2596) := fun v2596 => decidable_of_iff' _ (Iff.of_eq (k1_chk183.eq_1 v2596))
theorem k1_off366_inb : ∀ (v2596 : BitVec 32) (k1_hw183 : k1_chk183 v2596), ∀ a, (k1_off366 v2596) a + S1x128.size a ≤ S16384x128.size a := fun v2596 k1_hw183 => k1_hw183

def k1_off367 (i : grid1.Coords) : Fin 3 → Nat :=
  let arg0 : BitVec 32 := BitVec.ofNat 32 (i 0).val
  let c0_i32_3077 : BitVec 32 := 0#32
  let c0_i32_3078 : BitVec 32 := 0#32
  ![arg0.toNat, 0, 0]
def k1_off368 (v2604 : BitVec 32) : Fin 2 → Nat :=
  let c0_i32_3079 : BitVec 32 := 0#32
  ![v2604.toNat, 0]

def k1_chk184 (v2604 : BitVec 32) : Prop :=
  (∀ a, (k1_off368 v2604) a + S1x128.size a ≤ S16384x128.size a)
instance k1_chk184.dec : ∀ (v2604 : BitVec 32), Decidable (k1_chk184 v2604) := fun v2604 => decidable_of_iff' _ (Iff.of_eq (k1_chk184.eq_1 v2604))
theorem k1_off368_inb : ∀ (v2604 : BitVec 32) (k1_hw184 : k1_chk184 v2604), ∀ a, (k1_off368 v2604) a + S1x128.size a ≤ S16384x128.size a := fun v2604 k1_hw184 => k1_hw184

def k1_off369 (i : grid1.Coords) : Fin 3 → Nat :=
  let arg0 : BitVec 32 := BitVec.ofNat 32 (i 0).val
  let c0_i32_3087 : BitVec 32 := 0#32
  let c0_i32_3088 : BitVec 32 := 0#32
  ![arg0.toNat, 0, 0]
def k1_off370 (v2612 : BitVec 32) : Fin 2 → Nat :=
  let c0_i32_3089 : BitVec 32 := 0#32
  ![v2612.toNat, 0]

def k1_chk185 (v2612 : BitVec 32) : Prop :=
  (∀ a, (k1_off370 v2612) a + S1x128.size a ≤ S16384x128.size a)
instance k1_chk185.dec : ∀ (v2612 : BitVec 32), Decidable (k1_chk185 v2612) := fun v2612 => decidable_of_iff' _ (Iff.of_eq (k1_chk185.eq_1 v2612))
theorem k1_off370_inb : ∀ (v2612 : BitVec 32) (k1_hw185 : k1_chk185 v2612), ∀ a, (k1_off370 v2612) a + S1x128.size a ≤ S16384x128.size a := fun v2612 k1_hw185 => k1_hw185

def k1_off371 (i : grid1.Coords) : Fin 3 → Nat :=
  let arg0 : BitVec 32 := BitVec.ofNat 32 (i 0).val
  let c0_i32_3097 : BitVec 32 := 0#32
  let c0_i32_3098 : BitVec 32 := 0#32
  ![arg0.toNat, 0, 0]
def k1_off372 (v2620 : BitVec 32) : Fin 2 → Nat :=
  let c0_i32_3099 : BitVec 32 := 0#32
  ![v2620.toNat, 0]

def k1_chk186 (v2620 : BitVec 32) : Prop :=
  (∀ a, (k1_off372 v2620) a + S1x128.size a ≤ S16384x128.size a)
instance k1_chk186.dec : ∀ (v2620 : BitVec 32), Decidable (k1_chk186 v2620) := fun v2620 => decidable_of_iff' _ (Iff.of_eq (k1_chk186.eq_1 v2620))
theorem k1_off372_inb : ∀ (v2620 : BitVec 32) (k1_hw186 : k1_chk186 v2620), ∀ a, (k1_off372 v2620) a + S1x128.size a ≤ S16384x128.size a := fun v2620 k1_hw186 => k1_hw186

def k1_off373 (i : grid1.Coords) : Fin 3 → Nat :=
  let arg0 : BitVec 32 := BitVec.ofNat 32 (i 0).val
  let c0_i32_3107 : BitVec 32 := 0#32
  let c0_i32_3108 : BitVec 32 := 0#32
  ![arg0.toNat, 0, 0]
def k1_off374 (v2628 : BitVec 32) : Fin 2 → Nat :=
  let c0_i32_3109 : BitVec 32 := 0#32
  ![v2628.toNat, 0]

def k1_chk187 (v2628 : BitVec 32) : Prop :=
  (∀ a, (k1_off374 v2628) a + S1x128.size a ≤ S16384x128.size a)
instance k1_chk187.dec : ∀ (v2628 : BitVec 32), Decidable (k1_chk187 v2628) := fun v2628 => decidable_of_iff' _ (Iff.of_eq (k1_chk187.eq_1 v2628))
theorem k1_off374_inb : ∀ (v2628 : BitVec 32) (k1_hw187 : k1_chk187 v2628), ∀ a, (k1_off374 v2628) a + S1x128.size a ≤ S16384x128.size a := fun v2628 k1_hw187 => k1_hw187

def k1_off375 (i : grid1.Coords) : Fin 3 → Nat :=
  let arg0 : BitVec 32 := BitVec.ofNat 32 (i 0).val
  let c0_i32_3117 : BitVec 32 := 0#32
  let c0_i32_3118 : BitVec 32 := 0#32
  ![arg0.toNat, 0, 0]
def k1_off376 (v2636 : BitVec 32) : Fin 2 → Nat :=
  let c0_i32_3119 : BitVec 32 := 0#32
  ![v2636.toNat, 0]

def k1_chk188 (v2636 : BitVec 32) : Prop :=
  (∀ a, (k1_off376 v2636) a + S1x128.size a ≤ S16384x128.size a)
instance k1_chk188.dec : ∀ (v2636 : BitVec 32), Decidable (k1_chk188 v2636) := fun v2636 => decidable_of_iff' _ (Iff.of_eq (k1_chk188.eq_1 v2636))
theorem k1_off376_inb : ∀ (v2636 : BitVec 32) (k1_hw188 : k1_chk188 v2636), ∀ a, (k1_off376 v2636) a + S1x128.size a ≤ S16384x128.size a := fun v2636 k1_hw188 => k1_hw188

def k1_off377 (i : grid1.Coords) : Fin 3 → Nat :=
  let arg0 : BitVec 32 := BitVec.ofNat 32 (i 0).val
  let c0_i32_3127 : BitVec 32 := 0#32
  let c0_i32_3128 : BitVec 32 := 0#32
  ![arg0.toNat, 0, 0]
def k1_off378 (v2644 : BitVec 32) : Fin 2 → Nat :=
  let c0_i32_3129 : BitVec 32 := 0#32
  ![v2644.toNat, 0]

def k1_chk189 (v2644 : BitVec 32) : Prop :=
  (∀ a, (k1_off378 v2644) a + S1x128.size a ≤ S16384x128.size a)
instance k1_chk189.dec : ∀ (v2644 : BitVec 32), Decidable (k1_chk189 v2644) := fun v2644 => decidable_of_iff' _ (Iff.of_eq (k1_chk189.eq_1 v2644))
theorem k1_off378_inb : ∀ (v2644 : BitVec 32) (k1_hw189 : k1_chk189 v2644), ∀ a, (k1_off378 v2644) a + S1x128.size a ≤ S16384x128.size a := fun v2644 k1_hw189 => k1_hw189

def k1_off379 (i : grid1.Coords) : Fin 3 → Nat :=
  let arg0 : BitVec 32 := BitVec.ofNat 32 (i 0).val
  let c0_i32_3137 : BitVec 32 := 0#32
  let c0_i32_3138 : BitVec 32 := 0#32
  ![arg0.toNat, 0, 0]
def k1_off380 (v2652 : BitVec 32) : Fin 2 → Nat :=
  let c0_i32_3139 : BitVec 32 := 0#32
  ![v2652.toNat, 0]

def k1_chk190 (v2652 : BitVec 32) : Prop :=
  (∀ a, (k1_off380 v2652) a + S1x128.size a ≤ S16384x128.size a)
instance k1_chk190.dec : ∀ (v2652 : BitVec 32), Decidable (k1_chk190 v2652) := fun v2652 => decidable_of_iff' _ (Iff.of_eq (k1_chk190.eq_1 v2652))
theorem k1_off380_inb : ∀ (v2652 : BitVec 32) (k1_hw190 : k1_chk190 v2652), ∀ a, (k1_off380 v2652) a + S1x128.size a ≤ S16384x128.size a := fun v2652 k1_hw190 => k1_hw190

def k1_off381 (i : grid1.Coords) : Fin 3 → Nat :=
  let arg0 : BitVec 32 := BitVec.ofNat 32 (i 0).val
  let c0_i32_3147 : BitVec 32 := 0#32
  let c0_i32_3148 : BitVec 32 := 0#32
  ![arg0.toNat, 0, 0]
def k1_off382 (v2660 : BitVec 32) : Fin 2 → Nat :=
  let c0_i32_3149 : BitVec 32 := 0#32
  ![v2660.toNat, 0]

def k1_chk191 (v2660 : BitVec 32) : Prop :=
  (∀ a, (k1_off382 v2660) a + S1x128.size a ≤ S16384x128.size a)
instance k1_chk191.dec : ∀ (v2660 : BitVec 32), Decidable (k1_chk191 v2660) := fun v2660 => decidable_of_iff' _ (Iff.of_eq (k1_chk191.eq_1 v2660))
theorem k1_off382_inb : ∀ (v2660 : BitVec 32) (k1_hw191 : k1_chk191 v2660), ∀ a, (k1_off382 v2660) a + S1x128.size a ≤ S16384x128.size a := fun v2660 k1_hw191 => k1_hw191

def k1_off383 (i : grid1.Coords) : Fin 3 → Nat :=
  let arg0 : BitVec 32 := BitVec.ofNat 32 (i 0).val
  let c0_i32_3157 : BitVec 32 := 0#32
  let c0_i32_3158 : BitVec 32 := 0#32
  ![arg0.toNat, 0, 0]
def k1_off384 (v2668 : BitVec 32) : Fin 2 → Nat :=
  let c0_i32_3159 : BitVec 32 := 0#32
  ![v2668.toNat, 0]

def k1_chk192 (v2668 : BitVec 32) : Prop :=
  (∀ a, (k1_off384 v2668) a + S1x128.size a ≤ S16384x128.size a)
instance k1_chk192.dec : ∀ (v2668 : BitVec 32), Decidable (k1_chk192 v2668) := fun v2668 => decidable_of_iff' _ (Iff.of_eq (k1_chk192.eq_1 v2668))
theorem k1_off384_inb : ∀ (v2668 : BitVec 32) (k1_hw192 : k1_chk192 v2668), ∀ a, (k1_off384 v2668) a + S1x128.size a ≤ S16384x128.size a := fun v2668 k1_hw192 => k1_hw192

def k1_off385 (i : grid1.Coords) : Fin 3 → Nat :=
  let arg0 : BitVec 32 := BitVec.ofNat 32 (i 0).val
  let c0_i32_3164 : BitVec 32 := 0#32
  let c0_i32_3165 : BitVec 32 := 0#32
  ![arg0.toNat, 0, 0]
def k1_off386 (v2904 : BitVec 32) : Fin 2 → Nat :=
  let c0_i32_3430 : BitVec 32 := 0#32
  ![v2904.toNat, 0]

def k1_chk193 (v2904 : BitVec 32) : Prop :=
  (∀ a, (k1_off386 v2904) a + S1x128.size a ≤ S16384x128.size a)
instance k1_chk193.dec : ∀ (v2904 : BitVec 32), Decidable (k1_chk193 v2904) := fun v2904 => decidable_of_iff' _ (Iff.of_eq (k1_chk193.eq_1 v2904))
theorem k1_off386_inb : ∀ (v2904 : BitVec 32) (k1_hw193 : k1_chk193 v2904), ∀ a, (k1_off386 v2904) a + S1x128.size a ≤ S16384x128.size a := fun v2904 k1_hw193 => k1_hw193

def k1_off387 (i : grid1.Coords) : Fin 3 → Nat :=
  let arg0 : BitVec 32 := BitVec.ofNat 32 (i 0).val
  let c0_i32_3438 : BitVec 32 := 0#32
  let c0_i32_3439 : BitVec 32 := 0#32
  ![arg0.toNat, 0, 0]
def k1_off388 (v2912 : BitVec 32) : Fin 2 → Nat :=
  let c0_i32_3440 : BitVec 32 := 0#32
  ![v2912.toNat, 0]

def k1_chk194 (v2912 : BitVec 32) : Prop :=
  (∀ a, (k1_off388 v2912) a + S1x128.size a ≤ S16384x128.size a)
instance k1_chk194.dec : ∀ (v2912 : BitVec 32), Decidable (k1_chk194 v2912) := fun v2912 => decidable_of_iff' _ (Iff.of_eq (k1_chk194.eq_1 v2912))
theorem k1_off388_inb : ∀ (v2912 : BitVec 32) (k1_hw194 : k1_chk194 v2912), ∀ a, (k1_off388 v2912) a + S1x128.size a ≤ S16384x128.size a := fun v2912 k1_hw194 => k1_hw194

def k1_off389 (i : grid1.Coords) : Fin 3 → Nat :=
  let arg0 : BitVec 32 := BitVec.ofNat 32 (i 0).val
  let c0_i32_3448 : BitVec 32 := 0#32
  let c0_i32_3449 : BitVec 32 := 0#32
  ![arg0.toNat, 0, 0]
def k1_off390 (v2920 : BitVec 32) : Fin 2 → Nat :=
  let c0_i32_3450 : BitVec 32 := 0#32
  ![v2920.toNat, 0]

def k1_chk195 (v2920 : BitVec 32) : Prop :=
  (∀ a, (k1_off390 v2920) a + S1x128.size a ≤ S16384x128.size a)
instance k1_chk195.dec : ∀ (v2920 : BitVec 32), Decidable (k1_chk195 v2920) := fun v2920 => decidable_of_iff' _ (Iff.of_eq (k1_chk195.eq_1 v2920))
theorem k1_off390_inb : ∀ (v2920 : BitVec 32) (k1_hw195 : k1_chk195 v2920), ∀ a, (k1_off390 v2920) a + S1x128.size a ≤ S16384x128.size a := fun v2920 k1_hw195 => k1_hw195

def k1_off391 (i : grid1.Coords) : Fin 3 → Nat :=
  let arg0 : BitVec 32 := BitVec.ofNat 32 (i 0).val
  let c0_i32_3458 : BitVec 32 := 0#32
  let c0_i32_3459 : BitVec 32 := 0#32
  ![arg0.toNat, 0, 0]
def k1_off392 (v2928 : BitVec 32) : Fin 2 → Nat :=
  let c0_i32_3460 : BitVec 32 := 0#32
  ![v2928.toNat, 0]

def k1_chk196 (v2928 : BitVec 32) : Prop :=
  (∀ a, (k1_off392 v2928) a + S1x128.size a ≤ S16384x128.size a)
instance k1_chk196.dec : ∀ (v2928 : BitVec 32), Decidable (k1_chk196 v2928) := fun v2928 => decidable_of_iff' _ (Iff.of_eq (k1_chk196.eq_1 v2928))
theorem k1_off392_inb : ∀ (v2928 : BitVec 32) (k1_hw196 : k1_chk196 v2928), ∀ a, (k1_off392 v2928) a + S1x128.size a ≤ S16384x128.size a := fun v2928 k1_hw196 => k1_hw196

def k1_off393 (i : grid1.Coords) : Fin 3 → Nat :=
  let arg0 : BitVec 32 := BitVec.ofNat 32 (i 0).val
  let c0_i32_3468 : BitVec 32 := 0#32
  let c0_i32_3469 : BitVec 32 := 0#32
  ![arg0.toNat, 0, 0]
def k1_off394 (v2936 : BitVec 32) : Fin 2 → Nat :=
  let c0_i32_3470 : BitVec 32 := 0#32
  ![v2936.toNat, 0]

def k1_chk197 (v2936 : BitVec 32) : Prop :=
  (∀ a, (k1_off394 v2936) a + S1x128.size a ≤ S16384x128.size a)
instance k1_chk197.dec : ∀ (v2936 : BitVec 32), Decidable (k1_chk197 v2936) := fun v2936 => decidable_of_iff' _ (Iff.of_eq (k1_chk197.eq_1 v2936))
theorem k1_off394_inb : ∀ (v2936 : BitVec 32) (k1_hw197 : k1_chk197 v2936), ∀ a, (k1_off394 v2936) a + S1x128.size a ≤ S16384x128.size a := fun v2936 k1_hw197 => k1_hw197

def k1_off395 (i : grid1.Coords) : Fin 3 → Nat :=
  let arg0 : BitVec 32 := BitVec.ofNat 32 (i 0).val
  let c0_i32_3478 : BitVec 32 := 0#32
  let c0_i32_3479 : BitVec 32 := 0#32
  ![arg0.toNat, 0, 0]
def k1_off396 (v2944 : BitVec 32) : Fin 2 → Nat :=
  let c0_i32_3480 : BitVec 32 := 0#32
  ![v2944.toNat, 0]

def k1_chk198 (v2944 : BitVec 32) : Prop :=
  (∀ a, (k1_off396 v2944) a + S1x128.size a ≤ S16384x128.size a)
instance k1_chk198.dec : ∀ (v2944 : BitVec 32), Decidable (k1_chk198 v2944) := fun v2944 => decidable_of_iff' _ (Iff.of_eq (k1_chk198.eq_1 v2944))
theorem k1_off396_inb : ∀ (v2944 : BitVec 32) (k1_hw198 : k1_chk198 v2944), ∀ a, (k1_off396 v2944) a + S1x128.size a ≤ S16384x128.size a := fun v2944 k1_hw198 => k1_hw198

def k1_off397 (i : grid1.Coords) : Fin 3 → Nat :=
  let arg0 : BitVec 32 := BitVec.ofNat 32 (i 0).val
  let c0_i32_3488 : BitVec 32 := 0#32
  let c0_i32_3489 : BitVec 32 := 0#32
  ![arg0.toNat, 0, 0]
def k1_off398 (v2952 : BitVec 32) : Fin 2 → Nat :=
  let c0_i32_3490 : BitVec 32 := 0#32
  ![v2952.toNat, 0]

def k1_chk199 (v2952 : BitVec 32) : Prop :=
  (∀ a, (k1_off398 v2952) a + S1x128.size a ≤ S16384x128.size a)
instance k1_chk199.dec : ∀ (v2952 : BitVec 32), Decidable (k1_chk199 v2952) := fun v2952 => decidable_of_iff' _ (Iff.of_eq (k1_chk199.eq_1 v2952))
theorem k1_off398_inb : ∀ (v2952 : BitVec 32) (k1_hw199 : k1_chk199 v2952), ∀ a, (k1_off398 v2952) a + S1x128.size a ≤ S16384x128.size a := fun v2952 k1_hw199 => k1_hw199

def k1_off399 (i : grid1.Coords) : Fin 3 → Nat :=
  let arg0 : BitVec 32 := BitVec.ofNat 32 (i 0).val
  let c0_i32_3498 : BitVec 32 := 0#32
  let c0_i32_3499 : BitVec 32 := 0#32
  ![arg0.toNat, 0, 0]
def k1_off400 (v2960 : BitVec 32) : Fin 2 → Nat :=
  let c0_i32_3500 : BitVec 32 := 0#32
  ![v2960.toNat, 0]

def k1_chk200 (v2960 : BitVec 32) : Prop :=
  (∀ a, (k1_off400 v2960) a + S1x128.size a ≤ S16384x128.size a)
instance k1_chk200.dec : ∀ (v2960 : BitVec 32), Decidable (k1_chk200 v2960) := fun v2960 => decidable_of_iff' _ (Iff.of_eq (k1_chk200.eq_1 v2960))
theorem k1_off400_inb : ∀ (v2960 : BitVec 32) (k1_hw200 : k1_chk200 v2960), ∀ a, (k1_off400 v2960) a + S1x128.size a ≤ S16384x128.size a := fun v2960 k1_hw200 => k1_hw200

def k1_off401 (i : grid1.Coords) : Fin 3 → Nat :=
  let arg0 : BitVec 32 := BitVec.ofNat 32 (i 0).val
  let c0_i32_3508 : BitVec 32 := 0#32
  let c0_i32_3509 : BitVec 32 := 0#32
  ![arg0.toNat, 0, 0]
def k1_off402 (v2968 : BitVec 32) : Fin 2 → Nat :=
  let c0_i32_3510 : BitVec 32 := 0#32
  ![v2968.toNat, 0]

def k1_chk201 (v2968 : BitVec 32) : Prop :=
  (∀ a, (k1_off402 v2968) a + S1x128.size a ≤ S16384x128.size a)
instance k1_chk201.dec : ∀ (v2968 : BitVec 32), Decidable (k1_chk201 v2968) := fun v2968 => decidable_of_iff' _ (Iff.of_eq (k1_chk201.eq_1 v2968))
theorem k1_off402_inb : ∀ (v2968 : BitVec 32) (k1_hw201 : k1_chk201 v2968), ∀ a, (k1_off402 v2968) a + S1x128.size a ≤ S16384x128.size a := fun v2968 k1_hw201 => k1_hw201

def k1_off403 (i : grid1.Coords) : Fin 3 → Nat :=
  let arg0 : BitVec 32 := BitVec.ofNat 32 (i 0).val
  let c0_i32_3518 : BitVec 32 := 0#32
  let c0_i32_3519 : BitVec 32 := 0#32
  ![arg0.toNat, 0, 0]
def k1_off404 (v2976 : BitVec 32) : Fin 2 → Nat :=
  let c0_i32_3520 : BitVec 32 := 0#32
  ![v2976.toNat, 0]

def k1_chk202 (v2976 : BitVec 32) : Prop :=
  (∀ a, (k1_off404 v2976) a + S1x128.size a ≤ S16384x128.size a)
instance k1_chk202.dec : ∀ (v2976 : BitVec 32), Decidable (k1_chk202 v2976) := fun v2976 => decidable_of_iff' _ (Iff.of_eq (k1_chk202.eq_1 v2976))
theorem k1_off404_inb : ∀ (v2976 : BitVec 32) (k1_hw202 : k1_chk202 v2976), ∀ a, (k1_off404 v2976) a + S1x128.size a ≤ S16384x128.size a := fun v2976 k1_hw202 => k1_hw202

def k1_off405 (i : grid1.Coords) : Fin 3 → Nat :=
  let arg0 : BitVec 32 := BitVec.ofNat 32 (i 0).val
  let c0_i32_3528 : BitVec 32 := 0#32
  let c0_i32_3529 : BitVec 32 := 0#32
  ![arg0.toNat, 0, 0]
def k1_off406 (v2984 : BitVec 32) : Fin 2 → Nat :=
  let c0_i32_3530 : BitVec 32 := 0#32
  ![v2984.toNat, 0]

def k1_chk203 (v2984 : BitVec 32) : Prop :=
  (∀ a, (k1_off406 v2984) a + S1x128.size a ≤ S16384x128.size a)
instance k1_chk203.dec : ∀ (v2984 : BitVec 32), Decidable (k1_chk203 v2984) := fun v2984 => decidable_of_iff' _ (Iff.of_eq (k1_chk203.eq_1 v2984))
theorem k1_off406_inb : ∀ (v2984 : BitVec 32) (k1_hw203 : k1_chk203 v2984), ∀ a, (k1_off406 v2984) a + S1x128.size a ≤ S16384x128.size a := fun v2984 k1_hw203 => k1_hw203

def k1_off407 (i : grid1.Coords) : Fin 3 → Nat :=
  let arg0 : BitVec 32 := BitVec.ofNat 32 (i 0).val
  let c0_i32_3538 : BitVec 32 := 0#32
  let c0_i32_3539 : BitVec 32 := 0#32
  ![arg0.toNat, 0, 0]
def k1_off408 (v2992 : BitVec 32) : Fin 2 → Nat :=
  let c0_i32_3540 : BitVec 32 := 0#32
  ![v2992.toNat, 0]

def k1_chk204 (v2992 : BitVec 32) : Prop :=
  (∀ a, (k1_off408 v2992) a + S1x128.size a ≤ S16384x128.size a)
instance k1_chk204.dec : ∀ (v2992 : BitVec 32), Decidable (k1_chk204 v2992) := fun v2992 => decidable_of_iff' _ (Iff.of_eq (k1_chk204.eq_1 v2992))
theorem k1_off408_inb : ∀ (v2992 : BitVec 32) (k1_hw204 : k1_chk204 v2992), ∀ a, (k1_off408 v2992) a + S1x128.size a ≤ S16384x128.size a := fun v2992 k1_hw204 => k1_hw204

def k1_off409 (i : grid1.Coords) : Fin 3 → Nat :=
  let arg0 : BitVec 32 := BitVec.ofNat 32 (i 0).val
  let c0_i32_3548 : BitVec 32 := 0#32
  let c0_i32_3549 : BitVec 32 := 0#32
  ![arg0.toNat, 0, 0]
def k1_off410 (v3000 : BitVec 32) : Fin 2 → Nat :=
  let c0_i32_3550 : BitVec 32 := 0#32
  ![v3000.toNat, 0]

def k1_chk205 (v3000 : BitVec 32) : Prop :=
  (∀ a, (k1_off410 v3000) a + S1x128.size a ≤ S16384x128.size a)
instance k1_chk205.dec : ∀ (v3000 : BitVec 32), Decidable (k1_chk205 v3000) := fun v3000 => decidable_of_iff' _ (Iff.of_eq (k1_chk205.eq_1 v3000))
theorem k1_off410_inb : ∀ (v3000 : BitVec 32) (k1_hw205 : k1_chk205 v3000), ∀ a, (k1_off410 v3000) a + S1x128.size a ≤ S16384x128.size a := fun v3000 k1_hw205 => k1_hw205

def k1_off411 (i : grid1.Coords) : Fin 3 → Nat :=
  let arg0 : BitVec 32 := BitVec.ofNat 32 (i 0).val
  let c0_i32_3558 : BitVec 32 := 0#32
  let c0_i32_3559 : BitVec 32 := 0#32
  ![arg0.toNat, 0, 0]
def k1_off412 (v3008 : BitVec 32) : Fin 2 → Nat :=
  let c0_i32_3560 : BitVec 32 := 0#32
  ![v3008.toNat, 0]

def k1_chk206 (v3008 : BitVec 32) : Prop :=
  (∀ a, (k1_off412 v3008) a + S1x128.size a ≤ S16384x128.size a)
instance k1_chk206.dec : ∀ (v3008 : BitVec 32), Decidable (k1_chk206 v3008) := fun v3008 => decidable_of_iff' _ (Iff.of_eq (k1_chk206.eq_1 v3008))
theorem k1_off412_inb : ∀ (v3008 : BitVec 32) (k1_hw206 : k1_chk206 v3008), ∀ a, (k1_off412 v3008) a + S1x128.size a ≤ S16384x128.size a := fun v3008 k1_hw206 => k1_hw206

def k1_off413 (i : grid1.Coords) : Fin 3 → Nat :=
  let arg0 : BitVec 32 := BitVec.ofNat 32 (i 0).val
  let c0_i32_3568 : BitVec 32 := 0#32
  let c0_i32_3569 : BitVec 32 := 0#32
  ![arg0.toNat, 0, 0]
def k1_off414 (v3016 : BitVec 32) : Fin 2 → Nat :=
  let c0_i32_3570 : BitVec 32 := 0#32
  ![v3016.toNat, 0]

def k1_chk207 (v3016 : BitVec 32) : Prop :=
  (∀ a, (k1_off414 v3016) a + S1x128.size a ≤ S16384x128.size a)
instance k1_chk207.dec : ∀ (v3016 : BitVec 32), Decidable (k1_chk207 v3016) := fun v3016 => decidable_of_iff' _ (Iff.of_eq (k1_chk207.eq_1 v3016))
theorem k1_off414_inb : ∀ (v3016 : BitVec 32) (k1_hw207 : k1_chk207 v3016), ∀ a, (k1_off414 v3016) a + S1x128.size a ≤ S16384x128.size a := fun v3016 k1_hw207 => k1_hw207

def k1_off415 (i : grid1.Coords) : Fin 3 → Nat :=
  let arg0 : BitVec 32 := BitVec.ofNat 32 (i 0).val
  let c0_i32_3578 : BitVec 32 := 0#32
  let c0_i32_3579 : BitVec 32 := 0#32
  ![arg0.toNat, 0, 0]
def k1_off416 (v3024 : BitVec 32) : Fin 2 → Nat :=
  let c0_i32_3580 : BitVec 32 := 0#32
  ![v3024.toNat, 0]

def k1_chk208 (v3024 : BitVec 32) : Prop :=
  (∀ a, (k1_off416 v3024) a + S1x128.size a ≤ S16384x128.size a)
instance k1_chk208.dec : ∀ (v3024 : BitVec 32), Decidable (k1_chk208 v3024) := fun v3024 => decidable_of_iff' _ (Iff.of_eq (k1_chk208.eq_1 v3024))
theorem k1_off416_inb : ∀ (v3024 : BitVec 32) (k1_hw208 : k1_chk208 v3024), ∀ a, (k1_off416 v3024) a + S1x128.size a ≤ S16384x128.size a := fun v3024 k1_hw208 => k1_hw208

def k1_off417 (i : grid1.Coords) : Fin 3 → Nat :=
  let arg0 : BitVec 32 := BitVec.ofNat 32 (i 0).val
  let c0_i32_3588 : BitVec 32 := 0#32
  let c0_i32_3589 : BitVec 32 := 0#32
  ![arg0.toNat, 0, 0]
def k1_off418 (v3032 : BitVec 32) : Fin 2 → Nat :=
  let c0_i32_3590 : BitVec 32 := 0#32
  ![v3032.toNat, 0]

def k1_chk209 (v3032 : BitVec 32) : Prop :=
  (∀ a, (k1_off418 v3032) a + S1x128.size a ≤ S16384x128.size a)
instance k1_chk209.dec : ∀ (v3032 : BitVec 32), Decidable (k1_chk209 v3032) := fun v3032 => decidable_of_iff' _ (Iff.of_eq (k1_chk209.eq_1 v3032))
theorem k1_off418_inb : ∀ (v3032 : BitVec 32) (k1_hw209 : k1_chk209 v3032), ∀ a, (k1_off418 v3032) a + S1x128.size a ≤ S16384x128.size a := fun v3032 k1_hw209 => k1_hw209

def k1_off419 (i : grid1.Coords) : Fin 3 → Nat :=
  let arg0 : BitVec 32 := BitVec.ofNat 32 (i 0).val
  let c0_i32_3598 : BitVec 32 := 0#32
  let c0_i32_3599 : BitVec 32 := 0#32
  ![arg0.toNat, 0, 0]
def k1_off420 (v3040 : BitVec 32) : Fin 2 → Nat :=
  let c0_i32_3600 : BitVec 32 := 0#32
  ![v3040.toNat, 0]

def k1_chk210 (v3040 : BitVec 32) : Prop :=
  (∀ a, (k1_off420 v3040) a + S1x128.size a ≤ S16384x128.size a)
instance k1_chk210.dec : ∀ (v3040 : BitVec 32), Decidable (k1_chk210 v3040) := fun v3040 => decidable_of_iff' _ (Iff.of_eq (k1_chk210.eq_1 v3040))
theorem k1_off420_inb : ∀ (v3040 : BitVec 32) (k1_hw210 : k1_chk210 v3040), ∀ a, (k1_off420 v3040) a + S1x128.size a ≤ S16384x128.size a := fun v3040 k1_hw210 => k1_hw210

def k1_off421 (i : grid1.Coords) : Fin 3 → Nat :=
  let arg0 : BitVec 32 := BitVec.ofNat 32 (i 0).val
  let c0_i32_3608 : BitVec 32 := 0#32
  let c0_i32_3609 : BitVec 32 := 0#32
  ![arg0.toNat, 0, 0]
def k1_off422 (v3048 : BitVec 32) : Fin 2 → Nat :=
  let c0_i32_3610 : BitVec 32 := 0#32
  ![v3048.toNat, 0]

def k1_chk211 (v3048 : BitVec 32) : Prop :=
  (∀ a, (k1_off422 v3048) a + S1x128.size a ≤ S16384x128.size a)
instance k1_chk211.dec : ∀ (v3048 : BitVec 32), Decidable (k1_chk211 v3048) := fun v3048 => decidable_of_iff' _ (Iff.of_eq (k1_chk211.eq_1 v3048))
theorem k1_off422_inb : ∀ (v3048 : BitVec 32) (k1_hw211 : k1_chk211 v3048), ∀ a, (k1_off422 v3048) a + S1x128.size a ≤ S16384x128.size a := fun v3048 k1_hw211 => k1_hw211

def k1_off423 (i : grid1.Coords) : Fin 3 → Nat :=
  let arg0 : BitVec 32 := BitVec.ofNat 32 (i 0).val
  let c0_i32_3618 : BitVec 32 := 0#32
  let c0_i32_3619 : BitVec 32 := 0#32
  ![arg0.toNat, 0, 0]
def k1_off424 (v3056 : BitVec 32) : Fin 2 → Nat :=
  let c0_i32_3620 : BitVec 32 := 0#32
  ![v3056.toNat, 0]

def k1_chk212 (v3056 : BitVec 32) : Prop :=
  (∀ a, (k1_off424 v3056) a + S1x128.size a ≤ S16384x128.size a)
instance k1_chk212.dec : ∀ (v3056 : BitVec 32), Decidable (k1_chk212 v3056) := fun v3056 => decidable_of_iff' _ (Iff.of_eq (k1_chk212.eq_1 v3056))
theorem k1_off424_inb : ∀ (v3056 : BitVec 32) (k1_hw212 : k1_chk212 v3056), ∀ a, (k1_off424 v3056) a + S1x128.size a ≤ S16384x128.size a := fun v3056 k1_hw212 => k1_hw212

def k1_off425 (i : grid1.Coords) : Fin 3 → Nat :=
  let arg0 : BitVec 32 := BitVec.ofNat 32 (i 0).val
  let c0_i32_3628 : BitVec 32 := 0#32
  let c0_i32_3629 : BitVec 32 := 0#32
  ![arg0.toNat, 0, 0]
def k1_off426 (v3064 : BitVec 32) : Fin 2 → Nat :=
  let c0_i32_3630 : BitVec 32 := 0#32
  ![v3064.toNat, 0]

def k1_chk213 (v3064 : BitVec 32) : Prop :=
  (∀ a, (k1_off426 v3064) a + S1x128.size a ≤ S16384x128.size a)
instance k1_chk213.dec : ∀ (v3064 : BitVec 32), Decidable (k1_chk213 v3064) := fun v3064 => decidable_of_iff' _ (Iff.of_eq (k1_chk213.eq_1 v3064))
theorem k1_off426_inb : ∀ (v3064 : BitVec 32) (k1_hw213 : k1_chk213 v3064), ∀ a, (k1_off426 v3064) a + S1x128.size a ≤ S16384x128.size a := fun v3064 k1_hw213 => k1_hw213

def k1_off427 (i : grid1.Coords) : Fin 3 → Nat :=
  let arg0 : BitVec 32 := BitVec.ofNat 32 (i 0).val
  let c0_i32_3638 : BitVec 32 := 0#32
  let c0_i32_3639 : BitVec 32 := 0#32
  ![arg0.toNat, 0, 0]
def k1_off428 (v3072 : BitVec 32) : Fin 2 → Nat :=
  let c0_i32_3640 : BitVec 32 := 0#32
  ![v3072.toNat, 0]

def k1_chk214 (v3072 : BitVec 32) : Prop :=
  (∀ a, (k1_off428 v3072) a + S1x128.size a ≤ S16384x128.size a)
instance k1_chk214.dec : ∀ (v3072 : BitVec 32), Decidable (k1_chk214 v3072) := fun v3072 => decidable_of_iff' _ (Iff.of_eq (k1_chk214.eq_1 v3072))
theorem k1_off428_inb : ∀ (v3072 : BitVec 32) (k1_hw214 : k1_chk214 v3072), ∀ a, (k1_off428 v3072) a + S1x128.size a ≤ S16384x128.size a := fun v3072 k1_hw214 => k1_hw214

def k1_off429 (i : grid1.Coords) : Fin 3 → Nat :=
  let arg0 : BitVec 32 := BitVec.ofNat 32 (i 0).val
  let c0_i32_3648 : BitVec 32 := 0#32
  let c0_i32_3649 : BitVec 32 := 0#32
  ![arg0.toNat, 0, 0]
def k1_off430 (v3080 : BitVec 32) : Fin 2 → Nat :=
  let c0_i32_3650 : BitVec 32 := 0#32
  ![v3080.toNat, 0]

def k1_chk215 (v3080 : BitVec 32) : Prop :=
  (∀ a, (k1_off430 v3080) a + S1x128.size a ≤ S16384x128.size a)
instance k1_chk215.dec : ∀ (v3080 : BitVec 32), Decidable (k1_chk215 v3080) := fun v3080 => decidable_of_iff' _ (Iff.of_eq (k1_chk215.eq_1 v3080))
theorem k1_off430_inb : ∀ (v3080 : BitVec 32) (k1_hw215 : k1_chk215 v3080), ∀ a, (k1_off430 v3080) a + S1x128.size a ≤ S16384x128.size a := fun v3080 k1_hw215 => k1_hw215

def k1_off431 (i : grid1.Coords) : Fin 3 → Nat :=
  let arg0 : BitVec 32 := BitVec.ofNat 32 (i 0).val
  let c0_i32_3658 : BitVec 32 := 0#32
  let c0_i32_3659 : BitVec 32 := 0#32
  ![arg0.toNat, 0, 0]
def k1_off432 (v3088 : BitVec 32) : Fin 2 → Nat :=
  let c0_i32_3660 : BitVec 32 := 0#32
  ![v3088.toNat, 0]

def k1_chk216 (v3088 : BitVec 32) : Prop :=
  (∀ a, (k1_off432 v3088) a + S1x128.size a ≤ S16384x128.size a)
instance k1_chk216.dec : ∀ (v3088 : BitVec 32), Decidable (k1_chk216 v3088) := fun v3088 => decidable_of_iff' _ (Iff.of_eq (k1_chk216.eq_1 v3088))
theorem k1_off432_inb : ∀ (v3088 : BitVec 32) (k1_hw216 : k1_chk216 v3088), ∀ a, (k1_off432 v3088) a + S1x128.size a ≤ S16384x128.size a := fun v3088 k1_hw216 => k1_hw216

def k1_off433 (i : grid1.Coords) : Fin 3 → Nat :=
  let arg0 : BitVec 32 := BitVec.ofNat 32 (i 0).val
  let c0_i32_3668 : BitVec 32 := 0#32
  let c0_i32_3669 : BitVec 32 := 0#32
  ![arg0.toNat, 0, 0]
def k1_off434 (v3096 : BitVec 32) : Fin 2 → Nat :=
  let c0_i32_3670 : BitVec 32 := 0#32
  ![v3096.toNat, 0]

def k1_chk217 (v3096 : BitVec 32) : Prop :=
  (∀ a, (k1_off434 v3096) a + S1x128.size a ≤ S16384x128.size a)
instance k1_chk217.dec : ∀ (v3096 : BitVec 32), Decidable (k1_chk217 v3096) := fun v3096 => decidable_of_iff' _ (Iff.of_eq (k1_chk217.eq_1 v3096))
theorem k1_off434_inb : ∀ (v3096 : BitVec 32) (k1_hw217 : k1_chk217 v3096), ∀ a, (k1_off434 v3096) a + S1x128.size a ≤ S16384x128.size a := fun v3096 k1_hw217 => k1_hw217

def k1_off435 (i : grid1.Coords) : Fin 3 → Nat :=
  let arg0 : BitVec 32 := BitVec.ofNat 32 (i 0).val
  let c0_i32_3678 : BitVec 32 := 0#32
  let c0_i32_3679 : BitVec 32 := 0#32
  ![arg0.toNat, 0, 0]
def k1_off436 (v3104 : BitVec 32) : Fin 2 → Nat :=
  let c0_i32_3680 : BitVec 32 := 0#32
  ![v3104.toNat, 0]

def k1_chk218 (v3104 : BitVec 32) : Prop :=
  (∀ a, (k1_off436 v3104) a + S1x128.size a ≤ S16384x128.size a)
instance k1_chk218.dec : ∀ (v3104 : BitVec 32), Decidable (k1_chk218 v3104) := fun v3104 => decidable_of_iff' _ (Iff.of_eq (k1_chk218.eq_1 v3104))
theorem k1_off436_inb : ∀ (v3104 : BitVec 32) (k1_hw218 : k1_chk218 v3104), ∀ a, (k1_off436 v3104) a + S1x128.size a ≤ S16384x128.size a := fun v3104 k1_hw218 => k1_hw218

def k1_off437 (i : grid1.Coords) : Fin 3 → Nat :=
  let arg0 : BitVec 32 := BitVec.ofNat 32 (i 0).val
  let c0_i32_3688 : BitVec 32 := 0#32
  let c0_i32_3689 : BitVec 32 := 0#32
  ![arg0.toNat, 0, 0]
def k1_off438 (v3112 : BitVec 32) : Fin 2 → Nat :=
  let c0_i32_3690 : BitVec 32 := 0#32
  ![v3112.toNat, 0]

def k1_chk219 (v3112 : BitVec 32) : Prop :=
  (∀ a, (k1_off438 v3112) a + S1x128.size a ≤ S16384x128.size a)
instance k1_chk219.dec : ∀ (v3112 : BitVec 32), Decidable (k1_chk219 v3112) := fun v3112 => decidable_of_iff' _ (Iff.of_eq (k1_chk219.eq_1 v3112))
theorem k1_off438_inb : ∀ (v3112 : BitVec 32) (k1_hw219 : k1_chk219 v3112), ∀ a, (k1_off438 v3112) a + S1x128.size a ≤ S16384x128.size a := fun v3112 k1_hw219 => k1_hw219

def k1_off439 (i : grid1.Coords) : Fin 3 → Nat :=
  let arg0 : BitVec 32 := BitVec.ofNat 32 (i 0).val
  let c0_i32_3698 : BitVec 32 := 0#32
  let c0_i32_3699 : BitVec 32 := 0#32
  ![arg0.toNat, 0, 0]
def k1_off440 (v3120 : BitVec 32) : Fin 2 → Nat :=
  let c0_i32_3700 : BitVec 32 := 0#32
  ![v3120.toNat, 0]

def k1_chk220 (v3120 : BitVec 32) : Prop :=
  (∀ a, (k1_off440 v3120) a + S1x128.size a ≤ S16384x128.size a)
instance k1_chk220.dec : ∀ (v3120 : BitVec 32), Decidable (k1_chk220 v3120) := fun v3120 => decidable_of_iff' _ (Iff.of_eq (k1_chk220.eq_1 v3120))
theorem k1_off440_inb : ∀ (v3120 : BitVec 32) (k1_hw220 : k1_chk220 v3120), ∀ a, (k1_off440 v3120) a + S1x128.size a ≤ S16384x128.size a := fun v3120 k1_hw220 => k1_hw220

def k1_off441 (i : grid1.Coords) : Fin 3 → Nat :=
  let arg0 : BitVec 32 := BitVec.ofNat 32 (i 0).val
  let c0_i32_3708 : BitVec 32 := 0#32
  let c0_i32_3709 : BitVec 32 := 0#32
  ![arg0.toNat, 0, 0]
def k1_off442 (v3128 : BitVec 32) : Fin 2 → Nat :=
  let c0_i32_3710 : BitVec 32 := 0#32
  ![v3128.toNat, 0]

def k1_chk221 (v3128 : BitVec 32) : Prop :=
  (∀ a, (k1_off442 v3128) a + S1x128.size a ≤ S16384x128.size a)
instance k1_chk221.dec : ∀ (v3128 : BitVec 32), Decidable (k1_chk221 v3128) := fun v3128 => decidable_of_iff' _ (Iff.of_eq (k1_chk221.eq_1 v3128))
theorem k1_off442_inb : ∀ (v3128 : BitVec 32) (k1_hw221 : k1_chk221 v3128), ∀ a, (k1_off442 v3128) a + S1x128.size a ≤ S16384x128.size a := fun v3128 k1_hw221 => k1_hw221

def k1_off443 (i : grid1.Coords) : Fin 3 → Nat :=
  let arg0 : BitVec 32 := BitVec.ofNat 32 (i 0).val
  let c0_i32_3718 : BitVec 32 := 0#32
  let c0_i32_3719 : BitVec 32 := 0#32
  ![arg0.toNat, 0, 0]
def k1_off444 (v3136 : BitVec 32) : Fin 2 → Nat :=
  let c0_i32_3720 : BitVec 32 := 0#32
  ![v3136.toNat, 0]

def k1_chk222 (v3136 : BitVec 32) : Prop :=
  (∀ a, (k1_off444 v3136) a + S1x128.size a ≤ S16384x128.size a)
instance k1_chk222.dec : ∀ (v3136 : BitVec 32), Decidable (k1_chk222 v3136) := fun v3136 => decidable_of_iff' _ (Iff.of_eq (k1_chk222.eq_1 v3136))
theorem k1_off444_inb : ∀ (v3136 : BitVec 32) (k1_hw222 : k1_chk222 v3136), ∀ a, (k1_off444 v3136) a + S1x128.size a ≤ S16384x128.size a := fun v3136 k1_hw222 => k1_hw222

def k1_off445 (i : grid1.Coords) : Fin 3 → Nat :=
  let arg0 : BitVec 32 := BitVec.ofNat 32 (i 0).val
  let c0_i32_3728 : BitVec 32 := 0#32
  let c0_i32_3729 : BitVec 32 := 0#32
  ![arg0.toNat, 0, 0]
def k1_off446 (v3144 : BitVec 32) : Fin 2 → Nat :=
  let c0_i32_3730 : BitVec 32 := 0#32
  ![v3144.toNat, 0]

def k1_chk223 (v3144 : BitVec 32) : Prop :=
  (∀ a, (k1_off446 v3144) a + S1x128.size a ≤ S16384x128.size a)
instance k1_chk223.dec : ∀ (v3144 : BitVec 32), Decidable (k1_chk223 v3144) := fun v3144 => decidable_of_iff' _ (Iff.of_eq (k1_chk223.eq_1 v3144))
theorem k1_off446_inb : ∀ (v3144 : BitVec 32) (k1_hw223 : k1_chk223 v3144), ∀ a, (k1_off446 v3144) a + S1x128.size a ≤ S16384x128.size a := fun v3144 k1_hw223 => k1_hw223

def k1_off447 (i : grid1.Coords) : Fin 3 → Nat :=
  let arg0 : BitVec 32 := BitVec.ofNat 32 (i 0).val
  let c0_i32_3738 : BitVec 32 := 0#32
  let c0_i32_3739 : BitVec 32 := 0#32
  ![arg0.toNat, 0, 0]
def k1_off448 (v3152 : BitVec 32) : Fin 2 → Nat :=
  let c0_i32_3740 : BitVec 32 := 0#32
  ![v3152.toNat, 0]

def k1_chk224 (v3152 : BitVec 32) : Prop :=
  (∀ a, (k1_off448 v3152) a + S1x128.size a ≤ S16384x128.size a)
instance k1_chk224.dec : ∀ (v3152 : BitVec 32), Decidable (k1_chk224 v3152) := fun v3152 => decidable_of_iff' _ (Iff.of_eq (k1_chk224.eq_1 v3152))
theorem k1_off448_inb : ∀ (v3152 : BitVec 32) (k1_hw224 : k1_chk224 v3152), ∀ a, (k1_off448 v3152) a + S1x128.size a ≤ S16384x128.size a := fun v3152 k1_hw224 => k1_hw224

def k1_off449 (i : grid1.Coords) : Fin 3 → Nat :=
  let arg0 : BitVec 32 := BitVec.ofNat 32 (i 0).val
  let c0_i32_3745 : BitVec 32 := 0#32
  let c0_i32_3746 : BitVec 32 := 0#32
  ![arg0.toNat, 0, 0]
def k1_off450 (v3388 : BitVec 32) : Fin 2 → Nat :=
  let c0_i32_4011 : BitVec 32 := 0#32
  ![v3388.toNat, 0]

def k1_chk225 (v3388 : BitVec 32) : Prop :=
  (∀ a, (k1_off450 v3388) a + S1x128.size a ≤ S16384x128.size a)
instance k1_chk225.dec : ∀ (v3388 : BitVec 32), Decidable (k1_chk225 v3388) := fun v3388 => decidable_of_iff' _ (Iff.of_eq (k1_chk225.eq_1 v3388))
theorem k1_off450_inb : ∀ (v3388 : BitVec 32) (k1_hw225 : k1_chk225 v3388), ∀ a, (k1_off450 v3388) a + S1x128.size a ≤ S16384x128.size a := fun v3388 k1_hw225 => k1_hw225

def k1_off451 (i : grid1.Coords) : Fin 3 → Nat :=
  let arg0 : BitVec 32 := BitVec.ofNat 32 (i 0).val
  let c0_i32_4019 : BitVec 32 := 0#32
  let c0_i32_4020 : BitVec 32 := 0#32
  ![arg0.toNat, 0, 0]
def k1_off452 (v3396 : BitVec 32) : Fin 2 → Nat :=
  let c0_i32_4021 : BitVec 32 := 0#32
  ![v3396.toNat, 0]

def k1_chk226 (v3396 : BitVec 32) : Prop :=
  (∀ a, (k1_off452 v3396) a + S1x128.size a ≤ S16384x128.size a)
instance k1_chk226.dec : ∀ (v3396 : BitVec 32), Decidable (k1_chk226 v3396) := fun v3396 => decidable_of_iff' _ (Iff.of_eq (k1_chk226.eq_1 v3396))
theorem k1_off452_inb : ∀ (v3396 : BitVec 32) (k1_hw226 : k1_chk226 v3396), ∀ a, (k1_off452 v3396) a + S1x128.size a ≤ S16384x128.size a := fun v3396 k1_hw226 => k1_hw226

def k1_off453 (i : grid1.Coords) : Fin 3 → Nat :=
  let arg0 : BitVec 32 := BitVec.ofNat 32 (i 0).val
  let c0_i32_4029 : BitVec 32 := 0#32
  let c0_i32_4030 : BitVec 32 := 0#32
  ![arg0.toNat, 0, 0]
def k1_off454 (v3404 : BitVec 32) : Fin 2 → Nat :=
  let c0_i32_4031 : BitVec 32 := 0#32
  ![v3404.toNat, 0]

def k1_chk227 (v3404 : BitVec 32) : Prop :=
  (∀ a, (k1_off454 v3404) a + S1x128.size a ≤ S16384x128.size a)
instance k1_chk227.dec : ∀ (v3404 : BitVec 32), Decidable (k1_chk227 v3404) := fun v3404 => decidable_of_iff' _ (Iff.of_eq (k1_chk227.eq_1 v3404))
theorem k1_off454_inb : ∀ (v3404 : BitVec 32) (k1_hw227 : k1_chk227 v3404), ∀ a, (k1_off454 v3404) a + S1x128.size a ≤ S16384x128.size a := fun v3404 k1_hw227 => k1_hw227

def k1_off455 (i : grid1.Coords) : Fin 3 → Nat :=
  let arg0 : BitVec 32 := BitVec.ofNat 32 (i 0).val
  let c0_i32_4039 : BitVec 32 := 0#32
  let c0_i32_4040 : BitVec 32 := 0#32
  ![arg0.toNat, 0, 0]
def k1_off456 (v3412 : BitVec 32) : Fin 2 → Nat :=
  let c0_i32_4041 : BitVec 32 := 0#32
  ![v3412.toNat, 0]

def k1_chk228 (v3412 : BitVec 32) : Prop :=
  (∀ a, (k1_off456 v3412) a + S1x128.size a ≤ S16384x128.size a)
instance k1_chk228.dec : ∀ (v3412 : BitVec 32), Decidable (k1_chk228 v3412) := fun v3412 => decidable_of_iff' _ (Iff.of_eq (k1_chk228.eq_1 v3412))
theorem k1_off456_inb : ∀ (v3412 : BitVec 32) (k1_hw228 : k1_chk228 v3412), ∀ a, (k1_off456 v3412) a + S1x128.size a ≤ S16384x128.size a := fun v3412 k1_hw228 => k1_hw228

def k1_off457 (i : grid1.Coords) : Fin 3 → Nat :=
  let arg0 : BitVec 32 := BitVec.ofNat 32 (i 0).val
  let c0_i32_4049 : BitVec 32 := 0#32
  let c0_i32_4050 : BitVec 32 := 0#32
  ![arg0.toNat, 0, 0]
def k1_off458 (v3420 : BitVec 32) : Fin 2 → Nat :=
  let c0_i32_4051 : BitVec 32 := 0#32
  ![v3420.toNat, 0]

def k1_chk229 (v3420 : BitVec 32) : Prop :=
  (∀ a, (k1_off458 v3420) a + S1x128.size a ≤ S16384x128.size a)
instance k1_chk229.dec : ∀ (v3420 : BitVec 32), Decidable (k1_chk229 v3420) := fun v3420 => decidable_of_iff' _ (Iff.of_eq (k1_chk229.eq_1 v3420))
theorem k1_off458_inb : ∀ (v3420 : BitVec 32) (k1_hw229 : k1_chk229 v3420), ∀ a, (k1_off458 v3420) a + S1x128.size a ≤ S16384x128.size a := fun v3420 k1_hw229 => k1_hw229

def k1_off459 (i : grid1.Coords) : Fin 3 → Nat :=
  let arg0 : BitVec 32 := BitVec.ofNat 32 (i 0).val
  let c0_i32_4059 : BitVec 32 := 0#32
  let c0_i32_4060 : BitVec 32 := 0#32
  ![arg0.toNat, 0, 0]
def k1_off460 (v3428 : BitVec 32) : Fin 2 → Nat :=
  let c0_i32_4061 : BitVec 32 := 0#32
  ![v3428.toNat, 0]

def k1_chk230 (v3428 : BitVec 32) : Prop :=
  (∀ a, (k1_off460 v3428) a + S1x128.size a ≤ S16384x128.size a)
instance k1_chk230.dec : ∀ (v3428 : BitVec 32), Decidable (k1_chk230 v3428) := fun v3428 => decidable_of_iff' _ (Iff.of_eq (k1_chk230.eq_1 v3428))
theorem k1_off460_inb : ∀ (v3428 : BitVec 32) (k1_hw230 : k1_chk230 v3428), ∀ a, (k1_off460 v3428) a + S1x128.size a ≤ S16384x128.size a := fun v3428 k1_hw230 => k1_hw230

def k1_off461 (i : grid1.Coords) : Fin 3 → Nat :=
  let arg0 : BitVec 32 := BitVec.ofNat 32 (i 0).val
  let c0_i32_4069 : BitVec 32 := 0#32
  let c0_i32_4070 : BitVec 32 := 0#32
  ![arg0.toNat, 0, 0]
def k1_off462 (v3436 : BitVec 32) : Fin 2 → Nat :=
  let c0_i32_4071 : BitVec 32 := 0#32
  ![v3436.toNat, 0]

def k1_chk231 (v3436 : BitVec 32) : Prop :=
  (∀ a, (k1_off462 v3436) a + S1x128.size a ≤ S16384x128.size a)
instance k1_chk231.dec : ∀ (v3436 : BitVec 32), Decidable (k1_chk231 v3436) := fun v3436 => decidable_of_iff' _ (Iff.of_eq (k1_chk231.eq_1 v3436))
theorem k1_off462_inb : ∀ (v3436 : BitVec 32) (k1_hw231 : k1_chk231 v3436), ∀ a, (k1_off462 v3436) a + S1x128.size a ≤ S16384x128.size a := fun v3436 k1_hw231 => k1_hw231

def k1_off463 (i : grid1.Coords) : Fin 3 → Nat :=
  let arg0 : BitVec 32 := BitVec.ofNat 32 (i 0).val
  let c0_i32_4079 : BitVec 32 := 0#32
  let c0_i32_4080 : BitVec 32 := 0#32
  ![arg0.toNat, 0, 0]
def k1_off464 (v3444 : BitVec 32) : Fin 2 → Nat :=
  let c0_i32_4081 : BitVec 32 := 0#32
  ![v3444.toNat, 0]

def k1_chk232 (v3444 : BitVec 32) : Prop :=
  (∀ a, (k1_off464 v3444) a + S1x128.size a ≤ S16384x128.size a)
instance k1_chk232.dec : ∀ (v3444 : BitVec 32), Decidable (k1_chk232 v3444) := fun v3444 => decidable_of_iff' _ (Iff.of_eq (k1_chk232.eq_1 v3444))
theorem k1_off464_inb : ∀ (v3444 : BitVec 32) (k1_hw232 : k1_chk232 v3444), ∀ a, (k1_off464 v3444) a + S1x128.size a ≤ S16384x128.size a := fun v3444 k1_hw232 => k1_hw232

def k1_off465 (i : grid1.Coords) : Fin 3 → Nat :=
  let arg0 : BitVec 32 := BitVec.ofNat 32 (i 0).val
  let c0_i32_4089 : BitVec 32 := 0#32
  let c0_i32_4090 : BitVec 32 := 0#32
  ![arg0.toNat, 0, 0]
def k1_off466 (v3452 : BitVec 32) : Fin 2 → Nat :=
  let c0_i32_4091 : BitVec 32 := 0#32
  ![v3452.toNat, 0]

def k1_chk233 (v3452 : BitVec 32) : Prop :=
  (∀ a, (k1_off466 v3452) a + S1x128.size a ≤ S16384x128.size a)
instance k1_chk233.dec : ∀ (v3452 : BitVec 32), Decidable (k1_chk233 v3452) := fun v3452 => decidable_of_iff' _ (Iff.of_eq (k1_chk233.eq_1 v3452))
theorem k1_off466_inb : ∀ (v3452 : BitVec 32) (k1_hw233 : k1_chk233 v3452), ∀ a, (k1_off466 v3452) a + S1x128.size a ≤ S16384x128.size a := fun v3452 k1_hw233 => k1_hw233

def k1_off467 (i : grid1.Coords) : Fin 3 → Nat :=
  let arg0 : BitVec 32 := BitVec.ofNat 32 (i 0).val
  let c0_i32_4099 : BitVec 32 := 0#32
  let c0_i32_4100 : BitVec 32 := 0#32
  ![arg0.toNat, 0, 0]
def k1_off468 (v3460 : BitVec 32) : Fin 2 → Nat :=
  let c0_i32_4101 : BitVec 32 := 0#32
  ![v3460.toNat, 0]

def k1_chk234 (v3460 : BitVec 32) : Prop :=
  (∀ a, (k1_off468 v3460) a + S1x128.size a ≤ S16384x128.size a)
instance k1_chk234.dec : ∀ (v3460 : BitVec 32), Decidable (k1_chk234 v3460) := fun v3460 => decidable_of_iff' _ (Iff.of_eq (k1_chk234.eq_1 v3460))
theorem k1_off468_inb : ∀ (v3460 : BitVec 32) (k1_hw234 : k1_chk234 v3460), ∀ a, (k1_off468 v3460) a + S1x128.size a ≤ S16384x128.size a := fun v3460 k1_hw234 => k1_hw234

def k1_off469 (i : grid1.Coords) : Fin 3 → Nat :=
  let arg0 : BitVec 32 := BitVec.ofNat 32 (i 0).val
  let c0_i32_4109 : BitVec 32 := 0#32
  let c0_i32_4110 : BitVec 32 := 0#32
  ![arg0.toNat, 0, 0]
def k1_off470 (v3468 : BitVec 32) : Fin 2 → Nat :=
  let c0_i32_4111 : BitVec 32 := 0#32
  ![v3468.toNat, 0]

def k1_chk235 (v3468 : BitVec 32) : Prop :=
  (∀ a, (k1_off470 v3468) a + S1x128.size a ≤ S16384x128.size a)
instance k1_chk235.dec : ∀ (v3468 : BitVec 32), Decidable (k1_chk235 v3468) := fun v3468 => decidable_of_iff' _ (Iff.of_eq (k1_chk235.eq_1 v3468))
theorem k1_off470_inb : ∀ (v3468 : BitVec 32) (k1_hw235 : k1_chk235 v3468), ∀ a, (k1_off470 v3468) a + S1x128.size a ≤ S16384x128.size a := fun v3468 k1_hw235 => k1_hw235

def k1_off471 (i : grid1.Coords) : Fin 3 → Nat :=
  let arg0 : BitVec 32 := BitVec.ofNat 32 (i 0).val
  let c0_i32_4119 : BitVec 32 := 0#32
  let c0_i32_4120 : BitVec 32 := 0#32
  ![arg0.toNat, 0, 0]
def k1_off472 (v3476 : BitVec 32) : Fin 2 → Nat :=
  let c0_i32_4121 : BitVec 32 := 0#32
  ![v3476.toNat, 0]

def k1_chk236 (v3476 : BitVec 32) : Prop :=
  (∀ a, (k1_off472 v3476) a + S1x128.size a ≤ S16384x128.size a)
instance k1_chk236.dec : ∀ (v3476 : BitVec 32), Decidable (k1_chk236 v3476) := fun v3476 => decidable_of_iff' _ (Iff.of_eq (k1_chk236.eq_1 v3476))
theorem k1_off472_inb : ∀ (v3476 : BitVec 32) (k1_hw236 : k1_chk236 v3476), ∀ a, (k1_off472 v3476) a + S1x128.size a ≤ S16384x128.size a := fun v3476 k1_hw236 => k1_hw236

def k1_off473 (i : grid1.Coords) : Fin 3 → Nat :=
  let arg0 : BitVec 32 := BitVec.ofNat 32 (i 0).val
  let c0_i32_4129 : BitVec 32 := 0#32
  let c0_i32_4130 : BitVec 32 := 0#32
  ![arg0.toNat, 0, 0]
def k1_off474 (v3484 : BitVec 32) : Fin 2 → Nat :=
  let c0_i32_4131 : BitVec 32 := 0#32
  ![v3484.toNat, 0]

def k1_chk237 (v3484 : BitVec 32) : Prop :=
  (∀ a, (k1_off474 v3484) a + S1x128.size a ≤ S16384x128.size a)
instance k1_chk237.dec : ∀ (v3484 : BitVec 32), Decidable (k1_chk237 v3484) := fun v3484 => decidable_of_iff' _ (Iff.of_eq (k1_chk237.eq_1 v3484))
theorem k1_off474_inb : ∀ (v3484 : BitVec 32) (k1_hw237 : k1_chk237 v3484), ∀ a, (k1_off474 v3484) a + S1x128.size a ≤ S16384x128.size a := fun v3484 k1_hw237 => k1_hw237

def k1_off475 (i : grid1.Coords) : Fin 3 → Nat :=
  let arg0 : BitVec 32 := BitVec.ofNat 32 (i 0).val
  let c0_i32_4139 : BitVec 32 := 0#32
  let c0_i32_4140 : BitVec 32 := 0#32
  ![arg0.toNat, 0, 0]
def k1_off476 (v3492 : BitVec 32) : Fin 2 → Nat :=
  let c0_i32_4141 : BitVec 32 := 0#32
  ![v3492.toNat, 0]

def k1_chk238 (v3492 : BitVec 32) : Prop :=
  (∀ a, (k1_off476 v3492) a + S1x128.size a ≤ S16384x128.size a)
instance k1_chk238.dec : ∀ (v3492 : BitVec 32), Decidable (k1_chk238 v3492) := fun v3492 => decidable_of_iff' _ (Iff.of_eq (k1_chk238.eq_1 v3492))
theorem k1_off476_inb : ∀ (v3492 : BitVec 32) (k1_hw238 : k1_chk238 v3492), ∀ a, (k1_off476 v3492) a + S1x128.size a ≤ S16384x128.size a := fun v3492 k1_hw238 => k1_hw238

def k1_off477 (i : grid1.Coords) : Fin 3 → Nat :=
  let arg0 : BitVec 32 := BitVec.ofNat 32 (i 0).val
  let c0_i32_4149 : BitVec 32 := 0#32
  let c0_i32_4150 : BitVec 32 := 0#32
  ![arg0.toNat, 0, 0]
def k1_off478 (v3500 : BitVec 32) : Fin 2 → Nat :=
  let c0_i32_4151 : BitVec 32 := 0#32
  ![v3500.toNat, 0]

def k1_chk239 (v3500 : BitVec 32) : Prop :=
  (∀ a, (k1_off478 v3500) a + S1x128.size a ≤ S16384x128.size a)
instance k1_chk239.dec : ∀ (v3500 : BitVec 32), Decidable (k1_chk239 v3500) := fun v3500 => decidable_of_iff' _ (Iff.of_eq (k1_chk239.eq_1 v3500))
theorem k1_off478_inb : ∀ (v3500 : BitVec 32) (k1_hw239 : k1_chk239 v3500), ∀ a, (k1_off478 v3500) a + S1x128.size a ≤ S16384x128.size a := fun v3500 k1_hw239 => k1_hw239

def k1_off479 (i : grid1.Coords) : Fin 3 → Nat :=
  let arg0 : BitVec 32 := BitVec.ofNat 32 (i 0).val
  let c0_i32_4159 : BitVec 32 := 0#32
  let c0_i32_4160 : BitVec 32 := 0#32
  ![arg0.toNat, 0, 0]
def k1_off480 (v3508 : BitVec 32) : Fin 2 → Nat :=
  let c0_i32_4161 : BitVec 32 := 0#32
  ![v3508.toNat, 0]

def k1_chk240 (v3508 : BitVec 32) : Prop :=
  (∀ a, (k1_off480 v3508) a + S1x128.size a ≤ S16384x128.size a)
instance k1_chk240.dec : ∀ (v3508 : BitVec 32), Decidable (k1_chk240 v3508) := fun v3508 => decidable_of_iff' _ (Iff.of_eq (k1_chk240.eq_1 v3508))
theorem k1_off480_inb : ∀ (v3508 : BitVec 32) (k1_hw240 : k1_chk240 v3508), ∀ a, (k1_off480 v3508) a + S1x128.size a ≤ S16384x128.size a := fun v3508 k1_hw240 => k1_hw240

def k1_off481 (i : grid1.Coords) : Fin 3 → Nat :=
  let arg0 : BitVec 32 := BitVec.ofNat 32 (i 0).val
  let c0_i32_4169 : BitVec 32 := 0#32
  let c0_i32_4170 : BitVec 32 := 0#32
  ![arg0.toNat, 0, 0]
def k1_off482 (v3516 : BitVec 32) : Fin 2 → Nat :=
  let c0_i32_4171 : BitVec 32 := 0#32
  ![v3516.toNat, 0]

def k1_chk241 (v3516 : BitVec 32) : Prop :=
  (∀ a, (k1_off482 v3516) a + S1x128.size a ≤ S16384x128.size a)
instance k1_chk241.dec : ∀ (v3516 : BitVec 32), Decidable (k1_chk241 v3516) := fun v3516 => decidable_of_iff' _ (Iff.of_eq (k1_chk241.eq_1 v3516))
theorem k1_off482_inb : ∀ (v3516 : BitVec 32) (k1_hw241 : k1_chk241 v3516), ∀ a, (k1_off482 v3516) a + S1x128.size a ≤ S16384x128.size a := fun v3516 k1_hw241 => k1_hw241

def k1_off483 (i : grid1.Coords) : Fin 3 → Nat :=
  let arg0 : BitVec 32 := BitVec.ofNat 32 (i 0).val
  let c0_i32_4179 : BitVec 32 := 0#32
  let c0_i32_4180 : BitVec 32 := 0#32
  ![arg0.toNat, 0, 0]
def k1_off484 (v3524 : BitVec 32) : Fin 2 → Nat :=
  let c0_i32_4181 : BitVec 32 := 0#32
  ![v3524.toNat, 0]

def k1_chk242 (v3524 : BitVec 32) : Prop :=
  (∀ a, (k1_off484 v3524) a + S1x128.size a ≤ S16384x128.size a)
instance k1_chk242.dec : ∀ (v3524 : BitVec 32), Decidable (k1_chk242 v3524) := fun v3524 => decidable_of_iff' _ (Iff.of_eq (k1_chk242.eq_1 v3524))
theorem k1_off484_inb : ∀ (v3524 : BitVec 32) (k1_hw242 : k1_chk242 v3524), ∀ a, (k1_off484 v3524) a + S1x128.size a ≤ S16384x128.size a := fun v3524 k1_hw242 => k1_hw242

def k1_off485 (i : grid1.Coords) : Fin 3 → Nat :=
  let arg0 : BitVec 32 := BitVec.ofNat 32 (i 0).val
  let c0_i32_4189 : BitVec 32 := 0#32
  let c0_i32_4190 : BitVec 32 := 0#32
  ![arg0.toNat, 0, 0]
def k1_off486 (v3532 : BitVec 32) : Fin 2 → Nat :=
  let c0_i32_4191 : BitVec 32 := 0#32
  ![v3532.toNat, 0]

def k1_chk243 (v3532 : BitVec 32) : Prop :=
  (∀ a, (k1_off486 v3532) a + S1x128.size a ≤ S16384x128.size a)
instance k1_chk243.dec : ∀ (v3532 : BitVec 32), Decidable (k1_chk243 v3532) := fun v3532 => decidable_of_iff' _ (Iff.of_eq (k1_chk243.eq_1 v3532))
theorem k1_off486_inb : ∀ (v3532 : BitVec 32) (k1_hw243 : k1_chk243 v3532), ∀ a, (k1_off486 v3532) a + S1x128.size a ≤ S16384x128.size a := fun v3532 k1_hw243 => k1_hw243

def k1_off487 (i : grid1.Coords) : Fin 3 → Nat :=
  let arg0 : BitVec 32 := BitVec.ofNat 32 (i 0).val
  let c0_i32_4199 : BitVec 32 := 0#32
  let c0_i32_4200 : BitVec 32 := 0#32
  ![arg0.toNat, 0, 0]
def k1_off488 (v3540 : BitVec 32) : Fin 2 → Nat :=
  let c0_i32_4201 : BitVec 32 := 0#32
  ![v3540.toNat, 0]

def k1_chk244 (v3540 : BitVec 32) : Prop :=
  (∀ a, (k1_off488 v3540) a + S1x128.size a ≤ S16384x128.size a)
instance k1_chk244.dec : ∀ (v3540 : BitVec 32), Decidable (k1_chk244 v3540) := fun v3540 => decidable_of_iff' _ (Iff.of_eq (k1_chk244.eq_1 v3540))
theorem k1_off488_inb : ∀ (v3540 : BitVec 32) (k1_hw244 : k1_chk244 v3540), ∀ a, (k1_off488 v3540) a + S1x128.size a ≤ S16384x128.size a := fun v3540 k1_hw244 => k1_hw244

def k1_off489 (i : grid1.Coords) : Fin 3 → Nat :=
  let arg0 : BitVec 32 := BitVec.ofNat 32 (i 0).val
  let c0_i32_4209 : BitVec 32 := 0#32
  let c0_i32_4210 : BitVec 32 := 0#32
  ![arg0.toNat, 0, 0]
def k1_off490 (v3548 : BitVec 32) : Fin 2 → Nat :=
  let c0_i32_4211 : BitVec 32 := 0#32
  ![v3548.toNat, 0]

def k1_chk245 (v3548 : BitVec 32) : Prop :=
  (∀ a, (k1_off490 v3548) a + S1x128.size a ≤ S16384x128.size a)
instance k1_chk245.dec : ∀ (v3548 : BitVec 32), Decidable (k1_chk245 v3548) := fun v3548 => decidable_of_iff' _ (Iff.of_eq (k1_chk245.eq_1 v3548))
theorem k1_off490_inb : ∀ (v3548 : BitVec 32) (k1_hw245 : k1_chk245 v3548), ∀ a, (k1_off490 v3548) a + S1x128.size a ≤ S16384x128.size a := fun v3548 k1_hw245 => k1_hw245

def k1_off491 (i : grid1.Coords) : Fin 3 → Nat :=
  let arg0 : BitVec 32 := BitVec.ofNat 32 (i 0).val
  let c0_i32_4219 : BitVec 32 := 0#32
  let c0_i32_4220 : BitVec 32 := 0#32
  ![arg0.toNat, 0, 0]
def k1_off492 (v3556 : BitVec 32) : Fin 2 → Nat :=
  let c0_i32_4221 : BitVec 32 := 0#32
  ![v3556.toNat, 0]

def k1_chk246 (v3556 : BitVec 32) : Prop :=
  (∀ a, (k1_off492 v3556) a + S1x128.size a ≤ S16384x128.size a)
instance k1_chk246.dec : ∀ (v3556 : BitVec 32), Decidable (k1_chk246 v3556) := fun v3556 => decidable_of_iff' _ (Iff.of_eq (k1_chk246.eq_1 v3556))
theorem k1_off492_inb : ∀ (v3556 : BitVec 32) (k1_hw246 : k1_chk246 v3556), ∀ a, (k1_off492 v3556) a + S1x128.size a ≤ S16384x128.size a := fun v3556 k1_hw246 => k1_hw246

def k1_off493 (i : grid1.Coords) : Fin 3 → Nat :=
  let arg0 : BitVec 32 := BitVec.ofNat 32 (i 0).val
  let c0_i32_4229 : BitVec 32 := 0#32
  let c0_i32_4230 : BitVec 32 := 0#32
  ![arg0.toNat, 0, 0]
def k1_off494 (v3564 : BitVec 32) : Fin 2 → Nat :=
  let c0_i32_4231 : BitVec 32 := 0#32
  ![v3564.toNat, 0]

def k1_chk247 (v3564 : BitVec 32) : Prop :=
  (∀ a, (k1_off494 v3564) a + S1x128.size a ≤ S16384x128.size a)
instance k1_chk247.dec : ∀ (v3564 : BitVec 32), Decidable (k1_chk247 v3564) := fun v3564 => decidable_of_iff' _ (Iff.of_eq (k1_chk247.eq_1 v3564))
theorem k1_off494_inb : ∀ (v3564 : BitVec 32) (k1_hw247 : k1_chk247 v3564), ∀ a, (k1_off494 v3564) a + S1x128.size a ≤ S16384x128.size a := fun v3564 k1_hw247 => k1_hw247

def k1_off495 (i : grid1.Coords) : Fin 3 → Nat :=
  let arg0 : BitVec 32 := BitVec.ofNat 32 (i 0).val
  let c0_i32_4239 : BitVec 32 := 0#32
  let c0_i32_4240 : BitVec 32 := 0#32
  ![arg0.toNat, 0, 0]
def k1_off496 (v3572 : BitVec 32) : Fin 2 → Nat :=
  let c0_i32_4241 : BitVec 32 := 0#32
  ![v3572.toNat, 0]

def k1_chk248 (v3572 : BitVec 32) : Prop :=
  (∀ a, (k1_off496 v3572) a + S1x128.size a ≤ S16384x128.size a)
instance k1_chk248.dec : ∀ (v3572 : BitVec 32), Decidable (k1_chk248 v3572) := fun v3572 => decidable_of_iff' _ (Iff.of_eq (k1_chk248.eq_1 v3572))
theorem k1_off496_inb : ∀ (v3572 : BitVec 32) (k1_hw248 : k1_chk248 v3572), ∀ a, (k1_off496 v3572) a + S1x128.size a ≤ S16384x128.size a := fun v3572 k1_hw248 => k1_hw248

def k1_off497 (i : grid1.Coords) : Fin 3 → Nat :=
  let arg0 : BitVec 32 := BitVec.ofNat 32 (i 0).val
  let c0_i32_4249 : BitVec 32 := 0#32
  let c0_i32_4250 : BitVec 32 := 0#32
  ![arg0.toNat, 0, 0]
def k1_off498 (v3580 : BitVec 32) : Fin 2 → Nat :=
  let c0_i32_4251 : BitVec 32 := 0#32
  ![v3580.toNat, 0]

def k1_chk249 (v3580 : BitVec 32) : Prop :=
  (∀ a, (k1_off498 v3580) a + S1x128.size a ≤ S16384x128.size a)
instance k1_chk249.dec : ∀ (v3580 : BitVec 32), Decidable (k1_chk249 v3580) := fun v3580 => decidable_of_iff' _ (Iff.of_eq (k1_chk249.eq_1 v3580))
theorem k1_off498_inb : ∀ (v3580 : BitVec 32) (k1_hw249 : k1_chk249 v3580), ∀ a, (k1_off498 v3580) a + S1x128.size a ≤ S16384x128.size a := fun v3580 k1_hw249 => k1_hw249

def k1_off499 (i : grid1.Coords) : Fin 3 → Nat :=
  let arg0 : BitVec 32 := BitVec.ofNat 32 (i 0).val
  let c0_i32_4259 : BitVec 32 := 0#32
  let c0_i32_4260 : BitVec 32 := 0#32
  ![arg0.toNat, 0, 0]
def k1_off500 (v3588 : BitVec 32) : Fin 2 → Nat :=
  let c0_i32_4261 : BitVec 32 := 0#32
  ![v3588.toNat, 0]

def k1_chk250 (v3588 : BitVec 32) : Prop :=
  (∀ a, (k1_off500 v3588) a + S1x128.size a ≤ S16384x128.size a)
instance k1_chk250.dec : ∀ (v3588 : BitVec 32), Decidable (k1_chk250 v3588) := fun v3588 => decidable_of_iff' _ (Iff.of_eq (k1_chk250.eq_1 v3588))
theorem k1_off500_inb : ∀ (v3588 : BitVec 32) (k1_hw250 : k1_chk250 v3588), ∀ a, (k1_off500 v3588) a + S1x128.size a ≤ S16384x128.size a := fun v3588 k1_hw250 => k1_hw250

def k1_off501 (i : grid1.Coords) : Fin 3 → Nat :=
  let arg0 : BitVec 32 := BitVec.ofNat 32 (i 0).val
  let c0_i32_4269 : BitVec 32 := 0#32
  let c0_i32_4270 : BitVec 32 := 0#32
  ![arg0.toNat, 0, 0]
def k1_off502 (v3596 : BitVec 32) : Fin 2 → Nat :=
  let c0_i32_4271 : BitVec 32 := 0#32
  ![v3596.toNat, 0]

def k1_chk251 (v3596 : BitVec 32) : Prop :=
  (∀ a, (k1_off502 v3596) a + S1x128.size a ≤ S16384x128.size a)
instance k1_chk251.dec : ∀ (v3596 : BitVec 32), Decidable (k1_chk251 v3596) := fun v3596 => decidable_of_iff' _ (Iff.of_eq (k1_chk251.eq_1 v3596))
theorem k1_off502_inb : ∀ (v3596 : BitVec 32) (k1_hw251 : k1_chk251 v3596), ∀ a, (k1_off502 v3596) a + S1x128.size a ≤ S16384x128.size a := fun v3596 k1_hw251 => k1_hw251

def k1_off503 (i : grid1.Coords) : Fin 3 → Nat :=
  let arg0 : BitVec 32 := BitVec.ofNat 32 (i 0).val
  let c0_i32_4279 : BitVec 32 := 0#32
  let c0_i32_4280 : BitVec 32 := 0#32
  ![arg0.toNat, 0, 0]
def k1_off504 (v3604 : BitVec 32) : Fin 2 → Nat :=
  let c0_i32_4281 : BitVec 32 := 0#32
  ![v3604.toNat, 0]

def k1_chk252 (v3604 : BitVec 32) : Prop :=
  (∀ a, (k1_off504 v3604) a + S1x128.size a ≤ S16384x128.size a)
instance k1_chk252.dec : ∀ (v3604 : BitVec 32), Decidable (k1_chk252 v3604) := fun v3604 => decidable_of_iff' _ (Iff.of_eq (k1_chk252.eq_1 v3604))
theorem k1_off504_inb : ∀ (v3604 : BitVec 32) (k1_hw252 : k1_chk252 v3604), ∀ a, (k1_off504 v3604) a + S1x128.size a ≤ S16384x128.size a := fun v3604 k1_hw252 => k1_hw252

def k1_off505 (i : grid1.Coords) : Fin 3 → Nat :=
  let arg0 : BitVec 32 := BitVec.ofNat 32 (i 0).val
  let c0_i32_4289 : BitVec 32 := 0#32
  let c0_i32_4290 : BitVec 32 := 0#32
  ![arg0.toNat, 0, 0]
def k1_off506 (v3612 : BitVec 32) : Fin 2 → Nat :=
  let c0_i32_4291 : BitVec 32 := 0#32
  ![v3612.toNat, 0]

def k1_chk253 (v3612 : BitVec 32) : Prop :=
  (∀ a, (k1_off506 v3612) a + S1x128.size a ≤ S16384x128.size a)
instance k1_chk253.dec : ∀ (v3612 : BitVec 32), Decidable (k1_chk253 v3612) := fun v3612 => decidable_of_iff' _ (Iff.of_eq (k1_chk253.eq_1 v3612))
theorem k1_off506_inb : ∀ (v3612 : BitVec 32) (k1_hw253 : k1_chk253 v3612), ∀ a, (k1_off506 v3612) a + S1x128.size a ≤ S16384x128.size a := fun v3612 k1_hw253 => k1_hw253

def k1_off507 (i : grid1.Coords) : Fin 3 → Nat :=
  let arg0 : BitVec 32 := BitVec.ofNat 32 (i 0).val
  let c0_i32_4299 : BitVec 32 := 0#32
  let c0_i32_4300 : BitVec 32 := 0#32
  ![arg0.toNat, 0, 0]
def k1_off508 (v3620 : BitVec 32) : Fin 2 → Nat :=
  let c0_i32_4301 : BitVec 32 := 0#32
  ![v3620.toNat, 0]

def k1_chk254 (v3620 : BitVec 32) : Prop :=
  (∀ a, (k1_off508 v3620) a + S1x128.size a ≤ S16384x128.size a)
instance k1_chk254.dec : ∀ (v3620 : BitVec 32), Decidable (k1_chk254 v3620) := fun v3620 => decidable_of_iff' _ (Iff.of_eq (k1_chk254.eq_1 v3620))
theorem k1_off508_inb : ∀ (v3620 : BitVec 32) (k1_hw254 : k1_chk254 v3620), ∀ a, (k1_off508 v3620) a + S1x128.size a ≤ S16384x128.size a := fun v3620 k1_hw254 => k1_hw254

def k1_off509 (i : grid1.Coords) : Fin 3 → Nat :=
  let arg0 : BitVec 32 := BitVec.ofNat 32 (i 0).val
  let c0_i32_4309 : BitVec 32 := 0#32
  let c0_i32_4310 : BitVec 32 := 0#32
  ![arg0.toNat, 0, 0]
def k1_off510 (v3628 : BitVec 32) : Fin 2 → Nat :=
  let c0_i32_4311 : BitVec 32 := 0#32
  ![v3628.toNat, 0]

def k1_chk255 (v3628 : BitVec 32) : Prop :=
  (∀ a, (k1_off510 v3628) a + S1x128.size a ≤ S16384x128.size a)
instance k1_chk255.dec : ∀ (v3628 : BitVec 32), Decidable (k1_chk255 v3628) := fun v3628 => decidable_of_iff' _ (Iff.of_eq (k1_chk255.eq_1 v3628))
theorem k1_off510_inb : ∀ (v3628 : BitVec 32) (k1_hw255 : k1_chk255 v3628), ∀ a, (k1_off510 v3628) a + S1x128.size a ≤ S16384x128.size a := fun v3628 k1_hw255 => k1_hw255

def k1_off511 (i : grid1.Coords) : Fin 3 → Nat :=
  let arg0 : BitVec 32 := BitVec.ofNat 32 (i 0).val
  let c0_i32_4319 : BitVec 32 := 0#32
  let c0_i32_4320 : BitVec 32 := 0#32
  ![arg0.toNat, 0, 0]
def k1_off512 (v3636 : BitVec 32) : Fin 2 → Nat :=
  let c0_i32_4321 : BitVec 32 := 0#32
  ![v3636.toNat, 0]

def k1_chk256 (v3636 : BitVec 32) : Prop :=
  (∀ a, (k1_off512 v3636) a + S1x128.size a ≤ S16384x128.size a)
instance k1_chk256.dec : ∀ (v3636 : BitVec 32), Decidable (k1_chk256 v3636) := fun v3636 => decidable_of_iff' _ (Iff.of_eq (k1_chk256.eq_1 v3636))
theorem k1_off512_inb : ∀ (v3636 : BitVec 32) (k1_hw256 : k1_chk256 v3636), ∀ a, (k1_off512 v3636) a + S1x128.size a ≤ S16384x128.size a := fun v3636 k1_hw256 => k1_hw256

def k1_off513 (i : grid1.Coords) : Fin 3 → Nat :=
  let arg0 : BitVec 32 := BitVec.ofNat 32 (i 0).val
  let c0_i32_4326 : BitVec 32 := 0#32
  let c0_i32_4327 : BitVec 32 := 0#32
  ![arg0.toNat, 0, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .smem S1x8x32 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev grid2 : Pipeline.Grid := ⟨2, ![4, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x2048x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x64x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

class Facts₀ : Prop where
  pads_S64x64_S128x64_0640_000 : S64x64.Pads (![0, 0] : Fin 2 → Nat) ![64, 0] ![0, 0] S128x64
  h_S_ : 0 < S_.numel
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  shapeCasts_S2048x128_S1x2048x128 : S2048x128.ShapeCasts S1x2048x128
  inb_S1x8x32_S1x1x1_0_0_0 : ∀ a, (![0, 0, 0] : Fin 3 → Nat) a + S1x1x1.size a ≤ S1x8x32.size a
  numel1_S1x1x1 : S1x1x1.numel = 1
  inb_S32_S1_0 : ∀ a, (![0] : Fin 1 → Nat) a + S1.size a ≤ S32.size a
  squeezes_S1_S_ : S1.Squeezes S_
  inb_S32x1x128_S1x1x128_0_0_0 : ∀ a, (![0, 0, 0] : Fin 3 → Nat) a + S1x1x128.size a ≤ S32x1x128.size a
  squeezes_S1x1x128_S1x128 : S1x1x128.Squeezes S1x128
  squeezes_S1x16384x128_S16384x128 : S1x16384x128.Squeezes S16384x128
  inb_S1x8x32_S1x1x1_0_0_1 : ∀ a, (![0, 0, 1] : Fin 3 → Nat) a + S1x1x1.size a ≤ S1x8x32.size a
  inb_S32_S1_1 : ∀ a, (![1] : Fin 1 → Nat) a + S1.size a ≤ S32.size a
  inb_S32x1x128_S1x1x128_1_0_0 : ∀ a, (![1, 0, 0] : Fin 3 → Nat) a + S1x1x128.size a ≤ S32x1x128.size a
  inb_S1x8x32_S1x1x1_0_0_2 : ∀ a, (![0, 0, 2] : Fin 3 → Nat) a + S1x1x1.size a ≤ S1x8x32.size a
  inb_S32_S1_2 : ∀ a, (![2] : Fin 1 → Nat) a + S1.size a ≤ S32.size a
  inb_S32x1x128_S1x1x128_2_0_0 : ∀ a, (![2, 0, 0] : Fin 3 → Nat) a + S1x1x128.size a ≤ S32x1x128.size a
  inb_S1x8x32_S1x1x1_0_0_3 : ∀ a, (![0, 0, 3] : Fin 3 → Nat) a + S1x1x1.size a ≤ S1x8x32.size a
  inb_S32_S1_3 : ∀ a, (![3] : Fin 1 → Nat) a + S1.size a ≤ S32.size a
  inb_S32x1x128_S1x1x128_3_0_0 : ∀ a, (![3, 0, 0] : Fin 3 → Nat) a + S1x1x128.size a ≤ S32x1x128.size a
  inb_S1x8x32_S1x1x1_0_0_4 : ∀ a, (![0, 0, 4] : Fin 3 → Nat) a + S1x1x1.size a ≤ S1x8x32.size a
  inb_S32_S1_4 : ∀ a, (![4] : Fin 1 → Nat) a + S1.size a ≤ S32.size a
  inb_S32x1x128_S1x1x128_4_0_0 : ∀ a, (![4, 0, 0] : Fin 3 → Nat) a + S1x1x128.size a ≤ S32x1x128.size a
  inb_S1x8x32_S1x1x1_0_0_5 : ∀ a, (![0, 0, 5] : Fin 3 → Nat) a + S1x1x1.size a ≤ S1x8x32.size a
  inb_S32_S1_5 : ∀ a, (![5] : Fin 1 → Nat) a + S1.size a ≤ S32.size a
  inb_S32x1x128_S1x1x128_5_0_0 : ∀ a, (![5, 0, 0] : Fin 3 → Nat) a + S1x1x128.size a ≤ S32x1x128.size a
  inb_S1x8x32_S1x1x1_0_0_6 : ∀ a, (![0, 0, 6] : Fin 3 → Nat) a + S1x1x1.size a ≤ S1x8x32.size a
  inb_S32_S1_6 : ∀ a, (![6] : Fin 1 → Nat) a + S1.size a ≤ S32.size a
  inb_S32x1x128_S1x1x128_6_0_0 : ∀ a, (![6, 0, 0] : Fin 3 → Nat) a + S1x1x128.size a ≤ S32x1x128.size a
  inb_S1x8x32_S1x1x1_0_0_7 : ∀ a, (![0, 0, 7] : Fin 3 → Nat) a + S1x1x1.size a ≤ S1x8x32.size a
  inb_S32_S1_7 : ∀ a, (![7] : Fin 1 → Nat) a + S1.size a ≤ S32.size a
  inb_S32x1x128_S1x1x128_7_0_0 : ∀ a, (![7, 0, 0] : Fin 3 → Nat) a + S1x1x128.size a ≤ S32x1x128.size a
  inb_S1x8x32_S1x1x1_0_0_8 : ∀ a, (![0, 0, 8] : Fin 3 → Nat) a + S1x1x1.size a ≤ S1x8x32.size a
  inb_S32_S1_8 : ∀ a, (![8] : Fin 1 → Nat) a + S1.size a ≤ S32.size a
  inb_S32x1x128_S1x1x128_8_0_0 : ∀ a, (![8, 0, 0] : Fin 3 → Nat) a + S1x1x128.size a ≤ S32x1x128.size a
  inb_S1x8x32_S1x1x1_0_0_9 : ∀ a, (![0, 0, 9] : Fin 3 → Nat) a + S1x1x1.size a ≤ S1x8x32.size a
  inb_S32_S1_9 : ∀ a, (![9] : Fin 1 → Nat) a + S1.size a ≤ S32.size a
  inb_S32x1x128_S1x1x128_9_0_0 : ∀ a, (![9, 0, 0] : Fin 3 → Nat) a + S1x1x128.size a ≤ S32x1x128.size a
  inb_S1x8x32_S1x1x1_0_0_10 : ∀ a, (![0, 0, 10] : Fin 3 → Nat) a + S1x1x1.size a ≤ S1x8x32.size a
  inb_S32_S1_10 : ∀ a, (![10] : Fin 1 → Nat) a + S1.size a ≤ S32.size a
  inb_S32x1x128_S1x1x128_10_0_0 : ∀ a, (![10, 0, 0] : Fin 3 → Nat) a + S1x1x128.size a ≤ S32x1x128.size a
  inb_S1x8x32_S1x1x1_0_0_11 : ∀ a, (![0, 0, 11] : Fin 3 → Nat) a + S1x1x1.size a ≤ S1x8x32.size a
  inb_S32_S1_11 : ∀ a, (![11] : Fin 1 → Nat) a + S1.size a ≤ S32.size a
  inb_S32x1x128_S1x1x128_11_0_0 : ∀ a, (![11, 0, 0] : Fin 3 → Nat) a + S1x1x128.size a ≤ S32x1x128.size a
  inb_S1x8x32_S1x1x1_0_0_12 : ∀ a, (![0, 0, 12] : Fin 3 → Nat) a + S1x1x1.size a ≤ S1x8x32.size a
  inb_S32_S1_12 : ∀ a, (![12] : Fin 1 → Nat) a + S1.size a ≤ S32.size a
  inb_S32x1x128_S1x1x128_12_0_0 : ∀ a, (![12, 0, 0] : Fin 3 → Nat) a + S1x1x128.size a ≤ S32x1x128.size a
  inb_S1x8x32_S1x1x1_0_0_13 : ∀ a, (![0, 0, 13] : Fin 3 → Nat) a + S1x1x1.size a ≤ S1x8x32.size a
  inb_S32_S1_13 : ∀ a, (![13] : Fin 1 → Nat) a + S1.size a ≤ S32.size a
  inb_S32x1x128_S1x1x128_13_0_0 : ∀ a, (![13, 0, 0] : Fin 3 → Nat) a + S1x1x128.size a ≤ S32x1x128.size a
  inb_S1x8x32_S1x1x1_0_0_14 : ∀ a, (![0, 0, 14] : Fin 3 → Nat) a + S1x1x1.size a ≤ S1x8x32.size a
  inb_S32_S1_14 : ∀ a, (![14] : Fin 1 → Nat) a + S1.size a ≤ S32.size a
  inb_S32x1x128_S1x1x128_14_0_0 : ∀ a, (![14, 0, 0] : Fin 3 → Nat) a + S1x1x128.size a ≤ S32x1x128.size a
  inb_S1x8x32_S1x1x1_0_0_15 : ∀ a, (![0, 0, 15] : Fin 3 → Nat) a + S1x1x1.size a ≤ S1x8x32.size a
  inb_S32_S1_15 : ∀ a, (![15] : Fin 1 → Nat) a + S1.size a ≤ S32.size a
  inb_S32x1x128_S1x1x128_15_0_0 : ∀ a, (![15, 0, 0] : Fin 3 → Nat) a + S1x1x128.size a ≤ S32x1x128.size a
  inb_S1x8x32_S1x1x1_0_0_16 : ∀ a, (![0, 0, 16] : Fin 3 → Nat) a + S1x1x1.size a ≤ S1x8x32.size a
  inb_S32_S1_16 : ∀ a, (![16] : Fin 1 → Nat) a + S1.size a ≤ S32.size a
  inb_S32x1x128_S1x1x128_16_0_0 : ∀ a, (![16, 0, 0] : Fin 3 → Nat) a + S1x1x128.size a ≤ S32x1x128.size a
  inb_S1x8x32_S1x1x1_0_0_17 : ∀ a, (![0, 0, 17] : Fin 3 → Nat) a + S1x1x1.size a ≤ S1x8x32.size a
  inb_S32_S1_17 : ∀ a, (![17] : Fin 1 → Nat) a + S1.size a ≤ S32.size a
  inb_S32x1x128_S1x1x128_17_0_0 : ∀ a, (![17, 0, 0] : Fin 3 → Nat) a + S1x1x128.size a ≤ S32x1x128.size a
  inb_S1x8x32_S1x1x1_0_0_18 : ∀ a, (![0, 0, 18] : Fin 3 → Nat) a + S1x1x1.size a ≤ S1x8x32.size a
  inb_S32_S1_18 : ∀ a, (![18] : Fin 1 → Nat) a + S1.size a ≤ S32.size a
  inb_S32x1x128_S1x1x128_18_0_0 : ∀ a, (![18, 0, 0] : Fin 3 → Nat) a + S1x1x128.size a ≤ S32x1x128.size a
  inb_S1x8x32_S1x1x1_0_0_19 : ∀ a, (![0, 0, 19] : Fin 3 → Nat) a + S1x1x1.size a ≤ S1x8x32.size a
  inb_S32_S1_19 : ∀ a, (![19] : Fin 1 → Nat) a + S1.size a ≤ S32.size a
  inb_S32x1x128_S1x1x128_19_0_0 : ∀ a, (![19, 0, 0] : Fin 3 → Nat) a + S1x1x128.size a ≤ S32x1x128.size a
  inb_S1x8x32_S1x1x1_0_0_20 : ∀ a, (![0, 0, 20] : Fin 3 → Nat) a + S1x1x1.size a ≤ S1x8x32.size a
  inb_S32_S1_20 : ∀ a, (![20] : Fin 1 → Nat) a + S1.size a ≤ S32.size a
  inb_S32x1x128_S1x1x128_20_0_0 : ∀ a, (![20, 0, 0] : Fin 3 → Nat) a + S1x1x128.size a ≤ S32x1x128.size a
  inb_S1x8x32_S1x1x1_0_0_21 : ∀ a, (![0, 0, 21] : Fin 3 → Nat) a + S1x1x1.size a ≤ S1x8x32.size a
  inb_S32_S1_21 : ∀ a, (![21] : Fin 1 → Nat) a + S1.size a ≤ S32.size a
  inb_S32x1x128_S1x1x128_21_0_0 : ∀ a, (![21, 0, 0] : Fin 3 → Nat) a + S1x1x128.size a ≤ S32x1x128.size a
  inb_S1x8x32_S1x1x1_0_0_22 : ∀ a, (![0, 0, 22] : Fin 3 → Nat) a + S1x1x1.size a ≤ S1x8x32.size a
  inb_S32_S1_22 : ∀ a, (![22] : Fin 1 → Nat) a + S1.size a ≤ S32.size a
  inb_S32x1x128_S1x1x128_22_0_0 : ∀ a, (![22, 0, 0] : Fin 3 → Nat) a + S1x1x128.size a ≤ S32x1x128.size a
  inb_S1x8x32_S1x1x1_0_0_23 : ∀ a, (![0, 0, 23] : Fin 3 → Nat) a + S1x1x1.size a ≤ S1x8x32.size a
  inb_S32_S1_23 : ∀ a, (![23] : Fin 1 → Nat) a + S1.size a ≤ S32.size a
  inb_S32x1x128_S1x1x128_23_0_0 : ∀ a, (![23, 0, 0] : Fin 3 → Nat) a + S1x1x128.size a ≤ S32x1x128.size a
  inb_S1x8x32_S1x1x1_0_0_24 : ∀ a, (![0, 0, 24] : Fin 3 → Nat) a + S1x1x1.size a ≤ S1x8x32.size a
  inb_S32_S1_24 : ∀ a, (![24] : Fin 1 → Nat) a + S1.size a ≤ S32.size a
  inb_S32x1x128_S1x1x128_24_0_0 : ∀ a, (![24, 0, 0] : Fin 3 → Nat) a + S1x1x128.size a ≤ S32x1x128.size a
  inb_S1x8x32_S1x1x1_0_0_25 : ∀ a, (![0, 0, 25] : Fin 3 → Nat) a + S1x1x1.size a ≤ S1x8x32.size a
  inb_S32_S1_25 : ∀ a, (![25] : Fin 1 → Nat) a + S1.size a ≤ S32.size a
  inb_S32x1x128_S1x1x128_25_0_0 : ∀ a, (![25, 0, 0] : Fin 3 → Nat) a + S1x1x128.size a ≤ S32x1x128.size a
  inb_S1x8x32_S1x1x1_0_0_26 : ∀ a, (![0, 0, 26] : Fin 3 → Nat) a + S1x1x1.size a ≤ S1x8x32.size a
  inb_S32_S1_26 : ∀ a, (![26] : Fin 1 → Nat) a + S1.size a ≤ S32.size a
  inb_S32x1x128_S1x1x128_26_0_0 : ∀ a, (![26, 0, 0] : Fin 3 → Nat) a + S1x1x128.size a ≤ S32x1x128.size a
  inb_S1x8x32_S1x1x1_0_0_27 : ∀ a, (![0, 0, 27] : Fin 3 → Nat) a + S1x1x1.size a ≤ S1x8x32.size a
  inb_S32_S1_27 : ∀ a, (![27] : Fin 1 → Nat) a + S1.size a ≤ S32.size a
  inb_S32x1x128_S1x1x128_27_0_0 : ∀ a, (![27, 0, 0] : Fin 3 → Nat) a + S1x1x128.size a ≤ S32x1x128.size a
  inb_S1x8x32_S1x1x1_0_0_28 : ∀ a, (![0, 0, 28] : Fin 3 → Nat) a + S1x1x1.size a ≤ S1x8x32.size a
  inb_S32_S1_28 : ∀ a, (![28] : Fin 1 → Nat) a + S1.size a ≤ S32.size a
  inb_S32x1x128_S1x1x128_28_0_0 : ∀ a, (![28, 0, 0] : Fin 3 → Nat) a + S1x1x128.size a ≤ S32x1x128.size a
  inb_S1x8x32_S1x1x1_0_0_29 : ∀ a, (![0, 0, 29] : Fin 3 → Nat) a + S1x1x1.size a ≤ S1x8x32.size a
  inb_S32_S1_29 : ∀ a, (![29] : Fin 1 → Nat) a + S1.size a ≤ S32.size a
  inb_S32x1x128_S1x1x128_29_0_0 : ∀ a, (![29, 0, 0] : Fin 3 → Nat) a + S1x1x128.size a ≤ S32x1x128.size a
  inb_S1x8x32_S1x1x1_0_0_30 : ∀ a, (![0, 0, 30] : Fin 3 → Nat) a + S1x1x1.size a ≤ S1x8x32.size a
  inb_S32_S1_30 : ∀ a, (![30] : Fin 1 → Nat) a + S1.size a ≤ S32.size a
  inb_S32x1x128_S1x1x128_30_0_0 : ∀ a, (![30, 0, 0] : Fin 3 → Nat) a + S1x1x128.size a ≤ S32x1x128.size a
  inb_S1x8x32_S1x1x1_0_0_31 : ∀ a, (![0, 0, 31] : Fin 3 → Nat) a + S1x1x1.size a ≤ S1x8x32.size a
  inb_S32_S1_31 : ∀ a, (![31] : Fin 1 → Nat) a + S1.size a ≤ S32.size a
  inb_S32x1x128_S1x1x128_31_0_0 : ∀ a, (![31, 0, 0] : Fin 3 → Nat) a + S1x1x128.size a ≤ S32x1x128.size a
  inb_S16384x128_S1x128_0_0 : ∀ a, (![0, 0] : Fin 2 → Nat) a + S1x128.size a ≤ S16384x128.size a
  inb_S32x1x128_S32x1x128_0_0_0 : ∀ a, (![0, 0, 0] : Fin 3 → Nat) a + S32x1x128.size a ≤ S32x1x128.size a
  h_S32x1x128 : 0 < S32x1x128.numel
  reduces_S32x1x128_S1x128 : S32x1x128.Reduces [0] S1x128
  inb_S1x8x32_S1x1x1_0_1_0 : ∀ a, (![0, 1, 0] : Fin 3 → Nat) a + S1x1x1.size a ≤ S1x8x32.size a
  inb_S1x8x32_S1x1x1_0_1_1 : ∀ a, (![0, 1, 1] : Fin 3 → Nat) a + S1x1x1.size a ≤ S1x8x32.size a
  inb_S1x8x32_S1x1x1_0_1_2 : ∀ a, (![0, 1, 2] : Fin 3 → Nat) a + S1x1x1.size a ≤ S1x8x32.size a
  inb_S1x8x32_S1x1x1_0_1_3 : ∀ a, (![0, 1, 3] : Fin 3 → Nat) a + S1x1x1.size a ≤ S1x8x32.size a
  inb_S1x8x32_S1x1x1_0_1_4 : ∀ a, (![0, 1, 4] : Fin 3 → Nat) a + S1x1x1.size a ≤ S1x8x32.size a
  inb_S1x8x32_S1x1x1_0_1_5 : ∀ a, (![0, 1, 5] : Fin 3 → Nat) a + S1x1x1.size a ≤ S1x8x32.size a
  inb_S1x8x32_S1x1x1_0_1_6 : ∀ a, (![0, 1, 6] : Fin 3 → Nat) a + S1x1x1.size a ≤ S1x8x32.size a
  inb_S1x8x32_S1x1x1_0_1_7 : ∀ a, (![0, 1, 7] : Fin 3 → Nat) a + S1x1x1.size a ≤ S1x8x32.size a
  inb_S1x8x32_S1x1x1_0_1_8 : ∀ a, (![0, 1, 8] : Fin 3 → Nat) a + S1x1x1.size a ≤ S1x8x32.size a
  inb_S1x8x32_S1x1x1_0_1_9 : ∀ a, (![0, 1, 9] : Fin 3 → Nat) a + S1x1x1.size a ≤ S1x8x32.size a
  inb_S1x8x32_S1x1x1_0_1_10 : ∀ a, (![0, 1, 10] : Fin 3 → Nat) a + S1x1x1.size a ≤ S1x8x32.size a
  inb_S1x8x32_S1x1x1_0_1_11 : ∀ a, (![0, 1, 11] : Fin 3 → Nat) a + S1x1x1.size a ≤ S1x8x32.size a
  inb_S1x8x32_S1x1x1_0_1_12 : ∀ a, (![0, 1, 12] : Fin 3 → Nat) a + S1x1x1.size a ≤ S1x8x32.size a
  inb_S1x8x32_S1x1x1_0_1_13 : ∀ a, (![0, 1, 13] : Fin 3 → Nat) a + S1x1x1.size a ≤ S1x8x32.size a
  inb_S1x8x32_S1x1x1_0_1_14 : ∀ a, (![0, 1, 14] : Fin 3 → Nat) a + S1x1x1.size a ≤ S1x8x32.size a
  inb_S1x8x32_S1x1x1_0_1_15 : ∀ a, (![0, 1, 15] : Fin 3 → Nat) a + S1x1x1.size a ≤ S1x8x32.size a
  inb_S1x8x32_S1x1x1_0_1_16 : ∀ a, (![0, 1, 16] : Fin 3 → Nat) a + S1x1x1.size a ≤ S1x8x32.size a
  inb_S1x8x32_S1x1x1_0_1_17 : ∀ a, (![0, 1, 17] : Fin 3 → Nat) a + S1x1x1.size a ≤ S1x8x32.size a
  inb_S1x8x32_S1x1x1_0_1_18 : ∀ a, (![0, 1, 18] : Fin 3 → Nat) a + S1x1x1.size a ≤ S1x8x32.size a
  inb_S1x8x32_S1x1x1_0_1_19 : ∀ a, (![0, 1, 19] : Fin 3 → Nat) a + S1x1x1.size a ≤ S1x8x32.size a
  inb_S1x8x32_S1x1x1_0_1_20 : ∀ a, (![0, 1, 20] : Fin 3 → Nat) a + S1x1x1.size a ≤ S1x8x32.size a
  inb_S1x8x32_S1x1x1_0_1_21 : ∀ a, (![0, 1, 21] : Fin 3 → Nat) a + S1x1x1.size a ≤ S1x8x32.size a
  inb_S1x8x32_S1x1x1_0_1_22 : ∀ a, (![0, 1, 22] : Fin 3 → Nat) a + S1x1x1.size a ≤ S1x8x32.size a
  inb_S1x8x32_S1x1x1_0_1_23 : ∀ a, (![0, 1, 23] : Fin 3 → Nat) a + S1x1x1.size a ≤ S1x8x32.size a
  inb_S1x8x32_S1x1x1_0_1_24 : ∀ a, (![0, 1, 24] : Fin 3 → Nat) a + S1x1x1.size a ≤ S1x8x32.size a
  inb_S1x8x32_S1x1x1_0_1_25 : ∀ a, (![0, 1, 25] : Fin 3 → Nat) a + S1x1x1.size a ≤ S1x8x32.size a
  inb_S1x8x32_S1x1x1_0_1_26 : ∀ a, (![0, 1, 26] : Fin 3 → Nat) a + S1x1x1.size a ≤ S1x8x32.size a
  inb_S1x8x32_S1x1x1_0_1_27 : ∀ a, (![0, 1, 27] : Fin 3 → Nat) a + S1x1x1.size a ≤ S1x8x32.size a
  inb_S1x8x32_S1x1x1_0_1_28 : ∀ a, (![0, 1, 28] : Fin 3 → Nat) a + S1x1x1.size a ≤ S1x8x32.size a
  inb_S1x8x32_S1x1x1_0_1_29 : ∀ a, (![0, 1, 29] : Fin 3 → Nat) a + S1x1x1.size a ≤ S1x8x32.size a
  inb_S1x8x32_S1x1x1_0_1_30 : ∀ a, (![0, 1, 30] : Fin 3 → Nat) a + S1x1x1.size a ≤ S1x8x32.size a
  inb_S1x8x32_S1x1x1_0_1_31 : ∀ a, (![0, 1, 31] : Fin 3 → Nat) a + S1x1x1.size a ≤ S1x8x32.size a
  inb_S1x8x32_S1x1x1_0_2_0 : ∀ a, (![0, 2, 0] : Fin 3 → Nat) a + S1x1x1.size a ≤ S1x8x32.size a
  inb_S1x8x32_S1x1x1_0_2_1 : ∀ a, (![0, 2, 1] : Fin 3 → Nat) a + S1x1x1.size a ≤ S1x8x32.size a
  inb_S1x8x32_S1x1x1_0_2_2 : ∀ a, (![0, 2, 2] : Fin 3 → Nat) a + S1x1x1.size a ≤ S1x8x32.size a
  inb_S1x8x32_S1x1x1_0_2_3 : ∀ a, (![0, 2, 3] : Fin 3 → Nat) a + S1x1x1.size a ≤ S1x8x32.size a
  inb_S1x8x32_S1x1x1_0_2_4 : ∀ a, (![0, 2, 4] : Fin 3 → Nat) a + S1x1x1.size a ≤ S1x8x32.size a
  inb_S1x8x32_S1x1x1_0_2_5 : ∀ a, (![0, 2, 5] : Fin 3 → Nat) a + S1x1x1.size a ≤ S1x8x32.size a
  inb_S1x8x32_S1x1x1_0_2_6 : ∀ a, (![0, 2, 6] : Fin 3 → Nat) a + S1x1x1.size a ≤ S1x8x32.size a
  inb_S1x8x32_S1x1x1_0_2_7 : ∀ a, (![0, 2, 7] : Fin 3 → Nat) a + S1x1x1.size a ≤ S1x8x32.size a
  inb_S1x8x32_S1x1x1_0_2_8 : ∀ a, (![0, 2, 8] : Fin 3 → Nat) a + S1x1x1.size a ≤ S1x8x32.size a
  inb_S1x8x32_S1x1x1_0_2_9 : ∀ a, (![0, 2, 9] : Fin 3 → Nat) a + S1x1x1.size a ≤ S1x8x32.size a
  inb_S1x8x32_S1x1x1_0_2_10 : ∀ a, (![0, 2, 10] : Fin 3 → Nat) a + S1x1x1.size a ≤ S1x8x32.size a
  inb_S1x8x32_S1x1x1_0_2_11 : ∀ a, (![0, 2, 11] : Fin 3 → Nat) a + S1x1x1.size a ≤ S1x8x32.size a
  inb_S1x8x32_S1x1x1_0_2_12 : ∀ a, (![0, 2, 12] : Fin 3 → Nat) a + S1x1x1.size a ≤ S1x8x32.size a
  inb_S1x8x32_S1x1x1_0_2_13 : ∀ a, (![0, 2, 13] : Fin 3 → Nat) a + S1x1x1.size a ≤ S1x8x32.size a
  inb_S1x8x32_S1x1x1_0_2_14 : ∀ a, (![0, 2, 14] : Fin 3 → Nat) a + S1x1x1.size a ≤ S1x8x32.size a
  inb_S1x8x32_S1x1x1_0_2_15 : ∀ a, (![0, 2, 15] : Fin 3 → Nat) a + S1x1x1.size a ≤ S1x8x32.size a
  inb_S1x8x32_S1x1x1_0_2_16 : ∀ a, (![0, 2, 16] : Fin 3 → Nat) a + S1x1x1.size a ≤ S1x8x32.size a
  inb_S1x8x32_S1x1x1_0_2_17 : ∀ a, (![0, 2, 17] : Fin 3 → Nat) a + S1x1x1.size a ≤ S1x8x32.size a
  inb_S1x8x32_S1x1x1_0_2_18 : ∀ a, (![0, 2, 18] : Fin 3 → Nat) a + S1x1x1.size a ≤ S1x8x32.size a
  inb_S1x8x32_S1x1x1_0_2_19 : ∀ a, (![0, 2, 19] : Fin 3 → Nat) a + S1x1x1.size a ≤ S1x8x32.size a
  inb_S1x8x32_S1x1x1_0_2_20 : ∀ a, (![0, 2, 20] : Fin 3 → Nat) a + S1x1x1.size a ≤ S1x8x32.size a
  inb_S1x8x32_S1x1x1_0_2_21 : ∀ a, (![0, 2, 21] : Fin 3 → Nat) a + S1x1x1.size a ≤ S1x8x32.size a
  inb_S1x8x32_S1x1x1_0_2_22 : ∀ a, (![0, 2, 22] : Fin 3 → Nat) a + S1x1x1.size a ≤ S1x8x32.size a
  inb_S1x8x32_S1x1x1_0_2_23 : ∀ a, (![0, 2, 23] : Fin 3 → Nat) a + S1x1x1.size a ≤ S1x8x32.size a
  inb_S1x8x32_S1x1x1_0_2_24 : ∀ a, (![0, 2, 24] : Fin 3 → Nat) a + S1x1x1.size a ≤ S1x8x32.size a
  inb_S1x8x32_S1x1x1_0_2_25 : ∀ a, (![0, 2, 25] : Fin 3 → Nat) a + S1x1x1.size a ≤ S1x8x32.size a
  inb_S1x8x32_S1x1x1_0_2_26 : ∀ a, (![0, 2, 26] : Fin 3 → Nat) a + S1x1x1.size a ≤ S1x8x32.size a
  inb_S1x8x32_S1x1x1_0_2_27 : ∀ a, (![0, 2, 27] : Fin 3 → Nat) a + S1x1x1.size a ≤ S1x8x32.size a
  inb_S1x8x32_S1x1x1_0_2_28 : ∀ a, (![0, 2, 28] : Fin 3 → Nat) a + S1x1x1.size a ≤ S1x8x32.size a
  inb_S1x8x32_S1x1x1_0_2_29 : ∀ a, (![0, 2, 29] : Fin 3 → Nat) a + S1x1x1.size a ≤ S1x8x32.size a
  inb_S1x8x32_S1x1x1_0_2_30 : ∀ a, (![0, 2, 30] : Fin 3 → Nat) a + S1x1x1.size a ≤ S1x8x32.size a
  inb_S1x8x32_S1x1x1_0_2_31 : ∀ a, (![0, 2, 31] : Fin 3 → Nat) a + S1x1x1.size a ≤ S1x8x32.size a
  inb_S1x8x32_S1x1x1_0_3_0 : ∀ a, (![0, 3, 0] : Fin 3 → Nat) a + S1x1x1.size a ≤ S1x8x32.size a
  inb_S1x8x32_S1x1x1_0_3_1 : ∀ a, (![0, 3, 1] : Fin 3 → Nat) a + S1x1x1.size a ≤ S1x8x32.size a
  inb_S1x8x32_S1x1x1_0_3_2 : ∀ a, (![0, 3, 2] : Fin 3 → Nat) a + S1x1x1.size a ≤ S1x8x32.size a
  inb_S1x8x32_S1x1x1_0_3_3 : ∀ a, (![0, 3, 3] : Fin 3 → Nat) a + S1x1x1.size a ≤ S1x8x32.size a
  inb_S1x8x32_S1x1x1_0_3_4 : ∀ a, (![0, 3, 4] : Fin 3 → Nat) a + S1x1x1.size a ≤ S1x8x32.size a
  inb_S1x8x32_S1x1x1_0_3_5 : ∀ a, (![0, 3, 5] : Fin 3 → Nat) a + S1x1x1.size a ≤ S1x8x32.size a
  inb_S1x8x32_S1x1x1_0_3_6 : ∀ a, (![0, 3, 6] : Fin 3 → Nat) a + S1x1x1.size a ≤ S1x8x32.size a
  inb_S1x8x32_S1x1x1_0_3_7 : ∀ a, (![0, 3, 7] : Fin 3 → Nat) a + S1x1x1.size a ≤ S1x8x32.size a
  inb_S1x8x32_S1x1x1_0_3_8 : ∀ a, (![0, 3, 8] : Fin 3 → Nat) a + S1x1x1.size a ≤ S1x8x32.size a
  inb_S1x8x32_S1x1x1_0_3_9 : ∀ a, (![0, 3, 9] : Fin 3 → Nat) a + S1x1x1.size a ≤ S1x8x32.size a
  inb_S1x8x32_S1x1x1_0_3_10 : ∀ a, (![0, 3, 10] : Fin 3 → Nat) a + S1x1x1.size a ≤ S1x8x32.size a
  inb_S1x8x32_S1x1x1_0_3_11 : ∀ a, (![0, 3, 11] : Fin 3 → Nat) a + S1x1x1.size a ≤ S1x8x32.size a
  inb_S1x8x32_S1x1x1_0_3_12 : ∀ a, (![0, 3, 12] : Fin 3 → Nat) a + S1x1x1.size a ≤ S1x8x32.size a
  inb_S1x8x32_S1x1x1_0_3_13 : ∀ a, (![0, 3, 13] : Fin 3 → Nat) a + S1x1x1.size a ≤ S1x8x32.size a
  inb_S1x8x32_S1x1x1_0_3_14 : ∀ a, (![0, 3, 14] : Fin 3 → Nat) a + S1x1x1.size a ≤ S1x8x32.size a
  inb_S1x8x32_S1x1x1_0_3_15 : ∀ a, (![0, 3, 15] : Fin 3 → Nat) a + S1x1x1.size a ≤ S1x8x32.size a
  inb_S1x8x32_S1x1x1_0_3_16 : ∀ a, (![0, 3, 16] : Fin 3 → Nat) a + S1x1x1.size a ≤ S1x8x32.size a
  inb_S1x8x32_S1x1x1_0_3_17 : ∀ a, (![0, 3, 17] : Fin 3 → Nat) a + S1x1x1.size a ≤ S1x8x32.size a
  inb_S1x8x32_S1x1x1_0_3_18 : ∀ a, (![0, 3, 18] : Fin 3 → Nat) a + S1x1x1.size a ≤ S1x8x32.size a
  inb_S1x8x32_S1x1x1_0_3_19 : ∀ a, (![0, 3, 19] : Fin 3 → Nat) a + S1x1x1.size a ≤ S1x8x32.size a
  inb_S1x8x32_S1x1x1_0_3_20 : ∀ a, (![0, 3, 20] : Fin 3 → Nat) a + S1x1x1.size a ≤ S1x8x32.size a
  inb_S1x8x32_S1x1x1_0_3_21 : ∀ a, (![0, 3, 21] : Fin 3 → Nat) a + S1x1x1.size a ≤ S1x8x32.size a
  inb_S1x8x32_S1x1x1_0_3_22 : ∀ a, (![0, 3, 22] : Fin 3 → Nat) a + S1x1x1.size a ≤ S1x8x32.size a
  inb_S1x8x32_S1x1x1_0_3_23 : ∀ a, (![0, 3, 23] : Fin 3 → Nat) a + S1x1x1.size a ≤ S1x8x32.size a
  inb_S1x8x32_S1x1x1_0_3_24 : ∀ a, (![0, 3, 24] : Fin 3 → Nat) a + S1x1x1.size a ≤ S1x8x32.size a
  inb_S1x8x32_S1x1x1_0_3_25 : ∀ a, (![0, 3, 25] : Fin 3 → Nat) a + S1x1x1.size a ≤ S1x8x32.size a
  inb_S1x8x32_S1x1x1_0_3_26 : ∀ a, (![0, 3, 26] : Fin 3 → Nat) a + S1x1x1.size a ≤ S1x8x32.size a
  inb_S1x8x32_S1x1x1_0_3_27 : ∀ a, (![0, 3, 27] : Fin 3 → Nat) a + S1x1x1.size a ≤ S1x8x32.size a
  inb_S1x8x32_S1x1x1_0_3_28 : ∀ a, (![0, 3, 28] : Fin 3 → Nat) a + S1x1x1.size a ≤ S1x8x32.size a
  inb_S1x8x32_S1x1x1_0_3_29 : ∀ a, (![0, 3, 29] : Fin 3 → Nat) a + S1x1x1.size a ≤ S1x8x32.size a
  inb_S1x8x32_S1x1x1_0_3_30 : ∀ a, (![0, 3, 30] : Fin 3 → Nat) a + S1x1x1.size a ≤ S1x8x32.size a
  inb_S1x8x32_S1x1x1_0_3_31 : ∀ a, (![0, 3, 31] : Fin 3 → Nat) a + S1x1x1.size a ≤ S1x8x32.size a
  inb_S1x8x32_S1x1x1_0_4_0 : ∀ a, (![0, 4, 0] : Fin 3 → Nat) a + S1x1x1.size a ≤ S1x8x32.size a
  inb_S1x8x32_S1x1x1_0_4_1 : ∀ a, (![0, 4, 1] : Fin 3 → Nat) a + S1x1x1.size a ≤ S1x8x32.size a
  inb_S1x8x32_S1x1x1_0_4_2 : ∀ a, (![0, 4, 2] : Fin 3 → Nat) a + S1x1x1.size a ≤ S1x8x32.size a
  inb_S1x8x32_S1x1x1_0_4_3 : ∀ a, (![0, 4, 3] : Fin 3 → Nat) a + S1x1x1.size a ≤ S1x8x32.size a
  inb_S1x8x32_S1x1x1_0_4_4 : ∀ a, (![0, 4, 4] : Fin 3 → Nat) a + S1x1x1.size a ≤ S1x8x32.size a
  inb_S1x8x32_S1x1x1_0_4_5 : ∀ a, (![0, 4, 5] : Fin 3 → Nat) a + S1x1x1.size a ≤ S1x8x32.size a
  inb_S1x8x32_S1x1x1_0_4_6 : ∀ a, (![0, 4, 6] : Fin 3 → Nat) a + S1x1x1.size a ≤ S1x8x32.size a
  inb_S1x8x32_S1x1x1_0_4_7 : ∀ a, (![0, 4, 7] : Fin 3 → Nat) a + S1x1x1.size a ≤ S1x8x32.size a
  inb_S1x8x32_S1x1x1_0_4_8 : ∀ a, (![0, 4, 8] : Fin 3 → Nat) a + S1x1x1.size a ≤ S1x8x32.size a
  inb_S1x8x32_S1x1x1_0_4_9 : ∀ a, (![0, 4, 9] : Fin 3 → Nat) a + S1x1x1.size a ≤ S1x8x32.size a
  inb_S1x8x32_S1x1x1_0_4_10 : ∀ a, (![0, 4, 10] : Fin 3 → Nat) a + S1x1x1.size a ≤ S1x8x32.size a
  inb_S1x8x32_S1x1x1_0_4_11 : ∀ a, (![0, 4, 11] : Fin 3 → Nat) a + S1x1x1.size a ≤ S1x8x32.size a
  inb_S1x8x32_S1x1x1_0_4_12 : ∀ a, (![0, 4, 12] : Fin 3 → Nat) a + S1x1x1.size a ≤ S1x8x32.size a
  inb_S1x8x32_S1x1x1_0_4_13 : ∀ a, (![0, 4, 13] : Fin 3 → Nat) a + S1x1x1.size a ≤ S1x8x32.size a
  inb_S1x8x32_S1x1x1_0_4_14 : ∀ a, (![0, 4, 14] : Fin 3 → Nat) a + S1x1x1.size a ≤ S1x8x32.size a
  inb_S1x8x32_S1x1x1_0_4_15 : ∀ a, (![0, 4, 15] : Fin 3 → Nat) a + S1x1x1.size a ≤ S1x8x32.size a
  inb_S1x8x32_S1x1x1_0_4_16 : ∀ a, (![0, 4, 16] : Fin 3 → Nat) a + S1x1x1.size a ≤ S1x8x32.size a
  inb_S1x8x32_S1x1x1_0_4_17 : ∀ a, (![0, 4, 17] : Fin 3 → Nat) a + S1x1x1.size a ≤ S1x8x32.size a
  inb_S1x8x32_S1x1x1_0_4_18 : ∀ a, (![0, 4, 18] : Fin 3 → Nat) a + S1x1x1.size a ≤ S1x8x32.size a
  inb_S1x8x32_S1x1x1_0_4_19 : ∀ a, (![0, 4, 19] : Fin 3 → Nat) a + S1x1x1.size a ≤ S1x8x32.size a
  inb_S1x8x32_S1x1x1_0_4_20 : ∀ a, (![0, 4, 20] : Fin 3 → Nat) a + S1x1x1.size a ≤ S1x8x32.size a
  inb_S1x8x32_S1x1x1_0_4_21 : ∀ a, (![0, 4, 21] : Fin 3 → Nat) a + S1x1x1.size a ≤ S1x8x32.size a
  inb_S1x8x32_S1x1x1_0_4_22 : ∀ a, (![0, 4, 22] : Fin 3 → Nat) a + S1x1x1.size a ≤ S1x8x32.size a
  inb_S1x8x32_S1x1x1_0_4_23 : ∀ a, (![0, 4, 23] : Fin 3 → Nat) a + S1x1x1.size a ≤ S1x8x32.size a
  inb_S1x8x32_S1x1x1_0_4_24 : ∀ a, (![0, 4, 24] : Fin 3 → Nat) a + S1x1x1.size a ≤ S1x8x32.size a
  inb_S1x8x32_S1x1x1_0_4_25 : ∀ a, (![0, 4, 25] : Fin 3 → Nat) a + S1x1x1.size a ≤ S1x8x32.size a
  inb_S1x8x32_S1x1x1_0_4_26 : ∀ a, (![0, 4, 26] : Fin 3 → Nat) a + S1x1x1.size a ≤ S1x8x32.size a
  inb_S1x8x32_S1x1x1_0_4_27 : ∀ a, (![0, 4, 27] : Fin 3 → Nat) a + S1x1x1.size a ≤ S1x8x32.size a
  inb_S1x8x32_S1x1x1_0_4_28 : ∀ a, (![0, 4, 28] : Fin 3 → Nat) a + S1x1x1.size a ≤ S1x8x32.size a
  inb_S1x8x32_S1x1x1_0_4_29 : ∀ a, (![0, 4, 29] : Fin 3 → Nat) a + S1x1x1.size a ≤ S1x8x32.size a
  inb_S1x8x32_S1x1x1_0_4_30 : ∀ a, (![0, 4, 30] : Fin 3 → Nat) a + S1x1x1.size a ≤ S1x8x32.size a
  inb_S1x8x32_S1x1x1_0_4_31 : ∀ a, (![0, 4, 31] : Fin 3 → Nat) a + S1x1x1.size a ≤ S1x8x32.size a
  inb_S1x8x32_S1x1x1_0_5_0 : ∀ a, (![0, 5, 0] : Fin 3 → Nat) a + S1x1x1.size a ≤ S1x8x32.size a
  inb_S1x8x32_S1x1x1_0_5_1 : ∀ a, (![0, 5, 1] : Fin 3 → Nat) a + S1x1x1.size a ≤ S1x8x32.size a
  inb_S1x8x32_S1x1x1_0_5_2 : ∀ a, (![0, 5, 2] : Fin 3 → Nat) a + S1x1x1.size a ≤ S1x8x32.size a
  inb_S1x8x32_S1x1x1_0_5_3 : ∀ a, (![0, 5, 3] : Fin 3 → Nat) a + S1x1x1.size a ≤ S1x8x32.size a
  inb_S1x8x32_S1x1x1_0_5_4 : ∀ a, (![0, 5, 4] : Fin 3 → Nat) a + S1x1x1.size a ≤ S1x8x32.size a
  inb_S1x8x32_S1x1x1_0_5_5 : ∀ a, (![0, 5, 5] : Fin 3 → Nat) a + S1x1x1.size a ≤ S1x8x32.size a
  inb_S1x8x32_S1x1x1_0_5_6 : ∀ a, (![0, 5, 6] : Fin 3 → Nat) a + S1x1x1.size a ≤ S1x8x32.size a
  inb_S1x8x32_S1x1x1_0_5_7 : ∀ a, (![0, 5, 7] : Fin 3 → Nat) a + S1x1x1.size a ≤ S1x8x32.size a
  inb_S1x8x32_S1x1x1_0_5_8 : ∀ a, (![0, 5, 8] : Fin 3 → Nat) a + S1x1x1.size a ≤ S1x8x32.size a
  inb_S1x8x32_S1x1x1_0_5_9 : ∀ a, (![0, 5, 9] : Fin 3 → Nat) a + S1x1x1.size a ≤ S1x8x32.size a
  inb_S1x8x32_S1x1x1_0_5_10 : ∀ a, (![0, 5, 10] : Fin 3 → Nat) a + S1x1x1.size a ≤ S1x8x32.size a
  inb_S1x8x32_S1x1x1_0_5_11 : ∀ a, (![0, 5, 11] : Fin 3 → Nat) a + S1x1x1.size a ≤ S1x8x32.size a
  inb_S1x8x32_S1x1x1_0_5_12 : ∀ a, (![0, 5, 12] : Fin 3 → Nat) a + S1x1x1.size a ≤ S1x8x32.size a
  inb_S1x8x32_S1x1x1_0_5_13 : ∀ a, (![0, 5, 13] : Fin 3 → Nat) a + S1x1x1.size a ≤ S1x8x32.size a
  inb_S1x8x32_S1x1x1_0_5_14 : ∀ a, (![0, 5, 14] : Fin 3 → Nat) a + S1x1x1.size a ≤ S1x8x32.size a
  inb_S1x8x32_S1x1x1_0_5_15 : ∀ a, (![0, 5, 15] : Fin 3 → Nat) a + S1x1x1.size a ≤ S1x8x32.size a
  inb_S1x8x32_S1x1x1_0_5_16 : ∀ a, (![0, 5, 16] : Fin 3 → Nat) a + S1x1x1.size a ≤ S1x8x32.size a
  inb_S1x8x32_S1x1x1_0_5_17 : ∀ a, (![0, 5, 17] : Fin 3 → Nat) a + S1x1x1.size a ≤ S1x8x32.size a
  inb_S1x8x32_S1x1x1_0_5_18 : ∀ a, (![0, 5, 18] : Fin 3 → Nat) a + S1x1x1.size a ≤ S1x8x32.size a
  inb_S1x8x32_S1x1x1_0_5_19 : ∀ a, (![0, 5, 19] : Fin 3 → Nat) a + S1x1x1.size a ≤ S1x8x32.size a
  inb_S1x8x32_S1x1x1_0_5_20 : ∀ a, (![0, 5, 20] : Fin 3 → Nat) a + S1x1x1.size a ≤ S1x8x32.size a
  inb_S1x8x32_S1x1x1_0_5_21 : ∀ a, (![0, 5, 21] : Fin 3 → Nat) a + S1x1x1.size a ≤ S1x8x32.size a
  inb_S1x8x32_S1x1x1_0_5_22 : ∀ a, (![0, 5, 22] : Fin 3 → Nat) a + S1x1x1.size a ≤ S1x8x32.size a
  inb_S1x8x32_S1x1x1_0_5_23 : ∀ a, (![0, 5, 23] : Fin 3 → Nat) a + S1x1x1.size a ≤ S1x8x32.size a
  inb_S1x8x32_S1x1x1_0_5_24 : ∀ a, (![0, 5, 24] : Fin 3 → Nat) a + S1x1x1.size a ≤ S1x8x32.size a
  inb_S1x8x32_S1x1x1_0_5_25 : ∀ a, (![0, 5, 25] : Fin 3 → Nat) a + S1x1x1.size a ≤ S1x8x32.size a
  inb_S1x8x32_S1x1x1_0_5_26 : ∀ a, (![0, 5, 26] : Fin 3 → Nat) a + S1x1x1.size a ≤ S1x8x32.size a
  inb_S1x8x32_S1x1x1_0_5_27 : ∀ a, (![0, 5, 27] : Fin 3 → Nat) a + S1x1x1.size a ≤ S1x8x32.size a
  inb_S1x8x32_S1x1x1_0_5_28 : ∀ a, (![0, 5, 28] : Fin 3 → Nat) a + S1x1x1.size a ≤ S1x8x32.size a
  inb_S1x8x32_S1x1x1_0_5_29 : ∀ a, (![0, 5, 29] : Fin 3 → Nat) a + S1x1x1.size a ≤ S1x8x32.size a
  inb_S1x8x32_S1x1x1_0_5_30 : ∀ a, (![0, 5, 30] : Fin 3 → Nat) a + S1x1x1.size a ≤ S1x8x32.size a
  inb_S1x8x32_S1x1x1_0_5_31 : ∀ a, (![0, 5, 31] : Fin 3 → Nat) a + S1x1x1.size a ≤ S1x8x32.size a
  inb_S1x8x32_S1x1x1_0_6_0 : ∀ a, (![0, 6, 0] : Fin 3 → Nat) a + S1x1x1.size a ≤ S1x8x32.size a
  inb_S1x8x32_S1x1x1_0_6_1 : ∀ a, (![0, 6, 1] : Fin 3 → Nat) a + S1x1x1.size a ≤ S1x8x32.size a
  inb_S1x8x32_S1x1x1_0_6_2 : ∀ a, (![0, 6, 2] : Fin 3 → Nat) a + S1x1x1.size a ≤ S1x8x32.size a
  inb_S1x8x32_S1x1x1_0_6_3 : ∀ a, (![0, 6, 3] : Fin 3 → Nat) a + S1x1x1.size a ≤ S1x8x32.size a
  inb_S1x8x32_S1x1x1_0_6_4 : ∀ a, (![0, 6, 4] : Fin 3 → Nat) a + S1x1x1.size a ≤ S1x8x32.size a
  inb_S1x8x32_S1x1x1_0_6_5 : ∀ a, (![0, 6, 5] : Fin 3 → Nat) a + S1x1x1.size a ≤ S1x8x32.size a
  inb_S1x8x32_S1x1x1_0_6_6 : ∀ a, (![0, 6, 6] : Fin 3 → Nat) a + S1x1x1.size a ≤ S1x8x32.size a
  inb_S1x8x32_S1x1x1_0_6_7 : ∀ a, (![0, 6, 7] : Fin 3 → Nat) a + S1x1x1.size a ≤ S1x8x32.size a
  inb_S1x8x32_S1x1x1_0_6_8 : ∀ a, (![0, 6, 8] : Fin 3 → Nat) a + S1x1x1.size a ≤ S1x8x32.size a
  inb_S1x8x32_S1x1x1_0_6_9 : ∀ a, (![0, 6, 9] : Fin 3 → Nat) a + S1x1x1.size a ≤ S1x8x32.size a
  inb_S1x8x32_S1x1x1_0_6_10 : ∀ a, (![0, 6, 10] : Fin 3 → Nat) a + S1x1x1.size a ≤ S1x8x32.size a
  inb_S1x8x32_S1x1x1_0_6_11 : ∀ a, (![0, 6, 11] : Fin 3 → Nat) a + S1x1x1.size a ≤ S1x8x32.size a
  inb_S1x8x32_S1x1x1_0_6_12 : ∀ a, (![0, 6, 12] : Fin 3 → Nat) a + S1x1x1.size a ≤ S1x8x32.size a
  inb_S1x8x32_S1x1x1_0_6_13 : ∀ a, (![0, 6, 13] : Fin 3 → Nat) a + S1x1x1.size a ≤ S1x8x32.size a
  inb_S1x8x32_S1x1x1_0_6_14 : ∀ a, (![0, 6, 14] : Fin 3 → Nat) a + S1x1x1.size a ≤ S1x8x32.size a
  inb_S1x8x32_S1x1x1_0_6_15 : ∀ a, (![0, 6, 15] : Fin 3 → Nat) a + S1x1x1.size a ≤ S1x8x32.size a
  inb_S1x8x32_S1x1x1_0_6_16 : ∀ a, (![0, 6, 16] : Fin 3 → Nat) a + S1x1x1.size a ≤ S1x8x32.size a
  inb_S1x8x32_S1x1x1_0_6_17 : ∀ a, (![0, 6, 17] : Fin 3 → Nat) a + S1x1x1.size a ≤ S1x8x32.size a
  inb_S1x8x32_S1x1x1_0_6_18 : ∀ a, (![0, 6, 18] : Fin 3 → Nat) a + S1x1x1.size a ≤ S1x8x32.size a
  inb_S1x8x32_S1x1x1_0_6_19 : ∀ a, (![0, 6, 19] : Fin 3 → Nat) a + S1x1x1.size a ≤ S1x8x32.size a
  inb_S1x8x32_S1x1x1_0_6_20 : ∀ a, (![0, 6, 20] : Fin 3 → Nat) a + S1x1x1.size a ≤ S1x8x32.size a
  inb_S1x8x32_S1x1x1_0_6_21 : ∀ a, (![0, 6, 21] : Fin 3 → Nat) a + S1x1x1.size a ≤ S1x8x32.size a
  inb_S1x8x32_S1x1x1_0_6_22 : ∀ a, (![0, 6, 22] : Fin 3 → Nat) a + S1x1x1.size a ≤ S1x8x32.size a
  inb_S1x8x32_S1x1x1_0_6_23 : ∀ a, (![0, 6, 23] : Fin 3 → Nat) a + S1x1x1.size a ≤ S1x8x32.size a
  inb_S1x8x32_S1x1x1_0_6_24 : ∀ a, (![0, 6, 24] : Fin 3 → Nat) a + S1x1x1.size a ≤ S1x8x32.size a
  inb_S1x8x32_S1x1x1_0_6_25 : ∀ a, (![0, 6, 25] : Fin 3 → Nat) a + S1x1x1.size a ≤ S1x8x32.size a
  inb_S1x8x32_S1x1x1_0_6_26 : ∀ a, (![0, 6, 26] : Fin 3 → Nat) a + S1x1x1.size a ≤ S1x8x32.size a
  inb_S1x8x32_S1x1x1_0_6_27 : ∀ a, (![0, 6, 27] : Fin 3 → Nat) a + S1x1x1.size a ≤ S1x8x32.size a
  inb_S1x8x32_S1x1x1_0_6_28 : ∀ a, (![0, 6, 28] : Fin 3 → Nat) a + S1x1x1.size a ≤ S1x8x32.size a
  inb_S1x8x32_S1x1x1_0_6_29 : ∀ a, (![0, 6, 29] : Fin 3 → Nat) a + S1x1x1.size a ≤ S1x8x32.size a
  inb_S1x8x32_S1x1x1_0_6_30 : ∀ a, (![0, 6, 30] : Fin 3 → Nat) a + S1x1x1.size a ≤ S1x8x32.size a
  inb_S1x8x32_S1x1x1_0_6_31 : ∀ a, (![0, 6, 31] : Fin 3 → Nat) a + S1x1x1.size a ≤ S1x8x32.size a
  inb_S1x8x32_S1x1x1_0_7_0 : ∀ a, (![0, 7, 0] : Fin 3 → Nat) a + S1x1x1.size a ≤ S1x8x32.size a
  inb_S1x8x32_S1x1x1_0_7_1 : ∀ a, (![0, 7, 1] : Fin 3 → Nat) a + S1x1x1.size a ≤ S1x8x32.size a
  inb_S1x8x32_S1x1x1_0_7_2 : ∀ a, (![0, 7, 2] : Fin 3 → Nat) a + S1x1x1.size a ≤ S1x8x32.size a
  inb_S1x8x32_S1x1x1_0_7_3 : ∀ a, (![0, 7, 3] : Fin 3 → Nat) a + S1x1x1.size a ≤ S1x8x32.size a
  inb_S1x8x32_S1x1x1_0_7_4 : ∀ a, (![0, 7, 4] : Fin 3 → Nat) a + S1x1x1.size a ≤ S1x8x32.size a
  inb_S1x8x32_S1x1x1_0_7_5 : ∀ a, (![0, 7, 5] : Fin 3 → Nat) a + S1x1x1.size a ≤ S1x8x32.size a
  inb_S1x8x32_S1x1x1_0_7_6 : ∀ a, (![0, 7, 6] : Fin 3 → Nat) a + S1x1x1.size a ≤ S1x8x32.size a
  inb_S1x8x32_S1x1x1_0_7_7 : ∀ a, (![0, 7, 7] : Fin 3 → Nat) a + S1x1x1.size a ≤ S1x8x32.size a
  inb_S1x8x32_S1x1x1_0_7_8 : ∀ a, (![0, 7, 8] : Fin 3 → Nat) a + S1x1x1.size a ≤ S1x8x32.size a
  inb_S1x8x32_S1x1x1_0_7_9 : ∀ a, (![0, 7, 9] : Fin 3 → Nat) a + S1x1x1.size a ≤ S1x8x32.size a
  inb_S1x8x32_S1x1x1_0_7_10 : ∀ a, (![0, 7, 10] : Fin 3 → Nat) a + S1x1x1.size a ≤ S1x8x32.size a
  inb_S1x8x32_S1x1x1_0_7_11 : ∀ a, (![0, 7, 11] : Fin 3 → Nat) a + S1x1x1.size a ≤ S1x8x32.size a
  inb_S1x8x32_S1x1x1_0_7_12 : ∀ a, (![0, 7, 12] : Fin 3 → Nat) a + S1x1x1.size a ≤ S1x8x32.size a
  inb_S1x8x32_S1x1x1_0_7_13 : ∀ a, (![0, 7, 13] : Fin 3 → Nat) a + S1x1x1.size a ≤ S1x8x32.size a
  inb_S1x8x32_S1x1x1_0_7_14 : ∀ a, (![0, 7, 14] : Fin 3 → Nat) a + S1x1x1.size a ≤ S1x8x32.size a
  inb_S1x8x32_S1x1x1_0_7_15 : ∀ a, (![0, 7, 15] : Fin 3 → Nat) a + S1x1x1.size a ≤ S1x8x32.size a
  inb_S1x8x32_S1x1x1_0_7_16 : ∀ a, (![0, 7, 16] : Fin 3 → Nat) a + S1x1x1.size a ≤ S1x8x32.size a
  inb_S1x8x32_S1x1x1_0_7_17 : ∀ a, (![0, 7, 17] : Fin 3 → Nat) a + S1x1x1.size a ≤ S1x8x32.size a
  inb_S1x8x32_S1x1x1_0_7_18 : ∀ a, (![0, 7, 18] : Fin 3 → Nat) a + S1x1x1.size a ≤ S1x8x32.size a
  inb_S1x8x32_S1x1x1_0_7_19 : ∀ a, (![0, 7, 19] : Fin 3 → Nat) a + S1x1x1.size a ≤ S1x8x32.size a
  inb_S1x8x32_S1x1x1_0_7_20 : ∀ a, (![0, 7, 20] : Fin 3 → Nat) a + S1x1x1.size a ≤ S1x8x32.size a
  inb_S1x8x32_S1x1x1_0_7_21 : ∀ a, (![0, 7, 21] : Fin 3 → Nat) a + S1x1x1.size a ≤ S1x8x32.size a
  inb_S1x8x32_S1x1x1_0_7_22 : ∀ a, (![0, 7, 22] : Fin 3 → Nat) a + S1x1x1.size a ≤ S1x8x32.size a
  inb_S1x8x32_S1x1x1_0_7_23 : ∀ a, (![0, 7, 23] : Fin 3 → Nat) a + S1x1x1.size a ≤ S1x8x32.size a
  inb_S1x8x32_S1x1x1_0_7_24 : ∀ a, (![0, 7, 24] : Fin 3 → Nat) a + S1x1x1.size a ≤ S1x8x32.size a
  inb_S1x8x32_S1x1x1_0_7_25 : ∀ a, (![0, 7, 25] : Fin 3 → Nat) a + S1x1x1.size a ≤ S1x8x32.size a
  inb_S1x8x32_S1x1x1_0_7_26 : ∀ a, (![0, 7, 26] : Fin 3 → Nat) a + S1x1x1.size a ≤ S1x8x32.size a
  inb_S1x8x32_S1x1x1_0_7_27 : ∀ a, (![0, 7, 27] : Fin 3 → Nat) a + S1x1x1.size a ≤ S1x8x32.size a
  inb_S1x8x32_S1x1x1_0_7_28 : ∀ a, (![0, 7, 28] : Fin 3 → Nat) a + S1x1x1.size a ≤ S1x8x32.size a
  inb_S1x8x32_S1x1x1_0_7_29 : ∀ a, (![0, 7, 29] : Fin 3 → Nat) a + S1x1x1.size a ≤ S1x8x32.size a
  inb_S1x8x32_S1x1x1_0_7_30 : ∀ a, (![0, 7, 30] : Fin 3 → Nat) a + S1x1x1.size a ≤ S1x8x32.size a
  inb_S1x8x32_S1x1x1_0_7_31 : ∀ a, (![0, 7, 31] : Fin 3 → Nat) a + S1x1x1.size a ≤ S1x8x32.size a
  concatenates_S1x128_S1x128_S1x128_S1x128_S1x128_S1x128_S1x128_S1x128_S8x128_d0 : Shape.Concatenates [S1x128, S1x128, S1x128, S1x128, S1x128, S1x128, S1x128, S1x128] S8x128 0
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S4x16384x128_S4x16384x64_0_0_0 : S4x16384x128.Slices ![0, 0, 0] S4x16384x64
  reducesTo_S4x16384x64_S64_d0_1 : S4x16384x64.ReducesTo [0, 1] S64
  bcast_S_S64 : S_.BroadcastsInDim S64 (![] : Fin 0 → Fin S64.rank)
  bcast_S64_S1x1x64_2 : S64.BroadcastsInDim S1x1x64 (![2] : Fin 1 → Fin S1x1x64.rank)
  bcast_S_S1x1x64 : S_.BroadcastsInDim S1x1x64 (![] : Fin 0 → Fin S1x1x64.rank)
  bcast_S1x1x64_S4x16384x64_0_1_2 : S1x1x64.BroadcastsInDim S4x16384x64 (![0, 1, 2] : Fin 3 → Fin S4x16384x64.rank)
  shapeCasts_S64_S1x64 : S64.ShapeCasts S1x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  transposes_S2048x64_p1_0_S64x2048 : S2048x64.Transposes [1, 0] S64x2048
  shapeCasts_S64x2048_S1x64x2048 : S64x2048.ShapeCasts S1x64x2048
  dot_S64x2048_S128x64_S2048x128_0_1_1_0_n_n_wf : DotDims.WF S64x2048 S128x64 S2048x128 [0] [1] [1] [0] [] []
  hcc1_scratch1 : 9 + S32.numel ≤ 49
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x2048.size a ≤ S4x64x16384.size a
  hwx0_0 : ∀ i : grid0.Coords, EltTy.bits .f32 = 32 ∨ (Rect.block (s := S4x64x16384) S1x64x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S4x16384x128.size a
  hwx0_2 : ∀ i : grid0.Coords, EltTy.bits .f32 = 32 ∨ (Rect.block (s := S4x16384x128) S1x2048x128.size (cc0_transform_2 i) (hinb0_2 i)).WholeWords (EltTy.packing .f32)
  hrank1 : 0 < grid1.rank
  k1_off1_inb : ∀ i : grid1.Coords, ∀ a, (k1_off1 i) a + S1x16384x128.size a ≤ S4x16384x128.size a
  k1_off3_inb : ∀ i : grid1.Coords, ∀ a, (k1_off3 i) a + S1x16384x128.size a ≤ S4x16384x128.size a
  k1_off5_inb : ∀ i : grid1.Coords, ∀ a, (k1_off5 i) a + S1x16384x128.size a ≤ S4x16384x128.size a
  k1_off7_inb : ∀ i : grid1.Coords, ∀ a, (k1_off7 i) a + S1x16384x128.size a ≤ S4x16384x128.size a
  k1_off9_inb : ∀ i : grid1.Coords, ∀ a, (k1_off9 i) a + S1x16384x128.size a ≤ S4x16384x128.size a
  k1_off11_inb : ∀ i : grid1.Coords, ∀ a, (k1_off11 i) a + S1x16384x128.size a ≤ S4x16384x128.size a
  k1_off13_inb : ∀ i : grid1.Coords, ∀ a, (k1_off13 i) a + S1x16384x128.size a ≤ S4x16384x128.size a
  k1_off15_inb : ∀ i : grid1.Coords, ∀ a, (k1_off15 i) a + S1x16384x128.size a ≤ S4x16384x128.size a
  k1_off17_inb : ∀ i : grid1.Coords, ∀ a, (k1_off17 i) a + S1x16384x128.size a ≤ S4x16384x128.size a
  k1_off19_inb : ∀ i : grid1.Coords, ∀ a, (k1_off19 i) a + S1x16384x128.size a ≤ S4x16384x128.size a
  k1_off21_inb : ∀ i : grid1.Coords, ∀ a, (k1_off21 i) a + S1x16384x128.size a ≤ S4x16384x128.size a
  k1_off23_inb : ∀ i : grid1.Coords, ∀ a, (k1_off23 i) a + S1x16384x128.size a ≤ S4x16384x128.size a
  k1_off25_inb : ∀ i : grid1.Coords, ∀ a, (k1_off25 i) a + S1x16384x128.size a ≤ S4x16384x128.size a
  k1_off27_inb : ∀ i : grid1.Coords, ∀ a, (k1_off27 i) a + S1x16384x128.size a ≤ S4x16384x128.size a
  k1_off29_inb : ∀ i : grid1.Coords, ∀ a, (k1_off29 i) a + S1x16384x128.size a ≤ S4x16384x128.size a
  k1_off31_inb : ∀ i : grid1.Coords, ∀ a, (k1_off31 i) a + S1x16384x128.size a ≤ S4x16384x128.size a
  k1_off33_inb : ∀ i : grid1.Coords, ∀ a, (k1_off33 i) a + S1x16384x128.size a ≤ S4x16384x128.size a
  k1_off35_inb : ∀ i : grid1.Coords, ∀ a, (k1_off35 i) a + S1x16384x128.size a ≤ S4x16384x128.size a
  k1_off37_inb : ∀ i : grid1.Coords, ∀ a, (k1_off37 i) a + S1x16384x128.size a ≤ S4x16384x128.size a
  k1_off39_inb : ∀ i : grid1.Coords, ∀ a, (k1_off39 i) a + S1x16384x128.size a ≤ S4x16384x128.size a
  k1_off41_inb : ∀ i : grid1.Coords, ∀ a, (k1_off41 i) a + S1x16384x128.size a ≤ S4x16384x128.size a
  k1_off43_inb : ∀ i : grid1.Coords, ∀ a, (k1_off43 i) a + S1x16384x128.size a ≤ S4x16384x128.size a
  k1_off45_inb : ∀ i : grid1.Coords, ∀ a, (k1_off45 i) a + S1x16384x128.size a ≤ S4x16384x128.size a
  k1_off47_inb : ∀ i : grid1.Coords, ∀ a, (k1_off47 i) a + S1x16384x128.size a ≤ S4x16384x128.size a
  k1_off49_inb : ∀ i : grid1.Coords, ∀ a, (k1_off49 i) a + S1x16384x128.size a ≤ S4x16384x128.size a
  k1_off51_inb : ∀ i : grid1.Coords, ∀ a, (k1_off51 i) a + S1x16384x128.size a ≤ S4x16384x128.size a
  k1_off53_inb : ∀ i : grid1.Coords, ∀ a, (k1_off53 i) a + S1x16384x128.size a ≤ S4x16384x128.size a
  k1_off55_inb : ∀ i : grid1.Coords, ∀ a, (k1_off55 i) a + S1x16384x128.size a ≤ S4x16384x128.size a
  k1_off57_inb : ∀ i : grid1.Coords, ∀ a, (k1_off57 i) a + S1x16384x128.size a ≤ S4x16384x128.size a
  k1_off59_inb : ∀ i : grid1.Coords, ∀ a, (k1_off59 i) a + S1x16384x128.size a ≤ S4x16384x128.size a
  k1_off61_inb : ∀ i : grid1.Coords, ∀ a, (k1_off61 i) a + S1x16384x128.size a ≤ S4x16384x128.size a
  k1_off63_inb : ∀ i : grid1.Coords, ∀ a, (k1_off63 i) a + S1x16384x128.size a ≤ S4x16384x128.size a
  k1_off65_inb : ∀ i : grid1.Coords, ∀ a, (k1_off65 i) a + S1x16384x128.size a ≤ S4x16384x128.size a
  k1_off67_inb : ∀ i : grid1.Coords, ∀ a, (k1_off67 i) a + S1x16384x128.size a ≤ S4x16384x128.size a
  k1_off69_inb : ∀ i : grid1.Coords, ∀ a, (k1_off69 i) a + S1x16384x128.size a ≤ S4x16384x128.size a
  k1_off71_inb : ∀ i : grid1.Coords, ∀ a, (k1_off71 i) a + S1x16384x128.size a ≤ S4x16384x128.size a
  k1_off73_inb : ∀ i : grid1.Coords, ∀ a, (k1_off73 i) a + S1x16384x128.size a ≤ S4x16384x128.size a
  k1_off75_inb : ∀ i : grid1.Coords, ∀ a, (k1_off75 i) a + S1x16384x128.size a ≤ S4x16384x128.size a
  k1_off77_inb : ∀ i : grid1.Coords, ∀ a, (k1_off77 i) a + S1x16384x128.size a ≤ S4x16384x128.size a
  k1_off79_inb : ∀ i : grid1.Coords, ∀ a, (k1_off79 i) a + S1x16384x128.size a ≤ S4x16384x128.size a
  k1_off81_inb : ∀ i : grid1.Coords, ∀ a, (k1_off81 i) a + S1x16384x128.size a ≤ S4x16384x128.size a
  k1_off83_inb : ∀ i : grid1.Coords, ∀ a, (k1_off83 i) a + S1x16384x128.size a ≤ S4x16384x128.size a
  k1_off85_inb : ∀ i : grid1.Coords, ∀ a, (k1_off85 i) a + S1x16384x128.size a ≤ S4x16384x128.size a
  k1_off87_inb : ∀ i : grid1.Coords, ∀ a, (k1_off87 i) a + S1x16384x128.size a ≤ S4x16384x128.size a
  k1_off89_inb : ∀ i : grid1.Coords, ∀ a, (k1_off89 i) a + S1x16384x128.size a ≤ S4x16384x128.size a
  k1_off91_inb : ∀ i : grid1.Coords, ∀ a, (k1_off91 i) a + S1x16384x128.size a ≤ S4x16384x128.size a
  k1_off93_inb : ∀ i : grid1.Coords, ∀ a, (k1_off93 i) a + S1x16384x128.size a ≤ S4x16384x128.size a
  k1_off95_inb : ∀ i : grid1.Coords, ∀ a, (k1_off95 i) a + S1x16384x128.size a ≤ S4x16384x128.size a
  k1_off97_inb : ∀ i : grid1.Coords, ∀ a, (k1_off97 i) a + S1x16384x128.size a ≤ S4x16384x128.size a
  k1_off99_inb : ∀ i : grid1.Coords, ∀ a, (k1_off99 i) a + S1x16384x128.size a ≤ S4x16384x128.size a
  k1_off101_inb : ∀ i : grid1.Coords, ∀ a, (k1_off101 i) a + S1x16384x128.size a ≤ S4x16384x128.size a
  k1_off103_inb : ∀ i : grid1.Coords, ∀ a, (k1_off103 i) a + S1x16384x128.size a ≤ S4x16384x128.size a
  k1_off105_inb : ∀ i : grid1.Coords, ∀ a, (k1_off105 i) a + S1x16384x128.size a ≤ S4x16384x128.size a
  k1_off107_inb : ∀ i : grid1.Coords, ∀ a, (k1_off107 i) a + S1x16384x128.size a ≤ S4x16384x128.size a
  k1_off109_inb : ∀ i : grid1.Coords, ∀ a, (k1_off109 i) a + S1x16384x128.size a ≤ S4x16384x128.size a
  k1_off111_inb : ∀ i : grid1.Coords, ∀ a, (k1_off111 i) a + S1x16384x128.size a ≤ S4x16384x128.size a
  k1_off113_inb : ∀ i : grid1.Coords, ∀ a, (k1_off113 i) a + S1x16384x128.size a ≤ S4x16384x128.size a
  k1_off115_inb : ∀ i : grid1.Coords, ∀ a, (k1_off115 i) a + S1x16384x128.size a ≤ S4x16384x128.size a
  k1_off117_inb : ∀ i : grid1.Coords, ∀ a, (k1_off117 i) a + S1x16384x128.size a ≤ S4x16384x128.size a
  k1_off119_inb : ∀ i : grid1.Coords, ∀ a, (k1_off119 i) a + S1x16384x128.size a ≤ S4x16384x128.size a
  k1_off121_inb : ∀ i : grid1.Coords, ∀ a, (k1_off121 i) a + S1x16384x128.size a ≤ S4x16384x128.size a
  k1_off123_inb : ∀ i : grid1.Coords, ∀ a, (k1_off123 i) a + S1x16384x128.size a ≤ S4x16384x128.size a
  k1_off125_inb : ∀ i : grid1.Coords, ∀ a, (k1_off125 i) a + S1x16384x128.size a ≤ S4x16384x128.size a
  k1_off127_inb : ∀ i : grid1.Coords, ∀ a, (k1_off127 i) a + S1x16384x128.size a ≤ S4x16384x128.size a
  k1_off129_inb : ∀ i : grid1.Coords, ∀ a, (k1_off129 i) a + S1x16384x128.size a ≤ S4x16384x128.size a
  k1_off131_inb : ∀ i : grid1.Coords, ∀ a, (k1_off131 i) a + S1x16384x128.size a ≤ S4x16384x128.size a
  k1_off133_inb : ∀ i : grid1.Coords, ∀ a, (k1_off133 i) a + S1x16384x128.size a ≤ S4x16384x128.size a
  k1_off135_inb : ∀ i : grid1.Coords, ∀ a, (k1_off135 i) a + S1x16384x128.size a ≤ S4x16384x128.size a
  k1_off137_inb : ∀ i : grid1.Coords, ∀ a, (k1_off137 i) a + S1x16384x128.size a ≤ S4x16384x128.size a
  k1_off139_inb : ∀ i : grid1.Coords, ∀ a, (k1_off139 i) a + S1x16384x128.size a ≤ S4x16384x128.size a
  k1_off141_inb : ∀ i : grid1.Coords, ∀ a, (k1_off141 i) a + S1x16384x128.size a ≤ S4x16384x128.size a
  k1_off143_inb : ∀ i : grid1.Coords, ∀ a, (k1_off143 i) a + S1x16384x128.size a ≤ S4x16384x128.size a
  k1_off145_inb : ∀ i : grid1.Coords, ∀ a, (k1_off145 i) a + S1x16384x128.size a ≤ S4x16384x128.size a
  k1_off147_inb : ∀ i : grid1.Coords, ∀ a, (k1_off147 i) a + S1x16384x128.size a ≤ S4x16384x128.size a
  k1_off149_inb : ∀ i : grid1.Coords, ∀ a, (k1_off149 i) a + S1x16384x128.size a ≤ S4x16384x128.size a
  k1_off151_inb : ∀ i : grid1.Coords, ∀ a, (k1_off151 i) a + S1x16384x128.size a ≤ S4x16384x128.size a
  k1_off153_inb : ∀ i : grid1.Coords, ∀ a, (k1_off153 i) a + S1x16384x128.size a ≤ S4x16384x128.size a
  k1_off155_inb : ∀ i : grid1.Coords, ∀ a, (k1_off155 i) a + S1x16384x128.size a ≤ S4x16384x128.size a
  k1_off157_inb : ∀ i : grid1.Coords, ∀ a, (k1_off157 i) a + S1x16384x128.size a ≤ S4x16384x128.size a
  k1_off159_inb : ∀ i : grid1.Coords, ∀ a, (k1_off159 i) a + S1x16384x128.size a ≤ S4x16384x128.size a
  k1_off161_inb : ∀ i : grid1.Coords, ∀ a, (k1_off161 i) a + S1x16384x128.size a ≤ S4x16384x128.size a
  k1_off163_inb : ∀ i : grid1.Coords, ∀ a, (k1_off163 i) a + S1x16384x128.size a ≤ S4x16384x128.size a
  k1_off165_inb : ∀ i : grid1.Coords, ∀ a, (k1_off165 i) a + S1x16384x128.size a ≤ S4x16384x128.size a
  k1_off167_inb : ∀ i : grid1.Coords, ∀ a, (k1_off167 i) a + S1x16384x128.size a ≤ S4x16384x128.size a
  k1_off169_inb : ∀ i : grid1.Coords, ∀ a, (k1_off169 i) a + S1x16384x128.size a ≤ S4x16384x128.size a
  k1_off171_inb : ∀ i : grid1.Coords, ∀ a, (k1_off171 i) a + S1x16384x128.size a ≤ S4x16384x128.size a
  k1_off173_inb : ∀ i : grid1.Coords, ∀ a, (k1_off173 i) a + S1x16384x128.size a ≤ S4x16384x128.size a
  k1_off175_inb : ∀ i : grid1.Coords, ∀ a, (k1_off175 i) a + S1x16384x128.size a ≤ S4x16384x128.size a
  k1_off177_inb : ∀ i : grid1.Coords, ∀ a, (k1_off177 i) a + S1x16384x128.size a ≤ S4x16384x128.size a
  k1_off179_inb : ∀ i : grid1.Coords, ∀ a, (k1_off179 i) a + S1x16384x128.size a ≤ S4x16384x128.size a
  k1_off181_inb : ∀ i : grid1.Coords, ∀ a, (k1_off181 i) a + S1x16384x128.size a ≤ S4x16384x128.size a
  k1_off183_inb : ∀ i : grid1.Coords, ∀ a, (k1_off183 i) a + S1x16384x128.size a ≤ S4x16384x128.size a
  k1_off185_inb : ∀ i : grid1.Coords, ∀ a, (k1_off185 i) a + S1x16384x128.size a ≤ S4x16384x128.size a
  k1_off187_inb : ∀ i : grid1.Coords, ∀ a, (k1_off187 i) a + S1x16384x128.size a ≤ S4x16384x128.size a
  k1_off189_inb : ∀ i : grid1.Coords, ∀ a, (k1_off189 i) a + S1x16384x128.size a ≤ S4x16384x128.size a
  k1_off191_inb : ∀ i : grid1.Coords, ∀ a, (k1_off191 i) a + S1x16384x128.size a ≤ S4x16384x128.size a
  k1_off193_inb : ∀ i : grid1.Coords, ∀ a, (k1_off193 i) a + S1x16384x128.size a ≤ S4x16384x128.size a
  k1_off195_inb : ∀ i : grid1.Coords, ∀ a, (k1_off195 i) a + S1x16384x128.size a ≤ S4x16384x128.size a
  k1_off197_inb : ∀ i : grid1.Coords, ∀ a, (k1_off197 i) a + S1x16384x128.size a ≤ S4x16384x128.size a
  k1_off199_inb : ∀ i : grid1.Coords, ∀ a, (k1_off199 i) a + S1x16384x128.size a ≤ S4x16384x128.size a
  k1_off201_inb : ∀ i : grid1.Coords, ∀ a, (k1_off201 i) a + S1x16384x128.size a ≤ S4x16384x128.size a
  k1_off203_inb : ∀ i : grid1.Coords, ∀ a, (k1_off203 i) a + S1x16384x128.size a ≤ S4x16384x128.size a
  k1_off205_inb : ∀ i : grid1.Coords, ∀ a, (k1_off205 i) a + S1x16384x128.size a ≤ S4x16384x128.size a
  k1_off207_inb : ∀ i : grid1.Coords, ∀ a, (k1_off207 i) a + S1x16384x128.size a ≤ S4x16384x128.size a
  k1_off209_inb : ∀ i : grid1.Coords, ∀ a, (k1_off209 i) a + S1x16384x128.size a ≤ S4x16384x128.size a
  k1_off211_inb : ∀ i : grid1.Coords, ∀ a, (k1_off211 i) a + S1x16384x128.size a ≤ S4x16384x128.size a
  k1_off213_inb : ∀ i : grid1.Coords, ∀ a, (k1_off213 i) a + S1x16384x128.size a ≤ S4x16384x128.size a
  k1_off215_inb : ∀ i : grid1.Coords, ∀ a, (k1_off215 i) a + S1x16384x128.size a ≤ S4x16384x128.size a
  k1_off217_inb : ∀ i : grid1.Coords, ∀ a, (k1_off217 i) a + S1x16384x128.size a ≤ S4x16384x128.size a
  k1_off219_inb : ∀ i : grid1.Coords, ∀ a, (k1_off219 i) a + S1x16384x128.size a ≤ S4x16384x128.size a
  k1_off221_inb : ∀ i : grid1.Coords, ∀ a, (k1_off221 i) a + S1x16384x128.size a ≤ S4x16384x128.size a
  k1_off223_inb : ∀ i : grid1.Coords, ∀ a, (k1_off223 i) a + S1x16384x128.size a ≤ S4x16384x128.size a
  k1_off225_inb : ∀ i : grid1.Coords, ∀ a, (k1_off225 i) a + S1x16384x128.size a ≤ S4x16384x128.size a
  k1_off227_inb : ∀ i : grid1.Coords, ∀ a, (k1_off227 i) a + S1x16384x128.size a ≤ S4x16384x128.size a
  k1_off229_inb : ∀ i : grid1.Coords, ∀ a, (k1_off229 i) a + S1x16384x128.size a ≤ S4x16384x128.size a
  k1_off231_inb : ∀ i : grid1.Coords, ∀ a, (k1_off231 i) a + S1x16384x128.size a ≤ S4x16384x128.size a
  k1_off233_inb : ∀ i : grid1.Coords, ∀ a, (k1_off233 i) a + S1x16384x128.size a ≤ S4x16384x128.size a
  k1_off235_inb : ∀ i : grid1.Coords, ∀ a, (k1_off235 i) a + S1x16384x128.size a ≤ S4x16384x128.size a
  k1_off237_inb : ∀ i : grid1.Coords, ∀ a, (k1_off237 i) a + S1x16384x128.size a ≤ S4x16384x128.size a
  k1_off239_inb : ∀ i : grid1.Coords, ∀ a, (k1_off239 i) a + S1x16384x128.size a ≤ S4x16384x128.size a
  k1_off241_inb : ∀ i : grid1.Coords, ∀ a, (k1_off241 i) a + S1x16384x128.size a ≤ S4x16384x128.size a
  k1_off243_inb : ∀ i : grid1.Coords, ∀ a, (k1_off243 i) a + S1x16384x128.size a ≤ S4x16384x128.size a
  k1_off245_inb : ∀ i : grid1.Coords, ∀ a, (k1_off245 i) a + S1x16384x128.size a ≤ S4x16384x128.size a
  k1_off247_inb : ∀ i : grid1.Coords, ∀ a, (k1_off247 i) a + S1x16384x128.size a ≤ S4x16384x128.size a
  k1_off249_inb : ∀ i : grid1.Coords, ∀ a, (k1_off249 i) a + S1x16384x128.size a ≤ S4x16384x128.size a
  k1_off251_inb : ∀ i : grid1.Coords, ∀ a, (k1_off251 i) a + S1x16384x128.size a ≤ S4x16384x128.size a
  k1_off253_inb : ∀ i : grid1.Coords, ∀ a, (k1_off253 i) a + S1x16384x128.size a ≤ S4x16384x128.size a
  k1_off255_inb : ∀ i : grid1.Coords, ∀ a, (k1_off255 i) a + S1x16384x128.size a ≤ S4x16384x128.size a
  k1_off257_inb : ∀ i : grid1.Coords, ∀ a, (k1_off257 i) a + S1x16384x128.size a ≤ S4x16384x128.size a
  k1_off259_inb : ∀ i : grid1.Coords, ∀ a, (k1_off259 i) a + S1x16384x128.size a ≤ S4x16384x128.size a
  k1_off261_inb : ∀ i : grid1.Coords, ∀ a, (k1_off261 i) a + S1x16384x128.size a ≤ S4x16384x128.size a
  k1_off263_inb : ∀ i : grid1.Coords, ∀ a, (k1_off263 i) a + S1x16384x128.size a ≤ S4x16384x128.size a
  k1_off265_inb : ∀ i : grid1.Coords, ∀ a, (k1_off265 i) a + S1x16384x128.size a ≤ S4x16384x128.size a
  k1_off267_inb : ∀ i : grid1.Coords, ∀ a, (k1_off267 i) a + S1x16384x128.size a ≤ S4x16384x128.size a
  k1_off269_inb : ∀ i : grid1.Coords, ∀ a, (k1_off269 i) a + S1x16384x128.size a ≤ S4x16384x128.size a
  k1_off271_inb : ∀ i : grid1.Coords, ∀ a, (k1_off271 i) a + S1x16384x128.size a ≤ S4x16384x128.size a
  k1_off273_inb : ∀ i : grid1.Coords, ∀ a, (k1_off273 i) a + S1x16384x128.size a ≤ S4x16384x128.size a
  k1_off275_inb : ∀ i : grid1.Coords, ∀ a, (k1_off275 i) a + S1x16384x128.size a ≤ S4x16384x128.size a
  k1_off277_inb : ∀ i : grid1.Coords, ∀ a, (k1_off277 i) a + S1x16384x128.size a ≤ S4x16384x128.size a
  k1_off279_inb : ∀ i : grid1.Coords, ∀ a, (k1_off279 i) a + S1x16384x128.size a ≤ S4x16384x128.size a
  k1_off281_inb : ∀ i : grid1.Coords, ∀ a, (k1_off281 i) a + S1x16384x128.size a ≤ S4x16384x128.size a
  k1_off283_inb : ∀ i : grid1.Coords, ∀ a, (k1_off283 i) a + S1x16384x128.size a ≤ S4x16384x128.size a
  k1_off285_inb : ∀ i : grid1.Coords, ∀ a, (k1_off285 i) a + S1x16384x128.size a ≤ S4x16384x128.size a
  k1_off287_inb : ∀ i : grid1.Coords, ∀ a, (k1_off287 i) a + S1x16384x128.size a ≤ S4x16384x128.size a
  k1_off289_inb : ∀ i : grid1.Coords, ∀ a, (k1_off289 i) a + S1x16384x128.size a ≤ S4x16384x128.size a
  k1_off291_inb : ∀ i : grid1.Coords, ∀ a, (k1_off291 i) a + S1x16384x128.size a ≤ S4x16384x128.size a
  k1_off293_inb : ∀ i : grid1.Coords, ∀ a, (k1_off293 i) a + S1x16384x128.size a ≤ S4x16384x128.size a
  k1_off295_inb : ∀ i : grid1.Coords, ∀ a, (k1_off295 i) a + S1x16384x128.size a ≤ S4x16384x128.size a
  k1_off297_inb : ∀ i : grid1.Coords, ∀ a, (k1_off297 i) a + S1x16384x128.size a ≤ S4x16384x128.size a
  k1_off299_inb : ∀ i : grid1.Coords, ∀ a, (k1_off299 i) a + S1x16384x128.size a ≤ S4x16384x128.size a
  k1_off301_inb : ∀ i : grid1.Coords, ∀ a, (k1_off301 i) a + S1x16384x128.size a ≤ S4x16384x128.size a
  k1_off303_inb : ∀ i : grid1.Coords, ∀ a, (k1_off303 i) a + S1x16384x128.size a ≤ S4x16384x128.size a
  k1_off305_inb : ∀ i : grid1.Coords, ∀ a, (k1_off305 i) a + S1x16384x128.size a ≤ S4x16384x128.size a
  k1_off307_inb : ∀ i : grid1.Coords, ∀ a, (k1_off307 i) a + S1x16384x128.size a ≤ S4x16384x128.size a
  k1_off309_inb : ∀ i : grid1.Coords, ∀ a, (k1_off309 i) a + S1x16384x128.size a ≤ S4x16384x128.size a
  k1_off311_inb : ∀ i : grid1.Coords, ∀ a, (k1_off311 i) a + S1x16384x128.size a ≤ S4x16384x128.size a
  k1_off313_inb : ∀ i : grid1.Coords, ∀ a, (k1_off313 i) a + S1x16384x128.size a ≤ S4x16384x128.size a
  k1_off315_inb : ∀ i : grid1.Coords, ∀ a, (k1_off315 i) a + S1x16384x128.size a ≤ S4x16384x128.size a
  k1_off317_inb : ∀ i : grid1.Coords, ∀ a, (k1_off317 i) a + S1x16384x128.size a ≤ S4x16384x128.size a
  k1_off319_inb : ∀ i : grid1.Coords, ∀ a, (k1_off319 i) a + S1x16384x128.size a ≤ S4x16384x128.size a
  k1_off321_inb : ∀ i : grid1.Coords, ∀ a, (k1_off321 i) a + S1x16384x128.size a ≤ S4x16384x128.size a
  k1_off323_inb : ∀ i : grid1.Coords, ∀ a, (k1_off323 i) a + S1x16384x128.size a ≤ S4x16384x128.size a
  k1_off325_inb : ∀ i : grid1.Coords, ∀ a, (k1_off325 i) a + S1x16384x128.size a ≤ S4x16384x128.size a
  k1_off327_inb : ∀ i : grid1.Coords, ∀ a, (k1_off327 i) a + S1x16384x128.size a ≤ S4x16384x128.size a
  k1_off329_inb : ∀ i : grid1.Coords, ∀ a, (k1_off329 i) a + S1x16384x128.size a ≤ S4x16384x128.size a
  k1_off331_inb : ∀ i : grid1.Coords, ∀ a, (k1_off331 i) a + S1x16384x128.size a ≤ S4x16384x128.size a
  k1_off333_inb : ∀ i : grid1.Coords, ∀ a, (k1_off333 i) a + S1x16384x128.size a ≤ S4x16384x128.size a
  k1_off335_inb : ∀ i : grid1.Coords, ∀ a, (k1_off335 i) a + S1x16384x128.size a ≤ S4x16384x128.size a
  k1_off337_inb : ∀ i : grid1.Coords, ∀ a, (k1_off337 i) a + S1x16384x128.size a ≤ S4x16384x128.size a
  k1_off339_inb : ∀ i : grid1.Coords, ∀ a, (k1_off339 i) a + S1x16384x128.size a ≤ S4x16384x128.size a
  k1_off341_inb : ∀ i : grid1.Coords, ∀ a, (k1_off341 i) a + S1x16384x128.size a ≤ S4x16384x128.size a
  k1_off343_inb : ∀ i : grid1.Coords, ∀ a, (k1_off343 i) a + S1x16384x128.size a ≤ S4x16384x128.size a
  k1_off345_inb : ∀ i : grid1.Coords, ∀ a, (k1_off345 i) a + S1x16384x128.size a ≤ S4x16384x128.size a
  k1_off347_inb : ∀ i : grid1.Coords, ∀ a, (k1_off347 i) a + S1x16384x128.size a ≤ S4x16384x128.size a
  k1_off349_inb : ∀ i : grid1.Coords, ∀ a, (k1_off349 i) a + S1x16384x128.size a ≤ S4x16384x128.size a
  k1_off351_inb : ∀ i : grid1.Coords, ∀ a, (k1_off351 i) a + S1x16384x128.size a ≤ S4x16384x128.size a
  k1_off353_inb : ∀ i : grid1.Coords, ∀ a, (k1_off353 i) a + S1x16384x128.size a ≤ S4x16384x128.size a
  k1_off355_inb : ∀ i : grid1.Coords, ∀ a, (k1_off355 i) a + S1x16384x128.size a ≤ S4x16384x128.size a
  k1_off357_inb : ∀ i : grid1.Coords, ∀ a, (k1_off357 i) a + S1x16384x128.size a ≤ S4x16384x128.size a
  k1_off359_inb : ∀ i : grid1.Coords, ∀ a, (k1_off359 i) a + S1x16384x128.size a ≤ S4x16384x128.size a
  k1_off361_inb : ∀ i : grid1.Coords, ∀ a, (k1_off361 i) a + S1x16384x128.size a ≤ S4x16384x128.size a
  k1_off363_inb : ∀ i : grid1.Coords, ∀ a, (k1_off363 i) a + S1x16384x128.size a ≤ S4x16384x128.size a
  k1_off365_inb : ∀ i : grid1.Coords, ∀ a, (k1_off365 i) a + S1x16384x128.size a ≤ S4x16384x128.size a
  k1_off367_inb : ∀ i : grid1.Coords, ∀ a, (k1_off367 i) a + S1x16384x128.size a ≤ S4x16384x128.size a
  k1_off369_inb : ∀ i : grid1.Coords, ∀ a, (k1_off369 i) a + S1x16384x128.size a ≤ S4x16384x128.size a
  k1_off371_inb : ∀ i : grid1.Coords, ∀ a, (k1_off371 i) a + S1x16384x128.size a ≤ S4x16384x128.size a
  k1_off373_inb : ∀ i : grid1.Coords, ∀ a, (k1_off373 i) a + S1x16384x128.size a ≤ S4x16384x128.size a
  k1_off375_inb : ∀ i : grid1.Coords, ∀ a, (k1_off375 i) a + S1x16384x128.size a ≤ S4x16384x128.size a
  k1_off377_inb : ∀ i : grid1.Coords, ∀ a, (k1_off377 i) a + S1x16384x128.size a ≤ S4x16384x128.size a
  k1_off379_inb : ∀ i : grid1.Coords, ∀ a, (k1_off379 i) a + S1x16384x128.size a ≤ S4x16384x128.size a
  k1_off381_inb : ∀ i : grid1.Coords, ∀ a, (k1_off381 i) a + S1x16384x128.size a ≤ S4x16384x128.size a
  k1_off383_inb : ∀ i : grid1.Coords, ∀ a, (k1_off383 i) a + S1x16384x128.size a ≤ S4x16384x128.size a
  k1_off385_inb : ∀ i : grid1.Coords, ∀ a, (k1_off385 i) a + S1x16384x128.size a ≤ S4x16384x128.size a
  k1_off387_inb : ∀ i : grid1.Coords, ∀ a, (k1_off387 i) a + S1x16384x128.size a ≤ S4x16384x128.size a
  k1_off389_inb : ∀ i : grid1.Coords, ∀ a, (k1_off389 i) a + S1x16384x128.size a ≤ S4x16384x128.size a
  k1_off391_inb : ∀ i : grid1.Coords, ∀ a, (k1_off391 i) a + S1x16384x128.size a ≤ S4x16384x128.size a
  k1_off393_inb : ∀ i : grid1.Coords, ∀ a, (k1_off393 i) a + S1x16384x128.size a ≤ S4x16384x128.size a
  k1_off395_inb : ∀ i : grid1.Coords, ∀ a, (k1_off395 i) a + S1x16384x128.size a ≤ S4x16384x128.size a
  k1_off397_inb : ∀ i : grid1.Coords, ∀ a, (k1_off397 i) a + S1x16384x128.size a ≤ S4x16384x128.size a
  k1_off399_inb : ∀ i : grid1.Coords, ∀ a, (k1_off399 i) a + S1x16384x128.size a ≤ S4x16384x128.size a
  k1_off401_inb : ∀ i : grid1.Coords, ∀ a, (k1_off401 i) a + S1x16384x128.size a ≤ S4x16384x128.size a
  k1_off403_inb : ∀ i : grid1.Coords, ∀ a, (k1_off403 i) a + S1x16384x128.size a ≤ S4x16384x128.size a
  k1_off405_inb : ∀ i : grid1.Coords, ∀ a, (k1_off405 i) a + S1x16384x128.size a ≤ S4x16384x128.size a
  k1_off407_inb : ∀ i : grid1.Coords, ∀ a, (k1_off407 i) a + S1x16384x128.size a ≤ S4x16384x128.size a
  k1_off409_inb : ∀ i : grid1.Coords, ∀ a, (k1_off409 i) a + S1x16384x128.size a ≤ S4x16384x128.size a
  k1_off411_inb : ∀ i : grid1.Coords, ∀ a, (k1_off411 i) a + S1x16384x128.size a ≤ S4x16384x128.size a
  k1_off413_inb : ∀ i : grid1.Coords, ∀ a, (k1_off413 i) a + S1x16384x128.size a ≤ S4x16384x128.size a
  k1_off415_inb : ∀ i : grid1.Coords, ∀ a, (k1_off415 i) a + S1x16384x128.size a ≤ S4x16384x128.size a
  k1_off417_inb : ∀ i : grid1.Coords, ∀ a, (k1_off417 i) a + S1x16384x128.size a ≤ S4x16384x128.size a
  k1_off419_inb : ∀ i : grid1.Coords, ∀ a, (k1_off419 i) a + S1x16384x128.size a ≤ S4x16384x128.size a
  k1_off421_inb : ∀ i : grid1.Coords, ∀ a, (k1_off421 i) a + S1x16384x128.size a ≤ S4x16384x128.size a
  k1_off423_inb : ∀ i : grid1.Coords, ∀ a, (k1_off423 i) a + S1x16384x128.size a ≤ S4x16384x128.size a
  k1_off425_inb : ∀ i : grid1.Coords, ∀ a, (k1_off425 i) a + S1x16384x128.size a ≤ S4x16384x128.size a
  k1_off427_inb : ∀ i : grid1.Coords, ∀ a, (k1_off427 i) a + S1x16384x128.size a ≤ S4x16384x128.size a
  k1_off429_inb : ∀ i : grid1.Coords, ∀ a, (k1_off429 i) a + S1x16384x128.size a ≤ S4x16384x128.size a
  k1_off431_inb : ∀ i : grid1.Coords, ∀ a, (k1_off431 i) a + S1x16384x128.size a ≤ S4x16384x128.size a
  k1_off433_inb : ∀ i : grid1.Coords, ∀ a, (k1_off433 i) a + S1x16384x128.size a ≤ S4x16384x128.size a
  k1_off435_inb : ∀ i : grid1.Coords, ∀ a, (k1_off435 i) a + S1x16384x128.size a ≤ S4x16384x128.size a
  k1_off437_inb : ∀ i : grid1.Coords, ∀ a, (k1_off437 i) a + S1x16384x128.size a ≤ S4x16384x128.size a
  k1_off439_inb : ∀ i : grid1.Coords, ∀ a, (k1_off439 i) a + S1x16384x128.size a ≤ S4x16384x128.size a
  k1_off441_inb : ∀ i : grid1.Coords, ∀ a, (k1_off441 i) a + S1x16384x128.size a ≤ S4x16384x128.size a
  k1_off443_inb : ∀ i : grid1.Coords, ∀ a, (k1_off443 i) a + S1x16384x128.size a ≤ S4x16384x128.size a
  k1_off445_inb : ∀ i : grid1.Coords, ∀ a, (k1_off445 i) a + S1x16384x128.size a ≤ S4x16384x128.size a
  k1_off447_inb : ∀ i : grid1.Coords, ∀ a, (k1_off447 i) a + S1x16384x128.size a ≤ S4x16384x128.size a
  k1_off449_inb : ∀ i : grid1.Coords, ∀ a, (k1_off449 i) a + S1x16384x128.size a ≤ S4x16384x128.size a
  k1_off451_inb : ∀ i : grid1.Coords, ∀ a, (k1_off451 i) a + S1x16384x128.size a ≤ S4x16384x128.size a
  k1_off453_inb : ∀ i : grid1.Coords, ∀ a, (k1_off453 i) a + S1x16384x128.size a ≤ S4x16384x128.size a
  k1_off455_inb : ∀ i : grid1.Coords, ∀ a, (k1_off455 i) a + S1x16384x128.size a ≤ S4x16384x128.size a
  k1_off457_inb : ∀ i : grid1.Coords, ∀ a, (k1_off457 i) a + S1x16384x128.size a ≤ S4x16384x128.size a
  k1_off459_inb : ∀ i : grid1.Coords, ∀ a, (k1_off459 i) a + S1x16384x128.size a ≤ S4x16384x128.size a
  k1_off461_inb : ∀ i : grid1.Coords, ∀ a, (k1_off461 i) a + S1x16384x128.size a ≤ S4x16384x128.size a
  k1_off463_inb : ∀ i : grid1.Coords, ∀ a, (k1_off463 i) a + S1x16384x128.size a ≤ S4x16384x128.size a
  k1_off465_inb : ∀ i : grid1.Coords, ∀ a, (k1_off465 i) a + S1x16384x128.size a ≤ S4x16384x128.size a
  k1_off467_inb : ∀ i : grid1.Coords, ∀ a, (k1_off467 i) a + S1x16384x128.size a ≤ S4x16384x128.size a
  k1_off469_inb : ∀ i : grid1.Coords, ∀ a, (k1_off469 i) a + S1x16384x128.size a ≤ S4x16384x128.size a
  k1_off471_inb : ∀ i : grid1.Coords, ∀ a, (k1_off471 i) a + S1x16384x128.size a ≤ S4x16384x128.size a
  k1_off473_inb : ∀ i : grid1.Coords, ∀ a, (k1_off473 i) a + S1x16384x128.size a ≤ S4x16384x128.size a
  k1_off475_inb : ∀ i : grid1.Coords, ∀ a, (k1_off475 i) a + S1x16384x128.size a ≤ S4x16384x128.size a
  k1_off477_inb : ∀ i : grid1.Coords, ∀ a, (k1_off477 i) a + S1x16384x128.size a ≤ S4x16384x128.size a
  k1_off479_inb : ∀ i : grid1.Coords, ∀ a, (k1_off479 i) a + S1x16384x128.size a ≤ S4x16384x128.size a
  k1_off481_inb : ∀ i : grid1.Coords, ∀ a, (k1_off481 i) a + S1x16384x128.size a ≤ S4x16384x128.size a
  k1_off483_inb : ∀ i : grid1.Coords, ∀ a, (k1_off483 i) a + S1x16384x128.size a ≤ S4x16384x128.size a
  k1_off485_inb : ∀ i : grid1.Coords, ∀ a, (k1_off485 i) a + S1x16384x128.size a ≤ S4x16384x128.size a
  k1_off487_inb : ∀ i : grid1.Coords, ∀ a, (k1_off487 i) a + S1x16384x128.size a ≤ S4x16384x128.size a
  k1_off489_inb : ∀ i : grid1.Coords, ∀ a, (k1_off489 i) a + S1x16384x128.size a ≤ S4x16384x128.size a
  k1_off491_inb : ∀ i : grid1.Coords, ∀ a, (k1_off491 i) a + S1x16384x128.size a ≤ S4x16384x128.size a
  k1_off493_inb : ∀ i : grid1.Coords, ∀ a, (k1_off493 i) a + S1x16384x128.size a ≤ S4x16384x128.size a
  k1_off495_inb : ∀ i : grid1.Coords, ∀ a, (k1_off495 i) a + S1x16384x128.size a ≤ S4x16384x128.size a
  k1_off497_inb : ∀ i : grid1.Coords, ∀ a, (k1_off497 i) a + S1x16384x128.size a ≤ S4x16384x128.size a
  k1_off499_inb : ∀ i : grid1.Coords, ∀ a, (k1_off499 i) a + S1x16384x128.size a ≤ S4x16384x128.size a
  k1_off501_inb : ∀ i : grid1.Coords, ∀ a, (k1_off501 i) a + S1x16384x128.size a ≤ S4x16384x128.size a
  k1_off503_inb : ∀ i : grid1.Coords, ∀ a, (k1_off503 i) a + S1x16384x128.size a ≤ S4x16384x128.size a
  k1_off505_inb : ∀ i : grid1.Coords, ∀ a, (k1_off505 i) a + S1x16384x128.size a ≤ S4x16384x128.size a
  k1_off507_inb : ∀ i : grid1.Coords, ∀ a, (k1_off507 i) a + S1x16384x128.size a ≤ S4x16384x128.size a
  k1_off509_inb : ∀ i : grid1.Coords, ∀ a, (k1_off509 i) a + S1x16384x128.size a ≤ S4x16384x128.size a
  k1_off511_inb : ∀ i : grid1.Coords, ∀ a, (k1_off511 i) a + S1x16384x128.size a ≤ S4x16384x128.size a
  k1_off513_inb : ∀ i : grid1.Coords, ∀ a, (k1_off513 i) a + S1x16384x128.size a ≤ S4x16384x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8x32.size a ≤ S4x16384x32.size a
  hwx1_0 : ∀ i : grid1.Coords, EltTy.bits .i32 = 32 ∨ (Rect.block (s := S4x16384x32) S1x8x32.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_2 i = cc1_transform_2 i'
  hinb1_1 : ∀ (i : grid1.Coords) a, (cc1_transform_2 i a + 1) * S1x8x128.size a ≤ S4x16384x128.size a
  hwx1_1 : ∀ i : grid1.Coords, EltTy.bits .f32 = 32 ∨ (Rect.block (s := S4x16384x128) S1x8x128.size (cc1_transform_2 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x2048x64.size a ≤ S4x16384x64.size a
  hwx2_0 : ∀ i : grid2.Coords, EltTy.bits .f32 = 32 ∨ (Rect.block (s := S4x16384x64) S1x2048x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x64x2048.size a ≤ S4x64x16384.size a
  hwx2_5 : ∀ i : grid2.Coords, EltTy.bits .f32 = 32 ∨ (Rect.block (s := S4x64x16384) S1x64x2048.size (cc2_transform_5 i) (hinb2_5 i)).WholeWords (EltTy.packing .f32)

variable [Facts₀]

abbrev cc1_scratch1 : DmaSems sig S32 := SemArray.consecutive 9 S32 hcc1_scratch1
def dot_S64x2048_S128x64_S2048x128_0_1_1_0_n_n : DotDims S64x2048 S128x64 S2048x128 where
  lhsContracting := [0]
  rhsContracting := [1]
  lhsNonContracting := [1]
  rhsNonContracting := [0]
  lhsBatch := []
  rhsBatch := []
  wf := dot_S64x2048_S128x64_S2048x128_0_1_1_0_n_n_wf

abbrev win0_0 : Pipeline.Window sig grid0 :=
  Pipeline.Window.ofSpec (Memref.whole main_arg0) S1x64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1x8x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x8x128.size cc1_transform_2 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v3) S1x2048x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v11) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v12) S1x64x2048.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S4x64x16384 : Shape := ⟨3, ![4, 64, 16384]⟩
abbrev S4x16384x32 : Shape := ⟨3, ![4, 16384, 32]⟩
abbrev S64x64 : Shape := ⟨2, ![64, 64]⟩
abbrev S64 : Shape := ⟨1, ![64]⟩
abbrev S4x16384x64 : Shape := ⟨3, ![4, 16384, 64]⟩
abbrev S_ : Shape := ⟨0, ![]⟩
abbrev S4x16384x32x1 : Shape := ⟨4, ![4, 16384, 32, 1]⟩
abbrev S4x16384x32x64 : Shape := ⟨4, ![4, 16384, 32, 64]⟩
abbrev S64x4x16384 : Shape := ⟨3, ![64, 4, 16384]⟩
abbrev S1x64x1 : Shape := ⟨3, ![1, 64, 1]⟩

abbrev nBuf : Space → Nat
  | .hbm => 73
  | .vmem => 0
  | .smem => 0
  | _ => 0

abbrev bufTy : (tb : Table) → Fin (tcTables nBuf tb) → BufTy
  | .hbm, ⟨0, _⟩ => ⟨S4x64x16384, .f32⟩
  | .hbm, ⟨1, _⟩ => ⟨S4x16384x32, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S4x16384x64, .f32⟩
  | .hbm, ⟨6, _⟩ => ⟨S_, .i32⟩
  | .hbm, ⟨7, _⟩ => ⟨S4x16384x32, .i32⟩
  | .hbm, ⟨8, _⟩ => ⟨S4x16384x32, .i1⟩
  | .hbm, ⟨9, _⟩ => ⟨S_, .i32⟩
  | .hbm, ⟨10, _⟩ => ⟨S4x16384x32, .i32⟩
  | .hbm, ⟨11, _⟩ => ⟨S4x16384x32, .i32⟩
  | .hbm, ⟨12, _⟩ => ⟨S4x16384x32, .i32⟩
  | .hbm, ⟨13, _⟩ => ⟨S4x16384x32x1, .i32⟩
  | .hbm, ⟨14, _⟩ => ⟨S4x16384x32x64, .f32⟩
  | .hbm, ⟨15, _⟩ => ⟨S_, .f32⟩
  | .hbm, ⟨16, _⟩ => ⟨S4x16384x64, .f32⟩
  | .hbm, ⟨17, _⟩ => ⟨S_, .f32⟩
  | .hbm, ⟨18, _⟩ => ⟨S4x16384x64, .f32⟩
  | .hbm, ⟨19, _⟩ => ⟨S4x16384x64, .f32⟩
  | .hbm, ⟨20, _⟩ => ⟨S64x4x16384, .f32⟩
  | .hbm, ⟨21, _⟩ => ⟨S4x64x16384, .f32⟩
  | .hbm, ⟨22, _⟩ => ⟨S_, .f32⟩
  | .hbm, ⟨23, _⟩ => ⟨S64, .f32⟩
  | .hbm, ⟨24, _⟩ => ⟨S1x64x1, .f32⟩
  | .hbm, ⟨25, _⟩ => ⟨S_, .f32⟩
  | .hbm, ⟨26, _⟩ => ⟨S1x64x1, .f32⟩
  | .hbm, ⟨27, _⟩ => ⟨S1x64x1, .f32⟩
  | .hbm, ⟨28, _⟩ => ⟨S_, .i32⟩
  | .hbm, ⟨29, _⟩ => ⟨S_, .f32⟩
  | .hbm, ⟨30, _⟩ => ⟨S64, .f32⟩
  | .hbm, ⟨31, _⟩ => ⟨S1x64x1, .f32⟩
  | .hbm, ⟨32, _⟩ => ⟨S_, .f32⟩
  | .hbm, ⟨33, _⟩ => ⟨S1x64x1, .f32⟩
  | .hbm, ⟨34, _⟩ => ⟨S1x64x1, .f32⟩
  | .hbm, ⟨35, _⟩ => ⟨S4x64x16384, .f32⟩
  | .hbm, ⟨36, _⟩ => ⟨S4x64x16384, .f32⟩
  | .hbm, ⟨37, _⟩ => ⟨S4x64x16384, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S64, .f32⟩
  | .hbm, ⟨43, _⟩ => ⟨S1x64x1, .f32⟩
  | .hbm, ⟨44, _⟩ => ⟨S1x64x1, .f32⟩
  | .hbm, ⟨45, _⟩ => ⟨S1x64x1, .f32⟩
  | .hbm, ⟨46, _⟩ => ⟨S_, .f32⟩
  | .hbm, ⟨47, _⟩ => ⟨S_, .i1⟩
  | .hbm, ⟨48, _⟩ => ⟨S_, .f32⟩
  | .hbm, ⟨49, _⟩ => ⟨S_, .f32⟩
  | .hbm, ⟨50, _⟩ => ⟨S1x64x1, .f32⟩
  | .hbm, ⟨51, _⟩ => ⟨S1x64x1, .f32⟩
  | .hbm, ⟨52, _⟩ => ⟨S4x64x16384, .f32⟩
  | .hbm, ⟨53, _⟩ => ⟨S4x64x16384, .f32⟩
  | .hbm, ⟨54, _⟩ => ⟨S_, .f32⟩
  | .hbm, ⟨55, _⟩ => ⟨S1x64x1, .f32⟩
  | .hbm, ⟨56, _⟩ => ⟨S1x64x1, .f32⟩
  | .hbm, ⟨57, _⟩ => ⟨S1x64x1, .f32⟩
  | .hbm, ⟨58, _⟩ => ⟨S4x64x16384, .f32⟩
  | .hbm, ⟨59, _⟩ => ⟨S4x64x16384, .f32⟩
  | .hbm, ⟨60, _⟩ => ⟨S1x64x1, .f32⟩
  | .hbm, ⟨61, _⟩ => ⟨S4x64x16384, .f32⟩
  | .hbm, ⟨62, _⟩ => ⟨S4x64x16384, .f32⟩
  | .hbm, ⟨63, _⟩ => ⟨S1x64x1, .f32⟩
  | .hbm, ⟨64, _⟩ => ⟨S4x64x16384, .f32⟩
  | .hbm, ⟨65, _⟩ => ⟨S4x64x16384, .f32⟩
  | .hbm, ⟨66, _⟩ => ⟨S_, .f32⟩
  | .hbm, ⟨67, _⟩ => ⟨S4x64x16384, .f32⟩
  | .hbm, ⟨68, _⟩ => ⟨S4x64x16384, .i1⟩
  | .hbm, ⟨69, _⟩ => ⟨S_, .f32⟩
  | .hbm, ⟨70, _⟩ => ⟨S4x64x16384, .f32⟩
  | .hbm, ⟨71, _⟩ => ⟨S4x64x16384, .f32⟩
  | .hbm, ⟨72, _⟩ => ⟨S4x64x16384, .f32⟩
  | _, _ => ⟨S4x64x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_call0_cst : Ref sig .tc := ⟨.hbm, 29, rfl⟩
abbrev main_call0_v0 : Ref sig .tc := ⟨.hbm, 30, rfl⟩
abbrev main_call0_v1 : Ref sig .tc := ⟨.hbm, 31, rfl⟩
abbrev main_call0_cst_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_cst_1 : Ref sig .tc := ⟨.hbm, 39, rfl⟩
abbrev main_call0_v8 : Ref sig .tc := ⟨.hbm, 40, rfl⟩
abbrev main_call0_cst_2 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_v12 : Ref sig .tc := ⟨.hbm, 45, rfl⟩
abbrev main_call0_cst_3 : Ref sig .tc := ⟨.hbm, 46, rfl⟩
abbrev main_call0_v13 : Ref sig .tc := ⟨.hbm, 47, rfl⟩
abbrev main_call0_cst_4 : Ref sig .tc := ⟨.hbm, 48, rfl⟩
abbrev main_call0_call0_v0 : Ref sig .tc := ⟨.hbm, 49, rfl⟩
abbrev main_call0_call0_v1 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_cst_5 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_cst_6 : Ref sig .tc := ⟨.hbm, 66, rfl⟩
abbrev main_v31 : Ref sig .tc := ⟨.hbm, 67, rfl⟩
abbrev main_v32 : Ref sig .tc := ⟨.hbm, 68, rfl⟩
abbrev main_cst_7 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩

abbrev nD : Nat := 1
abbrev τ : Topo := Topo.v7x

variable {F : FTy → Type} [FloatOps F]

class Facts₀ : Prop where
  transposes_S4x64x16384_S4x16384x64_0_2_1 : S4x64x16384.Transposes [0, 2, 1] S4x16384x64
  bcast_S_S4x16384x32 : S_.BroadcastsInDim S4x16384x32 (![] : Fin 0 → Fin S4x16384x32.rank)
  bcast_S4x16384x32_S4x16384x32x1_0_1_2 : S4x16384x32.BroadcastsInDim S4x16384x32x1 (![0, 1, 2] : Fin 3 → Fin S4x16384x32x1.rank)
  reducesTo_S4x16384x32x64_S4x16384x64_d2 : S4x16384x32x64.ReducesTo [2] S4x16384x64
  h_S_ : 0 < S_.numel
  bcast_S_S4x16384x64 : S_.BroadcastsInDim S4x16384x64 (![] : Fin 0 → Fin S4x16384x64.rank)
  transposes_S64x4x16384_S4x64x16384_1_0_2 : S64x4x16384.Transposes [1, 0, 2] S4x64x16384
  reducesTo_S4x64x16384_S64_d0_2 : S4x64x16384.ReducesTo [0, 2] S64
  bcast_S64_S1x64x1_1 : S64.BroadcastsInDim S1x64x1 (![1] : Fin 1 → Fin S1x64x1.rank)
  bcast_S_S1x64x1 : S_.BroadcastsInDim S1x64x1 (![] : Fin 0 → Fin S1x64x1.rank)
  bcast_S1x64x1_S4x64x16384_0_1_2 : S1x64x1.BroadcastsInDim S4x64x16384 (![0, 1, 2] : Fin 3 → Fin S4x64x16384.rank)
  bcast_S_S4x64x16384 : S_.BroadcastsInDim S4x64x16384 (![] : Fin 0 → Fin S4x64x16384.rank)
  gather_S4x16384x64_S4x16384x32x1_S4x16384x32x64_3_1_0_0_1_3_1164_wf : GatherDims.WF S4x16384x64 S4x16384x32x1 S4x16384x32x64 [3] [1] [0] [1] [0] 3 ![1, 1, 64]
  dot_S64x64_S4x16384x64_S64x4x16384_1_2_0_01_n_n_wf : DotDims.WF S64x64 S4x16384x64 S64x4x16384 [1] [2] [0] [0, 1] [] []

variable [Facts₀]

def gather_S4x16384x64_S4x16384x32x1_S4x16384x32x64_3_1_0_0_1_3_1164 : GatherDims S4x16384x64 S4x16384x32x1 S4x16384x32x64 where
  offsetDims := [3]
  collapsedSliceDims := [1]
  operandBatchingDims := [0]
  startIndicesBatchingDims := [0]
  startIndexMap := [1]
  indexVectorDim := 3
  sliceSizes := ![1, 1, 64]
  wf := gather_S4x16384x64_S4x16384x32x1_S4x16384x32x64_3_1_0_0_1_3_1164_wf
def dot_S64x64_S4x16384x64_S64x4x16384_1_2_0_01_n_n : DotDims S64x64 S4x16384x64 S64x4x16384 where
  lhsContracting := [1]
  rhsContracting := [2]
  lhsNonContracting := [0]
  rhsNonContracting := [0, 1]
  lhsBatch := []
  rhsBatch := []
  wf := dot_S64x64_S4x16384x64_S64x4x16384_1_2_0_01_n_n_wf

class Facts : Prop extends Facts₀ where

variable [Facts]
-- ==== Proof.K.R0.lean ====
import proofs.«405998_j76398878261701_2_alg».proof.Proof.Gen.Kernel.Launch
import proofs.«405998_j76398878261701_2_alg».proof.Proof.Gen.Kernel.Skeleton
import proofs.«405998_j76398878261701_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1x64x2048 := Rect.unit (s := S1x64x2048) ![0, 0, 0] S1x64x2048.size inb_S1x64x2048_S1x64x2048_0_0_0
abbrev r0_1 : Rect S128x64 := Rect.unit (s := S128x64) ![0, 0] S128x64.size inb_S128x64_S128x64_0_0
abbrev r0_2 : Rect S1x2048x128 := Rect.unit (s := S1x2048x128) ![0, 0, 0] S1x2048x128.size inb_S1x2048x128_S1x2048x128_0_0_0

def out0_2 (x0 : Vec F S1x64x2048 .f32) (x1 : Vec F S128x64 .f32) : Vec F S1x2048x128 .f32 :=
  View.canon [⟨r0_2, k0_pay1 (View.ld x0 r0_0) (View.ld x1 r0_1)⟩]

theorem cover0_2 (p0 : Vec F S1x2048x128 .f32) (y : S1x2048x128.Idx) :
    ∃ pc ∈ ([⟨r0_2, p0⟩] : List (View.Piece (Elt F) S1x2048x128 .f32)), y ∈ pc.1.set :=
  View.cover_of_tiled [⟨r0_2, p0⟩] S1x2048x128.size (by rfl) y

set_option maxHeartbeats 1000000 in

theorem sound_kernel0 (c : Dev nD) (E : Set ℕ) (i : grid0.Coords) (arg0 : Memref sig .tc .vmem S1x64x2048 .f32) (harg0 : arg0.IsWhole) (arg1 : Memref sig .tc .vmem S128x64 .f32) (harg1 : arg1.IsWhole) (arg2 : Memref sig .tc .vmem S1x2048x128 .f32) (harg2 : arg2.IsWhole)
    (x0 : Vec F S1x64x2048 .f32) (x1 : Vec F S128x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__conv_kernel i arg0 harg0 arg1 harg1 arg2 harg2) K := by
  simp only [cc0__conv_kernel_eq_skeleton]; unfold cc0__conv_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.GatherDefs.lean ====
import proofs.«405998_j76398878261701_2_alg».proof.Proof.Gen.Kernel.Launch
import proofs.«405998_j76398878261701_2_alg».proof.Proof.Gen.Kernel.Skeleton
import proofs.«405998_j76398878261701_2_alg».proof.Proof.Gen.Kernel.Points
import Idealize.ShloMosaic.Lib.Pipeline.FrameBody
import Idealize.ShloMosaic.Lib.Ring
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

abbrev scM1_0 : Memref sig .tc .vmem S32x1x128 .f32 := Memref.whole cc1_scratch0

abbrev hbM1_0 : Memref sig .tc .hbm S4x16384x128 .f32 := Memref.whole main_v1

abbrev HbBuf1 (c : Dev nD) {sp : Space} {S : Shape} {e : EltTy} (M : Memref sig .tc sp S e) : Type := Buf (Elt F) (M.view.loc (c : Thread nD τ))

abbrev hbPt1 (c : Dev nD) {sp : Space} {S : Shape} {e : EltTy} (M : Memref sig .tc sp S e) (f : HbBuf1 (F := F) c M) : sProp 𝕄 :=
  M.view.loc (c : Thread nD τ) ↦{fullShare} f

abbrev hbTok1 (c : Dev nD) {sp : Space} {S : Shape} {e : EltTy} (M : Memref sig .tc sp S e) (k : ℕ) (f : HbBuf1 (F := F) c M) : sProp 𝕄 :=
  M.view.loc (c : Thread nD τ) ↦{Transfers.shareTokN fullShare k} f

abbrev ownPt1 (c : Dev nD) {sp : Space} {S : Shape} {e : EltTy} (M : Memref sig .tc sp S e) (f : HbBuf1 (F := F) c M) : sProp 𝕄 :=
  M.view.loc (c : Thread nD τ) ↦[M.view.set]{fullShare} f

/-- A word read of an index block whose entries are all below 16384 names a row of the gathered array, with room for that row. -/
theorem word_inb {sp : Space} (arg2 : Memref sig .tc sp S1x8x32 .i32) (harg2 : arg2.IsWhole) (x0 : Vec F S1x8x32 .i32)
    (hx : ∀ j, (x0 j : BitVec 32).toNat + 1 ≤ 16384) (R : LoadRect S1x8x32) (y : R.shape.Idx) (a : Fin 2) :
    (![(arg2.view.readAt (Elt F) R (harg2.unread x0) y : BitVec 32).toNat, 0] : Fin 2 → ℕ) a + S1x128.size a ≤ S16384x128.size a := by
  have h : (arg2.view.readAt (Elt F) R (harg2.unread x0) y : BitVec 32).toNat + 1 ≤ 16384 := by
    rw [View.readAt_apply, harg2.read_unread]; exact hx _
  fin_cases a
  · exact h
  · exact (by decide : (0 : ℕ) + 128 ≤ 128)

end Cert.Kernel.Fr

end
-- ==== Proof.K.ScratchJoin.lean ====
import proofs.«405998_j76398878261701_2_alg».proof.Proof.K.GatherDefs
import Idealize.ShloMosaic.Lib.Writes
import Idealize.ShloMosaic.Lib.WordExact
import Idealize.ShloMosaic.Lib.ValueIdx
import Idealize.ShloMosaic.Lib.Pipeline.Kit
import Idealize.ShloMosaic.Lib.Pipeline.Value
import Idealize.ShloMosaic.Rules.PointsTo

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

theorem writes_whole_indep {sig : RefSig} {κ : Kind} {sp : Space} {s : Shape} {e : EltTy} {Val : EltTy → Type}
    (v : View sig κ sp s e) (f g : v.ty.Contents Val) (w : s.Idx → Val e) {i : v.ty.Idx} (hi : i ∈ v.set) :
    v.writes Val f [⟨Rect.whole s, w⟩] i = v.writes Val g [⟨Rect.whole s, w⟩] i := by
  obtain ⟨y, rfl⟩ := View.exists_emb_of_mem_set v hi
  have e1 : v.emb y = (v.slice (Rect.whole s)).emb y := by
    show v.emb y = v.emb ((Rect.whole s).emb y)
    rw [Rect.emb_whole_apply]
  show (v.slice (Rect.whole s)).write Val f w Finset.univ (v.emb y) = (v.slice (Rect.whole s)).write Val g w Finset.univ (v.emb y)
  rw [e1, View.write_emb_of_mem _ _ (Finset.mem_univ y), View.write_emb_of_mem _ _ (Finset.mem_univ y)]

theorem slot_inb (k : Fin 32) : ∀ a, (![k.val, 0, 0] : Fin 3 → Nat) a + S1x1x128.size a ≤ S32x1x128.size a :=
  fun a => match a with
    | ⟨0, _⟩ => by show k.val + 1 ≤ 32; omega
    | ⟨1, _⟩ => by show 0 + 1 ≤ 1; omega
    | ⟨2, _⟩ => by show 0 + 128 ≤ 128; omega

abbrev slotM (k : Fin 32) : Memref sig .tc .vmem S1x128 .f32 :=
  ((scM1_0.slice (Rect.unit (s := S32x1x128) ![k.val, 0, 0] S1x1x128.size (slot_inb k)) (fun _ => rfl)).squeeze S1x128 squeezes_S1x1x128_S1x128)

theorem slot_set (k : Fin 32) :
    (slotM k).view.set = (Rect.unit (s := S32x1x128) ![k.val, 0, 0] S1x1x128.size (slot_inb k)).set := by
  show (((View.whole cc1_scratch0).slice (Rect.unit (s := S32x1x128) ![k.val, 0, 0] S1x1x128.size (slot_inb k))).reshape S1x128 _).set = _
  rw [View.set_reshape, View.set_slice_whole]

theorem mem_slot (k : Fin 32) (i : S32x1x128.Idx) : i ∈ (slotM k).view.set ↔ (i 0).val = k.val := by
  rw [slot_set, Rect.mem_set_unit]
  constructor
  · intro h
    have h0 : k.val ≤ (i 0).val ∧ (i 0).val < k.val + 1 := h 0
    omega
  · intro h a
    match a with
    | ⟨0, _⟩ => show k.val ≤ (i 0).val ∧ (i 0).val < k.val + 1; omega
    | ⟨1, _⟩ => show 0 ≤ (i 1).val ∧ (i 1).val < 0 + 1; have h1 : (i 1).val < 1 := (i 1).isLt; omega
    | ⟨2, _⟩ => show 0 ≤ (i 2).val ∧ (i 2).val < 0 + 128; have h2 : (i 2).val < 128 := (i 2).isLt; omega

theorem slot_disjoint (k k' : Fin 32) (h : k ≠ k') : Disjoint (slotM k).view.set (slotM k').view.set := by
  rw [Finset.disjoint_left]
  intro i hi hi'
  rw [mem_slot] at hi hi'
  exact h (Fin.ext (hi.symm.trans hi'))

theorem slots_union : Finset.univ.biUnion (fun k : Fin 32 => (slotM k).view.set) = scM1_0.view.set := by
  ext i
  rw [Finset.mem_biUnion]
  constructor
  · intro _
    show i ∈ (View.whole cc1_scratch0).set
    rw [View.set_whole]; exact Finset.mem_univ i
  · intro _
    exact ⟨⟨(i 0).val, (i 0).isLt⟩, Finset.mem_univ _, (mem_slot _ i).mpr rfl⟩

def slotFill (c : Dev nD) (k : Fin 32) (q : Vec F S1x128 .f32) : HbBuf1 (F := F) c scM1_0 :=
  (slotM k).view.writes (Elt F) (slotM k).view.junk [⟨Rect.whole S1x128, q⟩]

def scratchOf (c : Dev nD) (p : Fin 32 → Vec F S1x128 .f32) : HbBuf1 (F := F) c scM1_0 :=
  fun i : S32x1x128.Idx => slotFill c ⟨(i 0).val, (i 0).isLt⟩ (p ⟨(i 0).val, (i 0).isLt⟩) i

theorem slot_write_eq_scratchOf (c : Dev nD) (p : Fin 32 → Vec F S1x128 .f32) (k : Fin 32) (f : HbBuf1 (F := F) c scM1_0)
    (i : S32x1x128.Idx) (hi : i ∈ (slotM k).view.set) :
    ((slotM k).view.writes (Elt F) f [⟨Rect.whole S1x128, p k⟩] : HbBuf1 (F := F) c scM1_0) i = scratchOf c p i := by
  have hk : (⟨(i 0).val, (i 0).isLt⟩ : Fin 32) = k := Fin.ext ((mem_slot k i).mp hi)
  show _ = slotFill c ⟨(i 0).val, (i 0).isLt⟩ (p ⟨(i 0).val, (i 0).isLt⟩) i
  rw [hk]
  exact writes_whole_indep (slotM k).view f (slotM k).view.junk (p k) hi

theorem scratch_join (c : Dev nD) (f : Fin 32 → HbBuf1 (F := F) c scM1_0) (p : Fin 32 → Vec F S1x128 .f32) :
    bigSep Finset.univ (fun k : Fin 32 =>
        (ownPt1 c (slotM k) ((slotM k).view.writes (Elt F) (f k) [⟨Rect.whole S1x128, p k⟩]) : sProp 𝕄))
      ⊢ (ownPt1 c scM1_0 (scratchOf c p) : sProp 𝕄) := by
  have hc : ∀ k ∈ (Finset.univ : Finset (Fin 32)),
      (ownPt1 c (slotM k) ((slotM k).view.writes (Elt F) (f k) [⟨Rect.whole S1x128, p k⟩]) : sProp 𝕄)
        = (scM1_0.view.loc (c : Thread nD τ) ↦[(slotM k).view.set]{fullShare} scratchOf c p) := fun k _ =>
    pointsTo_congr fun i hi => slot_write_eq_scratchOf c p k (f k) i hi
  have hb := pointsTo_biUnion (nD := nD) (τ := τ) (sig := sig) (Ix := Unit) (Val := Elt F) (Name := ℕ) (U := Pipeline.UD sig nD τ) (Lvl := ℕ)
    (ℓ := scM1_0.view.loc (c : Thread nD τ)) (q := fullShare) (f := scratchOf c p)
    Finset.univ (fun k : Fin 32 => (slotM k).view.set) (fun k _ k' _ h => slot_disjoint k k' h)
  rw [bigSep_congr hc, ← hb, slots_union]

theorem scratch_split (c : Dev nD) (g : HbBuf1 (F := F) c scM1_0) :
    (ownPt1 c scM1_0 g : sProp 𝕄) ⊢ bigSep Finset.univ (fun k : Fin 32 => (ownPt1 c (slotM k) g : sProp 𝕄)) := by
  have hb := pointsTo_biUnion (nD := nD) (τ := τ) (sig := sig) (Ix := Unit) (Val := Elt F) (Name := ℕ) (U := Pipeline.UD sig nD τ) (Lvl := ℕ)
    (ℓ := scM1_0.view.loc (c : Thread nD τ)) (q := fullShare) (f := g)
    Finset.univ (fun k : Fin 32 => (slotM k).view.set) (fun k _ k' _ h => slot_disjoint k k' h)
  rw [slots_union] at hb
  exact Entails.of_eq hb

theorem slot_emb (k : Fin 32) (l : Fin 128) :
    (slotM k).view.emb (ix2 (0 : Fin 1) l) = (ix3 k (0 : Fin 1) l : S32x1x128.Idx) := by
  show (Rect.unit (s := S32x1x128) ![k.val, 0, 0] S1x1x128.size (slot_inb k)).emb
      (Shape.reshapeEquiv squeezes_S1x1x128_S1x128.numel_eq (ix2 (0 : Fin 1) l)) = _
  rw [Shape.reshapeEquiv_eq_of_rowMajor (y := (ix3 (0 : Fin 1) (0 : Fin 1) l : S1x1x128.Idx)) _ (by
    rw [Shape.rowMajor_val_three, Shape.rowMajor_val_two]
    show (0 * 1 + 0) * 128 + l.val = 0 * 128 + l.val
    omega)]
  funext a
  apply Fin.ext
  match a with
  | ⟨0, _⟩ => show k.val + 1 * 0 = k.val; omega
  | ⟨1, _⟩ => show 0 + 1 * 0 = 0; omega
  | ⟨2, _⟩ => show 0 + 1 * l.val = l.val; omega

theorem read_scratchOf (c : Dev nD) (p : Fin 32 → Vec F S1x128 .f32) (k : Fin 32) (l : Fin 128) :
    scM1_0.view.read (Elt F) (scratchOf c p) (ix3 k (0 : Fin 1) l) = p k (ix2 (0 : Fin 1) l) := by
  show slotFill c k (p k) (ix3 k (0 : Fin 1) l : S32x1x128.Idx) = p k (ix2 (0 : Fin 1) l)
  have e1 : (ix3 k (0 : Fin 1) l : S32x1x128.Idx)
      = ((slotM k).view.slice (Rect.whole S1x128)).emb (ix2 (0 : Fin 1) l) := by
    show _ = (slotM k).view.emb ((Rect.whole S1x128).emb (ix2 (0 : Fin 1) l))
    rw [Rect.emb_whole_apply, slot_emb]
  unfold slotFill
  rw [e1]
  show ((slotM k).view.slice (Rect.whole S1x128)).write (Elt F) (slotM k).view.junk (p k) Finset.univ
      (((slotM k).view.slice (Rect.whole S1x128)).emb (ix2 (0 : Fin 1) l)) = _
  rw [View.write_emb_of_mem _ _ (Finset.mem_univ _)]
  rfl

end Cert.Kernel.Fr

end
-- ==== Proof.K.ScratchJoin32.lean ====
import proofs.«405998_j76398878261701_2_alg».proof.Proof.K.ScratchJoin

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

theorem bigSep_slots {M : Type} [URA M] (Φ : Fin 32 → sProp M) :
    bigSep Finset.univ Φ = iprop(Φ (0 : Fin 32) ∗ Φ (1 : Fin 32) ∗ Φ (2 : Fin 32) ∗ Φ (3 : Fin 32) ∗ Φ (4 : Fin 32) ∗ Φ (5 : Fin 32) ∗ Φ (6 : Fin 32) ∗ Φ (7 : Fin 32) ∗ Φ (8 : Fin 32) ∗ Φ (9 : Fin 32) ∗ Φ (10 : Fin 32) ∗ Φ (11 : Fin 32) ∗ Φ (12 : Fin 32) ∗ Φ (13 : Fin 32) ∗ Φ (14 : Fin 32) ∗ Φ (15 : Fin 32) ∗ Φ (16 : Fin 32) ∗ Φ (17 : Fin 32) ∗ Φ (18 : Fin 32) ∗ Φ (19 : Fin 32) ∗ Φ (20 : Fin 32) ∗ Φ (21 : Fin 32) ∗ Φ (22 : Fin 32) ∗ Φ (23 : Fin 32) ∗ Φ (24 : Fin 32) ∗ Φ (25 : Fin 32) ∗ Φ (26 : Fin 32) ∗ Φ (27 : Fin 32) ∗ Φ (28 : Fin 32) ∗ Φ (29 : Fin 32) ∗ Φ (30 : Fin 32) ∗ Φ (31 : Fin 32)) :=
  bigSep_univ_eq_bigSepL [(0 : Fin 32), (1 : Fin 32), (2 : Fin 32), (3 : Fin 32), (4 : Fin 32), (5 : Fin 32), (6 : Fin 32), (7 : Fin 32), (8 : Fin 32), (9 : Fin 32), (10 : Fin 32), (11 : Fin 32), (12 : Fin 32), (13 : Fin 32), (14 : Fin 32), (15 : Fin 32), (16 : Fin 32), (17 : Fin 32), (18 : Fin 32), (19 : Fin 32), (20 : Fin 32), (21 : Fin 32), (22 : Fin 32), (23 : Fin 32), (24 : Fin 32), (25 : Fin 32), (26 : Fin 32), (27 : Fin 32), (28 : Fin 32), (29 : Fin 32), (30 : Fin 32), (31 : Fin 32)] (by decide) (by decide) Φ

set_option maxHeartbeats 1600000 in

theorem scratch_join32 (c : Dev nD)
    (f0 f1 f2 f3 f4 f5 f6 f7 f8 f9 f10 f11 f12 f13 f14 f15 f16 f17 f18 f19 f20 f21 f22 f23 f24 f25 f26 f27 f28 f29 f30 f31 : HbBuf1 (F := F) c scM1_0)
    (p0 p1 p2 p3 p4 p5 p6 p7 p8 p9 p10 p11 p12 p13 p14 p15 p16 p17 p18 p19 p20 p21 p22 p23 p24 p25 p26 p27 p28 p29 p30 p31 : Vec F S1x128 .f32) :
    iprop(ownPt1 c ((scM1_0.slice (Rect.unit (s := S32x1x128) ![0, 0, 0] S1x1x128.size inb_S32x1x128_S1x1x128_0_0_0) (fun _ => rfl)).squeeze S1x128 squeezes_S1x1x128_S1x128) (((scM1_0.slice (Rect.unit (s := S32x1x128) ![0, 0, 0] S1x1x128.size inb_S32x1x128_S1x1x128_0_0_0) (fun _ => rfl)).squeeze S1x128 squeezes_S1x1x128_S1x128).view.writes (Elt F) f0 [⟨Rect.whole S1x128, p0⟩])
        ∗ ownPt1 c ((scM1_0.slice (Rect.unit (s := S32x1x128) ![1, 0, 0] S1x1x128.size inb_S32x1x128_S1x1x128_1_0_0) (fun _ => rfl)).squeeze S1x128 squeezes_S1x1x128_S1x128) (((scM1_0.slice (Rect.unit (s := S32x1x128) ![1, 0, 0] S1x1x128.size inb_S32x1x128_S1x1x128_1_0_0) (fun _ => rfl)).squeeze S1x128 squeezes_S1x1x128_S1x128).view.writes (Elt F) f1 [⟨Rect.whole S1x128, p1⟩])
        ∗ ownPt1 c ((scM1_0.slice (Rect.unit (s := S32x1x128) ![2, 0, 0] S1x1x128.size inb_S32x1x128_S1x1x128_2_0_0) (fun _ => rfl)).squeeze S1x128 squeezes_S1x1x128_S1x128) (((scM1_0.slice (Rect.unit (s := S32x1x128) ![2, 0, 0] S1x1x128.size inb_S32x1x128_S1x1x128_2_0_0) (fun _ => rfl)).squeeze S1x128 squeezes_S1x1x128_S1x128).view.writes (Elt F) f2 [⟨Rect.whole S1x128, p2⟩])
        ∗ ownPt1 c ((scM1_0.slice (Rect.unit (s := S32x1x128) ![3, 0, 0] S1x1x128.size inb_S32x1x128_S1x1x128_3_0_0) (fun _ => rfl)).squeeze S1x128 squeezes_S1x1x128_S1x128) (((scM1_0.slice (Rect.unit (s := S32x1x128) ![3, 0, 0] S1x1x128.size inb_S32x1x128_S1x1x128_3_0_0) (fun _ => rfl)).squeeze S1x128 squeezes_S1x1x128_S1x128).view.writes (Elt F) f3 [⟨Rect.whole S1x128, p3⟩])
        ∗ ownPt1 c ((scM1_0.slice (Rect.unit (s := S32x1x128) ![4, 0, 0] S1x1x128.size inb_S32x1x128_S1x1x128_4_0_0) (fun _ => rfl)).squeeze S1x128 squeezes_S1x1x128_S1x128) (((scM1_0.slice (Rect.unit (s := S32x1x128) ![4, 0, 0] S1x1x128.size inb_S32x1x128_S1x1x128_4_0_0) (fun _ => rfl)).squeeze S1x128 squeezes_S1x1x128_S1x128).view.writes (Elt F) f4 [⟨Rect.whole S1x128, p4⟩])
        ∗ ownPt1 c ((scM1_0.slice (Rect.unit (s := S32x1x128) ![5, 0, 0] S1x1x128.size inb_S32x1x128_S1x1x128_5_0_0) (fun _ => rfl)).squeeze S1x128 squeezes_S1x1x128_S1x128) (((scM1_0.slice (Rect.unit (s := S32x1x128) ![5, 0, 0] S1x1x128.size inb_S32x1x128_S1x1x128_5_0_0) (fun _ => rfl)).squeeze S1x128 squeezes_S1x1x128_S1x128).view.writes (Elt F) f5 [⟨Rect.whole S1x128, p5⟩])
        ∗ ownPt1 c ((scM1_0.slice (Rect.unit (s := S32x1x128) ![6, 0, 0] S1x1x128.size inb_S32x1x128_S1x1x128_6_0_0) (fun _ => rfl)).squeeze S1x128 squeezes_S1x1x128_S1x128) (((scM1_0.slice (Rect.unit (s := S32x1x128) ![6, 0, 0] S1x1x128.size inb_S32x1x128_S1x1x128_6_0_0) (fun _ => rfl)).squeeze S1x128 squeezes_S1x1x128_S1x128).view.writes (Elt F) f6 [⟨Rect.whole S1x128, p6⟩])
        ∗ ownPt1 c ((scM1_0.slice (Rect.unit (s := S32x1x128) ![7, 0, 0] S1x1x128.size inb_S32x1x128_S1x1x128_7_0_0) (fun _ => rfl)).squeeze S1x128 squeezes_S1x1x128_S1x128) (((scM1_0.slice (Rect.unit (s := S32x1x128) ![7, 0, 0] S1x1x128.size inb_S32x1x128_S1x1x128_7_0_0) (fun _ => rfl)).squeeze S1x128 squeezes_S1x1x128_S1x128).view.writes (Elt F) f7 [⟨Rect.whole S1x128, p7⟩])
        ∗ ownPt1 c ((scM1_0.slice (Rect.unit (s := S32x1x128) ![8, 0, 0] S1x1x128.size inb_S32x1x128_S1x1x128_8_0_0) (fun _ => rfl)).squeeze S1x128 squeezes_S1x1x128_S1x128) (((scM1_0.slice (Rect.unit (s := S32x1x128) ![8, 0, 0] S1x1x128.size inb_S32x1x128_S1x1x128_8_0_0) (fun _ => rfl)).squeeze S1x128 squeezes_S1x1x128_S1x128).view.writes (Elt F) f8 [⟨Rect.whole S1x128, p8⟩])
        ∗ ownPt1 c ((scM1_0.slice (Rect.unit (s := S32x1x128) ![9, 0, 0] S1x1x128.size inb_S32x1x128_S1x1x128_9_0_0) (fun _ => rfl)).squeeze S1x128 squeezes_S1x1x128_S1x128) (((scM1_0.slice (Rect.unit (s := S32x1x128) ![9, 0, 0] S1x1x128.size inb_S32x1x128_S1x1x128_9_0_0) (fun _ => rfl)).squeeze S1x128 squeezes_S1x1x128_S1x128).view.writes (Elt F) f9 [⟨Rect.whole S1x128, p9⟩])
        ∗ ownPt1 c ((scM1_0.slice (Rect.unit (s := S32x1x128) ![10, 0, 0] S1x1x128.size inb_S32x1x128_S1x1x128_10_0_0) (fun _ => rfl)).squeeze S1x128 squeezes_S1x1x128_S1x128) (((scM1_0.slice (Rect.unit (s := S32x1x128) ![10, 0, 0] S1x1x128.size inb_S32x1x128_S1x1x128_10_0_0) (fun _ => rfl)).squeeze S1x128 squeezes_S1x1x128_S1x128).view.writes (Elt F) f10 [⟨Rect.whole S1x128, p10⟩])
        ∗ ownPt1 c ((scM1_0.slice (Rect.unit (s := S32x1x128) ![11, 0, 0] S1x1x128.size inb_S32x1x128_S1x1x128_11_0_0) (fun _ => rfl)).squeeze S1x128 squeezes_S1x1x128_S1x128) (((scM1_0.slice (Rect.unit (s := S32x1x128) ![11, 0, 0] S1x1x128.size inb_S32x1x128_S1x1x128_11_0_0) (fun _ => rfl)).squeeze S1x128 squeezes_S1x1x128_S1x128).view.writes (Elt F) f11 [⟨Rect.whole S1x128, p11⟩])
        ∗ ownPt1 c ((scM1_0.slice (Rect.unit (s := S32x1x128) ![12, 0, 0] S1x1x128.size inb_S32x1x128_S1x1x128_12_0_0) (fun _ => rfl)).squeeze S1x128 squeezes_S1x1x128_S1x128) (((scM1_0.slice (Rect.unit (s := S32x1x128) ![12, 0, 0] S1x1x128.size inb_S32x1x128_S1x1x128_12_0_0) (fun _ => rfl)).squeeze S1x128 squeezes_S1x1x128_S1x128).view.writes (Elt F) f12 [⟨Rect.whole S1x128, p12⟩])
        ∗ ownPt1 c ((scM1_0.slice (Rect.unit (s := S32x1x128) ![13, 0, 0] S1x1x128.size inb_S32x1x128_S1x1x128_13_0_0) (fun _ => rfl)).squeeze S1x128 squeezes_S1x1x128_S1x128) (((scM1_0.slice (Rect.unit (s := S32x1x128) ![13, 0, 0] S1x1x128.size inb_S32x1x128_S1x1x128_13_0_0) (fun _ => rfl)).squeeze S1x128 squeezes_S1x1x128_S1x128).view.writes (Elt F) f13 [⟨Rect.whole S1x128, p13⟩])
        ∗ ownPt1 c ((scM1_0.slice (Rect.unit (s := S32x1x128) ![14, 0, 0] S1x1x128.size inb_S32x1x128_S1x1x128_14_0_0) (fun _ => rfl)).squeeze S1x128 squeezes_S1x1x128_S1x128) (((scM1_0.slice (Rect.unit (s := S32x1x128) ![14, 0, 0] S1x1x128.size inb_S32x1x128_S1x1x128_14_0_0) (fun _ => rfl)).squeeze S1x128 squeezes_S1x1x128_S1x128).view.writes (Elt F) f14 [⟨Rect.whole S1x128, p14⟩])
        ∗ ownPt1 c ((scM1_0.slice (Rect.unit (s := S32x1x128) ![15, 0, 0] S1x1x128.size inb_S32x1x128_S1x1x128_15_0_0) (fun _ => rfl)).squeeze S1x128 squeezes_S1x1x128_S1x128) (((scM1_0.slice (Rect.unit (s := S32x1x128) ![15, 0, 0] S1x1x128.size inb_S32x1x128_S1x1x128_15_0_0) (fun _ => rfl)).squeeze S1x128 squeezes_S1x1x128_S1x128).view.writes (Elt F) f15 [⟨Rect.whole S1x128, p15⟩])
        ∗ ownPt1 c ((scM1_0.slice (Rect.unit (s := S32x1x128) ![16, 0, 0] S1x1x128.size inb_S32x1x128_S1x1x128_16_0_0) (fun _ => rfl)).squeeze S1x128 squeezes_S1x1x128_S1x128) (((scM1_0.slice (Rect.unit (s := S32x1x128) ![16, 0, 0] S1x1x128.size inb_S32x1x128_S1x1x128_16_0_0) (fun _ => rfl)).squeeze S1x128 squeezes_S1x1x128_S1x128).view.writes (Elt F) f16 [⟨Rect.whole S1x128, p16⟩])
        ∗ ownPt1 c ((scM1_0.slice (Rect.unit (s := S32x1x128) ![17, 0, 0] S1x1x128.size inb_S32x1x128_S1x1x128_17_0_0) (fun _ => rfl)).squeeze S1x128 squeezes_S1x1x128_S1x128) (((scM1_0.slice (Rect.unit (s := S32x1x128) ![17, 0, 0] S1x1x128.size inb_S32x1x128_S1x1x128_17_0_0) (fun _ => rfl)).squeeze S1x128 squeezes_S1x1x128_S1x128).view.writes (Elt F) f17 [⟨Rect.whole S1x128, p17⟩])
        ∗ ownPt1 c ((scM1_0.slice (Rect.unit (s := S32x1x128) ![18, 0, 0] S1x1x128.size inb_S32x1x128_S1x1x128_18_0_0) (fun _ => rfl)).squeeze S1x128 squeezes_S1x1x128_S1x128) (((scM1_0.slice (Rect.unit (s := S32x1x128) ![18, 0, 0] S1x1x128.size inb_S32x1x128_S1x1x128_18_0_0) (fun _ => rfl)).squeeze S1x128 squeezes_S1x1x128_S1x128).view.writes (Elt F) f18 [⟨Rect.whole S1x128, p18⟩])
        ∗ ownPt1 c ((scM1_0.slice (Rect.unit (s := S32x1x128) ![19, 0, 0] S1x1x128.size inb_S32x1x128_S1x1x128_19_0_0) (fun _ => rfl)).squeeze S1x128 squeezes_S1x1x128_S1x128) (((scM1_0.slice (Rect.unit (s := S32x1x128) ![19, 0, 0] S1x1x128.size inb_S32x1x128_S1x1x128_19_0_0) (fun _ => rfl)).squeeze S1x128 squeezes_S1x1x128_S1x128).view.writes (Elt F) f19 [⟨Rect.whole S1x128, p19⟩])
        ∗ ownPt1 c ((scM1_0.slice (Rect.unit (s := S32x1x128) ![20, 0, 0] S1x1x128.size inb_S32x1x128_S1x1x128_20_0_0) (fun _ => rfl)).squeeze S1x128 squeezes_S1x1x128_S1x128) (((scM1_0.slice (Rect.unit (s := S32x1x128) ![20, 0, 0] S1x1x128.size inb_S32x1x128_S1x1x128_20_0_0) (fun _ => rfl)).squeeze S1x128 squeezes_S1x1x128_S1x128).view.writes (Elt F) f20 [⟨Rect.whole S1x128, p20⟩])
        ∗ ownPt1 c ((scM1_0.slice (Rect.unit (s := S32x1x128) ![21, 0, 0] S1x1x128.size inb_S32x1x128_S1x1x128_21_0_0) (fun _ => rfl)).squeeze S1x128 squeezes_S1x1x128_S1x128) (((scM1_0.slice (Rect.unit (s := S32x1x128) ![21, 0, 0] S1x1x128.size inb_S32x1x128_S1x1x128_21_0_0) (fun _ => rfl)).squeeze S1x128 squeezes_S1x1x128_S1x128).view.writes (Elt F) f21 [⟨Rect.whole S1x128, p21⟩])
        ∗ ownPt1 c ((scM1_0.slice (Rect.unit (s := S32x1x128) ![22, 0, 0] S1x1x128.size inb_S32x1x128_S1x1x128_22_0_0) (fun _ => rfl)).squeeze S1x128 squeezes_S1x1x128_S1x128) (((scM1_0.slice (Rect.unit (s := S32x1x128) ![22, 0, 0] S1x1x128.size inb_S32x1x128_S1x1x128_22_0_0) (fun _ => rfl)).squeeze S1x128 squeezes_S1x1x128_S1x128).view.writes (Elt F) f22 [⟨Rect.whole S1x128, p22⟩])
        ∗ ownPt1 c ((scM1_0.slice (Rect.unit (s := S32x1x128) ![23, 0, 0] S1x1x128.size inb_S32x1x128_S1x1x128_23_0_0) (fun _ => rfl)).squeeze S1x128 squeezes_S1x1x128_S1x128) (((scM1_0.slice (Rect.unit (s := S32x1x128) ![23, 0, 0] S1x1x128.size inb_S32x1x128_S1x1x128_23_0_0) (fun _ => rfl)).squeeze S1x128 squeezes_S1x1x128_S1x128).view.writes (Elt F) f23 [⟨Rect.whole S1x128, p23⟩])
        ∗ ownPt1 c ((scM1_0.slice (Rect.unit (s := S32x1x128) ![24, 0, 0] S1x1x128.size inb_S32x1x128_S1x1x128_24_0_0) (fun _ => rfl)).squeeze S1x128 squeezes_S1x1x128_S1x128) (((scM1_0.slice (Rect.unit (s := S32x1x128) ![24, 0, 0] S1x1x128.size inb_S32x1x128_S1x1x128_24_0_0) (fun _ => rfl)).squeeze S1x128 squeezes_S1x1x128_S1x128).view.writes (Elt F) f24 [⟨Rect.whole S1x128, p24⟩])
        ∗ ownPt1 c ((scM1_0.slice (Rect.unit (s := S32x1x128) ![25, 0, 0] S1x1x128.size inb_S32x1x128_S1x1x128_25_0_0) (fun _ => rfl)).squeeze S1x128 squeezes_S1x1x128_S1x128) (((scM1_0.slice (Rect.unit (s := S32x1x128) ![25, 0, 0] S1x1x128.size inb_S32x1x128_S1x1x128_25_0_0) (fun _ => rfl)).squeeze S1x128 squeezes_S1x1x128_S1x128).view.writes (Elt F) f25 [⟨Rect.whole S1x128, p25⟩])
        ∗ ownPt1 c ((scM1_0.slice (Rect.unit (s := S32x1x128) ![26, 0, 0] S1x1x128.size inb_S32x1x128_S1x1x128_26_0_0) (fun _ => rfl)).squeeze S1x128 squeezes_S1x1x128_S1x128) (((scM1_0.slice (Rect.unit (s := S32x1x128) ![26, 0, 0] S1x1x128.size inb_S32x1x128_S1x1x128_26_0_0) (fun _ => rfl)).squeeze S1x128 squeezes_S1x1x128_S1x128).view.writes (Elt F) f26 [⟨Rect.whole S1x128, p26⟩])
        ∗ ownPt1 c ((scM1_0.slice (Rect.unit (s := S32x1x128) ![27, 0, 0] S1x1x128.size inb_S32x1x128_S1x1x128_27_0_0) (fun _ => rfl)).squeeze S1x128 squeezes_S1x1x128_S1x128) (((scM1_0.slice (Rect.unit (s := S32x1x128) ![27, 0, 0] S1x1x128.size inb_S32x1x128_S1x1x128_27_0_0) (fun _ => rfl)).squeeze S1x128 squeezes_S1x1x128_S1x128).view.writes (Elt F) f27 [⟨Rect.whole S1x128, p27⟩])
        ∗ ownPt1 c ((scM1_0.slice (Rect.unit (s := S32x1x128) ![28, 0, 0] S1x1x128.size inb_S32x1x128_S1x1x128_28_0_0) (fun _ => rfl)).squeeze S1x128 squeezes_S1x1x128_S1x128) (((scM1_0.slice (Rect.unit (s := S32x1x128) ![28, 0, 0] S1x1x128.size inb_S32x1x128_S1x1x128_28_0_0) (fun _ => rfl)).squeeze S1x128 squeezes_S1x1x128_S1x128).view.writes (Elt F) f28 [⟨Rect.whole S1x128, p28⟩])
        ∗ ownPt1 c ((scM1_0.slice (Rect.unit (s := S32x1x128) ![29, 0, 0] S1x1x128.size inb_S32x1x128_S1x1x128_29_0_0) (fun _ => rfl)).squeeze S1x128 squeezes_S1x1x128_S1x128) (((scM1_0.slice (Rect.unit (s := S32x1x128) ![29, 0, 0] S1x1x128.size inb_S32x1x128_S1x1x128_29_0_0) (fun _ => rfl)).squeeze S1x128 squeezes_S1x1x128_S1x128).view.writes (Elt F) f29 [⟨Rect.whole S1x128, p29⟩])
        ∗ ownPt1 c ((scM1_0.slice (Rect.unit (s := S32x1x128) ![30, 0, 0] S1x1x128.size inb_S32x1x128_S1x1x128_30_0_0) (fun _ => rfl)).squeeze S1x128 squeezes_S1x1x128_S1x128) (((scM1_0.slice (Rect.unit (s := S32x1x128) ![30, 0, 0] S1x1x128.size inb_S32x1x128_S1x1x128_30_0_0) (fun _ => rfl)).squeeze S1x128 squeezes_S1x1x128_S1x128).view.writes (Elt F) f30 [⟨Rect.whole S1x128, p30⟩])
        ∗ ownPt1 c ((scM1_0.slice (Rect.unit (s := S32x1x128) ![31, 0, 0] S1x1x128.size inb_S32x1x128_S1x1x128_31_0_0) (fun _ => rfl)).squeeze S1x128 squeezes_S1x1x128_S1x128) (((scM1_0.slice (Rect.unit (s := S32x1x128) ![31, 0, 0] S1x1x128.size inb_S32x1x128_S1x1x128_31_0_0) (fun _ => rfl)).squeeze S1x128 squeezes_S1x1x128_S1x128).view.writes (Elt F) f31 [⟨Rect.whole S1x128, p31⟩]))
      ⊢ (ownPt1 c scM1_0 (scratchOf c ![p0, p1, p2, p3, p4, p5, p6, p7, p8, p9, p10, p11, p12, p13, p14, p15, p16, p17, p18, p19, p20, p21, p22, p23, p24, p25, p26, p27, p28, p29, p30, p31]) : sProp 𝕄) := by
  have h := scratch_join c ![f0, f1, f2, f3, f4, f5, f6, f7, f8, f9, f10, f11, f12, f13, f14, f15, f16, f17, f18, f19, f20, f21, f22, f23, f24, f25, f26, f27, f28, f29, f30, f31] ![p0, p1, p2, p3, p4, p5, p6, p7, p8, p9, p10, p11, p12, p13, p14, p15, p16, p17, p18, p19, p20, p21, p22, p23, p24, p25, p26, p27, p28, p29, p30, p31]
  rw [bigSep_slots] at h
  exact h

set_option maxHeartbeats 1600000 in

theorem scratch_split32 (c : Dev nD) (g : HbBuf1 (F := F) c scM1_0) :
    (ownPt1 c scM1_0 g : sProp 𝕄)
      ⊢ iprop(ownPt1 c ((scM1_0.slice (Rect.unit (s := S32x1x128) ![0, 0, 0] S1x1x128.size inb_S32x1x128_S1x1x128_0_0_0) (fun _ => rfl)).squeeze S1x128 squeezes_S1x1x128_S1x128) g
        ∗ ownPt1 c ((scM1_0.slice (Rect.unit (s := S32x1x128) ![1, 0, 0] S1x1x128.size inb_S32x1x128_S1x1x128_1_0_0) (fun _ => rfl)).squeeze S1x128 squeezes_S1x1x128_S1x128) g
        ∗ ownPt1 c ((scM1_0.slice (Rect.unit (s := S32x1x128) ![2, 0, 0] S1x1x128.size inb_S32x1x128_S1x1x128_2_0_0) (fun _ => rfl)).squeeze S1x128 squeezes_S1x1x128_S1x128) g
        ∗ ownPt1 c ((scM1_0.slice (Rect.unit (s := S32x1x128) ![3, 0, 0] S1x1x128.size inb_S32x1x128_S1x1x128_3_0_0) (fun _ => rfl)).squeeze S1x128 squeezes_S1x1x128_S1x128) g
        ∗ ownPt1 c ((scM1_0.slice (Rect.unit (s := S32x1x128) ![4, 0, 0] S1x1x128.size inb_S32x1x128_S1x1x128_4_0_0) (fun _ => rfl)).squeeze S1x128 squeezes_S1x1x128_S1x128) g
        ∗ ownPt1 c ((scM1_0.slice (Rect.unit (s := S32x1x128) ![5, 0, 0] S1x1x128.size inb_S32x1x128_S1x1x128_5_0_0) (fun _ => rfl)).squeeze S1x128 squeezes_S1x1x128_S1x128) g
        ∗ ownPt1 c ((scM1_0.slice (Rect.unit (s := S32x1x128) ![6, 0, 0] S1x1x128.size inb_S32x1x128_S1x1x128_6_0_0) (fun _ => rfl)).squeeze S1x128 squeezes_S1x1x128_S1x128) g
        ∗ ownPt1 c ((scM1_0.slice (Rect.unit (s := S32x1x128) ![7, 0, 0] S1x1x128.size inb_S32x1x128_S1x1x128_7_0_0) (fun _ => rfl)).squeeze S1x128 squeezes_S1x1x128_S1x128) g
        ∗ ownPt1 c ((scM1_0.slice (Rect.unit (s := S32x1x128) ![8, 0, 0] S1x1x128.size inb_S32x1x128_S1x1x128_8_0_0) (fun _ => rfl)).squeeze S1x128 squeezes_S1x1x128_S1x128) g
        ∗ ownPt1 c ((scM1_0.slice (Rect.unit (s := S32x1x128) ![9, 0, 0] S1x1x128.size inb_S32x1x128_S1x1x128_9_0_0) (fun _ => rfl)).squeeze S1x128 squeezes_S1x1x128_S1x128) g
        ∗ ownPt1 c ((scM1_0.slice (Rect.unit (s := S32x1x128) ![10, 0, 0] S1x1x128.size inb_S32x1x128_S1x1x128_10_0_0) (fun _ => rfl)).squeeze S1x128 squeezes_S1x1x128_S1x128) g
        ∗ ownPt1 c ((scM1_0.slice (Rect.unit (s := S32x1x128) ![11, 0, 0] S1x1x128.size inb_S32x1x128_S1x1x128_11_0_0) (fun _ => rfl)).squeeze S1x128 squeezes_S1x1x128_S1x128) g
        ∗ ownPt1 c ((scM1_0.slice (Rect.unit (s := S32x1x128) ![12, 0, 0] S1x1x128.size inb_S32x1x128_S1x1x128_12_0_0) (fun _ => rfl)).squeeze S1x128 squeezes_S1x1x128_S1x128) g
        ∗ ownPt1 c ((scM1_0.slice (Rect.unit (s := S32x1x128) ![13, 0, 0] S1x1x128.size inb_S32x1x128_S1x1x128_13_0_0) (fun _ => rfl)).squeeze S1x128 squeezes_S1x1x128_S1x128) g
        ∗ ownPt1 c ((scM1_0.slice (Rect.unit (s := S32x1x128) ![14, 0, 0] S1x1x128.size inb_S32x1x128_S1x1x128_14_0_0) (fun _ => rfl)).squeeze S1x128 squeezes_S1x1x128_S1x128) g
        ∗ ownPt1 c ((scM1_0.slice (Rect.unit (s := S32x1x128) ![15, 0, 0] S1x1x128.size inb_S32x1x128_S1x1x128_15_0_0) (fun _ => rfl)).squeeze S1x128 squeezes_S1x1x128_S1x128) g
        ∗ ownPt1 c ((scM1_0.slice (Rect.unit (s := S32x1x128) ![16, 0, 0] S1x1x128.size inb_S32x1x128_S1x1x128_16_0_0) (fun _ => rfl)).squeeze S1x128 squeezes_S1x1x128_S1x128) g
        ∗ ownPt1 c ((scM1_0.slice (Rect.unit (s := S32x1x128) ![17, 0, 0] S1x1x128.size inb_S32x1x128_S1x1x128_17_0_0) (fun _ => rfl)).squeeze S1x128 squeezes_S1x1x128_S1x128) g
        ∗ ownPt1 c ((scM1_0.slice (Rect.unit (s := S32x1x128) ![18, 0, 0] S1x1x128.size inb_S32x1x128_S1x1x128_18_0_0) (fun _ => rfl)).squeeze S1x128 squeezes_S1x1x128_S1x128) g
        ∗ ownPt1 c ((scM1_0.slice (Rect.unit (s := S32x1x128) ![19, 0, 0] S1x1x128.size inb_S32x1x128_S1x1x128_19_0_0) (fun _ => rfl)).squeeze S1x128 squeezes_S1x1x128_S1x128) g
        ∗ ownPt1 c ((scM1_0.slice (Rect.unit (s := S32x1x128) ![20, 0, 0] S1x1x128.size inb_S32x1x128_S1x1x128_20_0_0) (fun _ => rfl)).squeeze S1x128 squeezes_S1x1x128_S1x128) g
        ∗ ownPt1 c ((scM1_0.slice (Rect.unit (s := S32x1x128) ![21, 0, 0] S1x1x128.size inb_S32x1x128_S1x1x128_21_0_0) (fun _ => rfl)).squeeze S1x128 squeezes_S1x1x128_S1x128) g
        ∗ ownPt1 c ((scM1_0.slice (Rect.unit (s := S32x1x128) ![22, 0, 0] S1x1x128.size inb_S32x1x128_S1x1x128_22_0_0) (fun _ => rfl)).squeeze S1x128 squeezes_S1x1x128_S1x128) g
        ∗ ownPt1 c ((scM1_0.slice (Rect.unit (s := S32x1x128) ![23, 0, 0] S1x1x128.size inb_S32x1x128_S1x1x128_23_0_0) (fun _ => rfl)).squeeze S1x128 squeezes_S1x1x128_S1x128) g
        ∗ ownPt1 c ((scM1_0.slice (Rect.unit (s := S32x1x128) ![24, 0, 0] S1x1x128.size inb_S32x1x128_S1x1x128_24_0_0) (fun _ => rfl)).squeeze S1x128 squeezes_S1x1x128_S1x128) g
        ∗ ownPt1 c ((scM1_0.slice (Rect.unit (s := S32x1x128) ![25, 0, 0] S1x1x128.size inb_S32x1x128_S1x1x128_25_0_0) (fun _ => rfl)).squeeze S1x128 squeezes_S1x1x128_S1x128) g
        ∗ ownPt1 c ((scM1_0.slice (Rect.unit (s := S32x1x128) ![26, 0, 0] S1x1x128.size inb_S32x1x128_S1x1x128_26_0_0) (fun _ => rfl)).squeeze S1x128 squeezes_S1x1x128_S1x128) g
        ∗ ownPt1 c ((scM1_0.slice (Rect.unit (s := S32x1x128) ![27, 0, 0] S1x1x128.size inb_S32x1x128_S1x1x128_27_0_0) (fun _ => rfl)).squeeze S1x128 squeezes_S1x1x128_S1x128) g
        ∗ ownPt1 c ((scM1_0.slice (Rect.unit (s := S32x1x128) ![28, 0, 0] S1x1x128.size inb_S32x1x128_S1x1x128_28_0_0) (fun _ => rfl)).squeeze S1x128 squeezes_S1x1x128_S1x128) g
        ∗ ownPt1 c ((scM1_0.slice (Rect.unit (s := S32x1x128) ![29, 0, 0] S1x1x128.size inb_S32x1x128_S1x1x128_29_0_0) (fun _ => rfl)).squeeze S1x128 squeezes_S1x1x128_S1x128) g
        ∗ ownPt1 c ((scM1_0.slice (Rect.unit (s := S32x1x128) ![30, 0, 0] S1x1x128.size inb_S32x1x128_S1x1x128_30_0_0) (fun _ => rfl)).squeeze S1x128 squeezes_S1x1x128_S1x128) g
        ∗ ownPt1 c ((scM1_0.slice (Rect.unit (s := S32x1x128) ![31, 0, 0] S1x1x128.size inb_S32x1x128_S1x1x128_31_0_0) (fun _ => rfl)).squeeze S1x128 squeezes_S1x1x128_S1x128) g) := by
  have h := scratch_split c g
  rw [bigSep_slots] at h
  exact h

end Cert.Kernel.Fr

end
-- ==== Proof.K.GatherRun.lean ====
import proofs.«405998_j76398878261701_2_alg».proof.Proof.K.GatherDefs
import proofs.«405998_j76398878261701_2_alg».proof.Proof.K.ScratchJoin32
import proofs.«405998_j76398878261701_2_alg».proof.Proof.Gen.Kernel.Launch
import proofs.«405998_j76398878261701_2_alg».proof.Proof.Gen.Kernel.Skeleton
import proofs.«405998_j76398878261701_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option sl_exec.stepHeartbeats 400000 in
set_option maxHeartbeats 0 in
noncomputable def kernelRun1_A (c : Dev nD) (i : grid1.Coords) (arg2 : Memref sig .tc .smem S1x8x32 .i32) (harg2 : arg2.IsWhole)
    (arg4 : Memref sig .tc .vmem S1x8x128 .f32) (harg4 : arg4.IsWhole)
    (x0 : Vec F S1x8x32 .i32) (fh0 : HbBuf1 (F := F) c hbM1_0)
    (hx : ∀ j, (x0 j : BitVec 32).toNat + 1 ≤ 16384) :
    { L1 : List (View.Piece (Elt F) S1x8x128 .f32) //
      ∀ (W : Waits sig Unit) (K : PUnit → sProp 𝕄),
        iprop(owns (c : Thread nD τ) arg2 fullShare x0 ∗ (∃ d, owns (c : Thread nD τ) arg4 fullShare d) ∗ (∃ d, owns (c : Thread nD τ) scM1_0 fullShare d)
            ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ hbTok1 c hbM1_0 9 fh0 ∗ hbTok1 c hbM1_0 10 fh0 ∗ hbTok1 c hbM1_0 11 fh0 ∗ hbTok1 c hbM1_0 12 fh0 ∗ hbTok1 c hbM1_0 13 fh0 ∗ hbTok1 c hbM1_0 14 fh0 ∗ hbTok1 c hbM1_0 15 fh0 ∗ hbTok1 c hbM1_0 16 fh0 ∗ hbTok1 c hbM1_0 17 fh0 ∗ hbTok1 c hbM1_0 18 fh0 ∗ hbTok1 c hbM1_0 19 fh0 ∗ hbTok1 c hbM1_0 20 fh0 ∗ hbTok1 c hbM1_0 21 fh0 ∗ hbTok1 c hbM1_0 22 fh0 ∗ hbTok1 c hbM1_0 23 fh0 ∗ hbTok1 c hbM1_0 24 fh0 ∗ hbTok1 c hbM1_0 25 fh0 ∗ hbTok1 c hbM1_0 26 fh0 ∗ hbTok1 c hbM1_0 27 fh0 ∗ hbTok1 c hbM1_0 28 fh0 ∗ hbTok1 c hbM1_0 29 fh0 ∗ hbTok1 c hbM1_0 30 fh0 ∗ hbTok1 c hbM1_0 31 fh0 ∗ hbTok1 c hbM1_0 32 fh0 ∗ hbTok1 c hbM1_0 33 fh0 ∗ hbTok1 c hbM1_0 34 fh0 ∗ hbTok1 c hbM1_0 35 fh0 ∗ hbTok1 c hbM1_0 36 fh0 ∗ hbTok1 c hbM1_0 37 fh0 ∗ hbTok1 c hbM1_0 38 fh0 ∗ hbTok1 c hbM1_0 39 fh0 ∗ hbTok1 c hbM1_0 40 fh0 ∗ owes (c : Thread nD τ) 0 W
            ∗ (iprop(owns (c : Thread nD τ) arg2 fullShare x0 ∗ (∃ f, arg4.view.loc (c : Thread nD τ) ↦[arg4.view.set]{fullShare} arg4.view.writes (Elt F) f L1) ∗ (∃ d, owns (c : Thread nD τ) scM1_0 fullShare d)
                ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ hbTok1 c hbM1_0 9 fh0 ∗ hbTok1 c hbM1_0 10 fh0 ∗ hbTok1 c hbM1_0 11 fh0 ∗ hbTok1 c hbM1_0 12 fh0 ∗ hbTok1 c hbM1_0 13 fh0 ∗ hbTok1 c hbM1_0 14 fh0 ∗ hbTok1 c hbM1_0 15 fh0 ∗ hbTok1 c hbM1_0 16 fh0 ∗ hbTok1 c hbM1_0 17 fh0 ∗ hbTok1 c hbM1_0 18 fh0 ∗ hbTok1 c hbM1_0 19 fh0 ∗ hbTok1 c hbM1_0 20 fh0 ∗ hbTok1 c hbM1_0 21 fh0 ∗ hbTok1 c hbM1_0 22 fh0 ∗ hbTok1 c hbM1_0 23 fh0 ∗ hbTok1 c hbM1_0 24 fh0 ∗ hbTok1 c hbM1_0 25 fh0 ∗ hbTok1 c hbM1_0 26 fh0 ∗ hbTok1 c hbM1_0 27 fh0 ∗ hbTok1 c hbM1_0 28 fh0 ∗ hbTok1 c hbM1_0 29 fh0 ∗ hbTok1 c hbM1_0 30 fh0 ∗ hbTok1 c hbM1_0 31 fh0 ∗ hbTok1 c hbM1_0 32 fh0 ∗ hbTok1 c hbM1_0 33 fh0 ∗ hbTok1 c hbM1_0 34 fh0 ∗ hbTok1 c hbM1_0 35 fh0 ∗ hbTok1 c hbM1_0 36 fh0 ∗ hbTok1 c hbM1_0 37 fh0 ∗ hbTok1 c hbM1_0 38 fh0 ∗ hbTok1 c hbM1_0 39 fh0 ∗ hbTok1 c hbM1_0 40 fh0 ∗ (∃ W', owes (c : Thread nD τ) 0 W')) -∗ K ⟨⟩))
          ⊢ wp frame (wpE (defs₀ (F := F)) Variants.none c none) Set.univ (cc1_kernel i arg2 harg2 (Memref.whole main_v1) (Memref.isWhole_whole _) arg4 harg4 scM1_0 (Memref.isWhole_whole _) cc1_scratch1) K } := by
  refine ⟨?_, fun W K => ?run⟩
  case run =>
    simp only [cc1_kernel_eq_skeleton]; unfold cc1_kernel_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton, k1_part59_eq_skeleton, k1_part60_eq_skeleton, k1_part61_eq_skeleton, k1_part62_eq_skeleton, k1_part63_eq_skeleton, k1_part64_eq_skeleton, k1_part65_eq_skeleton, k1_part66_eq_skeleton, k1_part67_eq_skeleton, k1_part68_eq_skeleton, k1_part69_eq_skeleton, k1_part70_eq_skeleton, k1_part71_eq_skeleton, k1_part72_eq_skeleton, k1_part73_eq_skeleton, k1_part74_eq_skeleton, k1_part75_eq_skeleton, k1_part76_eq_skeleton, k1_part77_eq_skeleton, k1_part78_eq_skeleton, k1_part79_eq_skeleton, k1_part80_eq_skeleton, k1_part81_eq_skeleton, k1_part82_eq_skeleton, k1_part83_eq_skeleton, k1_part84_eq_skeleton, k1_part85_eq_skeleton, k1_part86_eq_skeleton, k1_part87_eq_skeleton, k1_part88_eq_skeleton, k1_part89_eq_skeleton, k1_part90_eq_skeleton, k1_part91_eq_skeleton, k1_part92_eq_skeleton, k1_part93_eq_skeleton, k1_part94_eq_skeleton, k1_part95_eq_skeleton, k1_part96_eq_skeleton, k1_part97_eq_skeleton, k1_part98_eq_skeleton, k1_part99_eq_skeleton, k1_part100_eq_skeleton, k1_part101_eq_skeleton, k1_part102_eq_skeleton, k1_part103_eq_skeleton, k1_part104_eq_skeleton, k1_part105_eq_skeleton, k1_part106_eq_skeleton, k1_part107_eq_skeleton, k1_part108_eq_skeleton, k1_part109_eq_skeleton, k1_part110_eq_skeleton, k1_part111_eq_skeleton, k1_part112_eq_skeleton, k1_part113_eq_skeleton, k1_part114_eq_skeleton, k1_part115_eq_skeleton, k1_part116_eq_skeleton, k1_part117_eq_skeleton, k1_part118_eq_skeleton, k1_part119_eq_skeleton, k1_part120_eq_skeleton, k1_part121_eq_skeleton, k1_part122_eq_skeleton, k1_part123_eq_skeleton, k1_part124_eq_skeleton, k1_part125_eq_skeleton, k1_part126_eq_skeleton, k1_part127_eq_skeleton, k1_part128_eq_skeleton, k1_part129_eq_skeleton, k1_part130_eq_skeleton, k1_part131_eq_skeleton, k1_part132_eq_skeleton, k1_part133_eq_skeleton, k1_part134_eq_skeleton, k1_part135_eq_skeleton, k1_part136_eq_skeleton, k1_part137_eq_skeleton, k1_part138_eq_skeleton, k1_part139_eq_skeleton, k1_part140_eq_skeleton, k1_part141_eq_skeleton, k1_part142_eq_skeleton, k1_part143_eq_skeleton, k1_part144_eq_skeleton, k1_part145_eq_skeleton, k1_part146_eq_skeleton, k1_part147_eq_skeleton, k1_part148_eq_skeleton, k1_part149_eq_skeleton, k1_part150_eq_skeleton, k1_part151_eq_skeleton, k1_part152_eq_skeleton, k1_part153_eq_skeleton, k1_part154_eq_skeleton, k1_part155_eq_skeleton, k1_part156_eq_skeleton, k1_part157_eq_skeleton]
    unfold owns
    iintro ⟨⟨%f0, %hf0, H0⟩, ⟨%d1, %f1, -, H1⟩, ⟨%ds0, %fs0, -, HSw⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hh0, Hh1, Hh2, Hh3, Hh4, Hh5, Hh6, Hh7, Hh8, Hh9, Hh10, Hh11, Hh12, Hh13, Hh14, Hh15, Hh16, Hh17, Hh18, Hh19, Hh20, Hh21, Hh22, Hh23, Hh24, Hh25, Hh26, Hh27, Hh28, Hh29, Hh30, Hh31, HW, Hk⟩
    obtain rfl := harg2.eq_unread hf0
    ihave HSs := (scratch_split32 c _) $$ HSw
    icases HSs with ⟨HS0, HS1, HS2, HS3, HS4, HS5, HS6, HS7, HS8, HS9, HS10, HS11, HS12, HS13, HS14, HS15, HS16, HS17, HS18, HS19, HS20, HS21, HS22, HS23, HS24, HS25, HS26, HS27, HS28, HS29, HS30, HS31⟩
    sl_exec (disch := exact word_inb arg2 harg2 x0 hx _ _)
    ihave HSw := (scratch_join32 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) $$ [HS0 HS1 HS2 HS3 HS4 HS5 HS6 HS7 HS8 HS9 HS10 HS11 HS12 HS13 HS14 HS15 HS16 HS17 HS18 HS19 HS20 HS21 HS22 HS23 HS24 HS25 HS26 HS27 HS28 HS29 HS30 HS31]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      isplitl [HS15]; · iexact HS15
      isplitl [HS16]; · iexact HS16
      isplitl [HS17]; · iexact HS17
      isplitl [HS18]; · iexact HS18
      isplitl [HS19]; · iexact HS19
      isplitl [HS20]; · iexact HS20
      isplitl [HS21]; · iexact HS21
      isplitl [HS22]; · iexact HS22
      isplitl [HS23]; · iexact HS23
      isplitl [HS24]; · iexact HS24
      isplitl [HS25]; · iexact HS25
      isplitl [HS26]; · iexact HS26
      isplitl [HS27]; · iexact HS27
      isplitl [HS28]; · iexact HS28
      isplitl [HS29]; · iexact HS29
      isplitl [HS30]; · iexact HS30
      iexact HS31
    set_option sl_exec.maxSteps 1 in sl_exec
    ihave HSs := (scratch_split32 c _) $$ HSw
    icases HSs with ⟨HS0, HS1, HS2, HS3, HS4, HS5, HS6, HS7, HS8, HS9, HS10, HS11, HS12, HS13, HS14, HS15, HS16, HS17, HS18, HS19, HS20, HS21, HS22, HS23, HS24, HS25, HS26, HS27, HS28, HS29, HS30, HS31⟩
    sl_exec (disch := exact word_inb arg2 harg2 x0 hx _ _)
    ihave HSw := (scratch_join32 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) $$ [HS0 HS1 HS2 HS3 HS4 HS5 HS6 HS7 HS8 HS9 HS10 HS11 HS12 HS13 HS14 HS15 HS16 HS17 HS18 HS19 HS20 HS21 HS22 HS23 HS24 HS25 HS26 HS27 HS28 HS29 HS30 HS31]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      isplitl [HS15]; · iexact HS15
      isplitl [HS16]; · iexact HS16
      isplitl [HS17]; · iexact HS17
      isplitl [HS18]; · iexact HS18
      isplitl [HS19]; · iexact HS19
      isplitl [HS20]; · iexact HS20
      isplitl [HS21]; · iexact HS21
      isplitl [HS22]; · iexact HS22
      isplitl [HS23]; · iexact HS23
      isplitl [HS24]; · iexact HS24
      isplitl [HS25]; · iexact HS25
      isplitl [HS26]; · iexact HS26
      isplitl [HS27]; · iexact HS27
      isplitl [HS28]; · iexact HS28
      isplitl [HS29]; · iexact HS29
      isplitl [HS30]; · iexact HS30
      iexact HS31
    set_option sl_exec.maxSteps 1 in sl_exec
    ihave HSs := (scratch_split32 c _) $$ HSw
    icases HSs with ⟨HS0, HS1, HS2, HS3, HS4, HS5, HS6, HS7, HS8, HS9, HS10, HS11, HS12, HS13, HS14, HS15, HS16, HS17, HS18, HS19, HS20, HS21, HS22, HS23, HS24, HS25, HS26, HS27, HS28, HS29, HS30, HS31⟩
    sl_exec (disch := exact word_inb arg2 harg2 x0 hx _ _)
    ihave HSw := (scratch_join32 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) $$ [HS0 HS1 HS2 HS3 HS4 HS5 HS6 HS7 HS8 HS9 HS10 HS11 HS12 HS13 HS14 HS15 HS16 HS17 HS18 HS19 HS20 HS21 HS22 HS23 HS24 HS25 HS26 HS27 HS28 HS29 HS30 HS31]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      isplitl [HS15]; · iexact HS15
      isplitl [HS16]; · iexact HS16
      isplitl [HS17]; · iexact HS17
      isplitl [HS18]; · iexact HS18
      isplitl [HS19]; · iexact HS19
      isplitl [HS20]; · iexact HS20
      isplitl [HS21]; · iexact HS21
      isplitl [HS22]; · iexact HS22
      isplitl [HS23]; · iexact HS23
      isplitl [HS24]; · iexact HS24
      isplitl [HS25]; · iexact HS25
      isplitl [HS26]; · iexact HS26
      isplitl [HS27]; · iexact HS27
      isplitl [HS28]; · iexact HS28
      isplitl [HS29]; · iexact HS29
      isplitl [HS30]; · iexact HS30
      iexact HS31
    set_option sl_exec.maxSteps 1 in sl_exec
    ihave HSs := (scratch_split32 c _) $$ HSw
    icases HSs with ⟨HS0, HS1, HS2, HS3, HS4, HS5, HS6, HS7, HS8, HS9, HS10, HS11, HS12, HS13, HS14, HS15, HS16, HS17, HS18, HS19, HS20, HS21, HS22, HS23, HS24, HS25, HS26, HS27, HS28, HS29, HS30, HS31⟩
    sl_exec (disch := exact word_inb arg2 harg2 x0 hx _ _)
    ihave HSw := (scratch_join32 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) $$ [HS0 HS1 HS2 HS3 HS4 HS5 HS6 HS7 HS8 HS9 HS10 HS11 HS12 HS13 HS14 HS15 HS16 HS17 HS18 HS19 HS20 HS21 HS22 HS23 HS24 HS25 HS26 HS27 HS28 HS29 HS30 HS31]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      isplitl [HS15]; · iexact HS15
      isplitl [HS16]; · iexact HS16
      isplitl [HS17]; · iexact HS17
      isplitl [HS18]; · iexact HS18
      isplitl [HS19]; · iexact HS19
      isplitl [HS20]; · iexact HS20
      isplitl [HS21]; · iexact HS21
      isplitl [HS22]; · iexact HS22
      isplitl [HS23]; · iexact HS23
      isplitl [HS24]; · iexact HS24
      isplitl [HS25]; · iexact HS25
      isplitl [HS26]; · iexact HS26
      isplitl [HS27]; · iexact HS27
      isplitl [HS28]; · iexact HS28
      isplitl [HS29]; · iexact HS29
      isplitl [HS30]; · iexact HS30
      iexact HS31
    set_option sl_exec.maxSteps 1 in sl_exec
    ihave HSs := (scratch_split32 c _) $$ HSw
    icases HSs with ⟨HS0, HS1, HS2, HS3, HS4, HS5, HS6, HS7, HS8, HS9, HS10, HS11, HS12, HS13, HS14, HS15, HS16, HS17, HS18, HS19, HS20, HS21, HS22, HS23, HS24, HS25, HS26, HS27, HS28, HS29, HS30, HS31⟩
    sl_exec (disch := exact word_inb arg2 harg2 x0 hx _ _)
    ihave HSw := (scratch_join32 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) $$ [HS0 HS1 HS2 HS3 HS4 HS5 HS6 HS7 HS8 HS9 HS10 HS11 HS12 HS13 HS14 HS15 HS16 HS17 HS18 HS19 HS20 HS21 HS22 HS23 HS24 HS25 HS26 HS27 HS28 HS29 HS30 HS31]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      isplitl [HS15]; · iexact HS15
      isplitl [HS16]; · iexact HS16
      isplitl [HS17]; · iexact HS17
      isplitl [HS18]; · iexact HS18
      isplitl [HS19]; · iexact HS19
      isplitl [HS20]; · iexact HS20
      isplitl [HS21]; · iexact HS21
      isplitl [HS22]; · iexact HS22
      isplitl [HS23]; · iexact HS23
      isplitl [HS24]; · iexact HS24
      isplitl [HS25]; · iexact HS25
      isplitl [HS26]; · iexact HS26
      isplitl [HS27]; · iexact HS27
      isplitl [HS28]; · iexact HS28
      isplitl [HS29]; · iexact HS29
      isplitl [HS30]; · iexact HS30
      iexact HS31
    set_option sl_exec.maxSteps 1 in sl_exec
    ihave HSs := (scratch_split32 c _) $$ HSw
    icases HSs with ⟨HS0, HS1, HS2, HS3, HS4, HS5, HS6, HS7, HS8, HS9, HS10, HS11, HS12, HS13, HS14, HS15, HS16, HS17, HS18, HS19, HS20, HS21, HS22, HS23, HS24, HS25, HS26, HS27, HS28, HS29, HS30, HS31⟩
    sl_exec (disch := exact word_inb arg2 harg2 x0 hx _ _)
    ihave HSw := (scratch_join32 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) $$ [HS0 HS1 HS2 HS3 HS4 HS5 HS6 HS7 HS8 HS9 HS10 HS11 HS12 HS13 HS14 HS15 HS16 HS17 HS18 HS19 HS20 HS21 HS22 HS23 HS24 HS25 HS26 HS27 HS28 HS29 HS30 HS31]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      isplitl [HS15]; · iexact HS15
      isplitl [HS16]; · iexact HS16
      isplitl [HS17]; · iexact HS17
      isplitl [HS18]; · iexact HS18
      isplitl [HS19]; · iexact HS19
      isplitl [HS20]; · iexact HS20
      isplitl [HS21]; · iexact HS21
      isplitl [HS22]; · iexact HS22
      isplitl [HS23]; · iexact HS23
      isplitl [HS24]; · iexact HS24
      isplitl [HS25]; · iexact HS25
      isplitl [HS26]; · iexact HS26
      isplitl [HS27]; · iexact HS27
      isplitl [HS28]; · iexact HS28
      isplitl [HS29]; · iexact HS29
      isplitl [HS30]; · iexact HS30
      iexact HS31
    set_option sl_exec.maxSteps 1 in sl_exec
    ihave HSs := (scratch_split32 c _) $$ HSw
    icases HSs with ⟨HS0, HS1, HS2, HS3, HS4, HS5, HS6, HS7, HS8, HS9, HS10, HS11, HS12, HS13, HS14, HS15, HS16, HS17, HS18, HS19, HS20, HS21, HS22, HS23, HS24, HS25, HS26, HS27, HS28, HS29, HS30, HS31⟩
    sl_exec (disch := exact word_inb arg2 harg2 x0 hx _ _)
    ihave HSw := (scratch_join32 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) $$ [HS0 HS1 HS2 HS3 HS4 HS5 HS6 HS7 HS8 HS9 HS10 HS11 HS12 HS13 HS14 HS15 HS16 HS17 HS18 HS19 HS20 HS21 HS22 HS23 HS24 HS25 HS26 HS27 HS28 HS29 HS30 HS31]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      isplitl [HS15]; · iexact HS15
      isplitl [HS16]; · iexact HS16
      isplitl [HS17]; · iexact HS17
      isplitl [HS18]; · iexact HS18
      isplitl [HS19]; · iexact HS19
      isplitl [HS20]; · iexact HS20
      isplitl [HS21]; · iexact HS21
      isplitl [HS22]; · iexact HS22
      isplitl [HS23]; · iexact HS23
      isplitl [HS24]; · iexact HS24
      isplitl [HS25]; · iexact HS25
      isplitl [HS26]; · iexact HS26
      isplitl [HS27]; · iexact HS27
      isplitl [HS28]; · iexact HS28
      isplitl [HS29]; · iexact HS29
      isplitl [HS30]; · iexact HS30
      iexact HS31
    set_option sl_exec.maxSteps 1 in sl_exec
    ihave HSs := (scratch_split32 c _) $$ HSw
    icases HSs with ⟨HS0, HS1, HS2, HS3, HS4, HS5, HS6, HS7, HS8, HS9, HS10, HS11, HS12, HS13, HS14, HS15, HS16, HS17, HS18, HS19, HS20, HS21, HS22, HS23, HS24, HS25, HS26, HS27, HS28, HS29, HS30, HS31⟩
    sl_exec (disch := exact word_inb arg2 harg2 x0 hx _ _)
    ihave HSw := (scratch_join32 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) $$ [HS0 HS1 HS2 HS3 HS4 HS5 HS6 HS7 HS8 HS9 HS10 HS11 HS12 HS13 HS14 HS15 HS16 HS17 HS18 HS19 HS20 HS21 HS22 HS23 HS24 HS25 HS26 HS27 HS28 HS29 HS30 HS31]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      isplitl [HS15]; · iexact HS15
      isplitl [HS16]; · iexact HS16
      isplitl [HS17]; · iexact HS17
      isplitl [HS18]; · iexact HS18
      isplitl [HS19]; · iexact HS19
      isplitl [HS20]; · iexact HS20
      isplitl [HS21]; · iexact HS21
      isplitl [HS22]; · iexact HS22
      isplitl [HS23]; · iexact HS23
      isplitl [HS24]; · iexact HS24
      isplitl [HS25]; · iexact HS25
      isplitl [HS26]; · iexact HS26
      isplitl [HS27]; · iexact HS27
      isplitl [HS28]; · iexact HS28
      isplitl [HS29]; · iexact HS29
      isplitl [HS30]; · iexact HS30
      iexact HS31
    set_option sl_exec.maxSteps 1 in sl_exec
    sl_exec (disch := exact word_inb arg2 harg2 x0 hx _ _)
    sl_step
    iapply Hk
    isplitl [H0]
    · iexists _; isplitr; · ipureintro; exact harg2.read_unread _
      iexact H0
    isplitl [H1]; · iexists _; iexact H1
    isplitl [HSw]
    · iexists _, _; isplitr; swap; · iexact HSw
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    isplitl [Hq31]; · iexact Hq31
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    isplitl [Hh10]; · iexact Hh10
    isplitl [Hh11]; · iexact Hh11
    isplitl [Hh12]; · iexact Hh12
    isplitl [Hh13]; · iexact Hh13
    isplitl [Hh14]; · iexact Hh14
    isplitl [Hh15]; · iexact Hh15
    isplitl [Hh16]; · iexact Hh16
    isplitl [Hh17]; · iexact Hh17
    isplitl [Hh18]; · iexact Hh18
    isplitl [Hh19]; · iexact Hh19
    isplitl [Hh20]; · iexact Hh20
    isplitl [Hh21]; · iexact Hh21
    isplitl [Hh22]; · iexact Hh22
    isplitl [Hh23]; · iexact Hh23
    isplitl [Hh24]; · iexact Hh24
    isplitl [Hh25]; · iexact Hh25
    isplitl [Hh26]; · iexact Hh26
    isplitl [Hh27]; · iexact Hh27
    isplitl [Hh28]; · iexact Hh28
    isplitl [Hh29]; · iexact Hh29
    isplitl [Hh30]; · iexact Hh30
    isplitl [Hh31]; · iexact Hh31
    iexists _; iexact HW

end Cert.Kernel.Fr

end
-- ==== Proof.K.R1.lean ====
import proofs.«405998_j76398878261701_2_alg».proof.Proof.Gen.Kernel.Launch
import proofs.«405998_j76398878261701_2_alg».proof.Proof.Gen.Kernel.Skeleton
import proofs.«405998_j76398878261701_2_alg».proof.Proof.Gen.Kernel.Points
import proofs.«405998_j76398878261701_2_alg».proof.Proof.K.GatherRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev eblk (c : Dev nD) (t : Fin cfg1.N) : Vec F S1x8x32 .i32 := iblk1 V c 0 t

def Hyps1 (c : Dev nD) : Prop :=
  ∀ (t : Fin cfg1.N) (j : S1x8x32.Idx), (eblk V c t j : BitVec 32).toNat + 1 ≤ 16384

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

abbrev VO1_1 : View sig .tc .vmem S1x8x128 .f32 := (Memref.whole cc1_stg1_0 : Memref sig .tc .vmem S1x8x128 .f32).view

abbrev ms1_0 (t : Fin cfg1.N) : Memref sig .tc .smem S1x8x32 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x8x128 .f32 := win1_1.stage (cfg1.slots t 1)
abbrev hs1_1 (t : Fin cfg1.N) : (ms1_1 t).IsWhole := hstage1_1 ((cfg1.slots t 1).cast nbuf1_1)

abbrev osem1 : Fin 32 → SemLoc sig := fun j => (![SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35, SemLoc.dma 36, SemLoc.dma 37, SemLoc.dma 38, SemLoc.dma 39, SemLoc.dma 40] : Fin 32 → SemLoc sig) j
theorem ownSemFacts1 : Pipeline.OwnSemFacts spec1 osem1 := by decide

theorem ownSems01_eq (c : Dev nD) :
    (Pipeline.ownSems0 (Ix := Unit) (Name := ℕ) (U := Pipeline.UD sig nD τ) (Lvl := ℕ) (Val := Elt F) (τ := τ) osem1 c : sProp 𝕄)
      = iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0) := by
  rw [Pipeline.ownSems0_eq_of_list c osem1 [0, 1, 2, 3, 4, 5, 6, 7, 8, 9, 10, 11, 12, 13, 14, 15, 16, 17, 18, 19, 20, 21, 22, 23, 24, 25, 26, 27, 28, 29, 30, 31] (by decide) (by decide)]; rfl

def H1 : Finset (Ref sig .tc) := {main_v1}
theorem H1_sub : H1 ⊆ Pipeline.restRefs sig spec1 := by decide

theorem hbmPts1_eq (c : Dev nD) :
    (bigSep H1 (fun b => ((c : Thread nD τ).loc b) ↦{fullShare} V c b) : sProp 𝕄) = iprop(hbPt1 c hbM1_0 (V c main_v1)) := by
  rw [BI.bigSep_eq_bigSepL_of_eq [main_v1] (by decide) (by decide)]; rfl

theorem PhiD1_eq (c : Dev nD) :
    (Pipeline.ΦD osem1 spec1 H1 V c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f)) ∗ (∃ r, prngReg c r) ∗ iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0) ∗ iprop(hbPt1 c hbM1_0 (V c main_v1))) := by
  rw [Pipeline.ΦD_eq, scopedRest1_eq, ownSems01_eq, hbmPts1_eq]; simp only [scM1_0, owns_whole]; try rfl

theorem shareDrop_add (q : PosShare TreeShare) (a b : ℕ) :
    Transfers.shareDrop (Transfers.shareDrop q a) b = Transfers.shareDrop q (a + b) := by
  induction b with
  | zero => rfl
  | succ b ih => show (Transfers.shareDrop (Transfers.shareDrop q a) b).left = (Transfers.shareDrop q (a + b)).left; rw [ih]

theorem shareTokN_add (q : PosShare TreeShare) (a b : ℕ) :
    Transfers.shareTokN (Transfers.shareDrop q a) b = Transfers.shareTokN q (a + b) := by
  unfold Transfers.shareTokN; rw [shareDrop_add]

theorem hbToks1 (c : Dev nD) (f : HbBuf1 (F := F) c hbM1_0) :
    (hbPt1 c hbM1_0 f : sProp 𝕄) ⊣⊢ iprop(((hbM1_0.view.loc (c : Thread nD τ) ↦{Transfers.shareDrop (Transfers.shareDrop fullShare 9) 32} f) ∗ hbTok1 c hbM1_0 9 f ∗ hbTok1 c hbM1_0 10 f ∗ hbTok1 c hbM1_0 11 f ∗ hbTok1 c hbM1_0 12 f ∗ hbTok1 c hbM1_0 13 f ∗ hbTok1 c hbM1_0 14 f ∗ hbTok1 c hbM1_0 15 f ∗ hbTok1 c hbM1_0 16 f ∗ hbTok1 c hbM1_0 17 f ∗ hbTok1 c hbM1_0 18 f ∗ hbTok1 c hbM1_0 19 f ∗ hbTok1 c hbM1_0 20 f ∗ hbTok1 c hbM1_0 21 f ∗ hbTok1 c hbM1_0 22 f ∗ hbTok1 c hbM1_0 23 f ∗ hbTok1 c hbM1_0 24 f ∗ hbTok1 c hbM1_0 25 f ∗ hbTok1 c hbM1_0 26 f ∗ hbTok1 c hbM1_0 27 f ∗ hbTok1 c hbM1_0 28 f ∗ hbTok1 c hbM1_0 29 f ∗ hbTok1 c hbM1_0 30 f ∗ hbTok1 c hbM1_0 31 f ∗ hbTok1 c hbM1_0 32 f ∗ hbTok1 c hbM1_0 33 f ∗ hbTok1 c hbM1_0 34 f ∗ hbTok1 c hbM1_0 35 f ∗ hbTok1 c hbM1_0 36 f ∗ hbTok1 c hbM1_0 37 f ∗ hbTok1 c hbM1_0 38 f ∗ hbTok1 c hbM1_0 39 f ∗ hbTok1 c hbM1_0 40 f)
      ∗ BI.bigSep (Finset.range 9) (fun i => hbM1_0.view.loc (c : Thread nD τ) ↦{Transfers.shareTokN fullShare i} f)) := by
  have h1 := Transfers.pointsTo_toks_range (Ix := Unit) (Name := ℕ) (U := Pipeline.UD sig nD τ) (Lvl := ℕ) (ℓ := hbM1_0.view.loc (c : Thread nD τ)) (S := Finset.univ) (f := f) fullShare 9
  have h2 := Transfers.pointsTo_toks_range (Ix := Unit) (Name := ℕ) (U := Pipeline.UD sig nD τ) (Lvl := ℕ) (ℓ := hbM1_0.view.loc (c : Thread nD τ)) (S := Finset.univ) (f := f) (Transfers.shareDrop fullShare 9) 32
  rw [BI.bigSep_eq_bigSepL_of_eq [0, 1, 2, 3, 4, 5, 6, 7, 8, 9, 10, 11, 12, 13, 14, 15, 16, 17, 18, 19, 20, 21, 22, 23, 24, 25, 26, 27, 28, 29, 30, 31] (by decide) (by decide)] at h2
  simp only [shareTokN_add] at h2
  exact ⟨h1.1.trans (sep_mono_left h2.1), (sep_mono_left h2.2).trans h1.2⟩

theorem cover1_A_1 (c : Dev nD) (i : grid1.Coords) (arg2 : Memref sig .tc .smem S1x8x32 .i32) (harg2 : arg2.IsWhole)
    (arg4 : Memref sig .tc .vmem S1x8x128 .f32) (harg4 : arg4.IsWhole)
    (x0 : Vec F S1x8x32 .i32) (fh0 : HbBuf1 (F := F) c hbM1_0) (hx : ∀ j, (x0 j : BitVec 32).toNat + 1 ≤ 16384) (y : S1x8x128.Idx) :
    ∃ pc ∈ (kernelRun1_A c i arg2 harg2 arg4 harg4 x0 fh0 hx).1, y ∈ pc.1.set :=
  View.cover_of_tiledL (kernelRun1_A c i arg2 harg2 arg4 harg4 x0 fh0 hx).1 S1x8x128.size (by sl_kernel_rfl) y

def out1_A_1 (c : Dev nD) (i : grid1.Coords) (arg2 : Memref sig .tc .smem S1x8x32 .i32) (harg2 : arg2.IsWhole)
    (arg4 : Memref sig .tc .vmem S1x8x128 .f32) (harg4 : arg4.IsWhole)
    (x0 : Vec F S1x8x32 .i32) (fh0 : HbBuf1 (F := F) c hbM1_0) (hx : ∀ j, (x0 j : BitVec 32).toNat + 1 ≤ 16384) : Vec F S1x8x128 .f32 :=
  VO1_1.read (Elt F) (VO1_1.writes (Elt F) VO1_1.junk (kernelRun1_A c i arg2 harg2 arg4 harg4 x0 fh0 hx).1)

def outsAt1 (c : Dev nD) (hy : Hyps1 V c) (t : Fin cfg1.N) : Vec F S1x8x128 .f32 :=
  out1_A_1 c (grid1.coords t) (ms1_0 t) (hs1_0 t) (ms1_1 t) (hs1_1 t) (eblk V c t) (V c main_v1) (hy t)

def dat1 (c : Dev nD) (hy : Hyps1 V c) : Dat τ (Elt F) Unit ℕ (Pipeline.UD sig nD τ) ℕ cfg1 c where
  A w := V c (Pipeline.arrRef spec1 w)
  after w t := match w with
    | ⟨0, _⟩ => iblk1 V c 0 t
    | ⟨1, _⟩ => outsAt1 V c hy t
  Φ _ := Pipeline.ΦD osem1 spec1 H1 V c
  q _ := fullShare
  owed _ := 0

theorem A_eq1 (c : Dev nD) (hy : Hyps1 V c) (w : Fin cfg1.W) : (dat1 V c hy).A w = V c (Pipeline.arrRef spec1 w) := by
  dsimp only [dat1]
theorem after1_0 (c : Dev nD) (hy : Hyps1 V c) (t : Fin cfg1.N) : (dat1 V c hy).after 0 t = iblk1 V c 0 t := by dsimp only [dat1]
theorem after1_1 (c : Dev nD) (hy : Hyps1 V c) (t : Fin cfg1.N) : (dat1 V c hy).after 1 t = outsAt1 V c hy t := by dsimp only [dat1]

theorem before1_0 (c : Dev nD) (hy : Hyps1 V c) (t : Fin cfg1.N) (d) : (dat1 V c hy).before 0 t d = iblk1 V c 0 t :=
  before1_0_of V (dat1 V c hy) (A_eq1 V c hy 0) (after1_0 V c hy) t d

def bodyPre1 (c : Dev nD) (hy : Hyps1 V c) (t : Fin cfg1.N) : sProp 𝕄 :=
  iprop((dat1 V c hy).Φ t.castSucc ∗ (dat1 V c hy).owesAt () t.castSucc
    ∗ (∃ d, owns (c : Thread nD τ) (ms1_0 t) fullShare ((dat1 V c hy).before 0 t d))
    ∗ (∃ d, owns (c : Thread nD τ) (ms1_1 t) fullShare ((dat1 V c hy).before 1 t d)))

def bodyPost1 (c : Dev nD) (hy : Hyps1 V c) (t : Fin cfg1.N) : sProp 𝕄 :=
  iprop((dat1 V c hy).Φ t.succ ∗ (dat1 V c hy).owesAt () t.succ
    ∗ owns (c : Thread nD τ) (ms1_0 t) fullShare ((dat1 V c hy).after 0 t)
    ∗ owns (c : Thread nD τ) (ms1_1 t) fullShare ((dat1 V c hy).after 1 t))

set_option maxHeartbeats 4000000 in

theorem sound_body1 (c : Dev nD) (hy : Hyps1 V c) (t : Fin cfg1.N) :
    bodyPre1 V c hy t ⊢ wp frame (wpE (defs₀ (F := F)) Variants.none c none) Set.univ (bodyAt1 t) (fun _ => bodyPost1 V c hy t) := by
  unfold bodyPre1 bodyPost1 bodyAt1
  simp only [before1_0]
  rw [show (dat1 V c hy).Φ t.succ = (dat1 V c hy).Φ t.castSucc from rfl,
    after1_0, after1_1]
  rw [show (dat1 V c hy).Φ t.castSucc = Pipeline.ΦD osem1 spec1 H1 V c from rfl, PhiD1_eq]
  unfold Dat.owesAt Pipeline.owesWithin
  rw [show (dat1 V c hy).owed t.castSucc = 0 from rfl, show (dat1 V c hy).owed t.succ = 0 from rfl]
  unfold outsAt1
  unfold out1_A_1
  iintro ⟨⟨⟨HR0, HR1, HR2, HR3, HR4, HS0, HR6, HR7, HR8, HR9, HR10, HR11, HR12, HR13⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31⟩, Hh0⟩, ⟨%W, -, HW⟩, ⟨%d0, H0⟩, ⟨%d1, H1⟩⟩
  ihave Hs := (hbToks1 c (V c main_v1)).1 $$ Hh0
  icases Hs with ⟨⟨Hd, Ht9, Ht10, Ht11, Ht12, Ht13, Ht14, Ht15, Ht16, Ht17, Ht18, Ht19, Ht20, Ht21, Ht22, Ht23, Ht24, Ht25, Ht26, Ht27, Ht28, Ht29, Ht30, Ht31, Ht32, Ht33, Ht34, Ht35, Ht36, Ht37, Ht38, Ht39, Ht40⟩, Hb⟩
  iapply ((kernelRun1_A c (grid1.coords t) _ _ _ _ (eblk V c t) (V c main_v1) (hy t)).2 W _)
  isplitl [H0]; · iexact H0
  isplitl [H1]; · iexists _; iexact H1
  iframe HS0 Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Ht9 Ht10 Ht11 Ht12 Ht13 Ht14 Ht15 Ht16 Ht17 Ht18 Ht19 Ht20 Ht21 Ht22 Ht23 Ht24 Ht25 Ht26 Ht27 Ht28 Ht29 Ht30 Ht31 Ht32 Ht33 Ht34 Ht35 Ht36 Ht37 Ht38 Ht39 Ht40 HW
  iintro ⟨H0, ⟨%e1, H1⟩, HS0, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Ht9, Ht10, Ht11, Ht12, Ht13, Ht14, Ht15, Ht16, Ht17, Ht18, Ht19, Ht20, Ht21, Ht22, Ht23, Ht24, Ht25, Ht26, Ht27, Ht28, Ht29, Ht30, Ht31, Ht32, Ht33, Ht34, Ht35, Ht36, Ht37, Ht38, Ht39, Ht40, ⟨%W', HW'⟩⟩
  ihave Hh0 := (hbToks1 c (V c main_v1)).2 $$ [Hd Ht9 Ht10 Ht11 Ht12 Ht13 Ht14 Ht15 Ht16 Ht17 Ht18 Ht19 Ht20 Ht21 Ht22 Ht23 Ht24 Ht25 Ht26 Ht27 Ht28 Ht29 Ht30 Ht31 Ht32 Ht33 Ht34 Ht35 Ht36 Ht37 Ht38 Ht39 Ht40 Hb]
  · iframe
  isplitl [HR0 HR1 HR2 HR3 HR4 HS0 HR6 HR7 HR8 HR9 HR10 HR11 HR12 HR13 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hh0]
  · iframe
  isplitl [HW']
  · iexists W'; isplitr; · ipureintro; exact fun _ _ => Or.inl trivial
    iexact HW'
  isplitl [H0]; · iexact H0
  unfold owns; iexists _; isplitr
  swap; · iexact H1
  ipureintro; exact View.read_writes_of_cover _ _ _ _ _ (cover1_A_1 c _ _ _ _ _ _ _ _)

set_option maxRecDepth 131072 in

theorem body_obligation1 (c : Dev nD) (hy : Hyps1 V c) : BodyObligation (dat1 (F := F) V c hy) (defs₀ (F := F)) Variants.none () Set.univ := fun t => by
  rw [bigSep_W1, bigSep_W1]
  exact sound_body1 V c hy t

end Cert.Kernel.Fr

end
-- ==== Proof.K.R2.lean ====
import proofs.«405998_j76398878261701_2_alg».proof.Proof.Gen.Kernel.Launch
import proofs.«405998_j76398878261701_2_alg».proof.Proof.Gen.Kernel.Skeleton
import proofs.«405998_j76398878261701_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S1x2048x64 := Rect.unit (s := S1x2048x64) ![0, 0, 0] S1x2048x64.size inb_S1x2048x64_S1x2048x64_0_0_0
abbrev r2_1 : Rect S1x64 := Rect.unit (s := S1x64) ![0, 0] S1x64.size inb_S1x64_S1x64_0_0
abbrev r2_2 : Rect S1x64 := Rect.unit (s := S1x64) ![0, 0] S1x64.size inb_S1x64_S1x64_0_0
abbrev r2_3 : Rect S1x64 := Rect.unit (s := S1x64) ![0, 0] S1x64.size inb_S1x64_S1x64_0_0
abbrev r2_4 : Rect S1x64 := Rect.unit (s := S1x64) ![0, 0] S1x64.size inb_S1x64_S1x64_0_0
abbrev r2_5 : Rect S1x64x2048 := Rect.unit (s := S1x64x2048) ![0, 0, 0] S1x64x2048.size inb_S1x64x2048_S1x64x2048_0_0_0

def out2_5 (x0 : Vec F S1x2048x64 .f32) (x1 : Vec F S1x64 .f32) (x2 : Vec F S1x64 .f32) (x3 : Vec F S1x64 .f32) (x4 : Vec F S1x64 .f32) : Vec F S1x64x2048 .f32 :=
  View.canon [⟨r2_5, k2_pay1 (View.ld x0 r2_0) (View.ld x1 r2_1) (View.ld x2 r2_2) (View.ld x3 r2_3) (View.ld x4 r2_4)⟩]

theorem cover2_5 (p0 : Vec F S1x64x2048 .f32) (y : S1x64x2048.Idx) :
    ∃ pc ∈ ([⟨r2_5, p0⟩] : List (View.Piece (Elt F) S1x64x2048 .f32)), y ∈ pc.1.set :=
  View.cover_of_tiled [⟨r2_5, p0⟩] S1x64x2048.size (by rfl) y

set_option maxHeartbeats 1000000 in

theorem sound_kernel2 (c : Dev nD) (E : Set ℕ) (i : grid2.Coords) (arg0 : Memref sig .tc .vmem S1x2048x64 .f32) (harg0 : arg0.IsWhole) (arg1 : Memref sig .tc .vmem S1x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64x2048 .f32) (harg5 : arg5.IsWhole)
    (x0 : Vec F S1x2048x64 .f32) (x1 : Vec F S1x64 .f32) (x2 : Vec F S1x64 .f32) (x3 : Vec F S1x64 .f32) (x4 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out2_5 x0 x1 x2 x3 x4)) -∗ K ⟨⟩))
      ⊢ wp frame (wpE (defs₀ (F := F)) Variants.none c none) E (cc2__bn_relu_kernel i arg0 harg0 arg1 harg1 arg2 harg2 arg3 harg3 arg4 harg4 arg5 harg5) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.Run.lean ====
import proofs.«405998_j76398878261701_2_alg».proof.Proof.Gen.Kernel.Launch
import proofs.«405998_j76398878261701_2_alg».proof.Proof.Gen.Kernel.Skeleton
import proofs.«405998_j76398878261701_2_alg».proof.Proof.Gen.Kernel.Points
import proofs.«405998_j76398878261701_2_alg».proof.Proof.Gen.Kernel.Regions
import proofs.«405998_j76398878261701_2_alg».proof.Proof.K.R0
import proofs.«405998_j76398878261701_2_alg».proof.Proof.K.R1
import proofs.«405998_j76398878261701_2_alg».proof.Proof.K.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

def W1 (c : Dev nD) : Valuation τ sig (Elt F) := StableHlo.after hostOps0 (W0 m ρ c)

def W2 (c : Dev nD) : Valuation τ sig (Elt F) := StableHlo.after hostOps0_1 (W1 m ρ c)
abbrev V2 : (c : Dev nD) → (b : Ref sig .tc) → Buf (Elt F) ((c : Thread nD τ).loc b) := fun c b => W2 m ρ c b

def W3 (c : Dev nD) : Valuation τ sig (Elt F) :=
  Pipeline.withArrays spec0 c (W2 m ρ c) fun w => (dat0 (V2 m ρ) c).arrAt w cfg0.N
abbrev V3 : (c : Dev nD) → (b : Ref sig .tc) → Buf (Elt F) ((c : Thread nD τ).loc b) := fun c b => W3 m ρ c b

variable (hy : ∀ c : Dev nD, Hyps1 (V3 m ρ) c)

def W4 (c : Dev nD) : Valuation τ sig (Elt F) :=
  Pipeline.withArrays spec1 c (W3 m ρ c) fun w => (dat1 (V3 m ρ) c (hy c)).arrAt w cfg1.N
abbrev V4 : (c : Dev nD) → (b : Ref sig .tc) → Buf (Elt F) ((c : Thread nD τ).loc b) := fun c b => W4 m ρ hy c b

def W5 (c : Dev nD) : Valuation τ sig (Elt F) := StableHlo.after hostOps2 (W4 m ρ hy c)

def W6 (c : Dev nD) : Valuation τ sig (Elt F) := StableHlo.after hostOps2_1 (W5 m ρ hy c)

def W7 (c : Dev nD) : Valuation τ sig (Elt F) := StableHlo.after hostOps2_2 (W6 m ρ hy c)
abbrev V7 : (c : Dev nD) → (b : Ref sig .tc) → Buf (Elt F) ((c : Thread nD τ).loc b) := fun c b => W7 m ρ hy c b

def W8 (c : Dev nD) : Valuation τ sig (Elt F) :=
  Pipeline.withArrays spec2 c (W7 m ρ hy c) fun w => (dat2 (V7 m ρ hy) c).arrAt w cfg2.N
abbrev V8 : (c : Dev nD) → (b : Ref sig .tc) → Buf (Elt F) ((c : Thread nD τ).loc b) := fun c b => W8 m ρ hy c b

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h

theorem W3_arr (c : Dev nD) (w : Fin cfg0.W) :
    W3 m ρ c (Proc.devRef .tc (Pipeline.arrRef spec0 w)) = (dat0 (V2 m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb

theorem hF0 (c : Dev nD) (w : Fin cfg0.W) : (dat0 (V2 m ρ) c).arrAt w cfg0.N = V3 m ρ c (Pipeline.arrRef spec0 w) :=
  (W3_arr m ρ c w).symm
theorem hrest0 (c : Dev nD) : ∀ b, b ∉ Finset.univ.image (Pipeline.arrRef spec0) → V3 m ρ c b = V2 m ρ c b :=
  fun b hb => W3_of_ne m ρ c b fun w e => hb (Finset.mem_image.mpr ⟨w, Finset.mem_univ _, e⟩)

theorem W4_arr (c : Dev nD) (w : Fin cfg1.W) :
    W4 m ρ hy c (Proc.devRef .tc (Pipeline.arrRef spec1 w)) = (dat1 (V3 m ρ) c (hy c)).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ hy c (Proc.devRef .tc b) = W3 m ρ c (Proc.devRef .tc b) := by
  unfold W4; exact Pipeline.withArrays_of_ne spec1 c _ _ b hb
theorem hF1 (c : Dev nD) (w : Fin cfg1.W) : (dat1 (V3 m ρ) c (hy c)).arrAt w cfg1.N = V4 m ρ hy c (Pipeline.arrRef spec1 w) :=
  (W4_arr m ρ hy c w).symm
theorem hrest1 (c : Dev nD) : ∀ b, b ∉ Finset.univ.image (Pipeline.arrRef spec1) → V4 m ρ hy c b = V3 m ρ c b :=
  fun b hb => W4_of_ne m ρ hy c b fun w e => hb (Finset.mem_image.mpr ⟨w, Finset.mem_univ _, e⟩)

theorem W5_of (c : Dev nD) (r : Ref sig .tc) (h : r ∉ hostOps2_W) :
    W5 m ρ hy c (Proc.devRef .tc r) = W4 m ρ hy c (Proc.devRef .tc r) :=
  StableHlo.after_of_writes_sub hostOps2 _ hostOps2_writes h
theorem W6_of (c : Dev nD) (r : Ref sig .tc) (h : r ∉ hostOps2_1_W) :
    W6 m ρ hy c (Proc.devRef .tc r) = W5 m ρ hy c (Proc.devRef .tc r) :=
  StableHlo.after_of_writes_sub hostOps2_1 _ hostOps2_1_writes h
theorem W7_of (c : Dev nD) (r : Ref sig .tc) (h : r ∉ hostOps2_2_W) :
    W7 m ρ hy c (Proc.devRef .tc r) = W6 m ρ hy c (Proc.devRef .tc r) :=
  StableHlo.after_of_writes_sub hostOps2_2 _ hostOps2_2_writes h

theorem W8_arr (c : Dev nD) (w : Fin cfg2.W) :
    W8 m ρ hy c (Proc.devRef .tc (Pipeline.arrRef spec2 w)) = (dat2 (V7 m ρ hy) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ hy c (Proc.devRef .tc b) = W7 m ρ hy c (Proc.devRef .tc b) := by
  unfold W8; exact Pipeline.withArrays_of_ne spec2 c _ _ b hb
theorem hF2 (c : Dev nD) (w : Fin cfg2.W) : (dat2 (V7 m ρ hy) c).arrAt w cfg2.N = V8 m ρ hy c (Pipeline.arrRef spec2 w) :=
  (W8_arr m ρ hy c w).symm
theorem hrest2 (c : Dev nD) : ∀ b, b ∉ Finset.univ.image (Pipeline.arrRef spec2) → V8 m ρ hy c b = V7 m ρ hy c b :=
  fun b hb => W8_of_ne m ρ hy c b fun w e => hb (Finset.mem_image.mpr ⟨w, Finset.mem_univ _, e⟩)

theorem W8_untouched (c : Dev nD) (r : Ref sig .tc) (h0 : r ∉ hostOps0_W) (h1 : r ∉ hostOps0_1_W) (h2 : ∀ w, Pipeline.arrRef spec0 w ≠ r)
    (h3 : ∀ w, Pipeline.arrRef spec1 w ≠ r) (h4 : r ∉ hostOps2_W) (h5 : r ∉ hostOps2_1_W) (h6 : r ∉ hostOps2_2_W)
    (h7 : ∀ w, Pipeline.arrRef spec2 w ≠ r) : W8 m ρ hy c (Proc.devRef .tc r) = m ((c : Thread nD τ).loc r) :=
  calc W8 m ρ hy c (Proc.devRef .tc r)
    _ = W7 m ρ hy c (Proc.devRef .tc r) := W8_of_ne m ρ hy c r h7
    _ = W6 m ρ hy c (Proc.devRef .tc r) := W7_of m ρ hy c r h6
    _ = W5 m ρ hy c (Proc.devRef .tc r) := W6_of m ρ hy c r h5
    _ = W4 m ρ hy c (Proc.devRef .tc r) := W5_of m ρ hy c r h4
    _ = W3 m ρ c (Proc.devRef .tc r) := W4_of_ne m ρ hy c r h3
    _ = W2 m ρ c (Proc.devRef .tc r) := W3_of_ne m ρ c r h2
    _ = W1 m ρ c (Proc.devRef .tc r) := W2_of m ρ c r h1
    _ = W0 m ρ c (Proc.devRef .tc r) := W1_of m ρ c r h0
    _ = m ((c : Thread nD τ).loc r) := rfl

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat0 (V2 m ρ) c).arrAt_in 0 rfl _).trans (A_eq0 (V2 m ρ) c 0))
    _ = W1 m ρ c (Proc.devRef .tc main_arg0) := W2_of m ρ c main_arg0 (by decide)
    _ = W0 m ρ c (Proc.devRef .tc main_arg0) := W1_of m ρ c main_arg0 (by decide)
    _ = m ((c : Thread nD τ).loc main_arg0) := rfl
theorem W8_main_arg0 (c : Dev nD) : W8 m ρ hy c (Proc.devRef .tc main_arg0) = m ((c : Thread nD τ).loc main_arg0) :=
  calc W8 m ρ hy c (Proc.devRef .tc main_arg0)
    _ = W7 m ρ hy c (Proc.devRef .tc main_arg0) := W8_of_ne m ρ hy c main_arg0 (by decide)
    _ = W6 m ρ hy c (Proc.devRef .tc main_arg0) := W7_of m ρ hy c main_arg0 (by decide)
    _ = W5 m ρ hy c (Proc.devRef .tc main_arg0) := W6_of m ρ hy c main_arg0 (by decide)
    _ = W4 m ρ hy c (Proc.devRef .tc main_arg0) := W5_of m ρ hy c main_arg0 (by decide)
    _ = W3 m ρ c (Proc.devRef .tc main_arg0) := W4_of_ne m ρ hy c main_arg0 (by decide)
    _ = m ((c : Thread nD τ).loc main_arg0) := W3_main_arg0 m ρ c

theorem V3_main_arg1 (c : Dev nD) : V3 m ρ c main_arg1 = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of m ρ c main_arg1 (by decide)
    _ = W0 m ρ c (Proc.devRef .tc main_arg1) := W1_of m ρ c main_arg1 (by decide)
    _ = m ((c : Thread nD τ).loc main_arg1) := rfl

theorem W8_main_arg1 (c : Dev nD) : W8 m ρ hy c (Proc.devRef .tc main_arg1) = m ((c : Thread nD τ).loc main_arg1) :=
  calc W8 m ρ hy c (Proc.devRef .tc main_arg1)
    _ = W7 m ρ hy c (Proc.devRef .tc main_arg1) := W8_of_ne m ρ hy c main_arg1 (by decide)
    _ = W6 m ρ hy c (Proc.devRef .tc main_arg1) := W7_of m ρ hy c main_arg1 (by decide)
    _ = W5 m ρ hy c (Proc.devRef .tc main_arg1) := W6_of m ρ hy c main_arg1 (by decide)
    _ = W4 m ρ hy c (Proc.devRef .tc main_arg1) := W5_of m ρ hy c main_arg1 (by decide)
    _ = W3 m ρ c (Proc.devRef .tc main_arg1) := (W4_arr m ρ hy c 0).trans (((dat1 (V3 m ρ) c (hy c)).arrAt_in 0 rfl _).trans (A_eq1 (V3 m ρ) c (hy c) 0))
    _ = m ((c : Thread nD τ).loc main_arg1) := V3_main_arg1 m ρ c

theorem W8_main_arg2 (c : Dev nD) : W8 m ρ hy c (Proc.devRef .tc main_arg2) = m ((c : Thread nD τ).loc main_arg2) :=
  W8_untouched m ρ hy c main_arg2 (by decide) (by decide) (by decide) (by decide) (by decide) (by decide) (by decide) (by decide)
theorem W8_main_arg3 (c : Dev nD) : W8 m ρ hy c (Proc.devRef .tc main_arg3) = m ((c : Thread nD τ).loc main_arg3) :=
  W8_untouched m ρ hy c main_arg3 (by decide) (by decide) (by decide) (by decide) (by decide) (by decide) (by decide) (by decide)
theorem W8_main_arg4 (c : Dev nD) : W8 m ρ hy c (Proc.devRef .tc main_arg4) = m ((c : Thread nD τ).loc main_arg4) :=
  W8_untouched m ρ hy c main_arg4 (by decide) (by decide) (by decide) (by decide) (by decide) (by decide) (by decide) (by decide)

def pdats : (p : Fin 3) → (c : Dev nD) → Dat τ (Elt F) Unit ℕ (Pipeline.UD sig nD τ) ℕ (Pipeline.pin (pcfgs (F := F)) adm p) c
  | ⟨0, _⟩ => fun c => dat0 (V2 m ρ) c
  | ⟨1, _⟩ => fun c => dat1 (V3 m ρ) c (hy c)
  | ⟨2, _⟩ => fun c => dat2 (V7 m ρ hy) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W8 m ρ hy c) ∗ ∃ r, prngReg c r)

set_option backward.isDefEq.respectTransparency.types false in

def reg0 : Pipeline.RegionSeg (pcfgs (F := F)) adm (pdats m ρ hy) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V2 m ρ c)
  hentry c := by
    rw [Pipeline.ownSems0_none]
    have hsplit := Pipeline.arrays_of_unscopedBufs (p := 0) (pcfgs (F := F)) adm (pdats m ρ hy) launch0.win launch0.arr_whole c
      ((pdats m ρ hy 0 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hy 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ hy 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ hy) ((pdats m ρ hy 0 c).share_full fun _ => rfl)
      (V2 m ρ c) (V3 m ρ c) ((pdats m ρ hy 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ hy) () defs₀ 𝒱₀ L lv 1 where
  win := launch1.win.to₀
  block_pos := launch1.block_pos
  stage_whole := launch1.stage_whole
  K := Fin 32
  osem := osem1
  ho := ownSemFacts1
  hbody c := (body_obligation1 (V3 m ρ) c (hy c)).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ hy c) ∗ R c)
  X c := iprop((∃ r, prngReg c r) ∗ Pipeline.ownSems0 (Ix := Unit) (Name := ℕ) (U := Pipeline.UD sig nD τ) (Lvl := ℕ) (Val := Elt F) (τ := τ) osem1 c ∗ (bigSep H1 fun b => (((c : Thread nD τ)).loc b) ↦{fullShare} V3 m ρ c b))
  Y c := iprop((∃ r, prngReg c r) ∗ (bigSep H1 fun b => (((c : Thread nD τ)).loc b) ↦{fullShare} V3 m ρ c b))
  Z c := bigSep (Pipeline.restRefs sig spec1 \ H1) fun b => (((c : Thread nD τ)).loc b) ↦{fullShare} V3 m ρ c b
  hentry c := by
    have hsplit := Pipeline.arrays_of_unscopedBufs (p := 1) (pcfgs (F := F)) adm (pdats m ρ hy) launch1.win launch1.arr_whole c
      ((pdats m ρ hy 1 c).share_full fun _ => rfl) (V3 m ρ c) fun _ => rfl
    rw [Pipeline.unscopedBufs_held] at hsplit
    have hH : (Pipeline.unscopedRest (Ix := Unit) (Name := ℕ) (U := Pipeline.UD sig nD τ) (Lvl := ℕ) spec1 c (V3 m ρ c) : sProp 𝕄)
        = iprop((bigSep H1 fun b => (((c : Thread nD τ)).loc b) ↦{fullShare} V3 m ρ c b) ∗ (bigSep (Pipeline.restRefs sig spec1 \ H1) fun b => (((c : Thread nD τ)).loc b) ↦{fullShare} V3 m ρ c b)) := by
      unfold Pipeline.unscopedRest; exact BI.bigSep_sdiff_split H1_sub
    iintro ⟨⟨Hub, Hp, HO⟩, Hos, -⟩
    ihave H := hsplit $$ Hub
    icases H with ⟨Ha, Hrest⟩
    ihave H' := (Entails.of_eq hH) $$ Hrest
    icases H' with ⟨HH, HR⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m ρ hy 1 c).Φ 0 = Pipeline.ΦD osem1 spec1 H1 (V3 m ρ) c from rfl, Pipeline.ΦD_eq]
    iintro ⟨⟨Hp, Ho, HH⟩, -, Hr⟩
    isplitl [Hr]; · iexact Hr
    isplitl [Hp]; · iexact Hp
    isplitl [Ho]; · iexact Ho
    iexact HH
  hout c := by
    rw [show (pdats m ρ hy 1 c).Φ (Fin.last _) = Pipeline.ΦD osem1 spec1 H1 (V3 m ρ) c from rfl, Pipeline.ΦD_eq]
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ hy) ((pdats m ρ hy 1 c).share_full fun _ => rfl)
      (V3 m ρ c) (V4 m ρ hy c) ((pdats m ρ hy 1 c).arrAt · cfg1.N) (hF1 m ρ hy c) (hrest1 m ρ hy c)
    rw [Pipeline.unscopedBufs_held] at hjoin
    have hH : (Pipeline.unscopedRest (Ix := Unit) (Name := ℕ) (U := Pipeline.UD sig nD τ) (Lvl := ℕ) spec1 c (V3 m ρ c) : sProp 𝕄)
        = iprop((bigSep H1 fun b => (((c : Thread nD τ)).loc b) ↦{fullShare} V3 m ρ c b) ∗ (bigSep (Pipeline.restRefs sig spec1 \ H1) fun b => (((c : Thread nD τ)).loc b) ↦{fullShare} V3 m ρ c b)) := by
      unfold Pipeline.unscopedRest; exact BI.bigSep_sdiff_split H1_sub
    iintro ⟨Ha, HO, ⟨HY, HH⟩, HR⟩
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m ρ hy) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ hy) c).loose
  hwaits := Pipeline.hwaits_of_owed_zero _ _ _ _ L lv 2 fun _ _ => rfl
  pre c := iprop(StableHlo.held (c : Thread nD τ) (Pipeline.ucRefs τ sig) (W7 m ρ hy c) ∗ R c)
  post c := iprop(Tₙ m ρ hy c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec2 c (V7 m ρ hy c)
  hentry c := by
    rw [Pipeline.ownSems0_none]
    have hsplit := Pipeline.arrays_of_unscopedBufs (p := 2) (pcfgs (F := F)) adm (pdats m ρ hy) launch2.win launch2.arr_whole c
      ((pdats m ρ hy 2 c).share_full fun _ => rfl) (V7 m ρ hy c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hy 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ hy 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ hy) ((pdats m ρ hy 2 c).share_full fun _ => rfl)
      (V7 m ρ hy c) (V8 m ρ hy c) ((pdats m ρ hy 2 c).arrAt · cfg2.N) (hF2 m ρ hy c) (hrest2 m ρ hy c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ hy) () defs₀ 𝒱₀ L lv) :=
  [ .host (hseg hostOps0 hostOps0_sub hostOps0_fresh (W0 m ρ)),
    .host (hseg hostOps0_1 hostOps0_1_sub hostOps0_1_fresh (W1 m ρ)),
    .region (reg0 m ρ hy),
    .region (reg1 m ρ hy),
    .host (hseg hostOps2 hostOps2_sub hostOps2_fresh (W4 m ρ hy)),
    .host (hseg hostOps2_1 hostOps2_1_sub hostOps2_1_fresh (W5 m ρ hy)),
    .host (hseg hostOps2_2 hostOps2_2_sub hostOps2_2_fresh (W6 m ρ hy)),
    .region (reg2 m ρ hy) ]

theorem main_run (c : Dev nD) : main (F := F) c = Pipeline.Seg.run (segs m ρ hy) := by
  rw [main_chain c, Pipeline.Seg.run_eq_chain]; rfl

set_option backward.isDefEq.respectTransparency.types false in

theorem run : θ_run defs (onTc (τ := τ) (main (F := F))) ⟨m, fun _ => 0, ρ⟩ (fun r => ∀ c : Dev nD,
      ∀ b ∈ Pipeline.ucRefs τ sig, r.2.mem (((c : Thread nD τ)).1, b) = W8 m ρ hy c b) :=
  Pipeline.θ_run_regions_kit (pcfgs (F := F)) adm (pdats m ρ hy) () cellOf_inj embL defs₀ 𝒱₀ L lv m ρ main (segs m ρ hy)
    (fun c Q => by rw [main_run m ρ hy c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ hy)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ hy c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ hy c) s')
      isplitl [Hh] <;> iassumption)
    (hQ := fun s h => h)

theorem result : θ_run defs (onTc (τ := τ) (main (F := F))) ⟨m, fun _ => 0, ρ⟩ (fun r => ∀ c : Dev nD,
      r.2.mem ((c.tc : Thread nD τ).loc main_v12) = W8 m ρ hy c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨h c _ (mem_uc main_v12 (by decide)),
     (h c _ (mem_uc main_arg0 (by decide))).trans (W8_main_arg0 m ρ hy c),
     (h c _ (mem_uc main_arg1 (by decide))).trans (W8_main_arg1 m ρ hy c),
     (h c _ (mem_uc main_arg2 (by decide))).trans (W8_main_arg2 m ρ hy c),
     (h c _ (mem_uc main_arg3 (by decide))).trans (W8_main_arg3 m ρ hy c),
     (h c _ (mem_uc main_arg4 (by decide))).trans (W8_main_arg4 m ρ hy c)⟩) (run m ρ hy)

include hy in

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (result m ρ hy)

end Cert.Kernel.Fr

end
-- ==== Proof.PreFacts.lean ====
import proofs.«405998_j76398878261701_2_alg».proof.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.PreFacts

open Idealize.ShloMosaic Cert.Pre_finite_inputs

instance : Subsingleton S_.Idx := ⟨fun a b => funext fun d => d.elim0⟩

theorem andi_apply {s : Shape} {w : Nat} (x y : IVec s w) (i : s.Idx) : andi x y i = IntOp.andi (x i) (y i) := rfl

theorem toNat_lt_of_signed (w : BitVec 32) (n : Nat) (hn : n < 2 ^ 31)
    (h0 : IntOp.cmpi .sge w (0#32) = 1#1) (h1 : IntOp.cmpi .slt w (BitVec.ofNat 32 n) = 1#1) : w.toNat < n := by
  unfold IntOp.cmpi at h0 h1
  rw [StableHlo.Predicate.ofBool_eq_one_iff] at h0 h1
  simp only [BitVec.slt, BitVec.sle, decide_eq_true_eq] at h0 h1
  have hn' : (BitVec.ofNat 32 n).toInt = n := StableHlo.Predicate.toInt_ofNat_small n hn
  have hz : (0#32 : BitVec 32).toInt = 0 := by decide
  rw [hn'] at h1
  rw [hz] at h0
  have hw := w.isLt
  rw [BitVec.toInt_eq_toNat_cond] at h0 h1
  split at h0 <;> omega

theorem inf_bits : Ideal.ofBits .f32 0x7F800000#32 = (⊤ : EReal) := by
  simp [Ideal.ofBits, Ideal.ieee]

theorem real_of_abs_lt_top (x : EReal) (h : max x (-x) < ⊤) : ∃ r : ℝ, x = (r : EReal) := by
  induction x using EReal.rec with
  | bot => simp at h
  | coe r => exact ⟨r, rfl⟩
  | top => simp at h

variable [hP : Cert.Pre_finite_inputs.Facts]

theorem split {F : FTy → Type} [FloatOps F] (a0 : FVec F S4x64x16384 .f32) (a1 : IVec S4x16384x32 32)
    (a2 : FVec F S64x64 .f32) (a3 a4 : FVec F S64 .f32)
    (h : Cert.Pre_finite_inputs.fn (F := F) a0 a1 a2 a3 a4 = fun _ => 1#1) :
    (∀ j, FloatOps.cmpf .olt (FloatOps.hostAbsf (a0 j)) (FloatOps.ofBits .f32 0x7F800000#32 : F .f32) = 1#1)
    ∧ (∀ j, FloatOps.cmpf .olt (FloatOps.hostAbsf (a2 j)) (FloatOps.ofBits .f32 0x7F800000#32 : F .f32) = 1#1)
    ∧ (∀ j, FloatOps.cmpf .olt (FloatOps.hostAbsf (a3 j)) (FloatOps.ofBits .f32 0x7F800000#32 : F .f32) = 1#1)
    ∧ (∀ j, FloatOps.cmpf .olt (FloatOps.hostAbsf (a4 j)) (FloatOps.ofBits .f32 0x7F800000#32 : F .f32) = 1#1)
    ∧ (∀ j, IntOp.cmpi .sge (a1 j) (0#32) = 1#1 ∧ IntOp.cmpi .slt (a1 j) (16384#32) = 1#1) := by
  have e := congrFun h ValueIdx.ix0
  dsimp only [Cert.Pre_finite_inputs.fn, Cert.Pre_finite_inputs.fn_part1] at e
  rw [andi_apply, IntOp.andi_eq_one, andi_apply, IntOp.andi_eq_one, andi_apply, IntOp.andi_eq_one,
    andi_apply, IntOp.andi_eq_one] at e
  obtain ⟨⟨⟨⟨e0, e2⟩, e3⟩, e4⟩, e1⟩ := e
  refine ⟨fun j => ?_, fun j => ?_, fun j => ?_, fun j => ?_, fun j => ?_⟩
  · exact Host.reduce_andi_all _ _ _ _ _ e0 j
  · exact Host.reduce_andi_all _ _ _ _ _ e2 j
  · exact Host.reduce_andi_all _ _ _ _ _ e3 j
  · exact Host.reduce_andi_all _ _ _ _ _ e4 j
  · have := Host.reduce_andi_all _ _ _ _ _ e1 j
    rw [andi_apply, IntOp.andi_eq_one] at this
    exact this

theorem edges_range {F : FTy → Type} [FloatOps F] (a0 : FVec F S4x64x16384 .f32) (a1 : IVec S4x16384x32 32)
    (a2 : FVec F S64x64 .f32) (a3 a4 : FVec F S64 .f32)
    (h : Cert.Pre_finite_inputs.fn (F := F) a0 a1 a2 a3 a4 = fun _ => 1#1) :
    ∀ j : S4x16384x32.Idx, (a1 j : BitVec 32).toNat + 1 ≤ 16384 := fun j =>
  toNat_lt_of_signed (a1 j) 16384 (by decide) ((split a0 a1 a2 a3 a4 h).2.2.2.2 j).1 ((split a0 a1 a2 a3 a4 h).2.2.2.2 j).2

theorem real_of_test (x : Ideal .f32)
    (h : FloatOps.cmpf .olt (FloatOps.hostAbsf x) (FloatOps.ofBits .f32 0x7F800000#32 : Ideal .f32) = 1#1) :
    ∃ r : ℝ, x = (r : EReal) := by
  refine real_of_abs_lt_top x ?_
  have h' : BitVec.ofBool (decide (max x (-x) < Ideal.ofBits .f32 0x7F800000#32)) = 1#1 := h
  rw [StableHlo.Predicate.ofBool_eq_one_iff, decide_eq_true_eq, inf_bits] at h'
  exact h'

theorem finite_x (a0 : FVec Ideal S4x64x16384 .f32) (a1 : IVec S4x16384x32 32)
    (a2 : FVec Ideal S64x64 .f32) (a3 a4 : FVec Ideal S64 .f32)
    (h : Cert.Pre_finite_inputs.fn (F := Ideal) a0 a1 a2 a3 a4 = fun _ => 1#1) :
    ∀ j, ∃ r : ℝ, a0 j = (r : EReal) := fun j => real_of_test _ ((split a0 a1 a2 a3 a4 h).1 j)

theorem finite_w (a0 : FVec Ideal S4x64x16384 .f32) (a1 : IVec S4x16384x32 32)
    (a2 : FVec Ideal S64x64 .f32) (a3 a4 : FVec Ideal S64 .f32)
    (h : Cert.Pre_finite_inputs.fn (F := Ideal) a0 a1 a2 a3 a4 = fun _ => 1#1) :
    ∀ j, ∃ r : ℝ, a2 j = (r : EReal) := fun j => real_of_test _ ((split a0 a1 a2 a3 a4 h).2.1 j)

end Cert.PreFacts

end
-- ==== Proof.K.HypsOfPre.lean ====
import proofs.«405998_j76398878261701_2_alg».proof.Defs
import proofs.«405998_j76398878261701_2_alg».proof.Proof.PreFacts
import proofs.«405998_j76398878261701_2_alg».proof.Proof.Gen.Kernel.Launch

set_option maxRecDepth 16384

noncomputable section

namespace Cert.Kernel.Fr

open Cert.Kernel Cert.Kernel.Gen
open Idealize.ShloMosaic Idealize.ShloMosaic.TcCoe
open Idealize.SL.Sem

variable [hPre_finite_inputs : Cert.Pre_finite_inputs.Facts]

theorem arg1_range (m : (ℓ : Loc nD τ sig) → Buf (Elt Bits) ℓ) (hpre : Cert.Pre_Kernel m) (c : Dev nD) :
    ∀ j : S4x16384x32.Idx, ((m ((c : Thread nD τ).loc main_arg1) : IVec S4x16384x32 32) j).toNat + 1 ≤ 16384 :=
  Cert.PreFacts.edges_range _ _ _ _ _ (hpre c)

section
variable {F : FTy → Type} [FloatOps F]
variable (V : (c : Dev nD) → (b : Ref sig .tc) → Buf (Elt F) ((c : Thread nD τ).loc b))

theorem block_range (c : Dev nD)
    (h : ∀ j : S4x16384x32.Idx, ((V c main_arg1 : IVec S4x16384x32 32) j).toNat + 1 ≤ 16384)
    (t : Fin cfg1.N) (j : S1x8x32.Idx) :
    ((((cfg1.win 0).blk t).view.read (Elt F) (V c (Pipeline.arrRef spec1 0)) j : BitVec 32)).toNat + 1 ≤ 16384 :=
  h (((cfg1.win 0).blk t).view.emb j)

end

theorem blocks_of_pre (m : (ℓ : Loc nD τ sig) → Buf (Elt Bits) ℓ) (hpre : Cert.Pre_Kernel m)
    (V : (c : Dev nD) → (b : Ref sig .tc) → Buf (Elt Bits) ((c : Thread nD τ).loc b)) (c : Dev nD)
    (hV : V c main_arg1 = m ((c : Thread nD τ).loc main_arg1)) :
    ∀ (t : Fin cfg1.N) (j : S1x8x32.Idx),
      ((((cfg1.win 0).blk t).view.read (Elt Bits) (V c (Pipeline.arrRef spec1 0)) j : BitVec 32)).toNat + 1 ≤ 16384 :=
  block_range V c (fun j => by rw [hV]; exact arg1_range m hpre c j)

end Cert.Kernel.Fr

end
-- ==== Proof.KI.R0.lean ====
import proofs.«405998_j76398878261701_2_alg».proof.Proof.Gen.KernelIdeal.Launch
import proofs.«405998_j76398878261701_2_alg».proof.Proof.Gen.KernelIdeal.Skeleton
import proofs.«405998_j76398878261701_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1x64x2048 := Rect.unit (s := S1x64x2048) ![0, 0, 0] S1x64x2048.size inb_S1x64x2048_S1x64x2048_0_0_0
abbrev r0_1 : Rect S128x64 := Rect.unit (s := S128x64) ![0, 0] S128x64.size inb_S128x64_S128x64_0_0
abbrev r0_2 : Rect S1x2048x128 := Rect.unit (s := S1x2048x128) ![0, 0, 0] S1x2048x128.size inb_S1x2048x128_S1x2048x128_0_0_0

def out0_2 (x0 : Vec F S1x64x2048 .f32) (x1 : Vec F S128x64 .f32) : Vec F S1x2048x128 .f32 :=
  View.canon [⟨r0_2, k0_pay1 (View.ld x0 r0_0) (View.ld x1 r0_1)⟩]

theorem cover0_2 (p0 : Vec F S1x2048x128 .f32) (y : S1x2048x128.Idx) :
    ∃ pc ∈ ([⟨r0_2, p0⟩] : List (View.Piece (Elt F) S1x2048x128 .f32)), y ∈ pc.1.set :=
  View.cover_of_tiled [⟨r0_2, p0⟩] S1x2048x128.size (by rfl) y

set_option maxHeartbeats 1000000 in

theorem sound_kernel0 (c : Dev nD) (E : Set ℕ) (i : grid0.Coords) (arg0 : Memref sig .tc .vmem S1x64x2048 .f32) (harg0 : arg0.IsWhole) (arg1 : Memref sig .tc .vmem S128x64 .f32) (harg1 : arg1.IsWhole) (arg2 : Memref sig .tc .vmem S1x2048x128 .f32) (harg2 : arg2.IsWhole)
    (x0 : Vec F S1x64x2048 .f32) (x1 : Vec F S128x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__conv_kernel i arg0 harg0 arg1 harg1 arg2 harg2) K := by
  simp only [cc0__conv_kernel_eq_skeleton]; unfold cc0__conv_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.GatherDefs.lean ====
import proofs.«405998_j76398878261701_2_alg».proof.Proof.Gen.KernelIdeal.Launch
import proofs.«405998_j76398878261701_2_alg».proof.Proof.Gen.KernelIdeal.Skeleton
import proofs.«405998_j76398878261701_2_alg».proof.Proof.Gen.KernelIdeal.Points
import Idealize.ShloMosaic.Lib.Pipeline.FrameBody
import Idealize.ShloMosaic.Lib.Ring
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

abbrev scM1_0 : Memref sig .tc .vmem S32x1x128 .f32 := Memref.whole cc1_scratch0

abbrev hbM1_0 : Memref sig .tc .hbm S4x16384x128 .f32 := Memref.whole main_v1

abbrev HbBuf1 (c : Dev nD) {sp : Space} {S : Shape} {e : EltTy} (M : Memref sig .tc sp S e) : Type := Buf (Elt F) (M.view.loc (c : Thread nD τ))

abbrev hbPt1 (c : Dev nD) {sp : Space} {S : Shape} {e : EltTy} (M : Memref sig .tc sp S e) (f : HbBuf1 (F := F) c M) : sProp 𝕄 :=
  M.view.loc (c : Thread nD τ) ↦{fullShare} f

abbrev hbTok1 (c : Dev nD) {sp : Space} {S : Shape} {e : EltTy} (M : Memref sig .tc sp S e) (k : ℕ) (f : HbBuf1 (F := F) c M) : sProp 𝕄 :=
  M.view.loc (c : Thread nD τ) ↦{Transfers.shareTokN fullShare k} f

abbrev ownPt1 (c : Dev nD) {sp : Space} {S : Shape} {e : EltTy} (M : Memref sig .tc sp S e) (f : HbBuf1 (F := F) c M) : sProp 𝕄 :=
  M.view.loc (c : Thread nD τ) ↦[M.view.set]{fullShare} f

/-- A word read of an index block whose entries are all below 16384 names a row of the gathered array, with room for that row. -/
theorem word_inb {sp : Space} (arg2 : Memref sig .tc sp S1x8x32 .i32) (harg2 : arg2.IsWhole) (x0 : Vec F S1x8x32 .i32)
    (hx : ∀ j, (x0 j : BitVec 32).toNat + 1 ≤ 16384) (R : LoadRect S1x8x32) (y : R.shape.Idx) (a : Fin 2) :
    (![(arg2.view.readAt (Elt F) R (harg2.unread x0) y : BitVec 32).toNat, 0] : Fin 2 → ℕ) a + S1x128.size a ≤ S16384x128.size a := by
  have h : (arg2.view.readAt (Elt F) R (harg2.unread x0) y : BitVec 32).toNat + 1 ≤ 16384 := by
    rw [View.readAt_apply, harg2.read_unread]; exact hx _
  fin_cases a
  · exact h
  · exact (by decide : (0 : ℕ) + 128 ≤ 128)

end Cert.KernelIdeal.Fr

end
-- ==== Proof.KI.ScratchJoin.lean ====
import proofs.«405998_j76398878261701_2_alg».proof.Proof.KI.GatherDefs
import Idealize.ShloMosaic.Lib.Writes
import Idealize.ShloMosaic.Lib.WordExact
import Idealize.ShloMosaic.Lib.ValueIdx
import Idealize.ShloMosaic.Lib.Pipeline.Kit
import Idealize.ShloMosaic.Lib.Pipeline.Value
import Idealize.ShloMosaic.Rules.PointsTo

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

theorem writes_whole_indep {sig : RefSig} {κ : Kind} {sp : Space} {s : Shape} {e : EltTy} {Val : EltTy → Type}
    (v : View sig κ sp s e) (f g : v.ty.Contents Val) (w : s.Idx → Val e) {i : v.ty.Idx} (hi : i ∈ v.set) :
    v.writes Val f [⟨Rect.whole s, w⟩] i = v.writes Val g [⟨Rect.whole s, w⟩] i := by
  obtain ⟨y, rfl⟩ := View.exists_emb_of_mem_set v hi
  have e1 : v.emb y = (v.slice (Rect.whole s)).emb y := by
    show v.emb y = v.emb ((Rect.whole s).emb y)
    rw [Rect.emb_whole_apply]
  show (v.slice (Rect.whole s)).write Val f w Finset.univ (v.emb y) = (v.slice (Rect.whole s)).write Val g w Finset.univ (v.emb y)
  rw [e1, View.write_emb_of_mem _ _ (Finset.mem_univ y), View.write_emb_of_mem _ _ (Finset.mem_univ y)]

theorem slot_inb (k : Fin 32) : ∀ a, (![k.val, 0, 0] : Fin 3 → Nat) a + S1x1x128.size a ≤ S32x1x128.size a :=
  fun a => match a with
    | ⟨0, _⟩ => by show k.val + 1 ≤ 32; omega
    | ⟨1, _⟩ => by show 0 + 1 ≤ 1; omega
    | ⟨2, _⟩ => by show 0 + 128 ≤ 128; omega

abbrev slotM (k : Fin 32) : Memref sig .tc .vmem S1x128 .f32 :=
  ((scM1_0.slice (Rect.unit (s := S32x1x128) ![k.val, 0, 0] S1x1x128.size (slot_inb k)) (fun _ => rfl)).squeeze S1x128 squeezes_S1x1x128_S1x128)

theorem slot_set (k : Fin 32) :
    (slotM k).view.set = (Rect.unit (s := S32x1x128) ![k.val, 0, 0] S1x1x128.size (slot_inb k)).set := by
  show (((View.whole cc1_scratch0).slice (Rect.unit (s := S32x1x128) ![k.val, 0, 0] S1x1x128.size (slot_inb k))).reshape S1x128 _).set = _
  rw [View.set_reshape, View.set_slice_whole]

theorem mem_slot (k : Fin 32) (i : S32x1x128.Idx) : i ∈ (slotM k).view.set ↔ (i 0).val = k.val := by
  rw [slot_set, Rect.mem_set_unit]
  constructor
  · intro h
    have h0 : k.val ≤ (i 0).val ∧ (i 0).val < k.val + 1 := h 0
    omega
  · intro h a
    match a with
    | ⟨0, _⟩ => show k.val ≤ (i 0).val ∧ (i 0).val < k.val + 1; omega
    | ⟨1, _⟩ => show 0 ≤ (i 1).val ∧ (i 1).val < 0 + 1; have h1 : (i 1).val < 1 := (i 1).isLt; omega
    | ⟨2, _⟩ => show 0 ≤ (i 2).val ∧ (i 2).val < 0 + 128; have h2 : (i 2).val < 128 := (i 2).isLt; omega

theorem slot_disjoint (k k' : Fin 32) (h : k ≠ k') : Disjoint (slotM k).view.set (slotM k').view.set := by
  rw [Finset.disjoint_left]
  intro i hi hi'
  rw [mem_slot] at hi hi'
  exact h (Fin.ext (hi.symm.trans hi'))

theorem slots_union : Finset.univ.biUnion (fun k : Fin 32 => (slotM k).view.set) = scM1_0.view.set := by
  ext i
  rw [Finset.mem_biUnion]
  constructor
  · intro _
    show i ∈ (View.whole cc1_scratch0).set
    rw [View.set_whole]; exact Finset.mem_univ i
  · intro _
    exact ⟨⟨(i 0).val, (i 0).isLt⟩, Finset.mem_univ _, (mem_slot _ i).mpr rfl⟩

def slotFill (c : Dev nD) (k : Fin 32) (q : Vec F S1x128 .f32) : HbBuf1 (F := F) c scM1_0 :=
  (slotM k).view.writes (Elt F) (slotM k).view.junk [⟨Rect.whole S1x128, q⟩]

def scratchOf (c : Dev nD) (p : Fin 32 → Vec F S1x128 .f32) : HbBuf1 (F := F) c scM1_0 :=
  fun i : S32x1x128.Idx => slotFill c ⟨(i 0).val, (i 0).isLt⟩ (p ⟨(i 0).val, (i 0).isLt⟩) i

theorem slot_write_eq_scratchOf (c : Dev nD) (p : Fin 32 → Vec F S1x128 .f32) (k : Fin 32) (f : HbBuf1 (F := F) c scM1_0)
    (i : S32x1x128.Idx) (hi : i ∈ (slotM k).view.set) :
    ((slotM k).view.writes (Elt F) f [⟨Rect.whole S1x128, p k⟩] : HbBuf1 (F := F) c scM1_0) i = scratchOf c p i := by
  have hk : (⟨(i 0).val, (i 0).isLt⟩ : Fin 32) = k := Fin.ext ((mem_slot k i).mp hi)
  show _ = slotFill c ⟨(i 0).val, (i 0).isLt⟩ (p ⟨(i 0).val, (i 0).isLt⟩) i
  rw [hk]
  exact writes_whole_indep (slotM k).view f (slotM k).view.junk (p k) hi

theorem scratch_join (c : Dev nD) (f : Fin 32 → HbBuf1 (F := F) c scM1_0) (p : Fin 32 → Vec F S1x128 .f32) :
    bigSep Finset.univ (fun k : Fin 32 =>
        (ownPt1 c (slotM k) ((slotM k).view.writes (Elt F) (f k) [⟨Rect.whole S1x128, p k⟩]) : sProp 𝕄))
      ⊢ (ownPt1 c scM1_0 (scratchOf c p) : sProp 𝕄) := by
  have hc : ∀ k ∈ (Finset.univ : Finset (Fin 32)),
      (ownPt1 c (slotM k) ((slotM k).view.writes (Elt F) (f k) [⟨Rect.whole S1x128, p k⟩]) : sProp 𝕄)
        = (scM1_0.view.loc (c : Thread nD τ) ↦[(slotM k).view.set]{fullShare} scratchOf c p) := fun k _ =>
    pointsTo_congr fun i hi => slot_write_eq_scratchOf c p k (f k) i hi
  have hb := pointsTo_biUnion (nD := nD) (τ := τ) (sig := sig) (Ix := Unit) (Val := Elt F) (Name := ℕ) (U := Pipeline.UD sig nD τ) (Lvl := ℕ)
    (ℓ := scM1_0.view.loc (c : Thread nD τ)) (q := fullShare) (f := scratchOf c p)
    Finset.univ (fun k : Fin 32 => (slotM k).view.set) (fun k _ k' _ h => slot_disjoint k k' h)
  rw [bigSep_congr hc, ← hb, slots_union]

theorem scratch_split (c : Dev nD) (g : HbBuf1 (F := F) c scM1_0) :
    (ownPt1 c scM1_0 g : sProp 𝕄) ⊢ bigSep Finset.univ (fun k : Fin 32 => (ownPt1 c (slotM k) g : sProp 𝕄)) := by
  have hb := pointsTo_biUnion (nD := nD) (τ := τ) (sig := sig) (Ix := Unit) (Val := Elt F) (Name := ℕ) (U := Pipeline.UD sig nD τ) (Lvl := ℕ)
    (ℓ := scM1_0.view.loc (c : Thread nD τ)) (q := fullShare) (f := g)
    Finset.univ (fun k : Fin 32 => (slotM k).view.set) (fun k _ k' _ h => slot_disjoint k k' h)
  rw [slots_union] at hb
  exact Entails.of_eq hb

theorem slot_emb (k : Fin 32) (l : Fin 128) :
    (slotM k).view.emb (ix2 (0 : Fin 1) l) = (ix3 k (0 : Fin 1) l : S32x1x128.Idx) := by
  show (Rect.unit (s := S32x1x128) ![k.val, 0, 0] S1x1x128.size (slot_inb k)).emb
      (Shape.reshapeEquiv squeezes_S1x1x128_S1x128.numel_eq (ix2 (0 : Fin 1) l)) = _
  rw [Shape.reshapeEquiv_eq_of_rowMajor (y := (ix3 (0 : Fin 1) (0 : Fin 1) l : S1x1x128.Idx)) _ (by
    rw [Shape.rowMajor_val_three, Shape.rowMajor_val_two]
    show (0 * 1 + 0) * 128 + l.val = 0 * 128 + l.val
    omega)]
  funext a
  apply Fin.ext
  match a with
  | ⟨0, _⟩ => show k.val + 1 * 0 = k.val; omega
  | ⟨1, _⟩ => show 0 + 1 * 0 = 0; omega
  | ⟨2, _⟩ => show 0 + 1 * l.val = l.val; omega

theorem read_scratchOf (c : Dev nD) (p : Fin 32 → Vec F S1x128 .f32) (k : Fin 32) (l : Fin 128) :
    scM1_0.view.read (Elt F) (scratchOf c p) (ix3 k (0 : Fin 1) l) = p k (ix2 (0 : Fin 1) l) := by
  show slotFill c k (p k) (ix3 k (0 : Fin 1) l : S32x1x128.Idx) = p k (ix2 (0 : Fin 1) l)
  have e1 : (ix3 k (0 : Fin 1) l : S32x1x128.Idx)
      = ((slotM k).view.slice (Rect.whole S1x128)).emb (ix2 (0 : Fin 1) l) := by
    show _ = (slotM k).view.emb ((Rect.whole S1x128).emb (ix2 (0 : Fin 1) l))
    rw [Rect.emb_whole_apply, slot_emb]
  unfold slotFill
  rw [e1]
  show ((slotM k).view.slice (Rect.whole S1x128)).write (Elt F) (slotM k).view.junk (p k) Finset.univ
      (((slotM k).view.slice (Rect.whole S1x128)).emb (ix2 (0 : Fin 1) l)) = _
  rw [View.write_emb_of_mem _ _ (Finset.mem_univ _)]
  rfl

end Cert.KernelIdeal.Fr

end
-- ==== Proof.KI.ScratchJoin32.lean ====
import proofs.«405998_j76398878261701_2_alg».proof.Proof.KI.ScratchJoin

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

theorem bigSep_slots {M : Type} [URA M] (Φ : Fin 32 → sProp M) :
    bigSep Finset.univ Φ = iprop(Φ (0 : Fin 32) ∗ Φ (1 : Fin 32) ∗ Φ (2 : Fin 32) ∗ Φ (3 : Fin 32) ∗ Φ (4 : Fin 32) ∗ Φ (5 : Fin 32) ∗ Φ (6 : Fin 32) ∗ Φ (7 : Fin 32) ∗ Φ (8 : Fin 32) ∗ Φ (9 : Fin 32) ∗ Φ (10 : Fin 32) ∗ Φ (11 : Fin 32) ∗ Φ (12 : Fin 32) ∗ Φ (13 : Fin 32) ∗ Φ (14 : Fin 32) ∗ Φ (15 : Fin 32) ∗ Φ (16 : Fin 32) ∗ Φ (17 : Fin 32) ∗ Φ (18 : Fin 32) ∗ Φ (19 : Fin 32) ∗ Φ (20 : Fin 32) ∗ Φ (21 : Fin 32) ∗ Φ (22 : Fin 32) ∗ Φ (23 : Fin 32) ∗ Φ (24 : Fin 32) ∗ Φ (25 : Fin 32) ∗ Φ (26 : Fin 32) ∗ Φ (27 : Fin 32) ∗ Φ (28 : Fin 32) ∗ Φ (29 : Fin 32) ∗ Φ (30 : Fin 32) ∗ Φ (31 : Fin 32)) :=
  bigSep_univ_eq_bigSepL [(0 : Fin 32), (1 : Fin 32), (2 : Fin 32), (3 : Fin 32), (4 : Fin 32), (5 : Fin 32), (6 : Fin 32), (7 : Fin 32), (8 : Fin 32), (9 : Fin 32), (10 : Fin 32), (11 : Fin 32), (12 : Fin 32), (13 : Fin 32), (14 : Fin 32), (15 : Fin 32), (16 : Fin 32), (17 : Fin 32), (18 : Fin 32), (19 : Fin 32), (20 : Fin 32), (21 : Fin 32), (22 : Fin 32), (23 : Fin 32), (24 : Fin 32), (25 : Fin 32), (26 : Fin 32), (27 : Fin 32), (28 : Fin 32), (29 : Fin 32), (30 : Fin 32), (31 : Fin 32)] (by decide) (by decide) Φ

set_option maxHeartbeats 1600000 in

theorem scratch_join32 (c : Dev nD)
    (f0 f1 f2 f3 f4 f5 f6 f7 f8 f9 f10 f11 f12 f13 f14 f15 f16 f17 f18 f19 f20 f21 f22 f23 f24 f25 f26 f27 f28 f29 f30 f31 : HbBuf1 (F := F) c scM1_0)
    (p0 p1 p2 p3 p4 p5 p6 p7 p8 p9 p10 p11 p12 p13 p14 p15 p16 p17 p18 p19 p20 p21 p22 p23 p24 p25 p26 p27 p28 p29 p30 p31 : Vec F S1x128 .f32) :
    iprop(ownPt1 c ((scM1_0.slice (Rect.unit (s := S32x1x128) ![0, 0, 0] S1x1x128.size inb_S32x1x128_S1x1x128_0_0_0) (fun _ => rfl)).squeeze S1x128 squeezes_S1x1x128_S1x128) (((scM1_0.slice (Rect.unit (s := S32x1x128) ![0, 0, 0] S1x1x128.size inb_S32x1x128_S1x1x128_0_0_0) (fun _ => rfl)).squeeze S1x128 squeezes_S1x1x128_S1x128).view.writes (Elt F) f0 [⟨Rect.whole S1x128, p0⟩])
        ∗ ownPt1 c ((scM1_0.slice (Rect.unit (s := S32x1x128) ![1, 0, 0] S1x1x128.size inb_S32x1x128_S1x1x128_1_0_0) (fun _ => rfl)).squeeze S1x128 squeezes_S1x1x128_S1x128) (((scM1_0.slice (Rect.unit (s := S32x1x128) ![1, 0, 0] S1x1x128.size inb_S32x1x128_S1x1x128_1_0_0) (fun _ => rfl)).squeeze S1x128 squeezes_S1x1x128_S1x128).view.writes (Elt F) f1 [⟨Rect.whole S1x128, p1⟩])
        ∗ ownPt1 c ((scM1_0.slice (Rect.unit (s := S32x1x128) ![2, 0, 0] S1x1x128.size inb_S32x1x128_S1x1x128_2_0_0) (fun _ => rfl)).squeeze S1x128 squeezes_S1x1x128_S1x128) (((scM1_0.slice (Rect.unit (s := S32x1x128) ![2, 0, 0] S1x1x128.size inb_S32x1x128_S1x1x128_2_0_0) (fun _ => rfl)).squeeze S1x128 squeezes_S1x1x128_S1x128).view.writes (Elt F) f2 [⟨Rect.whole S1x128, p2⟩])
        ∗ ownPt1 c ((scM1_0.slice (Rect.unit (s := S32x1x128) ![3, 0, 0] S1x1x128.size inb_S32x1x128_S1x1x128_3_0_0) (fun _ => rfl)).squeeze S1x128 squeezes_S1x1x128_S1x128) (((scM1_0.slice (Rect.unit (s := S32x1x128) ![3, 0, 0] S1x1x128.size inb_S32x1x128_S1x1x128_3_0_0) (fun _ => rfl)).squeeze S1x128 squeezes_S1x1x128_S1x128).view.writes (Elt F) f3 [⟨Rect.whole S1x128, p3⟩])
        ∗ ownPt1 c ((scM1_0.slice (Rect.unit (s := S32x1x128) ![4, 0, 0] S1x1x128.size inb_S32x1x128_S1x1x128_4_0_0) (fun _ => rfl)).squeeze S1x128 squeezes_S1x1x128_S1x128) (((scM1_0.slice (Rect.unit (s := S32x1x128) ![4, 0, 0] S1x1x128.size inb_S32x1x128_S1x1x128_4_0_0) (fun _ => rfl)).squeeze S1x128 squeezes_S1x1x128_S1x128).view.writes (Elt F) f4 [⟨Rect.whole S1x128, p4⟩])
        ∗ ownPt1 c ((scM1_0.slice (Rect.unit (s := S32x1x128) ![5, 0, 0] S1x1x128.size inb_S32x1x128_S1x1x128_5_0_0) (fun _ => rfl)).squeeze S1x128 squeezes_S1x1x128_S1x128) (((scM1_0.slice (Rect.unit (s := S32x1x128) ![5, 0, 0] S1x1x128.size inb_S32x1x128_S1x1x128_5_0_0) (fun _ => rfl)).squeeze S1x128 squeezes_S1x1x128_S1x128).view.writes (Elt F) f5 [⟨Rect.whole S1x128, p5⟩])
        ∗ ownPt1 c ((scM1_0.slice (Rect.unit (s := S32x1x128) ![6, 0, 0] S1x1x128.size inb_S32x1x128_S1x1x128_6_0_0) (fun _ => rfl)).squeeze S1x128 squeezes_S1x1x128_S1x128) (((scM1_0.slice (Rect.unit (s := S32x1x128) ![6, 0, 0] S1x1x128.size inb_S32x1x128_S1x1x128_6_0_0) (fun _ => rfl)).squeeze S1x128 squeezes_S1x1x128_S1x128).view.writes (Elt F) f6 [⟨Rect.whole S1x128, p6⟩])
        ∗ ownPt1 c ((scM1_0.slice (Rect.unit (s := S32x1x128) ![7, 0, 0] S1x1x128.size inb_S32x1x128_S1x1x128_7_0_0) (fun _ => rfl)).squeeze S1x128 squeezes_S1x1x128_S1x128) (((scM1_0.slice (Rect.unit (s := S32x1x128) ![7, 0, 0] S1x1x128.size inb_S32x1x128_S1x1x128_7_0_0) (fun _ => rfl)).squeeze S1x128 squeezes_S1x1x128_S1x128).view.writes (Elt F) f7 [⟨Rect.whole S1x128, p7⟩])
        ∗ ownPt1 c ((scM1_0.slice (Rect.unit (s := S32x1x128) ![8, 0, 0] S1x1x128.size inb_S32x1x128_S1x1x128_8_0_0) (fun _ => rfl)).squeeze S1x128 squeezes_S1x1x128_S1x128) (((scM1_0.slice (Rect.unit (s := S32x1x128) ![8, 0, 0] S1x1x128.size inb_S32x1x128_S1x1x128_8_0_0) (fun _ => rfl)).squeeze S1x128 squeezes_S1x1x128_S1x128).view.writes (Elt F) f8 [⟨Rect.whole S1x128, p8⟩])
        ∗ ownPt1 c ((scM1_0.slice (Rect.unit (s := S32x1x128) ![9, 0, 0] S1x1x128.size inb_S32x1x128_S1x1x128_9_0_0) (fun _ => rfl)).squeeze S1x128 squeezes_S1x1x128_S1x128) (((scM1_0.slice (Rect.unit (s := S32x1x128) ![9, 0, 0] S1x1x128.size inb_S32x1x128_S1x1x128_9_0_0) (fun _ => rfl)).squeeze S1x128 squeezes_S1x1x128_S1x128).view.writes (Elt F) f9 [⟨Rect.whole S1x128, p9⟩])
        ∗ ownPt1 c ((scM1_0.slice (Rect.unit (s := S32x1x128) ![10, 0, 0] S1x1x128.size inb_S32x1x128_S1x1x128_10_0_0) (fun _ => rfl)).squeeze S1x128 squeezes_S1x1x128_S1x128) (((scM1_0.slice (Rect.unit (s := S32x1x128) ![10, 0, 0] S1x1x128.size inb_S32x1x128_S1x1x128_10_0_0) (fun _ => rfl)).squeeze S1x128 squeezes_S1x1x128_S1x128).view.writes (Elt F) f10 [⟨Rect.whole S1x128, p10⟩])
        ∗ ownPt1 c ((scM1_0.slice (Rect.unit (s := S32x1x128) ![11, 0, 0] S1x1x128.size inb_S32x1x128_S1x1x128_11_0_0) (fun _ => rfl)).squeeze S1x128 squeezes_S1x1x128_S1x128) (((scM1_0.slice (Rect.unit (s := S32x1x128) ![11, 0, 0] S1x1x128.size inb_S32x1x128_S1x1x128_11_0_0) (fun _ => rfl)).squeeze S1x128 squeezes_S1x1x128_S1x128).view.writes (Elt F) f11 [⟨Rect.whole S1x128, p11⟩])
        ∗ ownPt1 c ((scM1_0.slice (Rect.unit (s := S32x1x128) ![12, 0, 0] S1x1x128.size inb_S32x1x128_S1x1x128_12_0_0) (fun _ => rfl)).squeeze S1x128 squeezes_S1x1x128_S1x128) (((scM1_0.slice (Rect.unit (s := S32x1x128) ![12, 0, 0] S1x1x128.size inb_S32x1x128_S1x1x128_12_0_0) (fun _ => rfl)).squeeze S1x128 squeezes_S1x1x128_S1x128).view.writes (Elt F) f12 [⟨Rect.whole S1x128, p12⟩])
        ∗ ownPt1 c ((scM1_0.slice (Rect.unit (s := S32x1x128) ![13, 0, 0] S1x1x128.size inb_S32x1x128_S1x1x128_13_0_0) (fun _ => rfl)).squeeze S1x128 squeezes_S1x1x128_S1x128) (((scM1_0.slice (Rect.unit (s := S32x1x128) ![13, 0, 0] S1x1x128.size inb_S32x1x128_S1x1x128_13_0_0) (fun _ => rfl)).squeeze S1x128 squeezes_S1x1x128_S1x128).view.writes (Elt F) f13 [⟨Rect.whole S1x128, p13⟩])
        ∗ ownPt1 c ((scM1_0.slice (Rect.unit (s := S32x1x128) ![14, 0, 0] S1x1x128.size inb_S32x1x128_S1x1x128_14_0_0) (fun _ => rfl)).squeeze S1x128 squeezes_S1x1x128_S1x128) (((scM1_0.slice (Rect.unit (s := S32x1x128) ![14, 0, 0] S1x1x128.size inb_S32x1x128_S1x1x128_14_0_0) (fun _ => rfl)).squeeze S1x128 squeezes_S1x1x128_S1x128).view.writes (Elt F) f14 [⟨Rect.whole S1x128, p14⟩])
        ∗ ownPt1 c ((scM1_0.slice (Rect.unit (s := S32x1x128) ![15, 0, 0] S1x1x128.size inb_S32x1x128_S1x1x128_15_0_0) (fun _ => rfl)).squeeze S1x128 squeezes_S1x1x128_S1x128) (((scM1_0.slice (Rect.unit (s := S32x1x128) ![15, 0, 0] S1x1x128.size inb_S32x1x128_S1x1x128_15_0_0) (fun _ => rfl)).squeeze S1x128 squeezes_S1x1x128_S1x128).view.writes (Elt F) f15 [⟨Rect.whole S1x128, p15⟩])
        ∗ ownPt1 c ((scM1_0.slice (Rect.unit (s := S32x1x128) ![16, 0, 0] S1x1x128.size inb_S32x1x128_S1x1x128_16_0_0) (fun _ => rfl)).squeeze S1x128 squeezes_S1x1x128_S1x128) (((scM1_0.slice (Rect.unit (s := S32x1x128) ![16, 0, 0] S1x1x128.size inb_S32x1x128_S1x1x128_16_0_0) (fun _ => rfl)).squeeze S1x128 squeezes_S1x1x128_S1x128).view.writes (Elt F) f16 [⟨Rect.whole S1x128, p16⟩])
        ∗ ownPt1 c ((scM1_0.slice (Rect.unit (s := S32x1x128) ![17, 0, 0] S1x1x128.size inb_S32x1x128_S1x1x128_17_0_0) (fun _ => rfl)).squeeze S1x128 squeezes_S1x1x128_S1x128) (((scM1_0.slice (Rect.unit (s := S32x1x128) ![17, 0, 0] S1x1x128.size inb_S32x1x128_S1x1x128_17_0_0) (fun _ => rfl)).squeeze S1x128 squeezes_S1x1x128_S1x128).view.writes (Elt F) f17 [⟨Rect.whole S1x128, p17⟩])
        ∗ ownPt1 c ((scM1_0.slice (Rect.unit (s := S32x1x128) ![18, 0, 0] S1x1x128.size inb_S32x1x128_S1x1x128_18_0_0) (fun _ => rfl)).squeeze S1x128 squeezes_S1x1x128_S1x128) (((scM1_0.slice (Rect.unit (s := S32x1x128) ![18, 0, 0] S1x1x128.size inb_S32x1x128_S1x1x128_18_0_0) (fun _ => rfl)).squeeze S1x128 squeezes_S1x1x128_S1x128).view.writes (Elt F) f18 [⟨Rect.whole S1x128, p18⟩])
        ∗ ownPt1 c ((scM1_0.slice (Rect.unit (s := S32x1x128) ![19, 0, 0] S1x1x128.size inb_S32x1x128_S1x1x128_19_0_0) (fun _ => rfl)).squeeze S1x128 squeezes_S1x1x128_S1x128) (((scM1_0.slice (Rect.unit (s := S32x1x128) ![19, 0, 0] S1x1x128.size inb_S32x1x128_S1x1x128_19_0_0) (fun _ => rfl)).squeeze S1x128 squeezes_S1x1x128_S1x128).view.writes (Elt F) f19 [⟨Rect.whole S1x128, p19⟩])
        ∗ ownPt1 c ((scM1_0.slice (Rect.unit (s := S32x1x128) ![20, 0, 0] S1x1x128.size inb_S32x1x128_S1x1x128_20_0_0) (fun _ => rfl)).squeeze S1x128 squeezes_S1x1x128_S1x128) (((scM1_0.slice (Rect.unit (s := S32x1x128) ![20, 0, 0] S1x1x128.size inb_S32x1x128_S1x1x128_20_0_0) (fun _ => rfl)).squeeze S1x128 squeezes_S1x1x128_S1x128).view.writes (Elt F) f20 [⟨Rect.whole S1x128, p20⟩])
        ∗ ownPt1 c ((scM1_0.slice (Rect.unit (s := S32x1x128) ![21, 0, 0] S1x1x128.size inb_S32x1x128_S1x1x128_21_0_0) (fun _ => rfl)).squeeze S1x128 squeezes_S1x1x128_S1x128) (((scM1_0.slice (Rect.unit (s := S32x1x128) ![21, 0, 0] S1x1x128.size inb_S32x1x128_S1x1x128_21_0_0) (fun _ => rfl)).squeeze S1x128 squeezes_S1x1x128_S1x128).view.writes (Elt F) f21 [⟨Rect.whole S1x128, p21⟩])
        ∗ ownPt1 c ((scM1_0.slice (Rect.unit (s := S32x1x128) ![22, 0, 0] S1x1x128.size inb_S32x1x128_S1x1x128_22_0_0) (fun _ => rfl)).squeeze S1x128 squeezes_S1x1x128_S1x128) (((scM1_0.slice (Rect.unit (s := S32x1x128) ![22, 0, 0] S1x1x128.size inb_S32x1x128_S1x1x128_22_0_0) (fun _ => rfl)).squeeze S1x128 squeezes_S1x1x128_S1x128).view.writes (Elt F) f22 [⟨Rect.whole S1x128, p22⟩])
        ∗ ownPt1 c ((scM1_0.slice (Rect.unit (s := S32x1x128) ![23, 0, 0] S1x1x128.size inb_S32x1x128_S1x1x128_23_0_0) (fun _ => rfl)).squeeze S1x128 squeezes_S1x1x128_S1x128) (((scM1_0.slice (Rect.unit (s := S32x1x128) ![23, 0, 0] S1x1x128.size inb_S32x1x128_S1x1x128_23_0_0) (fun _ => rfl)).squeeze S1x128 squeezes_S1x1x128_S1x128).view.writes (Elt F) f23 [⟨Rect.whole S1x128, p23⟩])
        ∗ ownPt1 c ((scM1_0.slice (Rect.unit (s := S32x1x128) ![24, 0, 0] S1x1x128.size inb_S32x1x128_S1x1x128_24_0_0) (fun _ => rfl)).squeeze S1x128 squeezes_S1x1x128_S1x128) (((scM1_0.slice (Rect.unit (s := S32x1x128) ![24, 0, 0] S1x1x128.size inb_S32x1x128_S1x1x128_24_0_0) (fun _ => rfl)).squeeze S1x128 squeezes_S1x1x128_S1x128).view.writes (Elt F) f24 [⟨Rect.whole S1x128, p24⟩])
        ∗ ownPt1 c ((scM1_0.slice (Rect.unit (s := S32x1x128) ![25, 0, 0] S1x1x128.size inb_S32x1x128_S1x1x128_25_0_0) (fun _ => rfl)).squeeze S1x128 squeezes_S1x1x128_S1x128) (((scM1_0.slice (Rect.unit (s := S32x1x128) ![25, 0, 0] S1x1x128.size inb_S32x1x128_S1x1x128_25_0_0) (fun _ => rfl)).squeeze S1x128 squeezes_S1x1x128_S1x128).view.writes (Elt F) f25 [⟨Rect.whole S1x128, p25⟩])
        ∗ ownPt1 c ((scM1_0.slice (Rect.unit (s := S32x1x128) ![26, 0, 0] S1x1x128.size inb_S32x1x128_S1x1x128_26_0_0) (fun _ => rfl)).squeeze S1x128 squeezes_S1x1x128_S1x128) (((scM1_0.slice (Rect.unit (s := S32x1x128) ![26, 0, 0] S1x1x128.size inb_S32x1x128_S1x1x128_26_0_0) (fun _ => rfl)).squeeze S1x128 squeezes_S1x1x128_S1x128).view.writes (Elt F) f26 [⟨Rect.whole S1x128, p26⟩])
        ∗ ownPt1 c ((scM1_0.slice (Rect.unit (s := S32x1x128) ![27, 0, 0] S1x1x128.size inb_S32x1x128_S1x1x128_27_0_0) (fun _ => rfl)).squeeze S1x128 squeezes_S1x1x128_S1x128) (((scM1_0.slice (Rect.unit (s := S32x1x128) ![27, 0, 0] S1x1x128.size inb_S32x1x128_S1x1x128_27_0_0) (fun _ => rfl)).squeeze S1x128 squeezes_S1x1x128_S1x128).view.writes (Elt F) f27 [⟨Rect.whole S1x128, p27⟩])
        ∗ ownPt1 c ((scM1_0.slice (Rect.unit (s := S32x1x128) ![28, 0, 0] S1x1x128.size inb_S32x1x128_S1x1x128_28_0_0) (fun _ => rfl)).squeeze S1x128 squeezes_S1x1x128_S1x128) (((scM1_0.slice (Rect.unit (s := S32x1x128) ![28, 0, 0] S1x1x128.size inb_S32x1x128_S1x1x128_28_0_0) (fun _ => rfl)).squeeze S1x128 squeezes_S1x1x128_S1x128).view.writes (Elt F) f28 [⟨Rect.whole S1x128, p28⟩])
        ∗ ownPt1 c ((scM1_0.slice (Rect.unit (s := S32x1x128) ![29, 0, 0] S1x1x128.size inb_S32x1x128_S1x1x128_29_0_0) (fun _ => rfl)).squeeze S1x128 squeezes_S1x1x128_S1x128) (((scM1_0.slice (Rect.unit (s := S32x1x128) ![29, 0, 0] S1x1x128.size inb_S32x1x128_S1x1x128_29_0_0) (fun _ => rfl)).squeeze S1x128 squeezes_S1x1x128_S1x128).view.writes (Elt F) f29 [⟨Rect.whole S1x128, p29⟩])
        ∗ ownPt1 c ((scM1_0.slice (Rect.unit (s := S32x1x128) ![30, 0, 0] S1x1x128.size inb_S32x1x128_S1x1x128_30_0_0) (fun _ => rfl)).squeeze S1x128 squeezes_S1x1x128_S1x128) (((scM1_0.slice (Rect.unit (s := S32x1x128) ![30, 0, 0] S1x1x128.size inb_S32x1x128_S1x1x128_30_0_0) (fun _ => rfl)).squeeze S1x128 squeezes_S1x1x128_S1x128).view.writes (Elt F) f30 [⟨Rect.whole S1x128, p30⟩])
        ∗ ownPt1 c ((scM1_0.slice (Rect.unit (s := S32x1x128) ![31, 0, 0] S1x1x128.size inb_S32x1x128_S1x1x128_31_0_0) (fun _ => rfl)).squeeze S1x128 squeezes_S1x1x128_S1x128) (((scM1_0.slice (Rect.unit (s := S32x1x128) ![31, 0, 0] S1x1x128.size inb_S32x1x128_S1x1x128_31_0_0) (fun _ => rfl)).squeeze S1x128 squeezes_S1x1x128_S1x128).view.writes (Elt F) f31 [⟨Rect.whole S1x128, p31⟩]))
      ⊢ (ownPt1 c scM1_0 (scratchOf c ![p0, p1, p2, p3, p4, p5, p6, p7, p8, p9, p10, p11, p12, p13, p14, p15, p16, p17, p18, p19, p20, p21, p22, p23, p24, p25, p26, p27, p28, p29, p30, p31]) : sProp 𝕄) := by
  have h := scratch_join c ![f0, f1, f2, f3, f4, f5, f6, f7, f8, f9, f10, f11, f12, f13, f14, f15, f16, f17, f18, f19, f20, f21, f22, f23, f24, f25, f26, f27, f28, f29, f30, f31] ![p0, p1, p2, p3, p4, p5, p6, p7, p8, p9, p10, p11, p12, p13, p14, p15, p16, p17, p18, p19, p20, p21, p22, p23, p24, p25, p26, p27, p28, p29, p30, p31]
  rw [bigSep_slots] at h
  exact h

set_option maxHeartbeats 1600000 in

theorem scratch_split32 (c : Dev nD) (g : HbBuf1 (F := F) c scM1_0) :
    (ownPt1 c scM1_0 g : sProp 𝕄)
      ⊢ iprop(ownPt1 c ((scM1_0.slice (Rect.unit (s := S32x1x128) ![0, 0, 0] S1x1x128.size inb_S32x1x128_S1x1x128_0_0_0) (fun _ => rfl)).squeeze S1x128 squeezes_S1x1x128_S1x128) g
        ∗ ownPt1 c ((scM1_0.slice (Rect.unit (s := S32x1x128) ![1, 0, 0] S1x1x128.size inb_S32x1x128_S1x1x128_1_0_0) (fun _ => rfl)).squeeze S1x128 squeezes_S1x1x128_S1x128) g
        ∗ ownPt1 c ((scM1_0.slice (Rect.unit (s := S32x1x128) ![2, 0, 0] S1x1x128.size inb_S32x1x128_S1x1x128_2_0_0) (fun _ => rfl)).squeeze S1x128 squeezes_S1x1x128_S1x128) g
        ∗ ownPt1 c ((scM1_0.slice (Rect.unit (s := S32x1x128) ![3, 0, 0] S1x1x128.size inb_S32x1x128_S1x1x128_3_0_0) (fun _ => rfl)).squeeze S1x128 squeezes_S1x1x128_S1x128) g
        ∗ ownPt1 c ((scM1_0.slice (Rect.unit (s := S32x1x128) ![4, 0, 0] S1x1x128.size inb_S32x1x128_S1x1x128_4_0_0) (fun _ => rfl)).squeeze S1x128 squeezes_S1x1x128_S1x128) g
        ∗ ownPt1 c ((scM1_0.slice (Rect.unit (s := S32x1x128) ![5, 0, 0] S1x1x128.size inb_S32x1x128_S1x1x128_5_0_0) (fun _ => rfl)).squeeze S1x128 squeezes_S1x1x128_S1x128) g
        ∗ ownPt1 c ((scM1_0.slice (Rect.unit (s := S32x1x128) ![6, 0, 0] S1x1x128.size inb_S32x1x128_S1x1x128_6_0_0) (fun _ => rfl)).squeeze S1x128 squeezes_S1x1x128_S1x128) g
        ∗ ownPt1 c ((scM1_0.slice (Rect.unit (s := S32x1x128) ![7, 0, 0] S1x1x128.size inb_S32x1x128_S1x1x128_7_0_0) (fun _ => rfl)).squeeze S1x128 squeezes_S1x1x128_S1x128) g
        ∗ ownPt1 c ((scM1_0.slice (Rect.unit (s := S32x1x128) ![8, 0, 0] S1x1x128.size inb_S32x1x128_S1x1x128_8_0_0) (fun _ => rfl)).squeeze S1x128 squeezes_S1x1x128_S1x128) g
        ∗ ownPt1 c ((scM1_0.slice (Rect.unit (s := S32x1x128) ![9, 0, 0] S1x1x128.size inb_S32x1x128_S1x1x128_9_0_0) (fun _ => rfl)).squeeze S1x128 squeezes_S1x1x128_S1x128) g
        ∗ ownPt1 c ((scM1_0.slice (Rect.unit (s := S32x1x128) ![10, 0, 0] S1x1x128.size inb_S32x1x128_S1x1x128_10_0_0) (fun _ => rfl)).squeeze S1x128 squeezes_S1x1x128_S1x128) g
        ∗ ownPt1 c ((scM1_0.slice (Rect.unit (s := S32x1x128) ![11, 0, 0] S1x1x128.size inb_S32x1x128_S1x1x128_11_0_0) (fun _ => rfl)).squeeze S1x128 squeezes_S1x1x128_S1x128) g
        ∗ ownPt1 c ((scM1_0.slice (Rect.unit (s := S32x1x128) ![12, 0, 0] S1x1x128.size inb_S32x1x128_S1x1x128_12_0_0) (fun _ => rfl)).squeeze S1x128 squeezes_S1x1x128_S1x128) g
        ∗ ownPt1 c ((scM1_0.slice (Rect.unit (s := S32x1x128) ![13, 0, 0] S1x1x128.size inb_S32x1x128_S1x1x128_13_0_0) (fun _ => rfl)).squeeze S1x128 squeezes_S1x1x128_S1x128) g
        ∗ ownPt1 c ((scM1_0.slice (Rect.unit (s := S32x1x128) ![14, 0, 0] S1x1x128.size inb_S32x1x128_S1x1x128_14_0_0) (fun _ => rfl)).squeeze S1x128 squeezes_S1x1x128_S1x128) g
        ∗ ownPt1 c ((scM1_0.slice (Rect.unit (s := S32x1x128) ![15, 0, 0] S1x1x128.size inb_S32x1x128_S1x1x128_15_0_0) (fun _ => rfl)).squeeze S1x128 squeezes_S1x1x128_S1x128) g
        ∗ ownPt1 c ((scM1_0.slice (Rect.unit (s := S32x1x128) ![16, 0, 0] S1x1x128.size inb_S32x1x128_S1x1x128_16_0_0) (fun _ => rfl)).squeeze S1x128 squeezes_S1x1x128_S1x128) g
        ∗ ownPt1 c ((scM1_0.slice (Rect.unit (s := S32x1x128) ![17, 0, 0] S1x1x128.size inb_S32x1x128_S1x1x128_17_0_0) (fun _ => rfl)).squeeze S1x128 squeezes_S1x1x128_S1x128) g
        ∗ ownPt1 c ((scM1_0.slice (Rect.unit (s := S32x1x128) ![18, 0, 0] S1x1x128.size inb_S32x1x128_S1x1x128_18_0_0) (fun _ => rfl)).squeeze S1x128 squeezes_S1x1x128_S1x128) g
        ∗ ownPt1 c ((scM1_0.slice (Rect.unit (s := S32x1x128) ![19, 0, 0] S1x1x128.size inb_S32x1x128_S1x1x128_19_0_0) (fun _ => rfl)).squeeze S1x128 squeezes_S1x1x128_S1x128) g
        ∗ ownPt1 c ((scM1_0.slice (Rect.unit (s := S32x1x128) ![20, 0, 0] S1x1x128.size inb_S32x1x128_S1x1x128_20_0_0) (fun _ => rfl)).squeeze S1x128 squeezes_S1x1x128_S1x128) g
        ∗ ownPt1 c ((scM1_0.slice (Rect.unit (s := S32x1x128) ![21, 0, 0] S1x1x128.size inb_S32x1x128_S1x1x128_21_0_0) (fun _ => rfl)).squeeze S1x128 squeezes_S1x1x128_S1x128) g
        ∗ ownPt1 c ((scM1_0.slice (Rect.unit (s := S32x1x128) ![22, 0, 0] S1x1x128.size inb_S32x1x128_S1x1x128_22_0_0) (fun _ => rfl)).squeeze S1x128 squeezes_S1x1x128_S1x128) g
        ∗ ownPt1 c ((scM1_0.slice (Rect.unit (s := S32x1x128) ![23, 0, 0] S1x1x128.size inb_S32x1x128_S1x1x128_23_0_0) (fun _ => rfl)).squeeze S1x128 squeezes_S1x1x128_S1x128) g
        ∗ ownPt1 c ((scM1_0.slice (Rect.unit (s := S32x1x128) ![24, 0, 0] S1x1x128.size inb_S32x1x128_S1x1x128_24_0_0) (fun _ => rfl)).squeeze S1x128 squeezes_S1x1x128_S1x128) g
        ∗ ownPt1 c ((scM1_0.slice (Rect.unit (s := S32x1x128) ![25, 0, 0] S1x1x128.size inb_S32x1x128_S1x1x128_25_0_0) (fun _ => rfl)).squeeze S1x128 squeezes_S1x1x128_S1x128) g
        ∗ ownPt1 c ((scM1_0.slice (Rect.unit (s := S32x1x128) ![26, 0, 0] S1x1x128.size inb_S32x1x128_S1x1x128_26_0_0) (fun _ => rfl)).squeeze S1x128 squeezes_S1x1x128_S1x128) g
        ∗ ownPt1 c ((scM1_0.slice (Rect.unit (s := S32x1x128) ![27, 0, 0] S1x1x128.size inb_S32x1x128_S1x1x128_27_0_0) (fun _ => rfl)).squeeze S1x128 squeezes_S1x1x128_S1x128) g
        ∗ ownPt1 c ((scM1_0.slice (Rect.unit (s := S32x1x128) ![28, 0, 0] S1x1x128.size inb_S32x1x128_S1x1x128_28_0_0) (fun _ => rfl)).squeeze S1x128 squeezes_S1x1x128_S1x128) g
        ∗ ownPt1 c ((scM1_0.slice (Rect.unit (s := S32x1x128) ![29, 0, 0] S1x1x128.size inb_S32x1x128_S1x1x128_29_0_0) (fun _ => rfl)).squeeze S1x128 squeezes_S1x1x128_S1x128) g
        ∗ ownPt1 c ((scM1_0.slice (Rect.unit (s := S32x1x128) ![30, 0, 0] S1x1x128.size inb_S32x1x128_S1x1x128_30_0_0) (fun _ => rfl)).squeeze S1x128 squeezes_S1x1x128_S1x128) g
        ∗ ownPt1 c ((scM1_0.slice (Rect.unit (s := S32x1x128) ![31, 0, 0] S1x1x128.size inb_S32x1x128_S1x1x128_31_0_0) (fun _ => rfl)).squeeze S1x128 squeezes_S1x1x128_S1x128) g) := by
  have h := scratch_split c g
  rw [bigSep_slots] at h
  exact h

end Cert.KernelIdeal.Fr

end
-- ==== Proof.KI.GatherRun.lean ====
import proofs.«405998_j76398878261701_2_alg».proof.Proof.KI.GatherDefs
import proofs.«405998_j76398878261701_2_alg».proof.Proof.KI.ScratchJoin32
import proofs.«405998_j76398878261701_2_alg».proof.Proof.Gen.KernelIdeal.Launch
import proofs.«405998_j76398878261701_2_alg».proof.Proof.Gen.KernelIdeal.Skeleton
import proofs.«405998_j76398878261701_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option sl_exec.stepHeartbeats 400000 in
set_option maxHeartbeats 0 in
noncomputable def kernelRun1_A (c : Dev nD) (i : grid1.Coords) (arg2 : Memref sig .tc .smem S1x8x32 .i32) (harg2 : arg2.IsWhole)
    (arg4 : Memref sig .tc .vmem S1x8x128 .f32) (harg4 : arg4.IsWhole)
    (x0 : Vec F S1x8x32 .i32) (fh0 : HbBuf1 (F := F) c hbM1_0)
    (hx : ∀ j, (x0 j : BitVec 32).toNat + 1 ≤ 16384) :
    { L1 : List (View.Piece (Elt F) S1x8x128 .f32) //
      ∀ (W : Waits sig Unit) (K : PUnit → sProp 𝕄),
        iprop(owns (c : Thread nD τ) arg2 fullShare x0 ∗ (∃ d, owns (c : Thread nD τ) arg4 fullShare d) ∗ (∃ d, owns (c : Thread nD τ) scM1_0 fullShare d)
            ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ hbTok1 c hbM1_0 9 fh0 ∗ hbTok1 c hbM1_0 10 fh0 ∗ hbTok1 c hbM1_0 11 fh0 ∗ hbTok1 c hbM1_0 12 fh0 ∗ hbTok1 c hbM1_0 13 fh0 ∗ hbTok1 c hbM1_0 14 fh0 ∗ hbTok1 c hbM1_0 15 fh0 ∗ hbTok1 c hbM1_0 16 fh0 ∗ hbTok1 c hbM1_0 17 fh0 ∗ hbTok1 c hbM1_0 18 fh0 ∗ hbTok1 c hbM1_0 19 fh0 ∗ hbTok1 c hbM1_0 20 fh0 ∗ hbTok1 c hbM1_0 21 fh0 ∗ hbTok1 c hbM1_0 22 fh0 ∗ hbTok1 c hbM1_0 23 fh0 ∗ hbTok1 c hbM1_0 24 fh0 ∗ hbTok1 c hbM1_0 25 fh0 ∗ hbTok1 c hbM1_0 26 fh0 ∗ hbTok1 c hbM1_0 27 fh0 ∗ hbTok1 c hbM1_0 28 fh0 ∗ hbTok1 c hbM1_0 29 fh0 ∗ hbTok1 c hbM1_0 30 fh0 ∗ hbTok1 c hbM1_0 31 fh0 ∗ hbTok1 c hbM1_0 32 fh0 ∗ hbTok1 c hbM1_0 33 fh0 ∗ hbTok1 c hbM1_0 34 fh0 ∗ hbTok1 c hbM1_0 35 fh0 ∗ hbTok1 c hbM1_0 36 fh0 ∗ hbTok1 c hbM1_0 37 fh0 ∗ hbTok1 c hbM1_0 38 fh0 ∗ hbTok1 c hbM1_0 39 fh0 ∗ hbTok1 c hbM1_0 40 fh0 ∗ owes (c : Thread nD τ) 0 W
            ∗ (iprop(owns (c : Thread nD τ) arg2 fullShare x0 ∗ (∃ f, arg4.view.loc (c : Thread nD τ) ↦[arg4.view.set]{fullShare} arg4.view.writes (Elt F) f L1) ∗ (∃ d, owns (c : Thread nD τ) scM1_0 fullShare d)
                ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ hbTok1 c hbM1_0 9 fh0 ∗ hbTok1 c hbM1_0 10 fh0 ∗ hbTok1 c hbM1_0 11 fh0 ∗ hbTok1 c hbM1_0 12 fh0 ∗ hbTok1 c hbM1_0 13 fh0 ∗ hbTok1 c hbM1_0 14 fh0 ∗ hbTok1 c hbM1_0 15 fh0 ∗ hbTok1 c hbM1_0 16 fh0 ∗ hbTok1 c hbM1_0 17 fh0 ∗ hbTok1 c hbM1_0 18 fh0 ∗ hbTok1 c hbM1_0 19 fh0 ∗ hbTok1 c hbM1_0 20 fh0 ∗ hbTok1 c hbM1_0 21 fh0 ∗ hbTok1 c hbM1_0 22 fh0 ∗ hbTok1 c hbM1_0 23 fh0 ∗ hbTok1 c hbM1_0 24 fh0 ∗ hbTok1 c hbM1_0 25 fh0 ∗ hbTok1 c hbM1_0 26 fh0 ∗ hbTok1 c hbM1_0 27 fh0 ∗ hbTok1 c hbM1_0 28 fh0 ∗ hbTok1 c hbM1_0 29 fh0 ∗ hbTok1 c hbM1_0 30 fh0 ∗ hbTok1 c hbM1_0 31 fh0 ∗ hbTok1 c hbM1_0 32 fh0 ∗ hbTok1 c hbM1_0 33 fh0 ∗ hbTok1 c hbM1_0 34 fh0 ∗ hbTok1 c hbM1_0 35 fh0 ∗ hbTok1 c hbM1_0 36 fh0 ∗ hbTok1 c hbM1_0 37 fh0 ∗ hbTok1 c hbM1_0 38 fh0 ∗ hbTok1 c hbM1_0 39 fh0 ∗ hbTok1 c hbM1_0 40 fh0 ∗ (∃ W', owes (c : Thread nD τ) 0 W')) -∗ K ⟨⟩))
          ⊢ wp frame (wpE (defs₀ (F := F)) Variants.none c none) Set.univ (cc1_kernel i arg2 harg2 (Memref.whole main_v1) (Memref.isWhole_whole _) arg4 harg4 scM1_0 (Memref.isWhole_whole _) cc1_scratch1) K } := by
  refine ⟨?_, fun W K => ?run⟩
  case run =>
    simp only [cc1_kernel_eq_skeleton]; unfold cc1_kernel_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton, k1_part59_eq_skeleton, k1_part60_eq_skeleton, k1_part61_eq_skeleton, k1_part62_eq_skeleton, k1_part63_eq_skeleton, k1_part64_eq_skeleton, k1_part65_eq_skeleton, k1_part66_eq_skeleton, k1_part67_eq_skeleton, k1_part68_eq_skeleton, k1_part69_eq_skeleton, k1_part70_eq_skeleton, k1_part71_eq_skeleton, k1_part72_eq_skeleton, k1_part73_eq_skeleton, k1_part74_eq_skeleton, k1_part75_eq_skeleton, k1_part76_eq_skeleton, k1_part77_eq_skeleton, k1_part78_eq_skeleton, k1_part79_eq_skeleton, k1_part80_eq_skeleton, k1_part81_eq_skeleton, k1_part82_eq_skeleton, k1_part83_eq_skeleton, k1_part84_eq_skeleton, k1_part85_eq_skeleton, k1_part86_eq_skeleton, k1_part87_eq_skeleton, k1_part88_eq_skeleton, k1_part89_eq_skeleton, k1_part90_eq_skeleton, k1_part91_eq_skeleton, k1_part92_eq_skeleton, k1_part93_eq_skeleton, k1_part94_eq_skeleton, k1_part95_eq_skeleton, k1_part96_eq_skeleton, k1_part97_eq_skeleton, k1_part98_eq_skeleton, k1_part99_eq_skeleton, k1_part100_eq_skeleton, k1_part101_eq_skeleton, k1_part102_eq_skeleton, k1_part103_eq_skeleton, k1_part104_eq_skeleton, k1_part105_eq_skeleton, k1_part106_eq_skeleton, k1_part107_eq_skeleton, k1_part108_eq_skeleton, k1_part109_eq_skeleton, k1_part110_eq_skeleton, k1_part111_eq_skeleton, k1_part112_eq_skeleton, k1_part113_eq_skeleton, k1_part114_eq_skeleton, k1_part115_eq_skeleton, k1_part116_eq_skeleton, k1_part117_eq_skeleton, k1_part118_eq_skeleton, k1_part119_eq_skeleton, k1_part120_eq_skeleton, k1_part121_eq_skeleton, k1_part122_eq_skeleton, k1_part123_eq_skeleton, k1_part124_eq_skeleton, k1_part125_eq_skeleton, k1_part126_eq_skeleton, k1_part127_eq_skeleton, k1_part128_eq_skeleton, k1_part129_eq_skeleton, k1_part130_eq_skeleton, k1_part131_eq_skeleton, k1_part132_eq_skeleton, k1_part133_eq_skeleton, k1_part134_eq_skeleton, k1_part135_eq_skeleton, k1_part136_eq_skeleton, k1_part137_eq_skeleton, k1_part138_eq_skeleton, k1_part139_eq_skeleton, k1_part140_eq_skeleton, k1_part141_eq_skeleton, k1_part142_eq_skeleton, k1_part143_eq_skeleton, k1_part144_eq_skeleton, k1_part145_eq_skeleton, k1_part146_eq_skeleton, k1_part147_eq_skeleton, k1_part148_eq_skeleton, k1_part149_eq_skeleton, k1_part150_eq_skeleton, k1_part151_eq_skeleton, k1_part152_eq_skeleton, k1_part153_eq_skeleton, k1_part154_eq_skeleton, k1_part155_eq_skeleton, k1_part156_eq_skeleton, k1_part157_eq_skeleton]
    unfold owns
    iintro ⟨⟨%f0, %hf0, H0⟩, ⟨%d1, %f1, -, H1⟩, ⟨%ds0, %fs0, -, HSw⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hh0, Hh1, Hh2, Hh3, Hh4, Hh5, Hh6, Hh7, Hh8, Hh9, Hh10, Hh11, Hh12, Hh13, Hh14, Hh15, Hh16, Hh17, Hh18, Hh19, Hh20, Hh21, Hh22, Hh23, Hh24, Hh25, Hh26, Hh27, Hh28, Hh29, Hh30, Hh31, HW, Hk⟩
    obtain rfl := harg2.eq_unread hf0
    ihave HSs := (scratch_split32 c _) $$ HSw
    icases HSs with ⟨HS0, HS1, HS2, HS3, HS4, HS5, HS6, HS7, HS8, HS9, HS10, HS11, HS12, HS13, HS14, HS15, HS16, HS17, HS18, HS19, HS20, HS21, HS22, HS23, HS24, HS25, HS26, HS27, HS28, HS29, HS30, HS31⟩
    sl_exec (disch := exact word_inb arg2 harg2 x0 hx _ _)
    ihave HSw := (scratch_join32 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) $$ [HS0 HS1 HS2 HS3 HS4 HS5 HS6 HS7 HS8 HS9 HS10 HS11 HS12 HS13 HS14 HS15 HS16 HS17 HS18 HS19 HS20 HS21 HS22 HS23 HS24 HS25 HS26 HS27 HS28 HS29 HS30 HS31]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      isplitl [HS15]; · iexact HS15
      isplitl [HS16]; · iexact HS16
      isplitl [HS17]; · iexact HS17
      isplitl [HS18]; · iexact HS18
      isplitl [HS19]; · iexact HS19
      isplitl [HS20]; · iexact HS20
      isplitl [HS21]; · iexact HS21
      isplitl [HS22]; · iexact HS22
      isplitl [HS23]; · iexact HS23
      isplitl [HS24]; · iexact HS24
      isplitl [HS25]; · iexact HS25
      isplitl [HS26]; · iexact HS26
      isplitl [HS27]; · iexact HS27
      isplitl [HS28]; · iexact HS28
      isplitl [HS29]; · iexact HS29
      isplitl [HS30]; · iexact HS30
      iexact HS31
    set_option sl_exec.maxSteps 1 in sl_exec
    ihave HSs := (scratch_split32 c _) $$ HSw
    icases HSs with ⟨HS0, HS1, HS2, HS3, HS4, HS5, HS6, HS7, HS8, HS9, HS10, HS11, HS12, HS13, HS14, HS15, HS16, HS17, HS18, HS19, HS20, HS21, HS22, HS23, HS24, HS25, HS26, HS27, HS28, HS29, HS30, HS31⟩
    sl_exec (disch := exact word_inb arg2 harg2 x0 hx _ _)
    ihave HSw := (scratch_join32 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) $$ [HS0 HS1 HS2 HS3 HS4 HS5 HS6 HS7 HS8 HS9 HS10 HS11 HS12 HS13 HS14 HS15 HS16 HS17 HS18 HS19 HS20 HS21 HS22 HS23 HS24 HS25 HS26 HS27 HS28 HS29 HS30 HS31]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      isplitl [HS15]; · iexact HS15
      isplitl [HS16]; · iexact HS16
      isplitl [HS17]; · iexact HS17
      isplitl [HS18]; · iexact HS18
      isplitl [HS19]; · iexact HS19
      isplitl [HS20]; · iexact HS20
      isplitl [HS21]; · iexact HS21
      isplitl [HS22]; · iexact HS22
      isplitl [HS23]; · iexact HS23
      isplitl [HS24]; · iexact HS24
      isplitl [HS25]; · iexact HS25
      isplitl [HS26]; · iexact HS26
      isplitl [HS27]; · iexact HS27
      isplitl [HS28]; · iexact HS28
      isplitl [HS29]; · iexact HS29
      isplitl [HS30]; · iexact HS30
      iexact HS31
    set_option sl_exec.maxSteps 1 in sl_exec
    ihave HSs := (scratch_split32 c _) $$ HSw
    icases HSs with ⟨HS0, HS1, HS2, HS3, HS4, HS5, HS6, HS7, HS8, HS9, HS10, HS11, HS12, HS13, HS14, HS15, HS16, HS17, HS18, HS19, HS20, HS21, HS22, HS23, HS24, HS25, HS26, HS27, HS28, HS29, HS30, HS31⟩
    sl_exec (disch := exact word_inb arg2 harg2 x0 hx _ _)
    ihave HSw := (scratch_join32 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) $$ [HS0 HS1 HS2 HS3 HS4 HS5 HS6 HS7 HS8 HS9 HS10 HS11 HS12 HS13 HS14 HS15 HS16 HS17 HS18 HS19 HS20 HS21 HS22 HS23 HS24 HS25 HS26 HS27 HS28 HS29 HS30 HS31]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      isplitl [HS15]; · iexact HS15
      isplitl [HS16]; · iexact HS16
      isplitl [HS17]; · iexact HS17
      isplitl [HS18]; · iexact HS18
      isplitl [HS19]; · iexact HS19
      isplitl [HS20]; · iexact HS20
      isplitl [HS21]; · iexact HS21
      isplitl [HS22]; · iexact HS22
      isplitl [HS23]; · iexact HS23
      isplitl [HS24]; · iexact HS24
      isplitl [HS25]; · iexact HS25
      isplitl [HS26]; · iexact HS26
      isplitl [HS27]; · iexact HS27
      isplitl [HS28]; · iexact HS28
      isplitl [HS29]; · iexact HS29
      isplitl [HS30]; · iexact HS30
      iexact HS31
    set_option sl_exec.maxSteps 1 in sl_exec
    ihave HSs := (scratch_split32 c _) $$ HSw
    icases HSs with ⟨HS0, HS1, HS2, HS3, HS4, HS5, HS6, HS7, HS8, HS9, HS10, HS11, HS12, HS13, HS14, HS15, HS16, HS17, HS18, HS19, HS20, HS21, HS22, HS23, HS24, HS25, HS26, HS27, HS28, HS29, HS30, HS31⟩
    sl_exec (disch := exact word_inb arg2 harg2 x0 hx _ _)
    ihave HSw := (scratch_join32 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) $$ [HS0 HS1 HS2 HS3 HS4 HS5 HS6 HS7 HS8 HS9 HS10 HS11 HS12 HS13 HS14 HS15 HS16 HS17 HS18 HS19 HS20 HS21 HS22 HS23 HS24 HS25 HS26 HS27 HS28 HS29 HS30 HS31]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      isplitl [HS15]; · iexact HS15
      isplitl [HS16]; · iexact HS16
      isplitl [HS17]; · iexact HS17
      isplitl [HS18]; · iexact HS18
      isplitl [HS19]; · iexact HS19
      isplitl [HS20]; · iexact HS20
      isplitl [HS21]; · iexact HS21
      isplitl [HS22]; · iexact HS22
      isplitl [HS23]; · iexact HS23
      isplitl [HS24]; · iexact HS24
      isplitl [HS25]; · iexact HS25
      isplitl [HS26]; · iexact HS26
      isplitl [HS27]; · iexact HS27
      isplitl [HS28]; · iexact HS28
      isplitl [HS29]; · iexact HS29
      isplitl [HS30]; · iexact HS30
      iexact HS31
    set_option sl_exec.maxSteps 1 in sl_exec
    ihave HSs := (scratch_split32 c _) $$ HSw
    icases HSs with ⟨HS0, HS1, HS2, HS3, HS4, HS5, HS6, HS7, HS8, HS9, HS10, HS11, HS12, HS13, HS14, HS15, HS16, HS17, HS18, HS19, HS20, HS21, HS22, HS23, HS24, HS25, HS26, HS27, HS28, HS29, HS30, HS31⟩
    sl_exec (disch := exact word_inb arg2 harg2 x0 hx _ _)
    ihave HSw := (scratch_join32 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) $$ [HS0 HS1 HS2 HS3 HS4 HS5 HS6 HS7 HS8 HS9 HS10 HS11 HS12 HS13 HS14 HS15 HS16 HS17 HS18 HS19 HS20 HS21 HS22 HS23 HS24 HS25 HS26 HS27 HS28 HS29 HS30 HS31]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      isplitl [HS15]; · iexact HS15
      isplitl [HS16]; · iexact HS16
      isplitl [HS17]; · iexact HS17
      isplitl [HS18]; · iexact HS18
      isplitl [HS19]; · iexact HS19
      isplitl [HS20]; · iexact HS20
      isplitl [HS21]; · iexact HS21
      isplitl [HS22]; · iexact HS22
      isplitl [HS23]; · iexact HS23
      isplitl [HS24]; · iexact HS24
      isplitl [HS25]; · iexact HS25
      isplitl [HS26]; · iexact HS26
      isplitl [HS27]; · iexact HS27
      isplitl [HS28]; · iexact HS28
      isplitl [HS29]; · iexact HS29
      isplitl [HS30]; · iexact HS30
      iexact HS31
    set_option sl_exec.maxSteps 1 in sl_exec
    ihave HSs := (scratch_split32 c _) $$ HSw
    icases HSs with ⟨HS0, HS1, HS2, HS3, HS4, HS5, HS6, HS7, HS8, HS9, HS10, HS11, HS12, HS13, HS14, HS15, HS16, HS17, HS18, HS19, HS20, HS21, HS22, HS23, HS24, HS25, HS26, HS27, HS28, HS29, HS30, HS31⟩
    sl_exec (disch := exact word_inb arg2 harg2 x0 hx _ _)
    ihave HSw := (scratch_join32 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) $$ [HS0 HS1 HS2 HS3 HS4 HS5 HS6 HS7 HS8 HS9 HS10 HS11 HS12 HS13 HS14 HS15 HS16 HS17 HS18 HS19 HS20 HS21 HS22 HS23 HS24 HS25 HS26 HS27 HS28 HS29 HS30 HS31]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      isplitl [HS15]; · iexact HS15
      isplitl [HS16]; · iexact HS16
      isplitl [HS17]; · iexact HS17
      isplitl [HS18]; · iexact HS18
      isplitl [HS19]; · iexact HS19
      isplitl [HS20]; · iexact HS20
      isplitl [HS21]; · iexact HS21
      isplitl [HS22]; · iexact HS22
      isplitl [HS23]; · iexact HS23
      isplitl [HS24]; · iexact HS24
      isplitl [HS25]; · iexact HS25
      isplitl [HS26]; · iexact HS26
      isplitl [HS27]; · iexact HS27
      isplitl [HS28]; · iexact HS28
      isplitl [HS29]; · iexact HS29
      isplitl [HS30]; · iexact HS30
      iexact HS31
    set_option sl_exec.maxSteps 1 in sl_exec
    ihave HSs := (scratch_split32 c _) $$ HSw
    icases HSs with ⟨HS0, HS1, HS2, HS3, HS4, HS5, HS6, HS7, HS8, HS9, HS10, HS11, HS12, HS13, HS14, HS15, HS16, HS17, HS18, HS19, HS20, HS21, HS22, HS23, HS24, HS25, HS26, HS27, HS28, HS29, HS30, HS31⟩
    sl_exec (disch := exact word_inb arg2 harg2 x0 hx _ _)
    ihave HSw := (scratch_join32 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) $$ [HS0 HS1 HS2 HS3 HS4 HS5 HS6 HS7 HS8 HS9 HS10 HS11 HS12 HS13 HS14 HS15 HS16 HS17 HS18 HS19 HS20 HS21 HS22 HS23 HS24 HS25 HS26 HS27 HS28 HS29 HS30 HS31]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      isplitl [HS15]; · iexact HS15
      isplitl [HS16]; · iexact HS16
      isplitl [HS17]; · iexact HS17
      isplitl [HS18]; · iexact HS18
      isplitl [HS19]; · iexact HS19
      isplitl [HS20]; · iexact HS20
      isplitl [HS21]; · iexact HS21
      isplitl [HS22]; · iexact HS22
      isplitl [HS23]; · iexact HS23
      isplitl [HS24]; · iexact HS24
      isplitl [HS25]; · iexact HS25
      isplitl [HS26]; · iexact HS26
      isplitl [HS27]; · iexact HS27
      isplitl [HS28]; · iexact HS28
      isplitl [HS29]; · iexact HS29
      isplitl [HS30]; · iexact HS30
      iexact HS31
    set_option sl_exec.maxSteps 1 in sl_exec
    ihave HSs := (scratch_split32 c _) $$ HSw
    icases HSs with ⟨HS0, HS1, HS2, HS3, HS4, HS5, HS6, HS7, HS8, HS9, HS10, HS11, HS12, HS13, HS14, HS15, HS16, HS17, HS18, HS19, HS20, HS21, HS22, HS23, HS24, HS25, HS26, HS27, HS28, HS29, HS30, HS31⟩
    sl_exec (disch := exact word_inb arg2 harg2 x0 hx _ _)
    ihave HSw := (scratch_join32 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) $$ [HS0 HS1 HS2 HS3 HS4 HS5 HS6 HS7 HS8 HS9 HS10 HS11 HS12 HS13 HS14 HS15 HS16 HS17 HS18 HS19 HS20 HS21 HS22 HS23 HS24 HS25 HS26 HS27 HS28 HS29 HS30 HS31]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      isplitl [HS15]; · iexact HS15
      isplitl [HS16]; · iexact HS16
      isplitl [HS17]; · iexact HS17
      isplitl [HS18]; · iexact HS18
      isplitl [HS19]; · iexact HS19
      isplitl [HS20]; · iexact HS20
      isplitl [HS21]; · iexact HS21
      isplitl [HS22]; · iexact HS22
      isplitl [HS23]; · iexact HS23
      isplitl [HS24]; · iexact HS24
      isplitl [HS25]; · iexact HS25
      isplitl [HS26]; · iexact HS26
      isplitl [HS27]; · iexact HS27
      isplitl [HS28]; · iexact HS28
      isplitl [HS29]; · iexact HS29
      isplitl [HS30]; · iexact HS30
      iexact HS31
    set_option sl_exec.maxSteps 1 in sl_exec
    sl_exec (disch := exact word_inb arg2 harg2 x0 hx _ _)
    sl_step
    iapply Hk
    isplitl [H0]
    · iexists _; isplitr; · ipureintro; exact harg2.read_unread _
      iexact H0
    isplitl [H1]; · iexists _; iexact H1
    isplitl [HSw]
    · iexists _, _; isplitr; swap; · iexact HSw
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    isplitl [Hq31]; · iexact Hq31
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    isplitl [Hh10]; · iexact Hh10
    isplitl [Hh11]; · iexact Hh11
    isplitl [Hh12]; · iexact Hh12
    isplitl [Hh13]; · iexact Hh13
    isplitl [Hh14]; · iexact Hh14
    isplitl [Hh15]; · iexact Hh15
    isplitl [Hh16]; · iexact Hh16
    isplitl [Hh17]; · iexact Hh17
    isplitl [Hh18]; · iexact Hh18
    isplitl [Hh19]; · iexact Hh19
    isplitl [Hh20]; · iexact Hh20
    isplitl [Hh21]; · iexact Hh21
    isplitl [Hh22]; · iexact Hh22
    isplitl [Hh23]; · iexact Hh23
    isplitl [Hh24]; · iexact Hh24
    isplitl [Hh25]; · iexact Hh25
    isplitl [Hh26]; · iexact Hh26
    isplitl [Hh27]; · iexact Hh27
    isplitl [Hh28]; · iexact Hh28
    isplitl [Hh29]; · iexact Hh29
    isplitl [Hh30]; · iexact Hh30
    isplitl [Hh31]; · iexact Hh31
    iexists _; iexact HW

end Cert.KernelIdeal.Fr

end
-- ==== Proof.KI.R1.lean ====
import proofs.«405998_j76398878261701_2_alg».proof.Proof.Gen.KernelIdeal.Launch
import proofs.«405998_j76398878261701_2_alg».proof.Proof.Gen.KernelIdeal.Skeleton
import proofs.«405998_j76398878261701_2_alg».proof.Proof.Gen.KernelIdeal.Points
import proofs.«405998_j76398878261701_2_alg».proof.Proof.KI.GatherRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev eblk (c : Dev nD) (t : Fin cfg1.N) : Vec F S1x8x32 .i32 := iblk1 V c 0 t

def Hyps1 (c : Dev nD) : Prop :=
  ∀ (t : Fin cfg1.N) (j : S1x8x32.Idx), (eblk V c t j : BitVec 32).toNat + 1 ≤ 16384

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

abbrev VO1_1 : View sig .tc .vmem S1x8x128 .f32 := (Memref.whole cc1_stg1_0 : Memref sig .tc .vmem S1x8x128 .f32).view

abbrev ms1_0 (t : Fin cfg1.N) : Memref sig .tc .smem S1x8x32 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x8x128 .f32 := win1_1.stage (cfg1.slots t 1)
abbrev hs1_1 (t : Fin cfg1.N) : (ms1_1 t).IsWhole := hstage1_1 ((cfg1.slots t 1).cast nbuf1_1)

abbrev osem1 : Fin 32 → SemLoc sig := fun j => (![SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35, SemLoc.dma 36, SemLoc.dma 37, SemLoc.dma 38, SemLoc.dma 39, SemLoc.dma 40] : Fin 32 → SemLoc sig) j
theorem ownSemFacts1 : Pipeline.OwnSemFacts spec1 osem1 := by decide

theorem ownSems01_eq (c : Dev nD) :
    (Pipeline.ownSems0 (Ix := Unit) (Name := ℕ) (U := Pipeline.UD sig nD τ) (Lvl := ℕ) (Val := Elt F) (τ := τ) osem1 c : sProp 𝕄)
      = iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0) := by
  rw [Pipeline.ownSems0_eq_of_list c osem1 [0, 1, 2, 3, 4, 5, 6, 7, 8, 9, 10, 11, 12, 13, 14, 15, 16, 17, 18, 19, 20, 21, 22, 23, 24, 25, 26, 27, 28, 29, 30, 31] (by decide) (by decide)]; rfl

def H1 : Finset (Ref sig .tc) := {main_v1}
theorem H1_sub : H1 ⊆ Pipeline.restRefs sig spec1 := by decide

theorem hbmPts1_eq (c : Dev nD) :
    (bigSep H1 (fun b => ((c : Thread nD τ).loc b) ↦{fullShare} V c b) : sProp 𝕄) = iprop(hbPt1 c hbM1_0 (V c main_v1)) := by
  rw [BI.bigSep_eq_bigSepL_of_eq [main_v1] (by decide) (by decide)]; rfl

theorem PhiD1_eq (c : Dev nD) :
    (Pipeline.ΦD osem1 spec1 H1 V c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f)) ∗ (∃ r, prngReg c r) ∗ iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0) ∗ iprop(hbPt1 c hbM1_0 (V c main_v1))) := by
  rw [Pipeline.ΦD_eq, scopedRest1_eq, ownSems01_eq, hbmPts1_eq]; simp only [scM1_0, owns_whole]; try rfl

theorem shareDrop_add (q : PosShare TreeShare) (a b : ℕ) :
    Transfers.shareDrop (Transfers.shareDrop q a) b = Transfers.shareDrop q (a + b) := by
  induction b with
  | zero => rfl
  | succ b ih => show (Transfers.shareDrop (Transfers.shareDrop q a) b).left = (Transfers.shareDrop q (a + b)).left; rw [ih]

theorem shareTokN_add (q : PosShare TreeShare) (a b : ℕ) :
    Transfers.shareTokN (Transfers.shareDrop q a) b = Transfers.shareTokN q (a + b) := by
  unfold Transfers.shareTokN; rw [shareDrop_add]

theorem hbToks1 (c : Dev nD) (f : HbBuf1 (F := F) c hbM1_0) :
    (hbPt1 c hbM1_0 f : sProp 𝕄) ⊣⊢ iprop(((hbM1_0.view.loc (c : Thread nD τ) ↦{Transfers.shareDrop (Transfers.shareDrop fullShare 9) 32} f) ∗ hbTok1 c hbM1_0 9 f ∗ hbTok1 c hbM1_0 10 f ∗ hbTok1 c hbM1_0 11 f ∗ hbTok1 c hbM1_0 12 f ∗ hbTok1 c hbM1_0 13 f ∗ hbTok1 c hbM1_0 14 f ∗ hbTok1 c hbM1_0 15 f ∗ hbTok1 c hbM1_0 16 f ∗ hbTok1 c hbM1_0 17 f ∗ hbTok1 c hbM1_0 18 f ∗ hbTok1 c hbM1_0 19 f ∗ hbTok1 c hbM1_0 20 f ∗ hbTok1 c hbM1_0 21 f ∗ hbTok1 c hbM1_0 22 f ∗ hbTok1 c hbM1_0 23 f ∗ hbTok1 c hbM1_0 24 f ∗ hbTok1 c hbM1_0 25 f ∗ hbTok1 c hbM1_0 26 f ∗ hbTok1 c hbM1_0 27 f ∗ hbTok1 c hbM1_0 28 f ∗ hbTok1 c hbM1_0 29 f ∗ hbTok1 c hbM1_0 30 f ∗ hbTok1 c hbM1_0 31 f ∗ hbTok1 c hbM1_0 32 f ∗ hbTok1 c hbM1_0 33 f ∗ hbTok1 c hbM1_0 34 f ∗ hbTok1 c hbM1_0 35 f ∗ hbTok1 c hbM1_0 36 f ∗ hbTok1 c hbM1_0 37 f ∗ hbTok1 c hbM1_0 38 f ∗ hbTok1 c hbM1_0 39 f ∗ hbTok1 c hbM1_0 40 f)
      ∗ BI.bigSep (Finset.range 9) (fun i => hbM1_0.view.loc (c : Thread nD τ) ↦{Transfers.shareTokN fullShare i} f)) := by
  have h1 := Transfers.pointsTo_toks_range (Ix := Unit) (Name := ℕ) (U := Pipeline.UD sig nD τ) (Lvl := ℕ) (ℓ := hbM1_0.view.loc (c : Thread nD τ)) (S := Finset.univ) (f := f) fullShare 9
  have h2 := Transfers.pointsTo_toks_range (Ix := Unit) (Name := ℕ) (U := Pipeline.UD sig nD τ) (Lvl := ℕ) (ℓ := hbM1_0.view.loc (c : Thread nD τ)) (S := Finset.univ) (f := f) (Transfers.shareDrop fullShare 9) 32
  rw [BI.bigSep_eq_bigSepL_of_eq [0, 1, 2, 3, 4, 5, 6, 7, 8, 9, 10, 11, 12, 13, 14, 15, 16, 17, 18, 19, 20, 21, 22, 23, 24, 25, 26, 27, 28, 29, 30, 31] (by decide) (by decide)] at h2
  simp only [shareTokN_add] at h2
  exact ⟨h1.1.trans (sep_mono_left h2.1), (sep_mono_left h2.2).trans h1.2⟩

theorem cover1_A_1 (c : Dev nD) (i : grid1.Coords) (arg2 : Memref sig .tc .smem S1x8x32 .i32) (harg2 : arg2.IsWhole)
    (arg4 : Memref sig .tc .vmem S1x8x128 .f32) (harg4 : arg4.IsWhole)
    (x0 : Vec F S1x8x32 .i32) (fh0 : HbBuf1 (F := F) c hbM1_0) (hx : ∀ j, (x0 j : BitVec 32).toNat + 1 ≤ 16384) (y : S1x8x128.Idx) :
    ∃ pc ∈ (kernelRun1_A c i arg2 harg2 arg4 harg4 x0 fh0 hx).1, y ∈ pc.1.set :=
  View.cover_of_tiledL (kernelRun1_A c i arg2 harg2 arg4 harg4 x0 fh0 hx).1 S1x8x128.size (by sl_kernel_rfl) y

def out1_A_1 (c : Dev nD) (i : grid1.Coords) (arg2 : Memref sig .tc .smem S1x8x32 .i32) (harg2 : arg2.IsWhole)
    (arg4 : Memref sig .tc .vmem S1x8x128 .f32) (harg4 : arg4.IsWhole)
    (x0 : Vec F S1x8x32 .i32) (fh0 : HbBuf1 (F := F) c hbM1_0) (hx : ∀ j, (x0 j : BitVec 32).toNat + 1 ≤ 16384) : Vec F S1x8x128 .f32 :=
  VO1_1.read (Elt F) (VO1_1.writes (Elt F) VO1_1.junk (kernelRun1_A c i arg2 harg2 arg4 harg4 x0 fh0 hx).1)

def outsAt1 (c : Dev nD) (hy : Hyps1 V c) (t : Fin cfg1.N) : Vec F S1x8x128 .f32 :=
  out1_A_1 c (grid1.coords t) (ms1_0 t) (hs1_0 t) (ms1_1 t) (hs1_1 t) (eblk V c t) (V c main_v1) (hy t)

def dat1 (c : Dev nD) (hy : Hyps1 V c) : Dat τ (Elt F) Unit ℕ (Pipeline.UD sig nD τ) ℕ cfg1 c where
  A w := V c (Pipeline.arrRef spec1 w)
  after w t := match w with
    | ⟨0, _⟩ => iblk1 V c 0 t
    | ⟨1, _⟩ => outsAt1 V c hy t
  Φ _ := Pipeline.ΦD osem1 spec1 H1 V c
  q _ := fullShare
  owed _ := 0

theorem A_eq1 (c : Dev nD) (hy : Hyps1 V c) (w : Fin cfg1.W) : (dat1 V c hy).A w = V c (Pipeline.arrRef spec1 w) := by
  dsimp only [dat1]
theorem after1_0 (c : Dev nD) (hy : Hyps1 V c) (t : Fin cfg1.N) : (dat1 V c hy).after 0 t = iblk1 V c 0 t := by dsimp only [dat1]
theorem after1_1 (c : Dev nD) (hy : Hyps1 V c) (t : Fin cfg1.N) : (dat1 V c hy).after 1 t = outsAt1 V c hy t := by dsimp only [dat1]

theorem before1_0 (c : Dev nD) (hy : Hyps1 V c) (t : Fin cfg1.N) (d) : (dat1 V c hy).before 0 t d = iblk1 V c 0 t :=
  before1_0_of V (dat1 V c hy) (A_eq1 V c hy 0) (after1_0 V c hy) t d

def bodyPre1 (c : Dev nD) (hy : Hyps1 V c) (t : Fin cfg1.N) : sProp 𝕄 :=
  iprop((dat1 V c hy).Φ t.castSucc ∗ (dat1 V c hy).owesAt () t.castSucc
    ∗ (∃ d, owns (c : Thread nD τ) (ms1_0 t) fullShare ((dat1 V c hy).before 0 t d))
    ∗ (∃ d, owns (c : Thread nD τ) (ms1_1 t) fullShare ((dat1 V c hy).before 1 t d)))

def bodyPost1 (c : Dev nD) (hy : Hyps1 V c) (t : Fin cfg1.N) : sProp 𝕄 :=
  iprop((dat1 V c hy).Φ t.succ ∗ (dat1 V c hy).owesAt () t.succ
    ∗ owns (c : Thread nD τ) (ms1_0 t) fullShare ((dat1 V c hy).after 0 t)
    ∗ owns (c : Thread nD τ) (ms1_1 t) fullShare ((dat1 V c hy).after 1 t))

set_option maxHeartbeats 4000000 in

theorem sound_body1 (c : Dev nD) (hy : Hyps1 V c) (t : Fin cfg1.N) :
    bodyPre1 V c hy t ⊢ wp frame (wpE (defs₀ (F := F)) Variants.none c none) Set.univ (bodyAt1 t) (fun _ => bodyPost1 V c hy t) := by
  unfold bodyPre1 bodyPost1 bodyAt1
  simp only [before1_0]
  rw [show (dat1 V c hy).Φ t.succ = (dat1 V c hy).Φ t.castSucc from rfl,
    after1_0, after1_1]
  rw [show (dat1 V c hy).Φ t.castSucc = Pipeline.ΦD osem1 spec1 H1 V c from rfl, PhiD1_eq]
  unfold Dat.owesAt Pipeline.owesWithin
  rw [show (dat1 V c hy).owed t.castSucc = 0 from rfl, show (dat1 V c hy).owed t.succ = 0 from rfl]
  unfold outsAt1
  unfold out1_A_1
  iintro ⟨⟨⟨HR0, HR1, HR2, HR3, HR4, HS0, HR6, HR7, HR8, HR9, HR10, HR11, HR12, HR13⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31⟩, Hh0⟩, ⟨%W, -, HW⟩, ⟨%d0, H0⟩, ⟨%d1, H1⟩⟩
  ihave Hs := (hbToks1 c (V c main_v1)).1 $$ Hh0
  icases Hs with ⟨⟨Hd, Ht9, Ht10, Ht11, Ht12, Ht13, Ht14, Ht15, Ht16, Ht17, Ht18, Ht19, Ht20, Ht21, Ht22, Ht23, Ht24, Ht25, Ht26, Ht27, Ht28, Ht29, Ht30, Ht31, Ht32, Ht33, Ht34, Ht35, Ht36, Ht37, Ht38, Ht39, Ht40⟩, Hb⟩
  iapply ((kernelRun1_A c (grid1.coords t) _ _ _ _ (eblk V c t) (V c main_v1) (hy t)).2 W _)
  isplitl [H0]; · iexact H0
  isplitl [H1]; · iexists _; iexact H1
  iframe HS0 Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Ht9 Ht10 Ht11 Ht12 Ht13 Ht14 Ht15 Ht16 Ht17 Ht18 Ht19 Ht20 Ht21 Ht22 Ht23 Ht24 Ht25 Ht26 Ht27 Ht28 Ht29 Ht30 Ht31 Ht32 Ht33 Ht34 Ht35 Ht36 Ht37 Ht38 Ht39 Ht40 HW
  iintro ⟨H0, ⟨%e1, H1⟩, HS0, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Ht9, Ht10, Ht11, Ht12, Ht13, Ht14, Ht15, Ht16, Ht17, Ht18, Ht19, Ht20, Ht21, Ht22, Ht23, Ht24, Ht25, Ht26, Ht27, Ht28, Ht29, Ht30, Ht31, Ht32, Ht33, Ht34, Ht35, Ht36, Ht37, Ht38, Ht39, Ht40, ⟨%W', HW'⟩⟩
  ihave Hh0 := (hbToks1 c (V c main_v1)).2 $$ [Hd Ht9 Ht10 Ht11 Ht12 Ht13 Ht14 Ht15 Ht16 Ht17 Ht18 Ht19 Ht20 Ht21 Ht22 Ht23 Ht24 Ht25 Ht26 Ht27 Ht28 Ht29 Ht30 Ht31 Ht32 Ht33 Ht34 Ht35 Ht36 Ht37 Ht38 Ht39 Ht40 Hb]
  · iframe
  isplitl [HR0 HR1 HR2 HR3 HR4 HS0 HR6 HR7 HR8 HR9 HR10 HR11 HR12 HR13 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hh0]
  · iframe
  isplitl [HW']
  · iexists W'; isplitr; · ipureintro; exact fun _ _ => Or.inl trivial
    iexact HW'
  isplitl [H0]; · iexact H0
  unfold owns; iexists _; isplitr
  swap; · iexact H1
  ipureintro; exact View.read_writes_of_cover _ _ _ _ _ (cover1_A_1 c _ _ _ _ _ _ _ _)

set_option maxRecDepth 131072 in

theorem body_obligation1 (c : Dev nD) (hy : Hyps1 V c) : BodyObligation (dat1 (F := F) V c hy) (defs₀ (F := F)) Variants.none () Set.univ := fun t => by
  rw [bigSep_W1, bigSep_W1]
  exact sound_body1 V c hy t

end Cert.KernelIdeal.Fr

end
-- ==== Proof.KI.R2.lean ====
import proofs.«405998_j76398878261701_2_alg».proof.Proof.Gen.KernelIdeal.Launch
import proofs.«405998_j76398878261701_2_alg».proof.Proof.Gen.KernelIdeal.Skeleton
import proofs.«405998_j76398878261701_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S1x2048x64 := Rect.unit (s := S1x2048x64) ![0, 0, 0] S1x2048x64.size inb_S1x2048x64_S1x2048x64_0_0_0
abbrev r2_1 : Rect S1x64 := Rect.unit (s := S1x64) ![0, 0] S1x64.size inb_S1x64_S1x64_0_0
abbrev r2_2 : Rect S1x64 := Rect.unit (s := S1x64) ![0, 0] S1x64.size inb_S1x64_S1x64_0_0
abbrev r2_3 : Rect S1x64 := Rect.unit (s := S1x64) ![0, 0] S1x64.size inb_S1x64_S1x64_0_0
abbrev r2_4 : Rect S1x64 := Rect.unit (s := S1x64) ![0, 0] S1x64.size inb_S1x64_S1x64_0_0
abbrev r2_5 : Rect S1x64x2048 := Rect.unit (s := S1x64x2048) ![0, 0, 0] S1x64x2048.size inb_S1x64x2048_S1x64x2048_0_0_0

def out2_5 (x0 : Vec F S1x2048x64 .f32) (x1 : Vec F S1x64 .f32) (x2 : Vec F S1x64 .f32) (x3 : Vec F S1x64 .f32) (x4 : Vec F S1x64 .f32) : Vec F S1x64x2048 .f32 :=
  View.canon [⟨r2_5, k2_pay1 (View.ld x0 r2_0) (View.ld x1 r2_1) (View.ld x2 r2_2) (View.ld x3 r2_3) (View.ld x4 r2_4)⟩]

theorem cover2_5 (p0 : Vec F S1x64x2048 .f32) (y : S1x64x2048.Idx) :
    ∃ pc ∈ ([⟨r2_5, p0⟩] : List (View.Piece (Elt F) S1x64x2048 .f32)), y ∈ pc.1.set :=
  View.cover_of_tiled [⟨r2_5, p0⟩] S1x64x2048.size (by rfl) y

set_option maxHeartbeats 1000000 in

theorem sound_kernel2 (c : Dev nD) (E : Set ℕ) (i : grid2.Coords) (arg0 : Memref sig .tc .vmem S1x2048x64 .f32) (harg0 : arg0.IsWhole) (arg1 : Memref sig .tc .vmem S1x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64x2048 .f32) (harg5 : arg5.IsWhole)
    (x0 : Vec F S1x2048x64 .f32) (x1 : Vec F S1x64 .f32) (x2 : Vec F S1x64 .f32) (x3 : Vec F S1x64 .f32) (x4 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out2_5 x0 x1 x2 x3 x4)) -∗ K ⟨⟩))
      ⊢ wp frame (wpE (defs₀ (F := F)) Variants.none c none) E (cc2__bn_relu_kernel i arg0 harg0 arg1 harg1 arg2 harg2 arg3 harg3 arg4 harg4 arg5 harg5) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Run.lean ====
import proofs.«405998_j76398878261701_2_alg».proof.Proof.Gen.KernelIdeal.Launch
import proofs.«405998_j76398878261701_2_alg».proof.Proof.Gen.KernelIdeal.Skeleton
import proofs.«405998_j76398878261701_2_alg».proof.Proof.Gen.KernelIdeal.Points
import proofs.«405998_j76398878261701_2_alg».proof.Proof.Gen.KernelIdeal.Regions
import proofs.«405998_j76398878261701_2_alg».proof.Proof.KI.R0
import proofs.«405998_j76398878261701_2_alg».proof.Proof.KI.R1
import proofs.«405998_j76398878261701_2_alg».proof.Proof.KI.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

def W1 (c : Dev nD) : Valuation τ sig (Elt F) := StableHlo.after hostOps0 (W0 m ρ c)

def W2 (c : Dev nD) : Valuation τ sig (Elt F) := StableHlo.after hostOps0_1 (W1 m ρ c)
abbrev V2 : (c : Dev nD) → (b : Ref sig .tc) → Buf (Elt F) ((c : Thread nD τ).loc b) := fun c b => W2 m ρ c b

def W3 (c : Dev nD) : Valuation τ sig (Elt F) :=
  Pipeline.withArrays spec0 c (W2 m ρ c) fun w => (dat0 (V2 m ρ) c).arrAt w cfg0.N
abbrev V3 : (c : Dev nD) → (b : Ref sig .tc) → Buf (Elt F) ((c : Thread nD τ).loc b) := fun c b => W3 m ρ c b

variable (hy : ∀ c : Dev nD, Hyps1 (V3 m ρ) c)

def W4 (c : Dev nD) : Valuation τ sig (Elt F) :=
  Pipeline.withArrays spec1 c (W3 m ρ c) fun w => (dat1 (V3 m ρ) c (hy c)).arrAt w cfg1.N
abbrev V4 : (c : Dev nD) → (b : Ref sig .tc) → Buf (Elt F) ((c : Thread nD τ).loc b) := fun c b => W4 m ρ hy c b

def W5 (c : Dev nD) : Valuation τ sig (Elt F) := StableHlo.after hostOps2 (W4 m ρ hy c)

def W6 (c : Dev nD) : Valuation τ sig (Elt F) := StableHlo.after hostOps2_1 (W5 m ρ hy c)

def W7 (c : Dev nD) : Valuation τ sig (Elt F) := StableHlo.after hostOps2_2 (W6 m ρ hy c)
abbrev V7 : (c : Dev nD) → (b : Ref sig .tc) → Buf (Elt F) ((c : Thread nD τ).loc b) := fun c b => W7 m ρ hy c b

def W8 (c : Dev nD) : Valuation τ sig (Elt F) :=
  Pipeline.withArrays spec2 c (W7 m ρ hy c) fun w => (dat2 (V7 m ρ hy) c).arrAt w cfg2.N
abbrev V8 : (c : Dev nD) → (b : Ref sig .tc) → Buf (Elt F) ((c : Thread nD τ).loc b) := fun c b => W8 m ρ hy c b

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h

theorem W3_arr (c : Dev nD) (w : Fin cfg0.W) :
    W3 m ρ c (Proc.devRef .tc (Pipeline.arrRef spec0 w)) = (dat0 (V2 m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb

theorem hF0 (c : Dev nD) (w : Fin cfg0.W) : (dat0 (V2 m ρ) c).arrAt w cfg0.N = V3 m ρ c (Pipeline.arrRef spec0 w) :=
  (W3_arr m ρ c w).symm
theorem hrest0 (c : Dev nD) : ∀ b, b ∉ Finset.univ.image (Pipeline.arrRef spec0) → V3 m ρ c b = V2 m ρ c b :=
  fun b hb => W3_of_ne m ρ c b fun w e => hb (Finset.mem_image.mpr ⟨w, Finset.mem_univ _, e⟩)

theorem W4_arr (c : Dev nD) (w : Fin cfg1.W) :
    W4 m ρ hy c (Proc.devRef .tc (Pipeline.arrRef spec1 w)) = (dat1 (V3 m ρ) c (hy c)).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ hy c (Proc.devRef .tc b) = W3 m ρ c (Proc.devRef .tc b) := by
  unfold W4; exact Pipeline.withArrays_of_ne spec1 c _ _ b hb
theorem hF1 (c : Dev nD) (w : Fin cfg1.W) : (dat1 (V3 m ρ) c (hy c)).arrAt w cfg1.N = V4 m ρ hy c (Pipeline.arrRef spec1 w) :=
  (W4_arr m ρ hy c w).symm
theorem hrest1 (c : Dev nD) : ∀ b, b ∉ Finset.univ.image (Pipeline.arrRef spec1) → V4 m ρ hy c b = V3 m ρ c b :=
  fun b hb => W4_of_ne m ρ hy c b fun w e => hb (Finset.mem_image.mpr ⟨w, Finset.mem_univ _, e⟩)

theorem W5_of (c : Dev nD) (r : Ref sig .tc) (h : r ∉ hostOps2_W) :
    W5 m ρ hy c (Proc.devRef .tc r) = W4 m ρ hy c (Proc.devRef .tc r) :=
  StableHlo.after_of_writes_sub hostOps2 _ hostOps2_writes h
theorem W6_of (c : Dev nD) (r : Ref sig .tc) (h : r ∉ hostOps2_1_W) :
    W6 m ρ hy c (Proc.devRef .tc r) = W5 m ρ hy c (Proc.devRef .tc r) :=
  StableHlo.after_of_writes_sub hostOps2_1 _ hostOps2_1_writes h
theorem W7_of (c : Dev nD) (r : Ref sig .tc) (h : r ∉ hostOps2_2_W) :
    W7 m ρ hy c (Proc.devRef .tc r) = W6 m ρ hy c (Proc.devRef .tc r) :=
  StableHlo.after_of_writes_sub hostOps2_2 _ hostOps2_2_writes h

theorem W8_arr (c : Dev nD) (w : Fin cfg2.W) :
    W8 m ρ hy c (Proc.devRef .tc (Pipeline.arrRef spec2 w)) = (dat2 (V7 m ρ hy) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ hy c (Proc.devRef .tc b) = W7 m ρ hy c (Proc.devRef .tc b) := by
  unfold W8; exact Pipeline.withArrays_of_ne spec2 c _ _ b hb
theorem hF2 (c : Dev nD) (w : Fin cfg2.W) : (dat2 (V7 m ρ hy) c).arrAt w cfg2.N = V8 m ρ hy c (Pipeline.arrRef spec2 w) :=
  (W8_arr m ρ hy c w).symm
theorem hrest2 (c : Dev nD) : ∀ b, b ∉ Finset.univ.image (Pipeline.arrRef spec2) → V8 m ρ hy c b = V7 m ρ hy c b :=
  fun b hb => W8_of_ne m ρ hy c b fun w e => hb (Finset.mem_image.mpr ⟨w, Finset.mem_univ _, e⟩)

theorem W8_untouched (c : Dev nD) (r : Ref sig .tc) (h0 : r ∉ hostOps0_W) (h1 : r ∉ hostOps0_1_W) (h2 : ∀ w, Pipeline.arrRef spec0 w ≠ r)
    (h3 : ∀ w, Pipeline.arrRef spec1 w ≠ r) (h4 : r ∉ hostOps2_W) (h5 : r ∉ hostOps2_1_W) (h6 : r ∉ hostOps2_2_W)
    (h7 : ∀ w, Pipeline.arrRef spec2 w ≠ r) : W8 m ρ hy c (Proc.devRef .tc r) = m ((c : Thread nD τ).loc r) :=
  calc W8 m ρ hy c (Proc.devRef .tc r)
    _ = W7 m ρ hy c (Proc.devRef .tc r) := W8_of_ne m ρ hy c r h7
    _ = W6 m ρ hy c (Proc.devRef .tc r) := W7_of m ρ hy c r h6
    _ = W5 m ρ hy c (Proc.devRef .tc r) := W6_of m ρ hy c r h5
    _ = W4 m ρ hy c (Proc.devRef .tc r) := W5_of m ρ hy c r h4
    _ = W3 m ρ c (Proc.devRef .tc r) := W4_of_ne m ρ hy c r h3
    _ = W2 m ρ c (Proc.devRef .tc r) := W3_of_ne m ρ c r h2
    _ = W1 m ρ c (Proc.devRef .tc r) := W2_of m ρ c r h1
    _ = W0 m ρ c (Proc.devRef .tc r) := W1_of m ρ c r h0
    _ = m ((c : Thread nD τ).loc r) := rfl

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat0 (V2 m ρ) c).arrAt_in 0 rfl _).trans (A_eq0 (V2 m ρ) c 0))
    _ = W1 m ρ c (Proc.devRef .tc main_arg0) := W2_of m ρ c main_arg0 (by decide)
    _ = W0 m ρ c (Proc.devRef .tc main_arg0) := W1_of m ρ c main_arg0 (by decide)
    _ = m ((c : Thread nD τ).loc main_arg0) := rfl
theorem W8_main_arg0 (c : Dev nD) : W8 m ρ hy c (Proc.devRef .tc main_arg0) = m ((c : Thread nD τ).loc main_arg0) :=
  calc W8 m ρ hy c (Proc.devRef .tc main_arg0)
    _ = W7 m ρ hy c (Proc.devRef .tc main_arg0) := W8_of_ne m ρ hy c main_arg0 (by decide)
    _ = W6 m ρ hy c (Proc.devRef .tc main_arg0) := W7_of m ρ hy c main_arg0 (by decide)
    _ = W5 m ρ hy c (Proc.devRef .tc main_arg0) := W6_of m ρ hy c main_arg0 (by decide)
    _ = W4 m ρ hy c (Proc.devRef .tc main_arg0) := W5_of m ρ hy c main_arg0 (by decide)
    _ = W3 m ρ c (Proc.devRef .tc main_arg0) := W4_of_ne m ρ hy c main_arg0 (by decide)
    _ = m ((c : Thread nD τ).loc main_arg0) := W3_main_arg0 m ρ c

theorem V3_main_arg1 (c : Dev nD) : V3 m ρ c main_arg1 = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of m ρ c main_arg1 (by decide)
    _ = W0 m ρ c (Proc.devRef .tc main_arg1) := W1_of m ρ c main_arg1 (by decide)
    _ = m ((c : Thread nD τ).loc main_arg1) := rfl

theorem W8_main_arg1 (c : Dev nD) : W8 m ρ hy c (Proc.devRef .tc main_arg1) = m ((c : Thread nD τ).loc main_arg1) :=
  calc W8 m ρ hy c (Proc.devRef .tc main_arg1)
    _ = W7 m ρ hy c (Proc.devRef .tc main_arg1) := W8_of_ne m ρ hy c main_arg1 (by decide)
    _ = W6 m ρ hy c (Proc.devRef .tc main_arg1) := W7_of m ρ hy c main_arg1 (by decide)
    _ = W5 m ρ hy c (Proc.devRef .tc main_arg1) := W6_of m ρ hy c main_arg1 (by decide)
    _ = W4 m ρ hy c (Proc.devRef .tc main_arg1) := W5_of m ρ hy c main_arg1 (by decide)
    _ = W3 m ρ c (Proc.devRef .tc main_arg1) := (W4_arr m ρ hy c 0).trans (((dat1 (V3 m ρ) c (hy c)).arrAt_in 0 rfl _).trans (A_eq1 (V3 m ρ) c (hy c) 0))
    _ = m ((c : Thread nD τ).loc main_arg1) := V3_main_arg1 m ρ c

theorem W8_main_arg2 (c : Dev nD) : W8 m ρ hy c (Proc.devRef .tc main_arg2) = m ((c : Thread nD τ).loc main_arg2) :=
  W8_untouched m ρ hy c main_arg2 (by decide) (by decide) (by decide) (by decide) (by decide) (by decide) (by decide) (by decide)
theorem W8_main_arg3 (c : Dev nD) : W8 m ρ hy c (Proc.devRef .tc main_arg3) = m ((c : Thread nD τ).loc main_arg3) :=
  W8_untouched m ρ hy c main_arg3 (by decide) (by decide) (by decide) (by decide) (by decide) (by decide) (by decide) (by decide)
theorem W8_main_arg4 (c : Dev nD) : W8 m ρ hy c (Proc.devRef .tc main_arg4) = m ((c : Thread nD τ).loc main_arg4) :=
  W8_untouched m ρ hy c main_arg4 (by decide) (by decide) (by decide) (by decide) (by decide) (by decide) (by decide) (by decide)

def pdats : (p : Fin 3) → (c : Dev nD) → Dat τ (Elt F) Unit ℕ (Pipeline.UD sig nD τ) ℕ (Pipeline.pin (pcfgs (F := F)) adm p) c
  | ⟨0, _⟩ => fun c => dat0 (V2 m ρ) c
  | ⟨1, _⟩ => fun c => dat1 (V3 m ρ) c (hy c)
  | ⟨2, _⟩ => fun c => dat2 (V7 m ρ hy) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W8 m ρ hy c) ∗ ∃ r, prngReg c r)

set_option backward.isDefEq.respectTransparency.types false in

def reg0 : Pipeline.RegionSeg (pcfgs (F := F)) adm (pdats m ρ hy) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V2 m ρ c)
  hentry c := by
    rw [Pipeline.ownSems0_none]
    have hsplit := Pipeline.arrays_of_unscopedBufs (p := 0) (pcfgs (F := F)) adm (pdats m ρ hy) launch0.win launch0.arr_whole c
      ((pdats m ρ hy 0 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hy 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ hy 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ hy) ((pdats m ρ hy 0 c).share_full fun _ => rfl)
      (V2 m ρ c) (V3 m ρ c) ((pdats m ρ hy 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ hy) () defs₀ 𝒱₀ L lv 1 where
  win := launch1.win.to₀
  block_pos := launch1.block_pos
  stage_whole := launch1.stage_whole
  K := Fin 32
  osem := osem1
  ho := ownSemFacts1
  hbody c := (body_obligation1 (V3 m ρ) c (hy c)).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ hy c) ∗ R c)
  X c := iprop((∃ r, prngReg c r) ∗ Pipeline.ownSems0 (Ix := Unit) (Name := ℕ) (U := Pipeline.UD sig nD τ) (Lvl := ℕ) (Val := Elt F) (τ := τ) osem1 c ∗ (bigSep H1 fun b => (((c : Thread nD τ)).loc b) ↦{fullShare} V3 m ρ c b))
  Y c := iprop((∃ r, prngReg c r) ∗ (bigSep H1 fun b => (((c : Thread nD τ)).loc b) ↦{fullShare} V3 m ρ c b))
  Z c := bigSep (Pipeline.restRefs sig spec1 \ H1) fun b => (((c : Thread nD τ)).loc b) ↦{fullShare} V3 m ρ c b
  hentry c := by
    have hsplit := Pipeline.arrays_of_unscopedBufs (p := 1) (pcfgs (F := F)) adm (pdats m ρ hy) launch1.win launch1.arr_whole c
      ((pdats m ρ hy 1 c).share_full fun _ => rfl) (V3 m ρ c) fun _ => rfl
    rw [Pipeline.unscopedBufs_held] at hsplit
    have hH : (Pipeline.unscopedRest (Ix := Unit) (Name := ℕ) (U := Pipeline.UD sig nD τ) (Lvl := ℕ) spec1 c (V3 m ρ c) : sProp 𝕄)
        = iprop((bigSep H1 fun b => (((c : Thread nD τ)).loc b) ↦{fullShare} V3 m ρ c b) ∗ (bigSep (Pipeline.restRefs sig spec1 \ H1) fun b => (((c : Thread nD τ)).loc b) ↦{fullShare} V3 m ρ c b)) := by
      unfold Pipeline.unscopedRest; exact BI.bigSep_sdiff_split H1_sub
    iintro ⟨⟨Hub, Hp, HO⟩, Hos, -⟩
    ihave H := hsplit $$ Hub
    icases H with ⟨Ha, Hrest⟩
    ihave H' := (Entails.of_eq hH) $$ Hrest
    icases H' with ⟨HH, HR⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m ρ hy 1 c).Φ 0 = Pipeline.ΦD osem1 spec1 H1 (V3 m ρ) c from rfl, Pipeline.ΦD_eq]
    iintro ⟨⟨Hp, Ho, HH⟩, -, Hr⟩
    isplitl [Hr]; · iexact Hr
    isplitl [Hp]; · iexact Hp
    isplitl [Ho]; · iexact Ho
    iexact HH
  hout c := by
    rw [show (pdats m ρ hy 1 c).Φ (Fin.last _) = Pipeline.ΦD osem1 spec1 H1 (V3 m ρ) c from rfl, Pipeline.ΦD_eq]
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ hy) ((pdats m ρ hy 1 c).share_full fun _ => rfl)
      (V3 m ρ c) (V4 m ρ hy c) ((pdats m ρ hy 1 c).arrAt · cfg1.N) (hF1 m ρ hy c) (hrest1 m ρ hy c)
    rw [Pipeline.unscopedBufs_held] at hjoin
    have hH : (Pipeline.unscopedRest (Ix := Unit) (Name := ℕ) (U := Pipeline.UD sig nD τ) (Lvl := ℕ) spec1 c (V3 m ρ c) : sProp 𝕄)
        = iprop((bigSep H1 fun b => (((c : Thread nD τ)).loc b) ↦{fullShare} V3 m ρ c b) ∗ (bigSep (Pipeline.restRefs sig spec1 \ H1) fun b => (((c : Thread nD τ)).loc b) ↦{fullShare} V3 m ρ c b)) := by
      unfold Pipeline.unscopedRest; exact BI.bigSep_sdiff_split H1_sub
    iintro ⟨Ha, HO, ⟨HY, HH⟩, HR⟩
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m ρ hy) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ hy) c).loose
  hwaits := Pipeline.hwaits_of_owed_zero _ _ _ _ L lv 2 fun _ _ => rfl
  pre c := iprop(StableHlo.held (c : Thread nD τ) (Pipeline.ucRefs τ sig) (W7 m ρ hy c) ∗ R c)
  post c := iprop(Tₙ m ρ hy c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec2 c (V7 m ρ hy c)
  hentry c := by
    rw [Pipeline.ownSems0_none]
    have hsplit := Pipeline.arrays_of_unscopedBufs (p := 2) (pcfgs (F := F)) adm (pdats m ρ hy) launch2.win launch2.arr_whole c
      ((pdats m ρ hy 2 c).share_full fun _ => rfl) (V7 m ρ hy c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hy 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ hy 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ hy) ((pdats m ρ hy 2 c).share_full fun _ => rfl)
      (V7 m ρ hy c) (V8 m ρ hy c) ((pdats m ρ hy 2 c).arrAt · cfg2.N) (hF2 m ρ hy c) (hrest2 m ρ hy c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ hy) () defs₀ 𝒱₀ L lv) :=
  [ .host (hseg hostOps0 hostOps0_sub hostOps0_fresh (W0 m ρ)),
    .host (hseg hostOps0_1 hostOps0_1_sub hostOps0_1_fresh (W1 m ρ)),
    .region (reg0 m ρ hy),
    .region (reg1 m ρ hy),
    .host (hseg hostOps2 hostOps2_sub hostOps2_fresh (W4 m ρ hy)),
    .host (hseg hostOps2_1 hostOps2_1_sub hostOps2_1_fresh (W5 m ρ hy)),
    .host (hseg hostOps2_2 hostOps2_2_sub hostOps2_2_fresh (W6 m ρ hy)),
    .region (reg2 m ρ hy) ]

theorem main_run (c : Dev nD) : main (F := F) c = Pipeline.Seg.run (segs m ρ hy) := by
  rw [main_chain c, Pipeline.Seg.run_eq_chain]; rfl

set_option backward.isDefEq.respectTransparency.types false in

theorem run : θ_run defs (onTc (τ := τ) (main (F := F))) ⟨m, fun _ => 0, ρ⟩ (fun r => ∀ c : Dev nD,
      ∀ b ∈ Pipeline.ucRefs τ sig, r.2.mem (((c : Thread nD τ)).1, b) = W8 m ρ hy c b) :=
  Pipeline.θ_run_regions_kit (pcfgs (F := F)) adm (pdats m ρ hy) () cellOf_inj embL defs₀ 𝒱₀ L lv m ρ main (segs m ρ hy)
    (fun c Q => by rw [main_run m ρ hy c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ hy)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ hy c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ hy c) s')
      isplitl [Hh] <;> iassumption)
    (hQ := fun s h => h)

theorem result : θ_run defs (onTc (τ := τ) (main (F := F))) ⟨m, fun _ => 0, ρ⟩ (fun r => ∀ c : Dev nD,
      r.2.mem ((c.tc : Thread nD τ).loc main_v12) = W8 m ρ hy c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨h c _ (mem_uc main_v12 (by decide)),
     (h c _ (mem_uc main_arg0 (by decide))).trans (W8_main_arg0 m ρ hy c),
     (h c _ (mem_uc main_arg1 (by decide))).trans (W8_main_arg1 m ρ hy c),
     (h c _ (mem_uc main_arg2 (by decide))).trans (W8_main_arg2 m ρ hy c),
     (h c _ (mem_uc main_arg3 (by decide))).trans (W8_main_arg3 m ρ hy c),
     (h c _ (mem_uc main_arg4 (by decide))).trans (W8_main_arg4 m ρ hy c)⟩) (run m ρ hy)

include hy in

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (result m ρ hy)

end Cert.KernelIdeal.Fr

end
-- ==== Proof.KI.HypsOfPre.lean ====
import proofs.«405998_j76398878261701_2_alg».proof.Defs
import proofs.«405998_j76398878261701_2_alg».proof.Proof.PreFacts
import proofs.«405998_j76398878261701_2_alg».proof.Proof.KI.R1

set_option maxRecDepth 16384

noncomputable section

namespace Cert.KernelIdeal.Fr

open Cert.KernelIdeal Cert.KernelIdeal.Gen
open Idealize.ShloMosaic Idealize.ShloMosaic.TcCoe
open Idealize.SL.Sem

variable [hPre_finite_inputs : Cert.Pre_finite_inputs.Facts]

theorem arg1_range (m : (ℓ : Loc nD τ sig) → Buf (Elt Ideal) ℓ) (hpre : Cert.Pre_KernelIdeal m) (c : Dev nD) :
    ∀ j : S4x16384x32.Idx, ((m ((c : Thread nD τ).loc main_arg1) : IVec S4x16384x32 32) j).toNat + 1 ≤ 16384 :=
  Cert.PreFacts.edges_range _ _ _ _ _ (hpre c)

section
variable {F : FTy → Type} [FloatOps F]
variable (V : (c : Dev nD) → (b : Ref sig .tc) → Buf (Elt F) ((c : Thread nD τ).loc b))

theorem block_range (c : Dev nD)
    (h : ∀ j : S4x16384x32.Idx, ((V c main_arg1 : IVec S4x16384x32 32) j).toNat + 1 ≤ 16384)
    (t : Fin cfg1.N) (j : S1x8x32.Idx) :
    ((((cfg1.win 0).blk t).view.read (Elt F) (V c (Pipeline.arrRef spec1 0)) j : BitVec 32)).toNat + 1 ≤ 16384 :=
  h (((cfg1.win 0).blk t).view.emb j)

theorem hyps1_of_range (c : Dev nD)
    (h : ∀ j : S4x16384x32.Idx, ((V c main_arg1 : IVec S4x16384x32 32) j).toNat + 1 ≤ 16384) : Hyps1 V c :=
  fun t j => block_range V c h t j

end

theorem hyps1_of_pre (m : (ℓ : Loc nD τ sig) → Buf (Elt Ideal) ℓ) (hpre : Cert.Pre_KernelIdeal m)
    (V : (c : Dev nD) → (b : Ref sig .tc) → Buf (Elt Ideal) ((c : Thread nD τ).loc b)) (c : Dev nD)
    (hV : V c main_arg1 = m ((c : Thread nD τ).loc main_arg1)) :
    Hyps1 V c :=
  hyps1_of_range V c (fun j => by rw [hV]; exact arg1_range m hpre c j)

end Cert.KernelIdeal.Fr

end
-- ==== Proof.RefTerm.lean ====
import proofs.«405998_j76398878261701_2_alg».proof.ReferenceIdeal

noncomputable section

namespace Cert.ReferenceIdeal.HandRun

open Cert.ReferenceIdeal Idealize.ShloMosaic
open Cert.ReferenceIdeal.Facts₀ Cert.ReferenceIdeal.Facts

variable {F : FTy → Type} [FloatOps F] [Facts]

def refH (x : FVec F S4x64x16384 .f32) (e : IVec S4x16384x32 32) (w : FVec F S64x64 .f32) : FVec F S4x64x16384 .f32 :=

  let main_v0 : FVec F S4x16384x64 .f32 := transpose S4x16384x64 [0, 2, 1] x transposes_S4x64x16384_S4x16384x64_0_2_1

  let main_c : IVec S_ 32 := constantI S_ 32 0#32
  let main_v1 : IVec S4x16384x32 32 := broadcastInDim S4x16384x32 ![] bcast_S_S4x16384x32 main_c
  let main_v2 : IVec S4x16384x32 1 := cmpi .slt e main_v1
  let main_c_0 : IVec S_ 32 := constantI S_ 32 16384#32
  let main_v3 : IVec S4x16384x32 32 := broadcastInDim S4x16384x32 ![] bcast_S_S4x16384x32 main_c_0
  let main_v4 : IVec S4x16384x32 32 := addi e main_v3
  let main_v5 : IVec S4x16384x32 32 := select main_v2 main_v4 e
  let main_v6 : IVec S4x16384x32x1 32 := broadcastInDim S4x16384x32x1 ![0, 1, 2] bcast_S4x16384x32_S4x16384x32x1_0_1_2 main_v5

  let main_v7 : FVec F S4x16384x32x64 .f32 := Host.gather gather_S4x16384x64_S4x16384x32x1_S4x16384x32x64_3_1_0_0_1_3_1164 main_v0 main_v6
  let main_cst : FVec F S_ .f32 := constant S_ .f32 0x00000000#32
  let main_v8 : FVec F S4x16384x64 .f32 := Host.reduceAdd main_v7 main_cst reducesTo_S4x16384x32x64_S4x16384x64_d2 h_S_
  let main_cst_1 : FVec F S_ .f32 := constant S_ .f32 0x42000000#32
  let main_v9 : FVec F S4x16384x64 .f32 := broadcastInDim S4x16384x64 ![] bcast_S_S4x16384x64 main_cst_1
  let main_v10 : FVec F S4x16384x64 .f32 := Host.divf main_v8 main_v9

  let main_v11 : FVec F S64x4x16384 .f32 := Host.dotGeneral dot_S64x64_S4x16384x64_S64x4x16384_1_2_0_01_n_n none w main_v10
  let main_v12 : FVec F S4x64x16384 .f32 := transpose S4x64x16384 [1, 0, 2] main_v11 transposes_S64x4x16384_S4x64x16384_1_0_2
  main_v12

def refMean (main_v12 : FVec F S4x64x16384 .f32) : FVec F S1x64x1 .f32 :=
  let main_cst_2 : FVec F S_ .f32 := constant S_ .f32 0x00000000#32
  let main_v13 : FVec F S64 .f32 := Host.reduceAdd main_v12 main_cst_2 reducesTo_S4x64x16384_S64_d0_2 h_S_
  let main_v14 : FVec F S1x64x1 .f32 := broadcastInDim S1x64x1 ![1] bcast_S64_S1x64x1_1 main_v13
  let main_cst_3 : FVec F S_ .f32 := constant S_ .f32 0x47800000#32
  let main_v15 : FVec F S1x64x1 .f32 := broadcastInDim S1x64x1 ![] bcast_S_S1x64x1 main_cst_3
  let main_v16 : FVec F S1x64x1 .f32 := Host.divf main_v14 main_v15
  main_v16

def refVar (main_v12 : FVec F S4x64x16384 .f32) : FVec F S1x64x1 .f32 :=
  let main_c_4 : IVec S_ 32 := constantI S_ 32 0#32
  let main_call0_cst : FVec F S_ .f32 := constant S_ .f32 0x00000000#32
  let main_call0_v0 : FVec F S64 .f32 := Host.reduceAdd main_v12 main_call0_cst reducesTo_S4x64x16384_S64_d0_2 h_S_
  let main_call0_v1 : FVec F S1x64x1 .f32 := broadcastInDim S1x64x1 ![1] bcast_S64_S1x64x1_1 main_call0_v0
  let main_call0_cst_0 : FVec F S_ .f32 := constant S_ .f32 0x47800000#32
  let main_call0_v2 : FVec F S1x64x1 .f32 := broadcastInDim S1x64x1 ![] bcast_S_S1x64x1 main_call0_cst_0
  let main_call0_v3 : FVec F S1x64x1 .f32 := Host.divf main_call0_v1 main_call0_v2
  let main_call0_v4 : FVec F S4x64x16384 .f32 := broadcastInDim S4x64x16384 ![0, 1, 2] bcast_S1x64x1_S4x64x16384_0_1_2 main_call0_v3
  let main_call0_v5 : FVec F S4x64x16384 .f32 := subf main_v12 main_call0_v4
  let main_call0_v6 : FVec F S4x64x16384 .f32 := mulf main_call0_v5 main_call0_v5
  let main_call0_v7 : FVec F S_ .f32 := sitofp .f32 main_c_4
  let main_call0_cst_1 : FVec F S_ .f32 := constant S_ .f32 0x47800000#32
  let main_call0_v8 : FVec F S_ .f32 := subf main_call0_cst_1 main_call0_v7
  let main_call0_cst_2 : FVec F S_ .f32 := constant S_ .f32 0x00000000#32
  let main_call0_v9 : FVec F S64 .f32 := Host.reduceAdd main_call0_v6 main_call0_cst_2 reducesTo_S4x64x16384_S64_d0_2 h_S_
  let main_call0_v10 : FVec F S1x64x1 .f32 := broadcastInDim S1x64x1 ![1] bcast_S64_S1x64x1_1 main_call0_v9
  let main_call0_v11 : FVec F S1x64x1 .f32 := broadcastInDim S1x64x1 ![] bcast_S_S1x64x1 main_call0_v8
  let main_call0_v12 : FVec F S1x64x1 .f32 := Host.divf main_call0_v10 main_call0_v11
  let main_call0_cst_3 : FVec F S_ .f32 := constant S_ .f32 0x00000000#32
  let main_call0_v13 : IVec S_ 1 := cmpf .ogt main_call0_v8 main_call0_cst_3
  let main_call0_cst_4 : FVec F S_ .f32 := constant S_ .f32 0x7FC00000#32

  let main_call0_call0_v0 : FVec F S_ .f32 := id main_call0_cst_4
  let main_call0_call0_v1 : FVec F S1x64x1 .f32 := broadcastInDim S1x64x1 ![] bcast_S_S1x64x1 main_call0_call0_v0
  let main_v17 : FVec F S1x64x1 .f32 := select (broadcastInDim S1x64x1 ![] bcast_S_S1x64x1 main_call0_v13) main_call0_v12 main_call0_call0_v1
  main_v17

def refAct (g b : FVec F S64 .f32) (main_v12 : FVec F S4x64x16384 .f32) (main_v16 main_v17 : FVec F S1x64x1 .f32) : FVec F S4x64x16384 .f32 :=
  let main_v18 : FVec F S4x64x16384 .f32 := broadcastInDim S4x64x16384 ![0, 1, 2] bcast_S1x64x1_S4x64x16384_0_1_2 main_v16
  let main_v19 : FVec F S4x64x16384 .f32 := subf main_v12 main_v18
  let main_cst_5 : FVec F S_ .f32 := constant S_ .f32 0x3727C5AC#32
  let main_v20 : FVec F S1x64x1 .f32 := broadcastInDim S1x64x1 ![] bcast_S_S1x64x1 main_cst_5
  let main_v21 : FVec F S1x64x1 .f32 := addf main_v17 main_v20
  let main_v22 : FVec F S1x64x1 .f32 := Host.rsqrt main_v21
  let main_v23 : FVec F S4x64x16384 .f32 := broadcastInDim S4x64x16384 ![0, 1, 2] bcast_S1x64x1_S4x64x16384_0_1_2 main_v22
  let main_v24 : FVec F S4x64x16384 .f32 := mulf main_v19 main_v23
  let main_v25 : FVec F S1x64x1 .f32 := broadcastInDim S1x64x1 ![1] bcast_S64_S1x64x1_1 g
  let main_v26 : FVec F S4x64x16384 .f32 := broadcastInDim S4x64x16384 ![0, 1, 2] bcast_S1x64x1_S4x64x16384_0_1_2 main_v25
  let main_v27 : FVec F S4x64x16384 .f32 := mulf main_v26 main_v24
  let main_v28 : FVec F S1x64x1 .f32 := broadcastInDim S1x64x1 ![1] bcast_S64_S1x64x1_1 b
  let main_v29 : FVec F S4x64x16384 .f32 := broadcastInDim S4x64x16384 ![0, 1, 2] bcast_S1x64x1_S4x64x16384_0_1_2 main_v28
  let main_v30 : FVec F S4x64x16384 .f32 := addf main_v27 main_v29
  let main_cst_6 : FVec F S_ .f32 := constant S_ .f32 0x00000000#32
  let main_v31 : FVec F S4x64x16384 .f32 := broadcastInDim S4x64x16384 ![] bcast_S_S4x64x16384 main_cst_6
  let main_v32 : IVec S4x64x16384 1 := cmpf .ogt main_v30 main_v31
  let main_cst_7 : FVec F S_ .f32 := constant S_ .f32 0x3E4CCCCD#32
  let main_v33 : FVec F S4x64x16384 .f32 := broadcastInDim S4x64x16384 ![] bcast_S_S4x64x16384 main_cst_7
  let main_v34 : FVec F S4x64x16384 .f32 := mulf main_v33 main_v30
  let main_v35 : FVec F S4x64x16384 .f32 := select main_v32 main_v30 main_v34
  main_v35

def refOut (x : FVec F S4x64x16384 .f32) (e : IVec S4x16384x32 32) (w : FVec F S64x64 .f32)
    (g b : FVec F S64 .f32) : FVec F S4x64x16384 .f32 :=
  let main_v12 : FVec F S4x64x16384 .f32 := refH x e w
  let main_v16 : FVec F S1x64x1 .f32 := refMean main_v12
  let main_v17 : FVec F S1x64x1 .f32 := refVar main_v12
  refAct g b main_v12 main_v16 main_v17

end Cert.ReferenceIdeal.HandRun

end
-- ==== Proof.RefRun.lean ====
import proofs.«405998_j76398878261701_2_alg».proof.Proof.RefTerm
import Idealize.ShloMosaic.Lib.StableHlo.Run

noncomputable section

namespace Cert.ReferenceIdeal.HandRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

abbrev ops : List (HloOp τ sig (Elt F)) :=
  [
    StableHlo.unary main_arg0 main_v0 ((transpose S4x16384x64 [0, 2, 1] · transposes_S4x64x16384_S4x16384x64_0_2_1) : (⟨S4x64x16384, .f32⟩ : BufTy).Contents (Elt F) → (⟨S4x16384x64, .f32⟩ : BufTy).Contents (Elt F)),
    StableHlo.nullary main_c (constantI S_ 32 0#32),
    StableHlo.unary main_c main_v1 (broadcastInDim S4x16384x32 ![] bcast_S_S4x16384x32 : (⟨S_, .i32⟩ : BufTy).Contents (Elt F) → (⟨S4x16384x32, .i32⟩ : BufTy).Contents (Elt F)),
    StableHlo.binary main_arg1 main_v1 main_v2 (cmpi .slt : (⟨S4x16384x32, .i32⟩ : BufTy).Contents (Elt F) → (⟨S4x16384x32, .i32⟩ : BufTy).Contents (Elt F) → (⟨S4x16384x32, .i1⟩ : BufTy).Contents (Elt F)),
    StableHlo.nullary main_c_0 (constantI S_ 32 16384#32),
    StableHlo.unary main_c_0 main_v3 (broadcastInDim S4x16384x32 ![] bcast_S_S4x16384x32 : (⟨S_, .i32⟩ : BufTy).Contents (Elt F) → (⟨S4x16384x32, .i32⟩ : BufTy).Contents (Elt F)),
    StableHlo.binary main_arg1 main_v3 main_v4 (addi : (⟨S4x16384x32, .i32⟩ : BufTy).Contents (Elt F) → (⟨S4x16384x32, .i32⟩ : BufTy).Contents (Elt F) → (⟨S4x16384x32, .i32⟩ : BufTy).Contents (Elt F)),
    StableHlo.ternary main_v2 main_v4 main_arg1 main_v5 (select : (⟨S4x16384x32, .i1⟩ : BufTy).Contents (Elt F) → (⟨S4x16384x32, .i32⟩ : BufTy).Contents (Elt F) → (⟨S4x16384x32, .i32⟩ : BufTy).Contents (Elt F) → (⟨S4x16384x32, .i32⟩ : BufTy).Contents (Elt F)),
    StableHlo.unary main_v5 main_v6 (broadcastInDim S4x16384x32x1 ![0, 1, 2] bcast_S4x16384x32_S4x16384x32x1_0_1_2 : (⟨S4x16384x32, .i32⟩ : BufTy).Contents (Elt F) → (⟨S4x16384x32x1, .i32⟩ : BufTy).Contents (Elt F)),
    StableHlo.binary main_v0 main_v6 main_v7 ((fun x i => Host.gather gather_S4x16384x64_S4x16384x32x1_S4x16384x32x64_3_1_0_0_1_3_1164 x i) : (⟨S4x16384x64, .f32⟩ : BufTy).Contents (Elt F) → (⟨S4x16384x32x1, .i32⟩ : BufTy).Contents (Elt F) → (⟨S4x16384x32x64, .f32⟩ : BufTy).Contents (Elt F)),
    StableHlo.nullary main_cst (constant S_ .f32 0x00000000#32),
    StableHlo.binary main_v7 main_cst main_v8 ((fun x v => Host.reduceAdd x v reducesTo_S4x16384x32x64_S4x16384x64_d2 h_S_) : (⟨S4x16384x32x64, .f32⟩ : BufTy).Contents (Elt F) → (⟨S_, .f32⟩ : BufTy).Contents (Elt F) → (⟨S4x16384x64, .f32⟩ : BufTy).Contents (Elt F)),
    StableHlo.nullary main_cst_1 (constant S_ .f32 0x42000000#32),
    StableHlo.unary main_cst_1 main_v9 (broadcastInDim S4x16384x64 ![] bcast_S_S4x16384x64 : (⟨S_, .f32⟩ : BufTy).Contents (Elt F) → (⟨S4x16384x64, .f32⟩ : BufTy).Contents (Elt F)),
    StableHlo.binary main_v8 main_v9 main_v10 (Host.divf : (⟨S4x16384x64, .f32⟩ : BufTy).Contents (Elt F) → (⟨S4x16384x64, .f32⟩ : BufTy).Contents (Elt F) → (⟨S4x16384x64, .f32⟩ : BufTy).Contents (Elt F)),
    StableHlo.binary main_arg2 main_v10 main_v11 ((fun l r => Host.dotGeneral dot_S64x64_S4x16384x64_S64x4x16384_1_2_0_01_n_n none l r) : (⟨S64x64, .f32⟩ : BufTy).Contents (Elt F) → (⟨S4x16384x64, .f32⟩ : BufTy).Contents (Elt F) → (⟨S64x4x16384, .f32⟩ : BufTy).Contents (Elt F)),
    StableHlo.unary main_v11 main_v12 ((transpose S4x64x16384 [1, 0, 2] · transposes_S64x4x16384_S4x64x16384_1_0_2) : (⟨S64x4x16384, .f32⟩ : BufTy).Contents (Elt F) → (⟨S4x64x16384, .f32⟩ : BufTy).Contents (Elt F)),
    StableHlo.nullary main_cst_2 (constant S_ .f32 0x00000000#32),
    StableHlo.binary main_v12 main_cst_2 main_v13 ((fun x v => Host.reduceAdd x v reducesTo_S4x64x16384_S64_d0_2 h_S_) : (⟨S4x64x16384, .f32⟩ : BufTy).Contents (Elt F) → (⟨S_, .f32⟩ : BufTy).Contents (Elt F) → (⟨S64, .f32⟩ : BufTy).Contents (Elt F)),
    StableHlo.unary main_v13 main_v14 (broadcastInDim S1x64x1 ![1] bcast_S64_S1x64x1_1 : (⟨S64, .f32⟩ : BufTy).Contents (Elt F) → (⟨S1x64x1, .f32⟩ : BufTy).Contents (Elt F)),
    StableHlo.nullary main_cst_3 (constant S_ .f32 0x47800000#32),
    StableHlo.unary main_cst_3 main_v15 (broadcastInDim S1x64x1 ![] bcast_S_S1x64x1 : (⟨S_, .f32⟩ : BufTy).Contents (Elt F) → (⟨S1x64x1, .f32⟩ : BufTy).Contents (Elt F)),
    StableHlo.binary main_v14 main_v15 main_v16 (Host.divf : (⟨S1x64x1, .f32⟩ : BufTy).Contents (Elt F) → (⟨S1x64x1, .f32⟩ : BufTy).Contents (Elt F) → (⟨S1x64x1, .f32⟩ : BufTy).Contents (Elt F)),
    StableHlo.nullary main_c_4 (constantI S_ 32 0#32),
    StableHlo.TRef.nullary main_call0.cst (constant S_ .f32 0x00000000#32),
    StableHlo.TRef.binary (.of main_v12 : StableHlo.TRef sig ⟨S4x64x16384, .f32⟩) main_call0.cst main_call0.v0 (fun x v => Host.reduceAdd x v reducesTo_S4x64x16384_S64_d0_2 h_S_),
    StableHlo.TRef.unary main_call0.v0 main_call0.v1 (broadcastInDim S1x64x1 ![1] bcast_S64_S1x64x1_1),
    StableHlo.TRef.nullary main_call0.cst_0 (constant S_ .f32 0x47800000#32),
    StableHlo.TRef.unary main_call0.cst_0 main_call0.v2 (broadcastInDim S1x64x1 ![] bcast_S_S1x64x1),
    StableHlo.TRef.binary main_call0.v1 main_call0.v2 main_call0.v3 Host.divf,
    StableHlo.TRef.unary main_call0.v3 main_call0.v4 (broadcastInDim S4x64x16384 ![0, 1, 2] bcast_S1x64x1_S4x64x16384_0_1_2),
    StableHlo.TRef.binary (.of main_v12 : StableHlo.TRef sig ⟨S4x64x16384, .f32⟩) main_call0.v4 main_call0.v5 subf,
    StableHlo.TRef.binary main_call0.v5 main_call0.v5 main_call0.v6 mulf,
    StableHlo.TRef.unary (.of main_c_4 : StableHlo.TRef sig ⟨S_, .i32⟩) main_call0.v7 (sitofp .f32),
    StableHlo.TRef.nullary main_call0.cst_1 (constant S_ .f32 0x47800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S4x64x16384_S64_d0_2 h_S_),
    StableHlo.TRef.unary main_call0.v9 main_call0.v10 (broadcastInDim S1x64x1 ![1] bcast_S64_S1x64x1_1),
    StableHlo.TRef.unary main_call0.v8 main_call0.v11 (broadcastInDim S1x64x1 ![] bcast_S_S1x64x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0_call0.v0 id,
    StableHlo.TRef.unary main_call0_call0.v0 main_call0_call0.v1 (broadcastInDim S1x64x1 ![] bcast_S_S1x64x1),
    StableHlo.TRef.ternary main_call0.v13 main_call0.v12 main_call0_call0.v1 main_call0_call0.v2 (fun p a b => select (broadcastInDim S1x64x1 ![] bcast_S_S1x64x1 p) a b),
    StableHlo.unary main_v16 main_v18 (broadcastInDim S4x64x16384 ![0, 1, 2] bcast_S1x64x1_S4x64x16384_0_1_2 : (⟨S1x64x1, .f32⟩ : BufTy).Contents (Elt F) → (⟨S4x64x16384, .f32⟩ : BufTy).Contents (Elt F)),
    StableHlo.binary main_v12 main_v18 main_v19 (subf : (⟨S4x64x16384, .f32⟩ : BufTy).Contents (Elt F) → (⟨S4x64x16384, .f32⟩ : BufTy).Contents (Elt F) → (⟨S4x64x16384, .f32⟩ : BufTy).Contents (Elt F)),
    StableHlo.nullary main_cst_5 (constant S_ .f32 0x3727C5AC#32),
    StableHlo.unary main_cst_5 main_v20 (broadcastInDim S1x64x1 ![] bcast_S_S1x64x1 : (⟨S_, .f32⟩ : BufTy).Contents (Elt F) → (⟨S1x64x1, .f32⟩ : BufTy).Contents (Elt F)),
    StableHlo.binary main_v17 main_v20 main_v21 (addf : (⟨S1x64x1, .f32⟩ : BufTy).Contents (Elt F) → (⟨S1x64x1, .f32⟩ : BufTy).Contents (Elt F) → (⟨S1x64x1, .f32⟩ : BufTy).Contents (Elt F)),
    StableHlo.unary main_v21 main_v22 (Host.rsqrt : (⟨S1x64x1, .f32⟩ : BufTy).Contents (Elt F) → (⟨S1x64x1, .f32⟩ : BufTy).Contents (Elt F)),
    StableHlo.unary main_v22 main_v23 (broadcastInDim S4x64x16384 ![0, 1, 2] bcast_S1x64x1_S4x64x16384_0_1_2 : (⟨S1x64x1, .f32⟩ : BufTy).Contents (Elt F) → (⟨S4x64x16384, .f32⟩ : BufTy).Contents (Elt F)),
    StableHlo.binary main_v19 main_v23 main_v24 (mulf : (⟨S4x64x16384, .f32⟩ : BufTy).Contents (Elt F) → (⟨S4x64x16384, .f32⟩ : BufTy).Contents (Elt F) → (⟨S4x64x16384, .f32⟩ : BufTy).Contents (Elt F)),
    StableHlo.unary main_arg3 main_v25 (broadcastInDim S1x64x1 ![1] bcast_S64_S1x64x1_1 : (⟨S64, .f32⟩ : BufTy).Contents (Elt F) → (⟨S1x64x1, .f32⟩ : BufTy).Contents (Elt F)),
    StableHlo.unary main_v25 main_v26 (broadcastInDim S4x64x16384 ![0, 1, 2] bcast_S1x64x1_S4x64x16384_0_1_2 : (⟨S1x64x1, .f32⟩ : BufTy).Contents (Elt F) → (⟨S4x64x16384, .f32⟩ : BufTy).Contents (Elt F)),
    StableHlo.binary main_v26 main_v24 main_v27 (mulf : (⟨S4x64x16384, .f32⟩ : BufTy).Contents (Elt F) → (⟨S4x64x16384, .f32⟩ : BufTy).Contents (Elt F) → (⟨S4x64x16384, .f32⟩ : BufTy).Contents (Elt F)),
    StableHlo.unary main_arg4 main_v28 (broadcastInDim S1x64x1 ![1] bcast_S64_S1x64x1_1 : (⟨S64, .f32⟩ : BufTy).Contents (Elt F) → (⟨S1x64x1, .f32⟩ : BufTy).Contents (Elt F)),
    StableHlo.unary main_v28 main_v29 (broadcastInDim S4x64x16384 ![0, 1, 2] bcast_S1x64x1_S4x64x16384_0_1_2 : (⟨S1x64x1, .f32⟩ : BufTy).Contents (Elt F) → (⟨S4x64x16384, .f32⟩ : BufTy).Contents (Elt F)),
    StableHlo.binary main_v27 main_v29 main_v30 (addf : (⟨S4x64x16384, .f32⟩ : BufTy).Contents (Elt F) → (⟨S4x64x16384, .f32⟩ : BufTy).Contents (Elt F) → (⟨S4x64x16384, .f32⟩ : BufTy).Contents (Elt F)),
    StableHlo.nullary main_cst_6 (constant S_ .f32 0x00000000#32),
    StableHlo.unary main_cst_6 main_v31 (broadcastInDim S4x64x16384 ![] bcast_S_S4x64x16384 : (⟨S_, .f32⟩ : BufTy).Contents (Elt F) → (⟨S4x64x16384, .f32⟩ : BufTy).Contents (Elt F)),
    StableHlo.binary main_v30 main_v31 main_v32 (cmpf .ogt : (⟨S4x64x16384, .f32⟩ : BufTy).Contents (Elt F) → (⟨S4x64x16384, .f32⟩ : BufTy).Contents (Elt F) → (⟨S4x64x16384, .i1⟩ : BufTy).Contents (Elt F)),
    StableHlo.nullary main_cst_7 (constant S_ .f32 0x3E4CCCCD#32),
    StableHlo.unary main_cst_7 main_v33 (broadcastInDim S4x64x16384 ![] bcast_S_S4x64x16384 : (⟨S_, .f32⟩ : BufTy).Contents (Elt F) → (⟨S4x64x16384, .f32⟩ : BufTy).Contents (Elt F)),
    StableHlo.binary main_v33 main_v30 main_v34 (mulf : (⟨S4x64x16384, .f32⟩ : BufTy).Contents (Elt F) → (⟨S4x64x16384, .f32⟩ : BufTy).Contents (Elt F) → (⟨S4x64x16384, .f32⟩ : BufTy).Contents (Elt F)),
    StableHlo.TRef.ternary (.of main_v32 : StableHlo.TRef sig ⟨S4x64x16384, .i1⟩) (.of main_v30 : StableHlo.TRef sig ⟨S4x64x16384, .f32⟩) (.of main_v34 : StableHlo.TRef sig ⟨S4x64x16384, .f32⟩) main_call1.v0 select ]

set_option maxRecDepth 4096 in
set_option maxHeartbeats 1000000 in

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    unary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., binary_bufs_sub ..,
    nullary_bufs_sub .., unary_bufs_sub .., binary_bufs_sub .., binary_bufs_sub .., unary_bufs_sub .., nullary_bufs_sub ..,
    binary_bufs_sub .., unary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub .., unary_bufs_sub ..,
    binary_bufs_sub .., nullary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub ..⟩

theorem out_eq (V : Valuation τ sig (Elt F)) :
    after ops V (main_v35 : DevRef τ sig)
      = refOut (V (main_arg0 : DevRef τ sig)) (V (main_arg1 : DevRef τ sig)) (V (main_arg2 : DevRef τ sig))
          (V (main_arg3 : DevRef τ sig)) (V (main_arg4 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v35) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c main_v35).trans (out_eq _),
      (h c main_arg0).trans (arg0_eq _),
      (h c main_arg1).trans (arg1_eq _),
      (h c main_arg2).trans (arg2_eq _),
      (h c main_arg3).trans (arg3_eq _),
      (h c main_arg4).trans (arg4_eq _)⟩)
    (run_seq scopedRefs_eq scopedSems_eq defs main (fun _ => ops) main_eq (fun _ => ops_sub) m ρ)

end Cert.ReferenceIdeal.HandRun

end
-- ==== Proof.KI.Val0.lean ====
import proofs.«405998_j76398878261701_2_alg».proof.Proof.KI.R0
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.ValueIdx
open Idealize.ShloMosaic.Pipeline (Dat)

theorem pad_value (a2 : FVec Ideal S64x64 .f32) (o : Fin 64) (cc : Fin 64) :
    (pad S128x64 ![0, 0] ![64, 0] ![0, 0] a2 (sitofp (F := Ideal) .f32 (constantI S_ 32 0#32)) pads_S64x64_S128x64_0640_000 h_S_ : FVec Ideal S128x64 .f32)
        (ix2 (⟨o.val, by omega⟩ : Fin 128) cc) = a2 (ix2 o cc) := by
  refine pad_apply_of_inside _ _ _ a2 _ pads_S64x64_S128x64_0640_000 h_S_ _ (ix2 o cc) fun a => ?_
  match a with
  | ⟨0, _⟩ => show o.val = 0 + o.val * (0 + 1); omega
  | ⟨1, _⟩ => show cc.val = 0 + cc.val * (0 + 1); omega

theorem conv_lhs_0 (j : S2048x128.Idx) (k : dot_S64x2048_S128x64_S2048x128_0_1_1_0_n_n.contr.Idx) :
    ((dot_S64x2048_S128x64_S2048x128_0_1_1_0_n_n.lhsIdx j k) 0).val = (k ⟨0, by decide⟩).val :=
  DotDims.lhsIdx_val_of_single (d := dot_S64x2048_S128x64_S2048x128_0_1_1_0_n_n) (cl := 0) rfl j k

theorem conv_rhs_1 (j : S2048x128.Idx) (k : dot_S64x2048_S128x64_S2048x128_0_1_1_0_n_n.contr.Idx) :
    ((dot_S64x2048_S128x64_S2048x128_0_1_1_0_n_n.rhsIdx j k) 1).val = (k ⟨0, by decide⟩).val :=
  DotDims.rhsIdx_val_of_single (d := dot_S64x2048_S128x64_S2048x128_0_1_1_0_n_n) (cr := 1) rfl j k

theorem conv_lhs_1 (j : S2048x128.Idx) (k : dot_S64x2048_S128x64_S2048x128_0_1_1_0_n_n.contr.Idx) :
    ((dot_S64x2048_S128x64_S2048x128_0_1_1_0_n_n.lhsIdx j k) 1).val = (j 0).val := by
  unfold DotDims.lhsIdx
  rw [dif_neg (show ¬(1 : Fin S64x2048.rank) ∈ dot_S64x2048_S128x64_S2048x128_0_1_1_0_n_n.lhsBatch by decide),
    dif_pos (show (1 : Fin S64x2048.rank) ∈ dot_S64x2048_S128x64_S2048x128_0_1_1_0_n_n.lhsNonContracting by decide)]
  rfl

theorem conv_rhs_0 (j : S2048x128.Idx) (k : dot_S64x2048_S128x64_S2048x128_0_1_1_0_n_n.contr.Idx) :
    ((dot_S64x2048_S128x64_S2048x128_0_1_1_0_n_n.rhsIdx j k) 0).val = (j 1).val := by
  unfold DotDims.rhsIdx
  rw [dif_neg (show ¬(0 : Fin S128x64.rank) ∈ dot_S64x2048_S128x64_S2048x128_0_1_1_0_n_n.rhsBatch by decide),
    dif_pos (show (0 : Fin S128x64.rank) ∈ dot_S64x2048_S128x64_S2048x128_0_1_1_0_n_n.rhsNonContracting by decide)]
  rfl

theorem pay_apply (x0 : FVec Ideal S1x64x2048 .f32) (x1 : FVec Ideal S128x64 .f32) (u : Fin 1) (n : Fin 2048) (o : Fin 128) :
    (k0_pay1 (F := Ideal) x0 x1 : FVec Ideal S1x2048x128 .f32) (ix3 u n o)
      = ∑ cc : Fin 64, x0 (ix3 (0 : Fin 1) cc n) * x1 (ix2 o cc) := by
  unfold k0_pay1
  refine (shapeCast_apply _ _ (ix3 u n o) (ix2 n o) (by
    rw [Shape.rowMajor_val_two, Shape.rowMajor_val_three]
    show n.val * 128 + o.val = (u.val * 2048 + n.val) * 128 + o.val
    have := u.isLt; omega)).trans ?_
  simp only [matmul]
  rw [Ideal.matmul_constant_zero_apply,
    ← Equiv.sum_comp (contrEquiv1 dot_S64x2048_S128x64_S2048x128_0_1_1_0_n_n 64 rfl rfl).symm]
  refine Finset.sum_congr rfl fun cc _ => ?_
  have ck := contrEquiv1_symm_val dot_S64x2048_S128x64_S2048x128_0_1_1_0_n_n 64 rfl rfl cc
  congr 1
  · rw [truncf_apply]
    refine shapeCast_apply _ _ _ (ix3 (0 : Fin 1) cc n) ?_
    rw [Shape.rowMajor_val_two, Shape.rowMajor_val_three, conv_lhs_0, conv_lhs_1]
    show (0 * 64 + cc.val) * 2048 + n.val = _ * 2048 + n.val
    rw [ck]; omega
  · rw [truncf_apply, shapeCast_self]
    refine congrArg x1 (funext fun a => Fin.ext ?_)
    match a with
    | ⟨0, _⟩ => exact conv_rhs_0 _ _
    | ⟨1, _⟩ => exact (conv_rhs_1 _ _).trans ck

theorem zeros3 : (![0, 0, 0] : Fin 3 → Nat) = fun _ => 0 :=
  funext fun a => match a with | ⟨0, _⟩ => rfl | ⟨1, _⟩ => rfl | ⟨2, _⟩ => rfl
theorem zeros2 : (![0, 0] : Fin 2 → Nat) = fun _ => 0 :=
  funext fun a => match a with | ⟨0, _⟩ => rfl | ⟨1, _⟩ => rfl

def conv (a0 : FVec Ideal S4x64x16384 .f32) (a1 : FVec Ideal S128x64 .f32) : FVec Ideal S4x16384x128 .f32 :=
  fun i => ∑ cc : Fin 64, a0 (ix3 (i 0) cc (i 1)) * a1 (ix2 (i 2) cc)

theorem index_maps : ∀ t : Fin cfg0.N,
    win0_0.index t (0 : Fin 3) = win0_2.index t (0 : Fin 3)
    ∧ win0_0.index t (1 : Fin 3) = 0
    ∧ win0_0.index t (2 : Fin 3) = win0_2.index t (1 : Fin 3)
    ∧ win0_1.index t (0 : Fin 2) = 0
    ∧ win0_1.index t (1 : Fin 2) = 0
    ∧ win0_2.index t (2 : Fin 3) = 0
    ∧ win0_2.index t (0 : Fin 3) ≤ 3
    ∧ win0_2.index t (1 : Fin 3) ≤ 7 :=
  (by decide +kernel : ∀ t : Fin grid0.N, _)

theorem index_onto : ∀ (q0 : Fin 4) (q1 : Fin 8), ∃ t : Fin cfg0.N, win0_2.index t = ![q0.val, q1.val, 0] :=
  (by decide +kernel : ∀ (q0 : Fin 4) (q1 : Fin 8), ∃ t : Fin grid0.N, win0_2.index t = ![q0.val, q1.val, 0])

variable (V : (c : Dev nD) → (b : Ref sig .tc) → Buf (Elt Ideal) ((c : Thread nD τ).loc b))

theorem xblk_apply (c : Dev nD) (t : Fin cfg0.N) (y : S1x64x2048.Idx) (k : S4x64x16384.Idx)
    (h0 : (k 0).val = win0_0.index t (0 : Fin 3) * 1 + 1 * (y 0).val)
    (h1 : (k 1).val = win0_0.index t (1 : Fin 3) * 64 + 1 * (y 1).val)
    (h2 : (k 2).val = win0_0.index t (2 : Fin 3) * 2048 + 1 * (y 2).val) :
    (iblk0 V c 0 t : FVec Ideal S1x64x2048 .f32) y = (V c main_arg0 : FVec Ideal S4x64x16384 .f32) k := by
  show (V c main_arg0 : FVec Ideal S4x64x16384 .f32) (((cfg0.win 0).blk t).view.emb y) = _
  refine congrArg _ (funext fun a => Fin.ext ?_)
  match a with
  | ⟨0, _⟩ => exact h0.symm
  | ⟨1, _⟩ => exact h1.symm
  | ⟨2, _⟩ => exact h2.symm

theorem wblk_apply (c : Dev nD) (t : Fin cfg0.N) (y : S128x64.Idx) (k : S128x64.Idx)
    (h0 : (k 0).val = win0_1.index t (0 : Fin 2) * 128 + 1 * (y 0).val)
    (h1 : (k 1).val = win0_1.index t (1 : Fin 2) * 64 + 1 * (y 1).val) :
    (iblk0 V c 1 t : FVec Ideal S128x64 .f32) y = (V c main_v0 : FVec Ideal S128x64 .f32) k := by
  show (V c main_v0 : FVec Ideal S128x64 .f32) (((cfg0.win 1).blk t).view.emb y) = _
  refine congrArg _ (funext fun a => Fin.ext ?_)
  match a with
  | ⟨0, _⟩ => exact h0.symm
  | ⟨1, _⟩ => exact h1.symm

theorem written_back (c : Dev nD) (t : Fin cfg0.N) :
    (dat0 V c).flushed 2 t = ((cfg0.win 2).blk t).view.read (Elt Ideal) (conv (V c main_arg0) (V c main_v0)) := by
  show (cfg0.win 2).cut (grid0.coords t) ((dat0 V c).after 2 t) = _
  rw [after0_2]
  unfold out0_2
  rw [View.canon_unit_zero zeros3]
  simp only [View.ld_unit_zero (S := S1x64x2048) zeros3, View.ld_unit_zero (S := S128x64) zeros2]
  obtain ⟨e0, e1, e2, e3, e4, e5, e6, e7⟩ := index_maps t
  funext j
  obtain ⟨u, n, o, rfl⟩ : ∃ (u : Fin 1) (n : Fin 2048) (o : Fin 128), j = ix3 u n o := ⟨j 0, j 1, j 2, eq_ix3 j⟩
  show (k0_pay1 (F := Ideal) (iblk0 V c 0 t) (iblk0 V c 1 t) : FVec Ideal S1x2048x128 .f32) (ix3 u n o)
    = conv (V c main_arg0) (V c main_v0) (((cfg0.win 2).blk t).view.emb (ix3 u n o))
  refine (pay_apply (iblk0 V c 0 t) (iblk0 V c 1 t) u n o).trans ?_
  have hu : u.val = 0 := by have := u.isLt; omega
  refine Finset.sum_congr rfl fun cc _ => ?_
  congr 1
  · refine xblk_apply V c t _ _ ?_ ?_ ?_
    · show win0_2.index t (0 : Fin 3) * 1 + 1 * u.val = win0_0.index t (0 : Fin 3) * 1 + 1 * 0
      omega
    · show cc.val = win0_0.index t (1 : Fin 3) * 64 + 1 * cc.val
      omega
    · show win0_2.index t (1 : Fin 3) * 2048 + 1 * n.val = win0_0.index t (2 : Fin 3) * 2048 + 1 * n.val
      omega
  · refine wblk_apply V c t _ _ ?_ ?_
    · show win0_2.index t (2 : Fin 3) * 128 + 1 * o.val = win0_1.index t (0 : Fin 2) * 128 + 1 * o.val
      omega
    · show cc.val = win0_1.index t (1 : Fin 2) * 64 + 1 * cc.val
      omega

theorem mem_block (t : Fin cfg0.N) (i : S4x16384x128.Idx) :
    i ∈ ((cfg0.win 2).blk t).view.set ↔ ∀ a : Fin 3, win0_2.index t a * S1x2048x128.size a ≤ (i a).val
      ∧ (i a).val < win0_2.index t a * S1x2048x128.size a + S1x2048x128.size a := by
  show i ∈ ((View.whole main_v1).slice (win0_2.rect t)).set ↔ _
  rw [View.set_slice_whole, Rect.mem_set_unit]
  exact Iff.rfl

theorem blocks_cover (i : S4x16384x128.Idx) :
    ∃ t : Fin cfg0.N, (cfg0.win 2).flush t = true ∧ i ∈ ((cfg0.win 2).blk t).view.set := by
  have hi0 : (i 0).val < 4 := (i 0).isLt
  have hi1 : (i 1).val < 16384 := (i 1).isLt
  have hi2 : (i 2).val < 128 := (i 2).isLt
  obtain ⟨t, ht⟩ := index_onto ⟨(i 0).val, hi0⟩ ⟨(i 1).val / 2048, by omega⟩
  have q0 : win0_2.index t (0 : Fin 3) = (i 0).val := congrFun ht 0
  have q1 : win0_2.index t (1 : Fin 3) = (i 1).val / 2048 := congrFun ht 1
  have q2 : win0_2.index t (2 : Fin 3) = 0 := congrFun ht 2
  refine ⟨t, flush0_2 t, ?_⟩
  rw [mem_block]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 2048 ≤ (i 1).val ∧ (i 1).val < win0_2.index t (1 : Fin 3) * 2048 + 2048
    omega
  | ⟨2, _⟩ =>
    show win0_2.index t (2 : Fin 3) * 128 ≤ (i 2).val ∧ (i 2).val < win0_2.index t (2 : Fin 3) * 128 + 128
    omega

theorem conv_array (c : Dev nD) :
    (dat0 V c).arrAt 2 cfg0.N = conv (V c main_arg0) (V c main_v0) :=
  (dat0 V c).arrAt_eq_of_cover 2 (conv (V c main_arg0) (V c main_v0)) (fun t _ => written_back V c t) blocks_cover

end Cert.KernelIdeal.Val

end
-- ==== Proof.KI.Val1Reads.lean ====
import proofs.«405998_j76398878261701_2_alg».proof.Proof.Gen.KernelIdeal.Launch
import Idealize.ShloMosaic.Lib.ValueIdx
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.SL.Sem

variable {F : FTy → Type} [FloatOps F]

theorem src_row_read1 (c : Dev nD) (o3 : Fin 3 → Nat) (inb3 : ∀ a, o3 a + S1x16384x128.size a ≤ S4x16384x128.size a)
    (o2 : Fin 2 → Nat) (inb2 : ∀ a, o2 a + S1x128.size a ≤ S16384x128.size a)
    (b : Fin 4) (w : Fin 16384) (h3 : o3 0 = b.val ∧ o3 1 = 0 ∧ o3 2 = 0) (h2 : o2 0 = w.val ∧ o2 1 = 0)
    (fh : Buf (Elt F) ((Memref.whole (main_v1 : Ref sig .tc)).view.loc (c : Thread nD τ))) (u : Fin 1) (l : Fin 128) :
    ((((Memref.whole (main_v1 : Ref sig .tc)).slice (Rect.unit (s := S4x16384x128) o3 S1x16384x128.size inb3) (fun _ => rfl)).squeeze S16384x128
        squeezes_S1x16384x128_S16384x128).slice (Rect.unit (s := S16384x128) o2 S1x128.size inb2) (fun _ => rfl)).view.read (Elt F) fh (ix2 u l)
      = (fh : FVec F S4x16384x128 .f32) (ix3 b w l) := by
  rw [View.read_apply]
  show fh _ = fh _
  refine congrArg fh ?_
  show ((Memref.whole (main_v1 : Ref sig .tc)).view.emb ((Rect.unit (s := S4x16384x128) o3 S1x16384x128.size inb3).emb
      (Shape.reshapeEquiv (Shape.Squeezes.numel_eq squeezes_S1x16384x128_S16384x128)
        ((Rect.unit (s := S16384x128) o2 S1x128.size inb2).emb (ix2 u l))))) = _
  rw [Shape.reshapeEquiv_cons_one (n := 2) (d := ![16384, 128])]
  have hu : u.val = 0 := by omega
  funext a
  apply Fin.ext
  match a with
  | ⟨0, _⟩ => show o3 0 + 1 * 0 = b.val; rw [h3.1]; omega
  | ⟨1, _⟩ => show o3 1 + 1 * (o2 0 + 1 * u.val) = w.val; rw [h3.2.1, h2.1, hu]; omega
  | ⟨2, _⟩ => show o3 2 + 1 * (o2 1 + 1 * l.val) = l.val; rw [h3.2.2, h2.2]; omega

theorem word_read1 (arg2 : Memref sig .tc .smem S1x8x32 .i32) (harg2 : arg2.IsWhole) (x0 : Vec F S1x8x32 .i32)
    (off : Fin 3 → Nat) (inb : ∀ a, off a + S1x1x1.size a ≤ S1x8x32.size a) (h1 : 0 < S1x1x1.numel)
    (r : Fin 8) (k : Fin 32) (hoff : off 0 = 0 ∧ off 1 = r.val ∧ off 2 = k.val) :
    arg2.view.readAt (Elt F) (Rect.unit (s := S1x8x32) off S1x1x1.size inb).toLoadRect (harg2.unread x0) (Shape.Idx.first h1)
      = (x0 : IVec S1x8x32 32) (ix3 (0 : Fin 1) r k) := by
  rw [View.readAt_eq_ld, Memref.IsWhole.read_unread]
  show x0 _ = x0 _
  refine congrArg x0 ?_
  funext a
  apply Fin.ext
  have hf : ∀ a, (Shape.Idx.first h1 a : Fin (S1x1x1.size a)).val = 0 := fun a => by
    have := (Shape.Idx.first h1 a).isLt
    have e : S1x1x1.size a = 1 := by fin_cases a <;> rfl
    omega
  match a with
  | ⟨0, _⟩ => show off 0 + 1 * (Shape.Idx.first h1 (0 : Fin 3)).val = 0; rw [hoff.1, hf]
  | ⟨1, _⟩ => show off 1 + 1 * (Shape.Idx.first h1 (1 : Fin 3)).val = r.val; rw [hoff.2.1, hf]; omega
  | ⟨2, _⟩ => show off 2 + 1 * (Shape.Idx.first h1 (2 : Fin 3)).val = k.val; rw [hoff.2.2, hf]; omega

end Cert.KernelIdeal.Val
end
-- ==== Proof.KI.Val1Point.lean ====
import proofs.«405998_j76398878261701_2_alg».proof.Proof.KI.GatherRun
import proofs.«405998_j76398878261701_2_alg».proof.Proof.KI.Val1Reads
import Idealize.ShloMosaic.Lib.ValueIdx
import Idealize.ShloMosaic.Lib.Pipeline.Value
import Idealize.ShloMosaic.Lib.Tactic

set_option maxRecDepth 65536

noncomputable section

namespace Cert.KernelIdeal.Val

open Cert.KernelIdeal Cert.KernelIdeal.Gen Cert.KernelIdeal.Fr Cert.KernelIdeal.Facts
open Idealize.ShloMosaic Idealize.ShloMosaic.TcCoe Idealize.ShloMosaic.ValueIdx Idealize.ShloMosaic.Tactic
open Idealize.SL.Sem

variable {F : FTy → Type} [FloatOps F]

theorem hz3 : (![0, 0, 0] : Fin 3 → Nat) = fun _ => 0 := funext fun a => by fin_cases a <;> rfl

/-- What the copy for slot k of row r delivers, read at a lane, is the gathered array at (batch, the row the word at (0, r, k) names, lane). -/
theorem delivered_row1 (c : Dev nD) (i : grid1.Coords) (arg2 : Memref sig .tc .smem S1x8x32 .i32) (harg2 : arg2.IsWhole)
    (x0 : Vec F S1x8x32 .i32) (fh0 : HbBuf1 (F := F) c hbM1_0)
    (r : Fin 8) (k : Fin 32) (inb : ∀ a, (![0, r.val, k.val] : Fin 3 → Nat) a + S1x1x1.size a ≤ S1x8x32.size a)
    (o3 : Fin 3 → Nat) (inb3 : ∀ a, o3 a + S1x16384x128.size a ≤ S4x16384x128.size a)
    (ho3 : o3 = ![(BitVec.ofNat 32 (i 0).val).toNat, 0, 0])
    (o2 : Fin 2 → Nat) (inb2 : ∀ a, o2 a + S1x128.size a ≤ S16384x128.size a)
    (ho2 : o2 = ![(arg2.view.readAt (Elt F) (Rect.unit (s := S1x8x32) ![0, r.val, k.val] S1x1x1.size inb).toLoadRect (harg2.unread x0) (Shape.Idx.first (numel1_S1x1x1.symm ▸ Nat.one_pos)) : BitVec 32).toNat, 0])
    (l : Fin 128) :
    (ReadAs.same : ReadAs (Elt F) S1x128 .f32 S1x128 .f32).apply
        (View.read (Elt F) ((((Memref.whole (main_v1 : Ref sig .tc)).slice (Rect.unit (s := S4x16384x128) o3 S1x16384x128.size inb3) (fun _ => rfl)).squeeze S16384x128
          squeezes_S1x16384x128_S16384x128).slice (Rect.unit (s := S16384x128) o2 S1x128.size inb2) (fun _ => rfl)).view fh0) (ix2 (0 : Fin 1) l)
      = (fh0 : FVec F S4x16384x128 .f32) (ix3 (i 0 : Fin 4)
          (⟨((x0 : IVec S1x8x32 32) (ix3 (0 : Fin 1) r k) : BitVec 32).toNat % 16384, Nat.mod_lt _ (by decide)⟩ : Fin 16384) l) := by
  have hw := word_read1 arg2 harg2 x0 ![0, r.val, k.val] inb (numel1_S1x1x1.symm ▸ Nat.one_pos) r k ⟨rfl, rfl, rfl⟩
  have hb : (BitVec.ofNat 32 (i 0).val).toNat = (i 0).val := by
    rw [BitVec.toNat_ofNat]; exact Nat.mod_eq_of_lt (by have : (i 0).val < 4 := (i 0).isLt; omega)
  have hlt : ((x0 : IVec S1x8x32 32) (ix3 (0 : Fin 1) r k) : BitVec 32).toNat < 16384 := by
    have := inb2 0
    rw [ho2, hw] at this
    have e : (![((x0 : IVec S1x8x32 32) (ix3 (0 : Fin 1) r k) : BitVec 32).toNat, 0] : Fin 2 → Nat) 0 + S1x128.size 0 ≤ S16384x128.size 0 := this
    have e' : ((x0 : IVec S1x8x32 32) (ix3 (0 : Fin 1) r k) : BitVec 32).toNat + 1 ≤ 16384 := e
    omega
  refine (src_row_read1 c o3 inb3 o2 inb2 (i 0 : Fin 4) ⟨_, Nat.mod_lt _ (by decide)⟩ ⟨?_, ?_, ?_⟩ ⟨?_, ?_⟩ fh0 (0 : Fin 1) l)
  · rw [ho3]; exact hb
  · rw [ho3]; rfl
  · rw [ho3]; rfl
  · rw [ho2, hw]; exact (Nat.mod_eq_of_lt hlt).symm
  · rw [ho2]; rfl

end Cert.KernelIdeal.Val

end
-- ==== Proof.KI.Val1RowsA.lean ====
import proofs.«405998_j76398878261701_2_alg».proof.Proof.KI.Val1Point

set_option maxRecDepth 65536

noncomputable section

namespace Cert.KernelIdeal.Val

open Cert.KernelIdeal Cert.KernelIdeal.Gen Cert.KernelIdeal.Fr Cert.KernelIdeal.Facts
open Idealize.ShloMosaic Idealize.ShloMosaic.TcCoe Idealize.ShloMosaic.ValueIdx Idealize.ShloMosaic.Tactic
open Idealize.SL.Sem

variable {F : FTy → Type} [FloatOps F]
variable (c : Dev nD) (i : grid1.Coords) (arg2 : Memref sig .tc .smem S1x8x32 .i32) (harg2 : arg2.IsWhole)
  (x0 : Vec F S1x8x32 .i32) (fh0 : HbBuf1 (F := F) c hbM1_0) (hx : ∀ j, (x0 j : BitVec 32).toNat + 1 ≤ 16384)

/-- Slot k of the scratch after row 0's copies is the row of the gathered array that the row's k-th index word names. -/
theorem row0_slots1 (k : Fin 32) (l : Fin 128) :
    (kernelRun1_A.sl.v480 c i arg2 harg2 x0 fh0 hx) (ix3 k (0 : Fin 1) l)
      = (fh0 : FVec F S4x16384x128 .f32) (ix3 (i 0 : Fin 4)
          (⟨((x0 : IVec S1x8x32 32) (ix3 (0 : Fin 1) (0 : Fin 8) k) : BitVec 32).toNat % 16384, Nat.mod_lt _ (by decide)⟩ : Fin 16384) l) := by
  unfold kernelRun1_A.sl.v480
  rw [View.readAt_eq_ld, View.ld_unit_zero (S := S32x1x128) hz3]
  refine (read_scratchOf c _ k l).trans ?_
  match k with
  | ⟨0, _⟩ =>
    show (kernelRun1_A.sl.dma1 c i arg2 harg2 x0 fh0 hx) (ix2 (0 : Fin 1) l) = _
    unfold kernelRun1_A.sl.dma1
    refine delivered_row1 c i arg2 harg2 x0 fh0 0 0 inb_S1x8x32_S1x1x1_0_0_0 _ _ ?_ _ _ ?_ l <;> rfl
  | ⟨1, _⟩ =>
    show (kernelRun1_A.sl.dma2 c i arg2 harg2 x0 fh0 hx) (ix2 (0 : Fin 1) l) = _
    unfold kernelRun1_A.sl.dma2
    refine delivered_row1 c i arg2 harg2 x0 fh0 0 1 inb_S1x8x32_S1x1x1_0_0_1 _ _ ?_ _ _ ?_ l <;> rfl
  | ⟨2, _⟩ =>
    show (kernelRun1_A.sl.dma3 c i arg2 harg2 x0 fh0 hx) (ix2 (0 : Fin 1) l) = _
    unfold kernelRun1_A.sl.dma3
    refine delivered_row1 c i arg2 harg2 x0 fh0 0 2 inb_S1x8x32_S1x1x1_0_0_2 _ _ ?_ _ _ ?_ l <;> rfl
  | ⟨3, _⟩ =>
    show (kernelRun1_A.sl.dma4 c i arg2 harg2 x0 fh0 hx) (ix2 (0 : Fin 1) l) = _
    unfold kernelRun1_A.sl.dma4
    refine delivered_row1 c i arg2 harg2 x0 fh0 0 3 inb_S1x8x32_S1x1x1_0_0_3 _ _ ?_ _ _ ?_ l <;> rfl
  | ⟨4, _⟩ =>
    show (kernelRun1_A.sl.dma5 c i arg2 harg2 x0 fh0 hx) (ix2 (0 : Fin 1) l) = _
    unfold kernelRun1_A.sl.dma5
    refine delivered_row1 c i arg2 harg2 x0 fh0 0 4 inb_S1x8x32_S1x1x1_0_0_4 _ _ ?_ _ _ ?_ l <;> rfl
  | ⟨5, _⟩ =>
    show (kernelRun1_A.sl.dma6 c i arg2 harg2 x0 fh0 hx) (ix2 (0 : Fin 1) l) = _
    unfold kernelRun1_A.sl.dma6
    refine delivered_row1 c i arg2 harg2 x0 fh0 0 5 inb_S1x8x32_S1x1x1_0_0_5 _ _ ?_ _ _ ?_ l <;> rfl
  | ⟨6, _⟩ =>
    show (kernelRun1_A.sl.dma7 c i arg2 harg2 x0 fh0 hx) (ix2 (0 : Fin 1) l) = _
    unfold kernelRun1_A.sl.dma7
    refine delivered_row1 c i arg2 harg2 x0 fh0 0 6 inb_S1x8x32_S1x1x1_0_0_6 _ _ ?_ _ _ ?_ l <;> rfl
  | ⟨7, _⟩ =>
    show (kernelRun1_A.sl.dma8 c i arg2 harg2 x0 fh0 hx) (ix2 (0 : Fin 1) l) = _
    unfold kernelRun1_A.sl.dma8
    refine delivered_row1 c i arg2 harg2 x0 fh0 0 7 inb_S1x8x32_S1x1x1_0_0_7 _ _ ?_ _ _ ?_ l <;> rfl
  | ⟨8, _⟩ =>
    show (kernelRun1_A.sl.dma9 c i arg2 harg2 x0 fh0 hx) (ix2 (0 : Fin 1) l) = _
    unfold kernelRun1_A.sl.dma9
    refine delivered_row1 c i arg2 harg2 x0 fh0 0 8 inb_S1x8x32_S1x1x1_0_0_8 _ _ ?_ _ _ ?_ l <;> rfl
  | ⟨9, _⟩ =>
    show (kernelRun1_A.sl.dma10 c i arg2 harg2 x0 fh0 hx) (ix2 (0 : Fin 1) l) = _
    unfold kernelRun1_A.sl.dma10
    refine delivered_row1 c i arg2 harg2 x0 fh0 0 9 inb_S1x8x32_S1x1x1_0_0_9 _ _ ?_ _ _ ?_ l <;> rfl
  | ⟨10, _⟩ =>
    show (kernelRun1_A.sl.dma11 c i arg2 harg2 x0 fh0 hx) (ix2 (0 : Fin 1) l) = _
    unfold kernelRun1_A.sl.dma11
    refine delivered_row1 c i arg2 harg2 x0 fh0 0 10 inb_S1x8x32_S1x1x1_0_0_10 _ _ ?_ _ _ ?_ l <;> rfl
  | ⟨11, _⟩ =>
    show (kernelRun1_A.sl.dma12 c i arg2 harg2 x0 fh0 hx) (ix2 (0 : Fin 1) l) = _
    unfold kernelRun1_A.sl.dma12
    refine delivered_row1 c i arg2 harg2 x0 fh0 0 11 inb_S1x8x32_S1x1x1_0_0_11 _ _ ?_ _ _ ?_ l <;> rfl
  | ⟨12, _⟩ =>
    show (kernelRun1_A.sl.dma13 c i arg2 harg2 x0 fh0 hx) (ix2 (0 : Fin 1) l) = _
    unfold kernelRun1_A.sl.dma13
    refine delivered_row1 c i arg2 harg2 x0 fh0 0 12 inb_S1x8x32_S1x1x1_0_0_12 _ _ ?_ _ _ ?_ l <;> rfl
  | ⟨13, _⟩ =>
    show (kernelRun1_A.sl.dma14 c i arg2 harg2 x0 fh0 hx) (ix2 (0 : Fin 1) l) = _
    unfold kernelRun1_A.sl.dma14
    refine delivered_row1 c i arg2 harg2 x0 fh0 0 13 inb_S1x8x32_S1x1x1_0_0_13 _ _ ?_ _ _ ?_ l <;> rfl
  | ⟨14, _⟩ =>
    show (kernelRun1_A.sl.dma15 c i arg2 harg2 x0 fh0 hx) (ix2 (0 : Fin 1) l) = _
    unfold kernelRun1_A.sl.dma15
    refine delivered_row1 c i arg2 harg2 x0 fh0 0 14 inb_S1x8x32_S1x1x1_0_0_14 _ _ ?_ _ _ ?_ l <;> rfl
  | ⟨15, _⟩ =>
    show (kernelRun1_A.sl.dma16 c i arg2 harg2 x0 fh0 hx) (ix2 (0 : Fin 1) l) = _
    unfold kernelRun1_A.sl.dma16
    refine delivered_row1 c i arg2 harg2 x0 fh0 0 15 inb_S1x8x32_S1x1x1_0_0_15 _ _ ?_ _ _ ?_ l <;> rfl
  | ⟨16, _⟩ =>
    show (kernelRun1_A.sl.dma17 c i arg2 harg2 x0 fh0 hx) (ix2 (0 : Fin 1) l) = _
    unfold kernelRun1_A.sl.dma17
    refine delivered_row1 c i arg2 harg2 x0 fh0 0 16 inb_S1x8x32_S1x1x1_0_0_16 _ _ ?_ _ _ ?_ l <;> rfl
  | ⟨17, _⟩ =>
    show (kernelRun1_A.sl.dma18 c i arg2 harg2 x0 fh0 hx) (ix2 (0 : Fin 1) l) = _
    unfold kernelRun1_A.sl.dma18
    refine delivered_row1 c i arg2 harg2 x0 fh0 0 17 inb_S1x8x32_S1x1x1_0_0_17 _ _ ?_ _ _ ?_ l <;> rfl
  | ⟨18, _⟩ =>
    show (kernelRun1_A.sl.dma19 c i arg2 harg2 x0 fh0 hx) (ix2 (0 : Fin 1) l) = _
    unfold kernelRun1_A.sl.dma19
    refine delivered_row1 c i arg2 harg2 x0 fh0 0 18 inb_S1x8x32_S1x1x1_0_0_18 _ _ ?_ _ _ ?_ l <;> rfl
  | ⟨19, _⟩ =>
    show (kernelRun1_A.sl.dma20 c i arg2 harg2 x0 fh0 hx) (ix2 (0 : Fin 1) l) = _
    unfold kernelRun1_A.sl.dma20
    refine delivered_row1 c i arg2 harg2 x0 fh0 0 19 inb_S1x8x32_S1x1x1_0_0_19 _ _ ?_ _ _ ?_ l <;> rfl
  | ⟨20, _⟩ =>
    show (kernelRun1_A.sl.dma21 c i arg2 harg2 x0 fh0 hx) (ix2 (0 : Fin 1) l) = _
    unfold kernelRun1_A.sl.dma21
    refine delivered_row1 c i arg2 harg2 x0 fh0 0 20 inb_S1x8x32_S1x1x1_0_0_20 _ _ ?_ _ _ ?_ l <;> rfl
  | ⟨21, _⟩ =>
    show (kernelRun1_A.sl.dma22 c i arg2 harg2 x0 fh0 hx) (ix2 (0 : Fin 1) l) = _
    unfold kernelRun1_A.sl.dma22
    refine delivered_row1 c i arg2 harg2 x0 fh0 0 21 inb_S1x8x32_S1x1x1_0_0_21 _ _ ?_ _ _ ?_ l <;> rfl
  | ⟨22, _⟩ =>
    show (kernelRun1_A.sl.dma23 c i arg2 harg2 x0 fh0 hx) (ix2 (0 : Fin 1) l) = _
    unfold kernelRun1_A.sl.dma23
    refine delivered_row1 c i arg2 harg2 x0 fh0 0 22 inb_S1x8x32_S1x1x1_0_0_22 _ _ ?_ _ _ ?_ l <;> rfl
  | ⟨23, _⟩ =>
    show (kernelRun1_A.sl.dma24 c i arg2 harg2 x0 fh0 hx) (ix2 (0 : Fin 1) l) = _
    unfold kernelRun1_A.sl.dma24
    refine delivered_row1 c i arg2 harg2 x0 fh0 0 23 inb_S1x8x32_S1x1x1_0_0_23 _ _ ?_ _ _ ?_ l <;> rfl
  | ⟨24, _⟩ =>
    show (kernelRun1_A.sl.dma25 c i arg2 harg2 x0 fh0 hx) (ix2 (0 : Fin 1) l) = _
    unfold kernelRun1_A.sl.dma25
    refine delivered_row1 c i arg2 harg2 x0 fh0 0 24 inb_S1x8x32_S1x1x1_0_0_24 _ _ ?_ _ _ ?_ l <;> rfl
  | ⟨25, _⟩ =>
    show (kernelRun1_A.sl.dma26 c i arg2 harg2 x0 fh0 hx) (ix2 (0 : Fin 1) l) = _
    unfold kernelRun1_A.sl.dma26
    refine delivered_row1 c i arg2 harg2 x0 fh0 0 25 inb_S1x8x32_S1x1x1_0_0_25 _ _ ?_ _ _ ?_ l <;> rfl
  | ⟨26, _⟩ =>
    show (kernelRun1_A.sl.dma27 c i arg2 harg2 x0 fh0 hx) (ix2 (0 : Fin 1) l) = _
    unfold kernelRun1_A.sl.dma27
    refine delivered_row1 c i arg2 harg2 x0 fh0 0 26 inb_S1x8x32_S1x1x1_0_0_26 _ _ ?_ _ _ ?_ l <;> rfl
  | ⟨27, _⟩ =>
    show (kernelRun1_A.sl.dma28 c i arg2 harg2 x0 fh0 hx) (ix2 (0 : Fin 1) l) = _
    unfold kernelRun1_A.sl.dma28
    refine delivered_row1 c i arg2 harg2 x0 fh0 0 27 inb_S1x8x32_S1x1x1_0_0_27 _ _ ?_ _ _ ?_ l <;> rfl
  | ⟨28, _⟩ =>
    show (kernelRun1_A.sl.dma29 c i arg2 harg2 x0 fh0 hx) (ix2 (0 : Fin 1) l) = _
    unfold kernelRun1_A.sl.dma29
    refine delivered_row1 c i arg2 harg2 x0 fh0 0 28 inb_S1x8x32_S1x1x1_0_0_28 _ _ ?_ _ _ ?_ l <;> rfl
  | ⟨29, _⟩ =>
    show (kernelRun1_A.sl.dma30 c i arg2 harg2 x0 fh0 hx) (ix2 (0 : Fin 1) l) = _
    unfold kernelRun1_A.sl.dma30
    refine delivered_row1 c i arg2 harg2 x0 fh0 0 29 inb_S1x8x32_S1x1x1_0_0_29 _ _ ?_ _ _ ?_ l <;> rfl
  | ⟨30, _⟩ =>
    show (kernelRun1_A.sl.dma31 c i arg2 harg2 x0 fh0 hx) (ix2 (0 : Fin 1) l) = _
    unfold kernelRun1_A.sl.dma31
    refine delivered_row1 c i arg2 harg2 x0 fh0 0 30 inb_S1x8x32_S1x1x1_0_0_30 _ _ ?_ _ _ ?_ l <;> rfl
  | ⟨31, _⟩ =>
    show (kernelRun1_A.sl.dma32 c i arg2 harg2 x0 fh0 hx) (ix2 (0 : Fin 1) l) = _
    unfold kernelRun1_A.sl.dma32
    refine delivered_row1 c i arg2 harg2 x0 fh0 0 31 inb_S1x8x32_S1x1x1_0_0_31 _ _ ?_ _ _ ?_ l <;> rfl
  | ⟨n + 32, h⟩ => exact absurd h (by omega)

/-- Slot k of the scratch after row 1's copies is the row of the gathered array that the row's k-th index word names. -/
theorem row1_slots1 (k : Fin 32) (l : Fin 128) :
    (kernelRun1_A.sl.v964 c i arg2 harg2 x0 fh0 hx) (ix3 k (0 : Fin 1) l)
      = (fh0 : FVec F S4x16384x128 .f32) (ix3 (i 0 : Fin 4)
          (⟨((x0 : IVec S1x8x32 32) (ix3 (0 : Fin 1) (1 : Fin 8) k) : BitVec 32).toNat % 16384, Nat.mod_lt _ (by decide)⟩ : Fin 16384) l) := by
  unfold kernelRun1_A.sl.v964
  rw [View.readAt_eq_ld, View.ld_unit_zero (S := S32x1x128) hz3]
  refine (read_scratchOf c _ k l).trans ?_
  match k with
  | ⟨0, _⟩ =>
    show (kernelRun1_A.sl.dma1_1 c i arg2 harg2 x0 fh0 hx) (ix2 (0 : Fin 1) l) = _
    unfold kernelRun1_A.sl.dma1_1
    refine delivered_row1 c i arg2 harg2 x0 fh0 1 0 inb_S1x8x32_S1x1x1_0_1_0 _ _ ?_ _ _ ?_ l <;> rfl
  | ⟨1, _⟩ =>
    show (kernelRun1_A.sl.dma2_1 c i arg2 harg2 x0 fh0 hx) (ix2 (0 : Fin 1) l) = _
    unfold kernelRun1_A.sl.dma2_1
    refine delivered_row1 c i arg2 harg2 x0 fh0 1 1 inb_S1x8x32_S1x1x1_0_1_1 _ _ ?_ _ _ ?_ l <;> rfl
  | ⟨2, _⟩ =>
    show (kernelRun1_A.sl.dma3_1 c i arg2 harg2 x0 fh0 hx) (ix2 (0 : Fin 1) l) = _
    unfold kernelRun1_A.sl.dma3_1
    refine delivered_row1 c i arg2 harg2 x0 fh0 1 2 inb_S1x8x32_S1x1x1_0_1_2 _ _ ?_ _ _ ?_ l <;> rfl
  | ⟨3, _⟩ =>
    show (kernelRun1_A.sl.dma4_1 c i arg2 harg2 x0 fh0 hx) (ix2 (0 : Fin 1) l) = _
    unfold kernelRun1_A.sl.dma4_1
    refine delivered_row1 c i arg2 harg2 x0 fh0 1 3 inb_S1x8x32_S1x1x1_0_1_3 _ _ ?_ _ _ ?_ l <;> rfl
  | ⟨4, _⟩ =>
    show (kernelRun1_A.sl.dma5_1 c i arg2 harg2 x0 fh0 hx) (ix2 (0 : Fin 1) l) = _
    unfold kernelRun1_A.sl.dma5_1
    refine delivered_row1 c i arg2 harg2 x0 fh0 1 4 inb_S1x8x32_S1x1x1_0_1_4 _ _ ?_ _ _ ?_ l <;> rfl
  | ⟨5, _⟩ =>
    show (kernelRun1_A.sl.dma6_1 c i arg2 harg2 x0 fh0 hx) (ix2 (0 : Fin 1) l) = _
    unfold kernelRun1_A.sl.dma6_1
    refine delivered_row1 c i arg2 harg2 x0 fh0 1 5 inb_S1x8x32_S1x1x1_0_1_5 _ _ ?_ _ _ ?_ l <;> rfl
  | ⟨6, _⟩ =>
    show (kernelRun1_A.sl.dma7_1 c i arg2 harg2 x0 fh0 hx) (ix2 (0 : Fin 1) l) = _
    unfold kernelRun1_A.sl.dma7_1
    refine delivered_row1 c i arg2 harg2 x0 fh0 1 6 inb_S1x8x32_S1x1x1_0_1_6 _ _ ?_ _ _ ?_ l <;> rfl
  | ⟨7, _⟩ =>
    show (kernelRun1_A.sl.dma8_1 c i arg2 harg2 x0 fh0 hx) (ix2 (0 : Fin 1) l) = _
    unfold kernelRun1_A.sl.dma8_1
    refine delivered_row1 c i arg2 harg2 x0 fh0 1 7 inb_S1x8x32_S1x1x1_0_1_7 _ _ ?_ _ _ ?_ l <;> rfl
  | ⟨8, _⟩ =>
    show (kernelRun1_A.sl.dma9_1 c i arg2 harg2 x0 fh0 hx) (ix2 (0 : Fin 1) l) = _
    unfold kernelRun1_A.sl.dma9_1
    refine delivered_row1 c i arg2 harg2 x0 fh0 1 8 inb_S1x8x32_S1x1x1_0_1_8 _ _ ?_ _ _ ?_ l <;> rfl
  | ⟨9, _⟩ =>
    show (kernelRun1_A.sl.dma10_1 c i arg2 harg2 x0 fh0 hx) (ix2 (0 : Fin 1) l) = _
    unfold kernelRun1_A.sl.dma10_1
    refine delivered_row1 c i arg2 harg2 x0 fh0 1 9 inb_S1x8x32_S1x1x1_0_1_9 _ _ ?_ _ _ ?_ l <;> rfl
  | ⟨10, _⟩ =>
    show (kernelRun1_A.sl.dma11_1 c i arg2 harg2 x0 fh0 hx) (ix2 (0 : Fin 1) l) = _
    unfold kernelRun1_A.sl.dma11_1
    refine delivered_row1 c i arg2 harg2 x0 fh0 1 10 inb_S1x8x32_S1x1x1_0_1_10 _ _ ?_ _ _ ?_ l <;> rfl
  | ⟨11, _⟩ =>
    show (kernelRun1_A.sl.dma12_1 c i arg2 harg2 x0 fh0 hx) (ix2 (0 : Fin 1) l) = _
    unfold kernelRun1_A.sl.dma12_1
    refine delivered_row1 c i arg2 harg2 x0 fh0 1 11 inb_S1x8x32_S1x1x1_0_1_11 _ _ ?_ _ _ ?_ l <;> rfl
  | ⟨12, _⟩ =>
    show (kernelRun1_A.sl.dma13_1 c i arg2 harg2 x0 fh0 hx) (ix2 (0 : Fin 1) l) = _
    unfold kernelRun1_A.sl.dma13_1
    refine delivered_row1 c i arg2 harg2 x0 fh0 1 12 inb_S1x8x32_S1x1x1_0_1_12 _ _ ?_ _ _ ?_ l <;> rfl
  | ⟨13, _⟩ =>
    show (kernelRun1_A.sl.dma14_1 c i arg2 harg2 x0 fh0 hx) (ix2 (0 : Fin 1) l) = _
    unfold kernelRun1_A.sl.dma14_1
    refine delivered_row1 c i arg2 harg2 x0 fh0 1 13 inb_S1x8x32_S1x1x1_0_1_13 _ _ ?_ _ _ ?_ l <;> rfl
  | ⟨14, _⟩ =>
    show (kernelRun1_A.sl.dma15_1 c i arg2 harg2 x0 fh0 hx) (ix2 (0 : Fin 1) l) = _
    unfold kernelRun1_A.sl.dma15_1
    refine delivered_row1 c i arg2 harg2 x0 fh0 1 14 inb_S1x8x32_S1x1x1_0_1_14 _ _ ?_ _ _ ?_ l <;> rfl
  | ⟨15, _⟩ =>
    show (kernelRun1_A.sl.dma16_1 c i arg2 harg2 x0 fh0 hx) (ix2 (0 : Fin 1) l) = _
    unfold kernelRun1_A.sl.dma16_1
    refine delivered_row1 c i arg2 harg2 x0 fh0 1 15 inb_S1x8x32_S1x1x1_0_1_15 _ _ ?_ _ _ ?_ l <;> rfl
  | ⟨16, _⟩ =>
    show (kernelRun1_A.sl.dma17_1 c i arg2 harg2 x0 fh0 hx) (ix2 (0 : Fin 1) l) = _
    unfold kernelRun1_A.sl.dma17_1
    refine delivered_row1 c i arg2 harg2 x0 fh0 1 16 inb_S1x8x32_S1x1x1_0_1_16 _ _ ?_ _ _ ?_ l <;> rfl
  | ⟨17, _⟩ =>
    show (kernelRun1_A.sl.dma18_1 c i arg2 harg2 x0 fh0 hx) (ix2 (0 : Fin 1) l) = _
    unfold kernelRun1_A.sl.dma18_1
    refine delivered_row1 c i arg2 harg2 x0 fh0 1 17 inb_S1x8x32_S1x1x1_0_1_17 _ _ ?_ _ _ ?_ l <;> rfl
  | ⟨18, _⟩ =>
    show (kernelRun1_A.sl.dma19_1 c i arg2 harg2 x0 fh0 hx) (ix2 (0 : Fin 1) l) = _
    unfold kernelRun1_A.sl.dma19_1
    refine delivered_row1 c i arg2 harg2 x0 fh0 1 18 inb_S1x8x32_S1x1x1_0_1_18 _ _ ?_ _ _ ?_ l <;> rfl
  | ⟨19, _⟩ =>
    show (kernelRun1_A.sl.dma20_1 c i arg2 harg2 x0 fh0 hx) (ix2 (0 : Fin 1) l) = _
    unfold kernelRun1_A.sl.dma20_1
    refine delivered_row1 c i arg2 harg2 x0 fh0 1 19 inb_S1x8x32_S1x1x1_0_1_19 _ _ ?_ _ _ ?_ l <;> rfl
  | ⟨20, _⟩ =>
    show (kernelRun1_A.sl.dma21_1 c i arg2 harg2 x0 fh0 hx) (ix2 (0 : Fin 1) l) = _
    unfold kernelRun1_A.sl.dma21_1
    refine delivered_row1 c i arg2 harg2 x0 fh0 1 20 inb_S1x8x32_S1x1x1_0_1_20 _ _ ?_ _ _ ?_ l <;> rfl
  | ⟨21, _⟩ =>
    show (kernelRun1_A.sl.dma22_1 c i arg2 harg2 x0 fh0 hx) (ix2 (0 : Fin 1) l) = _
    unfold kernelRun1_A.sl.dma22_1
    refine delivered_row1 c i arg2 harg2 x0 fh0 1 21 inb_S1x8x32_S1x1x1_0_1_21 _ _ ?_ _ _ ?_ l <;> rfl
  | ⟨22, _⟩ =>
    show (kernelRun1_A.sl.dma23_1 c i arg2 harg2 x0 fh0 hx) (ix2 (0 : Fin 1) l) = _
    unfold kernelRun1_A.sl.dma23_1
    refine delivered_row1 c i arg2 harg2 x0 fh0 1 22 inb_S1x8x32_S1x1x1_0_1_22 _ _ ?_ _ _ ?_ l <;> rfl
  | ⟨23, _⟩ =>
    show (kernelRun1_A.sl.dma24_1 c i arg2 harg2 x0 fh0 hx) (ix2 (0 : Fin 1) l) = _
    unfold kernelRun1_A.sl.dma24_1
    refine delivered_row1 c i arg2 harg2 x0 fh0 1 23 inb_S1x8x32_S1x1x1_0_1_23 _ _ ?_ _ _ ?_ l <;> rfl
  | ⟨24, _⟩ =>
    show (kernelRun1_A.sl.dma25_1 c i arg2 harg2 x0 fh0 hx) (ix2 (0 : Fin 1) l) = _
    unfold kernelRun1_A.sl.dma25_1
    refine delivered_row1 c i arg2 harg2 x0 fh0 1 24 inb_S1x8x32_S1x1x1_0_1_24 _ _ ?_ _ _ ?_ l <;> rfl
  | ⟨25, _⟩ =>
    show (kernelRun1_A.sl.dma26_1 c i arg2 harg2 x0 fh0 hx) (ix2 (0 : Fin 1) l) = _
    unfold kernelRun1_A.sl.dma26_1
    refine delivered_row1 c i arg2 harg2 x0 fh0 1 25 inb_S1x8x32_S1x1x1_0_1_25 _ _ ?_ _ _ ?_ l <;> rfl
  | ⟨26, _⟩ =>
    show (kernelRun1_A.sl.dma27_1 c i arg2 harg2 x0 fh0 hx) (ix2 (0 : Fin 1) l) = _
    unfold kernelRun1_A.sl.dma27_1
    refine delivered_row1 c i arg2 harg2 x0 fh0 1 26 inb_S1x8x32_S1x1x1_0_1_26 _ _ ?_ _ _ ?_ l <;> rfl
  | ⟨27, _⟩ =>
    show (kernelRun1_A.sl.dma28_1 c i arg2 harg2 x0 fh0 hx) (ix2 (0 : Fin 1) l) = _
    unfold kernelRun1_A.sl.dma28_1
    refine delivered_row1 c i arg2 harg2 x0 fh0 1 27 inb_S1x8x32_S1x1x1_0_1_27 _ _ ?_ _ _ ?_ l <;> rfl
  | ⟨28, _⟩ =>
    show (kernelRun1_A.sl.dma29_1 c i arg2 harg2 x0 fh0 hx) (ix2 (0 : Fin 1) l) = _
    unfold kernelRun1_A.sl.dma29_1
    refine delivered_row1 c i arg2 harg2 x0 fh0 1 28 inb_S1x8x32_S1x1x1_0_1_28 _ _ ?_ _ _ ?_ l <;> rfl
  | ⟨29, _⟩ =>
    show (kernelRun1_A.sl.dma30_1 c i arg2 harg2 x0 fh0 hx) (ix2 (0 : Fin 1) l) = _
    unfold kernelRun1_A.sl.dma30_1
    refine delivered_row1 c i arg2 harg2 x0 fh0 1 29 inb_S1x8x32_S1x1x1_0_1_29 _ _ ?_ _ _ ?_ l <;> rfl
  | ⟨30, _⟩ =>
    show (kernelRun1_A.sl.dma31_1 c i arg2 harg2 x0 fh0 hx) (ix2 (0 : Fin 1) l) = _
    unfold kernelRun1_A.sl.dma31_1
    refine delivered_row1 c i arg2 harg2 x0 fh0 1 30 inb_S1x8x32_S1x1x1_0_1_30 _ _ ?_ _ _ ?_ l <;> rfl
  | ⟨31, _⟩ =>
    show (kernelRun1_A.sl.dma32_1 c i arg2 harg2 x0 fh0 hx) (ix2 (0 : Fin 1) l) = _
    unfold kernelRun1_A.sl.dma32_1
    refine delivered_row1 c i arg2 harg2 x0 fh0 1 31 inb_S1x8x32_S1x1x1_0_1_31 _ _ ?_ _ _ ?_ l <;> rfl
  | ⟨n + 32, h⟩ => exact absurd h (by omega)

/-- Slot k of the scratch after row 2's copies is the row of the gathered array that the row's k-th index word names. -/
theorem row2_slots1 (k : Fin 32) (l : Fin 128) :
    (kernelRun1_A.sl.v c i arg2 harg2 x0 fh0 hx) (ix3 k (0 : Fin 1) l)
      = (fh0 : FVec F S4x16384x128 .f32) (ix3 (i 0 : Fin 4)
          (⟨((x0 : IVec S1x8x32 32) (ix3 (0 : Fin 1) (2 : Fin 8) k) : BitVec 32).toNat % 16384, Nat.mod_lt _ (by decide)⟩ : Fin 16384) l) := by
  unfold kernelRun1_A.sl.v
  rw [View.readAt_eq_ld, View.ld_unit_zero (S := S32x1x128) hz3]
  refine (read_scratchOf c _ k l).trans ?_
  match k with
  | ⟨0, _⟩ =>
    show (kernelRun1_A.sl.dma1_2 c i arg2 harg2 x0 fh0 hx) (ix2 (0 : Fin 1) l) = _
    unfold kernelRun1_A.sl.dma1_2
    refine delivered_row1 c i arg2 harg2 x0 fh0 2 0 inb_S1x8x32_S1x1x1_0_2_0 _ _ ?_ _ _ ?_ l <;> rfl
  | ⟨1, _⟩ =>
    show (kernelRun1_A.sl.dma2_2 c i arg2 harg2 x0 fh0 hx) (ix2 (0 : Fin 1) l) = _
    unfold kernelRun1_A.sl.dma2_2
    refine delivered_row1 c i arg2 harg2 x0 fh0 2 1 inb_S1x8x32_S1x1x1_0_2_1 _ _ ?_ _ _ ?_ l <;> rfl
  | ⟨2, _⟩ =>
    show (kernelRun1_A.sl.dma3_2 c i arg2 harg2 x0 fh0 hx) (ix2 (0 : Fin 1) l) = _
    unfold kernelRun1_A.sl.dma3_2
    refine delivered_row1 c i arg2 harg2 x0 fh0 2 2 inb_S1x8x32_S1x1x1_0_2_2 _ _ ?_ _ _ ?_ l <;> rfl
  | ⟨3, _⟩ =>
    show (kernelRun1_A.sl.dma4_2 c i arg2 harg2 x0 fh0 hx) (ix2 (0 : Fin 1) l) = _
    unfold kernelRun1_A.sl.dma4_2
    refine delivered_row1 c i arg2 harg2 x0 fh0 2 3 inb_S1x8x32_S1x1x1_0_2_3 _ _ ?_ _ _ ?_ l <;> rfl
  | ⟨4, _⟩ =>
    show (kernelRun1_A.sl.dma5_2 c i arg2 harg2 x0 fh0 hx) (ix2 (0 : Fin 1) l) = _
    unfold kernelRun1_A.sl.dma5_2
    refine delivered_row1 c i arg2 harg2 x0 fh0 2 4 inb_S1x8x32_S1x1x1_0_2_4 _ _ ?_ _ _ ?_ l <;> rfl
  | ⟨5, _⟩ =>
    show (kernelRun1_A.sl.dma6_2 c i arg2 harg2 x0 fh0 hx) (ix2 (0 : Fin 1) l) = _
    unfold kernelRun1_A.sl.dma6_2
    refine delivered_row1 c i arg2 harg2 x0 fh0 2 5 inb_S1x8x32_S1x1x1_0_2_5 _ _ ?_ _ _ ?_ l <;> rfl
  | ⟨6, _⟩ =>
    show (kernelRun1_A.sl.dma7_2 c i arg2 harg2 x0 fh0 hx) (ix2 (0 : Fin 1) l) = _
    unfold kernelRun1_A.sl.dma7_2
    refine delivered_row1 c i arg2 harg2 x0 fh0 2 6 inb_S1x8x32_S1x1x1_0_2_6 _ _ ?_ _ _ ?_ l <;> rfl
  | ⟨7, _⟩ =>
    show (kernelRun1_A.sl.dma8_2 c i arg2 harg2 x0 fh0 hx) (ix2 (0 : Fin 1) l) = _
    unfold kernelRun1_A.sl.dma8_2
    refine delivered_row1 c i arg2 harg2 x0 fh0 2 7 inb_S1x8x32_S1x1x1_0_2_7 _ _ ?_ _ _ ?_ l <;> rfl
  | ⟨8, _⟩ =>
    show (kernelRun1_A.sl.dma9_2 c i arg2 harg2 x0 fh0 hx) (ix2 (0 : Fin 1) l) = _
    unfold kernelRun1_A.sl.dma9_2
    refine delivered_row1 c i arg2 harg2 x0 fh0 2 8 inb_S1x8x32_S1x1x1_0_2_8 _ _ ?_ _ _ ?_ l <;> rfl
  | ⟨9, _⟩ =>
    show (kernelRun1_A.sl.dma10_2 c i arg2 harg2 x0 fh0 hx) (ix2 (0 : Fin 1) l) = _
    unfold kernelRun1_A.sl.dma10_2
    refine delivered_row1 c i arg2 harg2 x0 fh0 2 9 inb_S1x8x32_S1x1x1_0_2_9 _ _ ?_ _ _ ?_ l <;> rfl
  | ⟨10, _⟩ =>
    show (kernelRun1_A.sl.dma11_2 c i arg2 harg2 x0 fh0 hx) (ix2 (0 : Fin 1) l) = _
    unfold kernelRun1_A.sl.dma11_2
    refine delivered_row1 c i arg2 harg2 x0 fh0 2 10 inb_S1x8x32_S1x1x1_0_2_10 _ _ ?_ _ _ ?_ l <;> rfl
  | ⟨11, _⟩ =>
    show (kernelRun1_A.sl.dma12_2 c i arg2 harg2 x0 fh0 hx) (ix2 (0 : Fin 1) l) = _
    unfold kernelRun1_A.sl.dma12_2
    refine delivered_row1 c i arg2 harg2 x0 fh0 2 11 inb_S1x8x32_S1x1x1_0_2_11 _ _ ?_ _ _ ?_ l <;> rfl
  | ⟨12, _⟩ =>
    show (kernelRun1_A.sl.dma13_2 c i arg2 harg2 x0 fh0 hx) (ix2 (0 : Fin 1) l) = _
    unfold kernelRun1_A.sl.dma13_2
    refine delivered_row1 c i arg2 harg2 x0 fh0 2 12 inb_S1x8x32_S1x1x1_0_2_12 _ _ ?_ _ _ ?_ l <;> rfl
  | ⟨13, _⟩ =>
    show (kernelRun1_A.sl.dma14_2 c i arg2 harg2 x0 fh0 hx) (ix2 (0 : Fin 1) l) = _
    unfold kernelRun1_A.sl.dma14_2
    refine delivered_row1 c i arg2 harg2 x0 fh0 2 13 inb_S1x8x32_S1x1x1_0_2_13 _ _ ?_ _ _ ?_ l <;> rfl
  | ⟨14, _⟩ =>
    show (kernelRun1_A.sl.dma15_2 c i arg2 harg2 x0 fh0 hx) (ix2 (0 : Fin 1) l) = _
    unfold kernelRun1_A.sl.dma15_2
    refine delivered_row1 c i arg2 harg2 x0 fh0 2 14 inb_S1x8x32_S1x1x1_0_2_14 _ _ ?_ _ _ ?_ l <;> rfl
  | ⟨15, _⟩ =>
    show (kernelRun1_A.sl.dma16_2 c i arg2 harg2 x0 fh0 hx) (ix2 (0 : Fin 1) l) = _
    unfold kernelRun1_A.sl.dma16_2
    refine delivered_row1 c i arg2 harg2 x0 fh0 2 15 inb_S1x8x32_S1x1x1_0_2_15 _ _ ?_ _ _ ?_ l <;> rfl
  | ⟨16, _⟩ =>
    show (kernelRun1_A.sl.dma17_2 c i arg2 harg2 x0 fh0 hx) (ix2 (0 : Fin 1) l) = _
    unfold kernelRun1_A.sl.dma17_2
    refine delivered_row1 c i arg2 harg2 x0 fh0 2 16 inb_S1x8x32_S1x1x1_0_2_16 _ _ ?_ _ _ ?_ l <;> rfl
  | ⟨17, _⟩ =>
    show (kernelRun1_A.sl.dma18_2 c i arg2 harg2 x0 fh0 hx) (ix2 (0 : Fin 1) l) = _
    unfold kernelRun1_A.sl.dma18_2
    refine delivered_row1 c i arg2 harg2 x0 fh0 2 17 inb_S1x8x32_S1x1x1_0_2_17 _ _ ?_ _ _ ?_ l <;> rfl
  | ⟨18, _⟩ =>
    show (kernelRun1_A.sl.dma19_2 c i arg2 harg2 x0 fh0 hx) (ix2 (0 : Fin 1) l) = _
    unfold kernelRun1_A.sl.dma19_2
    refine delivered_row1 c i arg2 harg2 x0 fh0 2 18 inb_S1x8x32_S1x1x1_0_2_18 _ _ ?_ _ _ ?_ l <;> rfl
  | ⟨19, _⟩ =>
    show (kernelRun1_A.sl.dma20_2 c i arg2 harg2 x0 fh0 hx) (ix2 (0 : Fin 1) l) = _
    unfold kernelRun1_A.sl.dma20_2
    refine delivered_row1 c i arg2 harg2 x0 fh0 2 19 inb_S1x8x32_S1x1x1_0_2_19 _ _ ?_ _ _ ?_ l <;> rfl
  | ⟨20, _⟩ =>
    show (kernelRun1_A.sl.dma21_2 c i arg2 harg2 x0 fh0 hx) (ix2 (0 : Fin 1) l) = _
    unfold kernelRun1_A.sl.dma21_2
    refine delivered_row1 c i arg2 harg2 x0 fh0 2 20 inb_S1x8x32_S1x1x1_0_2_20 _ _ ?_ _ _ ?_ l <;> rfl
  | ⟨21, _⟩ =>
    show (kernelRun1_A.sl.dma22_2 c i arg2 harg2 x0 fh0 hx) (ix2 (0 : Fin 1) l) = _
    unfold kernelRun1_A.sl.dma22_2
    refine delivered_row1 c i arg2 harg2 x0 fh0 2 21 inb_S1x8x32_S1x1x1_0_2_21 _ _ ?_ _ _ ?_ l <;> rfl
  | ⟨22, _⟩ =>
    show (kernelRun1_A.sl.dma23_2 c i arg2 harg2 x0 fh0 hx) (ix2 (0 : Fin 1) l) = _
    unfold kernelRun1_A.sl.dma23_2
    refine delivered_row1 c i arg2 harg2 x0 fh0 2 22 inb_S1x8x32_S1x1x1_0_2_22 _ _ ?_ _ _ ?_ l <;> rfl
  | ⟨23, _⟩ =>
    show (kernelRun1_A.sl.dma24_2 c i arg2 harg2 x0 fh0 hx) (ix2 (0 : Fin 1) l) = _
    unfold kernelRun1_A.sl.dma24_2
    refine delivered_row1 c i arg2 harg2 x0 fh0 2 23 inb_S1x8x32_S1x1x1_0_2_23 _ _ ?_ _ _ ?_ l <;> rfl
  | ⟨24, _⟩ =>
    show (kernelRun1_A.sl.dma25_2 c i arg2 harg2 x0 fh0 hx) (ix2 (0 : Fin 1) l) = _
    unfold kernelRun1_A.sl.dma25_2
    refine delivered_row1 c i arg2 harg2 x0 fh0 2 24 inb_S1x8x32_S1x1x1_0_2_24 _ _ ?_ _ _ ?_ l <;> rfl
  | ⟨25, _⟩ =>
    show (kernelRun1_A.sl.dma26_2 c i arg2 harg2 x0 fh0 hx) (ix2 (0 : Fin 1) l) = _
    unfold kernelRun1_A.sl.dma26_2
    refine delivered_row1 c i arg2 harg2 x0 fh0 2 25 inb_S1x8x32_S1x1x1_0_2_25 _ _ ?_ _ _ ?_ l <;> rfl
  | ⟨26, _⟩ =>
    show (kernelRun1_A.sl.dma27_2 c i arg2 harg2 x0 fh0 hx) (ix2 (0 : Fin 1) l) = _
    unfold kernelRun1_A.sl.dma27_2
    refine delivered_row1 c i arg2 harg2 x0 fh0 2 26 inb_S1x8x32_S1x1x1_0_2_26 _ _ ?_ _ _ ?_ l <;> rfl
  | ⟨27, _⟩ =>
    show (kernelRun1_A.sl.dma28_2 c i arg2 harg2 x0 fh0 hx) (ix2 (0 : Fin 1) l) = _
    unfold kernelRun1_A.sl.dma28_2
    refine delivered_row1 c i arg2 harg2 x0 fh0 2 27 inb_S1x8x32_S1x1x1_0_2_27 _ _ ?_ _ _ ?_ l <;> rfl
  | ⟨28, _⟩ =>
    show (kernelRun1_A.sl.dma29_2 c i arg2 harg2 x0 fh0 hx) (ix2 (0 : Fin 1) l) = _
    unfold kernelRun1_A.sl.dma29_2
    refine delivered_row1 c i arg2 harg2 x0 fh0 2 28 inb_S1x8x32_S1x1x1_0_2_28 _ _ ?_ _ _ ?_ l <;> rfl
  | ⟨29, _⟩ =>
    show (kernelRun1_A.sl.dma30_2 c i arg2 harg2 x0 fh0 hx) (ix2 (0 : Fin 1) l) = _
    unfold kernelRun1_A.sl.dma30_2
    refine delivered_row1 c i arg2 harg2 x0 fh0 2 29 inb_S1x8x32_S1x1x1_0_2_29 _ _ ?_ _ _ ?_ l <;> rfl
  | ⟨30, _⟩ =>
    show (kernelRun1_A.sl.dma31_2 c i arg2 harg2 x0 fh0 hx) (ix2 (0 : Fin 1) l) = _
    unfold kernelRun1_A.sl.dma31_2
    refine delivered_row1 c i arg2 harg2 x0 fh0 2 30 inb_S1x8x32_S1x1x1_0_2_30 _ _ ?_ _ _ ?_ l <;> rfl
  | ⟨31, _⟩ =>
    show (kernelRun1_A.sl.dma32_2 c i arg2 harg2 x0 fh0 hx) (ix2 (0 : Fin 1) l) = _
    unfold kernelRun1_A.sl.dma32_2
    refine delivered_row1 c i arg2 harg2 x0 fh0 2 31 inb_S1x8x32_S1x1x1_0_2_31 _ _ ?_ _ _ ?_ l <;> rfl
  | ⟨n + 32, h⟩ => exact absurd h (by omega)

/-- Slot k of the scratch after row 3's copies is the row of the gathered array that the row's k-th index word names. -/
theorem row3_slots1 (k : Fin 32) (l : Fin 128) :
    (kernelRun1_A.sl.v1932 c i arg2 harg2 x0 fh0 hx) (ix3 k (0 : Fin 1) l)
      = (fh0 : FVec F S4x16384x128 .f32) (ix3 (i 0 : Fin 4)
          (⟨((x0 : IVec S1x8x32 32) (ix3 (0 : Fin 1) (3 : Fin 8) k) : BitVec 32).toNat % 16384, Nat.mod_lt _ (by decide)⟩ : Fin 16384) l) := by
  unfold kernelRun1_A.sl.v1932
  rw [View.readAt_eq_ld, View.ld_unit_zero (S := S32x1x128) hz3]
  refine (read_scratchOf c _ k l).trans ?_
  match k with
  | ⟨0, _⟩ =>
    show (kernelRun1_A.sl.dma1_3 c i arg2 harg2 x0 fh0 hx) (ix2 (0 : Fin 1) l) = _
    unfold kernelRun1_A.sl.dma1_3
    refine delivered_row1 c i arg2 harg2 x0 fh0 3 0 inb_S1x8x32_S1x1x1_0_3_0 _ _ ?_ _ _ ?_ l <;> rfl
  | ⟨1, _⟩ =>
    show (kernelRun1_A.sl.dma2_3 c i arg2 harg2 x0 fh0 hx) (ix2 (0 : Fin 1) l) = _
    unfold kernelRun1_A.sl.dma2_3
    refine delivered_row1 c i arg2 harg2 x0 fh0 3 1 inb_S1x8x32_S1x1x1_0_3_1 _ _ ?_ _ _ ?_ l <;> rfl
  | ⟨2, _⟩ =>
    show (kernelRun1_A.sl.dma3_3 c i arg2 harg2 x0 fh0 hx) (ix2 (0 : Fin 1) l) = _
    unfold kernelRun1_A.sl.dma3_3
    refine delivered_row1 c i arg2 harg2 x0 fh0 3 2 inb_S1x8x32_S1x1x1_0_3_2 _ _ ?_ _ _ ?_ l <;> rfl
  | ⟨3, _⟩ =>
    show (kernelRun1_A.sl.dma4_3 c i arg2 harg2 x0 fh0 hx) (ix2 (0 : Fin 1) l) = _
    unfold kernelRun1_A.sl.dma4_3
    refine delivered_row1 c i arg2 harg2 x0 fh0 3 3 inb_S1x8x32_S1x1x1_0_3_3 _ _ ?_ _ _ ?_ l <;> rfl
  | ⟨4, _⟩ =>
    show (kernelRun1_A.sl.dma5_3 c i arg2 harg2 x0 fh0 hx) (ix2 (0 : Fin 1) l) = _
    unfold kernelRun1_A.sl.dma5_3
    refine delivered_row1 c i arg2 harg2 x0 fh0 3 4 inb_S1x8x32_S1x1x1_0_3_4 _ _ ?_ _ _ ?_ l <;> rfl
  | ⟨5, _⟩ =>
    show (kernelRun1_A.sl.dma6_3 c i arg2 harg2 x0 fh0 hx) (ix2 (0 : Fin 1) l) = _
    unfold kernelRun1_A.sl.dma6_3
    refine delivered_row1 c i arg2 harg2 x0 fh0 3 5 inb_S1x8x32_S1x1x1_0_3_5 _ _ ?_ _ _ ?_ l <;> rfl
  | ⟨6, _⟩ =>
    show (kernelRun1_A.sl.dma7_3 c i arg2 harg2 x0 fh0 hx) (ix2 (0 : Fin 1) l) = _
    unfold kernelRun1_A.sl.dma7_3
    refine delivered_row1 c i arg2 harg2 x0 fh0 3 6 inb_S1x8x32_S1x1x1_0_3_6 _ _ ?_ _ _ ?_ l <;> rfl
  | ⟨7, _⟩ =>
    show (kernelRun1_A.sl.dma8_3 c i arg2 harg2 x0 fh0 hx) (ix2 (0 : Fin 1) l) = _
    unfold kernelRun1_A.sl.dma8_3
    refine delivered_row1 c i arg2 harg2 x0 fh0 3 7 inb_S1x8x32_S1x1x1_0_3_7 _ _ ?_ _ _ ?_ l <;> rfl
  | ⟨8, _⟩ =>
    show (kernelRun1_A.sl.dma9_3 c i arg2 harg2 x0 fh0 hx) (ix2 (0 : Fin 1) l) = _
    unfold kernelRun1_A.sl.dma9_3
    refine delivered_row1 c i arg2 harg2 x0 fh0 3 8 inb_S1x8x32_S1x1x1_0_3_8 _ _ ?_ _ _ ?_ l <;> rfl
  | ⟨9, _⟩ =>
    show (kernelRun1_A.sl.dma10_3 c i arg2 harg2 x0 fh0 hx) (ix2 (0 : Fin 1) l) = _
    unfold kernelRun1_A.sl.dma10_3
    refine delivered_row1 c i arg2 harg2 x0 fh0 3 9 inb_S1x8x32_S1x1x1_0_3_9 _ _ ?_ _ _ ?_ l <;> rfl
  | ⟨10, _⟩ =>
    show (kernelRun1_A.sl.dma11_3 c i arg2 harg2 x0 fh0 hx) (ix2 (0 : Fin 1) l) = _
    unfold kernelRun1_A.sl.dma11_3
    refine delivered_row1 c i arg2 harg2 x0 fh0 3 10 inb_S1x8x32_S1x1x1_0_3_10 _ _ ?_ _ _ ?_ l <;> rfl
  | ⟨11, _⟩ =>
    show (kernelRun1_A.sl.dma12_3 c i arg2 harg2 x0 fh0 hx) (ix2 (0 : Fin 1) l) = _
    unfold kernelRun1_A.sl.dma12_3
    refine delivered_row1 c i arg2 harg2 x0 fh0 3 11 inb_S1x8x32_S1x1x1_0_3_11 _ _ ?_ _ _ ?_ l <;> rfl
  | ⟨12, _⟩ =>
    show (kernelRun1_A.sl.dma13_3 c i arg2 harg2 x0 fh0 hx) (ix2 (0 : Fin 1) l) = _
    unfold kernelRun1_A.sl.dma13_3
    refine delivered_row1 c i arg2 harg2 x0 fh0 3 12 inb_S1x8x32_S1x1x1_0_3_12 _ _ ?_ _ _ ?_ l <;> rfl
  | ⟨13, _⟩ =>
    show (kernelRun1_A.sl.dma14_3 c i arg2 harg2 x0 fh0 hx) (ix2 (0 : Fin 1) l) = _
    unfold kernelRun1_A.sl.dma14_3
    refine delivered_row1 c i arg2 harg2 x0 fh0 3 13 inb_S1x8x32_S1x1x1_0_3_13 _ _ ?_ _ _ ?_ l <;> rfl
  | ⟨14, _⟩ =>
    show (kernelRun1_A.sl.dma15_3 c i arg2 harg2 x0 fh0 hx) (ix2 (0 : Fin 1) l) = _
    unfold kernelRun1_A.sl.dma15_3
    refine delivered_row1 c i arg2 harg2 x0 fh0 3 14 inb_S1x8x32_S1x1x1_0_3_14 _ _ ?_ _ _ ?_ l <;> rfl
  | ⟨15, _⟩ =>
    show (kernelRun1_A.sl.dma16_3 c i arg2 harg2 x0 fh0 hx) (ix2 (0 : Fin 1) l) = _
    unfold kernelRun1_A.sl.dma16_3
    refine delivered_row1 c i arg2 harg2 x0 fh0 3 15 inb_S1x8x32_S1x1x1_0_3_15 _ _ ?_ _ _ ?_ l <;> rfl
  | ⟨16, _⟩ =>
    show (kernelRun1_A.sl.dma17_3 c i arg2 harg2 x0 fh0 hx) (ix2 (0 : Fin 1) l) = _
    unfold kernelRun1_A.sl.dma17_3
    refine delivered_row1 c i arg2 harg2 x0 fh0 3 16 inb_S1x8x32_S1x1x1_0_3_16 _ _ ?_ _ _ ?_ l <;> rfl
  | ⟨17, _⟩ =>
    show (kernelRun1_A.sl.dma18_3 c i arg2 harg2 x0 fh0 hx) (ix2 (0 : Fin 1) l) = _
    unfold kernelRun1_A.sl.dma18_3
    refine delivered_row1 c i arg2 harg2 x0 fh0 3 17 inb_S1x8x32_S1x1x1_0_3_17 _ _ ?_ _ _ ?_ l <;> rfl
  | ⟨18, _⟩ =>
    show (kernelRun1_A.sl.dma19_3 c i arg2 harg2 x0 fh0 hx) (ix2 (0 : Fin 1) l) = _
    unfold kernelRun1_A.sl.dma19_3
    refine delivered_row1 c i arg2 harg2 x0 fh0 3 18 inb_S1x8x32_S1x1x1_0_3_18 _ _ ?_ _ _ ?_ l <;> rfl
  | ⟨19, _⟩ =>
    show (kernelRun1_A.sl.dma20_3 c i arg2 harg2 x0 fh0 hx) (ix2 (0 : Fin 1) l) = _
    unfold kernelRun1_A.sl.dma20_3
    refine delivered_row1 c i arg2 harg2 x0 fh0 3 19 inb_S1x8x32_S1x1x1_0_3_19 _ _ ?_ _ _ ?_ l <;> rfl
  | ⟨20, _⟩ =>
    show (kernelRun1_A.sl.dma21_3 c i arg2 harg2 x0 fh0 hx) (ix2 (0 : Fin 1) l) = _
    unfold kernelRun1_A.sl.dma21_3
    refine delivered_row1 c i arg2 harg2 x0 fh0 3 20 inb_S1x8x32_S1x1x1_0_3_20 _ _ ?_ _ _ ?_ l <;> rfl
  | ⟨21, _⟩ =>
    show (kernelRun1_A.sl.dma22_3 c i arg2 harg2 x0 fh0 hx) (ix2 (0 : Fin 1) l) = _
    unfold kernelRun1_A.sl.dma22_3
    refine delivered_row1 c i arg2 harg2 x0 fh0 3 21 inb_S1x8x32_S1x1x1_0_3_21 _ _ ?_ _ _ ?_ l <;> rfl
  | ⟨22, _⟩ =>
    show (kernelRun1_A.sl.dma23_3 c i arg2 harg2 x0 fh0 hx) (ix2 (0 : Fin 1) l) = _
    unfold kernelRun1_A.sl.dma23_3
    refine delivered_row1 c i arg2 harg2 x0 fh0 3 22 inb_S1x8x32_S1x1x1_0_3_22 _ _ ?_ _ _ ?_ l <;> rfl
  | ⟨23, _⟩ =>
    show (kernelRun1_A.sl.dma24_3 c i arg2 harg2 x0 fh0 hx) (ix2 (0 : Fin 1) l) = _
    unfold kernelRun1_A.sl.dma24_3
    refine delivered_row1 c i arg2 harg2 x0 fh0 3 23 inb_S1x8x32_S1x1x1_0_3_23 _ _ ?_ _ _ ?_ l <;> rfl
  | ⟨24, _⟩ =>
    show (kernelRun1_A.sl.dma25_3 c i arg2 harg2 x0 fh0 hx) (ix2 (0 : Fin 1) l) = _
    unfold kernelRun1_A.sl.dma25_3
    refine delivered_row1 c i arg2 harg2 x0 fh0 3 24 inb_S1x8x32_S1x1x1_0_3_24 _ _ ?_ _ _ ?_ l <;> rfl
  | ⟨25, _⟩ =>
    show (kernelRun1_A.sl.dma26_3 c i arg2 harg2 x0 fh0 hx) (ix2 (0 : Fin 1) l) = _
    unfold kernelRun1_A.sl.dma26_3
    refine delivered_row1 c i arg2 harg2 x0 fh0 3 25 inb_S1x8x32_S1x1x1_0_3_25 _ _ ?_ _ _ ?_ l <;> rfl
  | ⟨26, _⟩ =>
    show (kernelRun1_A.sl.dma27_3 c i arg2 harg2 x0 fh0 hx) (ix2 (0 : Fin 1) l) = _
    unfold kernelRun1_A.sl.dma27_3
    refine delivered_row1 c i arg2 harg2 x0 fh0 3 26 inb_S1x8x32_S1x1x1_0_3_26 _ _ ?_ _ _ ?_ l <;> rfl
  | ⟨27, _⟩ =>
    show (kernelRun1_A.sl.dma28_3 c i arg2 harg2 x0 fh0 hx) (ix2 (0 : Fin 1) l) = _
    unfold kernelRun1_A.sl.dma28_3
    refine delivered_row1 c i arg2 harg2 x0 fh0 3 27 inb_S1x8x32_S1x1x1_0_3_27 _ _ ?_ _ _ ?_ l <;> rfl
  | ⟨28, _⟩ =>
    show (kernelRun1_A.sl.dma29_3 c i arg2 harg2 x0 fh0 hx) (ix2 (0 : Fin 1) l) = _
    unfold kernelRun1_A.sl.dma29_3
    refine delivered_row1 c i arg2 harg2 x0 fh0 3 28 inb_S1x8x32_S1x1x1_0_3_28 _ _ ?_ _ _ ?_ l <;> rfl
  | ⟨29, _⟩ =>
    show (kernelRun1_A.sl.dma30_3 c i arg2 harg2 x0 fh0 hx) (ix2 (0 : Fin 1) l) = _
    unfold kernelRun1_A.sl.dma30_3
    refine delivered_row1 c i arg2 harg2 x0 fh0 3 29 inb_S1x8x32_S1x1x1_0_3_29 _ _ ?_ _ _ ?_ l <;> rfl
  | ⟨30, _⟩ =>
    show (kernelRun1_A.sl.dma31_3 c i arg2 harg2 x0 fh0 hx) (ix2 (0 : Fin 1) l) = _
    unfold kernelRun1_A.sl.dma31_3
    refine delivered_row1 c i arg2 harg2 x0 fh0 3 30 inb_S1x8x32_S1x1x1_0_3_30 _ _ ?_ _ _ ?_ l <;> rfl
  | ⟨31, _⟩ =>
    show (kernelRun1_A.sl.dma32_3 c i arg2 harg2 x0 fh0 hx) (ix2 (0 : Fin 1) l) = _
    unfold kernelRun1_A.sl.dma32_3
    refine delivered_row1 c i arg2 harg2 x0 fh0 3 31 inb_S1x8x32_S1x1x1_0_3_31 _ _ ?_ _ _ ?_ l <;> rfl
  | ⟨n + 32, h⟩ => exact absurd h (by omega)

end Cert.KernelIdeal.Val

end
-- ==== Proof.KI.Val1RowsB.lean ====
import proofs.«405998_j76398878261701_2_alg».proof.Proof.KI.Val1Point

set_option maxRecDepth 65536

noncomputable section

namespace Cert.KernelIdeal.Val

open Cert.KernelIdeal Cert.KernelIdeal.Gen Cert.KernelIdeal.Fr Cert.KernelIdeal.Facts
open Idealize.ShloMosaic Idealize.ShloMosaic.TcCoe Idealize.ShloMosaic.ValueIdx Idealize.ShloMosaic.Tactic
open Idealize.SL.Sem

variable {F : FTy → Type} [FloatOps F]
variable (c : Dev nD) (i : grid1.Coords) (arg2 : Memref sig .tc .smem S1x8x32 .i32) (harg2 : arg2.IsWhole)
  (x0 : Vec F S1x8x32 .i32) (fh0 : HbBuf1 (F := F) c hbM1_0) (hx : ∀ j, (x0 j : BitVec 32).toNat + 1 ≤ 16384)

/-- Slot k of the scratch after row 4's copies is the row of the gathered array that the row's k-th index word names. -/
theorem row4_slots1 (k : Fin 32) (l : Fin 128) :
    (kernelRun1_A.sl.v2416 c i arg2 harg2 x0 fh0 hx) (ix3 k (0 : Fin 1) l)
      = (fh0 : FVec F S4x16384x128 .f32) (ix3 (i 0 : Fin 4)
          (⟨((x0 : IVec S1x8x32 32) (ix3 (0 : Fin 1) (4 : Fin 8) k) : BitVec 32).toNat % 16384, Nat.mod_lt _ (by decide)⟩ : Fin 16384) l) := by
  unfold kernelRun1_A.sl.v2416
  rw [View.readAt_eq_ld, View.ld_unit_zero (S := S32x1x128) hz3]
  refine (read_scratchOf c _ k l).trans ?_
  match k with
  | ⟨0, _⟩ =>
    show (kernelRun1_A.sl.dma1_4 c i arg2 harg2 x0 fh0 hx) (ix2 (0 : Fin 1) l) = _
    unfold kernelRun1_A.sl.dma1_4
    refine delivered_row1 c i arg2 harg2 x0 fh0 4 0 inb_S1x8x32_S1x1x1_0_4_0 _ _ ?_ _ _ ?_ l <;> rfl
  | ⟨1, _⟩ =>
    show (kernelRun1_A.sl.dma2_4 c i arg2 harg2 x0 fh0 hx) (ix2 (0 : Fin 1) l) = _
    unfold kernelRun1_A.sl.dma2_4
    refine delivered_row1 c i arg2 harg2 x0 fh0 4 1 inb_S1x8x32_S1x1x1_0_4_1 _ _ ?_ _ _ ?_ l <;> rfl
  | ⟨2, _⟩ =>
    show (kernelRun1_A.sl.dma3_4 c i arg2 harg2 x0 fh0 hx) (ix2 (0 : Fin 1) l) = _
    unfold kernelRun1_A.sl.dma3_4
    refine delivered_row1 c i arg2 harg2 x0 fh0 4 2 inb_S1x8x32_S1x1x1_0_4_2 _ _ ?_ _ _ ?_ l <;> rfl
  | ⟨3, _⟩ =>
    show (kernelRun1_A.sl.dma4_4 c i arg2 harg2 x0 fh0 hx) (ix2 (0 : Fin 1) l) = _
    unfold kernelRun1_A.sl.dma4_4
    refine delivered_row1 c i arg2 harg2 x0 fh0 4 3 inb_S1x8x32_S1x1x1_0_4_3 _ _ ?_ _ _ ?_ l <;> rfl
  | ⟨4, _⟩ =>
    show (kernelRun1_A.sl.dma5_4 c i arg2 harg2 x0 fh0 hx) (ix2 (0 : Fin 1) l) = _
    unfold kernelRun1_A.sl.dma5_4
    refine delivered_row1 c i arg2 harg2 x0 fh0 4 4 inb_S1x8x32_S1x1x1_0_4_4 _ _ ?_ _ _ ?_ l <;> rfl
  | ⟨5, _⟩ =>
    show (kernelRun1_A.sl.dma6_4 c i arg2 harg2 x0 fh0 hx) (ix2 (0 : Fin 1) l) = _
    unfold kernelRun1_A.sl.dma6_4
    refine delivered_row1 c i arg2 harg2 x0 fh0 4 5 inb_S1x8x32_S1x1x1_0_4_5 _ _ ?_ _ _ ?_ l <;> rfl
  | ⟨6, _⟩ =>
    show (kernelRun1_A.sl.dma7_4 c i arg2 harg2 x0 fh0 hx) (ix2 (0 : Fin 1) l) = _
    unfold kernelRun1_A.sl.dma7_4
    refine delivered_row1 c i arg2 harg2 x0 fh0 4 6 inb_S1x8x32_S1x1x1_0_4_6 _ _ ?_ _ _ ?_ l <;> rfl
  | ⟨7, _⟩ =>
    show (kernelRun1_A.sl.dma8_4 c i arg2 harg2 x0 fh0 hx) (ix2 (0 : Fin 1) l) = _
    unfold kernelRun1_A.sl.dma8_4
    refine delivered_row1 c i arg2 harg2 x0 fh0 4 7 inb_S1x8x32_S1x1x1_0_4_7 _ _ ?_ _ _ ?_ l <;> rfl
  | ⟨8, _⟩ =>
    show (kernelRun1_A.sl.dma9_4 c i arg2 harg2 x0 fh0 hx) (ix2 (0 : Fin 1) l) = _
    unfold kernelRun1_A.sl.dma9_4
    refine delivered_row1 c i arg2 harg2 x0 fh0 4 8 inb_S1x8x32_S1x1x1_0_4_8 _ _ ?_ _ _ ?_ l <;> rfl
  | ⟨9, _⟩ =>
    show (kernelRun1_A.sl.dma10_4 c i arg2 harg2 x0 fh0 hx) (ix2 (0 : Fin 1) l) = _
    unfold kernelRun1_A.sl.dma10_4
    refine delivered_row1 c i arg2 harg2 x0 fh0 4 9 inb_S1x8x32_S1x1x1_0_4_9 _ _ ?_ _ _ ?_ l <;> rfl
  | ⟨10, _⟩ =>
    show (kernelRun1_A.sl.dma11_4 c i arg2 harg2 x0 fh0 hx) (ix2 (0 : Fin 1) l) = _
    unfold kernelRun1_A.sl.dma11_4
    refine delivered_row1 c i arg2 harg2 x0 fh0 4 10 inb_S1x8x32_S1x1x1_0_4_10 _ _ ?_ _ _ ?_ l <;> rfl
  | ⟨11, _⟩ =>
    show (kernelRun1_A.sl.dma12_4 c i arg2 harg2 x0 fh0 hx) (ix2 (0 : Fin 1) l) = _
    unfold kernelRun1_A.sl.dma12_4
    refine delivered_row1 c i arg2 harg2 x0 fh0 4 11 inb_S1x8x32_S1x1x1_0_4_11 _ _ ?_ _ _ ?_ l <;> rfl
  | ⟨12, _⟩ =>
    show (kernelRun1_A.sl.dma13_4 c i arg2 harg2 x0 fh0 hx) (ix2 (0 : Fin 1) l) = _
    unfold kernelRun1_A.sl.dma13_4
    refine delivered_row1 c i arg2 harg2 x0 fh0 4 12 inb_S1x8x32_S1x1x1_0_4_12 _ _ ?_ _ _ ?_ l <;> rfl
  | ⟨13, _⟩ =>
    show (kernelRun1_A.sl.dma14_4 c i arg2 harg2 x0 fh0 hx) (ix2 (0 : Fin 1) l) = _
    unfold kernelRun1_A.sl.dma14_4
    refine delivered_row1 c i arg2 harg2 x0 fh0 4 13 inb_S1x8x32_S1x1x1_0_4_13 _ _ ?_ _ _ ?_ l <;> rfl
  | ⟨14, _⟩ =>
    show (kernelRun1_A.sl.dma15_4 c i arg2 harg2 x0 fh0 hx) (ix2 (0 : Fin 1) l) = _
    unfold kernelRun1_A.sl.dma15_4
    refine delivered_row1 c i arg2 harg2 x0 fh0 4 14 inb_S1x8x32_S1x1x1_0_4_14 _ _ ?_ _ _ ?_ l <;> rfl
  | ⟨15, _⟩ =>
    show (kernelRun1_A.sl.dma16_4 c i arg2 harg2 x0 fh0 hx) (ix2 (0 : Fin 1) l) = _
    unfold kernelRun1_A.sl.dma16_4
    refine delivered_row1 c i arg2 harg2 x0 fh0 4 15 inb_S1x8x32_S1x1x1_0_4_15 _ _ ?_ _ _ ?_ l <;> rfl
  | ⟨16, _⟩ =>
    show (kernelRun1_A.sl.dma17_4 c i arg2 harg2 x0 fh0 hx) (ix2 (0 : Fin 1) l) = _
    unfold kernelRun1_A.sl.dma17_4
    refine delivered_row1 c i arg2 harg2 x0 fh0 4 16 inb_S1x8x32_S1x1x1_0_4_16 _ _ ?_ _ _ ?_ l <;> rfl
  | ⟨17, _⟩ =>
    show (kernelRun1_A.sl.dma18_4 c i arg2 harg2 x0 fh0 hx) (ix2 (0 : Fin 1) l) = _
    unfold kernelRun1_A.sl.dma18_4
    refine delivered_row1 c i arg2 harg2 x0 fh0 4 17 inb_S1x8x32_S1x1x1_0_4_17 _ _ ?_ _ _ ?_ l <;> rfl
  | ⟨18, _⟩ =>
    show (kernelRun1_A.sl.dma19_4 c i arg2 harg2 x0 fh0 hx) (ix2 (0 : Fin 1) l) = _
    unfold kernelRun1_A.sl.dma19_4
    refine delivered_row1 c i arg2 harg2 x0 fh0 4 18 inb_S1x8x32_S1x1x1_0_4_18 _ _ ?_ _ _ ?_ l <;> rfl
  | ⟨19, _⟩ =>
    show (kernelRun1_A.sl.dma20_4 c i arg2 harg2 x0 fh0 hx) (ix2 (0 : Fin 1) l) = _
    unfold kernelRun1_A.sl.dma20_4
    refine delivered_row1 c i arg2 harg2 x0 fh0 4 19 inb_S1x8x32_S1x1x1_0_4_19 _ _ ?_ _ _ ?_ l <;> rfl
  | ⟨20, _⟩ =>
    show (kernelRun1_A.sl.dma21_4 c i arg2 harg2 x0 fh0 hx) (ix2 (0 : Fin 1) l) = _
    unfold kernelRun1_A.sl.dma21_4
    refine delivered_row1 c i arg2 harg2 x0 fh0 4 20 inb_S1x8x32_S1x1x1_0_4_20 _ _ ?_ _ _ ?_ l <;> rfl
  | ⟨21, _⟩ =>
    show (kernelRun1_A.sl.dma22_4 c i arg2 harg2 x0 fh0 hx) (ix2 (0 : Fin 1) l) = _
    unfold kernelRun1_A.sl.dma22_4
    refine delivered_row1 c i arg2 harg2 x0 fh0 4 21 inb_S1x8x32_S1x1x1_0_4_21 _ _ ?_ _ _ ?_ l <;> rfl
  | ⟨22, _⟩ =>
    show (kernelRun1_A.sl.dma23_4 c i arg2 harg2 x0 fh0 hx) (ix2 (0 : Fin 1) l) = _
    unfold kernelRun1_A.sl.dma23_4
    refine delivered_row1 c i arg2 harg2 x0 fh0 4 22 inb_S1x8x32_S1x1x1_0_4_22 _ _ ?_ _ _ ?_ l <;> rfl
  | ⟨23, _⟩ =>
    show (kernelRun1_A.sl.dma24_4 c i arg2 harg2 x0 fh0 hx) (ix2 (0 : Fin 1) l) = _
    unfold kernelRun1_A.sl.dma24_4
    refine delivered_row1 c i arg2 harg2 x0 fh0 4 23 inb_S1x8x32_S1x1x1_0_4_23 _ _ ?_ _ _ ?_ l <;> rfl
  | ⟨24, _⟩ =>
    show (kernelRun1_A.sl.dma25_4 c i arg2 harg2 x0 fh0 hx) (ix2 (0 : Fin 1) l) = _
    unfold kernelRun1_A.sl.dma25_4
    refine delivered_row1 c i arg2 harg2 x0 fh0 4 24 inb_S1x8x32_S1x1x1_0_4_24 _ _ ?_ _ _ ?_ l <;> rfl
  | ⟨25, _⟩ =>
    show (kernelRun1_A.sl.dma26_4 c i arg2 harg2 x0 fh0 hx) (ix2 (0 : Fin 1) l) = _
    unfold kernelRun1_A.sl.dma26_4
    refine delivered_row1 c i arg2 harg2 x0 fh0 4 25 inb_S1x8x32_S1x1x1_0_4_25 _ _ ?_ _ _ ?_ l <;> rfl
  | ⟨26, _⟩ =>
    show (kernelRun1_A.sl.dma27_4 c i arg2 harg2 x0 fh0 hx) (ix2 (0 : Fin 1) l) = _
    unfold kernelRun1_A.sl.dma27_4
    refine delivered_row1 c i arg2 harg2 x0 fh0 4 26 inb_S1x8x32_S1x1x1_0_4_26 _ _ ?_ _ _ ?_ l <;> rfl
  | ⟨27, _⟩ =>
    show (kernelRun1_A.sl.dma28_4 c i arg2 harg2 x0 fh0 hx) (ix2 (0 : Fin 1) l) = _
    unfold kernelRun1_A.sl.dma28_4
    refine delivered_row1 c i arg2 harg2 x0 fh0 4 27 inb_S1x8x32_S1x1x1_0_4_27 _ _ ?_ _ _ ?_ l <;> rfl
  | ⟨28, _⟩ =>
    show (kernelRun1_A.sl.dma29_4 c i arg2 harg2 x0 fh0 hx) (ix2 (0 : Fin 1) l) = _
    unfold kernelRun1_A.sl.dma29_4
    refine delivered_row1 c i arg2 harg2 x0 fh0 4 28 inb_S1x8x32_S1x1x1_0_4_28 _ _ ?_ _ _ ?_ l <;> rfl
  | ⟨29, _⟩ =>
    show (kernelRun1_A.sl.dma30_4 c i arg2 harg2 x0 fh0 hx) (ix2 (0 : Fin 1) l) = _
    unfold kernelRun1_A.sl.dma30_4
    refine delivered_row1 c i arg2 harg2 x0 fh0 4 29 inb_S1x8x32_S1x1x1_0_4_29 _ _ ?_ _ _ ?_ l <;> rfl
  | ⟨30, _⟩ =>
    show (kernelRun1_A.sl.dma31_4 c i arg2 harg2 x0 fh0 hx) (ix2 (0 : Fin 1) l) = _
    unfold kernelRun1_A.sl.dma31_4
    refine delivered_row1 c i arg2 harg2 x0 fh0 4 30 inb_S1x8x32_S1x1x1_0_4_30 _ _ ?_ _ _ ?_ l <;> rfl
  | ⟨31, _⟩ =>
    show (kernelRun1_A.sl.dma32_4 c i arg2 harg2 x0 fh0 hx) (ix2 (0 : Fin 1) l) = _
    unfold kernelRun1_A.sl.dma32_4
    refine delivered_row1 c i arg2 harg2 x0 fh0 4 31 inb_S1x8x32_S1x1x1_0_4_31 _ _ ?_ _ _ ?_ l <;> rfl
  | ⟨n + 32, h⟩ => exact absurd h (by omega)

/-- Slot k of the scratch after row 5's copies is the row of the gathered array that the row's k-th index word names. -/
theorem row5_slots1 (k : Fin 32) (l : Fin 128) :
    (kernelRun1_A.sl.v2900 c i arg2 harg2 x0 fh0 hx) (ix3 k (0 : Fin 1) l)
      = (fh0 : FVec F S4x16384x128 .f32) (ix3 (i 0 : Fin 4)
          (⟨((x0 : IVec S1x8x32 32) (ix3 (0 : Fin 1) (5 : Fin 8) k) : BitVec 32).toNat % 16384, Nat.mod_lt _ (by decide)⟩ : Fin 16384) l) := by
  unfold kernelRun1_A.sl.v2900
  rw [View.readAt_eq_ld, View.ld_unit_zero (S := S32x1x128) hz3]
  refine (read_scratchOf c _ k l).trans ?_
  match k with
  | ⟨0, _⟩ =>
    show (kernelRun1_A.sl.dma1_5 c i arg2 harg2 x0 fh0 hx) (ix2 (0 : Fin 1) l) = _
    unfold kernelRun1_A.sl.dma1_5
    refine delivered_row1 c i arg2 harg2 x0 fh0 5 0 inb_S1x8x32_S1x1x1_0_5_0 _ _ ?_ _ _ ?_ l <;> rfl
  | ⟨1, _⟩ =>
    show (kernelRun1_A.sl.dma2_5 c i arg2 harg2 x0 fh0 hx) (ix2 (0 : Fin 1) l) = _
    unfold kernelRun1_A.sl.dma2_5
    refine delivered_row1 c i arg2 harg2 x0 fh0 5 1 inb_S1x8x32_S1x1x1_0_5_1 _ _ ?_ _ _ ?_ l <;> rfl
  | ⟨2, _⟩ =>
    show (kernelRun1_A.sl.dma3_5 c i arg2 harg2 x0 fh0 hx) (ix2 (0 : Fin 1) l) = _
    unfold kernelRun1_A.sl.dma3_5
    refine delivered_row1 c i arg2 harg2 x0 fh0 5 2 inb_S1x8x32_S1x1x1_0_5_2 _ _ ?_ _ _ ?_ l <;> rfl
  | ⟨3, _⟩ =>
    show (kernelRun1_A.sl.dma4_5 c i arg2 harg2 x0 fh0 hx) (ix2 (0 : Fin 1) l) = _
    unfold kernelRun1_A.sl.dma4_5
    refine delivered_row1 c i arg2 harg2 x0 fh0 5 3 inb_S1x8x32_S1x1x1_0_5_3 _ _ ?_ _ _ ?_ l <;> rfl
  | ⟨4, _⟩ =>
    show (kernelRun1_A.sl.dma5_5 c i arg2 harg2 x0 fh0 hx) (ix2 (0 : Fin 1) l) = _
    unfold kernelRun1_A.sl.dma5_5
    refine delivered_row1 c i arg2 harg2 x0 fh0 5 4 inb_S1x8x32_S1x1x1_0_5_4 _ _ ?_ _ _ ?_ l <;> rfl
  | ⟨5, _⟩ =>
    show (kernelRun1_A.sl.dma6_5 c i arg2 harg2 x0 fh0 hx) (ix2 (0 : Fin 1) l) = _
    unfold kernelRun1_A.sl.dma6_5
    refine delivered_row1 c i arg2 harg2 x0 fh0 5 5 inb_S1x8x32_S1x1x1_0_5_5 _ _ ?_ _ _ ?_ l <;> rfl
  | ⟨6, _⟩ =>
    show (kernelRun1_A.sl.dma7_5 c i arg2 harg2 x0 fh0 hx) (ix2 (0 : Fin 1) l) = _
    unfold kernelRun1_A.sl.dma7_5
    refine delivered_row1 c i arg2 harg2 x0 fh0 5 6 inb_S1x8x32_S1x1x1_0_5_6 _ _ ?_ _ _ ?_ l <;> rfl
  | ⟨7, _⟩ =>
    show (kernelRun1_A.sl.dma8_5 c i arg2 harg2 x0 fh0 hx) (ix2 (0 : Fin 1) l) = _
    unfold kernelRun1_A.sl.dma8_5
    refine delivered_row1 c i arg2 harg2 x0 fh0 5 7 inb_S1x8x32_S1x1x1_0_5_7 _ _ ?_ _ _ ?_ l <;> rfl
  | ⟨8, _⟩ =>
    show (kernelRun1_A.sl.dma9_5 c i arg2 harg2 x0 fh0 hx) (ix2 (0 : Fin 1) l) = _
    unfold kernelRun1_A.sl.dma9_5
    refine delivered_row1 c i arg2 harg2 x0 fh0 5 8 inb_S1x8x32_S1x1x1_0_5_8 _ _ ?_ _ _ ?_ l <;> rfl
  | ⟨9, _⟩ =>
    show (kernelRun1_A.sl.dma10_5 c i arg2 harg2 x0 fh0 hx) (ix2 (0 : Fin 1) l) = _
    unfold kernelRun1_A.sl.dma10_5
    refine delivered_row1 c i arg2 harg2 x0 fh0 5 9 inb_S1x8x32_S1x1x1_0_5_9 _ _ ?_ _ _ ?_ l <;> rfl
  | ⟨10, _⟩ =>
    show (kernelRun1_A.sl.dma11_5 c i arg2 harg2 x0 fh0 hx) (ix2 (0 : Fin 1) l) = _
    unfold kernelRun1_A.sl.dma11_5
    refine delivered_row1 c i arg2 harg2 x0 fh0 5 10 inb_S1x8x32_S1x1x1_0_5_10 _ _ ?_ _ _ ?_ l <;> rfl
  | ⟨11, _⟩ =>
    show (kernelRun1_A.sl.dma12_5 c i arg2 harg2 x0 fh0 hx) (ix2 (0 : Fin 1) l) = _
    unfold kernelRun1_A.sl.dma12_5
    refine delivered_row1 c i arg2 harg2 x0 fh0 5 11 inb_S1x8x32_S1x1x1_0_5_11 _ _ ?_ _ _ ?_ l <;> rfl
  | ⟨12, _⟩ =>
    show (kernelRun1_A.sl.dma13_5 c i arg2 harg2 x0 fh0 hx) (ix2 (0 : Fin 1) l) = _
    unfold kernelRun1_A.sl.dma13_5
    refine delivered_row1 c i arg2 harg2 x0 fh0 5 12 inb_S1x8x32_S1x1x1_0_5_12 _ _ ?_ _ _ ?_ l <;> rfl
  | ⟨13, _⟩ =>
    show (kernelRun1_A.sl.dma14_5 c i arg2 harg2 x0 fh0 hx) (ix2 (0 : Fin 1) l) = _
    unfold kernelRun1_A.sl.dma14_5
    refine delivered_row1 c i arg2 harg2 x0 fh0 5 13 inb_S1x8x32_S1x1x1_0_5_13 _ _ ?_ _ _ ?_ l <;> rfl
  | ⟨14, _⟩ =>
    show (kernelRun1_A.sl.dma15_5 c i arg2 harg2 x0 fh0 hx) (ix2 (0 : Fin 1) l) = _
    unfold kernelRun1_A.sl.dma15_5
    refine delivered_row1 c i arg2 harg2 x0 fh0 5 14 inb_S1x8x32_S1x1x1_0_5_14 _ _ ?_ _ _ ?_ l <;> rfl
  | ⟨15, _⟩ =>
    show (kernelRun1_A.sl.dma16_5 c i arg2 harg2 x0 fh0 hx) (ix2 (0 : Fin 1) l) = _
    unfold kernelRun1_A.sl.dma16_5
    refine delivered_row1 c i arg2 harg2 x0 fh0 5 15 inb_S1x8x32_S1x1x1_0_5_15 _ _ ?_ _ _ ?_ l <;> rfl
  | ⟨16, _⟩ =>
    show (kernelRun1_A.sl.dma17_5 c i arg2 harg2 x0 fh0 hx) (ix2 (0 : Fin 1) l) = _
    unfold kernelRun1_A.sl.dma17_5
    refine delivered_row1 c i arg2 harg2 x0 fh0 5 16 inb_S1x8x32_S1x1x1_0_5_16 _ _ ?_ _ _ ?_ l <;> rfl
  | ⟨17, _⟩ =>
    show (kernelRun1_A.sl.dma18_5 c i arg2 harg2 x0 fh0 hx) (ix2 (0 : Fin 1) l) = _
    unfold kernelRun1_A.sl.dma18_5
    refine delivered_row1 c i arg2 harg2 x0 fh0 5 17 inb_S1x8x32_S1x1x1_0_5_17 _ _ ?_ _ _ ?_ l <;> rfl
  | ⟨18, _⟩ =>
    show (kernelRun1_A.sl.dma19_5 c i arg2 harg2 x0 fh0 hx) (ix2 (0 : Fin 1) l) = _
    unfold kernelRun1_A.sl.dma19_5
    refine delivered_row1 c i arg2 harg2 x0 fh0 5 18 inb_S1x8x32_S1x1x1_0_5_18 _ _ ?_ _ _ ?_ l <;> rfl
  | ⟨19, _⟩ =>
    show (kernelRun1_A.sl.dma20_5 c i arg2 harg2 x0 fh0 hx) (ix2 (0 : Fin 1) l) = _
    unfold kernelRun1_A.sl.dma20_5
    refine delivered_row1 c i arg2 harg2 x0 fh0 5 19 inb_S1x8x32_S1x1x1_0_5_19 _ _ ?_ _ _ ?_ l <;> rfl
  | ⟨20, _⟩ =>
    show (kernelRun1_A.sl.dma21_5 c i arg2 harg2 x0 fh0 hx) (ix2 (0 : Fin 1) l) = _
    unfold kernelRun1_A.sl.dma21_5
    refine delivered_row1 c i arg2 harg2 x0 fh0 5 20 inb_S1x8x32_S1x1x1_0_5_20 _ _ ?_ _ _ ?_ l <;> rfl
  | ⟨21, _⟩ =>
    show (kernelRun1_A.sl.dma22_5 c i arg2 harg2 x0 fh0 hx) (ix2 (0 : Fin 1) l) = _
    unfold kernelRun1_A.sl.dma22_5
    refine delivered_row1 c i arg2 harg2 x0 fh0 5 21 inb_S1x8x32_S1x1x1_0_5_21 _ _ ?_ _ _ ?_ l <;> rfl
  | ⟨22, _⟩ =>
    show (kernelRun1_A.sl.dma23_5 c i arg2 harg2 x0 fh0 hx) (ix2 (0 : Fin 1) l) = _
    unfold kernelRun1_A.sl.dma23_5
    refine delivered_row1 c i arg2 harg2 x0 fh0 5 22 inb_S1x8x32_S1x1x1_0_5_22 _ _ ?_ _ _ ?_ l <;> rfl
  | ⟨23, _⟩ =>
    show (kernelRun1_A.sl.dma24_5 c i arg2 harg2 x0 fh0 hx) (ix2 (0 : Fin 1) l) = _
    unfold kernelRun1_A.sl.dma24_5
    refine delivered_row1 c i arg2 harg2 x0 fh0 5 23 inb_S1x8x32_S1x1x1_0_5_23 _ _ ?_ _ _ ?_ l <;> rfl
  | ⟨24, _⟩ =>
    show (kernelRun1_A.sl.dma25_5 c i arg2 harg2 x0 fh0 hx) (ix2 (0 : Fin 1) l) = _
    unfold kernelRun1_A.sl.dma25_5
    refine delivered_row1 c i arg2 harg2 x0 fh0 5 24 inb_S1x8x32_S1x1x1_0_5_24 _ _ ?_ _ _ ?_ l <;> rfl
  | ⟨25, _⟩ =>
    show (kernelRun1_A.sl.dma26_5 c i arg2 harg2 x0 fh0 hx) (ix2 (0 : Fin 1) l) = _
    unfold kernelRun1_A.sl.dma26_5
    refine delivered_row1 c i arg2 harg2 x0 fh0 5 25 inb_S1x8x32_S1x1x1_0_5_25 _ _ ?_ _ _ ?_ l <;> rfl
  | ⟨26, _⟩ =>
    show (kernelRun1_A.sl.dma27_5 c i arg2 harg2 x0 fh0 hx) (ix2 (0 : Fin 1) l) = _
    unfold kernelRun1_A.sl.dma27_5
    refine delivered_row1 c i arg2 harg2 x0 fh0 5 26 inb_S1x8x32_S1x1x1_0_5_26 _ _ ?_ _ _ ?_ l <;> rfl
  | ⟨27, _⟩ =>
    show (kernelRun1_A.sl.dma28_5 c i arg2 harg2 x0 fh0 hx) (ix2 (0 : Fin 1) l) = _
    unfold kernelRun1_A.sl.dma28_5
    refine delivered_row1 c i arg2 harg2 x0 fh0 5 27 inb_S1x8x32_S1x1x1_0_5_27 _ _ ?_ _ _ ?_ l <;> rfl
  | ⟨28, _⟩ =>
    show (kernelRun1_A.sl.dma29_5 c i arg2 harg2 x0 fh0 hx) (ix2 (0 : Fin 1) l) = _
    unfold kernelRun1_A.sl.dma29_5
    refine delivered_row1 c i arg2 harg2 x0 fh0 5 28 inb_S1x8x32_S1x1x1_0_5_28 _ _ ?_ _ _ ?_ l <;> rfl
  | ⟨29, _⟩ =>
    show (kernelRun1_A.sl.dma30_5 c i arg2 harg2 x0 fh0 hx) (ix2 (0 : Fin 1) l) = _
    unfold kernelRun1_A.sl.dma30_5
    refine delivered_row1 c i arg2 harg2 x0 fh0 5 29 inb_S1x8x32_S1x1x1_0_5_29 _ _ ?_ _ _ ?_ l <;> rfl
  | ⟨30, _⟩ =>
    show (kernelRun1_A.sl.dma31_5 c i arg2 harg2 x0 fh0 hx) (ix2 (0 : Fin 1) l) = _
    unfold kernelRun1_A.sl.dma31_5
    refine delivered_row1 c i arg2 harg2 x0 fh0 5 30 inb_S1x8x32_S1x1x1_0_5_30 _ _ ?_ _ _ ?_ l <;> rfl
  | ⟨31, _⟩ =>
    show (kernelRun1_A.sl.dma32_5 c i arg2 harg2 x0 fh0 hx) (ix2 (0 : Fin 1) l) = _
    unfold kernelRun1_A.sl.dma32_5
    refine delivered_row1 c i arg2 harg2 x0 fh0 5 31 inb_S1x8x32_S1x1x1_0_5_31 _ _ ?_ _ _ ?_ l <;> rfl
  | ⟨n + 32, h⟩ => exact absurd h (by omega)

/-- Slot k of the scratch after row 6's copies is the row of the gathered array that the row's k-th index word names. -/
theorem row6_slots1 (k : Fin 32) (l : Fin 128) :
    (kernelRun1_A.sl.v3384 c i arg2 harg2 x0 fh0 hx) (ix3 k (0 : Fin 1) l)
      = (fh0 : FVec F S4x16384x128 .f32) (ix3 (i 0 : Fin 4)
          (⟨((x0 : IVec S1x8x32 32) (ix3 (0 : Fin 1) (6 : Fin 8) k) : BitVec 32).toNat % 16384, Nat.mod_lt _ (by decide)⟩ : Fin 16384) l) := by
  unfold kernelRun1_A.sl.v3384
  rw [View.readAt_eq_ld, View.ld_unit_zero (S := S32x1x128) hz3]
  refine (read_scratchOf c _ k l).trans ?_
  match k with
  | ⟨0, _⟩ =>
    show (kernelRun1_A.sl.dma1_6 c i arg2 harg2 x0 fh0 hx) (ix2 (0 : Fin 1) l) = _
    unfold kernelRun1_A.sl.dma1_6
    refine delivered_row1 c i arg2 harg2 x0 fh0 6 0 inb_S1x8x32_S1x1x1_0_6_0 _ _ ?_ _ _ ?_ l <;> rfl
  | ⟨1, _⟩ =>
    show (kernelRun1_A.sl.dma2_6 c i arg2 harg2 x0 fh0 hx) (ix2 (0 : Fin 1) l) = _
    unfold kernelRun1_A.sl.dma2_6
    refine delivered_row1 c i arg2 harg2 x0 fh0 6 1 inb_S1x8x32_S1x1x1_0_6_1 _ _ ?_ _ _ ?_ l <;> rfl
  | ⟨2, _⟩ =>
    show (kernelRun1_A.sl.dma3_6 c i arg2 harg2 x0 fh0 hx) (ix2 (0 : Fin 1) l) = _
    unfold kernelRun1_A.sl.dma3_6
    refine delivered_row1 c i arg2 harg2 x0 fh0 6 2 inb_S1x8x32_S1x1x1_0_6_2 _ _ ?_ _ _ ?_ l <;> rfl
  | ⟨3, _⟩ =>
    show (kernelRun1_A.sl.dma4_6 c i arg2 harg2 x0 fh0 hx) (ix2 (0 : Fin 1) l) = _
    unfold kernelRun1_A.sl.dma4_6
    refine delivered_row1 c i arg2 harg2 x0 fh0 6 3 inb_S1x8x32_S1x1x1_0_6_3 _ _ ?_ _ _ ?_ l <;> rfl
  | ⟨4, _⟩ =>
    show (kernelRun1_A.sl.dma5_6 c i arg2 harg2 x0 fh0 hx) (ix2 (0 : Fin 1) l) = _
    unfold kernelRun1_A.sl.dma5_6
    refine delivered_row1 c i arg2 harg2 x0 fh0 6 4 inb_S1x8x32_S1x1x1_0_6_4 _ _ ?_ _ _ ?_ l <;> rfl
  | ⟨5, _⟩ =>
    show (kernelRun1_A.sl.dma6_6 c i arg2 harg2 x0 fh0 hx) (ix2 (0 : Fin 1) l) = _
    unfold kernelRun1_A.sl.dma6_6
    refine delivered_row1 c i arg2 harg2 x0 fh0 6 5 inb_S1x8x32_S1x1x1_0_6_5 _ _ ?_ _ _ ?_ l <;> rfl
  | ⟨6, _⟩ =>
    show (kernelRun1_A.sl.dma7_6 c i arg2 harg2 x0 fh0 hx) (ix2 (0 : Fin 1) l) = _
    unfold kernelRun1_A.sl.dma7_6
    refine delivered_row1 c i arg2 harg2 x0 fh0 6 6 inb_S1x8x32_S1x1x1_0_6_6 _ _ ?_ _ _ ?_ l <;> rfl
  | ⟨7, _⟩ =>
    show (kernelRun1_A.sl.dma8_6 c i arg2 harg2 x0 fh0 hx) (ix2 (0 : Fin 1) l) = _
    unfold kernelRun1_A.sl.dma8_6
    refine delivered_row1 c i arg2 harg2 x0 fh0 6 7 inb_S1x8x32_S1x1x1_0_6_7 _ _ ?_ _ _ ?_ l <;> rfl
  | ⟨8, _⟩ =>
    show (kernelRun1_A.sl.dma9_6 c i arg2 harg2 x0 fh0 hx) (ix2 (0 : Fin 1) l) = _
    unfold kernelRun1_A.sl.dma9_6
    refine delivered_row1 c i arg2 harg2 x0 fh0 6 8 inb_S1x8x32_S1x1x1_0_6_8 _ _ ?_ _ _ ?_ l <;> rfl
  | ⟨9, _⟩ =>
    show (kernelRun1_A.sl.dma10_6 c i arg2 harg2 x0 fh0 hx) (ix2 (0 : Fin 1) l) = _
    unfold kernelRun1_A.sl.dma10_6
    refine delivered_row1 c i arg2 harg2 x0 fh0 6 9 inb_S1x8x32_S1x1x1_0_6_9 _ _ ?_ _ _ ?_ l <;> rfl
  | ⟨10, _⟩ =>
    show (kernelRun1_A.sl.dma11_6 c i arg2 harg2 x0 fh0 hx) (ix2 (0 : Fin 1) l) = _
    unfold kernelRun1_A.sl.dma11_6
    refine delivered_row1 c i arg2 harg2 x0 fh0 6 10 inb_S1x8x32_S1x1x1_0_6_10 _ _ ?_ _ _ ?_ l <;> rfl
  | ⟨11, _⟩ =>
    show (kernelRun1_A.sl.dma12_6 c i arg2 harg2 x0 fh0 hx) (ix2 (0 : Fin 1) l) = _
    unfold kernelRun1_A.sl.dma12_6
    refine delivered_row1 c i arg2 harg2 x0 fh0 6 11 inb_S1x8x32_S1x1x1_0_6_11 _ _ ?_ _ _ ?_ l <;> rfl
  | ⟨12, _⟩ =>
    show (kernelRun1_A.sl.dma13_6 c i arg2 harg2 x0 fh0 hx) (ix2 (0 : Fin 1) l) = _
    unfold kernelRun1_A.sl.dma13_6
    refine delivered_row1 c i arg2 harg2 x0 fh0 6 12 inb_S1x8x32_S1x1x1_0_6_12 _ _ ?_ _ _ ?_ l <;> rfl
  | ⟨13, _⟩ =>
    show (kernelRun1_A.sl.dma14_6 c i arg2 harg2 x0 fh0 hx) (ix2 (0 : Fin 1) l) = _
    unfold kernelRun1_A.sl.dma14_6
    refine delivered_row1 c i arg2 harg2 x0 fh0 6 13 inb_S1x8x32_S1x1x1_0_6_13 _ _ ?_ _ _ ?_ l <;> rfl
  | ⟨14, _⟩ =>
    show (kernelRun1_A.sl.dma15_6 c i arg2 harg2 x0 fh0 hx) (ix2 (0 : Fin 1) l) = _
    unfold kernelRun1_A.sl.dma15_6
    refine delivered_row1 c i arg2 harg2 x0 fh0 6 14 inb_S1x8x32_S1x1x1_0_6_14 _ _ ?_ _ _ ?_ l <;> rfl
  | ⟨15, _⟩ =>
    show (kernelRun1_A.sl.dma16_6 c i arg2 harg2 x0 fh0 hx) (ix2 (0 : Fin 1) l) = _
    unfold kernelRun1_A.sl.dma16_6
    refine delivered_row1 c i arg2 harg2 x0 fh0 6 15 inb_S1x8x32_S1x1x1_0_6_15 _ _ ?_ _ _ ?_ l <;> rfl
  | ⟨16, _⟩ =>
    show (kernelRun1_A.sl.dma17_6 c i arg2 harg2 x0 fh0 hx) (ix2 (0 : Fin 1) l) = _
    unfold kernelRun1_A.sl.dma17_6
    refine delivered_row1 c i arg2 harg2 x0 fh0 6 16 inb_S1x8x32_S1x1x1_0_6_16 _ _ ?_ _ _ ?_ l <;> rfl
  | ⟨17, _⟩ =>
    show (kernelRun1_A.sl.dma18_6 c i arg2 harg2 x0 fh0 hx) (ix2 (0 : Fin 1) l) = _
    unfold kernelRun1_A.sl.dma18_6
    refine delivered_row1 c i arg2 harg2 x0 fh0 6 17 inb_S1x8x32_S1x1x1_0_6_17 _ _ ?_ _ _ ?_ l <;> rfl
  | ⟨18, _⟩ =>
    show (kernelRun1_A.sl.dma19_6 c i arg2 harg2 x0 fh0 hx) (ix2 (0 : Fin 1) l) = _
    unfold kernelRun1_A.sl.dma19_6
    refine delivered_row1 c i arg2 harg2 x0 fh0 6 18 inb_S1x8x32_S1x1x1_0_6_18 _ _ ?_ _ _ ?_ l <;> rfl
  | ⟨19, _⟩ =>
    show (kernelRun1_A.sl.dma20_6 c i arg2 harg2 x0 fh0 hx) (ix2 (0 : Fin 1) l) = _
    unfold kernelRun1_A.sl.dma20_6
    refine delivered_row1 c i arg2 harg2 x0 fh0 6 19 inb_S1x8x32_S1x1x1_0_6_19 _ _ ?_ _ _ ?_ l <;> rfl
  | ⟨20, _⟩ =>
    show (kernelRun1_A.sl.dma21_6 c i arg2 harg2 x0 fh0 hx) (ix2 (0 : Fin 1) l) = _
    unfold kernelRun1_A.sl.dma21_6
    refine delivered_row1 c i arg2 harg2 x0 fh0 6 20 inb_S1x8x32_S1x1x1_0_6_20 _ _ ?_ _ _ ?_ l <;> rfl
  | ⟨21, _⟩ =>
    show (kernelRun1_A.sl.dma22_6 c i arg2 harg2 x0 fh0 hx) (ix2 (0 : Fin 1) l) = _
    unfold kernelRun1_A.sl.dma22_6
    refine delivered_row1 c i arg2 harg2 x0 fh0 6 21 inb_S1x8x32_S1x1x1_0_6_21 _ _ ?_ _ _ ?_ l <;> rfl
  | ⟨22, _⟩ =>
    show (kernelRun1_A.sl.dma23_6 c i arg2 harg2 x0 fh0 hx) (ix2 (0 : Fin 1) l) = _
    unfold kernelRun1_A.sl.dma23_6
    refine delivered_row1 c i arg2 harg2 x0 fh0 6 22 inb_S1x8x32_S1x1x1_0_6_22 _ _ ?_ _ _ ?_ l <;> rfl
  | ⟨23, _⟩ =>
    show (kernelRun1_A.sl.dma24_6 c i arg2 harg2 x0 fh0 hx) (ix2 (0 : Fin 1) l) = _
    unfold kernelRun1_A.sl.dma24_6
    refine delivered_row1 c i arg2 harg2 x0 fh0 6 23 inb_S1x8x32_S1x1x1_0_6_23 _ _ ?_ _ _ ?_ l <;> rfl
  | ⟨24, _⟩ =>
    show (kernelRun1_A.sl.dma25_6 c i arg2 harg2 x0 fh0 hx) (ix2 (0 : Fin 1) l) = _
    unfold kernelRun1_A.sl.dma25_6
    refine delivered_row1 c i arg2 harg2 x0 fh0 6 24 inb_S1x8x32_S1x1x1_0_6_24 _ _ ?_ _ _ ?_ l <;> rfl
  | ⟨25, _⟩ =>
    show (kernelRun1_A.sl.dma26_6 c i arg2 harg2 x0 fh0 hx) (ix2 (0 : Fin 1) l) = _
    unfold kernelRun1_A.sl.dma26_6
    refine delivered_row1 c i arg2 harg2 x0 fh0 6 25 inb_S1x8x32_S1x1x1_0_6_25 _ _ ?_ _ _ ?_ l <;> rfl
  | ⟨26, _⟩ =>
    show (kernelRun1_A.sl.dma27_6 c i arg2 harg2 x0 fh0 hx) (ix2 (0 : Fin 1) l) = _
    unfold kernelRun1_A.sl.dma27_6
    refine delivered_row1 c i arg2 harg2 x0 fh0 6 26 inb_S1x8x32_S1x1x1_0_6_26 _ _ ?_ _ _ ?_ l <;> rfl
  | ⟨27, _⟩ =>
    show (kernelRun1_A.sl.dma28_6 c i arg2 harg2 x0 fh0 hx) (ix2 (0 : Fin 1) l) = _
    unfold kernelRun1_A.sl.dma28_6
    refine delivered_row1 c i arg2 harg2 x0 fh0 6 27 inb_S1x8x32_S1x1x1_0_6_27 _ _ ?_ _ _ ?_ l <;> rfl
  | ⟨28, _⟩ =>
    show (kernelRun1_A.sl.dma29_6 c i arg2 harg2 x0 fh0 hx) (ix2 (0 : Fin 1) l) = _
    unfold kernelRun1_A.sl.dma29_6
    refine delivered_row1 c i arg2 harg2 x0 fh0 6 28 inb_S1x8x32_S1x1x1_0_6_28 _ _ ?_ _ _ ?_ l <;> rfl
  | ⟨29, _⟩ =>
    show (kernelRun1_A.sl.dma30_6 c i arg2 harg2 x0 fh0 hx) (ix2 (0 : Fin 1) l) = _
    unfold kernelRun1_A.sl.dma30_6
    refine delivered_row1 c i arg2 harg2 x0 fh0 6 29 inb_S1x8x32_S1x1x1_0_6_29 _ _ ?_ _ _ ?_ l <;> rfl
  | ⟨30, _⟩ =>
    show (kernelRun1_A.sl.dma31_6 c i arg2 harg2 x0 fh0 hx) (ix2 (0 : Fin 1) l) = _
    unfold kernelRun1_A.sl.dma31_6
    refine delivered_row1 c i arg2 harg2 x0 fh0 6 30 inb_S1x8x32_S1x1x1_0_6_30 _ _ ?_ _ _ ?_ l <;> rfl
  | ⟨31, _⟩ =>
    show (kernelRun1_A.sl.dma32_6 c i arg2 harg2 x0 fh0 hx) (ix2 (0 : Fin 1) l) = _
    unfold kernelRun1_A.sl.dma32_6
    refine delivered_row1 c i arg2 harg2 x0 fh0 6 31 inb_S1x8x32_S1x1x1_0_6_31 _ _ ?_ _ _ ?_ l <;> rfl
  | ⟨n + 32, h⟩ => exact absurd h (by omega)

/-- Slot k of the scratch after row 7's copies is the row of the gathered array that the row's k-th index word names. -/
theorem row7_slots1 (k : Fin 32) (l : Fin 128) :
    (kernelRun1_A.sl.v3868 c i arg2 harg2 x0 fh0 hx) (ix3 k (0 : Fin 1) l)
      = (fh0 : FVec F S4x16384x128 .f32) (ix3 (i 0 : Fin 4)
          (⟨((x0 : IVec S1x8x32 32) (ix3 (0 : Fin 1) (7 : Fin 8) k) : BitVec 32).toNat % 16384, Nat.mod_lt _ (by decide)⟩ : Fin 16384) l) := by
  unfold kernelRun1_A.sl.v3868
  rw [View.readAt_eq_ld, View.ld_unit_zero (S := S32x1x128) hz3]
  refine (read_scratchOf c _ k l).trans ?_
  match k with
  | ⟨0, _⟩ =>
    show (kernelRun1_A.sl.dma1_7 c i arg2 harg2 x0 fh0 hx) (ix2 (0 : Fin 1) l) = _
    unfold kernelRun1_A.sl.dma1_7
    refine delivered_row1 c i arg2 harg2 x0 fh0 7 0 inb_S1x8x32_S1x1x1_0_7_0 _ _ ?_ _ _ ?_ l <;> rfl
  | ⟨1, _⟩ =>
    show (kernelRun1_A.sl.dma2_7 c i arg2 harg2 x0 fh0 hx) (ix2 (0 : Fin 1) l) = _
    unfold kernelRun1_A.sl.dma2_7
    refine delivered_row1 c i arg2 harg2 x0 fh0 7 1 inb_S1x8x32_S1x1x1_0_7_1 _ _ ?_ _ _ ?_ l <;> rfl
  | ⟨2, _⟩ =>
    show (kernelRun1_A.sl.dma3_7 c i arg2 harg2 x0 fh0 hx) (ix2 (0 : Fin 1) l) = _
    unfold kernelRun1_A.sl.dma3_7
    refine delivered_row1 c i arg2 harg2 x0 fh0 7 2 inb_S1x8x32_S1x1x1_0_7_2 _ _ ?_ _ _ ?_ l <;> rfl
  | ⟨3, _⟩ =>
    show (kernelRun1_A.sl.dma4_7 c i arg2 harg2 x0 fh0 hx) (ix2 (0 : Fin 1) l) = _
    unfold kernelRun1_A.sl.dma4_7
    refine delivered_row1 c i arg2 harg2 x0 fh0 7 3 inb_S1x8x32_S1x1x1_0_7_3 _ _ ?_ _ _ ?_ l <;> rfl
  | ⟨4, _⟩ =>
    show (kernelRun1_A.sl.dma5_7 c i arg2 harg2 x0 fh0 hx) (ix2 (0 : Fin 1) l) = _
    unfold kernelRun1_A.sl.dma5_7
    refine delivered_row1 c i arg2 harg2 x0 fh0 7 4 inb_S1x8x32_S1x1x1_0_7_4 _ _ ?_ _ _ ?_ l <;> rfl
  | ⟨5, _⟩ =>
    show (kernelRun1_A.sl.dma6_7 c i arg2 harg2 x0 fh0 hx) (ix2 (0 : Fin 1) l) = _
    unfold kernelRun1_A.sl.dma6_7
    refine delivered_row1 c i arg2 harg2 x0 fh0 7 5 inb_S1x8x32_S1x1x1_0_7_5 _ _ ?_ _ _ ?_ l <;> rfl
  | ⟨6, _⟩ =>
    show (kernelRun1_A.sl.dma7_7 c i arg2 harg2 x0 fh0 hx) (ix2 (0 : Fin 1) l) = _
    unfold kernelRun1_A.sl.dma7_7
    refine delivered_row1 c i arg2 harg2 x0 fh0 7 6 inb_S1x8x32_S1x1x1_0_7_6 _ _ ?_ _ _ ?_ l <;> rfl
  | ⟨7, _⟩ =>
    show (kernelRun1_A.sl.dma8_7 c i arg2 harg2 x0 fh0 hx) (ix2 (0 : Fin 1) l) = _
    unfold kernelRun1_A.sl.dma8_7
    refine delivered_row1 c i arg2 harg2 x0 fh0 7 7 inb_S1x8x32_S1x1x1_0_7_7 _ _ ?_ _ _ ?_ l <;> rfl
  | ⟨8, _⟩ =>
    show (kernelRun1_A.sl.dma9_7 c i arg2 harg2 x0 fh0 hx) (ix2 (0 : Fin 1) l) = _
    unfold kernelRun1_A.sl.dma9_7
    refine delivered_row1 c i arg2 harg2 x0 fh0 7 8 inb_S1x8x32_S1x1x1_0_7_8 _ _ ?_ _ _ ?_ l <;> rfl
  | ⟨9, _⟩ =>
    show (kernelRun1_A.sl.dma10_7 c i arg2 harg2 x0 fh0 hx) (ix2 (0 : Fin 1) l) = _
    unfold kernelRun1_A.sl.dma10_7
    refine delivered_row1 c i arg2 harg2 x0 fh0 7 9 inb_S1x8x32_S1x1x1_0_7_9 _ _ ?_ _ _ ?_ l <;> rfl
  | ⟨10, _⟩ =>
    show (kernelRun1_A.sl.dma11_7 c i arg2 harg2 x0 fh0 hx) (ix2 (0 : Fin 1) l) = _
    unfold kernelRun1_A.sl.dma11_7
    refine delivered_row1 c i arg2 harg2 x0 fh0 7 10 inb_S1x8x32_S1x1x1_0_7_10 _ _ ?_ _ _ ?_ l <;> rfl
  | ⟨11, _⟩ =>
    show (kernelRun1_A.sl.dma12_7 c i arg2 harg2 x0 fh0 hx) (ix2 (0 : Fin 1) l) = _
    unfold kernelRun1_A.sl.dma12_7
    refine delivered_row1 c i arg2 harg2 x0 fh0 7 11 inb_S1x8x32_S1x1x1_0_7_11 _ _ ?_ _ _ ?_ l <;> rfl
  | ⟨12, _⟩ =>
    show (kernelRun1_A.sl.dma13_7 c i arg2 harg2 x0 fh0 hx) (ix2 (0 : Fin 1) l) = _
    unfold kernelRun1_A.sl.dma13_7
    refine delivered_row1 c i arg2 harg2 x0 fh0 7 12 inb_S1x8x32_S1x1x1_0_7_12 _ _ ?_ _ _ ?_ l <;> rfl
  | ⟨13, _⟩ =>
    show (kernelRun1_A.sl.dma14_7 c i arg2 harg2 x0 fh0 hx) (ix2 (0 : Fin 1) l) = _
    unfold kernelRun1_A.sl.dma14_7
    refine delivered_row1 c i arg2 harg2 x0 fh0 7 13 inb_S1x8x32_S1x1x1_0_7_13 _ _ ?_ _ _ ?_ l <;> rfl
  | ⟨14, _⟩ =>
    show (kernelRun1_A.sl.dma15_7 c i arg2 harg2 x0 fh0 hx) (ix2 (0 : Fin 1) l) = _
    unfold kernelRun1_A.sl.dma15_7
    refine delivered_row1 c i arg2 harg2 x0 fh0 7 14 inb_S1x8x32_S1x1x1_0_7_14 _ _ ?_ _ _ ?_ l <;> rfl
  | ⟨15, _⟩ =>
    show (kernelRun1_A.sl.dma16_7 c i arg2 harg2 x0 fh0 hx) (ix2 (0 : Fin 1) l) = _
    unfold kernelRun1_A.sl.dma16_7
    refine delivered_row1 c i arg2 harg2 x0 fh0 7 15 inb_S1x8x32_S1x1x1_0_7_15 _ _ ?_ _ _ ?_ l <;> rfl
  | ⟨16, _⟩ =>
    show (kernelRun1_A.sl.dma17_7 c i arg2 harg2 x0 fh0 hx) (ix2 (0 : Fin 1) l) = _
    unfold kernelRun1_A.sl.dma17_7
    refine delivered_row1 c i arg2 harg2 x0 fh0 7 16 inb_S1x8x32_S1x1x1_0_7_16 _ _ ?_ _ _ ?_ l <;> rfl
  | ⟨17, _⟩ =>
    show (kernelRun1_A.sl.dma18_7 c i arg2 harg2 x0 fh0 hx) (ix2 (0 : Fin 1) l) = _
    unfold kernelRun1_A.sl.dma18_7
    refine delivered_row1 c i arg2 harg2 x0 fh0 7 17 inb_S1x8x32_S1x1x1_0_7_17 _ _ ?_ _ _ ?_ l <;> rfl
  | ⟨18, _⟩ =>
    show (kernelRun1_A.sl.dma19_7 c i arg2 harg2 x0 fh0 hx) (ix2 (0 : Fin 1) l) = _
    unfold kernelRun1_A.sl.dma19_7
    refine delivered_row1 c i arg2 harg2 x0 fh0 7 18 inb_S1x8x32_S1x1x1_0_7_18 _ _ ?_ _ _ ?_ l <;> rfl
  | ⟨19, _⟩ =>
    show (kernelRun1_A.sl.dma20_7 c i arg2 harg2 x0 fh0 hx) (ix2 (0 : Fin 1) l) = _
    unfold kernelRun1_A.sl.dma20_7
    refine delivered_row1 c i arg2 harg2 x0 fh0 7 19 inb_S1x8x32_S1x1x1_0_7_19 _ _ ?_ _ _ ?_ l <;> rfl
  | ⟨20, _⟩ =>
    show (kernelRun1_A.sl.dma21_7 c i arg2 harg2 x0 fh0 hx) (ix2 (0 : Fin 1) l) = _
    unfold kernelRun1_A.sl.dma21_7
    refine delivered_row1 c i arg2 harg2 x0 fh0 7 20 inb_S1x8x32_S1x1x1_0_7_20 _ _ ?_ _ _ ?_ l <;> rfl
  | ⟨21, _⟩ =>
    show (kernelRun1_A.sl.dma22_7 c i arg2 harg2 x0 fh0 hx) (ix2 (0 : Fin 1) l) = _
    unfold kernelRun1_A.sl.dma22_7
    refine delivered_row1 c i arg2 harg2 x0 fh0 7 21 inb_S1x8x32_S1x1x1_0_7_21 _ _ ?_ _ _ ?_ l <;> rfl
  | ⟨22, _⟩ =>
    show (kernelRun1_A.sl.dma23_7 c i arg2 harg2 x0 fh0 hx) (ix2 (0 : Fin 1) l) = _
    unfold kernelRun1_A.sl.dma23_7
    refine delivered_row1 c i arg2 harg2 x0 fh0 7 22 inb_S1x8x32_S1x1x1_0_7_22 _ _ ?_ _ _ ?_ l <;> rfl
  | ⟨23, _⟩ =>
    show (kernelRun1_A.sl.dma24_7 c i arg2 harg2 x0 fh0 hx) (ix2 (0 : Fin 1) l) = _
    unfold kernelRun1_A.sl.dma24_7
    refine delivered_row1 c i arg2 harg2 x0 fh0 7 23 inb_S1x8x32_S1x1x1_0_7_23 _ _ ?_ _ _ ?_ l <;> rfl
  | ⟨24, _⟩ =>
    show (kernelRun1_A.sl.dma25_7 c i arg2 harg2 x0 fh0 hx) (ix2 (0 : Fin 1) l) = _
    unfold kernelRun1_A.sl.dma25_7
    refine delivered_row1 c i arg2 harg2 x0 fh0 7 24 inb_S1x8x32_S1x1x1_0_7_24 _ _ ?_ _ _ ?_ l <;> rfl
  | ⟨25, _⟩ =>
    show (kernelRun1_A.sl.dma26_7 c i arg2 harg2 x0 fh0 hx) (ix2 (0 : Fin 1) l) = _
    unfold kernelRun1_A.sl.dma26_7
    refine delivered_row1 c i arg2 harg2 x0 fh0 7 25 inb_S1x8x32_S1x1x1_0_7_25 _ _ ?_ _ _ ?_ l <;> rfl
  | ⟨26, _⟩ =>
    show (kernelRun1_A.sl.dma27_7 c i arg2 harg2 x0 fh0 hx) (ix2 (0 : Fin 1) l) = _
    unfold kernelRun1_A.sl.dma27_7
    refine delivered_row1 c i arg2 harg2 x0 fh0 7 26 inb_S1x8x32_S1x1x1_0_7_26 _ _ ?_ _ _ ?_ l <;> rfl
  | ⟨27, _⟩ =>
    show (kernelRun1_A.sl.dma28_7 c i arg2 harg2 x0 fh0 hx) (ix2 (0 : Fin 1) l) = _
    unfold kernelRun1_A.sl.dma28_7
    refine delivered_row1 c i arg2 harg2 x0 fh0 7 27 inb_S1x8x32_S1x1x1_0_7_27 _ _ ?_ _ _ ?_ l <;> rfl
  | ⟨28, _⟩ =>
    show (kernelRun1_A.sl.dma29_7 c i arg2 harg2 x0 fh0 hx) (ix2 (0 : Fin 1) l) = _
    unfold kernelRun1_A.sl.dma29_7
    refine delivered_row1 c i arg2 harg2 x0 fh0 7 28 inb_S1x8x32_S1x1x1_0_7_28 _ _ ?_ _ _ ?_ l <;> rfl
  | ⟨29, _⟩ =>
    show (kernelRun1_A.sl.dma30_7 c i arg2 harg2 x0 fh0 hx) (ix2 (0 : Fin 1) l) = _
    unfold kernelRun1_A.sl.dma30_7
    refine delivered_row1 c i arg2 harg2 x0 fh0 7 29 inb_S1x8x32_S1x1x1_0_7_29 _ _ ?_ _ _ ?_ l <;> rfl
  | ⟨30, _⟩ =>
    show (kernelRun1_A.sl.dma31_7 c i arg2 harg2 x0 fh0 hx) (ix2 (0 : Fin 1) l) = _
    unfold kernelRun1_A.sl.dma31_7
    refine delivered_row1 c i arg2 harg2 x0 fh0 7 30 inb_S1x8x32_S1x1x1_0_7_30 _ _ ?_ _ _ ?_ l <;> rfl
  | ⟨31, _⟩ =>
    show (kernelRun1_A.sl.dma32_7 c i arg2 harg2 x0 fh0 hx) (ix2 (0 : Fin 1) l) = _
    unfold kernelRun1_A.sl.dma32_7
    refine delivered_row1 c i arg2 harg2 x0 fh0 7 31 inb_S1x8x32_S1x1x1_0_7_31 _ _ ?_ _ _ ?_ l <;> rfl
  | ⟨n + 32, h⟩ => exact absurd h (by omega)

end Cert.KernelIdeal.Val

end
-- ==== Proof.Spec.lean ====
import Idealize.ShloMosaic.PureOps.Ideal
import Idealize.ShloMosaic.PureOps.Ideal.Laws

noncomputable section

namespace Cert.Spec

open Idealize.ShloMosaic
open scoped BigOperators

abbrev X := Fin 4 → Fin 64 → Fin 16384 → EReal

abbrev Wt := Fin 64 → Fin 64 → EReal

abbrev Nb := Fin 4 → Fin 16384 → Fin 32 → Fin 16384

abbrev H := Fin 4 → Fin 64 → Fin 16384 → EReal

abbrev zeroW : EReal := Ideal.ofBits .f32 0x00000000#32

abbrev invKW : EReal := Ideal.ofBits .f32 0x3D000000#32

abbrev kW : EReal := Ideal.ofBits .f32 0x42000000#32

abbrev cntW : EReal := Ideal.ofBits .f32 0x47800000#32

abbrev epsW : EReal := Ideal.ofBits .f32 0x3727C5AC#32

abbrev slopeW : EReal := Ideal.ofBits .f32 0x3E4CCCCD#32

def hK (x : X) (w : Wt) (e : Nb) : H := fun b o n =>
  (∑ k : Fin 32, ∑ c : Fin 64, x b c (e b n k) * w o c) * invKW

def hR (x : X) (w : Wt) (e : Nb) : H := fun b o n =>
  ∑ c : Fin 64, w o c * Ideal.div (zeroW + ∑ k : Fin 32, x b c (e b n k)) kW

def bk (k : Fin 65536) : Fin 4 := ⟨k.val / 16384, by have := k.isLt; omega⟩

def nk (k : Fin 65536) : Fin 16384 := ⟨k.val % 16384, Nat.mod_lt _ (by decide)⟩

def mean (h : H) (o : Fin 64) : EReal :=
  Ideal.div (zeroW + ∑ k : Fin 65536, h (bk k) o (nk k)) cntW

def var (h : H) (o : Fin 64) : EReal :=
  Ideal.div (zeroW + ∑ k : Fin 65536, (h (bk k) o (nk k) - mean h o) * (h (bk k) o (nk k) - mean h o)) cntW

def bn (h : H) (g β : Fin 64 → EReal) : H := fun b o n =>
  g o * ((h b o n - mean h o) * Ideal.rsqrt (var h o + epsW)) + β o

def leaky (y : EReal) : EReal :=
  Scalar.select (Ideal.cmp .ogt y zeroW) y (slopeW * y)

def post (h : H) (g β : Fin 64 → EReal) : H := fun b o n => leaky (bn h g β b o n)

theorem sum_flat (f : Fin 4 → Fin 16384 → EReal) :
    ∑ k : Fin 65536, f (bk k) (nk k) = ∑ b : Fin 4, ∑ n : Fin 16384, f b n := by
  rw [← Fintype.sum_prod_type']
  exact Fintype.sum_equiv (finProdFinEquiv (m := 4) (n := 16384)).symm _ _ (fun _ => rfl)

end Cert.Spec
-- ==== Proof.KI.Val1Math.lean ====
import proofs.«405998_j76398878261701_2_alg».proof.Proof.Gen.KernelIdeal.Skeleton
import proofs.«405998_j76398878261701_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Facts
open Idealize.ShloMosaic Idealize.ShloMosaic.ValueIdx
open scoped BigOperators

theorem lift1_eq (l : Fin 128) (k : Fin 32) :
    (reduces_S32x1x128_S1x128).lift (ix2 (0 : Fin 1) l) k = ix3 k (0 : Fin 1) l := by
  funext a
  match a with
  | ⟨0, _⟩ => exact Fin.ext rfl
  | ⟨1, _⟩ => exact Fin.ext rfl
  | ⟨2, _⟩ => exact Fin.ext rfl

theorem red1_apply (s : Vec Ideal S32x1x128 .f32) (l : Fin 128)
    (hφ : FKind.Formats .f32) (hacc : (0x00000000#32 : BitVec 32) = 0x00000000#32) :
    multiReduction (F := Ideal) .add [0] S1x128 s 0x00000000#32 reduces_S32x1x128_S1x128 hφ hacc (ix2 (0 : Fin 1) l)
      = ∑ k : Fin 32, s (ix3 k (0 : Fin 1) l) :=
  (Ideal.multiReduction_add_single (φ := .f32) s 0x00000000#32 reduces_S32x1x128_S1x128 hφ hacc (ix2 (0 : Fin 1) l)).trans
    (Finset.sum_congr rfl fun k _ => congrArg s (lift1_eq l k))

theorem row1_apply (s : Vec Ideal S32x1x128 .f32) (l : Fin 128) :
    (mulf (multiReduction (F := Ideal) .add [0] S1x128 s 0x00000000#32 reduces_S32x1x128_S1x128 (.inl rfl) rfl)
        (broadcast S1x128 (Scalar.ofBits (F := Ideal) .f32 0x3D000000#32))) (ix2 (0 : Fin 1) l)
      = (∑ k : Fin 32, s (ix3 k (0 : Fin 1) l)) * Cert.Spec.invKW :=
  congrArg (· * Cert.Spec.invKW) (red1_apply s l (.inl rfl) rfl)

def rowOf1 (s : Vec Ideal S32x1x128 .f32) : FVec Ideal S1x128 .f32 :=
  mulf (multiReduction (F := Ideal) .add [0] S1x128 s 0x00000000#32 reduces_S32x1x128_S1x128 (.inl rfl) rfl)
    (broadcast S1x128 (Scalar.ofBits (F := Ideal) .f32 0x3D000000#32))

abbrev pieces1 {α : Type} (f : Fin 8 → (S1x128.Idx → α)) : List ((s : Shape) × (s.Idx → α)) :=
  [⟨S1x128, f 0⟩, ⟨S1x128, f 1⟩, ⟨S1x128, f 2⟩, ⟨S1x128, f 3⟩, ⟨S1x128, f 4⟩, ⟨S1x128, f 5⟩, ⟨S1x128, f 6⟩, ⟨S1x128, f 7⟩]

theorem conc8_apply1 {α : Type} (f : Fin 8 → (S1x128.Idx → α))
    (h : Shape.Concatenates ((pieces1 f).map (·.1)) S8x128 0)
    (r : Fin 8) (l : Fin 128) :
    concatenate S8x128 0 (pieces1 f) h (ix2 r l) = f r (ix2 (0 : Fin 1) l) := by
  match r with
  | ⟨0, _⟩ =>
    exact concatenate_apply_piece (0 : Fin S8x128.rank) (pieces1 f) h (ix2 _ l) 0 (by show 0 < 8; decide) S1x128 (f 0) rfl rfl 0 rfl (ix2 (0 : Fin 1) l)
      (fun b hb => by match b with | ⟨0, _⟩ => exact absurd rfl hb | ⟨1, _⟩ => rfl) rfl
  | ⟨1, _⟩ =>
    exact concatenate_apply_piece (0 : Fin S8x128.rank) (pieces1 f) h (ix2 _ l) 1 (by show 1 < 8; decide) S1x128 (f 1) rfl rfl 1 rfl (ix2 (0 : Fin 1) l)
      (fun b hb => by match b with | ⟨0, _⟩ => exact absurd rfl hb | ⟨1, _⟩ => rfl) rfl
  | ⟨2, _⟩ =>
    exact concatenate_apply_piece (0 : Fin S8x128.rank) (pieces1 f) h (ix2 _ l) 2 (by show 2 < 8; decide) S1x128 (f 2) rfl rfl 2 rfl (ix2 (0 : Fin 1) l)
      (fun b hb => by match b with | ⟨0, _⟩ => exact absurd rfl hb | ⟨1, _⟩ => rfl) rfl
  | ⟨3, _⟩ =>
    exact concatenate_apply_piece (0 : Fin S8x128.rank) (pieces1 f) h (ix2 _ l) 3 (by show 3 < 8; decide) S1x128 (f 3) rfl rfl 3 rfl (ix2 (0 : Fin 1) l)
      (fun b hb => by match b with | ⟨0, _⟩ => exact absurd rfl hb | ⟨1, _⟩ => rfl) rfl
  | ⟨4, _⟩ =>
    exact concatenate_apply_piece (0 : Fin S8x128.rank) (pieces1 f) h (ix2 _ l) 4 (by show 4 < 8; decide) S1x128 (f 4) rfl rfl 4 rfl (ix2 (0 : Fin 1) l)
      (fun b hb => by match b with | ⟨0, _⟩ => exact absurd rfl hb | ⟨1, _⟩ => rfl) rfl
  | ⟨5, _⟩ =>
    exact concatenate_apply_piece (0 : Fin S8x128.rank) (pieces1 f) h (ix2 _ l) 5 (by show 5 < 8; decide) S1x128 (f 5) rfl rfl 5 rfl (ix2 (0 : Fin 1) l)
      (fun b hb => by match b with | ⟨0, _⟩ => exact absurd rfl hb | ⟨1, _⟩ => rfl) rfl
  | ⟨6, _⟩ =>
    exact concatenate_apply_piece (0 : Fin S8x128.rank) (pieces1 f) h (ix2 _ l) 6 (by show 6 < 8; decide) S1x128 (f 6) rfl rfl 6 rfl (ix2 (0 : Fin 1) l)
      (fun b hb => by match b with | ⟨0, _⟩ => exact absurd rfl hb | ⟨1, _⟩ => rfl) rfl
  | ⟨7, _⟩ =>
    exact concatenate_apply_piece (0 : Fin S8x128.rank) (pieces1 f) h (ix2 _ l) 7 (by show 7 < 8; decide) S1x128 (f 7) rfl rfl 7 rfl (ix2 (0 : Fin 1) l)
      (fun b hb => by match b with | ⟨0, _⟩ => exact absurd rfl hb | ⟨1, _⟩ => rfl) rfl

theorem pay1_rows (v0 v1 v2 v3 v4 v5 v6 : FVec Ideal S1x128 .f32) (s7 : Vec Ideal S32x1x128 .f32) (r : Fin 8) (l : Fin 128) :
    k1_pay1 (F := Ideal) v0 v1 v2 v3 v4 v5 v6 s7 (ix3 (0 : Fin 1) r l)
      = (![v0, v1, v2, v3, v4, v5, v6, rowOf1 s7] : Fin 8 → FVec Ideal S1x128 .f32) r (ix2 (0 : Fin 1) l) :=
  (shapeCast_ab_1ab_apply _ shapeCasts_S8x128_S1x8x128 (0 : Fin 1) r l).trans
    (conc8_apply1 (![v0, v1, v2, v3, v4, v5, v6, rowOf1 s7] : Fin 8 → FVec Ideal S1x128 .f32)
      concatenates_S1x128_S1x128_S1x128_S1x128_S1x128_S1x128_S1x128_S1x128_S8x128_d0 r l)

theorem pay1_apply (s0 s1 s2 s3 s4 s5 s6 s7 : Vec Ideal S32x1x128 .f32) (r : Fin 8) (l : Fin 128) :
    k1_pay1 (F := Ideal) (k1_pay2 s0) (k1_pay3 s1) (k1_pay4 s2) (k1_pay5 s3) (k1_pay6 s4) (k1_pay7 s5) (k1_pay8 s6) s7
        (ix3 (0 : Fin 1) r l)
      = (∑ k : Fin 32, (![s0, s1, s2, s3, s4, s5, s6, s7] : Fin 8 → Vec Ideal S32x1x128 .f32) r (ix3 k (0 : Fin 1) l))
          * Cert.Spec.invKW := by
  refine (pay1_rows _ _ _ _ _ _ _ s7 r l).trans ?_
  match r with
  | ⟨0, _⟩ => exact row1_apply s0 l
  | ⟨1, _⟩ => exact row1_apply s1 l
  | ⟨2, _⟩ => exact row1_apply s2 l
  | ⟨3, _⟩ => exact row1_apply s3 l
  | ⟨4, _⟩ => exact row1_apply s4 l
  | ⟨5, _⟩ => exact row1_apply s5 l
  | ⟨6, _⟩ => exact row1_apply s6 l
  | ⟨7, _⟩ => exact row1_apply s7 l

end Cert.KernelIdeal.Val

end
-- ==== Proof.KI.Val1.lean ====
import proofs.«405998_j76398878261701_2_alg».proof.Proof.KI.R1
import proofs.«405998_j76398878261701_2_alg».proof.Proof.KI.Val1Math
import proofs.«405998_j76398878261701_2_alg».proof.Proof.Spec
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)
open scoped BigOperators

variable (V : (c : Dev nD) → (b : Ref sig .tc) → Buf (Elt Ideal) ((c : Thread nD τ).loc b))

def bOf1 (t : Fin cfg1.N) : Fin 4 := grid1.coords t 0

def qOf1 (t : Fin cfg1.N) : Fin 2048 := grid1.coords t 1

theorem N1_eq : cfg1.N = 8192 := N_1

theorem bOf1_val (t : Fin cfg1.N) : (bOf1 t).val = t.val / 2048 % 4 := rfl
theorem qOf1_val (t : Fin cfg1.N) : (qOf1 t).val = t.val / 1 % 2048 := rfl

theorem oidx1 (t : Fin cfg1.N) : win1_1.index t (0 : Fin 3) = (bOf1 t).val ∧ win1_1.index t (1 : Fin 3) = (qOf1 t).val
    ∧ win1_1.index t (2 : Fin 3) = 0 := by
  have hb := (bOf1 t).isLt
  have hq := (qOf1 t).isLt
  refine ⟨?_, ?_, rfl⟩
  · show (BitVec.ofNat 32 (bOf1 t).val).toNat = _
    rw [BitVec.toNat_ofNat]; exact Nat.mod_eq_of_lt (by omega)
  · show (BitVec.ofNat 32 (qOf1 t).val).toNat = _
    rw [BitVec.toNat_ofNat]; exact Nat.mod_eq_of_lt (by omega)

theorem iidx1 (t : Fin cfg1.N) : win1_0.index t (0 : Fin 3) = (bOf1 t).val ∧ win1_0.index t (1 : Fin 3) = (qOf1 t).val
    ∧ win1_0.index t (2 : Fin 3) = 0 := oidx1 t

def gatherMean (e : IVec S4x16384x32 32) (a : FVec Ideal S4x16384x128 .f32) : FVec Ideal S4x16384x128 .f32 :=
  fun i => (∑ k : Fin 32, a (ix3 (i 0) (⟨(e (ix3 (i 0) (i 1) k) : BitVec 32).toNat % 16384, Nat.mod_lt _ (by decide)⟩ : Fin 16384) (i 2)))
    * Cert.Spec.invKW

theorem gatherMean_apply (e : IVec S4x16384x32 32) (a : FVec Ideal S4x16384x128 .f32) (b : Fin 4) (n : Fin 16384) (o : Fin 128) :
    gatherMean e a (ix3 b n o)
      = (∑ k : Fin 32, a (ix3 b (⟨(e (ix3 b n k) : BitVec 32).toNat % 16384, Nat.mod_lt _ (by decide)⟩ : Fin 16384) o))
        * Cert.Spec.invKW := rfl

def blockMean (e : IVec S1x8x32 32) (a : FVec Ideal S4x16384x128 .f32) (b : Fin 4) : FVec Ideal S1x8x128 .f32 :=
  fun j => (∑ k : Fin 32, a (ix3 b (⟨(e (ix3 (j 0) (j 1) k) : BitVec 32).toNat % 16384, Nat.mod_lt _ (by decide)⟩ : Fin 16384) (j 2)))
    * Cert.Spec.invKW

theorem blockMean_apply (e : IVec S1x8x32 32) (a : FVec Ideal S4x16384x128 .f32) (b : Fin 4) (u : Fin 1) (r : Fin 8) (l : Fin 128) :
    blockMean e a b (ix3 u r l)
      = (∑ k : Fin 32, a (ix3 b (⟨(e (ix3 u r k) : BitVec 32).toNat % 16384, Nat.mod_lt _ (by decide)⟩ : Fin 16384) l))
        * Cert.Spec.invKW := rfl

theorem pay_eq_blockMean (e : IVec S1x8x32 32) (a : FVec Ideal S4x16384x128 .f32) (b : Fin 4)
    (s0 s1 s2 s3 s4 s5 s6 s7 : Vec Ideal S32x1x128 .f32)
    (hs : ∀ (r : Fin 8) (k : Fin 32) (l : Fin 128),
      (![s0, s1, s2, s3, s4, s5, s6, s7] : Fin 8 → Vec Ideal S32x1x128 .f32) r (ix3 k (0 : Fin 1) l)
        = a (ix3 b (⟨(e (ix3 (0 : Fin 1) r k) : BitVec 32).toNat % 16384, Nat.mod_lt _ (by decide)⟩ : Fin 16384) l)) :
    k1_pay1 (F := Ideal) (k1_pay2 s0) (k1_pay3 s1) (k1_pay4 s2) (k1_pay5 s3) (k1_pay6 s4) (k1_pay7 s5) (k1_pay8 s6) s7
      = blockMean e a b := by
  funext j
  obtain ⟨u, r, l, rfl⟩ : ∃ (u : Fin 1) (r : Fin 8) (l : Fin 128), j = ix3 u r l := ⟨j 0, j 1, j 2, eq_ix3 j⟩
  obtain rfl : u = 0 := Subsingleton.elim _ _
  rw [pay1_apply, blockMean_apply]
  exact congrArg (· * Cert.Spec.invKW) (Finset.sum_congr rfl fun k _ => hs r k l)

def rowAt1 (t : Fin cfg1.N) (r : Fin 8) : Fin 16384 := ⟨(qOf1 t).val * 8 + r.val, by have := (qOf1 t).isLt; have := r.isLt; omega⟩

theorem oemb1 (t : Fin cfg1.N) (u : Fin 1) (r : Fin 8) (l : Fin 128) :
    ((cfg1.win 1).blk t).view.emb (ix3 u r l) = (ix3 (bOf1 t) (rowAt1 t r) l : S4x16384x128.Idx) := by
  obtain ⟨e0, e1, e2⟩ := oidx1 t
  have hu : u.val = 0 := by omega
  funext a
  apply Fin.ext
  match a with
  | ⟨0, _⟩ => show win1_1.index t (0 : Fin 3) * 1 + 1 * u.val = (bOf1 t).val; rw [e0, hu]; omega
  | ⟨1, _⟩ => show win1_1.index t (1 : Fin 3) * 8 + 1 * r.val = (qOf1 t).val * 8 + r.val; rw [e1]; omega
  | ⟨2, _⟩ => show win1_1.index t (2 : Fin 3) * 128 + 1 * l.val = l.val; rw [e2]; omega

theorem iemb1 (t : Fin cfg1.N) (u : Fin 1) (r : Fin 8) (k : Fin 32) :
    ((cfg1.win 0).blk t).view.emb (ix3 u r k) = (ix3 (bOf1 t) (rowAt1 t r) k : S4x16384x32.Idx) := by
  obtain ⟨e0, e1, e2⟩ := iidx1 t
  have hu : u.val = 0 := by omega
  funext a
  apply Fin.ext
  match a with
  | ⟨0, _⟩ => show win1_0.index t (0 : Fin 3) * 1 + 1 * u.val = (bOf1 t).val; rw [e0, hu]; omega
  | ⟨1, _⟩ => show win1_0.index t (1 : Fin 3) * 8 + 1 * r.val = (qOf1 t).val * 8 + r.val; rw [e1]; omega
  | ⟨2, _⟩ => show win1_0.index t (2 : Fin 3) * 32 + 1 * k.val = k.val; rw [e2]; omega

theorem eblk1_apply (c : Dev nD) (t : Fin cfg1.N) (u : Fin 1) (r : Fin 8) (k : Fin 32) :
    (eblk V c t) (ix3 u r k) = (V c main_arg1 : IVec S4x16384x32 32) (ix3 (bOf1 t) (rowAt1 t r) k) :=
  congrArg (V c main_arg1 : IVec S4x16384x32 32) (iemb1 t u r k)

theorem read_gatherMean (c : Dev nD) (t : Fin cfg1.N) :
    ((cfg1.win 1).blk t).view.read (Elt Ideal) (gatherMean (V c main_arg1) (V c main_v1))
      = blockMean (eblk V c t) (V c main_v1) (bOf1 t) := by
  funext j
  obtain ⟨u, r, l, rfl⟩ : ∃ (u : Fin 1) (r : Fin 8) (l : Fin 128), j = ix3 u r l := ⟨j 0, j 1, j 2, eq_ix3 j⟩
  show gatherMean (V c main_arg1) (V c main_v1) (((cfg1.win 1).blk t).view.emb (ix3 u r l)) = _
  rw [oemb1 t u r l, gatherMean_apply, blockMean_apply]
  refine congrArg (· * Cert.Spec.invKW) (Finset.sum_congr rfl fun k _ => ?_)
  rw [eblk1_apply V c t u r k]

theorem flushed_eq1 (c : Dev nD) (hy : Hyps1 (F := Ideal) V c)
    (hpt : ∀ t : Fin cfg1.N, outsAt1 (F := Ideal) V c hy t = blockMean (eblk V c t) (V c main_v1) (bOf1 t))
    (t : Fin cfg1.N) :
    (dat1 (F := Ideal) V c hy).flushed 1 t
      = ((cfg1.win 1).blk t).view.read (Elt Ideal) (gatherMean (V c main_arg1) (V c main_v1)) := by
  show (cfg1.win 1).cut (grid1.coords t) ((dat1 (F := Ideal) V c hy).after 1 t) = _
  rw [after1_1, hpt t, read_gatherMean]
  rfl

theorem mem_blk1 (t : Fin cfg1.N) (i : S4x16384x128.Idx) :
    i ∈ ((cfg1.win 1).blk t).view.set ↔ ∀ a : Fin 3, win1_1.index t a * S1x8x128.size a ≤ (i a).val ∧ (i a).val < win1_1.index t a * S1x8x128.size a + S1x8x128.size a := by
  show i ∈ ((View.whole main_v2).slice (win1_1.rect t)).set ↔ _
  rw [View.set_slice_whole, Rect.mem_set_unit]
  exact Iff.rfl

theorem cover1 (i : S4x16384x128.Idx) : ∃ t : Fin cfg1.N, (cfg1.win 1).flush t = true ∧ i ∈ ((cfg1.win 1).blk t).view.set := by
  have h0 : (i 0).val < 4 := (i 0).isLt
  have h1 : (i 1).val < 16384 := (i 1).isLt
  have h2 : (i 2).val < 128 := (i 2).isLt
  let t : Fin cfg1.N := ⟨(i 0).val * 2048 + (i 1).val / 8, by rw [N1_eq]; omega⟩
  have hb : (bOf1 t).val = (i 0).val := by rw [bOf1_val]; show ((i 0).val * 2048 + (i 1).val / 8) / 2048 % 4 = _; omega
  have hq : (qOf1 t).val = (i 1).val / 8 := by rw [qOf1_val]; show ((i 0).val * 2048 + (i 1).val / 8) / 1 % 2048 = _; omega
  obtain ⟨e0, e1, e2⟩ := oidx1 t
  refine ⟨t, flush1_1 t, ?_⟩
  rw [mem_blk1]
  intro a
  match a with
  | ⟨0, _⟩ => show win1_1.index t (0 : Fin 3) * 1 ≤ (i 0).val ∧ (i 0).val < win1_1.index t (0 : Fin 3) * 1 + 1; rw [e0, hb]; omega
  | ⟨1, _⟩ => show win1_1.index t (1 : Fin 3) * 8 ≤ (i 1).val ∧ (i 1).val < win1_1.index t (1 : Fin 3) * 8 + 8; rw [e1, hq]; omega
  | ⟨2, _⟩ => show win1_1.index t (2 : Fin 3) * 128 ≤ (i 2).val ∧ (i 2).val < win1_1.index t (2 : Fin 3) * 128 + 128; rw [e2]; omega

theorem gather_array_of (c : Dev nD) (hy : Hyps1 (F := Ideal) V c)
    (hpt : ∀ t : Fin cfg1.N, outsAt1 (F := Ideal) V c hy t = blockMean (eblk V c t) (V c main_v1) (bOf1 t)) :
    (dat1 (F := Ideal) V c hy).arrAt 1 cfg1.N = gatherMean (V c main_arg1) (V c main_v1) :=
  (dat1 (F := Ideal) V c hy).arrAt_eq_of_cover 1 (gatherMean (V c main_arg1) (V c main_v1))
    (fun t _ => flushed_eq1 V c hy hpt t) cover1

end Cert.KernelIdeal.Val

end
-- ==== Proof.KI.Val1Block.lean ====
import proofs.«405998_j76398878261701_2_alg».proof.Proof.KI.Val1

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open scoped BigOperators

def RowHolds1 (e : IVec S1x8x32 32) (a : FVec Ideal S4x16384x128 .f32) (b : Fin 4) (r : Fin 8) (s : Vec Ideal S32x1x128 .f32) : Prop :=
  ∀ (k : Fin 32) (l : Fin 128), s (ix3 k (0 : Fin 1) l)
    = a (ix3 b (⟨(e (ix3 (0 : Fin 1) r k) : BitVec 32).toNat % 16384, Nat.mod_lt _ (by decide)⟩ : Fin 16384) l)

theorem pay_eq_blockMean8 (e : IVec S1x8x32 32) (a : FVec Ideal S4x16384x128 .f32) (b : Fin 4)
    (s0 s1 s2 s3 s4 s5 s6 s7 : Vec Ideal S32x1x128 .f32)
    (h0 : RowHolds1 e a b 0 s0) (h1 : RowHolds1 e a b 1 s1) (h2 : RowHolds1 e a b 2 s2) (h3 : RowHolds1 e a b 3 s3)
    (h4 : RowHolds1 e a b 4 s4) (h5 : RowHolds1 e a b 5 s5) (h6 : RowHolds1 e a b 6 s6) (h7 : RowHolds1 e a b 7 s7) :
    k1_pay1 (F := Ideal) (k1_pay2 s0) (k1_pay3 s1) (k1_pay4 s2) (k1_pay5 s3) (k1_pay6 s4) (k1_pay7 s5) (k1_pay8 s6) s7
      = blockMean e a b :=
  pay_eq_blockMean e a b s0 s1 s2 s3 s4 s5 s6 s7 fun r k l => by
    match r with
    | ⟨0, _⟩ => exact h0 k l
    | ⟨1, _⟩ => exact h1 k l
    | ⟨2, _⟩ => exact h2 k l
    | ⟨3, _⟩ => exact h3 k l
    | ⟨4, _⟩ => exact h4 k l
    | ⟨5, _⟩ => exact h5 k l
    | ⟨6, _⟩ => exact h6 k l
    | ⟨7, _⟩ => exact h7 k l
    | ⟨n + 8, h⟩ => exact absurd h (by omega)

end Cert.KernelIdeal.Val

end
-- ==== Proof.KI.Val1Wit.lean ====
import proofs.«405998_j76398878261701_2_alg».proof.Proof.KI.Val1RowsA
import proofs.«405998_j76398878261701_2_alg».proof.Proof.KI.Val1RowsB
import proofs.«405998_j76398878261701_2_alg».proof.Proof.KI.Val1Block

set_option maxRecDepth 65536

noncomputable section

namespace Cert.KernelIdeal.Val

open Cert.KernelIdeal Cert.KernelIdeal.Gen Cert.KernelIdeal.Fr Cert.KernelIdeal.Facts
open Idealize.ShloMosaic Idealize.ShloMosaic.TcCoe Idealize.ShloMosaic.ValueIdx Idealize.ShloMosaic.Tactic
open Idealize.SL.Sem

/-- The run stores one block, the block value of the point's index words: each row's scratch holds the rows its words name. -/
theorem witness1 (c : Dev nD) (i : grid1.Coords) (arg2 : Memref sig .tc .smem S1x8x32 .i32) (harg2 : arg2.IsWhole)
    (arg4 : Memref sig .tc .vmem S1x8x128 .f32) (harg4 : arg4.IsWhole)
    (x0 : Vec Ideal S1x8x32 .i32) (fh0 : HbBuf1 (F := Ideal) c hbM1_0) (hx : ∀ j, (x0 j : BitVec 32).toNat + 1 ≤ 16384) :
    (kernelRun1_A (F := Ideal) c i arg2 harg2 arg4 harg4 x0 fh0 hx).1
      = [⟨Rect.unit (s := S1x8x128) ![0, 0, 0] ![1, 8, 128] inb_S1x8x128_S1x8x128_0_0_0, blockMean x0 fh0 (i 0)⟩] := by
  unfold kernelRun1_A
  dsimp only
  unfold kernelRun1_A.sl.r_34 kernelRun1_A.sl.r_66 kernelRun1_A.sl.r_101 kernelRun1_A.sl.r_133 kernelRun1_A.sl.r_165 kernelRun1_A.sl.r_200 kernelRun1_A.sl.r_232
  refine congrArg (fun w : FVec Ideal S1x8x128 .f32 =>
    ([⟨Rect.unit (s := S1x8x128) ![0, 0, 0] ![1, 8, 128] inb_S1x8x128_S1x8x128_0_0_0, w⟩] : List (View.Piece (Elt Ideal) S1x8x128 .f32))) ?_
  exact pay_eq_blockMean8 x0 fh0 (i 0)
    (kernelRun1_A.sl.v480 c i arg2 harg2 x0 fh0 hx)
    (kernelRun1_A.sl.v964 c i arg2 harg2 x0 fh0 hx)
    (kernelRun1_A.sl.v c i arg2 harg2 x0 fh0 hx)
    (kernelRun1_A.sl.v1932 c i arg2 harg2 x0 fh0 hx)
    (kernelRun1_A.sl.v2416 c i arg2 harg2 x0 fh0 hx)
    (kernelRun1_A.sl.v2900 c i arg2 harg2 x0 fh0 hx)
    (kernelRun1_A.sl.v3384 c i arg2 harg2 x0 fh0 hx)
    (kernelRun1_A.sl.v3868 c i arg2 harg2 x0 fh0 hx)
    (row0_slots1 (F := Ideal) c i arg2 harg2 x0 fh0 hx)
    (row1_slots1 (F := Ideal) c i arg2 harg2 x0 fh0 hx)
    (row2_slots1 (F := Ideal) c i arg2 harg2 x0 fh0 hx)
    (row3_slots1 (F := Ideal) c i arg2 harg2 x0 fh0 hx)
    (row4_slots1 (F := Ideal) c i arg2 harg2 x0 fh0 hx)
    (row5_slots1 (F := Ideal) c i arg2 harg2 x0 fh0 hx)
    (row6_slots1 (F := Ideal) c i arg2 harg2 x0 fh0 hx)
    (row7_slots1 (F := Ideal) c i arg2 harg2 x0 fh0 hx)

end Cert.KernelIdeal.Val

end
-- ==== Proof.KI.Val1Array.lean ====
import proofs.«405998_j76398878261701_2_alg».proof.Proof.KI.Val1Wit

set_option maxRecDepth 65536

noncomputable section

namespace Cert.KernelIdeal.Val

open Cert.KernelIdeal Cert.KernelIdeal.Gen Cert.KernelIdeal.Fr Cert.KernelIdeal.Facts
open Idealize.ShloMosaic Idealize.ShloMosaic.TcCoe Idealize.ShloMosaic.ValueIdx
open Idealize.SL.Sem

theorem out1_eq (c : Dev nD) (i : grid1.Coords) (arg2 : Memref sig .tc .smem S1x8x32 .i32) (harg2 : arg2.IsWhole)
    (arg4 : Memref sig .tc .vmem S1x8x128 .f32) (harg4 : arg4.IsWhole)
    (x0 : Vec Ideal S1x8x32 .i32) (fh0 : HbBuf1 (F := Ideal) c hbM1_0) (hx : ∀ j, (x0 j : BitVec 32).toNat + 1 ≤ 16384) :
    out1_A_1 (F := Ideal) c i arg2 harg2 arg4 harg4 x0 fh0 hx = blockMean x0 fh0 (i 0) := by
  unfold out1_A_1
  rw [witness1, View.read_writes_junk_eq_canon]
  exact View.canon_unit_zero (S := S1x8x128) hz3 inb_S1x8x128_S1x8x128_0_0_0 _

variable (V : (c : Dev nD) → (b : Ref sig .tc) → Buf (Elt Ideal) ((c : Thread nD τ).loc b))

theorem point_block1 (c : Dev nD) (hy : Hyps1 (F := Ideal) V c) (t : Fin cfg1.N) :
    outsAt1 (F := Ideal) V c hy t = blockMean (eblk V c t) (V c main_v1) (bOf1 t) := by
  unfold outsAt1
  exact out1_eq c (grid1.coords t) (ms1_0 t) (hs1_0 t) (ms1_1 t) (hs1_1 t) (eblk V c t) (V c main_v1) (hy t)

theorem gather_array (c : Dev nD) (hy : Hyps1 (F := Ideal) V c) :
    (dat1 (F := Ideal) V c hy).arrAt 1 cfg1.N = gatherMean (V c main_arg1) (V c main_v1) :=
  gather_array_of V c hy (point_block1 V c hy)

end Cert.KernelIdeal.Val

end
-- ==== Proof.KI.Val2.lean ====
import proofs.«405998_j76398878261701_2_alg».proof.Proof.KI.R2
import proofs.«405998_j76398878261701_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Cert.KernelIdeal.Fr Cert.Spec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem pay2_apply (x0 : Vec Ideal S1x2048x64 .f32) (x1 x2 x3 x4 : Vec Ideal S1x64 .f32) (u : Fin 1) (o : Fin 64) (p : Fin 2048) :
    k2_pay1 (F := Ideal) x0 x1 x2 x3 x4 (ix3 u o p)
      = leaky (x3 (ix2 (0 : Fin 1) o) * ((x0 (ix3 (0 : Fin 1) p o) - x1 (ix2 (0 : Fin 1) o)) * Ideal.rsqrt (x2 (ix2 (0 : Fin 1) o) + epsW)) + x4 (ix2 (0 : Fin 1) o)) := by
  unfold k2_pay1
  dsimp only
  rw [shapeCast_ab_1ab_apply, transpose_ix2_apply]
  simp only [select_apply, cmpf_apply, addf_apply, mulf_apply, subf_apply, broadcast_apply, broadcastTo_1b_ab_apply,
    shapeCast_self, shapeCast_1ab_ab_apply]
  rfl

theorem pay2_at (x0 : Vec Ideal S1x2048x64 .f32) (x1 x2 x3 x4 : Vec Ideal S1x64 .f32) (j : S1x64x2048.Idx) (o : Fin 64) (p : Fin 2048)
    (ho : (j 1).val = o.val) (hp : (j 2).val = p.val) :
    k2_pay1 (F := Ideal) x0 x1 x2 x3 x4 j
      = leaky (x3 (ix2 (0 : Fin 1) o) * ((x0 (ix3 (0 : Fin 1) p o) - x1 (ix2 (0 : Fin 1) o)) * Ideal.rsqrt (x2 (ix2 (0 : Fin 1) o) + epsW)) + x4 (ix2 (0 : Fin 1) o)) := by
  have hj : j = ix3 (0 : Fin 1) o p := funext fun a => Fin.ext (by
    match a with
    | ⟨0, _⟩ => have h0 : (j 0).val < 1 := (j 0).isLt; show (j 0).val = 0; omega
    | ⟨1, _⟩ => exact ho
    | ⟨2, _⟩ => exact hp)
  rw [hj]
  exact pay2_apply x0 x1 x2 x3 x4 0 o p

def bnAt (h3 : FVec Ideal S4x16384x64 .f32) (mu va g be : FVec Ideal S1x64 .f32) (b : Fin 4) (o : Fin 64) (n : Fin 16384) : EReal :=
  leaky (g (ix2 (0 : Fin 1) o) * ((h3 (ix3 b n o) - mu (ix2 (0 : Fin 1) o)) * Ideal.rsqrt (va (ix2 (0 : Fin 1) o) + epsW)) + be (ix2 (0 : Fin 1) o))

def bnArr (h3 : FVec Ideal S4x16384x64 .f32) (mu va g be : FVec Ideal S1x64 .f32) : FVec Ideal S4x64x16384 .f32 :=
  fun i => bnAt h3 mu va g be (i 0) (i 1) (i 2)

theorem idx_facts2 : ∀ t : Fin cfg2.N, win2_0.index t (0 : Fin 3) = win2_5.index t (0 : Fin 3)
    ∧ win2_0.index t (1 : Fin 3) = win2_5.index t (2 : Fin 3)
    ∧ win2_0.index t (2 : Fin 3) = 0
    ∧ win2_5.index t (1 : Fin 3) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 3) ≤ 3 ∧ win2_5.index t (2 : Fin 3) ≤ 7 :=
  (by decide +kernel : ∀ t : Fin grid2.N, _)

theorem idx_onto2 : ∀ (q0 : Fin 4) (q2 : Fin 8), ∃ t : Fin cfg2.N, win2_5.index t = ![q0.val, 0, q2.val] :=
  (by decide +kernel : ∀ (q0 : Fin 4) (q2 : Fin 8), ∃ t : Fin grid2.N, win2_5.index t = ![q0.val, 0, q2.val])

theorem blk2_0_read (c : Dev nD) (t : Fin cfg2.N) (p : Fin 2048) (o : Fin 64) (b : Fin 4) (n : Fin 16384)
    (hb : b.val = win2_0.index t (0 : Fin 3)) (hn : n.val = win2_0.index t (1 : Fin 3) * 2048 + p.val) (h2 : win2_0.index t (2 : Fin 3) = 0) :
    (iblk2 V c 0 t : Vec Ideal S1x2048x64 .f32) (ix3 (0 : Fin 1) p o) = (V c main_v3 : FVec Ideal S4x16384x64 .f32) (ix3 b n o) := by
  unfold iblk2
  rw [View.read_apply]
  show V c main_v3 _ = V c main_v3 _
  congr 1
  funext a
  apply Fin.ext
  match a with
  | ⟨0, _⟩ => show win2_0.index t (0 : Fin 3) * 1 + 1 * 0 = b.val; omega
  | ⟨1, _⟩ => show win2_0.index t (1 : Fin 3) * 2048 + 1 * p.val = n.val; omega
  | ⟨2, _⟩ => show win2_0.index t (2 : Fin 3) * 64 + 1 * o.val = o.val; omega

theorem blk2_1_read (c : Dev nD) (t : Fin cfg2.N) (o : Fin 64) (h0 : win2_1.index t (0 : Fin 2) = 0) (h1 : win2_1.index t (1 : Fin 2) = 0) :
    (iblk2 V c 1 t : Vec Ideal S1x64 .f32) (ix2 (0 : Fin 1) o) = (V c main_v8 : FVec Ideal S1x64 .f32) (ix2 (0 : Fin 1) o) := by
  unfold iblk2
  rw [View.read_apply]
  show V c main_v8 _ = V c main_v8 _
  congr 1
  funext a
  apply Fin.ext
  match a with
  | ⟨0, _⟩ => show win2_1.index t (0 : Fin 2) * 1 + 1 * 0 = 0; omega
  | ⟨1, _⟩ => show win2_1.index t (1 : Fin 2) * 64 + 1 * o.val = o.val; omega

theorem blk2_2_read (c : Dev nD) (t : Fin cfg2.N) (o : Fin 64) (h0 : win2_2.index t (0 : Fin 2) = 0) (h1 : win2_2.index t (1 : Fin 2) = 0) :
    (iblk2 V c 2 t : Vec Ideal S1x64 .f32) (ix2 (0 : Fin 1) o) = (V c main_v9 : FVec Ideal S1x64 .f32) (ix2 (0 : Fin 1) o) := by
  unfold iblk2
  rw [View.read_apply]
  show V c main_v9 _ = V c main_v9 _
  congr 1
  funext a
  apply Fin.ext
  match a with
  | ⟨0, _⟩ => show win2_2.index t (0 : Fin 2) * 1 + 1 * 0 = 0; omega
  | ⟨1, _⟩ => show win2_2.index t (1 : Fin 2) * 64 + 1 * o.val = o.val; omega

theorem blk2_3_read (c : Dev nD) (t : Fin cfg2.N) (o : Fin 64) (h0 : win2_3.index t (0 : Fin 2) = 0) (h1 : win2_3.index t (1 : Fin 2) = 0) :
    (iblk2 V c 3 t : Vec Ideal S1x64 .f32) (ix2 (0 : Fin 1) o) = (V c main_v10 : FVec Ideal S1x64 .f32) (ix2 (0 : Fin 1) o) := by
  unfold iblk2
  rw [View.read_apply]
  show V c main_v10 _ = V c main_v10 _
  congr 1
  funext a
  apply Fin.ext
  match a with
  | ⟨0, _⟩ => show win2_3.index t (0 : Fin 2) * 1 + 1 * 0 = 0; omega
  | ⟨1, _⟩ => show win2_3.index t (1 : Fin 2) * 64 + 1 * o.val = o.val; omega

theorem blk2_4_read (c : Dev nD) (t : Fin cfg2.N) (o : Fin 64) (h0 : win2_4.index t (0 : Fin 2) = 0) (h1 : win2_4.index t (1 : Fin 2) = 0) :
    (iblk2 V c 4 t : Vec Ideal S1x64 .f32) (ix2 (0 : Fin 1) o) = (V c main_v11 : FVec Ideal S1x64 .f32) (ix2 (0 : Fin 1) o) := by
  unfold iblk2
  rw [View.read_apply]
  show V c main_v11 _ = V c main_v11 _
  congr 1
  funext a
  apply Fin.ext
  match a with
  | ⟨0, _⟩ => show win2_4.index t (0 : Fin 2) * 1 + 1 * 0 = 0; omega
  | ⟨1, _⟩ => show win2_4.index t (1 : Fin 2) * 64 + 1 * o.val = o.val; omega

theorem hz3_r2 : (![0, 0, 0] : Fin 3 → Nat) = fun _ => 0 := funext fun a => by fin_cases a <;> rfl
theorem hz2_r2 : (![0, 0] : Fin 2 → Nat) = fun _ => 0 := funext fun a => by fin_cases a <;> rfl

theorem flushed_eq2 (c : Dev nD) (t : Fin cfg2.N) :
    (dat2 V c).flushed 5 t = ((cfg2.win 5).blk t).view.read (Elt Ideal)
      (bnArr (V c main_v3) (V c main_v8) (V c main_v9) (V c main_v10) (V c main_v11)) := by
  show (cfg2.win 5).cut (grid2.coords t) ((dat2 V c).after 5 t) = _
  rw [after2_5]
  unfold out2_5
  rw [View.canon_unit_zero hz3_r2]
  simp only [View.ld_unit_zero (S := S1x2048x64) hz3_r2, View.ld_unit_zero (S := S1x64) hz2_r2]
  obtain ⟨e0, e1, e2, e3, e4, e5, e6, e7, e8, e9, e10, e11, e12, e13⟩ := idx_facts2 t
  funext j
  have h0 : (j 0).val < 1 := (j 0).isLt
  have h1 : (j 1).val < 64 := (j 1).isLt
  have h2 : (j 2).val < 2048 := (j 2).isLt
  refine (pay2_at (iblk2 V c 0 t) (iblk2 V c 1 t) (iblk2 V c 2 t) (iblk2 V c 3 t) (iblk2 V c 4 t)
    ((cfg2.win 5).xinj (grid2.coords t) j) ⟨(j 1).val, h1⟩ ⟨(j 2).val, h2⟩ rfl rfl).trans ?_
  rw [blk2_0_read V c t ⟨(j 2).val, h2⟩ ⟨(j 1).val, h1⟩ ⟨win2_5.index t (0 : Fin 3), by omega⟩
      ⟨win2_5.index t (2 : Fin 3) * 2048 + (j 2).val, by omega⟩ e0.symm (by show _ = win2_0.index t (1 : Fin 3) * 2048 + (j 2).val; rw [e1]) e2,
    blk2_1_read V c t _ e4 e5, blk2_2_read V c t _ e6 e7, blk2_3_read V c t _ e8 e9, blk2_4_read V c t _ e10 e11]
  show _ = bnArr _ _ _ _ _ (((cfg2.win 5).blk t).view.emb j)
  have hi : ((cfg2.win 5).blk t).view.emb j = ix3 (⟨win2_5.index t (0 : Fin 3), by omega⟩ : Fin 4) (⟨(j 1).val, h1⟩ : Fin 64)
      (⟨win2_5.index t (2 : Fin 3) * 2048 + (j 2).val, by omega⟩ : Fin 16384) := by
    funext a
    apply Fin.ext
    match a with
    | ⟨0, _⟩ => show win2_5.index t (0 : Fin 3) * 1 + 1 * (j 0).val = win2_5.index t (0 : Fin 3); omega
    | ⟨1, _⟩ => show win2_5.index t (1 : Fin 3) * 64 + 1 * (j 1).val = (j 1).val; omega
    | ⟨2, _⟩ => show win2_5.index t (2 : Fin 3) * 2048 + 1 * (j 2).val = win2_5.index t (2 : Fin 3) * 2048 + (j 2).val; omega
  rw [hi]
  rfl

theorem mem_blk2 (t : Fin cfg2.N) (i : S4x64x16384.Idx) :
    i ∈ ((cfg2.win 5).blk t).view.set ↔ ∀ a : Fin 3, win2_5.index t a * S1x64x2048.size a ≤ (i a).val ∧ (i a).val < win2_5.index t a * S1x64x2048.size a + S1x64x2048.size a := by
  show i ∈ ((View.whole main_v12).slice (win2_5.rect t)).set ↔ _
  rw [View.set_slice_whole, Rect.mem_set_unit]
  exact Iff.rfl

theorem cover2 (i : S4x64x16384.Idx) : ∃ t : Fin cfg2.N, (cfg2.win 5).flush t = true ∧ i ∈ ((cfg2.win 5).blk t).view.set := by
  have hi0 : (i 0).val < 4 := (i 0).isLt
  have hi1 : (i 1).val < 64 := (i 1).isLt
  have hi2 : (i 2).val < 16384 := (i 2).isLt
  obtain ⟨t, ht⟩ := idx_onto2 ⟨(i 0).val, hi0⟩ ⟨(i 2).val / 2048, by omega⟩
  have q0 : win2_5.index t (0 : Fin 3) = (i 0).val := congrFun ht 0
  have q1 : win2_5.index t (1 : Fin 3) = 0 := congrFun ht 1
  have q2 : win2_5.index t (2 : Fin 3) = (i 2).val / 2048 := congrFun ht 2
  refine ⟨t, flush2_5 t, ?_⟩
  rw [mem_blk2]
  intro a
  match a with
  | ⟨0, _⟩ => show win2_5.index t (0 : Fin 3) * 1 ≤ (i 0).val ∧ (i 0).val < win2_5.index t (0 : Fin 3) * 1 + 1; omega
  | ⟨1, _⟩ => show win2_5.index t (1 : Fin 3) * 64 ≤ (i 1).val ∧ (i 1).val < win2_5.index t (1 : Fin 3) * 64 + 64; omega
  | ⟨2, _⟩ => show win2_5.index t (2 : Fin 3) * 2048 ≤ (i 2).val ∧ (i 2).val < win2_5.index t (2 : Fin 3) * 2048 + 2048; omega

theorem final2 (c : Dev nD) :
    (dat2 V c).arrAt 5 cfg2.N = bnArr (V c main_v3) (V c main_v8) (V c main_v9) (V c main_v10) (V c main_v11) :=
  (dat2 V c).arrAt_eq_of_cover 5 _ (fun t _ => flushed_eq2 V c t) cover2

abbrev hArr (c : Dev nD) : FVec Ideal S4x16384x64 .f32 := V c main_v3
abbrev muRow (c : Dev nD) : FVec Ideal S1x64 .f32 := V c main_v8
abbrev vaRow (c : Dev nD) : FVec Ideal S1x64 .f32 := V c main_v9
abbrev gRow (c : Dev nD) : FVec Ideal S1x64 .f32 := V c main_v10
abbrev beRow (c : Dev nD) : FVec Ideal S1x64 .f32 := V c main_v11

def bnAct (h3 : FVec Ideal S4x16384x64 .f32) (mu va g β : FVec Ideal S1x64 .f32) : FVec Ideal S4x64x16384 .f32 := fun i => Cert.Spec.leaky (g (ix2 0 (i 1)) * ((h3 (ix3 (i 0) (i 2) (i 1)) - mu (ix2 0 (i 1))) * Ideal.rsqrt (va (ix2 0 (i 1)) + Cert.Spec.epsW)) + β (ix2 0 (i 1)))

theorem bnAct_apply (h3 : FVec Ideal S4x16384x64 .f32) (mu va g β : FVec Ideal S1x64 .f32) (b : Fin 4) (o : Fin 64) (n : Fin 16384) :
    bnAct h3 mu va g β (ix3 b o n)
      = leaky (g (ix2 (0 : Fin 1) o) * ((h3 (ix3 b n o) - mu (ix2 (0 : Fin 1) o)) * Ideal.rsqrt (va (ix2 (0 : Fin 1) o) + epsW)) + β (ix2 (0 : Fin 1) o)) := rfl

theorem bn_array (c : Dev nD) :
    (dat2 (F := Ideal) V c).arrAt 5 cfg2.N = bnAct (V c main_v3) (V c main_v8) (V c main_v9) (V c main_v10) (V c main_v11) :=
  (final2 V c).trans rfl

end Cert.KernelIdeal.Val
-- ==== Proof.Bridge.lean ====
import proofs.«405998_j76398878261701_2_alg».proof.Proof.Spec
import Mathlib.Algebra.BigOperators.Ring.Finset
import Mathlib.Tactic.Ring
import Mathlib.Tactic.NormNum

noncomputable section

namespace Cert.Spec

open Idealize.ShloMosaic
open scoped BigOperators

theorem invKW_eq : invKW = ((1 / 32 : ℝ) : EReal) := by
  simp [invKW, Ideal.ofBits, Ideal.ieee, -EReal.coe_mul]; norm_num

theorem kW_eq : kW = ((32 : ℝ) : EReal) := by
  simp [kW, Ideal.ofBits, Ideal.ieee, -EReal.coe_mul]; norm_num

theorem zeroW_eq : zeroW = 0 := Ideal.ofBits_zero_f32

theorem cntW_eq : cntW = ((65536 : ℝ) : EReal) := by
  simp [cntW, Ideal.ofBits, Ideal.ieee, -EReal.coe_mul]; norm_num

theorem cntW_pos : zeroW < cntW := by
  rw [zeroW_eq, cntW_eq]; exact_mod_cast (by norm_num : (0 : ℝ) < 65536)

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem real_swap {K C : Type*} [Fintype K] [Fintype C] (a : K → C → ℝ) (w : C → ℝ) (r : ℝ) :
    (∑ k : K, ∑ c : C, a k c * w c) * r = ∑ c : C, w c * ((0 + ∑ k : K, a k c) * r) := by
  rw [Finset.sum_comm, Finset.sum_mul]
  refine Finset.sum_congr rfl fun c _ => ?_
  rw [← Finset.sum_mul, zero_add]; ring

theorem hK_eq_hR (x : X) (w : Wt) (e : Nb) (hx : ∀ b c n, ∃ r : ℝ, x b c n = (r : EReal))
    (hw : ∀ o c, ∃ r : ℝ, w o c = (r : EReal)) : hK x w e = hR x w e := by
  choose xr hxr using hx
  choose wr hwr using hw
  funext b o n
  simp only [hK, hR, hxr, hwr, invKW_eq, kW_eq, zeroW_eq, Ideal.div_coe (by norm_num : (32 : ℝ) ≠ 0),
    ← EReal.coe_zero, ← EReal.coe_mul, ← coe_sum, ← EReal.coe_add]
  exact congrArg _ (real_swap (fun k c => xr b c (e b n k)) (wr o) (1 / 32))

theorem post_hK_eq_post_hR (x : X) (w : Wt) (e : Nb) (g β : Fin 64 → EReal)
    (hx : ∀ b c n, ∃ r : ℝ, x b c n = (r : EReal)) (hw : ∀ o c, ∃ r : ℝ, w o c = (r : EReal)) :
    post (hK x w e) g β = post (hR x w e) g β := by
  rw [hK_eq_hR x w e hx hw]

end Cert.Spec
-- ==== Proof.KI.ValHost.lean ====
import proofs.«405998_j76398878261701_2_alg».proof.KernelIdeal
import proofs.«405998_j76398878261701_2_alg».proof.Proof.Spec
import proofs.«405998_j76398878261701_2_alg».proof.Proof.Bridge
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.Spec
open Idealize.ShloMosaic Idealize.ShloMosaic.ValueIdx
open scoped BigOperators

variable [Facts]
open Facts₀ Facts

theorem slice_apply (hp : FVec Ideal S4x16384x128 .f32) (b : Fin 4) (n : Fin 16384) (o : Fin 64) :
    extractStridedSlice S4x16384x64 ![0, 0, 0] hp slices_S4x16384x128_S4x16384x64_0_0_0 (ix3 b n o)
      = hp (ix3 b n (⟨o.val, by have := o.isLt; omega⟩ : Fin 128)) := by
  refine extractStridedSlice_apply _ hp _ (ix3 b n o) (ix3 b n (⟨o.val, by have := o.isLt; omega⟩ : Fin 128)) fun a => ?_
  match a with
  | ⟨0, _⟩ => exact (Nat.zero_add _).symm
  | ⟨1, _⟩ => exact (Nat.zero_add _).symm
  | ⟨2, _⟩ => exact (Nat.zero_add _).symm

theorem drop01_val_gen {d : Fin 3 → ℕ} {t : Shape} (h : (⟨3, d⟩ : Shape).ReducesTo [0, 1] t) (i : (⟨3, d⟩ : Shape).Idx)
    (a : Fin t.rank) : (h.drop i a).val = (i 2).val := by
  have hr : t.rank = 1 := h.1
  obtain ⟨av, hav⟩ := a
  obtain rfl : av = 0 := by omega
  rfl

theorem drop01_val (i : S4x16384x64.Idx) (a : Fin S64.rank) :
    ((reducesTo_S4x16384x64_S64_d0_1).drop i a).val = (i 2).val :=
  drop01_val_gen reducesTo_S4x16384x64_S64_d0_1 i a

theorem reduce01_apply (x : FVec Ideal S4x16384x64 .f32) (init : EReal) (o : Fin 64) :
    Ideal.hostReduceAdd reducesTo_S4x16384x64_S64_d0_1 x init (ix1 o) = init + ∑ k : Fin 65536, x (ix3 (bk k) (nk k) o) := by
  unfold Ideal.hostReduceAdd
  refine congrArg (init + ·) ?_
  rw [sum_flat (fun b n => x (ix3 b n o)), ← Fintype.sum_prod_type']
  have hmem : ∀ i : S4x16384x64.Idx, i ∈ Finset.univ.filter (fun i => (reducesTo_S4x16384x64_S64_d0_1).drop i = ix1 o) → (i 2).val = o.val := by
    intro i hi
    have h := (Finset.mem_filter.mp hi).2
    have h' := congrArg (fun f => (f (0 : Fin 1)).val) h
    simpa [drop01_val] using h'
  have hleft : ∀ i : S4x16384x64.Idx, (i 2).val = o.val → ix3 (i 0 : Fin 4) (i 1 : Fin 16384) o = i := by
    intro i h
    funext a
    match a with
    | ⟨0, _⟩ => rfl
    | ⟨1, _⟩ => rfl
    | ⟨2, _⟩ => exact Fin.ext h.symm
  refine Finset.sum_bij' (fun i _ => ((i 0 : Fin 4), (i 1 : Fin 16384))) (fun p _ => ix3 p.1 p.2 o) ?_ ?_ ?_ ?_ ?_
  · intro i _; exact Finset.mem_univ _
  · intro p _
    refine Finset.mem_filter.mpr ⟨Finset.mem_univ _, funext fun a => Fin.ext ?_⟩
    rw [drop01_val]
    obtain ⟨av, hav⟩ := a
    obtain rfl : av = 0 := by have : S64.rank = 1 := rfl; omega
    rfl
  · intro i hi; exact hleft i (hmem i hi)
  · intro p _; rfl
  · intro i hi; exact congrArg x (hleft i (hmem i hi)).symm

def meanT (h3 : FVec Ideal S4x16384x64 .f32) : FVec Ideal S64 .f32 :=
  Host.divf (F := Ideal)
    (Host.reduceAdd (F := Ideal) h3 (constant (F := Ideal) S_ .f32 0x00000000#32) reducesTo_S4x16384x64_S64_d0_1 h_S_)
    (broadcastInDim S64 ![] bcast_S_S64 (constant (F := Ideal) S_ .f32 0x47800000#32))

theorem hostSum_apply (x : FVec Ideal S4x16384x64 .f32) (o : Fin 64) :
    Host.reduceAdd (F := Ideal) x (constant (F := Ideal) S_ .f32 0x00000000#32) reducesTo_S4x16384x64_S64_d0_1 h_S_ (ix1 o)
      = zeroW + ∑ k : Fin 65536, x (ix3 (bk k) (nk k) o) :=
  reduce01_apply x _ o

theorem mean_host (h3 : FVec Ideal S4x16384x64 .f32) (o : Fin 64) :
    meanT h3 (ix1 o) = mean (fun b o n => h3 (ix3 b n o)) o := by
  unfold meanT mean
  show Ideal.div (Host.reduceAdd (F := Ideal) h3 (constant (F := Ideal) S_ .f32 0x00000000#32) reducesTo_S4x16384x64_S64_d0_1 h_S_ (ix1 o)) cntW = _
  rw [hostSum_apply]

def meanB (h3 : FVec Ideal S4x16384x64 .f32) : FVec Ideal S4x16384x64 .f32 :=
  broadcastInDim S4x16384x64 ![0, 1, 2] bcast_S1x1x64_S4x16384x64_0_1_2
    (Host.divf (F := Ideal)
      (broadcastInDim S1x1x64 ![2] bcast_S64_S1x1x64_2
        (Host.reduceAdd (F := Ideal) h3 (constant (F := Ideal) S_ .f32 0x00000000#32) reducesTo_S4x16384x64_S64_d0_1 h_S_))
      (broadcastInDim S1x1x64 ![] bcast_S_S1x1x64 (constant (F := Ideal) S_ .f32 0x47800000#32)))

def divisorT : FVec Ideal S_ .f32 :=
  subf (constant (F := Ideal) S_ .f32 0x47800000#32) (sitofp (F := Ideal) .f32 (constantI S_ 32 0#32))

def varT (h3 : FVec Ideal S4x16384x64 .f32) : FVec Ideal S64 .f32 :=
  select (broadcastInDim S64 ![] bcast_S_S64 (cmpf (F := Ideal) .ogt divisorT (constant (F := Ideal) S_ .f32 0x00000000#32)))
    (Host.divf (F := Ideal)
      (Host.reduceAdd (F := Ideal) (mulf (subf h3 (meanB h3)) (subf h3 (meanB h3))) (constant (F := Ideal) S_ .f32 0x00000000#32)
        reducesTo_S4x16384x64_S64_d0_1 h_S_)
      (broadcastInDim S64 ![] bcast_S_S64 divisorT))
    (broadcastInDim S64 ![] bcast_S_S64 (id (constant (F := Ideal) S_ .f32 0x7FC00000#32)))

theorem hostDivf_apply {s : Shape} (x y : FVec Ideal s .f32) (i : s.Idx) : Host.divf (F := Ideal) x y i = Ideal.div (x i) (y i) := rfl

theorem bcast_const_apply {t : Shape} (dims : Fin S_.rank → Fin t.rank) (h : S_.BroadcastsInDim t dims) (w : BitVec 32) (i : t.Idx) :
    broadcastInDim t dims h (constant (F := Ideal) S_ .f32 w) i = Ideal.ofBits .f32 w := rfl

theorem meanB_apply (h3 : FVec Ideal S4x16384x64 .f32) (b : Fin 4) (n : Fin 16384) (o : Fin 64) :
    meanB h3 (ix3 b n o) = mean (fun b o n => h3 (ix3 b n o)) o := by
  unfold meanB
  rw [broadcastInDim_apply _ _ _ (ix3 b n o) (ix3 (0 : Fin 1) (0 : Fin 1) o) (fun a => by
    match a with
    | ⟨0, _⟩ => rfl
    | ⟨1, _⟩ => rfl
    | ⟨2, _⟩ => rfl)]
  rw [hostDivf_apply, bcast_const_apply]
  rw [broadcastInDim_apply _ _ _ (ix3 (0 : Fin 1) (0 : Fin 1) o) (ix1 o) (fun a => by
    match a with
    | ⟨0, _⟩ => rfl), hostSum_apply]
  rfl

theorem divisorT_apply (k : S_.Idx) : divisorT k = cntW := by
  show cntW - (((0#32 : BitVec 32).toInt : ℝ) : EReal) = cntW
  simp

theorem var_host (h3 : FVec Ideal S4x16384x64 .f32) (o : Fin 64) :
    varT h3 (ix1 o) = var (fun b o n => h3 (ix3 b n o)) o := by
  unfold varT
  show Scalar.select (Ideal.cmp .ogt (divisorT _) zeroW)
      (Ideal.div (Host.reduceAdd (F := Ideal) (mulf (subf h3 (meanB h3)) (subf h3 (meanB h3))) (constant (F := Ideal) S_ .f32 0x00000000#32)
        reducesTo_S4x16384x64_S64_d0_1 h_S_ (ix1 o)) (divisorT _)) _ = _
  rw [divisorT_apply, hostSum_apply]
  have hc : Ideal.cmp .ogt cntW zeroW = 1#1 := by
    unfold Ideal.cmp
    simp [cntW_pos, -Ideal.ofBits_zero_f32]
  rw [hc, select_one]
  unfold var
  refine congrArg (fun s => Ideal.div (zeroW + s) cntW) (Finset.sum_congr rfl fun k _ => ?_)
  show (h3 (ix3 (bk k) (nk k) o) - meanB h3 (ix3 (bk k) (nk k) o)) * (h3 (ix3 (bk k) (nk k) o) - meanB h3 (ix3 (bk k) (nk k) o)) = _
  rw [meanB_apply]

end Cert.KernelIdeal.Val
-- ==== Proof.SpecArgs.lean ====
import proofs.«405998_j76398878261701_2_alg».proof.Proof.Spec
import Idealize.ShloMosaic.Lib.ValueIdx

noncomputable section

namespace Cert.Spec

open Idealize.ShloMosaic Idealize.ShloMosaic.ValueIdx

def xOf (x : FVec Ideal (⟨3, ![4, 64, 16384]⟩ : Shape) .f32) : X := fun b c n => x (ix3 b c n)

def wOf (w : FVec Ideal (⟨2, ![64, 64]⟩ : Shape) .f32) : Wt := fun o c => w (ix2 o c)

def vOf (g : FVec Ideal (⟨1, ![64]⟩ : Shape) .f32) : Fin 64 → EReal := fun o => g (ix1 o)

def nbOf (e : IVec (⟨3, ![4, 16384, 32]⟩ : Shape) 32) (he : ∀ j, (e j : BitVec 32).toNat + 1 ≤ 16384) : Nb :=
  fun b n k => ⟨(e (ix3 b n k) : BitVec 32).toNat, by have := he (ix3 b n k); omega⟩

def outR (x : FVec Ideal (⟨3, ![4, 64, 16384]⟩ : Shape) .f32) (e : IVec (⟨3, ![4, 16384, 32]⟩ : Shape) 32)
    (he : ∀ j, (e j : BitVec 32).toNat + 1 ≤ 16384) (w : FVec Ideal (⟨2, ![64, 64]⟩ : Shape) .f32)
    (g β : FVec Ideal (⟨1, ![64]⟩ : Shape) .f32) : H :=
  post (hR (xOf x) (wOf w) (nbOf e he)) (vOf g) (vOf β)

def outK (x : FVec Ideal (⟨3, ![4, 64, 16384]⟩ : Shape) .f32) (e : IVec (⟨3, ![4, 16384, 32]⟩ : Shape) 32)
    (he : ∀ j, (e j : BitVec 32).toNat + 1 ≤ 16384) (w : FVec Ideal (⟨2, ![64, 64]⟩ : Shape) .f32)
    (g β : FVec Ideal (⟨1, ![64]⟩ : Shape) .f32) : H :=
  post (hK (xOf x) (wOf w) (nbOf e he)) (vOf g) (vOf β)

end Cert.Spec

end
-- ==== Proof.KI.KValue.lean ====
import proofs.«405998_j76398878261701_2_alg».proof.Proof.KI.Run
import proofs.«405998_j76398878261701_2_alg».proof.Proof.KI.Val0
import proofs.«405998_j76398878261701_2_alg».proof.Proof.KI.Val1Array
import proofs.«405998_j76398878261701_2_alg».proof.Proof.KI.Val2
import proofs.«405998_j76398878261701_2_alg».proof.Proof.KI.ValHost
import proofs.«405998_j76398878261701_2_alg».proof.Proof.Spec
import proofs.«405998_j76398878261701_2_alg».proof.Proof.SpecArgs
import Idealize.ShloMosaic.Lib.ValueIdx
import Idealize.ShloMosaic.Lib.Pipeline.Value
import Idealize.ShloMosaic.PureOps.Ideal.Laws
import Idealize.ShloMosaic.Lib.StableHlo.Run
import Idealize.ShloMosaic.Lib.ValueLayout

set_option maxRecDepth 16384

noncomputable section

namespace Cert.KernelIdeal.KV

open Cert.KernelIdeal Cert.KernelIdeal.Gen Cert.KernelIdeal.Fr
open Idealize.ShloMosaic Idealize.ShloMosaic.TcCoe Idealize.ShloMosaic.Tactic Idealize.ShloMosaic.ValueIdx
open scoped BigOperators

def padW (a2 : FVec Ideal S64x64 .f32) (c0 : IVec S_ 32) : FVec Ideal S128x64 .f32 :=
  pad S128x64 ![0, 0] ![64, 0] ![0, 0] a2 (sitofp (F := Ideal) .f32 c0) pads_S64x64_S128x64_0640_000 h_S_

def sliceH (v2 : FVec Ideal S4x16384x128 .f32) : FVec Ideal S4x16384x64 .f32 :=
  extractStridedSlice S4x16384x64 ![0, 0, 0] v2 slices_S4x16384x128_S4x16384x64_0_0_0

def rowOf (v : FVec Ideal S64 .f32) : FVec Ideal S1x64 .f32 := shapeCast S1x64 v shapeCasts_S64_S1x64

theorem rowOf_apply (v : FVec Ideal S64 .f32) (o : Fin 64) : rowOf v (ix2 (0 : Fin 1) o) = v (ix1 o) :=
  shapeCast_a_1a_apply v shapeCasts_S64_S1x64 0 o

theorem sliceH_apply (a0 : FVec Ideal S4x64x16384 .f32) (a1 : IVec S4x16384x32 32) (he : ∀ j, (a1 j : BitVec 32).toNat + 1 ≤ 16384)
    (a2 : FVec Ideal S64x64 .f32) (b : Fin 4) (n : Fin 16384) (o : Fin 64) :
    sliceH (Val.gatherMean a1 (Val.conv a0 (padW a2 (constantI S_ 32 0#32)))) (ix3 b n o)
      = Cert.Spec.hK (Cert.Spec.xOf a0) (Cert.Spec.wOf a2) (Cert.Spec.nbOf a1 he) b o n := by
  refine (Val.slice_apply _ b n o).trans ?_
  show (∑ k : Fin 32, ∑ cc : Fin 64, a0 (ix3 b cc _) * padW a2 (constantI S_ 32 0#32) (ix2 (⟨o.val, _⟩ : Fin 128) cc)) * Cert.Spec.invKW = _
  unfold Cert.Spec.hK Cert.Spec.xOf Cert.Spec.wOf
  refine congrArg (· * Cert.Spec.invKW) (Finset.sum_congr rfl fun k _ => Finset.sum_congr rfl fun cc _ => ?_)
  have hi : (⟨(a1 (ix3 b n k) : BitVec 32).toNat % 16384, Nat.mod_lt _ (by decide)⟩ : Fin 16384) = Cert.Spec.nbOf a1 he b n k :=
    Fin.ext (Nat.mod_eq_of_lt (by have := he (ix3 b n k); omega))
  rw [hi]
  exact congrArg (a0 (ix3 b cc (Cert.Spec.nbOf a1 he b n k)) * ·) (Val.pad_value a2 o cc)

theorem bnAct_apply (H3 : FVec Ideal S4x16384x64 .f32) (h : Cert.Spec.H) (hH : ∀ b n o, H3 (ix3 b n o) = h b o n)
    (a3 a4 : FVec Ideal S64 .f32) (b : Fin 4) (o : Fin 64) (n : Fin 16384) :
    Val.bnAct H3 (rowOf (Val.meanT H3)) (rowOf (Val.varT H3)) (rowOf a3) (rowOf a4) (ix3 b o n)
      = Cert.Spec.post h (Cert.Spec.vOf a3) (Cert.Spec.vOf a4) b o n := by
  have hf : (fun b o n => H3 (ix3 b n o)) = h := funext fun b => funext fun o => funext fun n => hH b n o
  show Cert.Spec.leaky (rowOf a3 (ix2 (0 : Fin 1) o) * ((H3 (ix3 b n o) - rowOf (Val.meanT H3) (ix2 (0 : Fin 1) o)) * Ideal.rsqrt (rowOf (Val.varT H3) (ix2 (0 : Fin 1) o) + Cert.Spec.epsW)) + rowOf a4 (ix2 (0 : Fin 1) o)) = _
  rw [rowOf_apply, rowOf_apply, rowOf_apply, rowOf_apply, Val.mean_host, Val.var_host, hf, hH]
  rfl

variable (m : (ℓ : Loc nD τ sig) → Buf (Elt Ideal) ℓ) (ρ : Dev nD → PrngReg)
variable (hy : ∀ c : Dev nD, Hyps1 (F := Ideal) (V3 m ρ) c)

theorem c0_eq (c : Dev nD) : (W1 m ρ c (Proc.devRef .tc main_c) : IVec S_ 32) = constantI S_ 32 0#32 := by
  unfold W1; dsimp only [hostOps0]; after_results

theorem v0_eq (c : Dev nD) : (W2 m ρ c (Proc.devRef .tc main_v0) : FVec Ideal S128x64 .f32)
    = padW (m ((c.tc : Thread nD τ).loc main_arg2)) (constantI S_ 32 0#32) := by
  have e2 : W1 m ρ c (Proc.devRef .tc main_arg2) = m ((c.tc : Thread nD τ).loc main_arg2) := W1_of m ρ c main_arg2 (by decide)
  refine Eq.trans ?_ (congrArg₂ padW e2 (c0_eq m ρ c))
  unfold W2; dsimp only [hostOps0_1]; after_results; rfl

theorem arg0_eq (c : Dev nD) : W2 m ρ c (Proc.devRef .tc main_arg0) = m ((c.tc : Thread nD τ).loc main_arg0) :=
  (W2_of m ρ c main_arg0 (by decide)).trans (W1_of m ρ c main_arg0 (by decide))

theorem v1_eq (c : Dev nD) : (W3 m ρ c (Proc.devRef .tc main_v1) : FVec Ideal S4x16384x128 .f32)
    = Val.conv (m ((c.tc : Thread nD τ).loc main_arg0)) (padW (m ((c.tc : Thread nD τ).loc main_arg2)) (constantI S_ 32 0#32)) :=
  (W3_arr m ρ c 2).trans ((Val.conv_array (V2 m ρ) c).trans (congrArg₂ Val.conv (arg0_eq m ρ c) (v0_eq m ρ c)))

theorem v2_eq (c : Dev nD) : (W4 m ρ hy c (Proc.devRef .tc main_v2) : FVec Ideal S4x16384x128 .f32)
    = Val.gatherMean (m ((c.tc : Thread nD τ).loc main_arg1))
        (Val.conv (m ((c.tc : Thread nD τ).loc main_arg0)) (padW (m ((c.tc : Thread nD τ).loc main_arg2)) (constantI S_ 32 0#32))) :=
  (W4_arr m ρ hy c 1).trans ((Val.gather_array (V3 m ρ) c (hy c)).trans (congrArg₂ Val.gatherMean (V3_main_arg1 m ρ c) (v1_eq m ρ c)))

theorem v3_eq (c : Dev nD) : (W5 m ρ hy c (Proc.devRef .tc main_v3) : FVec Ideal S4x16384x64 .f32)
    = sliceH (W4 m ρ hy c (Proc.devRef .tc main_v2)) := by
  unfold W5; dsimp only [hostOps2]; after_results; rfl

theorem v6_eq (c : Dev nD) : (W5 m ρ hy c (Proc.devRef .tc main_v6) : FVec Ideal S64 .f32)
    = Val.meanT (W5 m ρ hy c (Proc.devRef .tc main_v3)) := by
  rw [v3_eq]
  unfold W5; dsimp only [hostOps2]; after_results; rfl

def varG (c1 : IVec S_ 32) (h3 : FVec Ideal S4x16384x64 .f32) : FVec Ideal S64 .f32 :=
  let mB : FVec Ideal S4x16384x64 .f32 := broadcastInDim S4x16384x64 ![0, 1, 2] bcast_S1x1x64_S4x16384x64_0_1_2
    (Host.divf (F := Ideal)
      (broadcastInDim S1x1x64 ![2] bcast_S64_S1x1x64_2
        (Host.reduceAdd (F := Ideal) h3 (constant (F := Ideal) S_ .f32 0x00000000#32) reducesTo_S4x16384x64_S64_d0_1 h_S_))
      (broadcastInDim S1x1x64 ![] bcast_S_S1x1x64 (constant (F := Ideal) S_ .f32 0x47800000#32)))
  let dv : FVec Ideal S_ .f32 := subf (constant (F := Ideal) S_ .f32 0x47800000#32) (sitofp (F := Ideal) .f32 c1)
  select (broadcastInDim S64 ![] bcast_S_S64 (cmpf (F := Ideal) .ogt dv (constant (F := Ideal) S_ .f32 0x00000000#32)))
    (Host.divf (F := Ideal)
      (Host.reduceAdd (F := Ideal) (mulf (subf h3 mB) (subf h3 mB)) (constant (F := Ideal) S_ .f32 0x00000000#32)
        reducesTo_S4x16384x64_S64_d0_1 h_S_)
      (broadcastInDim S64 ![] bcast_S_S64 dv))
    (broadcastInDim S64 ![] bcast_S_S64 (id (constant (F := Ideal) S_ .f32 0x7FC00000#32)))

theorem varG_zero (h3 : FVec Ideal S4x16384x64 .f32) : varG (constantI S_ 32 0#32) h3 = Val.varT h3 := rfl

theorem c1_eq (c : Dev nD) : (W5 m ρ hy c (Proc.devRef .tc main_c_1) : IVec S_ 32) = constantI S_ 32 0#32 := by
  unfold W5; dsimp only [hostOps2]; after_results

theorem v7_eq (c : Dev nD) : (W6 m ρ hy c (Proc.devRef .tc main_v7) : FVec Ideal S64 .f32)
    = Val.varT (W5 m ρ hy c (Proc.devRef .tc main_v3)) := by
  refine Eq.trans ?_ ((congrArg (fun c1 => varG c1 (W5 m ρ hy c (Proc.devRef .tc main_v3))) (c1_eq m ρ hy c)).trans (varG_zero _))
  unfold W6; dsimp only [hostOps2_1]; after_results; rfl

theorem W6_untouched (c : Dev nD) (r : Ref sig .tc) (h0 : r ∉ hostOps0_W) (h1 : r ∉ hostOps0_1_W) (h2 : ∀ w, Pipeline.arrRef spec0 w ≠ r)
    (h3 : ∀ w, Pipeline.arrRef spec1 w ≠ r) (h4 : r ∉ hostOps2_W) (h5 : r ∉ hostOps2_1_W) :
    W6 m ρ hy c (Proc.devRef .tc r) = m ((c.tc : Thread nD τ).loc r) :=
  (W6_of m ρ hy c r h5).trans <| (W5_of m ρ hy c r h4).trans <| (W4_of_ne m ρ hy c r h3).trans <| (W3_of_ne m ρ c r h2).trans <|
    (W2_of m ρ c r h1).trans <| (W1_of m ρ c r h0).trans rfl

theorem v8_eq (c : Dev nD) : (W7 m ρ hy c (Proc.devRef .tc main_v8) : FVec Ideal S1x64 .f32)
    = rowOf (W6 m ρ hy c (Proc.devRef .tc main_v6)) := by
  unfold W7; dsimp only [hostOps2_2]; after_results; rfl
theorem v9_eq (c : Dev nD) : (W7 m ρ hy c (Proc.devRef .tc main_v9) : FVec Ideal S1x64 .f32)
    = rowOf (W6 m ρ hy c (Proc.devRef .tc main_v7)) := by
  unfold W7; dsimp only [hostOps2_2]; after_results; rfl
theorem v10_eq (c : Dev nD) : (W7 m ρ hy c (Proc.devRef .tc main_v10) : FVec Ideal S1x64 .f32)
    = rowOf (W6 m ρ hy c (Proc.devRef .tc main_arg3)) := by
  unfold W7; dsimp only [hostOps2_2]; after_results; rfl
theorem v11_eq (c : Dev nD) : (W7 m ρ hy c (Proc.devRef .tc main_v11) : FVec Ideal S1x64 .f32)
    = rowOf (W6 m ρ hy c (Proc.devRef .tc main_arg4)) := by
  unfold W7; dsimp only [hostOps2_2]; after_results; rfl

abbrev H3 (c : Dev nD) : FVec Ideal S4x16384x64 .f32 :=
  sliceH (Val.gatherMean (m ((c.tc : Thread nD τ).loc main_arg1))
    (Val.conv (m ((c.tc : Thread nD τ).loc main_arg0)) (padW (m ((c.tc : Thread nD τ).loc main_arg2)) (constantI S_ 32 0#32))))

theorem h3_eq5 (c : Dev nD) : (W5 m ρ hy c (Proc.devRef .tc main_v3) : FVec Ideal S4x16384x64 .f32) = H3 m c :=
  (v3_eq m ρ hy c).trans (congrArg sliceH (v2_eq m ρ hy c))
theorem h3_eq (c : Dev nD) : (W7 m ρ hy c (Proc.devRef .tc main_v3) : FVec Ideal S4x16384x64 .f32) = H3 m c :=
  (W7_of m ρ hy c main_v3 (by decide)).trans ((W6_of m ρ hy c main_v3 (by decide)).trans (h3_eq5 m ρ hy c))
theorem mu_eq (c : Dev nD) : (W7 m ρ hy c (Proc.devRef .tc main_v8) : FVec Ideal S1x64 .f32) = rowOf (Val.meanT (H3 m c)) :=
  (v8_eq m ρ hy c).trans (congrArg rowOf (((W6_of m ρ hy c main_v6 (by decide)).trans (v6_eq m ρ hy c)).trans (congrArg Val.meanT (h3_eq5 m ρ hy c))))
theorem va_eq (c : Dev nD) : (W7 m ρ hy c (Proc.devRef .tc main_v9) : FVec Ideal S1x64 .f32) = rowOf (Val.varT (H3 m c)) :=
  (v9_eq m ρ hy c).trans (congrArg rowOf ((v7_eq m ρ hy c).trans (congrArg Val.varT (h3_eq5 m ρ hy c))))
theorem g_eq (c : Dev nD) : (W7 m ρ hy c (Proc.devRef .tc main_v10) : FVec Ideal S1x64 .f32) = rowOf (m ((c.tc : Thread nD τ).loc main_arg3)) :=
  (v10_eq m ρ hy c).trans (congrArg rowOf (W6_untouched m ρ hy c main_arg3 (by decide) (by decide) (by decide) (by decide) (by decide) (by decide)))
theorem be_eq (c : Dev nD) : (W7 m ρ hy c (Proc.devRef .tc main_v11) : FVec Ideal S1x64 .f32) = rowOf (m ((c.tc : Thread nD τ).loc main_arg4)) :=
  (v11_eq m ρ hy c).trans (congrArg rowOf (W6_untouched m ρ hy c main_arg4 (by decide) (by decide) (by decide) (by decide) (by decide) (by decide)))

theorem v12_eq (c : Dev nD) : (W8 m ρ hy c (Proc.devRef .tc main_v12) : FVec Ideal S4x64x16384 .f32)
    = Val.bnAct (H3 m c) (rowOf (Val.meanT (H3 m c))) (rowOf (Val.varT (H3 m c))) (rowOf (m ((c.tc : Thread nD τ).loc main_arg3))) (rowOf (m ((c.tc : Thread nD τ).loc main_arg4))) :=
  (W8_arr m ρ hy c 5).trans ((Val.bn_array (V7 m ρ hy) c).trans
    (congr (congr (congr (congr (congrArg Val.bnAct (h3_eq m ρ hy c)) (mu_eq m ρ hy c)) (va_eq m ρ hy c)) (g_eq m ρ hy c)) (be_eq m ρ hy c)))

theorem kernel_value (c : Dev nD)
    (he : ∀ j, ((m ((c.tc : Thread nD τ).loc main_arg1) : IVec S4x16384x32 32) j : BitVec 32).toNat + 1 ≤ 16384)
    (b : Fin 4) (o : Fin 64) (n : Fin 16384) :
    (W8 (F := Ideal) m ρ hy c (Proc.devRef .tc main_v12) : FVec Ideal S4x64x16384 .f32) (ix3 b o n)
      = Cert.Spec.outK (m ((c.tc : Thread nD τ).loc main_arg0)) (m ((c.tc : Thread nD τ).loc main_arg1)) he
          (m ((c.tc : Thread nD τ).loc main_arg2)) (m ((c.tc : Thread nD τ).loc main_arg3)) (m ((c.tc : Thread nD τ).loc main_arg4)) b o n :=
  (congrFun (v12_eq m ρ hy c) (ix3 b o n)).trans
    (bnAct_apply (H3 m c) _ (fun b n o => sliceH_apply _ _ he _ b n o) _ _ b o n)

end Cert.KernelIdeal.KV

end
-- ==== Proof.RefRead.lean ====
import proofs.«405998_j76398878261701_2_alg».proof.Proof.RefTerm
import proofs.«405998_j76398878261701_2_alg».proof.Proof.SpecArgs
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.ReferenceIdeal.RefRead

open Cert.ReferenceIdeal Idealize.ShloMosaic Idealize.ShloMosaic.ValueIdx
open Cert.ReferenceIdeal.Facts₀ Cert.ReferenceIdeal.Facts
open scoped BigOperators

variable [Facts]

section Layout
variable {α : Type}

theorem bc_chan_apply (h : S64.BroadcastsInDim S1x64x1 (![1] : Fin 1 → Fin S1x64x1.rank)) (v : S64.Idx → α)
    (z : Fin 1) (o : Fin 64) (z' : Fin 1) :
    broadcastInDim S1x64x1 ![1] h v (ix3 z o z') = v (ix1 o) :=
  broadcastInDim_apply _ h v _ (ix1 o) fun a => match a with | ⟨0, _⟩ => rfl

theorem bc_full_apply (h : S1x64x1.BroadcastsInDim S4x64x16384 (![0, 1, 2] : Fin 3 → Fin S4x64x16384.rank))
    (v : S1x64x1.Idx → α) (b : Fin 4) (o : Fin 64) (n : Fin 16384) :
    broadcastInDim S4x64x16384 ![0, 1, 2] h v (ix3 b o n) = v (ix3 (0 : Fin 1) o (0 : Fin 1)) :=
  broadcastInDim_apply _ h v _ (ix3 (0 : Fin 1) o (0 : Fin 1)) fun a =>
    match a with | ⟨0, _⟩ => rfl | ⟨1, _⟩ => rfl | ⟨2, _⟩ => rfl

theorem bc_idx_apply (h : S4x16384x32.BroadcastsInDim S4x16384x32x1 (![0, 1, 2] : Fin 3 → Fin S4x16384x32x1.rank))
    (v : S4x16384x32.Idx → α) (b : Fin 4) (n : Fin 16384) (k : Fin 32) (z : Fin 1) :
    broadcastInDim S4x16384x32x1 ![0, 1, 2] h v (ix4 b n k z) = v (ix3 b n k) :=
  broadcastInDim_apply _ h v _ (ix3 b n k) fun a =>
    match a with | ⟨0, _⟩ => rfl | ⟨1, _⟩ => rfl | ⟨2, _⟩ => rfl

theorem tr_out_apply (h : S64x4x16384.Transposes [1, 0, 2] S4x64x16384) (v : S64x4x16384.Idx → α)
    (b : Fin 4) (o : Fin 64) (n : Fin 16384) :
    transpose S4x64x16384 [1, 0, 2] v h (ix3 b o n) = v (ix3 o b n) :=
  transpose_apply _ v h _ _ fun c => match c with | ⟨0, _⟩ => rfl | ⟨1, _⟩ => rfl | ⟨2, _⟩ => rfl

theorem tr_in_apply (h : S4x64x16384.Transposes [0, 2, 1] S4x16384x64) (v : S4x64x16384.Idx → α)
    (b : Fin 4) (n : Fin 16384) (c : Fin 64) :
    transpose S4x16384x64 [0, 2, 1] v h (ix3 b n c) = v (ix3 b c n) :=
  transpose_ix3_021_apply v h b n c

end Layout

section Gather
variable {α : Type} {w : Nat}

theorem gidx_0 (idx : IVec S4x16384x32x1 w) (j : S4x16384x32x64.Idx) :
    (gather_S4x16384x64_S4x16384x32x1_S4x16384x32x64_3_1_0_0_1_3_1164.operandIdx j idx 0).val = (j 0).val := by
  show gather_S4x16384x64_S4x16384x32x1_S4x16384x32x64_3_1_0_0_1_3_1164.start j idx 0
    + gather_S4x16384x64_S4x16384x32x1_S4x16384x32x64_3_1_0_0_1_3_1164.batchCoord j 0
    + gather_S4x16384x64_S4x16384x32x1_S4x16384x32x64_3_1_0_0_1_3_1164.offCoord j 0 = _
  rw [GatherDims.start_batching _ _ _ _ (by decide : (0 : Fin 3) ∈ ([0] : List (Fin 3))),
    GatherDims.offCoord_eq_zero _ _ _ (fun h => ((GatherDims.mem_sKept _ _).mp h).2 (by decide : (0 : Fin 3) ∈ ([0] : List (Fin 3))))]
  unfold GatherDims.batchCoord
  rw [dif_pos (show (0 : Fin S4x16384x64.rank) ∈ gather_S4x16384x64_S4x16384x32x1_S4x16384x32x64_3_1_0_0_1_3_1164.operandBatchingDims from (by decide : (0 : Fin 3) ∈ ([0] : List (Fin 3))))]
  simp only [Nat.zero_add, Nat.add_zero]
  rfl

theorem gidx_1 (idx : IVec S4x16384x32x1 w) (b : Fin 4) (n : Fin 16384) (k : Fin 32) (c : Fin 64) :
    (gather_S4x16384x64_S4x16384x32x1_S4x16384x32x64_3_1_0_0_1_3_1164.operandIdx (ix4 b n k c) idx 1).val
      = min (idx (ix4 b n k (0 : Fin 1))).toInt.toNat 16383 := by
  show gather_S4x16384x64_S4x16384x32x1_S4x16384x32x64_3_1_0_0_1_3_1164.start (ix4 b n k c) idx 1
    + gather_S4x16384x64_S4x16384x32x1_S4x16384x32x64_3_1_0_0_1_3_1164.batchCoord (ix4 b n k c) 1
    + gather_S4x16384x64_S4x16384x32x1_S4x16384x32x64_3_1_0_0_1_3_1164.offCoord (ix4 b n k c) 1 = _
  rw [GatherDims.batchCoord_eq_zero _ _ _ (by decide : (1 : Fin 3) ∉ ([0] : List (Fin 3))),
    GatherDims.offCoord_eq_zero _ _ _ (fun h => ((GatherDims.mem_sKept _ _).mp h).1 (by decide : (1 : Fin 3) ∈ ([1] : List (Fin 3))))]
  simp only [Nat.add_zero]
  unfold GatherDims.start
  rw [dif_pos (show (1 : Fin S4x16384x64.rank) ∈ gather_S4x16384x64_S4x16384x32x1_S4x16384x32x64_3_1_0_0_1_3_1164.startIndexMap from (by decide : (1 : Fin 3) ∈ ([1] : List (Fin 3))))]
  have hsi : gather_S4x16384x64_S4x16384x32x1_S4x16384x32x64_3_1_0_0_1_3_1164.siIdx (ix4 b n k c)
      ⟨List.idxOf (1 : Fin S4x16384x64.rank) gather_S4x16384x64_S4x16384x32x1_S4x16384x32x64_3_1_0_0_1_3_1164.startIndexMap,
        List.idxOf_lt_length_iff.2 (by decide : (1 : Fin 3) ∈ ([1] : List (Fin 3)))⟩ = ix4 b n k (0 : Fin 1) := by
    funext a; refine Fin.ext ?_
    match a with
    | ⟨0, _⟩ => rfl
    | ⟨1, _⟩ => rfl
    | ⟨2, _⟩ => rfl
    | ⟨3, _⟩ => rfl
  rw [hsi]
  rfl

theorem gidx_2 (idx : IVec S4x16384x32x1 w) (j : S4x16384x32x64.Idx) :
    (gather_S4x16384x64_S4x16384x32x1_S4x16384x32x64_3_1_0_0_1_3_1164.operandIdx j idx 2).val = (j 3).val := by
  show gather_S4x16384x64_S4x16384x32x1_S4x16384x32x64_3_1_0_0_1_3_1164.start j idx 2
    + gather_S4x16384x64_S4x16384x32x1_S4x16384x32x64_3_1_0_0_1_3_1164.batchCoord j 2
    + gather_S4x16384x64_S4x16384x32x1_S4x16384x32x64_3_1_0_0_1_3_1164.offCoord j 2 = _
  rw [GatherDims.batchCoord_eq_zero _ _ _ (by decide : (2 : Fin 3) ∉ ([0] : List (Fin 3)))]
  unfold GatherDims.start
  rw [dif_neg (show ¬(2 : Fin S4x16384x64.rank) ∈ gather_S4x16384x64_S4x16384x32x1_S4x16384x32x64_3_1_0_0_1_3_1164.startIndexMap from (by decide : (2 : Fin 3) ∉ ([1] : List (Fin 3))))]
  unfold GatherDims.offCoord
  rw [dif_pos (show (2 : Fin S4x16384x64.rank) ∈ gather_S4x16384x64_S4x16384x32x1_S4x16384x32x64_3_1_0_0_1_3_1164.sKept from (by decide : (2 : Fin 3) ∈ Shape.kept S4x16384x64 ([1] ++ [0] : List (Fin 3))))]
  simp only [Nat.zero_add, Nat.add_zero]
  rfl

theorem gather_apply (x : S4x16384x64.Idx → α) (idx : IVec S4x16384x32x1 w)
    (b : Fin 4) (n : Fin 16384) (k : Fin 32) (c : Fin 64) :
    Host.gather gather_S4x16384x64_S4x16384x32x1_S4x16384x32x64_3_1_0_0_1_3_1164 x idx (ix4 b n k c)
      = x (ix3 b ⟨min (idx (ix4 b n k (0 : Fin 1))).toInt.toNat 16383, by omega⟩ c) := by
  unfold Host.gather
  refine congrArg x (funext fun a => Fin.ext ?_)
  match a with
  | ⟨0, _⟩ => exact gidx_0 idx _
  | ⟨1, _⟩ => exact gidx_1 idx b n k c
  | ⟨2, _⟩ => exact gidx_2 idx _

end Gather

theorem sum_k_apply (v : FVec Ideal S4x16384x32x64 .f32) (init : FVec Ideal S_ .f32)
    (h : S4x16384x32x64.ReducesTo [2] S4x16384x64) (hu : 0 < S_.numel) (b : Fin 4) (n : Fin 16384) (c : Fin 64) :
    Host.reduceAdd (F := Ideal) v init h hu (ix3 b n c) = init ix0 + ∑ k : Fin 32, v (ix4 b n k c) := by
  rw [hostReduceAdd_apply, Ideal.hostReduceAdd_single h (by decide), eq_ix0 (Shape.Idx.first hu)]
  refine congrArg (_ + ·) (Finset.sum_congr rfl fun k _ => ?_)
  exact congrArg v (funext fun a => Fin.ext (by
    match a with | ⟨0, _⟩ => rfl | ⟨1, _⟩ => rfl | ⟨2, _⟩ => rfl | ⟨3, _⟩ => rfl))

theorem sum_bn_apply (v : FVec Ideal S4x64x16384 .f32) (init : FVec Ideal S_ .f32)
    (h : S4x64x16384.ReducesTo [0, 2] S64) (hu : 0 < S_.numel) (o : Fin 64) :
    Host.reduceAdd (F := Ideal) v init h hu (ix1 o)
      = init ix0 + ∑ k : Fin 65536, v (ix3 (Spec.bk k) o (Spec.nk k)) := by
  rw [hostReduceAdd_apply, eq_ix0 (Shape.Idx.first hu)]
  unfold Ideal.hostReduceAdd
  refine congrArg (_ + ·) ?_
  symm
  refine Finset.sum_nbij' (fun k => ix3 (Spec.bk k) o (Spec.nk k))
    (fun i => ⟨(i 0).val * 16384 + (i 2).val, by
      have h0 : (i 0).val < 4 := (i 0).isLt
      have h2 : (i 2).val < 16384 := (i 2).isLt
      omega⟩) ?_ (fun _ _ => Finset.mem_univ _) ?_ ?_ (fun _ _ => rfl)
  · intro k _
    refine Finset.mem_filter.2 ⟨Finset.mem_univ _, funext fun a => Fin.ext ?_⟩
    match a with | ⟨0, _⟩ => rfl
  · intro k _
    refine Fin.ext ?_
    show k.val / 16384 * 16384 + k.val % 16384 = k.val
    omega
  · intro i hi
    have hd := (Finset.mem_filter.1 hi).2
    have h1 : (i 1).val = o.val := congrArg (fun f : S64.Idx => (f 0).val) hd
    have h0 : (i 0).val < 4 := (i 0).isLt
    have h2 : (i 2).val < 16384 := (i 2).isLt
    funext a; refine Fin.ext ?_
    match a with
    | ⟨0, _⟩ => show ((i 0).val * 16384 + (i 2).val) / 16384 = (i 0).val; omega
    | ⟨1, _⟩ => exact h1.symm
    | ⟨2, _⟩ => show ((i 0).val * 16384 + (i 2).val) % 16384 = (i 2).val; omega

theorem lhs_0 (i : S64x4x16384.Idx) (q : dot_S64x64_S4x16384x64_S64x4x16384_1_2_0_01_n_n.contr.Idx) :
    (dot_S64x64_S4x16384x64_S64x4x16384_1_2_0_01_n_n.lhsIdx i q 0).val = (i 0).val := by
  unfold DotDims.lhsIdx
  rw [dif_neg (show ¬(0 : Fin S64x64.rank) ∈ dot_S64x64_S4x16384x64_S64x4x16384_1_2_0_01_n_n.lhsBatch from (by decide : (0 : Fin 2) ∉ ([] : List (Fin 2)))),
    dif_pos (show (0 : Fin S64x64.rank) ∈ dot_S64x64_S4x16384x64_S64x4x16384_1_2_0_01_n_n.lhsNonContracting from (by decide : (0 : Fin 2) ∈ ([0] : List (Fin 2))))]
  rfl

theorem lhs_1 (i : S64x4x16384.Idx) (q : dot_S64x64_S4x16384x64_S64x4x16384_1_2_0_01_n_n.contr.Idx) :
    (dot_S64x64_S4x16384x64_S64x4x16384_1_2_0_01_n_n.lhsIdx i q 1).val = (q ⟨0, Nat.one_pos⟩).val :=
  dot_S64x64_S4x16384x64_S64x4x16384_1_2_0_01_n_n.lhsIdx_val_of_single rfl i q

theorem rhs_0 (i : S64x4x16384.Idx) (q : dot_S64x64_S4x16384x64_S64x4x16384_1_2_0_01_n_n.contr.Idx) :
    (dot_S64x64_S4x16384x64_S64x4x16384_1_2_0_01_n_n.rhsIdx i q 0).val = (i 1).val := by
  unfold DotDims.rhsIdx
  rw [dif_neg (show ¬(0 : Fin S4x16384x64.rank) ∈ dot_S64x64_S4x16384x64_S64x4x16384_1_2_0_01_n_n.rhsBatch from (by decide : (0 : Fin 3) ∉ ([] : List (Fin 3)))),
    dif_pos (show (0 : Fin S4x16384x64.rank) ∈ dot_S64x64_S4x16384x64_S64x4x16384_1_2_0_01_n_n.rhsNonContracting from (by decide : (0 : Fin 3) ∈ ([0, 1] : List (Fin 3))))]
  rfl

theorem rhs_1 (i : S64x4x16384.Idx) (q : dot_S64x64_S4x16384x64_S64x4x16384_1_2_0_01_n_n.contr.Idx) :
    (dot_S64x64_S4x16384x64_S64x4x16384_1_2_0_01_n_n.rhsIdx i q 1).val = (i 2).val := by
  unfold DotDims.rhsIdx
  rw [dif_neg (show ¬(1 : Fin S4x16384x64.rank) ∈ dot_S64x64_S4x16384x64_S64x4x16384_1_2_0_01_n_n.rhsBatch from (by decide : (1 : Fin 3) ∉ ([] : List (Fin 3)))),
    dif_pos (show (1 : Fin S4x16384x64.rank) ∈ dot_S64x64_S4x16384x64_S64x4x16384_1_2_0_01_n_n.rhsNonContracting from (by decide : (1 : Fin 3) ∈ ([0, 1] : List (Fin 3))))]
  rfl

theorem rhs_2 (i : S64x4x16384.Idx) (q : dot_S64x64_S4x16384x64_S64x4x16384_1_2_0_01_n_n.contr.Idx) :
    (dot_S64x64_S4x16384x64_S64x4x16384_1_2_0_01_n_n.rhsIdx i q 2).val = (q ⟨0, Nat.one_pos⟩).val :=
  dot_S64x64_S4x16384x64_S64x4x16384_1_2_0_01_n_n.rhsIdx_val_of_single rfl i q

theorem dot_apply (l : FVec Ideal S64x64 .f32) (r : FVec Ideal S4x16384x64 .f32) (o : Fin 64) (b : Fin 4) (n : Fin 16384) :
    Host.dotGeneral (F := Ideal) dot_S64x64_S4x16384x64_S64x4x16384_1_2_0_01_n_n none l r (ix3 o b n) = ∑ c : Fin 64, l (ix2 o c) * r (ix3 b n c) := by
  simp only [Host.dotGeneral]
  rw [Ideal.dotGeneral_apply, ← Equiv.sum_comp (contrEquiv1 dot_S64x64_S4x16384x64_S64x4x16384_1_2_0_01_n_n 64 rfl rfl).symm]
  refine Finset.sum_congr rfl fun k _ => ?_
  have hk := contrEquiv1_symm_val dot_S64x64_S4x16384x64_S64x4x16384_1_2_0_01_n_n 64 rfl rfl k
  have el : dot_S64x64_S4x16384x64_S64x4x16384_1_2_0_01_n_n.lhsIdx (ix3 o b n) ((contrEquiv1 dot_S64x64_S4x16384x64_S64x4x16384_1_2_0_01_n_n 64 rfl rfl).symm k) = ix2 o k :=
    funext fun a => Fin.ext (by
      match a with
      | ⟨0, _⟩ => exact lhs_0 _ _
      | ⟨1, _⟩ => exact (lhs_1 _ _).trans hk)
  have er : dot_S64x64_S4x16384x64_S64x4x16384_1_2_0_01_n_n.rhsIdx (ix3 o b n) ((contrEquiv1 dot_S64x64_S4x16384x64_S64x4x16384_1_2_0_01_n_n 64 rfl rfl).symm k) = ix3 b n k :=
    funext fun a => Fin.ext (by
      match a with
      | ⟨0, _⟩ => exact rhs_0 _ _
      | ⟨1, _⟩ => exact rhs_1 _ _
      | ⟨2, _⟩ => exact (rhs_2 _ _).trans hk)
  rw [el, er]

theorem cmpi_apply {s : Shape} {w : Nat} (p : CmpIPredicate) (a c : IVec s w) (i : s.Idx) :
    cmpi p a c i = IntOp.cmpi p (a i) (c i) := rfl

theorem addi_apply {s : Shape} {w : Nat} (a c : IVec s w) (i : s.Idx) : addi a c i = IntOp.addi (a i) (c i) := rfl

theorem hostRsqrt_apply {s : Shape} {φ : FTy} (a : FVec Ideal s φ) (i : s.Idx) :
    Host.rsqrt a i = Ideal.rsqrt (a i) := rfl

theorem toInt_of_small (a : BitVec 32) (ha : a.toNat + 1 ≤ 16384) : a.toInt = (a.toNat : Int) := by
  rw [BitVec.toInt_eq_toNat_cond]
  split
  · rfl
  · omega

theorem wrap_word (a : BitVec 32) (ha : a.toNat + 1 ≤ 16384) :
    Scalar.select (IntOp.cmpi .slt a 0#32) (IntOp.addi a 16384#32) a = a := by
  have h0 : IntOp.cmpi .slt a 0#32 = 0#1 := by
    show BitVec.ofBool (a.slt 0#32) = 0#1
    have hs : a.slt 0#32 = false := by
      unfold BitVec.slt
      rw [toInt_of_small a ha]
      simp
    rw [hs]; rfl
  rw [h0, select_zero]

theorem clamp_word (a : BitVec 32) (ha : a.toNat + 1 ≤ 16384) : min a.toInt.toNat 16383 = a.toNat := by
  rw [toInt_of_small a ha, Int.toNat_natCast]
  omega

theorem sitofp_zero : FloatOps.sitofp (F := Ideal) .f32 (0#32 : BitVec 32) = (0 : EReal) := by
  show (((0#32 : BitVec 32).toInt : ℝ) : EReal) = 0
  simp

theorem cntW_real : Ideal.ofBits .f32 0x47800000#32 = ((65536 : ℝ) : EReal) := by
  simp [Ideal.ofBits, Ideal.ieee, -EReal.coe_mul]; norm_num

theorem guard_one :
    FloatOps.cmpf (F := Ideal) (φ := .f32) .ogt (Ideal.ofBits .f32 0x47800000#32) (Ideal.ofBits .f32 0x00000000#32) = 1#1 := by
  rw [Ideal.cmpf_def, cntW_real, Ideal.ofBits_zero_f32]
  unfold Ideal.cmp
  have : (0 : EReal) < ((65536 : ℝ) : EReal) := by exact_mod_cast (by norm_num : (0 : ℝ) < 65536)
  simp [this]

section Stretches
open Cert.ReferenceIdeal.HandRun

theorem refAct_apply (g β : FVec Ideal S64 .f32) (h : FVec Ideal S4x64x16384 .f32) (mu var : FVec Ideal S1x64x1 .f32)
    (b : Fin 4) (o : Fin 64) (n : Fin 16384) :
    refAct (F := Ideal) g β h mu var (ix3 b o n)
      = Spec.leaky (Spec.vOf g o * ((h (ix3 b o n) - mu (ix3 (0 : Fin 1) o (0 : Fin 1)))
          * Ideal.rsqrt (var (ix3 (0 : Fin 1) o (0 : Fin 1)) + Spec.epsW)) + Spec.vOf β o) := by
  simp only [refAct]
  simp only [select_apply, cmpf_apply, mulf_apply, addf_apply, subf_apply]
  repeat rw [bc_full_apply]
  repeat rw [bc_chan_apply]
  simp only [hostRsqrt_apply, addf_apply]
  repeat rw [broadcastInDim_scalar_apply]
  simp only [constant_apply]
  rfl

theorem refMean_apply (h : FVec Ideal S4x64x16384 .f32) (o : Fin 64) :
    refMean (F := Ideal) h (ix3 (0 : Fin 1) o (0 : Fin 1)) = Spec.mean (fun b o n => h (ix3 b o n)) o := by
  simp only [refMean]
  simp only [hostDivf_apply]
  rw [bc_chan_apply, sum_bn_apply, broadcastInDim_scalar_apply]
  simp only [constant_apply]
  rfl

theorem refVar_apply (h : FVec Ideal S4x64x16384 .f32) (o : Fin 64) :
    refVar (F := Ideal) h (ix3 (0 : Fin 1) o (0 : Fin 1)) = Spec.var (fun b o n => h (ix3 b o n)) o := by
  simp only [refVar]
  simp only [select_apply, hostDivf_apply]
  repeat rw [broadcastInDim_scalar_apply]
  simp only [cmpf_apply, subf_apply, sitofp_apply, constantI_apply, constant_apply, sitofp_zero, guard_one, select_one, sub_zero]
  rw [bc_chan_apply, sum_bn_apply]
  simp only [mulf_apply, subf_apply, constant_apply]
  unfold Spec.var
  refine congrArg (fun s => Ideal.div (Spec.zeroW + s) Spec.cntW) (Finset.sum_congr rfl fun k _ => ?_)
  rw [bc_full_apply]
  simp only [hostDivf_apply]
  rw [bc_chan_apply, sum_bn_apply, broadcastInDim_scalar_apply]
  simp only [constant_apply]
  rfl

theorem refH_apply (x : FVec Ideal S4x64x16384 .f32) (e : IVec S4x16384x32 32) (w : FVec Ideal S64x64 .f32)
    (he : ∀ j, (e j : BitVec 32).toNat + 1 ≤ 16384) (b : Fin 4) (o : Fin 64) (n : Fin 16384) :
    refH (F := Ideal) x e w (ix3 b o n) = Spec.hR (Spec.xOf x) (Spec.wOf w) (Spec.nbOf e he) b o n := by
  simp only [refH]
  rw [tr_out_apply, dot_apply]
  unfold Spec.hR Spec.xOf Spec.wOf
  refine Finset.sum_congr rfl fun c _ => ?_
  refine congrArg (w (ix2 o c) * ·) ?_
  simp only [hostDivf_apply]
  rw [sum_k_apply, broadcastInDim_scalar_apply]
  simp only [constant_apply]
  refine congrArg (fun s => Ideal.div (Ideal.ofBits .f32 0x00000000#32 + s) (Ideal.ofBits .f32 0x42000000#32))
    (Finset.sum_congr rfl fun k _ => ?_)
  rw [gather_apply, tr_in_apply]
  refine congrArg (fun m => x (ix3 b c m)) (Fin.ext ?_)
  show min _ 16383 = (e (ix3 b n k)).toNat
  rw [bc_idx_apply]
  simp only [select_apply, cmpi_apply, addi_apply]
  repeat rw [broadcastInDim_scalar_apply]
  simp only [constantI_apply]
  rw [wrap_word _ (he _), clamp_word _ (he _)]

end Stretches

theorem refOut_apply (x : FVec Ideal S4x64x16384 .f32) (e : IVec S4x16384x32 32) (w : FVec Ideal S64x64 .f32)
    (g β : FVec Ideal S64 .f32) (he : ∀ j, (e j : BitVec 32).toNat + 1 ≤ 16384) (b : Fin 4) (o : Fin 64) (n : Fin 16384) :
    Cert.ReferenceIdeal.HandRun.refOut (F := Ideal) x e w g β (ValueIdx.ix3 b o n) = Cert.Spec.outR x e he w g β b o n := by
  have hH : (fun b o n => HandRun.refH (F := Ideal) x e w (ix3 b o n))
      = Spec.hR (Spec.xOf x) (Spec.wOf w) (Spec.nbOf e he) :=
    funext fun b => funext fun o => funext fun n => refH_apply x e w he b o n
  simp only [HandRun.refOut]
  rw [refAct_apply, refMean_apply, refVar_apply, hH, refH_apply x e w he]
  rfl

end Cert.ReferenceIdeal.RefRead

end
-- ==== Proof.lean ====
import proofs.«405998_j76398878261701_2_alg».proof.Defs
import proofs.«405998_j76398878261701_2_alg».proof.Proof.Gen.Kernel
import proofs.«405998_j76398878261701_2_alg».proof.Proof.Gen.KernelIdeal
import proofs.«405998_j76398878261701_2_alg».proof.Proof.Gen.ReferenceIdeal
import proofs.«405998_j76398878261701_2_alg».proof.Proof.Gen.Pre_finite_inputs
import proofs.«405998_j76398878261701_2_alg».proof.Proof.K.Run
import proofs.«405998_j76398878261701_2_alg».proof.Proof.K.HypsOfPre
import proofs.«405998_j76398878261701_2_alg».proof.Proof.KI.Run
import proofs.«405998_j76398878261701_2_alg».proof.Proof.KI.HypsOfPre
import proofs.«405998_j76398878261701_2_alg».proof.Proof.RefRun
import proofs.«405998_j76398878261701_2_alg».proof.Proof.PreFacts
import proofs.«405998_j76398878261701_2_alg».proof.Proof.KI.KValue
import proofs.«405998_j76398878261701_2_alg».proof.Proof.RefRead
import proofs.«405998_j76398878261701_2_alg».proof.Proof.Bridge
import proofs.«405998_j76398878261701_2_alg».proof.Proof.SpecArgs
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ hpre => Cert.Kernel.Fr.frame m ρ
    (fun c => Cert.Kernel.Fr.blocks_of_pre m hpre (Cert.Kernel.Fr.V3 m ρ) c (Cert.Kernel.Fr.V3_main_arg1 m ρ c))

theorem frame_ki : Cert.frame_KernelIdeal (hKernelIdeal := Cert.KernelIdeal.Gen.facts) (hPre_finite_inputs := Cert.Pre_finite_inputs.Gen.facts) :=
  fun m ρ hpre => Cert.KernelIdeal.Fr.frame m ρ
    (fun c => Cert.KernelIdeal.Fr.hyps1_of_pre m hpre (Cert.KernelIdeal.Fr.V3 m ρ) c (Cert.KernelIdeal.Fr.V3_main_arg1 m ρ c))

theorem frame_r : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.HandRun.run (F := Ideal) m ρ)

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  have hy : ∀ c : Dev Cert.KernelIdeal.nD, Cert.KernelIdeal.Fr.Hyps1 (Cert.KernelIdeal.Fr.V3 m ρ) c :=
    fun c => Cert.KernelIdeal.Fr.hyps1_of_pre m hpre (Cert.KernelIdeal.Fr.V3 m ρ) c (Cert.KernelIdeal.Fr.V3_main_arg1 m ρ c)
  refine ⟨fun c => Cert.KernelIdeal.Fr.W8 m ρ hy c (Proc.devRef .tc Cert.KernelIdeal.main_v12), Cert.KernelIdeal.Fr.result m ρ hy, ?_⟩
  refine (θ_run Cert.ReferenceIdeal.defs _ _).mono (fun _ h c => ⟨(h c).1.trans ?_, (h c).2⟩)
    (Cert.ReferenceIdeal.HandRun.run (F := Ideal) m' ρ')
  have he := Cert.KernelIdeal.Fr.arg1_range m hpre c
  rw [(hagree c).1, (hagree c).2.1, (hagree c).2.2.1, (hagree c).2.2.2.1, (hagree c).2.2.2.2]
  funext j
  obtain ⟨b, o, n, rfl⟩ : ∃ (b : Fin 4) (o : Fin 64) (n : Fin 16384), j = ValueIdx.ix3 b o n := ⟨j 0, j 1, j 2, ValueIdx.eq_ix3 j⟩
  rw [Cert.ReferenceIdeal.RefRead.refOut_apply _ _ _ _ _ he b o n]
  refine Eq.trans ?_ (Cert.KernelIdeal.KV.kernel_value m ρ hy c he b o n).symm
  exact (congrFun (congrFun (congrFun (Cert.Spec.post_hK_eq_post_hR _ _ _ _ _
    (fun b c' n => Cert.PreFacts.finite_x _ _ _ _ _ (hpre c) (ValueIdx.ix3 b c' n))
    (fun o c' => Cert.PreFacts.finite_w _ _ _ _ _ (hpre c) (ValueIdx.ix2 o c'))) b) o) n).symm

theorem claim : Cert.Claim := ⟨Cert.Kernel.Gen.facts, Cert.KernelIdeal.Gen.facts, Cert.ReferenceIdeal.Gen.facts, Cert.Pre_finite_inputs.Gen.facts,
  frame_k, frame_ki, frame_r, trivial, algebraic⟩

end Cert.Proof

end
